-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x64 : Shape := ⟨3, ![4, 10000, 64]⟩
abbrev S2x2x320000 : Shape := ⟨3, ![2, 2, 320000]⟩
abbrev S2x320000 : Shape := ⟨2, ![2, 320000]⟩
abbrev S2x3x64x128 : Shape := ⟨4, ![2, 3, 64, 128]⟩
abbrev S128 : Shape := ⟨1, ![128]⟩
abbrev S2x3x128x128 : Shape := ⟨4, ![2, 3, 128, 128]⟩
abbrev S_ : Shape := ⟨0, ![]⟩

class Facts : Prop where
  bcast_S_S4x10000x64 : S_.BroadcastsInDim S4x10000x64 (![] : Fin 0 → Fin S4x10000x64.rank)
  reducesTo_S4x10000x64_S_d0_1_2 : S4x10000x64.ReducesTo [0, 1, 2] S_
  h_S_ : 0 < S_.numel
  bcast_S_S2x320000 : S_.BroadcastsInDim S2x320000 (![] : Fin 0 → Fin S2x320000.rank)
  reducesTo_S2x320000_S_d0_1 : S2x320000.ReducesTo [0, 1] S_
  bcast_S_S2x3x64x128 : S_.BroadcastsInDim S2x3x64x128 (![] : Fin 0 → Fin S2x3x64x128.rank)
  reducesTo_S2x3x64x128_S_d0_1_2_3 : S2x3x64x128.ReducesTo [0, 1, 2, 3] S_
  bcast_S_S128 : S_.BroadcastsInDim S128 (![] : Fin 0 → Fin S128.rank)
  reducesTo_S128_S_d0 : S128.ReducesTo [0] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x2x320000 : S_.BroadcastsInDim S2x2x320000 (![] : Fin 0 → Fin S2x2x320000.rank)
  reducesTo_S2x2x320000_S_d0_1_2 : S2x2x320000.ReducesTo [0, 1, 2] S_

variable [Facts]

def fn_part2 {F : FTy → Type} [FloatOps F] (main_v28 : IVec S_ 1) (main_v33 : IVec S2x2x320000 1) : IVec S_ 1 :=
  let main_c_12 : IVec S_ 1 := constantI S_ 1 1#1
  let main_v34 : IVec S_ 1 := (fun x v => Host.reduce IntOp.andi x v reducesTo_S2x2x320000_S_d0_1_2 h_S_) main_v33 main_c_12
  let main_v35 : IVec S_ 1 := andi main_v28 main_v34
  main_v35

def fn_part1 {F : FTy → Type} [FloatOps F] (main_arg1 : IVec S2x2x320000 32) (main_arg5 : FVec F S2x3x128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x3x128x128 .f32 := Host.absf main_arg5
  let main_cst_6 : FVec F S_ .f32 := constant S_ .f32 0x7F800000#32
  let main_v20 : FVec F S2x3x128x128 .f32 := broadcastInDim S2x3x128x128 ![] bcast_S_S2x3x128x128 main_cst_6
  let main_v21 : IVec S2x3x128x128 1 := cmpf .olt main_v19 main_v20
  let main_c_7 : IVec S_ 1 := constantI S_ 1 1#1
  let main_v22 : IVec S_ 1 := (fun x v => Host.reduce IntOp.andi x v reducesTo_S2x3x128x128_S_d0_1_2_3 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x2x320000 32 := broadcastInDim S2x2x320000 ![] bcast_S_S2x2x320000 main_c_10
  let main_v30 : IVec S2x2x320000 1 := cmpi .sge main_arg1 main_v29
  let main_c_11 : IVec S_ 32 := constantI S_ 32 10000#32
  let main_v31 : IVec S2x2x320000 32 := broadcastInDim S2x2x320000 ![] bcast_S_S2x2x320000 main_c_11
  let main_v32 : IVec S2x2x320000 1 := cmpi .slt main_arg1 main_v31
  let main_v33 : IVec S2x2x320000 1 := andi main_v30 main_v32
  fn_part2 (F := F) main_v28 main_v33

def fn {F : FTy → Type} [FloatOps F] (main_arg0 : FVec F S4x10000x64 .f32) (main_arg1 : IVec S2x2x320000 32) (main_arg2 : FVec F S2x320000 .f32) (main_arg3 : FVec F S2x3x64x128 .f32) (main_arg4 : FVec F S128 .f32) (main_arg5 : FVec F S2x3x128x128 .f32) (main_arg6 : FVec F S128 .f32) : IVec S_ 1 :=
  let main_v0 : FVec F S4x10000x64 .f32 := Host.absf main_arg0
  let main_cst : FVec F S_ .f32 := constant S_ .f32 0x7F800000#32
  let main_v1 : FVec F S4x10000x64 .f32 := broadcastInDim S4x10000x64 ![] bcast_S_S4x10000x64 main_cst
  let main_v2 : IVec S4x10000x64 1 := cmpf .olt main_v0 main_v1
  let main_c : IVec S_ 1 := constantI S_ 1 1#1
  let main_v3 : IVec S_ 1 := (fun x v => Host.reduce IntOp.andi x v reducesTo_S4x10000x64_S_d0_1_2 h_S_) main_v2 main_c
  let main_v4 : FVec F S2x320000 .f32 := Host.absf main_arg2
  let main_cst_0 : FVec F S_ .f32 := constant S_ .f32 0x7F800000#32
  let main_v5 : FVec F S2x320000 .f32 := broadcastInDim S2x320000 ![] bcast_S_S2x320000 main_cst_0
  let main_v6 : IVec S2x320000 1 := cmpf .olt main_v4 main_v5
  let main_c_1 : IVec S_ 1 := constantI S_ 1 1#1
  let main_v7 : IVec S_ 1 := (fun x v => Host.reduce IntOp.andi x v reducesTo_S2x320000_S_d0_1 h_S_) main_v6 main_c_1
  let main_v8 : IVec S_ 1 := andi main_v3 main_v7
  let main_v9 : FVec F S2x3x64x128 .f32 := Host.absf main_arg3
  let main_cst_2 : FVec F S_ .f32 := constant S_ .f32 0x7F800000#32
  let main_v10 : FVec F S2x3x64x128 .f32 := broadcastInDim S2x3x64x128 ![] bcast_S_S2x3x64x128 main_cst_2
  let main_v11 : IVec S2x3x64x128 1 := cmpf .olt main_v9 main_v10
  let main_c_3 : IVec S_ 1 := constantI S_ 1 1#1
  let main_v12 : IVec S_ 1 := (fun x v => Host.reduce IntOp.andi x v reducesTo_S2x3x64x128_S_d0_1_2_3 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S4x10000x64 : Shape := ⟨3, ![4, 10000, 64]⟩
abbrev S2x2x320000 : Shape := ⟨3, ![2, 2, 320000]⟩
abbrev S2x320000 : Shape := ⟨2, ![2, 320000]⟩
abbrev S2x3x64x128 : Shape := ⟨4, ![2, 3, 64, 128]⟩
abbrev S128 : Shape := ⟨1, ![128]⟩
abbrev S2x3x128x128 : Shape := ⟨4, ![2, 3, 128, 128]⟩
abbrev S1x1x320000 : Shape := ⟨3, ![1, 1, 320000]⟩
abbrev S320000 : Shape := ⟨1, ![320000]⟩
abbrev S1x320000 : Shape := ⟨2, ![1, 320000]⟩
abbrev S_ : Shape := ⟨0, ![]⟩
abbrev S10240x10240 : Shape := ⟨2, ![10240, 10240]⟩
abbrev S320000x1 : Shape := ⟨2, ![320000, 1]⟩
abbrev S320000x2 : Shape := ⟨2, ![320000, 2]⟩
abbrev S10000x4x64 : Shape := ⟨3, ![10000, 4, 64]⟩
abbrev S10240x4x64 : Shape := ⟨3, ![10240, 4, 64]⟩
abbrev S10240x256 : Shape := ⟨2, ![10240, 256]⟩
abbrev S40960x128 : Shape := ⟨2, ![40960, 128]⟩
abbrev S40960x64 : Shape := ⟨2, ![40960, 64]⟩
abbrev S1x1x64x128 : Shape := ⟨4, ![1, 1, 64, 128]⟩
abbrev S64x128 : Shape := ⟨2, ![64, 128]⟩
abbrev S8192x64 : Shape := ⟨2, ![8192, 64]⟩
abbrev S8192x128 : Shape := ⟨2, ![8192, 128]⟩
abbrev S2048x2048 : Shape := ⟨2, ![2048, 2048]⟩
abbrev S2048x256 : Shape := ⟨2, ![2048, 256]⟩
abbrev S10240x4x128 : Shape := ⟨3, ![10240, 4, 128]⟩
abbrev S10240x512 : Shape := ⟨2, ![10240, 512]⟩
abbrev S1x1x128x128 : Shape := ⟨4, ![1, 1, 128, 128]⟩
abbrev S128x128 : Shape := ⟨2, ![128, 128]⟩
abbrev S2048x512 : Shape := ⟨2, ![2048, 512]⟩
abbrev S1x4x128 : Shape := ⟨3, ![1, 4, 128]⟩
abbrev S4x128 : Shape := ⟨2, ![4, 128]⟩

abbrev nBuf : Space → Nat
  | .hbm => 143
  | .vmem => 152
  | .smem => 0
  | _ => 0

abbrev hbmTy0_0 (i : Nat) : BufTy := match i % 128 with
  | 0 => ⟨S4x10000x64, .f32⟩
  | 1 => ⟨S2x2x320000, .i32⟩
  | 2 => ⟨S2x320000, .f32⟩
  | 3 => ⟨S2x3x64x128, .f32⟩
  | 4 => ⟨S128, .f32⟩
  | 5 => ⟨S2x3x128x128, .f32⟩
  | 6 => ⟨S128, .f32⟩
  | 7 => ⟨S1x1x320000, .i32⟩
  | 8 => ⟨S320000, .i32⟩
  | 9 => ⟨S1x1x320000, .i32⟩
  | 10 => ⟨S320000, .i32⟩
  | 11 => ⟨S1x320000, .f32⟩
  | 12 => ⟨S320000, .f32⟩
  | 13 => ⟨S_, .f32⟩
  | 14 => ⟨S10240x10240, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x1, .i32⟩
  | 31 => ⟨S320000x2, .i32⟩
  | 32 => ⟨S10240x10240, .f32⟩
  | 33 => ⟨S10240x10240, .bf16⟩
  | 34 => ⟨S1x1x320000, .i32⟩
  | 35 => ⟨S320000, .i32⟩
  | 36 => ⟨S1x1x320000, .i32⟩
  | 37 => ⟨S320000, .i32⟩
  | 38 => ⟨S1x320000, .f32⟩
  | 39 => ⟨S320000, .f32⟩
  | 40 => ⟨S_, .f32⟩
  | 41 => ⟨S10240x10240, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x1, .i32⟩
  | 58 => ⟨S320000x2, .i32⟩
  | 59 => ⟨S10240x10240, .f32⟩
  | 60 => ⟨S10240x10240, .bf16⟩
  | 61 => ⟨S10000x4x64, .f32⟩
  | 62 => ⟨S_, .i32⟩
  | 63 => ⟨S_, .f32⟩
  | 64 => ⟨S10240x4x64, .f32⟩
  | 65 => ⟨S10240x256, .f32⟩
  | 66 => ⟨S10240x256, .bf16⟩
  | 67 => ⟨S40960x128, .f32⟩
  | 68 => ⟨S40960x64, .bf16⟩
  | 69 => ⟨S1x1x64x128, .f32⟩
  | 70 => ⟨S64x128, .f32⟩
  | 71 => ⟨S64x128, .bf16⟩
  | 72 => ⟨S40960x128, .f32⟩
  | 73 => ⟨S10240x256, .bf16⟩
  | 74 => ⟨S40960x64, .bf16⟩
  | 75 => ⟨S1x1x64x128, .f32⟩
  | 76 => ⟨S64x128, .f32⟩
  | 77 => ⟨S64x128, .bf16⟩
  | 78 => ⟨S40960x128, .f32⟩
  | 79 => ⟨S10240x256, .bf16⟩
  | 80 => ⟨S40960x64, .bf16⟩
  | 81 => ⟨S1x1x64x128, .f32⟩
  | 82 => ⟨S64x128, .f32⟩
  | 83 => ⟨S64x128, .bf16⟩
  | 84 => ⟨S40960x128, .f32⟩
  | 85 => ⟨S40960x64, .bf16⟩
  | 86 => ⟨S1x1x64x128, .f32⟩
  | 87 => ⟨S64x128, .f32⟩
  | 88 => ⟨S64x128, .bf16⟩
  | 89 => ⟨S40960x128, .f32⟩
  | 90 => ⟨S10240x256, .bf16⟩
  | 91 => ⟨S40960x64, .bf16⟩
  | 92 => ⟨S1x1x64x128, .f32⟩
  | 93 => ⟨S64x128, .f32⟩
  | 94 => ⟨S64x128, .bf16⟩
  | 95 => ⟨S40960x128, .f32⟩
  | 96 => ⟨S10240x256, .bf16⟩
  | 97 => ⟨S40960x64, .bf16⟩
  | 98 => ⟨S1x1x64x128, .f32⟩
  | 99 => ⟨S64x128, .f32⟩
  | 100 => ⟨S64x128, .bf16⟩
  | 101 => ⟨S40960x128, .f32⟩
  | 102 => ⟨S10240x4x128, .f32⟩
  | 103 => ⟨S10240x512, .f32⟩
  | 104 => ⟨S10240x512, .bf16⟩
  | 105 => ⟨S40960x128, .f32⟩
  | 106 => ⟨S40960x128, .bf16⟩
  | 107 => ⟨S1x1x128x128, .f32⟩
  | 108 => ⟨S128x128, .f32⟩
  | 109 => ⟨S128x128, .bf16⟩
  | 110 => ⟨S40960x128, .f32⟩
  | 111 => ⟨S10240x512, .bf16⟩
  | 112 => ⟨S40960x128, .bf16⟩
  | 113 => ⟨S1x1x128x128, .f32⟩
  | 114 => ⟨S128x128, .f32⟩
  | 115 => ⟨S128x128, .bf16⟩
  | 116 => ⟨S40960x128, .f32⟩
  | 117 => ⟨S10240x512, .bf16⟩
  | 118 => ⟨S40960x128, .bf16⟩
  | 119 => ⟨S1x1x128x128, .f32⟩
  | 120 => ⟨S128x128, .f32⟩
  | 121 => ⟨S128x128, .bf16⟩
  | 122 => ⟨S40960x128, .f32⟩
  | 123 => ⟨S40960x128, .bf16⟩
  | 124 => ⟨S1x1x128x128, .f32⟩
  | 125 => ⟨S128x128, .f32⟩
  | 126 => ⟨S128x128, .bf16⟩
  | 127 => ⟨S40960x128, .f32⟩
  | _ => ⟨S4x10000x64, .f32⟩

abbrev hbmTy0_1 (i : Nat) : BufTy := match i % 128 with
  | 0 => ⟨S10240x512, .bf16⟩
  | 1 => ⟨S40960x128, .bf16⟩
  | 2 => ⟨S1x1x128x128, .f32⟩
  | 3 => ⟨S128x128, .f32⟩
  | 4 => ⟨S128x128, .bf16⟩
  | 5 => ⟨S40960x128, .f32⟩
  | 6 => ⟨S10240x512, .bf16⟩
  | 7 => ⟨S40960x128, .bf16⟩
  | 8 => ⟨S1x1x128x128, .f32⟩
  | 9 => ⟨S128x128, .f32⟩
  | 10 => ⟨S128x128, .bf16⟩
  | 11 => ⟨S40960x128, .f32⟩
  | 12 => ⟨S10240x4x128, .f32⟩
  | 13 => ⟨S1x4x128, .f32⟩
  | 14 => ⟨S4x128, .f32⟩
  | _ => ⟨S4x10000x64, .f32⟩

abbrev hbmTy (i : Nat) : BufTy := match i / 128 with
  | 0 => hbmTy0_0 i
  | 1 => hbmTy0_1 i
  | _ => ⟨S4x10000x64, .f32⟩

abbrev vmemTy0_0 (i : Nat) : BufTy := match i % 128 with
  | 0 => ⟨S8192x64, .bf16⟩
  | 1 => ⟨S8192x64, .bf16⟩
  | 2 => ⟨S64x128, .bf16⟩
  | 3 => ⟨S8192x128, .f32⟩
  | 4 => ⟨S8192x128, .f32⟩
  | 5 => ⟨S8192x128, .f32⟩
  | 6 => ⟨S8192x128, .f32⟩
  | 7 => ⟨S8192x128, .f32⟩
  | 8 => ⟨S2048x2048, .bf16⟩
  | 9 => ⟨S2048x2048, .bf16⟩
  | 10 => ⟨S2048x256, .bf16⟩
  | 11 => ⟨S2048x256, .bf16⟩
  | 12 => ⟨S2048x256, .bf16⟩
  | 13 => ⟨S2048x256, .bf16⟩
  | 14 => ⟨S2048x256, .f32⟩
  | 15 => ⟨S8192x64, .bf16⟩
  | 16 => ⟨S8192x64, .bf16⟩
  | 17 => ⟨S64x128, .bf16⟩
  | 18 => ⟨S8192x128, .f32⟩
  | 19 => ⟨S8192x128, .f32⟩
  | 20 => ⟨S8192x128, .f32⟩
  | 21 => ⟨S8192x128, .f32⟩
  | 22 => ⟨S8192x128, .f32⟩
  | 23 => ⟨S2048x2048, .bf16⟩
  | 24 => ⟨S2048x2048, .bf16⟩
  | 25 => ⟨S2048x256, .bf16⟩
  | 26 => ⟨S2048x256, .bf16⟩
  | 27 => ⟨S2048x256, .bf16⟩
  | 28 => ⟨S2048x256, .bf16⟩
  | 29 => ⟨S2048x256, .f32⟩
  | 30 => ⟨S8192x64, .bf16⟩
  | 31 => ⟨S8192x64, .bf16⟩
  | 32 => ⟨S64x128, .bf16⟩
  | 33 => ⟨S8192x128, .f32⟩
  | 34 => ⟨S8192x128, .f32⟩
  | 35 => ⟨S8192x128, .f32⟩
  | 36 => ⟨S8192x128, .f32⟩
  | 37 => ⟨S8192x128, .f32⟩
  | 38 => ⟨S8192x64, .bf16⟩
  | 39 => ⟨S8192x64, .bf16⟩
  | 40 => ⟨S64x128, .bf16⟩
  | 41 => ⟨S8192x128, .f32⟩
  | 42 => ⟨S8192x128, .f32⟩
  | 43 => ⟨S8192x128, .f32⟩
  | 44 => ⟨S8192x128, .f32⟩
  | 45 => ⟨S8192x128, .f32⟩
  | 46 => ⟨S2048x2048, .bf16⟩
  | 47 => ⟨S2048x2048, .bf16⟩
  | 48 => ⟨S2048x256, .bf16⟩
  | 49 => ⟨S2048x256, .bf16⟩
  | 50 => ⟨S2048x256, .bf16⟩
  | 51 => ⟨S2048x256, .bf16⟩
  | 52 => ⟨S2048x256, .f32⟩
  | 53 => ⟨S8192x64, .bf16⟩
  | 54 => ⟨S8192x64, .bf16⟩
  | 55 => ⟨S64x128, .bf16⟩
  | 56 => ⟨S8192x128, .f32⟩
  | 57 => ⟨S8192x128, .f32⟩
  | 58 => ⟨S8192x128, .f32⟩
  | 59 => ⟨S8192x128, .f32⟩
  | 60 => ⟨S8192x128, .f32⟩
  | 61 => ⟨S2048x2048, .bf16⟩
  | 62 => ⟨S2048x2048, .bf16⟩
  | 63 => ⟨S2048x256, .bf16⟩
  | 64 => ⟨S2048x256, .bf16⟩
  | 65 => ⟨S2048x256, .bf16⟩
  | 66 => ⟨S2048x256, .bf16⟩
  | 67 => ⟨S2048x256, .f32⟩
  | 68 => ⟨S8192x64, .bf16⟩
  | 69 => ⟨S8192x64, .bf16⟩
  | 70 => ⟨S64x128, .bf16⟩
  | 71 => ⟨S8192x128, .f32⟩
  | 72 => ⟨S8192x128, .f32⟩
  | 73 => ⟨S8192x128, .f32⟩
  | 74 => ⟨S8192x128, .f32⟩
  | 75 => ⟨S8192x128, .f32⟩
  | 76 => ⟨S8192x128, .bf16⟩
  | 77 => ⟨S8192x128, .bf16⟩
  | 78 => ⟨S128x128, .bf16⟩
  | 79 => ⟨S8192x128, .f32⟩
  | 80 => ⟨S8192x128, .f32⟩
  | 81 => ⟨S8192x128, .f32⟩
  | 82 => ⟨S8192x128, .f32⟩
  | 83 => ⟨S8192x128, .f32⟩
  | 84 => ⟨S2048x2048, .bf16⟩
  | 85 => ⟨S2048x2048, .bf16⟩
  | 86 => ⟨S2048x512, .bf16⟩
  | 87 => ⟨S2048x512, .bf16⟩
  | 88 => ⟨S2048x512, .bf16⟩
  | 89 => ⟨S2048x512, .bf16⟩
  | 90 => ⟨S2048x512, .f32⟩
  | 91 => ⟨S8192x128, .bf16⟩
  | 92 => ⟨S8192x128, .bf16⟩
  | 93 => ⟨S128x128, .bf16⟩
  | 94 => ⟨S8192x128, .f32⟩
  | 95 => ⟨S8192x128, .f32⟩
  | 96 => ⟨S8192x128, .f32⟩
  | 97 => ⟨S8192x128, .f32⟩
  | 98 => ⟨S8192x128, .f32⟩
  | 99 => ⟨S2048x2048, .bf16⟩
  | 100 => ⟨S2048x2048, .bf16⟩
  | 101 => ⟨S2048x512, .bf16⟩
  | 102 => ⟨S2048x512, .bf16⟩
  | 103 => ⟨S2048x512, .bf16⟩
  | 104 => ⟨S2048x512, .bf16⟩
  | 105 => ⟨S2048x512, .f32⟩
  | 106 => ⟨S8192x128, .bf16⟩
  | 107 => ⟨S8192x128, .bf16⟩
  | 108 => ⟨S128x128, .bf16⟩
  | 109 => ⟨S8192x128, .f32⟩
  | 110 => ⟨S8192x128, .f32⟩
  | 111 => ⟨S8192x128, .f32⟩
  | 112 => ⟨S8192x128, .f32⟩
  | 113 => ⟨S8192x128, .f32⟩
  | 114 => ⟨S8192x128, .bf16⟩
  | 115 => ⟨S8192x128, .bf16⟩
  | 116 => ⟨S128x128, .bf16⟩
  | 117 => ⟨S8192x128, .f32⟩
  | 118 => ⟨S8192x128, .f32⟩
  | 119 => ⟨S8192x128, .f32⟩
  | 120 => ⟨S8192x128, .f32⟩
  | 121 => ⟨S8192x128, .f32⟩
  | 122 => ⟨S2048x2048, .bf16⟩
  | 123 => ⟨S2048x2048, .bf16⟩
  | 124 => ⟨S2048x512, .bf16⟩
  | 125 => ⟨S2048x512, .bf16⟩
  | 126 => ⟨S2048x512, .bf16⟩
  | 127 => ⟨S2048x512, .bf16⟩
  | _ => ⟨S4x10000x64, .f32⟩

abbrev vmemTy0_1 (i : Nat) : BufTy := match i % 128 with
  | 0 => ⟨S2048x512, .f32⟩
  | 1 => ⟨S8192x128, .bf16⟩
  | 2 => ⟨S8192x128, .bf16⟩
  | 3 => ⟨S128x128, .bf16⟩
  | 4 => ⟨S8192x128, .f32⟩
  | 5 => ⟨S8192x128, .f32⟩
  | 6 => ⟨S8192x128, .f32⟩
  | 7 => ⟨S8192x128, .f32⟩
  | 8 => ⟨S8192x128, .f32⟩
  | 9 => ⟨S2048x2048, .bf16⟩
  | 10 => ⟨S2048x2048, .bf16⟩
  | 11 => ⟨S2048x512, .bf16⟩
  | 12 => ⟨S2048x512, .bf16⟩
  | 13 => ⟨S2048x512, .bf16⟩
  | 14 => ⟨S2048x512, .bf16⟩
  | 15 => ⟨S2048x512, .f32⟩
  | 16 => ⟨S8192x128, .bf16⟩
  | 17 => ⟨S8192x128, .bf16⟩
  | 18 => ⟨S128x128, .bf16⟩
  | 19 => ⟨S8192x128, .f32⟩
  | 20 => ⟨S8192x128, .f32⟩
  | 21 => ⟨S8192x128, .f32⟩
  | 22 => ⟨S8192x128, .f32⟩
  | 23 => ⟨S8192x128, .f32⟩
  | _ => ⟨S4x10000x64, .f32⟩

abbrev vmemTy (i : Nat) : BufTy := match i / 128 with
  | 0 => vmemTy0_0 i
  | 1 => vmemTy0_1 i
  | _ => ⟨S4x10000x64, .f32⟩

abbrev bufTy : (tb : Table) → Fin (tcTables nBuf tb) → BufTy
  | .hbm, ⟨i, _⟩ => hbmTy i
  | .local _ .vmem, ⟨i, _⟩ => vmemTy i
  | _, _ => ⟨S4x10000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_call0_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_scratch0 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_scratch0 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc7_scratch0 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg1_1 : Ref sig .tc := ⟨.vmem, 64, rfl⟩
abbrev cc8_stg2_0 : Ref sig .tc := ⟨.vmem, 65, rfl⟩
abbrev cc8_stg2_1 : Ref sig .tc := ⟨.vmem, 66, rfl⟩
abbrev cc8_scratch0 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg2_1 : Ref sig .tc := ⟨.vmem, 72, rfl⟩
abbrev cc9_stg3_0 : Ref sig .tc := ⟨.vmem, 73, rfl⟩
abbrev cc9_stg3_1 : Ref sig .tc := ⟨.vmem, 74, rfl⟩
abbrev cc9_scratch0 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg2_0 : Ref sig .tc := ⟨.vmem, 79, rfl⟩
abbrev cc10_stg2_1 : Ref sig .tc := ⟨.vmem, 80, rfl⟩
abbrev cc10_stg3_0 : Ref sig .tc := ⟨.vmem, 81, rfl⟩
abbrev cc10_stg3_1 : Ref sig .tc := ⟨.vmem, 82, rfl⟩
abbrev cc10_scratch0 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg1_1 : Ref sig .tc := ⟨.vmem, 87, rfl⟩
abbrev cc11_stg2_0 : Ref sig .tc := ⟨.vmem, 88, rfl⟩
abbrev cc11_stg2_1 : Ref sig .tc := ⟨.vmem, 89, rfl⟩
abbrev cc11_scratch0 : Ref sig .tc := ⟨.vmem, 90, rfl⟩
abbrev cc12_stg0_0 : Ref sig .tc := ⟨.vmem, 91, rfl⟩
abbrev cc12_stg0_1 : Ref sig .tc := ⟨.vmem, 92, rfl⟩
abbrev cc12_stg1_0 : Ref sig .tc := ⟨.vmem, 93, rfl⟩
abbrev cc12_stg2_0 : Ref sig .tc := ⟨.vmem, 94, rfl⟩
abbrev cc12_stg2_1 : Ref sig .tc := ⟨.vmem, 95, rfl⟩
abbrev cc12_stg3_0 : Ref sig .tc := ⟨.vmem, 96, rfl⟩
abbrev cc12_stg3_1 : Ref sig .tc := ⟨.vmem, 97, rfl⟩
abbrev cc12_scratch0 : Ref sig .tc := ⟨.vmem, 98, rfl⟩
abbrev cc13_stg0_0 : Ref sig .tc := ⟨.vmem, 99, rfl⟩
abbrev cc13_stg0_1 : Ref sig .tc := ⟨.vmem, 100, rfl⟩
abbrev cc13_stg1_0 : Ref sig .tc := ⟨.vmem, 101, rfl⟩
abbrev cc13_stg1_1 : Ref sig .tc := ⟨.vmem, 102, rfl⟩
abbrev cc13_stg2_0 : Ref sig .tc := ⟨.vmem, 103, rfl⟩
abbrev cc13_stg2_1 : Ref sig .tc := ⟨.vmem, 104, rfl⟩
abbrev cc13_scratch0 : Ref sig .tc := ⟨.vmem, 105, rfl⟩
abbrev cc14_stg0_0 : Ref sig .tc := ⟨.vmem, 106, rfl⟩
abbrev cc14_stg0_1 : Ref sig .tc := ⟨.vmem, 107, rfl⟩
abbrev cc14_stg1_0 : Ref sig .tc := ⟨.vmem, 108, rfl⟩
abbrev cc14_stg2_0 : Ref sig .tc := ⟨.vmem, 109, rfl⟩
abbrev cc14_stg2_1 : Ref sig .tc := ⟨.vmem, 110, rfl⟩
abbrev cc14_stg3_0 : Ref sig .tc := ⟨.vmem, 111, rfl⟩
abbrev cc14_stg3_1 : Ref sig .tc := ⟨.vmem, 112, rfl⟩
abbrev cc14_scratch0 : Ref sig .tc := ⟨.vmem, 113, rfl⟩
abbrev cc15_stg0_0 : Ref sig .tc := ⟨.vmem, 114, rfl⟩
abbrev cc15_stg0_1 : Ref sig .tc := ⟨.vmem, 115, rfl⟩
abbrev cc15_stg1_0 : Ref sig .tc := ⟨.vmem, 116, rfl⟩
abbrev cc15_stg2_0 : Ref sig .tc := ⟨.vmem, 117, rfl⟩
abbrev cc15_stg2_1 : Ref sig .tc := ⟨.vmem, 118, rfl⟩
abbrev cc15_stg3_0 : Ref sig .tc := ⟨.vmem, 119, rfl⟩
abbrev cc15_stg3_1 : Ref sig .tc := ⟨.vmem, 120, rfl⟩
abbrev cc15_scratch0 : Ref sig .tc := ⟨.vmem, 121, rfl⟩
abbrev cc16_stg0_0 : Ref sig .tc := ⟨.vmem, 122, rfl⟩
abbrev cc16_stg0_1 : Ref sig .tc := ⟨.vmem, 123, rfl⟩
abbrev cc16_stg1_0 : Ref sig .tc := ⟨.vmem, 124, rfl⟩
abbrev cc16_stg1_1 : Ref sig .tc := ⟨.vmem, 125, rfl⟩
abbrev cc16_stg2_0 : Ref sig .tc := ⟨.vmem, 126, rfl⟩
abbrev cc16_stg2_1 : Ref sig .tc := ⟨.vmem, 127, rfl⟩
abbrev cc16_scratch0 : Ref sig .tc := ⟨.vmem, 128, rfl⟩
abbrev cc17_stg0_0 : Ref sig .tc := ⟨.vmem, 129, rfl⟩
abbrev cc17_stg0_1 : Ref sig .tc := ⟨.vmem, 130, rfl⟩
abbrev cc17_stg1_0 : Ref sig .tc := ⟨.vmem, 131, rfl⟩
abbrev cc17_stg2_0 : Ref sig .tc := ⟨.vmem, 132, rfl⟩
abbrev cc17_stg2_1 : Ref sig .tc := ⟨.vmem, 133, rfl⟩
abbrev cc17_stg3_0 : Ref sig .tc := ⟨.vmem, 134, rfl⟩
abbrev cc17_stg3_1 : Ref sig .tc := ⟨.vmem, 135, rfl⟩
abbrev cc17_scratch0 : Ref sig .tc := ⟨.vmem, 136, rfl⟩
abbrev cc18_stg0_0 : Ref sig .tc := ⟨.vmem, 137, rfl⟩
abbrev cc18_stg0_1 : Ref sig .tc := ⟨.vmem, 138, rfl⟩
abbrev cc18_stg1_0 : Ref sig .tc := ⟨.vmem, 139, rfl⟩
abbrev cc18_stg1_1 : Ref sig .tc := ⟨.vmem, 140, rfl⟩
abbrev cc18_stg2_0 : Ref sig .tc := ⟨.vmem, 141, rfl⟩
abbrev cc18_stg2_1 : Ref sig .tc := ⟨.vmem, 142, rfl⟩
abbrev cc18_scratch0 : Ref sig .tc := ⟨.vmem, 143, rfl⟩
abbrev cc19_stg0_0 : Ref sig .tc := ⟨.vmem, 144, rfl⟩
abbrev cc19_stg0_1 : Ref sig .tc := ⟨.vmem, 145, rfl⟩
abbrev cc19_stg1_0 : Ref sig .tc := ⟨.vmem, 146, rfl⟩
abbrev cc19_stg2_0 : Ref sig .tc := ⟨.vmem, 147, rfl⟩
abbrev cc19_stg2_1 : Ref sig .tc := ⟨.vmem, 148, rfl⟩
abbrev cc19_stg3_0 : Ref sig .tc := ⟨.vmem, 149, rfl⟩
abbrev cc19_stg3_1 : Ref sig .tc := ⟨.vmem, 150, rfl⟩
abbrev cc19_scratch0 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem2_1 : DmaSem sig := 50
abbrev cc7_sem3_0 : DmaSem sig := 51
abbrev cc7_sem3_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem2_1 : DmaSem sig := 58
abbrev cc9_sem0_0 : DmaSem sig := 59
abbrev cc9_sem0_1 : DmaSem sig := 60
abbrev cc9_sem1_0 : DmaSem sig := 61
abbrev cc9_sem2_0 : DmaSem sig := 62
abbrev cc9_sem2_1 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem2_1 : DmaSem sig := 70
abbrev cc10_sem3_0 : DmaSem sig := 71
abbrev cc10_sem3_1 : DmaSem sig := 72
abbrev cc11_sem0_0 : DmaSem sig := 73
abbrev cc11_sem0_1 : DmaSem sig := 74
abbrev cc11_sem1_0 : DmaSem sig := 75
abbrev cc11_sem1_1 : DmaSem sig := 76
abbrev cc11_sem2_0 : DmaSem sig := 77
abbrev cc11_sem2_1 : DmaSem sig := 78
abbrev cc12_sem0_0 : DmaSem sig := 79
abbrev cc12_sem0_1 : DmaSem sig := 80
abbrev cc12_sem1_0 : DmaSem sig := 81
abbrev cc12_sem2_0 : DmaSem sig := 82
abbrev cc12_sem2_1 : DmaSem sig := 83
abbrev cc12_sem3_0 : DmaSem sig := 84
abbrev cc12_sem3_1 : DmaSem sig := 85
abbrev cc13_sem0_0 : DmaSem sig := 86
abbrev cc13_sem0_1 : DmaSem sig := 87
abbrev cc13_sem1_0 : DmaSem sig := 88
abbrev cc13_sem1_1 : DmaSem sig := 89
abbrev cc13_sem2_0 : DmaSem sig := 90
abbrev cc13_sem2_1 : DmaSem sig := 91
abbrev cc14_sem0_0 : DmaSem sig := 92
abbrev cc14_sem0_1 : DmaSem sig := 93
abbrev cc14_sem1_0 : DmaSem sig := 94
abbrev cc14_sem2_0 : DmaSem sig := 95
abbrev cc14_sem2_1 : DmaSem sig := 96
abbrev cc14_sem3_0 : DmaSem sig := 97
abbrev cc14_sem3_1 : DmaSem sig := 98
abbrev cc15_sem0_0 : DmaSem sig := 99
abbrev cc15_sem0_1 : DmaSem sig := 100
abbrev cc15_sem1_0 : DmaSem sig := 101
abbrev cc15_sem2_0 : DmaSem sig := 102
abbrev cc15_sem2_1 : DmaSem sig := 103
abbrev cc15_sem3_0 : DmaSem sig := 104
abbrev cc15_sem3_1 : DmaSem sig := 105
abbrev cc16_sem0_0 : DmaSem sig := 106
abbrev cc16_sem0_1 : DmaSem sig := 107
abbrev cc16_sem1_0 : DmaSem sig := 108
abbrev cc16_sem1_1 : DmaSem sig := 109
abbrev cc16_sem2_0 : DmaSem sig := 110
abbrev cc16_sem2_1 : DmaSem sig := 111
abbrev cc17_sem0_0 : DmaSem sig := 112
abbrev cc17_sem0_1 : DmaSem sig := 113
abbrev cc17_sem1_0 : DmaSem sig := 114
abbrev cc17_sem2_0 : DmaSem sig := 115
abbrev cc17_sem2_1 : DmaSem sig := 116
abbrev cc17_sem3_0 : DmaSem sig := 117
abbrev cc17_sem3_1 : DmaSem sig := 118
abbrev cc18_sem0_0 : DmaSem sig := 119
abbrev cc18_sem0_1 : DmaSem sig := 120
abbrev cc18_sem1_0 : DmaSem sig := 121
abbrev cc18_sem1_1 : DmaSem sig := 122
abbrev cc18_sem2_0 : DmaSem sig := 123
abbrev cc18_sem2_1 : DmaSem sig := 124
abbrev cc19_sem0_0 : DmaSem sig := 125
abbrev cc19_sem0_1 : DmaSem sig := 126
abbrev cc19_sem1_0 : DmaSem sig := 127
abbrev cc19_sem2_0 : DmaSem sig := 128
abbrev cc19_sem2_1 : DmaSem sig := 129
abbrev cc19_sem3_0 : DmaSem sig := 130
abbrev cc19_sem3_1 : DmaSem sig := 131

abbrev nD : Nat := 1
abbrev τ : Topo := Topo.v7x

variable {F : FTy → Type} [FloatOps F]

abbrev grid0 : Pipeline.Grid := ⟨2, ![5, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![5, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![5, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![5, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![5, 1], ![false, false]⟩

def k4_cond2 (i : grid4.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8192x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S64x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S8192x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S8192x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![5, 1], ![false, false]⟩

def k5_cond2 (i : grid5.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8192x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S64x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S8192x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S8192x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![5, 5], ![false, false]⟩

def k6_cond2 (i : grid6.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2048x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![5, 1], ![false, false]⟩

def k7_cond2 (i : grid7.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S8192x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S64x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S8192x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S8192x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![5, 5], ![false, false]⟩

def k8_cond2 (i : grid8.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S2048x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![5, 1], ![false, false]⟩

def k9_cond2 (i : grid9.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S8192x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S64x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S8192x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S8192x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![5, 1], ![false, false]⟩

def k10_cond2 (i : grid10.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S8192x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S128x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 2 → Memref sig .tc .vmem S8192x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S8192x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![5, 5], ![false, false]⟩

def k11_cond2 (i : grid11.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S2048x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S2048x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S2048x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev grid12 : Pipeline.Grid := ⟨2, ![5, 1], ![false, false]⟩

def k12_cond2 (i : grid12.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S8192x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 1 → Memref sig .tc .vmem S128x128 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 2 → Memref sig .tc .vmem S8192x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev stage12_3 : Fin 2 → Memref sig .tc .vmem S8192x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, false]

abbrev grid13 : Pipeline.Grid := ⟨2, ![5, 5], ![false, false]⟩

def k13_cond2 (i : grid13.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S2048x2048 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S2048x512 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S2048x512 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, false]

abbrev grid14 : Pipeline.Grid := ⟨2, ![5, 1], ![false, false]⟩

def k14_cond2 (i : grid14.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S8192x128 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 1 → Memref sig .tc .vmem S128x128 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true]

abbrev stage14_2 : Fin 2 → Memref sig .tc .vmem S8192x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

abbrev stage14_3 : Fin 2 → Memref sig .tc .vmem S8192x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, false]

abbrev grid15 : Pipeline.Grid := ⟨2, ![5, 1], ![false, false]⟩

def k15_cond2 (i : grid15.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 2 → Memref sig .tc .vmem S8192x128 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 1 → Memref sig .tc .vmem S128x128 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, true]

abbrev stage15_2 : Fin 2 → Memref sig .tc .vmem S8192x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, false]

abbrev stage15_3 : Fin 2 → Memref sig .tc .vmem S8192x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, false]

abbrev grid16 : Pipeline.Grid := ⟨2, ![5, 5], ![false, false]⟩

def k16_cond2 (i : grid16.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 2 → Memref sig .tc .vmem S2048x2048 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S2048x512 .bf16 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S2048x512 .bf16 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, false]

abbrev grid17 : Pipeline.Grid := ⟨2, ![5, 1], ![false, false]⟩

def k17_cond2 (i : grid17.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage17_0 : Fin 2 → Memref sig .tc .vmem S8192x128 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, true]

abbrev stage17_1 : Fin 1 → Memref sig .tc .vmem S128x128 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false, true]

abbrev stage17_2 : Fin 2 → Memref sig .tc .vmem S8192x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, false]

abbrev stage17_3 : Fin 2 → Memref sig .tc .vmem S8192x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true, false]

abbrev grid18 : Pipeline.Grid := ⟨2, ![5, 5], ![false, false]⟩

def k18_cond2 (i : grid18.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage18_0 : Fin 2 → Memref sig .tc .vmem S2048x2048 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, true]

abbrev stage18_1 : Fin 2 → Memref sig .tc .vmem S2048x512 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true]

abbrev stage18_2 : Fin 2 → Memref sig .tc .vmem S2048x512 .bf16 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, false]

abbrev grid19 : Pipeline.Grid := ⟨2, ![5, 1], ![false, false]⟩

def k19_cond2 (i : grid19.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc19_transform_0 (i : grid19.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc19_transform_2 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage19_0 : Fin 2 → Memref sig .tc .vmem S8192x128 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, true]

abbrev stage19_1 : Fin 1 → Memref sig .tc .vmem S128x128 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false, true]

abbrev stage19_2 : Fin 2 → Memref sig .tc .vmem S8192x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true, false]

abbrev stage19_3 : Fin 2 → Memref sig .tc .vmem S8192x128 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true, false]

class Facts₀ : Prop where
  slices_S2x2x320000_S1x1x320000_0_0_0 : S2x2x320000.Slices ![0, 0, 0] S1x1x320000
  shapeCasts_S1x1x320000_S320000 : S1x1x320000.ShapeCasts S320000
  slices_S2x2x320000_S1x1x320000_0_1_0 : S2x2x320000.Slices ![0, 1, 0] S1x1x320000
  slices_S2x320000_S1x320000_0_0 : S2x320000.Slices ![0, 0] S1x320000
  shapeCasts_S1x320000_S320000 : S1x320000.ShapeCasts S320000
  bcast_S_S10240x10240 : S_.BroadcastsInDim S10240x10240 (![] : Fin 0 → Fin S10240x10240.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bitsLt_bf16_f32 : FTy.bits .bf16 < FTy.bits .f32
  slices_S2x2x320000_S1x1x320000_1_0_0 : S2x2x320000.Slices ![1, 0, 0] S1x1x320000
  slices_S2x2x320000_S1x1x320000_1_1_0 : S2x2x320000.Slices ![1, 1, 0] S1x1x320000
  slices_S2x320000_S1x320000_1_0 : S2x320000.Slices ![1, 0] S1x320000
  transposes_S4x10000x64_S10000x4x64_1_0_2 : S4x10000x64.Transposes [1, 0, 2] S10000x4x64
  pads_S10000x4x64_S10240x4x64_02400_000_000 : S10000x4x64.Pads (![0, 0, 0] : Fin 3 → Nat) ![240, 0, 0] ![0, 0, 0] S10240x4x64
  h_S_ : 0 < S_.numel
  shapeCasts_S10240x4x64_S10240x256 : S10240x4x64.ShapeCasts S10240x256
  bcast_S128_S40960x128_1 : S128.BroadcastsInDim S40960x128 (![1] : Fin 1 → Fin S40960x128.rank)
  shapeCasts_S10240x256_S40960x64 : S10240x256.ShapeCasts S40960x64
  slices_S2x3x64x128_S1x1x64x128_0_0_0_0 : S2x3x64x128.Slices ![0, 0, 0, 0] S1x1x64x128
  shapeCasts_S1x1x64x128_S64x128 : S1x1x64x128.ShapeCasts S64x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x256_S2048x256_0_0 : (Rect.unit (s := S2048x256) ![0, 0] S2048x256.size inb_S2048x256_S2048x256_0_0).PackedRows (EltTy.packing .bf16)
  slices_S2x3x64x128_S1x1x64x128_0_1_0_0 : S2x3x64x128.Slices ![0, 1, 0, 0] S1x1x64x128
  slices_S2x3x64x128_S1x1x64x128_0_2_0_0 : S2x3x64x128.Slices ![0, 2, 0, 0] S1x1x64x128
  slices_S2x3x64x128_S1x1x64x128_1_0_0_0 : S2x3x64x128.Slices ![1, 0, 0, 0] S1x1x64x128
  slices_S2x3x64x128_S1x1x64x128_1_1_0_0 : S2x3x64x128.Slices ![1, 1, 0, 0] S1x1x64x128
  slices_S2x3x64x128_S1x1x64x128_1_2_0_0 : S2x3x64x128.Slices ![1, 2, 0, 0] S1x1x64x128
  shapeCasts_S40960x128_S10240x4x128 : S40960x128.ShapeCasts S10240x4x128
  shapeCasts_S10240x4x128_S10240x512 : S10240x4x128.ShapeCasts S10240x512
  shapeCasts_S10240x512_S40960x128 : S10240x512.ShapeCasts S40960x128
  slices_S2x3x128x128_S1x1x128x128_0_0_0_0 : S2x3x128x128.Slices ![0, 0, 0, 0] S1x1x128x128
  shapeCasts_S1x1x128x128_S128x128 : S1x1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  slices_S2x3x128x128_S1x1x128x128_0_1_0_0 : S2x3x128x128.Slices ![0, 1, 0, 0] S1x1x128x128
  slices_S2x3x128x128_S1x1x128x128_0_2_0_0 : S2x3x128x128.Slices ![0, 2, 0, 0] S1x1x128x128
  slices_S2x3x128x128_S1x1x128x128_1_0_0_0 : S2x3x128x128.Slices ![1, 0, 0, 0] S1x1x128x128
  slices_S2x3x128x128_S1x1x128x128_1_1_0_0 : S2x3x128x128.Slices ![1, 1, 0, 0] S1x1x128x128
  slices_S2x3x128x128_S1x1x128x128_1_2_0_0 : S2x3x128x128.Slices ![1, 2, 0, 0] S1x1x128x128
  slices_S10240x4x128_S1x4x128_0_0_0 : S10240x4x128.Slices ![0, 0, 0] S1x4x128
  shapeCasts_S1x4x128_S4x128 : S1x4x128.ShapeCasts S4x128
  scatter_S10240x10240_S320000x2_S320000_n_01_01_1_wf : ScatterDims.WF S10240x10240 S320000x2 S320000 [] [0, 1] [0, 1] 1
  dot_S8192x64_S64x128_S8192x128_1_0_0_1_n_n_wf : DotDims.WF S8192x64 S64x128 S8192x128 [1] [0] [0] [1] [] []
  dot_S2048x2048_S2048x256_S2048x256_1_0_0_1_n_n_wf : DotDims.WF S2048x2048 S2048x256 S2048x256 [1] [0] [0] [1] [] []
  dot_S8192x128_S128x128_S8192x128_1_0_0_1_n_n_wf : DotDims.WF S8192x128 S128x128 S8192x128 [1] [0] [0] [1] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S40960x64.size a
  hwx0_0 : ∀ i : grid0.Coords, EltTy.bits .bf16 = 32 ∨ (Rect.block (s := S40960x64) S8192x64.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S40960x128.size a
  hwx0_2 : ∀ i : grid0.Coords, EltTy.bits .f32 = 32 ∨ (Rect.block (s := S40960x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S40960x128.size a
  hwx0_3 : ∀ i : grid0.Coords, EltTy.bits .f32 = 32 ∨ (Rect.block (s := S40960x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S10240x256.size a
  hwx1_2 : ∀ i : grid1.Coords, EltTy.bits .bf16 = 32 ∨ (Rect.block (s := S10240x256) S2048x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S40960x64.size a
  hwx2_0 : ∀ i : grid2.Coords, EltTy.bits .bf16 = 32 ∨ (Rect.block (s := S40960x64) S8192x64.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .bf16 = 32 ∨ (Rect.block (s := S64x128) S64x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S40960x128.size a
  hwx2_2 : ∀ i : grid2.Coords, EltTy.bits .f32 = 32 ∨ (Rect.block (s := S40960x128) S8192x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S40960x128.size a
  hwx2_3 : ∀ i : grid2.Coords, EltTy.bits .f32 = 32 ∨ (Rect.block (s := S40960x128) S8192x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S10240x10240.size a
  hwx3_0 : ∀ i : grid3.Coords, EltTy.bits .bf16 = 32 ∨ (Rect.block (s := S10240x10240) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S10240x256.size a
  hwx3_1 : ∀ i : grid3.Coords, EltTy.bits .bf16 = 32 ∨ (Rect.block (s := S10240x256) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S10240x256.size a
  hwx3_2 : ∀ i : grid3.Coords, EltTy.bits .bf16 = 32 ∨ (Rect.block (s := S10240x256) S2048x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S40960x64.size a
  hwx4_0 : ∀ i : grid4.Coords, EltTy.bits .bf16 = 32 ∨ (Rect.block (s := S40960x64) S8192x64.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .bf16 = 32 ∨ (Rect.block (s := S64x128) S64x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x128.size a ≤ S40960x128.size a
  hwx4_2 : ∀ i : grid4.Coords, EltTy.bits .f32 = 32 ∨ (Rect.block (s := S40960x128) S8192x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x128.size a ≤ S40960x128.size a
  hwx4_3 : ∀ i : grid4.Coords, EltTy.bits .f32 = 32 ∨ (Rect.block (s := S40960x128) S8192x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S40960x64.size a
  hwx5_0 : ∀ i : grid5.Coords, EltTy.bits .bf16 = 32 ∨ (Rect.block (s := S40960x64) S8192x64.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .bf16 = 32 ∨ (Rect.block (s := S64x128) S64x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x128.size a ≤ S40960x128.size a
  hwx5_2 : ∀ i : grid5.Coords, EltTy.bits .f32 = 32 ∨ (Rect.block (s := S40960x128) S8192x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x128.size a ≤ S40960x128.size a
  hwx5_3 : ∀ i : grid5.Coords, EltTy.bits .f32 = 32 ∨ (Rect.block (s := S40960x128) S8192x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x2048.size a ≤ S10240x10240.size a
  hwx6_0 : ∀ i : grid6.Coords, EltTy.bits .bf16 = 32 ∨ (Rect.block (s := S10240x10240) S2048x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S10240x256.size a
  hwx6_1 : ∀ i : grid6.Coords, EltTy.bits .bf16 = 32 ∨ (Rect.block (s := S10240x256) S2048x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x256.size a ≤ S10240x256.size a
  hwx6_2 : ∀ i : grid6.Coords, EltTy.bits .bf16 = 32 ∨ (Rect.block (s := S10240x256) S2048x256.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x64.size a ≤ S40960x64.size a
  hwx7_0 : ∀ i : grid7.Coords, EltTy.bits .bf16 = 32 ∨ (Rect.block (s := S40960x64) S8192x64.size (cc7_transform_0 i) (hinb7_0 i)).WholeWords (EltTy.packing .bf16)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .bf16 = 32 ∨ (Rect.block (s := S64x128) S64x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x128.size a ≤ S40960x128.size a
  hwx7_2 : ∀ i : grid7.Coords, EltTy.bits .f32 = 32 ∨ (Rect.block (s := S40960x128) S8192x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8192x128.size a ≤ S40960x128.size a
  hwx7_3 : ∀ i : grid7.Coords, EltTy.bits .f32 = 32 ∨ (Rect.block (s := S40960x128) S8192x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x2048.size a ≤ S10240x10240.size a
  hwx8_0 : ∀ i : grid8.Coords, EltTy.bits .bf16 = 32 ∨ (Rect.block (s := S10240x10240) S2048x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S10240x256.size a
  hwx8_1 : ∀ i : grid8.Coords, EltTy.bits .bf16 = 32 ∨ (Rect.block (s := S10240x256) S2048x256.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x256.size a ≤ S10240x256.size a
  hwx8_2 : ∀ i : grid8.Coords, EltTy.bits .bf16 = 32 ∨ (Rect.block (s := S10240x256) S2048x256.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x64.size a ≤ S40960x64.size a
  hwx9_0 : ∀ i : grid9.Coords, EltTy.bits .bf16 = 32 ∨ (Rect.block (s := S40960x64) S8192x64.size (cc9_transform_0 i) (hinb9_0 i)).WholeWords (EltTy.packing .bf16)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S64x128.size a ≤ S64x128.size a
  hwx9_1 : ∀ i : grid9.Coords, EltTy.bits .bf16 = 32 ∨ (Rect.block (s := S64x128) S64x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x128.size a ≤ S40960x128.size a
  hwx9_2 : ∀ i : grid9.Coords, EltTy.bits .f32 = 32 ∨ (Rect.block (s := S40960x128) S8192x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S8192x128.size a ≤ S40960x128.size a
  hwx9_3 : ∀ i : grid9.Coords, EltTy.bits .f32 = 32 ∨ (Rect.block (s := S40960x128) S8192x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x128.size a ≤ S40960x128.size a
  hwx10_0 : ∀ i : grid10.Coords, EltTy.bits .bf16 = 32 ∨ (Rect.block (s := S40960x128) S8192x128.size (cc10_transform_0 i) (hinb10_0 i)).WholeWords (EltTy.packing .bf16)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .bf16 = 32 ∨ (Rect.block (s := S128x128) S128x128.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8192x128.size a ≤ S40960x128.size a
  hwx10_2 : ∀ i : grid10.Coords, EltTy.bits .f32 = 32 ∨ (Rect.block (s := S40960x128) S8192x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8192x128.size a ≤ S40960x128.size a
  hwx10_3 : ∀ i : grid10.Coords, EltTy.bits .f32 = 32 ∨ (Rect.block (s := S40960x128) S8192x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x2048.size a ≤ S10240x10240.size a
  hwx11_0 : ∀ i : grid11.Coords, EltTy.bits .bf16 = 32 ∨ (Rect.block (s := S10240x10240) S2048x2048.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x512.size a ≤ S10240x512.size a
  hwx11_1 : ∀ i : grid11.Coords, EltTy.bits .bf16 = 32 ∨ (Rect.block (s := S10240x512) S2048x512.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2048x512.size a ≤ S10240x512.size a
  hwx11_2 : ∀ i : grid11.Coords, EltTy.bits .bf16 = 32 ∨ (Rect.block (s := S10240x512) S2048x512.size (cc11_transform_2 i) (hinb11_2 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8192x128.size a ≤ S40960x128.size a
  hwx12_0 : ∀ i : grid12.Coords, EltTy.bits .bf16 = 32 ∨ (Rect.block (s := S40960x128) S8192x128.size (cc12_transform_0 i) (hinb12_0 i)).WholeWords (EltTy.packing .bf16)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .bf16 = 32 ∨ (Rect.block (s := S128x128) S128x128.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8192x128.size a ≤ S40960x128.size a
  hwx12_2 : ∀ i : grid12.Coords, EltTy.bits .f32 = 32 ∨ (Rect.block (s := S40960x128) S8192x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S8192x128.size a ≤ S40960x128.size a
  hwx12_3 : ∀ i : grid12.Coords, EltTy.bits .f32 = 32 ∨ (Rect.block (s := S40960x128) S8192x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x2048.size a ≤ S10240x10240.size a
  hwx13_0 : ∀ i : grid13.Coords, EltTy.bits .bf16 = 32 ∨ (Rect.block (s := S10240x10240) S2048x2048.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2048x512.size a ≤ S10240x512.size a
  hwx13_1 : ∀ i : grid13.Coords, EltTy.bits .bf16 = 32 ∨ (Rect.block (s := S10240x512) S2048x512.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2048x512.size a ≤ S10240x512.size a
  hwx13_2 : ∀ i : grid13.Coords, EltTy.bits .bf16 = 32 ∨ (Rect.block (s := S10240x512) S2048x512.size (cc13_transform_2 i) (hinb13_2 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8192x128.size a ≤ S40960x128.size a
  hwx14_0 : ∀ i : grid14.Coords, EltTy.bits .bf16 = 32 ∨ (Rect.block (s := S40960x128) S8192x128.size (cc14_transform_0 i) (hinb14_0 i)).WholeWords (EltTy.packing .bf16)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .bf16 = 32 ∨ (Rect.block (s := S128x128) S128x128.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S8192x128.size a ≤ S40960x128.size a
  hwx14_2 : ∀ i : grid14.Coords, EltTy.bits .f32 = 32 ∨ (Rect.block (s := S40960x128) S8192x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S8192x128.size a ≤ S40960x128.size a
  hwx14_3 : ∀ i : grid14.Coords, EltTy.bits .f32 = 32 ∨ (Rect.block (s := S40960x128) S8192x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8192x128.size a ≤ S40960x128.size a
  hwx15_0 : ∀ i : grid15.Coords, EltTy.bits .bf16 = 32 ∨ (Rect.block (s := S40960x128) S8192x128.size (cc15_transform_0 i) (hinb15_0 i)).WholeWords (EltTy.packing .bf16)
  hstage15_1 : ∀ j, (stage15_1 j).IsWhole
  nbuf15_1 : grid15.bufCount reads15_1 false = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .bf16 = 32 ∨ (Rect.block (s := S128x128) S128x128.size (cc15_transform_1 i) (hinb15_1 i)).WholeWords (EltTy.packing .bf16)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8192x128.size a ≤ S40960x128.size a
  hwx15_2 : ∀ i : grid15.Coords, EltTy.bits .f32 = 32 ∨ (Rect.block (s := S40960x128) S8192x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S8192x128.size a ≤ S40960x128.size a
  hwx15_3 : ∀ i : grid15.Coords, EltTy.bits .f32 = 32 ∨ (Rect.block (s := S40960x128) S8192x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2048x2048.size a ≤ S10240x10240.size a
  hwx16_0 : ∀ i : grid16.Coords, EltTy.bits .bf16 = 32 ∨ (Rect.block (s := S10240x10240) S2048x2048.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2048x512.size a ≤ S10240x512.size a
  hwx16_1 : ∀ i : grid16.Coords, EltTy.bits .bf16 = 32 ∨ (Rect.block (s := S10240x512) S2048x512.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2048x512.size a ≤ S10240x512.size a
  hwx16_2 : ∀ i : grid16.Coords, EltTy.bits .bf16 = 32 ∨ (Rect.block (s := S10240x512) S2048x512.size (cc16_transform_2 i) (hinb16_2 i)).WholeWords (EltTy.packing .bf16)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8192x128.size a ≤ S40960x128.size a
  hwx17_0 : ∀ i : grid17.Coords, EltTy.bits .bf16 = 32 ∨ (Rect.block (s := S40960x128) S8192x128.size (cc17_transform_0 i) (hinb17_0 i)).WholeWords (EltTy.packing .bf16)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S128x128.size a ≤ S128x128.size a
  hwx17_1 : ∀ i : grid17.Coords, EltTy.bits .bf16 = 32 ∨ (Rect.block (s := S128x128) S128x128.size (cc17_transform_1 i) (hinb17_1 i)).WholeWords (EltTy.packing .bf16)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S8192x128.size a ≤ S40960x128.size a
  hwx17_2 : ∀ i : grid17.Coords, EltTy.bits .f32 = 32 ∨ (Rect.block (s := S40960x128) S8192x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S8192x128.size a ≤ S40960x128.size a
  hwx17_3 : ∀ i : grid17.Coords, EltTy.bits .f32 = 32 ∨ (Rect.block (s := S40960x128) S8192x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2048x2048.size a ≤ S10240x10240.size a
  hwx18_0 : ∀ i : grid18.Coords, EltTy.bits .bf16 = 32 ∨ (Rect.block (s := S10240x10240) S2048x2048.size (cc18_transform_0 i) (hinb18_0 i)).WholeWords (EltTy.packing .bf16)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2048x512.size a ≤ S10240x512.size a
  hwx18_1 : ∀ i : grid18.Coords, EltTy.bits .bf16 = 32 ∨ (Rect.block (s := S10240x512) S2048x512.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2048x512.size a ≤ S10240x512.size a
  hwx18_2 : ∀ i : grid18.Coords, EltTy.bits .bf16 = 32 ∨ (Rect.block (s := S10240x512) S2048x512.size (cc18_transform_2 i) (hinb18_2 i)).WholeWords (EltTy.packing .bf16)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8192x128.size a ≤ S40960x128.size a
  hwx19_0 : ∀ i : grid19.Coords, EltTy.bits .bf16 = 32 ∨ (Rect.block (s := S40960x128) S8192x128.size (cc19_transform_0 i) (hinb19_0 i)).WholeWords (EltTy.packing .bf16)
  hstage19_1 : ∀ j, (stage19_1 j).IsWhole
  nbuf19_1 : grid19.bufCount reads19_1 false = 1
  hreads19_1 : ∀ i i' : grid19.Coords, (∀ a, reads19_1 a = true → i a = i' a) → cc19_transform_1 i = cc19_transform_1 i'
  hinb19_1 : ∀ (i : grid19.Coords) a, (cc19_transform_1 i a + 1) * S128x128.size a ≤ S128x128.size a
  hwx19_1 : ∀ i : grid19.Coords, EltTy.bits .bf16 = 32 ∨ (Rect.block (s := S128x128) S128x128.size (cc19_transform_1 i) (hinb19_1 i)).WholeWords (EltTy.packing .bf16)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S8192x128.size a ≤ S40960x128.size a
  hwx19_2 : ∀ i : grid19.Coords, EltTy.bits .f32 = 32 ∨ (Rect.block (s := S40960x128) S8192x128.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S8192x128.size a ≤ S40960x128.size a
  hwx19_3 : ∀ i : grid19.Coords, EltTy.bits .f32 = 32 ∨ (Rect.block (s := S40960x128) S8192x128.size (cc19_transform_3 i) (hinb19_3 i)).WholeWords (EltTy.packing .f32)

variable [Facts₀]

def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v49) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S64x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v21) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v55) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S64x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S8192x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v21) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v61) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S64x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S8192x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S8192x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v66) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S64x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S8192x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v70) S8192x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v43) S2048x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v47) S2048x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S2048x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v72) S8192x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S64x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v70) S8192x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v76) S8192x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v43) S2048x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v71) S2048x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v77) S2048x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v78) S8192x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v81) S64x128.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v76) S8192x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v82) S8192x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v87) S8192x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v90) S128x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v86) S8192x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v91) S8192x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v21) S2048x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v85) S2048x512.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v92) S2048x512.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v93) S8192x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v96) S128x128.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v91) S8192x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v97) S8192x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun _ => false | 3 => fun i => !(k12_cond2 i == 1#1) | ⟨_ + 4, h⟩ => absurd h (Nat.not_lt.2 (Nat.le_add_left _ _))

abbrev win13_0 : Pipeline.Window sig grid13 :=
  Pipeline.Window.ofSpec (Memref.whole main_v21) S2048x2048.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v92) S2048x512.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v98) S2048x512.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v99) S8192x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v102) S128x128.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v97) S8192x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v103) S8192x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev idle14 : Fin 4 → grid14.Coords → Bool := fun | 0 => fun _ => false | 1 => fun _ => false | 2 => fun _ => false | 3 => fun i => !(k14_cond2 i == 1#1) | ⟨_ + 4, h⟩ => absurd h (Nat.not_lt.2 (Nat.le_add_left _ _))

abbrev win15_0 : Pipeline.Window sig grid15 :=
  Pipeline.Window.ofSpec (Memref.whole main_v104) S8192x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v107) S128x128.size cc15_transform_1 reads15_1 false false 1 stage15_1 sem15_1
    hrank15 hreads15_1 hinb15_1 nbuf15_1 (Memref.isWhole_whole _) hwx15_1 hstage15_1

abbrev win15_2 : Pipeline.Window sig grid15 :=
  Pipeline.Window.ofSpec (Memref.whole main_v103) S8192x128.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v108) S8192x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev idle15 : Fin 4 → grid15.Coords → Bool := fun | 0 => fun _ => false | 1 => fun _ => false | 2 => fun _ => false | 3 => fun i => !(k15_cond2 i == 1#1) | ⟨_ + 4, h⟩ => absurd h (Nat.not_lt.2 (Nat.le_add_left _ _))

abbrev win16_0 : Pipeline.Window sig grid16 :=
  Pipeline.Window.ofSpec (Memref.whole main_v43) S2048x2048.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v85) S2048x512.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v109) S2048x512.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev idle16 : Fin 3 → grid16.Coords → Bool := fun | 0 => fun _ => false | 1 => fun _ => false | 2 => fun i => !(k16_cond2 i == 1#1) | ⟨_ + 3, h⟩ => absurd h (Nat.not_lt.2 (Nat.le_add_left _ _))

abbrev win17_0 : Pipeline.Window sig grid17 :=
  Pipeline.Window.ofSpec (Memref.whole main_v110) S8192x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v113) S128x128.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v108) S8192x128.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v114) S8192x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev idle17 : Fin 4 → grid17.Coords → Bool := fun | 0 => fun _ => false | 1 => fun _ => false | 2 => fun _ => false | 3 => fun i => !(k17_cond2 i == 1#1) | ⟨_ + 4, h⟩ => absurd h (Nat.not_lt.2 (Nat.le_add_left _ _))

abbrev win18_0 : Pipeline.Window sig grid18 :=
  Pipeline.Window.ofSpec (Memref.whole main_v43) S2048x2048.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v109) S2048x512.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v115) S2048x512.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v116) S8192x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v119) S128x128.size cc19_transform_1 reads19_1 false false 1 stage19_1 sem19_1
    hrank19 hreads19_1 hinb19_1 nbuf19_1 (Memref.isWhole_whole _) hwx19_1 hstage19_1

abbrev win19_2 : Pipeline.Window sig grid19 :=
  Pipeline.Window.ofSpec (Memref.whole main_v114) S8192x128.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v120) S8192x128.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev idle19 : Fin 4 → grid19.Coords → Bool := fun | 0 => fun _ => false | 1 => fun _ => false | 2 => fun _ => false | 3 => fun i => !(k19_cond2 i == 1#1) | ⟨_ + 4, h⟩ => absurd h (Nat.not_lt.2 (Nat.le_add_left _ _))

class Facts : Prop extends Facts₀ where
  halias0_3 : Pipeline.Aliased win0 2 3
  halias2_3 : Pipeline.Aliased win2 2 3
  halias4_3 : Pipeline.Aliased win4 2 3
  halias5_3 : Pipeline.Aliased win5 2 3
  halias7_3 : Pipeline.Aliased win7 2 3
  halias9_3 : Pipeline.Aliased win9 2 3
  halias10_3 : Pipeline.Aliased win10 2 3
  halias12_3 : Pipeline.Aliased win12 2 3
  halias14_3 : Pipeline.Aliased win14 2 3
  halias15_3 : Pipeline.Aliased win15 2 3
  halias17_3 : Pipeline.Aliased win17 2 3
  halias19_3 : Pipeline.Aliased win19 2 3

variable [Facts]
-- ==== ReferenceIdeal.lean ====
abbrev S4x10000x64 : Shape := ⟨3, ![4, 10000, 64]⟩
abbrev S2x2x320000 : Shape := ⟨3, ![2, 2, 320000]⟩
abbrev S2x320000 : Shape := ⟨2, ![2, 320000]⟩
abbrev S2x3x64x128 : Shape := ⟨4, ![2, 3, 64, 128]⟩
abbrev S128 : Shape := ⟨1, ![128]⟩
abbrev S2x3x128x128 : Shape := ⟨4, ![2, 3, 128, 128]⟩
abbrev S10000x4x64 : Shape := ⟨3, ![10000, 4, 64]⟩
abbrev S_ : Shape := ⟨0, ![]⟩
abbrev S10000x4x128 : Shape := ⟨3, ![10000, 4, 128]⟩
abbrev S1x1x320000 : Shape := ⟨3, ![1, 1, 320000]⟩
abbrev S320000 : Shape := ⟨1, ![320000]⟩
abbrev S1x1x64x128 : Shape := ⟨4, ![1, 1, 64, 128]⟩
abbrev S64x128 : Shape := ⟨2, ![64, 128]⟩
abbrev S1x320000 : Shape := ⟨2, ![1, 320000]⟩
abbrev S320000x1 : Shape := ⟨2, ![320000, 1]⟩
abbrev S320000x4x64 : Shape := ⟨3, ![320000, 4, 64]⟩
abbrev S320000x1x1 : Shape := ⟨3, ![320000, 1, 1]⟩
abbrev S1x1x128 : Shape := ⟨3, ![1, 1, 128]⟩
abbrev S4x10000x128 : Shape := ⟨3, ![4, 10000, 128]⟩
abbrev S1x1x128x128 : Shape := ⟨4, ![1, 1, 128, 128]⟩
abbrev S128x128 : Shape := ⟨2, ![128, 128]⟩
abbrev S320000x4x128 : Shape := ⟨3, ![320000, 4, 128]⟩
abbrev S4x1x128 : Shape := ⟨3, ![4, 1, 128]⟩
abbrev S4x128 : Shape := ⟨2, ![4, 128]⟩

abbrev nBuf : Space → Nat
  | .hbm => 231
  | .vmem => 0
  | .smem => 0
  | _ => 0

abbrev hbmTy0_0 (i : Nat) : BufTy := match i % 128 with
  | 0 => ⟨S4x10000x64, .f32⟩
  | 1 => ⟨S2x2x320000, .i32⟩
  | 2 => ⟨S2x320000, .f32⟩
  | 3 => ⟨S2x3x64x128, .f32⟩
  | 4 => ⟨S128, .f32⟩
  | 5 => ⟨S2x3x128x128, .f32⟩
  | 6 => ⟨S128, .f32⟩
  | 7 => ⟨S10000x4x64, .f32⟩
  | 8 => ⟨S_, .f32⟩
  | 9 => ⟨S10000x4x128, .f32⟩
  | 10 => ⟨S1x1x320000, .i32⟩
  | 11 => ⟨S320000, .i32⟩
  | 12 => ⟨S1x1x320000, .i32⟩
  | 13 => ⟨S320000, .i32⟩
  | 14 => ⟨S1x1x64x128, .f32⟩
  | 15 => ⟨S64x128, .f32⟩
  | 16 => ⟨S10000x4x128, .f32⟩
  | 17 => ⟨S10000x4x128, .f32⟩
  | 18 => ⟨S1x320000, .f32⟩
  | 19 => ⟨S320000, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x4x64, .f32⟩
  | 29 => ⟨S320000x1x1, .f32⟩
  | 30 => ⟨S320000x4x64, .f32⟩
  | 31 => ⟨S320000x4x64, .f32⟩
  | 32 => ⟨S_, .f32⟩
  | 33 => ⟨S10000x4x64, .f32⟩
  | 34 => ⟨S320000x1, .i32⟩
  | 35 => ⟨S10000x4x64, .f32⟩
  | 36 => ⟨S1x1x64x128, .f32⟩
  | 37 => ⟨S64x128, .f32⟩
  | 38 => ⟨S10000x4x128, .f32⟩
  | 39 => ⟨S10000x4x128, .f32⟩
  | 40 => ⟨S1x320000, .f32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x4x64, .f32⟩
  | 51 => ⟨S320000x1x1, .f32⟩
  | 52 => ⟨S320000x4x64, .f32⟩
  | 53 => ⟨S320000x4x64, .f32⟩
  | 54 => ⟨S_, .f32⟩
  | 55 => ⟨S10000x4x64, .f32⟩
  | 56 => ⟨S320000x1, .i32⟩
  | 57 => ⟨S10000x4x64, .f32⟩
  | 58 => ⟨S1x1x64x128, .f32⟩
  | 59 => ⟨S64x128, .f32⟩
  | 60 => ⟨S10000x4x128, .f32⟩
  | 61 => ⟨S10000x4x128, .f32⟩
  | 62 => ⟨S1x1x320000, .i32⟩
  | 63 => ⟨S320000, .i32⟩
  | 64 => ⟨S1x1x320000, .i32⟩
  | 65 => ⟨S320000, .i32⟩
  | 66 => ⟨S1x1x64x128, .f32⟩
  | 67 => ⟨S64x128, .f32⟩
  | 68 => ⟨S10000x4x128, .f32⟩
  | 69 => ⟨S10000x4x128, .f32⟩
  | 70 => ⟨S1x320000, .f32⟩
  | 71 => ⟨S320000, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x4x64, .f32⟩
  | 81 => ⟨S320000x1x1, .f32⟩
  | 82 => ⟨S320000x4x64, .f32⟩
  | 83 => ⟨S320000x4x64, .f32⟩
  | 84 => ⟨S_, .f32⟩
  | 85 => ⟨S10000x4x64, .f32⟩
  | 86 => ⟨S320000x1, .i32⟩
  | 87 => ⟨S10000x4x64, .f32⟩
  | 88 => ⟨S1x1x64x128, .f32⟩
  | 89 => ⟨S64x128, .f32⟩
  | 90 => ⟨S10000x4x128, .f32⟩
  | 91 => ⟨S10000x4x128, .f32⟩
  | 92 => ⟨S1x320000, .f32⟩
  | 93 => ⟨S320000, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x4x64, .f32⟩
  | 103 => ⟨S320000x1x1, .f32⟩
  | 104 => ⟨S320000x4x64, .f32⟩
  | 105 => ⟨S320000x4x64, .f32⟩
  | 106 => ⟨S_, .f32⟩
  | 107 => ⟨S10000x4x64, .f32⟩
  | 108 => ⟨S320000x1, .i32⟩
  | 109 => ⟨S10000x4x64, .f32⟩
  | 110 => ⟨S1x1x64x128, .f32⟩
  | 111 => ⟨S64x128, .f32⟩
  | 112 => ⟨S10000x4x128, .f32⟩
  | 113 => ⟨S10000x4x128, .f32⟩
  | 114 => ⟨S1x1x128, .f32⟩
  | 115 => ⟨S10000x4x128, .f32⟩
  | 116 => ⟨S10000x4x128, .f32⟩
  | 117 => ⟨S4x10000x128, .f32⟩
  | 118 => ⟨S10000x4x128, .f32⟩
  | 119 => ⟨S_, .f32⟩
  | 120 => ⟨S10000x4x128, .f32⟩
  | 121 => ⟨S1x1x320000, .i32⟩
  | 122 => ⟨S320000, .i32⟩
  | 123 => ⟨S1x1x320000, .i32⟩
  | 124 => ⟨S320000, .i32⟩
  | 125 => ⟨S1x1x128x128, .f32⟩
  | 126 => ⟨S128x128, .f32⟩
  | 127 => ⟨S10000x4x128, .f32⟩
  | _ => ⟨S4x10000x64, .f32⟩

abbrev hbmTy0_1 (i : Nat) : BufTy := match i % 128 with
  | 0 => ⟨S10000x4x128, .f32⟩
  | 1 => ⟨S1x320000, .f32⟩
  | 2 => ⟨S320000, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x4x128, .f32⟩
  | 12 => ⟨S320000x1x1, .f32⟩
  | 13 => ⟨S320000x4x128, .f32⟩
  | 14 => ⟨S320000x4x128, .f32⟩
  | 15 => ⟨S_, .f32⟩
  | 16 => ⟨S10000x4x128, .f32⟩
  | 17 => ⟨S320000x1, .i32⟩
  | 18 => ⟨S10000x4x128, .f32⟩
  | 19 => ⟨S1x1x128x128, .f32⟩
  | 20 => ⟨S128x128, .f32⟩
  | 21 => ⟨S10000x4x128, .f32⟩
  | 22 => ⟨S10000x4x128, .f32⟩
  | 23 => ⟨S1x320000, .f32⟩
  | 24 => ⟨S320000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x4x128, .f32⟩
  | 34 => ⟨S320000x1x1, .f32⟩
  | 35 => ⟨S320000x4x128, .f32⟩
  | 36 => ⟨S320000x4x128, .f32⟩
  | 37 => ⟨S_, .f32⟩
  | 38 => ⟨S10000x4x128, .f32⟩
  | 39 => ⟨S320000x1, .i32⟩
  | 40 => ⟨S10000x4x128, .f32⟩
  | 41 => ⟨S1x1x128x128, .f32⟩
  | 42 => ⟨S128x128, .f32⟩
  | 43 => ⟨S10000x4x128, .f32⟩
  | 44 => ⟨S10000x4x128, .f32⟩
  | 45 => ⟨S1x1x320000, .i32⟩
  | 46 => ⟨S320000, .i32⟩
  | 47 => ⟨S1x1x320000, .i32⟩
  | 48 => ⟨S320000, .i32⟩
  | 49 => ⟨S1x1x128x128, .f32⟩
  | 50 => ⟨S128x128, .f32⟩
  | 51 => ⟨S10000x4x128, .f32⟩
  | 52 => ⟨S10000x4x128, .f32⟩
  | 53 => ⟨S1x320000, .f32⟩
  | 54 => ⟨S320000, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x4x128, .f32⟩
  | 64 => ⟨S320000x1x1, .f32⟩
  | 65 => ⟨S320000x4x128, .f32⟩
  | 66 => ⟨S320000x4x128, .f32⟩
  | 67 => ⟨S_, .f32⟩
  | 68 => ⟨S10000x4x128, .f32⟩
  | 69 => ⟨S320000x1, .i32⟩
  | 70 => ⟨S10000x4x128, .f32⟩
  | 71 => ⟨S1x1x128x128, .f32⟩
  | 72 => ⟨S128x128, .f32⟩
  | 73 => ⟨S10000x4x128, .f32⟩
  | 74 => ⟨S10000x4x128, .f32⟩
  | 75 => ⟨S1x320000, .f32⟩
  | 76 => ⟨S320000, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x4x128, .f32⟩
  | 86 => ⟨S320000x1x1, .f32⟩
  | 87 => ⟨S320000x4x128, .f32⟩
  | 88 => ⟨S320000x4x128, .f32⟩
  | 89 => ⟨S_, .f32⟩
  | 90 => ⟨S10000x4x128, .f32⟩
  | 91 => ⟨S320000x1, .i32⟩
  | 92 => ⟨S10000x4x128, .f32⟩
  | 93 => ⟨S1x1x128x128, .f32⟩
  | 94 => ⟨S128x128, .f32⟩
  | 95 => ⟨S10000x4x128, .f32⟩
  | 96 => ⟨S10000x4x128, .f32⟩
  | 97 => ⟨S1x1x128, .f32⟩
  | 98 => ⟨S10000x4x128, .f32⟩
  | 99 => ⟨S10000x4x128, .f32⟩
  | 100 => ⟨S4x10000x128, .f32⟩
  | 101 => ⟨S4x1x128, .f32⟩
  | 102 => ⟨S4x128, .f32⟩
  | _ => ⟨S4x10000x64, .f32⟩

abbrev hbmTy (i : Nat) : BufTy := match i / 128 with
  | 0 => hbmTy0_0 i
  | 1 => hbmTy0_1 i
  | _ => ⟨S4x10000x64, .f32⟩

abbrev bufTy : (tb : Table) → Fin (tcTables nBuf tb) → BufTy
  | .hbm, ⟨i, _⟩ => hbmTy i
  | _, _ => ⟨S4x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_5 : Ref sig .tc := ⟨.hbm, 72, rfl⟩
abbrev main_v58 : Ref sig .tc := ⟨.hbm, 73, rfl⟩
abbrev main_v59 : Ref sig .tc := ⟨.hbm, 74, rfl⟩
abbrev main_c_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_8 : Ref sig .tc := ⟨.hbm, 94, rfl⟩
abbrev main_v77 : Ref sig .tc := ⟨.hbm, 95, rfl⟩
abbrev main_v78 : Ref sig .tc := ⟨.hbm, 96, rfl⟩
abbrev main_c_9 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_11 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_c_12 : Ref sig .tc := ⟨.hbm, 131, rfl⟩
abbrev main_v110 : Ref sig .tc := ⟨.hbm, 132, rfl⟩
abbrev main_v111 : Ref sig .tc := ⟨.hbm, 133, rfl⟩
abbrev main_c_13 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_cst_14 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_c_15 : Ref sig .tc := ⟨.hbm, 153, rfl⟩
abbrev main_v129 : Ref sig .tc := ⟨.hbm, 154, rfl⟩
abbrev main_v130 : Ref sig .tc := ⟨.hbm, 155, rfl⟩
abbrev main_c_16 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_17 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_c_18 : Ref sig .tc := ⟨.hbm, 183, rfl⟩
abbrev main_v156 : Ref sig .tc := ⟨.hbm, 184, rfl⟩
abbrev main_v157 : Ref sig .tc := ⟨.hbm, 185, rfl⟩
abbrev main_c_19 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_cst_20 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_c_21 : Ref sig .tc := ⟨.hbm, 205, rfl⟩
abbrev main_v175 : Ref sig .tc := ⟨.hbm, 206, rfl⟩
abbrev main_v176 : Ref sig .tc := ⟨.hbm, 207, rfl⟩
abbrev main_c_22 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_cst_23 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩

abbrev nD : Nat := 1
abbrev τ : Topo := Topo.v7x

variable {F : FTy → Type} [FloatOps F]

class Facts₀ : Prop where
  transposes_S4x10000x64_S10000x4x64_1_0_2 : S4x10000x64.Transposes [1, 0, 2] S10000x4x64
  bcast_S_S10000x4x128 : S_.BroadcastsInDim S10000x4x128 (![] : Fin 0 → Fin S10000x4x128.rank)
  slices_S2x2x320000_S1x1x320000_0_0_0 : S2x2x320000.Slices ![0, 0, 0] S1x1x320000
  shapeCasts_S1x1x320000_S320000 : S1x1x320000.ShapeCasts S320000
  slices_S2x2x320000_S1x1x320000_0_1_0 : S2x2x320000.Slices ![0, 1, 0] S1x1x320000
  slices_S2x3x64x128_S1x1x64x128_0_0_0_0 : S2x3x64x128.Slices ![0, 0, 0, 0] S1x1x64x128
  shapeCasts_S1x1x64x128_S64x128 : S1x1x64x128.ShapeCasts S64x128
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S320000_S320000x1x1_0 : S320000.BroadcastsInDim S320000x1x1 (![0] : Fin 1 → Fin S320000x1x1.rank)
  bcast_S320000x1x1_S320000x4x64_0_1_2 : S320000x1x1.BroadcastsInDim S320000x4x64 (![0, 1, 2] : Fin 3 → Fin S320000x4x64.rank)
  bcast_S_S10000x4x64 : S_.BroadcastsInDim S10000x4x64 (![] : Fin 0 → Fin S10000x4x64.rank)
  slices_S2x3x64x128_S1x1x64x128_0_1_0_0 : S2x3x64x128.Slices ![0, 1, 0, 0] S1x1x64x128
  slices_S2x3x64x128_S1x1x64x128_0_2_0_0 : S2x3x64x128.Slices ![0, 2, 0, 0] S1x1x64x128
  slices_S2x2x320000_S1x1x320000_1_0_0 : S2x2x320000.Slices ![1, 0, 0] S1x1x320000
  slices_S2x2x320000_S1x1x320000_1_1_0 : S2x2x320000.Slices ![1, 1, 0] S1x1x320000
  slices_S2x3x64x128_S1x1x64x128_1_0_0_0 : S2x3x64x128.Slices ![1, 0, 0, 0] S1x1x64x128
  slices_S2x320000_S1x320000_1_0 : S2x320000.Slices ![1, 0] S1x320000
  slices_S2x3x64x128_S1x1x64x128_1_1_0_0 : S2x3x64x128.Slices ![1, 1, 0, 0] S1x1x64x128
  slices_S2x3x64x128_S1x1x64x128_1_2_0_0 : S2x3x64x128.Slices ![1, 2, 0, 0] S1x1x64x128
  bcast_S128_S1x1x128_2 : S128.BroadcastsInDim S1x1x128 (![2] : Fin 1 → Fin S1x1x128.rank)
  bcast_S1x1x128_S10000x4x128_0_1_2 : S1x1x128.BroadcastsInDim S10000x4x128 (![0, 1, 2] : Fin 3 → Fin S10000x4x128.rank)
  transposes_S10000x4x128_S4x10000x128_1_0_2 : S10000x4x128.Transposes [1, 0, 2] S4x10000x128
  transposes_S4x10000x128_S10000x4x128_1_0_2 : S4x10000x128.Transposes [1, 0, 2] S10000x4x128
  slices_S2x3x128x128_S1x1x128x128_0_0_0_0 : S2x3x128x128.Slices ![0, 0, 0, 0] S1x1x128x128
  shapeCasts_S1x1x128x128_S128x128 : S1x1x128x128.ShapeCasts S128x128
  bcast_S320000x1x1_S320000x4x128_0_1_2 : S320000x1x1.BroadcastsInDim S320000x4x128 (![0, 1, 2] : Fin 3 → Fin S320000x4x128.rank)
  slices_S2x3x128x128_S1x1x128x128_0_1_0_0 : S2x3x128x128.Slices ![0, 1, 0, 0] S1x1x128x128
  slices_S2x3x128x128_S1x1x128x128_0_2_0_0 : S2x3x128x128.Slices ![0, 2, 0, 0] S1x1x128x128
  slices_S2x3x128x128_S1x1x128x128_1_0_0_0 : S2x3x128x128.Slices ![1, 0, 0, 0] S1x1x128x128
  slices_S2x3x128x128_S1x1x128x128_1_1_0_0 : S2x3x128x128.Slices ![1, 1, 0, 0] S1x1x128x128
  slices_S2x3x128x128_S1x1x128x128_1_2_0_0 : S2x3x128x128.Slices ![1, 2, 0, 0] S1x1x128x128
  slices_S4x10000x128_S4x1x128_0_0_0 : S4x10000x128.Slices ![0, 0, 0] S4x1x128
  shapeCasts_S4x1x128_S4x128 : S4x1x128.ShapeCasts S4x128
  dot_S10000x4x64_S64x128_S10000x4x128_2_0_01_1_n_n_wf : DotDims.WF S10000x4x64 S64x128 S10000x4x128 [2] [0] [0, 1] [1] [] []
  gather_S10000x4x64_S320000x1_S320000x4x64_12_0_n_n_0_1_1464_wf : GatherDims.WF S10000x4x64 S320000x1 S320000x4x64 [1, 2] [0] [] [0] [] 1 ![1, 4, 64]
  scatter_S10000x4x64_S320000x1_S320000x4x64_12_0_0_1_wf : ScatterDims.WF S10000x4x64 S320000x1 S320000x4x64 [1, 2] [0] [0] 1
  dot_S10000x4x128_S128x128_S10000x4x128_2_0_01_1_n_n_wf : DotDims.WF S10000x4x128 S128x128 S10000x4x128 [2] [0] [0, 1] [1] [] []
  gather_S10000x4x128_S320000x1_S320000x4x128_12_0_n_n_0_1_14128_wf : GatherDims.WF S10000x4x128 S320000x1 S320000x4x128 [1, 2] [0] [] [0] [] 1 ![1, 4, 128]
  scatter_S10000x4x128_S320000x1_S320000x4x128_12_0_0_1_wf : ScatterDims.WF S10000x4x128 S320000x1 S320000x4x128 [1, 2] [0] [0] 1

variable [Facts₀]

def dot_S10000x4x64_S64x128_S10000x4x128_2_0_01_1_n_n : DotDims S10000x4x64 S64x128 S10000x4x128 where
  lhsContracting := [2]
  rhsContracting := [0]
  lhsNonContracting := [0, 1]
  rhsNonContracting := [1]
  lhsBatch := []
  rhsBatch := []
  wf := dot_S10000x4x64_S64x128_S10000x4x128_2_0_01_1_n_n_wf
def gather_S10000x4x64_S320000x1_S320000x4x64_12_0_n_n_0_1_1464 : GatherDims S10000x4x64 S320000x1 S320000x4x64 where
  offsetDims := [1, 2]
  collapsedSliceDims := [0]
  operandBatchingDims := []
  startIndicesBatchingDims := []
  startIndexMap := [0]
  indexVectorDim := 1
  sliceSizes := ![1, 4, 64]
  wf := gather_S10000x4x64_S320000x1_S320000x4x64_12_0_n_n_0_1_1464_wf
def scatter_S10000x4x64_S320000x1_S320000x4x64_12_0_0_1 : ScatterDims S10000x4x64 S320000x1 S320000x4x64 where
  updateWindowDims := [1, 2]
  insertedWindowDims := [0]
  scatterDimsToOperandDims := [0]
  indexVectorDim := 1
  wf := scatter_S10000x4x64_S320000x1_S320000x4x64_12_0_0_1_wf
def dot_S10000x4x128_S128x128_S10000x4x128_2_0_01_1_n_n : DotDims S10000x4x128 S128x128 S10000x4x128 where
  lhsContracting := [2]
  rhsContracting := [0]
  lhsNonContracting := [0, 1]
  rhsNonContracting := [1]
  lhsBatch := []
  rhsBatch := []
  wf := dot_S10000x4x128_S128x128_S10000x4x128_2_0_01_1_n_n_wf
def gather_S10000x4x128_S320000x1_S320000x4x128_12_0_n_n_0_1_14128 : GatherDims S10000x4x128 S320000x1 S320000x4x128 where
  offsetDims := [1, 2]
  collapsedSliceDims := [0]
  operandBatchingDims := []
  startIndicesBatchingDims := []
  startIndexMap := [0]
  indexVectorDim := 1
  sliceSizes := ![1, 4, 128]
  wf := gather_S10000x4x128_S320000x1_S320000x4x128_12_0_n_n_0_1_14128_wf
def scatter_S10000x4x128_S320000x1_S320000x4x128_12_0_0_1 : ScatterDims S10000x4x128 S320000x1 S320000x4x128 where
  updateWindowDims := [1, 2]
  insertedWindowDims := [0]
  scatterDimsToOperandDims := [0]
  indexVectorDim := 1
  wf := scatter_S10000x4x128_S320000x1_S320000x4x128_12_0_0_1_wf

class Facts : Prop extends Facts₀ where

variable [Facts]
-- ==== Proof.RegionsKernel.lean ====
import proofs.«414074_j90701119357381_1_alg».proof.Proof.Gen.Kernel.Launch
import Idealize.ShloMosaic.Lib.Pipeline.Frame
import Idealize.ShloMosaic.Lib.Pipeline.Regions

set_option maxRecDepth 1692

noncomputable section

namespace Cert.Kernel.GenP
open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

/-- A written reference that is in the list is in the list's image. -/
theorem sub_W {r : Ref sig .tc} {W : List (Ref sig .tc)} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map_of_mem h))

/-- Replacing buffer `b`'s contents leaves every other buffer's. -/
theorem upd_of (V : Valuation τ sig (Elt F)) {b r : Ref sig .tc} (x : (Proc.devRef (τ := τ) .tc b).ty.Contents (Elt F))
    (h : r ∉ ([b] : List (Ref sig .tc))) : Function.update V b x r = V r :=
  Function.update_of_ne (StableHlo.devRef_ne_of_ne (List.ne_of_not_mem_cons h)) _ _

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := Function.update (V3 m c) main_v53 (outs 4 main_v53 c)

abbrev V5 (c : Dev nD) : Valuation τ sig (Elt F) := Function.update (V4 m outs c) main_v54 (outs 5 main_v54 c)

abbrev V6 (c : Dev nD) : Valuation τ sig (Elt F) := StableHlo.after hostOps2 (V5 m outs c)

abbrev V7 (c : Dev nD) : Valuation τ sig (Elt F) := Function.update (V6 m outs c) main_v59 (outs 7 main_v59 c)

abbrev V8 (c : Dev nD) : Valuation τ sig (Elt F) := Function.update (V7 m outs c) main_v60 (outs 8 main_v60 c)

abbrev V9 (c : Dev nD) : Valuation τ sig (Elt F) := StableHlo.after hostOps4 (V8 m outs c)

abbrev V10 (c : Dev nD) : Valuation τ sig (Elt F) := Function.update (V9 m outs c) main_v65 (outs 10 main_v65 c)

abbrev V11 (c : Dev nD) : Valuation τ sig (Elt F) := StableHlo.after hostOps5 (V10 m outs c)

abbrev V12 (c : Dev nD) : Valuation τ sig (Elt F) := Function.update (V11 m outs c) main_v70 (outs 12 main_v70 c)

abbrev V13 (c : Dev nD) : Valuation τ sig (Elt F) := Function.update (V12 m outs c) main_v71 (outs 13 main_v71 c)

abbrev V14 (c : Dev nD) : Valuation τ sig (Elt F) := StableHlo.after hostOps7 (V13 m outs c)

abbrev V15 (c : Dev nD) : Valuation τ sig (Elt F) := Function.update (V14 m outs c) main_v76 (outs 15 main_v76 c)

abbrev V16 (c : Dev nD) : Valuation τ sig (Elt F) := Function.update (V15 m outs c) main_v77 (outs 16 main_v77 c)

abbrev V17 (c : Dev nD) : Valuation τ sig (Elt F) := StableHlo.after hostOps9 (V16 m outs c)

abbrev V18 (c : Dev nD) : Valuation τ sig (Elt F) := Function.update (V17 m outs c) main_v82 (outs 18 main_v82 c)

abbrev V19 (c : Dev nD) : Valuation τ sig (Elt F) := StableHlo.after hostOps10 (V18 m outs c)

abbrev V20 (c : Dev nD) : Valuation τ sig (Elt F) := Function.update (V19 m outs c) main_v91 (outs 20 main_v91 c)

abbrev V21 (c : Dev nD) : Valuation τ sig (Elt F) := Function.update (V20 m outs c) main_v92 (outs 21 main_v92 c)

abbrev V22 (c : Dev nD) : Valuation τ sig (Elt F) := StableHlo.after hostOps12 (V21 m outs c)

abbrev V23 (c : Dev nD) : Valuation τ sig (Elt F) := Function.update (V22 m outs c) main_v97 (outs 23 main_v97 c)

abbrev V24 (c : Dev nD) : Valuation τ sig (Elt F) := Function.update (V23 m outs c) main_v98 (outs 24 main_v98 c)

abbrev V25 (c : Dev nD) : Valuation τ sig (Elt F) := StableHlo.after hostOps14 (V24 m outs c)

abbrev V26 (c : Dev nD) : Valuation τ sig (Elt F) := Function.update (V25 m outs c) main_v103 (outs 26 main_v103 c)

abbrev V27 (c : Dev nD) : Valuation τ sig (Elt F) := StableHlo.after hostOps15 (V26 m outs c)

abbrev V28 (c : Dev nD) : Valuation τ sig (Elt F) := Function.update (V27 m outs c) main_v108 (outs 28 main_v108 c)

abbrev V29 (c : Dev nD) : Valuation τ sig (Elt F) := Function.update (V28 m outs c) main_v109 (outs 29 main_v109 c)

abbrev V30 (c : Dev nD) : Valuation τ sig (Elt F) := StableHlo.after hostOps17 (V29 m outs c)

abbrev V31 (c : Dev nD) : Valuation τ sig (Elt F) := Function.update (V30 m outs c) main_v114 (outs 31 main_v114 c)

abbrev V32 (c : Dev nD) : Valuation τ sig (Elt F) := Function.update (V31 m outs c) main_v115 (outs 32 main_v115 c)

abbrev V33 (c : Dev nD) : Valuation τ sig (Elt F) := StableHlo.after hostOps19 (V32 m outs c)

abbrev V34 (c : Dev nD) : Valuation τ sig (Elt F) := Function.update (V33 m outs c) main_v120 (outs 34 main_v120 c)

abbrev V35 (c : Dev nD) : Valuation τ sig (Elt F) := StableHlo.after hostOps20 (V34 m outs c)

theorem hostOps0_fresh : (hostOps0 : List (HloOp τ sig (Elt F))).Forall fun op => op.fresh = ∅ := by simp only [List.Forall]; repeat' constructor

abbrev hostOps0_W : List (Ref sig .tc) := [main_v0, main_v1, main_v2, main_v3, main_v4, main_v5, main_cst, main_v6, main_c, main_v7, main_v8, main_c_0, main_v9, main_v10, main_v11, main_c_1, main_v12, main_v13, main_c_2, main_v14, main_v15, main_v16, main_v17, main_v18, main_v19, main_v20, main_v21, main_v22, main_v23, main_v24, main_v25, main_v26, main_v27, main_cst_3, main_v28, main_c_4, main_v29, main_v30, main_c_5, main_v31, main_v32, main_v33, main_c_6, main_v34, main_v35, main_c_7, main_v36, main_v37, main_v38, main_v39, main_v40, main_v41, main_v42, main_v43, main_v44, main_c_8]
theorem hostOps0_writes : (hostOps0 : List (HloOp τ sig (Elt F))).Forall fun op => op.writes ⊆ (hostOps0_W.map (Proc.devRef (τ := τ) .tc)).toFinset := by
  simp only [List.Forall]; repeat' apply And.intro
  all_goals exact sub_W (by decide)
theorem hostOps0_1_fresh : (hostOps0_1 : List (HloOp τ sig (Elt F))).Forall fun op => op.fresh = ∅ := by simp only [List.Forall]; repeat' constructor

abbrev hostOps0_1_W : List (Ref sig .tc) := [main_call0_v0, main_v45]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact sub_W (by decide)
theorem hostOps0_2_fresh : (hostOps0_2 : List (HloOp τ sig (Elt F))).Forall fun op => op.fresh = ∅ := by simp only [List.Forall]; repeat' constructor

abbrev hostOps0_2_W : List (Ref sig .tc) := [main_v46, main_v47, main_v48, main_v49, main_v50, main_v51, main_v52, main_v53]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact sub_W (by decide)
theorem hostOps2_fresh : (hostOps2 : List (HloOp τ sig (Elt F))).Forall fun op => op.fresh = ∅ := by simp only [List.Forall]; repeat' constructor

abbrev hostOps2_W : List (Ref sig .tc) := [main_v55, main_v56, main_v57, main_v58, main_v59]
theorem hostOps2_writes : (hostOps2 : List (HloOp τ sig (Elt F))).Forall fun op => op.writes ⊆ (hostOps2_W.map (Proc.devRef (τ := τ) .tc)).toFinset := by
  simp only [List.Forall]; repeat' apply And.intro
  all_goals exact sub_W (by decide)
theorem hostOps4_fresh : (hostOps4 : List (HloOp τ sig (Elt F))).Forall fun op => op.fresh = ∅ := by simp only [List.Forall]; repeat' constructor

abbrev hostOps4_W : List (Ref sig .tc) := [main_v61, main_v62, main_v63, main_v64, main_v65]
theorem hostOps4_writes : (hostOps4 : List (HloOp τ sig (Elt F))).Forall fun op => op.writes ⊆ (hostOps4_W.map (Proc.devRef (τ := τ) .tc)).toFinset := by
  simp only [List.Forall]; repeat' apply And.intro
  all_goals exact sub_W (by decide)
theorem hostOps5_fresh : (hostOps5 : List (HloOp τ sig (Elt F))).Forall fun op => op.fresh = ∅ := by simp only [List.Forall]; repeat' constructor

abbrev hostOps5_W : List (Ref sig .tc) := [main_v66, main_v67, main_v68, main_v69, main_v70]
theorem hostOps5_writes : (hostOps5 : List (HloOp τ sig (Elt F))).Forall fun op => op.writes ⊆ (hostOps5_W.map (Proc.devRef (τ := τ) .tc)).toFinset := by
  simp only [List.Forall]; repeat' apply And.intro
  all_goals exact sub_W (by decide)
theorem hostOps7_fresh : (hostOps7 : List (HloOp τ sig (Elt F))).Forall fun op => op.fresh = ∅ := by simp only [List.Forall]; repeat' constructor

abbrev hostOps7_W : List (Ref sig .tc) := [main_v72, main_v73, main_v74, main_v75, main_v76]
theorem hostOps7_writes : (hostOps7 : List (HloOp τ sig (Elt F))).Forall fun op => op.writes ⊆ (hostOps7_W.map (Proc.devRef (τ := τ) .tc)).toFinset := by
  simp only [List.Forall]; repeat' apply And.intro
  all_goals exact sub_W (by decide)
theorem hostOps9_fresh : (hostOps9 : List (HloOp τ sig (Elt F))).Forall fun op => op.fresh = ∅ := by simp only [List.Forall]; repeat' constructor

abbrev hostOps9_W : List (Ref sig .tc) := [main_v78, main_v79, main_v80, main_v81, main_v82]
theorem hostOps9_writes : (hostOps9 : List (HloOp τ sig (Elt F))).Forall fun op => op.writes ⊆ (hostOps9_W.map (Proc.devRef (τ := τ) .tc)).toFinset := by
  simp only [List.Forall]; repeat' apply And.intro
  all_goals exact sub_W (by decide)
theorem hostOps10_fresh : (hostOps10 : List (HloOp τ sig (Elt F))).Forall fun op => op.fresh = ∅ := by simp only [List.Forall]; repeat' constructor

abbrev hostOps10_W : List (Ref sig .tc) := [main_v83, main_v84, main_v85, main_v86, main_v87, main_v88, main_v89, main_v90, main_v91]
theorem hostOps10_writes : (hostOps10 : List (HloOp τ sig (Elt F))).Forall fun op => op.writes ⊆ (hostOps10_W.map (Proc.devRef (τ := τ) .tc)).toFinset := by
  simp only [List.Forall]; repeat' apply And.intro
  all_goals exact sub_W (by decide)
theorem hostOps12_fresh : (hostOps12 : List (HloOp τ sig (Elt F))).Forall fun op => op.fresh = ∅ := by simp only [List.Forall]; repeat' constructor

abbrev hostOps12_W : List (Ref sig .tc) := [main_v93, main_v94, main_v95, main_v96, main_v97]
theorem hostOps12_writes : (hostOps12 : List (HloOp τ sig (Elt F))).Forall fun op => op.writes ⊆ (hostOps12_W.map (Proc.devRef (τ := τ) .tc)).toFinset := by
  simp only [List.Forall]; repeat' apply And.intro
  all_goals exact sub_W (by decide)
theorem hostOps14_fresh : (hostOps14 : List (HloOp τ sig (Elt F))).Forall fun op => op.fresh = ∅ := by simp only [List.Forall]; repeat' constructor

abbrev hostOps14_W : List (Ref sig .tc) := [main_v99, main_v100, main_v101, main_v102, main_v103]
theorem hostOps14_writes : (hostOps14 : List (HloOp τ sig (Elt F))).Forall fun op => op.writes ⊆ (hostOps14_W.map (Proc.devRef (τ := τ) .tc)).toFinset := by
  simp only [List.Forall]; repeat' apply And.intro
  all_goals exact sub_W (by decide)
theorem hostOps15_fresh : (hostOps15 : List (HloOp τ sig (Elt F))).Forall fun op => op.fresh = ∅ := by simp only [List.Forall]; repeat' constructor

abbrev hostOps15_W : List (Ref sig .tc) := [main_v104, main_v105, main_v106, main_v107, main_v108]
theorem hostOps15_writes : (hostOps15 : List (HloOp τ sig (Elt F))).Forall fun op => op.writes ⊆ (hostOps15_W.map (Proc.devRef (τ := τ) .tc)).toFinset := by
  simp only [List.Forall]; repeat' apply And.intro
  all_goals exact sub_W (by decide)
theorem hostOps17_fresh : (hostOps17 : List (HloOp τ sig (Elt F))).Forall fun op => op.fresh = ∅ := by simp only [List.Forall]; repeat' constructor

abbrev hostOps17_W : List (Ref sig .tc) := [main_v110, main_v111, main_v112, main_v113, main_v114]
theorem hostOps17_writes : (hostOps17 : List (HloOp τ sig (Elt F))).Forall fun op => op.writes ⊆ (hostOps17_W.map (Proc.devRef (τ := τ) .tc)).toFinset := by
  simp only [List.Forall]; repeat' apply And.intro
  all_goals exact sub_W (by decide)
theorem hostOps19_fresh : (hostOps19 : List (HloOp τ sig (Elt F))).Forall fun op => op.fresh = ∅ := by simp only [List.Forall]; repeat' constructor

abbrev hostOps19_W : List (Ref sig .tc) := [main_v116, main_v117, main_v118, main_v119, main_v120]
theorem hostOps19_writes : (hostOps19 : List (HloOp τ sig (Elt F))).Forall fun op => op.writes ⊆ (hostOps19_W.map (Proc.devRef (τ := τ) .tc)).toFinset := by
  simp only [List.Forall]; repeat' apply And.intro
  all_goals exact sub_W (by decide)
theorem hostOps20_fresh : (hostOps20 : List (HloOp τ sig (Elt F))).Forall fun op => op.fresh = ∅ := by simp only [List.Forall]; repeat' constructor

abbrev hostOps20_W : List (Ref sig .tc) := [main_v121, main_v122, main_v123]
theorem hostOps20_writes : (hostOps20 : List (HloOp τ sig (Elt F))).Forall fun op => op.writes ⊆ (hostOps20_W.map (Proc.devRef (τ := τ) .tc)).toFinset := by
  simp only [List.Forall]; repeat' apply And.intro
  all_goals exact sub_W (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ ([main_v53] : List (Ref sig .tc))) : V4 m outs c r = V3 m c r := upd_of _ _ h
theorem V5_of (c : Dev nD) (r : Ref sig .tc) (h : r ∉ ([main_v54] : List (Ref sig .tc))) : V5 m outs c r = V4 m outs c r := upd_of _ _ h
theorem V6_of (c : Dev nD) (r : Ref sig .tc) (h : r ∉ hostOps2_W) : V6 m outs c r = V5 m outs c r :=
  StableHlo.after_of_writes_sub hostOps2 _ hostOps2_writes h
theorem V7_of (c : Dev nD) (r : Ref sig .tc) (h : r ∉ ([main_v59] : List (Ref sig .tc))) : V7 m outs c r = V6 m outs c r := upd_of _ _ h
theorem V8_of (c : Dev nD) (r : Ref sig .tc) (h : r ∉ ([main_v60] : List (Ref sig .tc))) : V8 m outs c r = V7 m outs c r := upd_of _ _ h
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v65] : List (Ref sig .tc))) : V10 m outs c r = V9 m outs c r := upd_of _ _ h
theorem V11_of (c : Dev nD) (r : Ref sig .tc) (h : r ∉ hostOps5_W) : V11 m outs c r = V10 m outs c r :=
  StableHlo.after_of_writes_sub hostOps5 _ hostOps5_writes h
theorem V12_of (c : Dev nD) (r : Ref sig .tc) (h : r ∉ ([main_v70] : List (Ref sig .tc))) : V12 m outs c r = V11 m outs c r := upd_of _ _ h
theorem V13_of (c : Dev nD) (r : Ref sig .tc) (h : r ∉ ([main_v71] : List (Ref sig .tc))) : V13 m outs c r = V12 m outs c r := upd_of _ _ h
theorem V14_of (c : Dev nD) (r : Ref sig .tc) (h : r ∉ hostOps7_W) : V14 m outs c r = V13 m outs c r :=
  StableHlo.after_of_writes_sub hostOps7 _ hostOps7_writes h
theorem V15_of (c : Dev nD) (r : Ref sig .tc) (h : r ∉ ([main_v76] : List (Ref sig .tc))) : V15 m outs c r = V14 m outs c r := upd_of _ _ h
theorem V16_of (c : Dev nD) (r : Ref sig .tc) (h : r ∉ ([main_v77] : List (Ref sig .tc))) : V16 m outs c r = V15 m outs c r := upd_of _ _ h
theorem V17_of (c : Dev nD) (r : Ref sig .tc) (h : r ∉ hostOps9_W) : V17 m outs c r = V16 m outs c r :=
  StableHlo.after_of_writes_sub hostOps9 _ hostOps9_writes h
theorem V18_of (c : Dev nD) (r : Ref sig .tc) (h : r ∉ ([main_v82] : List (Ref sig .tc))) : V18 m outs c r = V17 m outs c r := upd_of _ _ h
theorem V19_of (c : Dev nD) (r : Ref sig .tc) (h : r ∉ hostOps10_W) : V19 m outs c r = V18 m outs c r :=
  StableHlo.after_of_writes_sub hostOps10 _ hostOps10_writes h
theorem V20_of (c : Dev nD) (r : Ref sig .tc) (h : r ∉ ([main_v91] : List (Ref sig .tc))) : V20 m outs c r = V19 m outs c r := upd_of _ _ h
theorem V21_of (c : Dev nD) (r : Ref sig .tc) (h : r ∉ ([main_v92] : List (Ref sig .tc))) : V21 m outs c r = V20 m outs c r := upd_of _ _ h
theorem V22_of (c : Dev nD) (r : Ref sig .tc) (h : r ∉ hostOps12_W) : V22 m outs c r = V21 m outs c r :=
  StableHlo.after_of_writes_sub hostOps12 _ hostOps12_writes h
theorem V23_of (c : Dev nD) (r : Ref sig .tc) (h : r ∉ ([main_v97] : List (Ref sig .tc))) : V23 m outs c r = V22 m outs c r := upd_of _ _ h
theorem V24_of (c : Dev nD) (r : Ref sig .tc) (h : r ∉ ([main_v98] : List (Ref sig .tc))) : V24 m outs c r = V23 m outs c r := upd_of _ _ h
theorem V25_of (c : Dev nD) (r : Ref sig .tc) (h : r ∉ hostOps14_W) : V25 m outs c r = V24 m outs c r :=
  StableHlo.after_of_writes_sub hostOps14 _ hostOps14_writes h
theorem V26_of (c : Dev nD) (r : Ref sig .tc) (h : r ∉ ([main_v103] : List (Ref sig .tc))) : V26 m outs c r = V25 m outs c r := upd_of _ _ h
theorem V27_of (c : Dev nD) (r : Ref sig .tc) (h : r ∉ hostOps15_W) : V27 m outs c r = V26 m outs c r :=
  StableHlo.after_of_writes_sub hostOps15 _ hostOps15_writes h
theorem V28_of (c : Dev nD) (r : Ref sig .tc) (h : r ∉ ([main_v108] : List (Ref sig .tc))) : V28 m outs c r = V27 m outs c r := upd_of _ _ h
theorem V29_of (c : Dev nD) (r : Ref sig .tc) (h : r ∉ ([main_v109] : List (Ref sig .tc))) : V29 m outs c r = V28 m outs c r := upd_of _ _ h
theorem V30_of (c : Dev nD) (r : Ref sig .tc) (h : r ∉ hostOps17_W) : V30 m outs c r = V29 m outs c r :=
  StableHlo.after_of_writes_sub hostOps17 _ hostOps17_writes h
theorem V31_of (c : Dev nD) (r : Ref sig .tc) (h : r ∉ ([main_v114] : List (Ref sig .tc))) : V31 m outs c r = V30 m outs c r := upd_of _ _ h
theorem V32_of (c : Dev nD) (r : Ref sig .tc) (h : r ∉ ([main_v115] : List (Ref sig .tc))) : V32 m outs c r = V31 m outs c r := upd_of _ _ h
theorem V33_of (c : Dev nD) (r : Ref sig .tc) (h : r ∉ hostOps19_W) : V33 m outs c r = V32 m outs c r :=
  StableHlo.after_of_writes_sub hostOps19 _ hostOps19_writes h
theorem V34_of (c : Dev nD) (r : Ref sig .tc) (h : r ∉ ([main_v120] : List (Ref sig .tc))) : V34 m outs c r = V33 m outs c r := upd_of _ _ h
theorem V35_of (c : Dev nD) (r : Ref sig .tc) (h : r ∉ hostOps20_W) : V35 m outs c r = V34 m outs c r :=
  StableHlo.after_of_writes_sub hostOps20 _ hostOps20_writes h

/-- States that agree off `W₁`, then off `W₂`, agree off both lists. -/
theorem off_trans {V₀ V₁ V₂ : Valuation τ sig (Elt F)} {W₁ W₂ : List (Ref sig .tc)}
    (h₁ : ∀ r : Ref sig .tc, r ∉ W₁ → V₁ r = V₀ r) (h₂ : ∀ r : Ref sig .tc, r ∉ W₂ → V₂ r = V₁ r) (r : Ref sig .tc) (h : r ∉ W₁ ++ W₂) :
    V₂ r = V₀ r :=
  (h₂ r fun hm => h (List.mem_append_right _ hm)).trans (h₁ r fun hm => h (List.mem_append_left _ hm))

/-- A reference no item writes holds at the end what it held at launch. -/
theorem V35_off (c : Dev nD) : ∀ r : Ref sig .tc, r ∉ hostOps0_W ++ hostOps0_1_W ++ hostOps0_2_W ++ [main_v53] ++ [main_v54] ++ hostOps2_W ++ [main_v59] ++ [main_v60] ++ hostOps4_W ++ [main_v65] ++ hostOps5_W ++ [main_v70] ++ [main_v71] ++ hostOps7_W ++ [main_v76] ++ [main_v77] ++ hostOps9_W ++ [main_v82] ++ hostOps10_W ++ [main_v91] ++ [main_v92] ++ hostOps12_W ++ [main_v97] ++ [main_v98] ++ hostOps14_W ++ [main_v103] ++ hostOps15_W ++ [main_v108] ++ [main_v109] ++ hostOps17_W ++ [main_v114] ++ [main_v115] ++ hostOps19_W ++ [main_v120] ++ hostOps20_W →
    V35 m outs c r = V0 m c r :=
  off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (V1_of m c) (V2_of m c)) (V3_of m c)) (V4_of m outs c)) (V5_of m outs c)) (V6_of m outs c)) (V7_of m outs c)) (V8_of m outs c)) (V9_of m outs c)) (V10_of m outs c)) (V11_of m outs c)) (V12_of m outs c)) (V13_of m outs c)) (V14_of m outs c)) (V15_of m outs c)) (V16_of m outs c)) (V17_of m outs c)) (V18_of m outs c)) (V19_of m outs c)) (V20_of m outs c)) (V21_of m outs c)) (V22_of m outs c)) (V23_of m outs c)) (V24_of m outs c)) (V25_of m outs c)) (V26_of m outs c)) (V27_of m outs c)) (V28_of m outs c)) (V29_of m outs c)) (V30_of m outs c)) (V31_of m outs c)) (V32_of m outs c)) (V33_of m outs c)) (V34_of m outs c)) (V35_of m outs c)

theorem V35_main_arg0 (c : Dev nD) : V35 m outs c main_arg0 = m ((c : Thread nD τ).loc main_arg0) := V35_off m outs c main_arg0 (by decide)
theorem V35_main_arg1 (c : Dev nD) : V35 m outs c main_arg1 = m ((c : Thread nD τ).loc main_arg1) := V35_off m outs c main_arg1 (by decide)
theorem V35_main_arg2 (c : Dev nD) : V35 m outs c main_arg2 = m ((c : Thread nD τ).loc main_arg2) := V35_off m outs c main_arg2 (by decide)
theorem V35_main_arg3 (c : Dev nD) : V35 m outs c main_arg3 = m ((c : Thread nD τ).loc main_arg3) := V35_off m outs c main_arg3 (by decide)
theorem V35_main_arg4 (c : Dev nD) : V35 m outs c main_arg4 = m ((c : Thread nD τ).loc main_arg4) := V35_off m outs c main_arg4 (by decide)
theorem V35_main_arg5 (c : Dev nD) : V35 m outs c main_arg5 = m ((c : Thread nD τ).loc main_arg5) := V35_off m outs c main_arg5 (by decide)
theorem V35_main_arg6 (c : Dev nD) : V35 m outs c main_arg6 = m ((c : Thread nD τ).loc main_arg6) := V35_off m outs c main_arg6 (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 21 → Dev nD → sProp (MT nD τ sig Ix (Elt F) ℕ U Lvl))

/-- A host stretch over the unscoped buffers, entered with the buffers at `V` beside `T`. -/
def hostSeg (ops : List (HloOp τ sig (Elt F))) (hs : ops.Forall fun op => op.bufs ⊆ StableHlo.tcRefs τ sig)
    (hf : ops.Forall fun op => op.fresh = ∅) (V : Dev nD → Valuation τ sig (Elt F)) (T : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op (List.forall_iff_forall_mem.mp hs op h)) (List.forall_iff_forall_mem.mp hf) V T

def seg0 := hostSeg 𝒱₀ L lv hostOps0 hostOps0_sub hostOps0_fresh (V0 m) (E 0)
def seg1 := hostSeg 𝒱₀ L lv hostOps0_1 hostOps0_1_sub hostOps0_1_fresh (V1 m) (E 0)
def seg2 := hostSeg 𝒱₀ L lv hostOps0_2 hostOps0_2_sub hostOps0_2_fresh (V2 m) (E 0)
def seg5 := hostSeg 𝒱₀ L lv hostOps2 hostOps2_sub hostOps2_fresh (V5 m outs) (E 2)
def seg8 := hostSeg 𝒱₀ L lv hostOps4 hostOps4_sub hostOps4_fresh (V8 m outs) (E 4)
def seg10 := hostSeg 𝒱₀ L lv hostOps5 hostOps5_sub hostOps5_fresh (V10 m outs) (E 5)
def seg13 := hostSeg 𝒱₀ L lv hostOps7 hostOps7_sub hostOps7_fresh (V13 m outs) (E 7)
def seg16 := hostSeg 𝒱₀ L lv hostOps9 hostOps9_sub hostOps9_fresh (V16 m outs) (E 9)
def seg18 := hostSeg 𝒱₀ L lv hostOps10 hostOps10_sub hostOps10_fresh (V18 m outs) (E 10)
def seg21 := hostSeg 𝒱₀ L lv hostOps12 hostOps12_sub hostOps12_fresh (V21 m outs) (E 12)
def seg24 := hostSeg 𝒱₀ L lv hostOps14 hostOps14_sub hostOps14_fresh (V24 m outs) (E 14)
def seg26 := hostSeg 𝒱₀ L lv hostOps15 hostOps15_sub hostOps15_fresh (V26 m outs) (E 15)
def seg29 := hostSeg 𝒱₀ L lv hostOps17 hostOps17_sub hostOps17_fresh (V29 m outs) (E 17)
def seg32 := hostSeg 𝒱₀ L lv hostOps19 hostOps19_sub hostOps19_fresh (V32 m outs) (E 19)
def seg34 := hostSeg 𝒱₀ L lv hostOps20 hostOps20_sub hostOps20_fresh (V34 m outs) (E 20)
end Segs

section

variable {Ix : Type} [DecidableEq Ix] {U : Type} [URA U] {Lvl : Type} [Preorder Lvl]

abbrev adm : (p : Fin 20) → (pcfgs (F := F) p).Adm := fun p => (cfgs p).toPCfg_adm

abbrev segs (𝒱₀ : Variants) (L : GSem nD τ sig → Finset Ix) (lv : GSem nD τ sig → Ix → Lvl) (E : Fin 21 → Dev nD → sProp (MT nD τ sig Ix (Elt F) ℕ U Lvl)) (ι : Ix)
    (pdats : (p : Fin 20) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (R18 : RegionSeg (pcfgs (F := F)) adm pdats ι defs₀ 𝒱₀ L lv 18) (R19 : RegionSeg (pcfgs (F := F)) adm pdats ι defs₀ 𝒱₀ L lv 19) (c : Dev nD) :
    List (Seg (pcfgs (F := F)) adm pdats ι defs₀ 𝒱₀ L lv) :=
  [.host (seg0 m 𝒱₀ L lv E), .host (seg1 m 𝒱₀ L lv E), .host (seg2 m 𝒱₀ L lv E), .region R0, .region R1, .host (seg5 m outs 𝒱₀ L lv E), .region R2, .region R3, .host (seg8 m outs 𝒱₀ L lv E), .region R4, .host (seg10 m outs 𝒱₀ L lv E), .region R5, .region R6, .host (seg13 m outs 𝒱₀ L lv E), .region R7, .region R8, .host (seg16 m outs 𝒱₀ L lv E), .region R9, .host (seg18 m outs 𝒱₀ L lv E), .region R10, .region R11, .host (seg21 m outs 𝒱₀ L lv E), .region R12, .region R13, .host (seg24 m outs 𝒱₀ L lv E), .region R14, .host (seg26 m outs 𝒱₀ L lv E), .region R15, .region R16, .host (seg29 m outs 𝒱₀ L lv E), .region R17, .region R18, .host (seg32 m outs 𝒱₀ L lv E), .region R19, .host (seg34 m outs 𝒱₀ L lv E)]

end

end Cert.Kernel.GenP

end
-- ==== Proof.K.Acc0Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after point `t`: the first two blocks' product added to zero, plus the third block. -/
noncomputable def out0 (c : Dev nD) (t : Fin cfg0.N) : Vec F S8192x128 .f32 :=
  k0_pay3 (k0_pay2 (k0_pay1 (F := F)) (iblk0 V c 0 t) (iblk0 V c 1 t)) (iblk0 V c 2 t)

/-- The accumulator is reset at every point, so the invariant keeps nothing of it. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

theorem A_eq0 (c : Dev nD) (w : Fin cfg0.W) : (dat0 V c).A w = V c (Pipeline.arrRef spec0 w) := rfl

end Cert.Kernel.Hand

end
-- ==== Proof.WholeShape.lean ====
import Idealize.ShloMosaic.Lib.Pipeline.FrameBody
import Idealize.ShloMosaic.Lib.Pipeline.Value
import Mathlib.Tactic.FinCases

namespace Cert.Whole

open Idealize.ShloMosaic

theorem hz2 : (![0, 0] : Fin 2 → Nat) = fun _ => 0 := funext fun a => by fin_cases a <;> rfl

/-- Stores whose last goes through the whole-shape rectangle cover the shape. -/
theorem cover_unit_zero {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

/-- A whole-shape load after a last whole-shape store reads that store's payload. -/
theorem readCov_cons_unit_zero {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_unit_zero h inb w L), View.canon_cons_unit_zero h, View.ld_unit_zero h]

end Cert.Whole
-- ==== Proof.K.AccRun0.lean ====
import proofs.«414074_j90701119357381_1_alg».proof.Proof.Gen.Kernel.Skeleton
import proofs.«414074_j90701119357381_1_alg».proof.Proof.WholeShape
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Whole

variable {F : FTy → Type} [FloatOps F]

local notation "𝕄" => MT nD τ sig Unit (Elt F) ℕ (UR sig nD τ) ℕ

set_option maxHeartbeats 1000000 in
/-- The body on whole buffers, both branches taken: the accumulator ends at the product added to zero, the output at that plus the summand. -/
theorem kernelRun0 (c : Dev nD) (i : grid0.Coords)
    (arg2 : Memref sig .tc .vmem S8192x64 .bf16) (harg2 : arg2.IsWhole)
    (arg3 : Memref sig .tc .vmem S64x128 .bf16) (harg3 : arg3.IsWhole)
    (arg4 : Memref sig .tc .vmem S8192x128 .f32) (harg4 : arg4.IsWhole)
    (arg5 : Memref sig .tc .vmem S8192x128 .f32) (harg5 : arg5.IsWhole)
    (arg6 : Memref sig .tc .vmem S8192x128 .f32) (harg6 : arg6.IsWhole)
    (hc : k0_cond2 i = 1#1)
    (x_a : Vec F S8192x64 .bf16) (x_b : Vec F S64x128 .bf16) (x_c : Vec F S8192x128 .f32)
    (E : Set ℕ) (K : PUnit → sProp 𝕄) :
    iprop(owns (c : Thread nD τ) arg2 fullShare x_a ∗ owns (c : Thread nD τ) arg3 fullShare x_b
        ∗ owns (c : Thread nD τ) arg4 fullShare x_c ∗ (∃ d, owns (c : Thread nD τ) arg5 fullShare d)
        ∗ (∃ d, owns (c : Thread nD τ) arg6 fullShare d)
        ∗ (iprop(owns (c : Thread nD τ) arg2 fullShare x_a ∗ owns (c : Thread nD τ) arg3 fullShare x_b
            ∗ owns (c : Thread nD τ) arg4 fullShare x_c
            ∗ owns (c : Thread nD τ) arg5 fullShare (k0_pay3 (k0_pay2 (k0_pay1 (F := F)) x_a x_b) x_c)
            ∗ owns (c : Thread nD τ) arg6 fullShare (k0_pay2 (k0_pay1 (F := F)) x_a x_b)) -∗ K ⟨⟩))
      ⊢ wp frame (wpE (defs₀ (F := F)) Variants.none c none) E
          (cc0__matmul_acc_kernel i arg2 harg2 arg3 harg3 arg4 harg4 arg5 harg5 arg6 harg6) K := by
  simp only [cc0__matmul_acc_kernel_eq_skeleton]; unfold cc0__matmul_acc_kernel_skel
  unfold owns
  iintro ⟨⟨%f_a, %hf_a, HA⟩, ⟨%f_b, %hf_b, HB⟩, ⟨%f_c, %hf_c, HC⟩, ⟨%d_o, %f_o, -, HO⟩, ⟨%d_s, %f_s, -, HS⟩, Hk⟩
  obtain rfl := harg2.eq_unread hf_a; obtain rfl := harg3.eq_unread hf_b; obtain rfl := harg4.eq_unread hf_c
  sl_exec (disch := exact hc)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  isplitl [HO]
  · iexists _; isplitr
    swap; · iexact HO
    ipureintro
    rw [View.read_writes_eq_canon _ _ _ (cover_unit_zero hz2 _ _ _), View.canon_unit_zero hz2]
    sl_unfold_run_names
    simp only [readCov_cons_unit_zero (S := S8192x128) _ hz2, View.readCov_unit_zero (S := S8192x128) _ hz2, View.readAt_eq_ld, harg2.read_unread,
      harg3.read_unread, harg4.read_unread, View.ld_unit_zero (S := S8192x64) hz2, View.ld_unit_zero (S := S64x128) hz2,
      View.ld_unit_zero (S := S8192x128) hz2]
  · iexists _; isplitr
    swap; · iexact HS
    ipureintro
    sl_unfold_run_names
    rw [View.read_writes_eq_canon _ _ _ (cover_unit_zero hz2 _ _ _), View.canon_cons_unit_zero hz2]
    simp only [View.readCov_unit_zero (S := S8192x128) _ hz2, View.readAt_eq_ld, harg2.read_unread,
      harg3.read_unread, View.ld_unit_zero (S := S8192x64) hz2, View.ld_unit_zero (S := S64x128) hz2]

end Cert.Kernel.Hand

end
-- ==== Proof.K.Acc0.lean ====
import proofs.«414074_j90701119357381_1_alg».proof.Proof.K.Acc0Def
import proofs.«414074_j90701119357381_1_alg».proof.Proof.K.AccRun0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live0 : ∀ t : Fin cfg0.N, idle0 3 (grid0.coords t) = false := by decide +kernel

theorem hcond0 : ∀ t : Fin cfg0.N, k0_cond2 (grid0.coords t) = 1#1 := by decide +kernel

theorem before0 (c : Dev nD) (t : Fin cfg0.N) :
    (∀ d, (dat0 V c).before 0 t d = iblk0 V c 0 t) ∧ (∀ d, (dat0 V c).before 1 t d = iblk0 V c 1 t)
      ∧ ∀ d, (dat0 V c).before 2 t d = iblk0 V c 2 t := by
  refine ⟨fun d => ?_, fun d => ?_, fun d => ?_⟩ <;>
    exact ((dat0 V c).before_in_eq_fetched _ rfl (fun _ => rfl) (fun _ _ _ => rfl) (fun _ => rfl) t d).trans rfl

/-- The invariant with the accumulator's buffer split off the other scoped buffers. -/
theorem PhiEq0 (c : Dev nD) : ∃ R : sProp 𝕄, ∀ n, (dat0 V c).Φ n
    = iprop(iprop((∃ d, owns (c : Thread nD τ) (Memref.whole cc0_scratch0) fullShare d) ∗ R) ∗ (∃ r, prngReg c r)) :=
  ⟨_, fun _ => by
    show Pipeline.ΦA spec0 c = _
    unfold Pipeline.ΦA; rw [scopedRest0_split]; simp only [owns_whole]; rfl⟩

theorem body_obligation0 (c : Dev nD) : BodyObligation (dat0 (F := F) V c) (defs₀ (F := F)) Variants.none () Set.univ := fun t => by
  obtain ⟨R, hR⟩ := PhiEq0 V c
  rw [bigSep_W0, bigSep_W0, hR, hR]
  simp only [(before0 V c t).1, (before0 V c t).2.1, (before0 V c t).2.2]
  rw [live0 t]
  refine .trans ?_ (kernelRun0 c _ _ (hstage0_0 _) _ (hstage0_1 _) _ (hstage0_2 _) _ (hstage0_3 _) (Memref.whole cc0_scratch0)
    (Memref.isWhole_whole _) (hcond0 t) (iblk0 V c 0 t) (iblk0 V c 1 t) (iblk0 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in0 (c : Dev nD) : (Pipeline.ΦA spec0 c : sProp 𝕄) ⊢ (dat0 V c).Φ 0 := .rfl

theorem Phi_out0 (c : Dev nD) : (dat0 V c).Φ (Fin.last cfg0.N) ⊢ (Pipeline.ΦA spec0 c : sProp 𝕄) := .rfl

end Cert.Kernel.Hand

end
-- ==== Proof.K.Mm1Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S2048x256 .f32 := Memref.whole cc1_scratch0

/-- The accumulator after point `n`: the point's product added to zero at the first point of a run, else to what the
    point before left. -/
def sc1 (c : Dev nD) : (n : ℕ) → n < cfg1.N → Vec F S2048x256 .f32
  | 0, hn => k1_pay2 k1_pay1 (iblk1 V c 0 ⟨0, hn⟩) (iblk1 V c 1 ⟨0, hn⟩)
  | n + 1, hn =>
    k1_pay2 (if (n + 1) % 5 = 0 then k1_pay1 else sc1 c n (Nat.lt_of_succ_lt hn)) (iblk1 V c 0 ⟨n + 1, hn⟩) (iblk1 V c 1 ⟨n + 1, hn⟩)

abbrev rest1 (c : Dev nD) : sProp 𝕄 :=
  Pipeline.scopedRestBut (Ix := Unit) (Name := ℕ) (U := UR sig nD τ) (Lvl := ℕ) (Val := Elt F) spec1 c [cc1_scratch0]

/-- Before position `n` the accumulator holds what point `n - 1` left, anything before the first point. -/
def Phi1 (c : Dev nD) (n : ℕ) : sProp 𝕄 :=
  iprop(∃ xs, ⌜∀ m hm, n = m + 1 → xs = sc1 V c m hm⌝ ∗ owns (c : Thread nD τ) scM1 fullShare xs ∗ rest1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (sc1 V c t.val t.isLt)
  Φ t := Phi1 V c t.val
  q _ := fullShare
  owed _ := 0

theorem A_eq1 (c : Dev nD) (w : Fin cfg1.W) : (dat1 V c).A w = V c (Pipeline.arrRef spec1 w) := rfl

end Cert.Kernel.Hand

end
-- ==== Proof.K.MmRun1.lean ====
import proofs.«414074_j90701119357381_1_alg».proof.Proof.Gen.Kernel.Skeleton
import proofs.«414074_j90701119357381_1_alg».proof.Proof.WholeShape
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_2 (i : grid1.Coords) : Prop := k1_cond2 i = 1#1

set_option maxHeartbeats 1000000 in
/-- The accumulator, reset first where the contraction index is the first, gains the product of the two blocks; where the
    index is the last the output block takes the accumulator, narrowed. -/
theorem kernelRun1 (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S2048x256 .bf16) (harg4 : arg4.IsWhole)
    (arg5 : Memref sig .tc .vmem S2048x256 .f32) (harg5 : arg5.IsWhole)
    (x_a : Vec F S2048x2048 .bf16) (x_b x_o out : Vec F S2048x256 .bf16) (xs acc : Vec F S2048x256 .f32)
    (hacc : acc = k1_pay2 (if cond1_0 i then k1_pay1 else xs) x_a x_b) (hout : out = if cond1_2 i then k1_pay3 acc else x_o)
    (E : Set ℕ) (K : PUnit → sProp 𝕄) :
    iprop(owns (c : Thread nD τ) arg2 fullShare x_a ∗ owns (c : Thread nD τ) arg3 fullShare x_b
        ∗ owns (c : Thread nD τ) arg4 fullShare x_o ∗ owns (c : Thread nD τ) arg5 fullShare xs
        ∗ (iprop(owns (c : Thread nD τ) arg2 fullShare x_a ∗ owns (c : Thread nD τ) arg3 fullShare x_b
            ∗ owns (c : Thread nD τ) arg4 fullShare out ∗ owns (c : Thread nD τ) arg5 fullShare acc) -∗ K ⟨⟩))
      ⊢ wp frame (wpE (defs₀ (F := F)) Variants.none c none) E (cc1__matmul_kernel i arg2 harg2 arg3 harg3 arg4 harg4 arg5 harg5) K := by
  subst hout hacc
  by_cases hc0 : cond1_0 i <;> by_cases hc2 : cond1_2 i
  all_goals
    first | rw [if_pos hc0] | rw [if_neg hc0]
    first | rw [if_pos hc2] | rw [if_neg hc2]
    simp only [cc1__matmul_kernel_eq_skeleton]; unfold cc1__matmul_kernel_skel owns
    iintro ⟨⟨%f_a, %hf_a, H_a⟩, ⟨%f_b, %hf_b, H_b⟩, ⟨%f_o, %hf_o, H_o⟩, ⟨%f_s, %hf_s, HS⟩, Hk⟩
    obtain rfl := harg2.eq_unread hf_a; obtain rfl := harg3.eq_unread hf_b; obtain rfl := harg4.eq_unread hf_o
    obtain rfl := harg5.eq_unread hf_s
    sl_exec (disch := first | exact hc0 | exact hc2)
    sl_step
    iapply Hk
    isplitl [H_a]
    · iexists _; isplitr; swap; · iexact H_a
      ipureintro; exact harg2.read_unread _
    isplitl [H_b]
    · iexists _; isplitr; swap; · iexact H_b
      ipureintro; exact harg3.read_unread _
    isplitl [H_o]
    · iexists _; isplitr; swap; · iexact H_o
      ipureintro
      first
      | have : ¬cond1_2 i := hc2
        exact harg4.read_unread _
      | sl_unfold_words
        rw [View.read_writes_eq_canon _ _ _ (Whole.cover_unit_zero Whole.hz2 _ _ _), View.canon_cons_unit_zero (S := S2048x256) Whole.hz2]
        repeat rw [Whole.readCov_cons_unit_zero (S := S2048x256) _ Whole.hz2]
        simp only [View.readAt_eq_ld, harg2.read_unread, harg3.read_unread, harg5.read_unread,
          View.ld_unit_zero (S := S2048x2048) Whole.hz2, View.ld_unit_zero (S := S2048x256) Whole.hz2]
    iexists _; isplitr; swap; · iexact HS
    ipureintro
    sl_unfold_words
    rw [View.read_writes_eq_canon _ _ _ (Whole.cover_unit_zero Whole.hz2 _ _ _), View.canon_cons_unit_zero (S := S2048x256) Whole.hz2]
    repeat rw [Whole.readCov_cons_unit_zero (S := S2048x256) _ Whole.hz2]
    simp only [View.readAt_eq_ld, harg2.read_unread, harg3.read_unread, harg5.read_unread,
      View.ld_unit_zero (S := S2048x2048) Whole.hz2, View.ld_unit_zero (S := S2048x256) Whole.hz2]

theorem hcond1_0 : ∀ t : Fin grid1.N, cond1_0 (grid1.coords t) ↔ t.val % 5 = 0 := by decide +kernel
theorem hcond1_2 : ∀ t : Fin grid1.N, cond1_2 (grid1.coords t) ↔ t.val % 5 = 4 := by decide +kernel

end Cert.Kernel.Hand

end
-- ==== Proof.K.Mm1.lean ====
import proofs.«414074_j90701119357381_1_alg».proof.Proof.K.Mm1Def
import proofs.«414074_j90701119357381_1_alg».proof.Proof.K.MmRun1
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle1_2 : ∀ t : Fin cfg1.N, cfg1.idle 2 (grid1.coords t) = !decide (cond1_2 (grid1.coords t)) := by decide +kernel

abbrev ms1_0 (t : Fin cfg1.N) : Memref sig .tc .vmem S2048x2048 .bf16 := win1_0.stage (cfg1.slots t 0)
abbrev ms1_1 (t : Fin cfg1.N) : Memref sig .tc .vmem S2048x256 .bf16 := win1_1.stage (cfg1.slots t 1)
abbrev ms1_2 (t : Fin cfg1.N) : Memref sig .tc .vmem S2048x256 .bf16 := win1_2.stage (cfg1.slots t 2)

theorem PhiA_eq1 (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- One step of the accumulation, from what the point before left. -/
theorem sc_eq1 (c : Dev nD) (t : Fin cfg1.N) (xs : Vec F S2048x256 .f32) (hx : ∀ m hm, t.val = m + 1 → xs = sc1 V c m hm) :
    sc1 V c t.val t.isLt = k1_pay2 (if cond1_0 (grid1.coords t) then k1_pay1 else xs) (iblk1 V c 0 t) (iblk1 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k1_pay2 · _ _) (if_congr (hcond1_0 ⟨n + 1, hn⟩) rfl rfl).symm

theorem before1_0 (c : Dev nD) (t : Fin cfg1.N) (d) : (dat1 V c).before 0 t d = iblk1 V c 0 t :=
  (dat1 V c).before_fetched 0 t (fetch1_0 t) d
theorem before1_1 (c : Dev nD) (t : Fin cfg1.N) (d) : (dat1 V c).before 1 t d = iblk1 V c 1 t :=
  (dat1 V c).before_fetched 1 t (fetch1_1 t) d

theorem leaves1_2 (c : Dev nD) (t : Fin cfg1.N) (d) :
    owns (c : Thread nD τ) (ms1_2 t) fullShare
        (if cond1_2 (grid1.coords t) then k1_pay3 (sc1 V c t.val t.isLt) else (dat1 V c).before 2 t d)
      ⊢ (dat1 V c).leavesExact 2 t := by
  by_cases h : cond1_2 (grid1.coords t)
  · rw [if_pos h]; unfold Dat.leavesExact; rw [idle1_2 t, decide_eq_true h]; exact .rfl
  · rw [if_neg h, Dat.leavesExact_idle _ 2 t (by rw [idle1_2 t, decide_eq_false h]; rfl)
      (Bool.eq_false_iff.mpr fun hf => h ((hcond1_2 t).mpr ((flush1_2 t).mp hf)))]
    iintro H; iexists d; iexact H

theorem sound_body1 (c : Dev nD) (t : Fin cfg1.N) :
    iprop(Phi1 V c t.val ∗ (dat1 V c).owesAt () t.castSucc
        ∗ (∃ d, owns (c : Thread nD τ) (ms1_0 t) fullShare ((dat1 V c).before 0 t d))
        ∗ (∃ d, owns (c : Thread nD τ) (ms1_1 t) fullShare ((dat1 V c).before 1 t d))
        ∗ (∃ d, owns (c : Thread nD τ) (ms1_2 t) fullShare ((dat1 V c).before 2 t d)))
      ⊢ wp frame (wpE (defs₀ (F := F)) Variants.none c none) Set.univ (bodyAt1 t) fun _ =>
        iprop(Phi1 V c (t.val + 1) ∗ (dat1 V c).owesAt () t.castSucc
          ∗ owns (c : Thread nD τ) (ms1_0 t) fullShare (iblk1 V c 0 t)
          ∗ owns (c : Thread nD τ) (ms1_1 t) fullShare (iblk1 V c 1 t) ∗ (dat1 V c).leavesExact 2 t) := by
  simp only [before1_0, before1_1]; unfold Phi1
  iintro ⟨⟨%xs, %hx, HS, Hr, Hg⟩, Ho, ⟨%d_a, H_a⟩, ⟨%d_b, H_b⟩, ⟨%d_o, H_o⟩⟩
  refine BIBase.Entails.trans ?_ (kernelRun1 c (grid1.coords t) (ms1_0 t) (hstage1_0 _) (ms1_1 t) (hstage1_1 _) (ms1_2 t) (hstage1_2 _) scM1 (Memref.isWhole_whole _)
    (iblk1 V c 0 t) (iblk1 V c 1 t) ((dat1 V c).before 2 t d_o)
    (if cond1_2 (grid1.coords t) then k1_pay3 (sc1 V c t.val t.isLt) else (dat1 V c).before 2 t d_o) xs _
    (sc_eq1 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc1 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves1_2 V c t d_o); iexact H_o

theorem body_obligation1 (c : Dev nD) : BodyObligation (dat1 (F := F) V c) (defs₀ (F := F)) Variants.none () Set.univ := fun t => by
  rw [bigSep_W1, bigSep_W1]
  exact sound_body1 V c t

theorem Phi_in1 (c : Dev nD) : (Pipeline.ΦA spec1 c : sProp 𝕄) ⊢ (dat1 V c).Φ 0 := by
  rw [PhiA_eq1]; show _ ⊢ Phi1 V c 0; unfold Phi1
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out1 (c : Dev nD) : (dat1 V c).Φ (Fin.last cfg1.N) ⊢ (Pipeline.ΦA spec1 c : sProp 𝕄) := by
  rw [PhiA_eq1]; show Phi1 V c _ ⊢ _; unfold Phi1
  iintro ⟨%xs, -, HS, Hr, Hg⟩
  isplitl [HS Hr]
  · isplitl [HS]; · iexists _; iexact HS
    iexact Hr
  iexact Hg

end Cert.Kernel.Hand

end
-- ==== Proof.K.Acc2Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block after point `t`: the first two blocks' product added to zero, plus the third block. -/
noncomputable def out2 (c : Dev nD) (t : Fin cfg2.N) : Vec F S8192x128 .f32 :=
  k2_pay3 (k2_pay2 (k2_pay1 (F := F)) (iblk2 V c 0 t) (iblk2 V c 1 t)) (iblk2 V c 2 t)

/-- The accumulator is reset at every point, so the invariant keeps nothing of it. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ _ := Pipeline.ΦA spec2 c
  q _ := fullShare
  owed _ := 0

theorem A_eq2 (c : Dev nD) (w : Fin cfg2.W) : (dat2 V c).A w = V c (Pipeline.arrRef spec2 w) := rfl

end Cert.Kernel.Hand

end
-- ==== Proof.K.Acc2.lean ====
import proofs.«414074_j90701119357381_1_alg».proof.Proof.K.Acc2Def
import proofs.«414074_j90701119357381_1_alg».proof.Proof.K.AccRun0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live2 : ∀ t : Fin cfg2.N, idle2 3 (grid2.coords t) = false := by decide +kernel

theorem hcond2 : ∀ t : Fin cfg2.N, k2_cond2 (grid2.coords t) = 1#1 := by decide +kernel

theorem before2 (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨fun d => ?_, fun d => ?_, fun d => ?_⟩ <;>
    exact ((dat2 V c).before_in_eq_fetched _ rfl (fun _ => rfl) (fun _ _ _ => rfl) (fun _ => rfl) t d).trans rfl

/-- The invariant with the accumulator's buffer split off the other scoped buffers. -/
theorem PhiEq2 (c : Dev nD) : ∃ R : sProp 𝕄, ∀ n, (dat2 V c).Φ n
    = iprop(iprop((∃ d, owns (c : Thread nD τ) (Memref.whole cc2_scratch0) fullShare d) ∗ R) ∗ (∃ r, prngReg c r)) :=
  ⟨_, fun _ => by
    show Pipeline.ΦA spec2 c = _
    unfold Pipeline.ΦA; rw [scopedRest2_split]; simp only [owns_whole]; rfl⟩

theorem body_obligation2 (c : Dev nD) : BodyObligation (dat2 (F := F) V c) (defs₀ (F := F)) Variants.none () Set.univ := fun t => by
  obtain ⟨R, hR⟩ := PhiEq2 V c
  rw [bigSep_W2, bigSep_W2, hR, hR]
  simp only [(before2 V c t).1, (before2 V c t).2.1, (before2 V c t).2.2]
  rw [live2 t]
  refine .trans ?_ (kernelRun0 c _ _ (hstage2_0 _) _ (hstage2_1 _) _ (hstage2_2 _) _ (hstage2_3 _) (Memref.whole cc2_scratch0)
    (Memref.isWhole_whole _) (hcond2 t) (iblk2 V c 0 t) (iblk2 V c 1 t) (iblk2 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in2 (c : Dev nD) : (Pipeline.ΦA spec2 c : sProp 𝕄) ⊢ (dat2 V c).Φ 0 := .rfl

theorem Phi_out2 (c : Dev nD) : (dat2 V c).Φ (Fin.last cfg2.N) ⊢ (Pipeline.ΦA spec2 c : sProp 𝕄) := .rfl

end Cert.Kernel.Hand

end
-- ==== Proof.K.Mm3Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S2048x256 .f32 := Memref.whole cc3_scratch0

/-- The accumulator after point `n`: the point's product added to zero at the first point of a run, else to what the
    point before left. -/
def sc3 (c : Dev nD) : (n : ℕ) → n < cfg3.N → Vec F S2048x256 .f32
  | 0, hn => k3_pay2 k3_pay1 (iblk3 V c 0 ⟨0, hn⟩) (iblk3 V c 1 ⟨0, hn⟩)
  | n + 1, hn =>
    k3_pay2 (if (n + 1) % 5 = 0 then k3_pay1 else sc3 c n (Nat.lt_of_succ_lt hn)) (iblk3 V c 0 ⟨n + 1, hn⟩) (iblk3 V c 1 ⟨n + 1, hn⟩)

abbrev rest3 (c : Dev nD) : sProp 𝕄 :=
  Pipeline.scopedRestBut (Ix := Unit) (Name := ℕ) (U := UR sig nD τ) (Lvl := ℕ) (Val := Elt F) spec3 c [cc3_scratch0]

/-- Before position `n` the accumulator holds what point `n - 1` left, anything before the first point. -/
def Phi3 (c : Dev nD) (n : ℕ) : sProp 𝕄 :=
  iprop(∃ xs, ⌜∀ m hm, n = m + 1 → xs = sc3 V c m hm⌝ ∗ owns (c : Thread nD τ) scM3 fullShare xs ∗ rest3 c ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (sc3 V c t.val t.isLt)
  Φ t := Phi3 V c t.val
  q _ := fullShare
  owed _ := 0

theorem A_eq3 (c : Dev nD) (w : Fin cfg3.W) : (dat3 V c).A w = V c (Pipeline.arrRef spec3 w) := rfl

end Cert.Kernel.Hand

end
-- ==== Proof.K.Mm3.lean ====
import proofs.«414074_j90701119357381_1_alg».proof.Proof.K.Mm3Def
import proofs.«414074_j90701119357381_1_alg».proof.Proof.K.MmRun1
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle3_2 : ∀ t : Fin cfg3.N, cfg3.idle 2 (grid3.coords t) = !decide (cond1_2 (grid3.coords t)) := by decide +kernel

abbrev ms3_0 (t : Fin cfg3.N) : Memref sig .tc .vmem S2048x2048 .bf16 := win3_0.stage (cfg3.slots t 0)
abbrev ms3_1 (t : Fin cfg3.N) : Memref sig .tc .vmem S2048x256 .bf16 := win3_1.stage (cfg3.slots t 1)
abbrev ms3_2 (t : Fin cfg3.N) : Memref sig .tc .vmem S2048x256 .bf16 := win3_2.stage (cfg3.slots t 2)

theorem PhiA_eq3 (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; try rfl

/-- One step of the accumulation, from what the point before left. -/
theorem sc_eq3 (c : Dev nD) (t : Fin cfg3.N) (xs : Vec F S2048x256 .f32) (hx : ∀ m hm, t.val = m + 1 → xs = sc3 V c m hm) :
    sc3 V c t.val t.isLt = k3_pay2 (if cond1_0 (grid3.coords t) then k3_pay1 else xs) (iblk3 V c 0 t) (iblk3 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k3_pay2 · _ _) (if_congr (hcond1_0 ⟨n + 1, hn⟩) rfl rfl).symm

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

theorem leaves3_2 (c : Dev nD) (t : Fin cfg3.N) (d) :
    owns (c : Thread nD τ) (ms3_2 t) fullShare
        (if cond1_2 (grid3.coords t) then k3_pay3 (sc3 V c t.val t.isLt) else (dat3 V c).before 2 t d)
      ⊢ (dat3 V c).leavesExact 2 t := by
  by_cases h : cond1_2 (grid3.coords t)
  · rw [if_pos h]; unfold Dat.leavesExact; rw [idle3_2 t, decide_eq_true h]; exact .rfl
  · rw [if_neg h, Dat.leavesExact_idle _ 2 t (by rw [idle3_2 t, decide_eq_false h]; rfl)
      (Bool.eq_false_iff.mpr fun hf => h ((hcond1_2 t).mpr ((flush3_2 t).mp hf)))]
    iintro H; iexists d; iexact H

theorem sound_body3 (c : Dev nD) (t : Fin cfg3.N) :
    iprop(Phi3 V c t.val ∗ (dat3 V c).owesAt () t.castSucc
        ∗ (∃ d, owns (c : Thread nD τ) (ms3_0 t) fullShare ((dat3 V c).before 0 t d))
        ∗ (∃ d, owns (c : Thread nD τ) (ms3_1 t) fullShare ((dat3 V c).before 1 t d))
        ∗ (∃ d, owns (c : Thread nD τ) (ms3_2 t) fullShare ((dat3 V c).before 2 t d)))
      ⊢ wp frame (wpE (defs₀ (F := F)) Variants.none c none) Set.univ (bodyAt3 t) fun _ =>
        iprop(Phi3 V c (t.val + 1) ∗ (dat3 V c).owesAt () t.castSucc
          ∗ owns (c : Thread nD τ) (ms3_0 t) fullShare (iblk3 V c 0 t)
          ∗ owns (c : Thread nD τ) (ms3_1 t) fullShare (iblk3 V c 1 t) ∗ (dat3 V c).leavesExact 2 t) := by
  simp only [before3_0, before3_1]; unfold Phi3
  iintro ⟨⟨%xs, %hx, HS, Hr, Hg⟩, Ho, ⟨%d_a, H_a⟩, ⟨%d_b, H_b⟩, ⟨%d_o, H_o⟩⟩
  refine BIBase.Entails.trans ?_ (kernelRun1 c (grid3.coords t) (ms3_0 t) (hstage3_0 _) (ms3_1 t) (hstage3_1 _) (ms3_2 t) (hstage3_2 _) scM3 (Memref.isWhole_whole _)
    (iblk3 V c 0 t) (iblk3 V c 1 t) ((dat3 V c).before 2 t d_o)
    (if cond1_2 (grid3.coords t) then k3_pay3 (sc3 V c t.val t.isLt) else (dat3 V c).before 2 t d_o) xs _
    (sc_eq3 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc3 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves3_2 V c t d_o); iexact H_o

theorem body_obligation3 (c : Dev nD) : BodyObligation (dat3 (F := F) V c) (defs₀ (F := F)) Variants.none () Set.univ := fun t => by
  rw [bigSep_W3, bigSep_W3]
  exact sound_body3 V c t

theorem Phi_in3 (c : Dev nD) : (Pipeline.ΦA spec3 c : sProp 𝕄) ⊢ (dat3 V c).Φ 0 := by
  rw [PhiA_eq3]; show _ ⊢ Phi3 V c 0; unfold Phi3
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out3 (c : Dev nD) : (dat3 V c).Φ (Fin.last cfg3.N) ⊢ (Pipeline.ΦA spec3 c : sProp 𝕄) := by
  rw [PhiA_eq3]; show Phi3 V c _ ⊢ _; unfold Phi3
  iintro ⟨%xs, -, HS, Hr, Hg⟩
  isplitl [HS Hr]
  · isplitl [HS]; · iexists _; iexact HS
    iexact Hr
  iexact Hg

end Cert.Kernel.Hand

end
-- ==== Proof.K.Acc4Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The output block after point `t`: the first two blocks' product added to zero, plus the third block. -/
noncomputable def out4 (c : Dev nD) (t : Fin cfg4.N) : Vec F S8192x128 .f32 :=
  k4_pay3 (k4_pay2 (k4_pay1 (F := F)) (iblk4 V c 0 t) (iblk4 V c 1 t)) (iblk4 V c 2 t)

/-- The accumulator is reset at every point, so the invariant keeps nothing of it. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ _ := Pipeline.ΦA spec4 c
  q _ := fullShare
  owed _ := 0

theorem A_eq4 (c : Dev nD) (w : Fin cfg4.W) : (dat4 V c).A w = V c (Pipeline.arrRef spec4 w) := rfl

end Cert.Kernel.Hand

end
-- ==== Proof.K.Acc4.lean ====
import proofs.«414074_j90701119357381_1_alg».proof.Proof.K.Acc4Def
import proofs.«414074_j90701119357381_1_alg».proof.Proof.K.AccRun0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live4 : ∀ t : Fin cfg4.N, idle4 3 (grid4.coords t) = false := by decide +kernel

theorem hcond4 : ∀ t : Fin cfg4.N, k4_cond2 (grid4.coords t) = 1#1 := by decide +kernel

theorem before4 (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨fun d => ?_, fun d => ?_, fun d => ?_⟩ <;>
    exact ((dat4 V c).before_in_eq_fetched _ rfl (fun _ => rfl) (fun _ _ _ => rfl) (fun _ => rfl) t d).trans rfl

/-- The invariant with the accumulator's buffer split off the other scoped buffers. -/
theorem PhiEq4 (c : Dev nD) : ∃ R : sProp 𝕄, ∀ n, (dat4 V c).Φ n
    = iprop(iprop((∃ d, owns (c : Thread nD τ) (Memref.whole cc4_scratch0) fullShare d) ∗ R) ∗ (∃ r, prngReg c r)) :=
  ⟨_, fun _ => by
    show Pipeline.ΦA spec4 c = _
    unfold Pipeline.ΦA; rw [scopedRest4_split]; simp only [owns_whole]; rfl⟩

theorem body_obligation4 (c : Dev nD) : BodyObligation (dat4 (F := F) V c) (defs₀ (F := F)) Variants.none () Set.univ := fun t => by
  obtain ⟨R, hR⟩ := PhiEq4 V c
  rw [bigSep_W4, bigSep_W4, hR, hR]
  simp only [(before4 V c t).1, (before4 V c t).2.1, (before4 V c t).2.2]
  rw [live4 t]
  refine .trans ?_ (kernelRun0 c _ _ (hstage4_0 _) _ (hstage4_1 _) _ (hstage4_2 _) _ (hstage4_3 _) (Memref.whole cc4_scratch0)
    (Memref.isWhole_whole _) (hcond4 t) (iblk4 V c 0 t) (iblk4 V c 1 t) (iblk4 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in4 (c : Dev nD) : (Pipeline.ΦA spec4 c : sProp 𝕄) ⊢ (dat4 V c).Φ 0 := .rfl

theorem Phi_out4 (c : Dev nD) : (dat4 V c).Φ (Fin.last cfg4.N) ⊢ (Pipeline.ΦA spec4 c : sProp 𝕄) := .rfl

end Cert.Kernel.Hand

end
-- ==== Proof.K.Acc5Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The output block after point `t`: the first two blocks' product added to zero, plus the third block. -/
noncomputable def out5 (c : Dev nD) (t : Fin cfg5.N) : Vec F S8192x128 .f32 :=
  k5_pay3 (k5_pay2 (k5_pay1 (F := F)) (iblk5 V c 0 t) (iblk5 V c 1 t)) (iblk5 V c 2 t)

/-- The accumulator is reset at every point, so the invariant keeps nothing of it. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c t
  Φ _ := Pipeline.ΦA spec5 c
  q _ := fullShare
  owed _ := 0

theorem A_eq5 (c : Dev nD) (w : Fin cfg5.W) : (dat5 V c).A w = V c (Pipeline.arrRef spec5 w) := rfl

end Cert.Kernel.Hand

end
-- ==== Proof.K.Acc5.lean ====
import proofs.«414074_j90701119357381_1_alg».proof.Proof.K.Acc5Def
import proofs.«414074_j90701119357381_1_alg».proof.Proof.K.AccRun0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live5 : ∀ t : Fin cfg5.N, idle5 3 (grid5.coords t) = false := by decide +kernel

theorem hcond5 : ∀ t : Fin cfg5.N, k5_cond2 (grid5.coords t) = 1#1 := by decide +kernel

theorem before5 (c : Dev nD) (t : Fin cfg5.N) :
    (∀ d, (dat5 V c).before 0 t d = iblk5 V c 0 t) ∧ (∀ d, (dat5 V c).before 1 t d = iblk5 V c 1 t)
      ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

/-- The invariant with the accumulator's buffer split off the other scoped buffers. -/
theorem PhiEq5 (c : Dev nD) : ∃ R : sProp 𝕄, ∀ n, (dat5 V c).Φ n
    = iprop(iprop((∃ d, owns (c : Thread nD τ) (Memref.whole cc5_scratch0) fullShare d) ∗ R) ∗ (∃ r, prngReg c r)) :=
  ⟨_, fun _ => by
    show Pipeline.ΦA spec5 c = _
    unfold Pipeline.ΦA; rw [scopedRest5_split]; simp only [owns_whole]; rfl⟩

theorem body_obligation5 (c : Dev nD) : BodyObligation (dat5 (F := F) V c) (defs₀ (F := F)) Variants.none () Set.univ := fun t => by
  obtain ⟨R, hR⟩ := PhiEq5 V c
  rw [bigSep_W5, bigSep_W5, hR, hR]
  simp only [(before5 V c t).1, (before5 V c t).2.1, (before5 V c t).2.2]
  rw [live5 t]
  refine .trans ?_ (kernelRun0 c _ _ (hstage5_0 _) _ (hstage5_1 _) _ (hstage5_2 _) _ (hstage5_3 _) (Memref.whole cc5_scratch0)
    (Memref.isWhole_whole _) (hcond5 t) (iblk5 V c 0 t) (iblk5 V c 1 t) (iblk5 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in5 (c : Dev nD) : (Pipeline.ΦA spec5 c : sProp 𝕄) ⊢ (dat5 V c).Φ 0 := .rfl

theorem Phi_out5 (c : Dev nD) : (dat5 V c).Φ (Fin.last cfg5.N) ⊢ (Pipeline.ΦA spec5 c : sProp 𝕄) := .rfl

end Cert.Kernel.Hand

end
-- ==== Proof.K.Mm6Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S2048x256 .f32 := Memref.whole cc6_scratch0

/-- The accumulator after point `n`: the point's product added to zero at the first point of a run, else to what the
    point before left. -/
def sc6 (c : Dev nD) : (n : ℕ) → n < cfg6.N → Vec F S2048x256 .f32
  | 0, hn => k6_pay2 k6_pay1 (iblk6 V c 0 ⟨0, hn⟩) (iblk6 V c 1 ⟨0, hn⟩)
  | n + 1, hn =>
    k6_pay2 (if (n + 1) % 5 = 0 then k6_pay1 else sc6 c n (Nat.lt_of_succ_lt hn)) (iblk6 V c 0 ⟨n + 1, hn⟩) (iblk6 V c 1 ⟨n + 1, hn⟩)

abbrev rest6 (c : Dev nD) : sProp 𝕄 :=
  Pipeline.scopedRestBut (Ix := Unit) (Name := ℕ) (U := UR sig nD τ) (Lvl := ℕ) (Val := Elt F) spec6 c [cc6_scratch0]

/-- Before position `n` the accumulator holds what point `n - 1` left, anything before the first point. -/
def Phi6 (c : Dev nD) (n : ℕ) : sProp 𝕄 :=
  iprop(∃ xs, ⌜∀ m hm, n = m + 1 → xs = sc6 V c m hm⌝ ∗ owns (c : Thread nD τ) scM6 fullShare xs ∗ rest6 c ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (sc6 V c t.val t.isLt)
  Φ t := Phi6 V c t.val
  q _ := fullShare
  owed _ := 0

theorem A_eq6 (c : Dev nD) (w : Fin cfg6.W) : (dat6 V c).A w = V c (Pipeline.arrRef spec6 w) := rfl

end Cert.Kernel.Hand

end
-- ==== Proof.K.Mm6.lean ====
import proofs.«414074_j90701119357381_1_alg».proof.Proof.K.Mm6Def
import proofs.«414074_j90701119357381_1_alg».proof.Proof.K.MmRun1
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle6_2 : ∀ t : Fin cfg6.N, cfg6.idle 2 (grid6.coords t) = !decide (cond1_2 (grid6.coords t)) := by decide +kernel

abbrev ms6_0 (t : Fin cfg6.N) : Memref sig .tc .vmem S2048x2048 .bf16 := win6_0.stage (cfg6.slots t 0)
abbrev ms6_1 (t : Fin cfg6.N) : Memref sig .tc .vmem S2048x256 .bf16 := win6_1.stage (cfg6.slots t 1)
abbrev ms6_2 (t : Fin cfg6.N) : Memref sig .tc .vmem S2048x256 .bf16 := win6_2.stage (cfg6.slots t 2)

theorem PhiA_eq6 (c : Dev nD) :
    (Pipeline.ΦA spec6 c : sProp 𝕄)
      = iprop(iprop((∃ d, owns (c : Thread nD τ) scM6 fullShare d) ∗ rest6 c) ∗ (∃ r, prngReg c r)) := by
  unfold Pipeline.ΦA; rw [scopedRest6_split]; simp only [scM6, owns_whole]; try rfl

/-- One step of the accumulation, from what the point before left. -/
theorem sc_eq6 (c : Dev nD) (t : Fin cfg6.N) (xs : Vec F S2048x256 .f32) (hx : ∀ m hm, t.val = m + 1 → xs = sc6 V c m hm) :
    sc6 V c t.val t.isLt = k6_pay2 (if cond1_0 (grid6.coords t) then k6_pay1 else xs) (iblk6 V c 0 t) (iblk6 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k6_pay2 · _ _) (if_congr (hcond1_0 ⟨n + 1, hn⟩) rfl rfl).symm

theorem before6_0 (c : Dev nD) (t : Fin cfg6.N) (d) : (dat6 V c).before 0 t d = iblk6 V c 0 t :=
  (dat6 V c).before_fetched 0 t (fetch6_0 t) d
theorem before6_1 (c : Dev nD) (t : Fin cfg6.N) (d) : (dat6 V c).before 1 t d = iblk6 V c 1 t :=
  (dat6 V c).before_fetched 1 t (fetch6_1 t) d

theorem leaves6_2 (c : Dev nD) (t : Fin cfg6.N) (d) :
    owns (c : Thread nD τ) (ms6_2 t) fullShare
        (if cond1_2 (grid6.coords t) then k6_pay3 (sc6 V c t.val t.isLt) else (dat6 V c).before 2 t d)
      ⊢ (dat6 V c).leavesExact 2 t := by
  by_cases h : cond1_2 (grid6.coords t)
  · rw [if_pos h]; unfold Dat.leavesExact; rw [idle6_2 t, decide_eq_true h]; exact .rfl
  · rw [if_neg h, Dat.leavesExact_idle _ 2 t (by rw [idle6_2 t, decide_eq_false h]; rfl)
      (Bool.eq_false_iff.mpr fun hf => h ((hcond1_2 t).mpr ((flush6_2 t).mp hf)))]
    iintro H; iexists d; iexact H

theorem sound_body6 (c : Dev nD) (t : Fin cfg6.N) :
    iprop(Phi6 V c t.val ∗ (dat6 V c).owesAt () t.castSucc
        ∗ (∃ d, owns (c : Thread nD τ) (ms6_0 t) fullShare ((dat6 V c).before 0 t d))
        ∗ (∃ d, owns (c : Thread nD τ) (ms6_1 t) fullShare ((dat6 V c).before 1 t d))
        ∗ (∃ d, owns (c : Thread nD τ) (ms6_2 t) fullShare ((dat6 V c).before 2 t d)))
      ⊢ wp frame (wpE (defs₀ (F := F)) Variants.none c none) Set.univ (bodyAt6 t) fun _ =>
        iprop(Phi6 V c (t.val + 1) ∗ (dat6 V c).owesAt () t.castSucc
          ∗ owns (c : Thread nD τ) (ms6_0 t) fullShare (iblk6 V c 0 t)
          ∗ owns (c : Thread nD τ) (ms6_1 t) fullShare (iblk6 V c 1 t) ∗ (dat6 V c).leavesExact 2 t) := by
  simp only [before6_0, before6_1]; unfold Phi6
  iintro ⟨⟨%xs, %hx, HS, Hr, Hg⟩, Ho, ⟨%d_a, H_a⟩, ⟨%d_b, H_b⟩, ⟨%d_o, H_o⟩⟩
  refine BIBase.Entails.trans ?_ (kernelRun1 c (grid6.coords t) (ms6_0 t) (hstage6_0 _) (ms6_1 t) (hstage6_1 _) (ms6_2 t) (hstage6_2 _) scM6 (Memref.isWhole_whole _)
    (iblk6 V c 0 t) (iblk6 V c 1 t) ((dat6 V c).before 2 t d_o)
    (if cond1_2 (grid6.coords t) then k6_pay3 (sc6 V c t.val t.isLt) else (dat6 V c).before 2 t d_o) xs _
    (sc_eq6 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc6 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves6_2 V c t d_o); iexact H_o

theorem body_obligation6 (c : Dev nD) : BodyObligation (dat6 (F := F) V c) (defs₀ (F := F)) Variants.none () Set.univ := fun t => by
  rw [bigSep_W6, bigSep_W6]
  exact sound_body6 V c t

theorem Phi_in6 (c : Dev nD) : (Pipeline.ΦA spec6 c : sProp 𝕄) ⊢ (dat6 V c).Φ 0 := by
  rw [PhiA_eq6]; show _ ⊢ Phi6 V c 0; unfold Phi6
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out6 (c : Dev nD) : (dat6 V c).Φ (Fin.last cfg6.N) ⊢ (Pipeline.ΦA spec6 c : sProp 𝕄) := by
  rw [PhiA_eq6]; show Phi6 V c _ ⊢ _; unfold Phi6
  iintro ⟨%xs, -, HS, Hr, Hg⟩
  isplitl [HS Hr]
  · isplitl [HS]; · iexists _; iexact HS
    iexact Hr
  iexact Hg

end Cert.Kernel.Hand

end
-- ==== Proof.K.Acc7Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The output block after point `t`: the first two blocks' product added to zero, plus the third block. -/
noncomputable def out7 (c : Dev nD) (t : Fin cfg7.N) : Vec F S8192x128 .f32 :=
  k7_pay3 (k7_pay2 (k7_pay1 (F := F)) (iblk7 V c 0 t) (iblk7 V c 1 t)) (iblk7 V c 2 t)

/-- The accumulator is reset at every point, so the invariant keeps nothing of it. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 V c t
  Φ _ := Pipeline.ΦA spec7 c
  q _ := fullShare
  owed _ := 0

theorem A_eq7 (c : Dev nD) (w : Fin cfg7.W) : (dat7 V c).A w = V c (Pipeline.arrRef spec7 w) := rfl

end Cert.Kernel.Hand

end
-- ==== Proof.K.Acc7.lean ====
import proofs.«414074_j90701119357381_1_alg».proof.Proof.K.Acc7Def
import proofs.«414074_j90701119357381_1_alg».proof.Proof.K.AccRun0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live7 : ∀ t : Fin cfg7.N, idle7 3 (grid7.coords t) = false := by decide +kernel

theorem hcond7 : ∀ t : Fin cfg7.N, k7_cond2 (grid7.coords t) = 1#1 := by decide +kernel

theorem before7 (c : Dev nD) (t : Fin cfg7.N) :
    (∀ d, (dat7 V c).before 0 t d = iblk7 V c 0 t) ∧ (∀ d, (dat7 V c).before 1 t d = iblk7 V c 1 t)
      ∧ ∀ d, (dat7 V c).before 2 t d = iblk7 V c 2 t := by
  refine ⟨fun d => ?_, fun d => ?_, fun d => ?_⟩ <;>
    exact ((dat7 V c).before_in_eq_fetched _ rfl (fun _ => rfl) (fun _ _ _ => rfl) (fun _ => rfl) t d).trans rfl

/-- The invariant with the accumulator's buffer split off the other scoped buffers. -/
theorem PhiEq7 (c : Dev nD) : ∃ R : sProp 𝕄, ∀ n, (dat7 V c).Φ n
    = iprop(iprop((∃ d, owns (c : Thread nD τ) (Memref.whole cc7_scratch0) fullShare d) ∗ R) ∗ (∃ r, prngReg c r)) :=
  ⟨_, fun _ => by
    show Pipeline.ΦA spec7 c = _
    unfold Pipeline.ΦA; rw [scopedRest7_split]; simp only [owns_whole]; rfl⟩

theorem body_obligation7 (c : Dev nD) : BodyObligation (dat7 (F := F) V c) (defs₀ (F := F)) Variants.none () Set.univ := fun t => by
  obtain ⟨R, hR⟩ := PhiEq7 V c
  rw [bigSep_W7, bigSep_W7, hR, hR]
  simp only [(before7 V c t).1, (before7 V c t).2.1, (before7 V c t).2.2]
  rw [live7 t]
  refine .trans ?_ (kernelRun0 c _ _ (hstage7_0 _) _ (hstage7_1 _) _ (hstage7_2 _) _ (hstage7_3 _) (Memref.whole cc7_scratch0)
    (Memref.isWhole_whole _) (hcond7 t) (iblk7 V c 0 t) (iblk7 V c 1 t) (iblk7 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in7 (c : Dev nD) : (Pipeline.ΦA spec7 c : sProp 𝕄) ⊢ (dat7 V c).Φ 0 := .rfl

theorem Phi_out7 (c : Dev nD) : (dat7 V c).Φ (Fin.last cfg7.N) ⊢ (Pipeline.ΦA spec7 c : sProp 𝕄) := .rfl

end Cert.Kernel.Hand

end
-- ==== Proof.K.Mm8Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S2048x256 .f32 := Memref.whole cc8_scratch0

/-- The accumulator after point `n`: the point's product added to zero at the first point of a run, else to what the
    point before left. -/
def sc8 (c : Dev nD) : (n : ℕ) → n < cfg8.N → Vec F S2048x256 .f32
  | 0, hn => k8_pay2 k8_pay1 (iblk8 V c 0 ⟨0, hn⟩) (iblk8 V c 1 ⟨0, hn⟩)
  | n + 1, hn =>
    k8_pay2 (if (n + 1) % 5 = 0 then k8_pay1 else sc8 c n (Nat.lt_of_succ_lt hn)) (iblk8 V c 0 ⟨n + 1, hn⟩) (iblk8 V c 1 ⟨n + 1, hn⟩)

abbrev rest8 (c : Dev nD) : sProp 𝕄 :=
  Pipeline.scopedRestBut (Ix := Unit) (Name := ℕ) (U := UR sig nD τ) (Lvl := ℕ) (Val := Elt F) spec8 c [cc8_scratch0]

/-- Before position `n` the accumulator holds what point `n - 1` left, anything before the first point. -/
def Phi8 (c : Dev nD) (n : ℕ) : sProp 𝕄 :=
  iprop(∃ xs, ⌜∀ m hm, n = m + 1 → xs = sc8 V c m hm⌝ ∗ owns (c : Thread nD τ) scM8 fullShare xs ∗ rest8 c ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (sc8 V c t.val t.isLt)
  Φ t := Phi8 V c t.val
  q _ := fullShare
  owed _ := 0

theorem A_eq8 (c : Dev nD) (w : Fin cfg8.W) : (dat8 V c).A w = V c (Pipeline.arrRef spec8 w) := rfl

end Cert.Kernel.Hand

end
-- ==== Proof.K.Mm8.lean ====
import proofs.«414074_j90701119357381_1_alg».proof.Proof.K.Mm8Def
import proofs.«414074_j90701119357381_1_alg».proof.Proof.K.MmRun1
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle8_2 : ∀ t : Fin cfg8.N, cfg8.idle 2 (grid8.coords t) = !decide (cond1_2 (grid8.coords t)) := by decide +kernel

abbrev ms8_0 (t : Fin cfg8.N) : Memref sig .tc .vmem S2048x2048 .bf16 := win8_0.stage (cfg8.slots t 0)
abbrev ms8_1 (t : Fin cfg8.N) : Memref sig .tc .vmem S2048x256 .bf16 := win8_1.stage (cfg8.slots t 1)
abbrev ms8_2 (t : Fin cfg8.N) : Memref sig .tc .vmem S2048x256 .bf16 := win8_2.stage (cfg8.slots t 2)

theorem PhiA_eq8 (c : Dev nD) :
    (Pipeline.ΦA spec8 c : sProp 𝕄)
      = iprop(iprop((∃ d, owns (c : Thread nD τ) scM8 fullShare d) ∗ rest8 c) ∗ (∃ r, prngReg c r)) := by
  unfold Pipeline.ΦA; rw [scopedRest8_split]; simp only [scM8, owns_whole]; try rfl

/-- One step of the accumulation, from what the point before left. -/
theorem sc_eq8 (c : Dev nD) (t : Fin cfg8.N) (xs : Vec F S2048x256 .f32) (hx : ∀ m hm, t.val = m + 1 → xs = sc8 V c m hm) :
    sc8 V c t.val t.isLt = k8_pay2 (if cond1_0 (grid8.coords t) then k8_pay1 else xs) (iblk8 V c 0 t) (iblk8 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k8_pay2 · _ _) (if_congr (hcond1_0 ⟨n + 1, hn⟩) rfl rfl).symm

theorem before8_0 (c : Dev nD) (t : Fin cfg8.N) (d) : (dat8 V c).before 0 t d = iblk8 V c 0 t :=
  (dat8 V c).before_fetched 0 t (fetch8_0 t) d
theorem before8_1 (c : Dev nD) (t : Fin cfg8.N) (d) : (dat8 V c).before 1 t d = iblk8 V c 1 t :=
  (dat8 V c).before_fetched 1 t (fetch8_1 t) d

theorem leaves8_2 (c : Dev nD) (t : Fin cfg8.N) (d) :
    owns (c : Thread nD τ) (ms8_2 t) fullShare
        (if cond1_2 (grid8.coords t) then k8_pay3 (sc8 V c t.val t.isLt) else (dat8 V c).before 2 t d)
      ⊢ (dat8 V c).leavesExact 2 t := by
  by_cases h : cond1_2 (grid8.coords t)
  · rw [if_pos h]; unfold Dat.leavesExact; rw [idle8_2 t, decide_eq_true h]; exact .rfl
  · rw [if_neg h, Dat.leavesExact_idle _ 2 t (by rw [idle8_2 t, decide_eq_false h]; rfl)
      (Bool.eq_false_iff.mpr fun hf => h ((hcond1_2 t).mpr ((flush8_2 t).mp hf)))]
    iintro H; iexists d; iexact H

theorem sound_body8 (c : Dev nD) (t : Fin cfg8.N) :
    iprop(Phi8 V c t.val ∗ (dat8 V c).owesAt () t.castSucc
        ∗ (∃ d, owns (c : Thread nD τ) (ms8_0 t) fullShare ((dat8 V c).before 0 t d))
        ∗ (∃ d, owns (c : Thread nD τ) (ms8_1 t) fullShare ((dat8 V c).before 1 t d))
        ∗ (∃ d, owns (c : Thread nD τ) (ms8_2 t) fullShare ((dat8 V c).before 2 t d)))
      ⊢ wp frame (wpE (defs₀ (F := F)) Variants.none c none) Set.univ (bodyAt8 t) fun _ =>
        iprop(Phi8 V c (t.val + 1) ∗ (dat8 V c).owesAt () t.castSucc
          ∗ owns (c : Thread nD τ) (ms8_0 t) fullShare (iblk8 V c 0 t)
          ∗ owns (c : Thread nD τ) (ms8_1 t) fullShare (iblk8 V c 1 t) ∗ (dat8 V c).leavesExact 2 t) := by
  simp only [before8_0, before8_1]; unfold Phi8
  iintro ⟨⟨%xs, %hx, HS, Hr, Hg⟩, Ho, ⟨%d_a, H_a⟩, ⟨%d_b, H_b⟩, ⟨%d_o, H_o⟩⟩
  refine BIBase.Entails.trans ?_ (kernelRun1 c (grid8.coords t) (ms8_0 t) (hstage8_0 _) (ms8_1 t) (hstage8_1 _) (ms8_2 t) (hstage8_2 _) scM8 (Memref.isWhole_whole _)
    (iblk8 V c 0 t) (iblk8 V c 1 t) ((dat8 V c).before 2 t d_o)
    (if cond1_2 (grid8.coords t) then k8_pay3 (sc8 V c t.val t.isLt) else (dat8 V c).before 2 t d_o) xs _
    (sc_eq8 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc8 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves8_2 V c t d_o); iexact H_o

theorem body_obligation8 (c : Dev nD) : BodyObligation (dat8 (F := F) V c) (defs₀ (F := F)) Variants.none () Set.univ := fun t => by
  rw [bigSep_W8, bigSep_W8]
  exact sound_body8 V c t

theorem Phi_in8 (c : Dev nD) : (Pipeline.ΦA spec8 c : sProp 𝕄) ⊢ (dat8 V c).Φ 0 := by
  rw [PhiA_eq8]; show _ ⊢ Phi8 V c 0; unfold Phi8
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out8 (c : Dev nD) : (dat8 V c).Φ (Fin.last cfg8.N) ⊢ (Pipeline.ΦA spec8 c : sProp 𝕄) := by
  rw [PhiA_eq8]; show Phi8 V c _ ⊢ _; unfold Phi8
  iintro ⟨%xs, -, HS, Hr, Hg⟩
  isplitl [HS Hr]
  · isplitl [HS]; · iexists _; iexact HS
    iexact Hr
  iexact Hg

end Cert.Kernel.Hand

end
-- ==== Proof.K.Acc9Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The output block after point `t`: the first two blocks' product added to zero, plus the third block. -/
noncomputable def out9 (c : Dev nD) (t : Fin cfg9.N) : Vec F S8192x128 .f32 :=
  k9_pay3 (k9_pay2 (k9_pay1 (F := F)) (iblk9 V c 0 t) (iblk9 V c 1 t)) (iblk9 V c 2 t)

/-- The accumulator is reset at every point, so the invariant keeps nothing of it. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 V c t
  Φ _ := Pipeline.ΦA spec9 c
  q _ := fullShare
  owed _ := 0

theorem A_eq9 (c : Dev nD) (w : Fin cfg9.W) : (dat9 V c).A w = V c (Pipeline.arrRef spec9 w) := rfl

end Cert.Kernel.Hand

end
-- ==== Proof.K.Acc9.lean ====
import proofs.«414074_j90701119357381_1_alg».proof.Proof.K.Acc9Def
import proofs.«414074_j90701119357381_1_alg».proof.Proof.K.AccRun0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live9 : ∀ t : Fin cfg9.N, idle9 3 (grid9.coords t) = false := by decide +kernel

theorem hcond9 : ∀ t : Fin cfg9.N, k9_cond2 (grid9.coords t) = 1#1 := by decide +kernel

theorem before9 (c : Dev nD) (t : Fin cfg9.N) :
    (∀ d, (dat9 V c).before 0 t d = iblk9 V c 0 t) ∧ (∀ d, (dat9 V c).before 1 t d = iblk9 V c 1 t)
      ∧ ∀ d, (dat9 V c).before 2 t d = iblk9 V c 2 t := by
  refine ⟨fun d => ?_, fun d => ?_, fun d => ?_⟩ <;>
    exact ((dat9 V c).before_in_eq_fetched _ rfl (fun _ => rfl) (fun _ _ _ => rfl) (fun _ => rfl) t d).trans rfl

/-- The invariant with the accumulator's buffer split off the other scoped buffers. -/
theorem PhiEq9 (c : Dev nD) : ∃ R : sProp 𝕄, ∀ n, (dat9 V c).Φ n
    = iprop(iprop((∃ d, owns (c : Thread nD τ) (Memref.whole cc9_scratch0) fullShare d) ∗ R) ∗ (∃ r, prngReg c r)) :=
  ⟨_, fun _ => by
    show Pipeline.ΦA spec9 c = _
    unfold Pipeline.ΦA; rw [scopedRest9_split]; simp only [owns_whole]; rfl⟩

theorem body_obligation9 (c : Dev nD) : BodyObligation (dat9 (F := F) V c) (defs₀ (F := F)) Variants.none () Set.univ := fun t => by
  obtain ⟨R, hR⟩ := PhiEq9 V c
  rw [bigSep_W9, bigSep_W9, hR, hR]
  simp only [(before9 V c t).1, (before9 V c t).2.1, (before9 V c t).2.2]
  rw [live9 t]
  refine .trans ?_ (kernelRun0 c _ _ (hstage9_0 _) _ (hstage9_1 _) _ (hstage9_2 _) _ (hstage9_3 _) (Memref.whole cc9_scratch0)
    (Memref.isWhole_whole _) (hcond9 t) (iblk9 V c 0 t) (iblk9 V c 1 t) (iblk9 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in9 (c : Dev nD) : (Pipeline.ΦA spec9 c : sProp 𝕄) ⊢ (dat9 V c).Φ 0 := .rfl

theorem Phi_out9 (c : Dev nD) : (dat9 V c).Φ (Fin.last cfg9.N) ⊢ (Pipeline.ΦA spec9 c : sProp 𝕄) := .rfl

end Cert.Kernel.Hand

end
-- ==== Proof.K.Acc10Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The output block after point `t`: the first two blocks' product added to zero, plus the third block. -/
noncomputable def out10 (c : Dev nD) (t : Fin cfg10.N) : Vec F S8192x128 .f32 :=
  k10_pay3 (k10_pay2 (k10_pay1 (F := F)) (iblk10 V c 0 t) (iblk10 V c 1 t)) (iblk10 V c 2 t)

/-- The accumulator is reset at every point, so the invariant keeps nothing of it. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 V c t
  Φ _ := Pipeline.ΦA spec10 c
  q _ := fullShare
  owed _ := 0

theorem A_eq10 (c : Dev nD) (w : Fin cfg10.W) : (dat10 V c).A w = V c (Pipeline.arrRef spec10 w) := rfl

end Cert.Kernel.Hand

end
-- ==== Proof.K.AccRun10.lean ====
import proofs.«414074_j90701119357381_1_alg».proof.Proof.Gen.Kernel.Skeleton
import proofs.«414074_j90701119357381_1_alg».proof.Proof.WholeShape
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Whole

variable {F : FTy → Type} [FloatOps F]

local notation "𝕄" => MT nD τ sig Unit (Elt F) ℕ (UR sig nD τ) ℕ

set_option maxHeartbeats 1000000 in
/-- The body on whole buffers, both branches taken: the accumulator ends at the product added to zero, the output at that plus the summand. -/
theorem kernelRun10 (c : Dev nD) (i : grid10.Coords)
    (arg2 : Memref sig .tc .vmem S8192x128 .bf16) (harg2 : arg2.IsWhole)
    (arg3 : Memref sig .tc .vmem S128x128 .bf16) (harg3 : arg3.IsWhole)
    (arg4 : Memref sig .tc .vmem S8192x128 .f32) (harg4 : arg4.IsWhole)
    (arg5 : Memref sig .tc .vmem S8192x128 .f32) (harg5 : arg5.IsWhole)
    (arg6 : Memref sig .tc .vmem S8192x128 .f32) (harg6 : arg6.IsWhole)
    (hc : k10_cond2 i = 1#1)
    (x_a : Vec F S8192x128 .bf16) (x_b : Vec F S128x128 .bf16) (x_c : Vec F S8192x128 .f32)
    (E : Set ℕ) (K : PUnit → sProp 𝕄) :
    iprop(owns (c : Thread nD τ) arg2 fullShare x_a ∗ owns (c : Thread nD τ) arg3 fullShare x_b
        ∗ owns (c : Thread nD τ) arg4 fullShare x_c ∗ (∃ d, owns (c : Thread nD τ) arg5 fullShare d)
        ∗ (∃ d, owns (c : Thread nD τ) arg6 fullShare d)
        ∗ (iprop(owns (c : Thread nD τ) arg2 fullShare x_a ∗ owns (c : Thread nD τ) arg3 fullShare x_b
            ∗ owns (c : Thread nD τ) arg4 fullShare x_c
            ∗ owns (c : Thread nD τ) arg5 fullShare (k10_pay3 (k10_pay2 (k10_pay1 (F := F)) x_a x_b) x_c)
            ∗ owns (c : Thread nD τ) arg6 fullShare (k10_pay2 (k10_pay1 (F := F)) x_a x_b)) -∗ K ⟨⟩))
      ⊢ wp frame (wpE (defs₀ (F := F)) Variants.none c none) E
          (cc10__matmul_acc_kernel i arg2 harg2 arg3 harg3 arg4 harg4 arg5 harg5 arg6 harg6) K := by
  simp only [cc10__matmul_acc_kernel_eq_skeleton]; unfold cc10__matmul_acc_kernel_skel
  unfold owns
  iintro ⟨⟨%f_a, %hf_a, HA⟩, ⟨%f_b, %hf_b, HB⟩, ⟨%f_c, %hf_c, HC⟩, ⟨%d_o, %f_o, -, HO⟩, ⟨%d_s, %f_s, -, HS⟩, Hk⟩
  obtain rfl := harg2.eq_unread hf_a; obtain rfl := harg3.eq_unread hf_b; obtain rfl := harg4.eq_unread hf_c
  sl_exec (disch := exact hc)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  isplitl [HO]
  · iexists _; isplitr
    swap; · iexact HO
    ipureintro
    rw [View.read_writes_eq_canon _ _ _ (cover_unit_zero hz2 _ _ _), View.canon_unit_zero hz2]
    sl_unfold_run_names
    simp only [readCov_cons_unit_zero (S := S8192x128) _ hz2, View.readCov_unit_zero (S := S8192x128) _ hz2, View.readAt_eq_ld, harg2.read_unread,
      harg3.read_unread, harg4.read_unread, View.ld_unit_zero (S := S8192x128) hz2, View.ld_unit_zero (S := S128x128) hz2,
      View.ld_unit_zero (S := S8192x128) hz2]
  · iexists _; isplitr
    swap; · iexact HS
    ipureintro
    sl_unfold_run_names
    rw [View.read_writes_eq_canon _ _ _ (cover_unit_zero hz2 _ _ _), View.canon_cons_unit_zero hz2]
    simp only [View.readCov_unit_zero (S := S8192x128) _ hz2, View.readAt_eq_ld, harg2.read_unread,
      harg3.read_unread, View.ld_unit_zero (S := S8192x128) hz2, View.ld_unit_zero (S := S128x128) hz2]

end Cert.Kernel.Hand

end
-- ==== Proof.K.Acc10.lean ====
import proofs.«414074_j90701119357381_1_alg».proof.Proof.K.Acc10Def
import proofs.«414074_j90701119357381_1_alg».proof.Proof.K.AccRun10

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live10 : ∀ t : Fin cfg10.N, idle10 3 (grid10.coords t) = false := by decide +kernel

theorem hcond10 : ∀ t : Fin cfg10.N, k10_cond2 (grid10.coords t) = 1#1 := by decide +kernel

theorem before10 (c : Dev nD) (t : Fin cfg10.N) :
    (∀ d, (dat10 V c).before 0 t d = iblk10 V c 0 t) ∧ (∀ d, (dat10 V c).before 1 t d = iblk10 V c 1 t)
      ∧ ∀ d, (dat10 V c).before 2 t d = iblk10 V c 2 t := by
  refine ⟨fun d => ?_, fun d => ?_, fun d => ?_⟩ <;>
    exact ((dat10 V c).before_in_eq_fetched _ rfl (fun _ => rfl) (fun _ _ _ => rfl) (fun _ => rfl) t d).trans rfl

/-- The invariant with the accumulator's buffer split off the other scoped buffers. -/
theorem PhiEq10 (c : Dev nD) : ∃ R : sProp 𝕄, ∀ n, (dat10 V c).Φ n
    = iprop(iprop((∃ d, owns (c : Thread nD τ) (Memref.whole cc10_scratch0) fullShare d) ∗ R) ∗ (∃ r, prngReg c r)) :=
  ⟨_, fun _ => by
    show Pipeline.ΦA spec10 c = _
    unfold Pipeline.ΦA; rw [scopedRest10_split]; simp only [owns_whole]; rfl⟩

theorem body_obligation10 (c : Dev nD) : BodyObligation (dat10 (F := F) V c) (defs₀ (F := F)) Variants.none () Set.univ := fun t => by
  obtain ⟨R, hR⟩ := PhiEq10 V c
  rw [bigSep_W10, bigSep_W10, hR, hR]
  simp only [(before10 V c t).1, (before10 V c t).2.1, (before10 V c t).2.2]
  rw [live10 t]
  refine .trans ?_ (kernelRun10 c _ _ (hstage10_0 _) _ (hstage10_1 _) _ (hstage10_2 _) _ (hstage10_3 _) (Memref.whole cc10_scratch0)
    (Memref.isWhole_whole _) (hcond10 t) (iblk10 V c 0 t) (iblk10 V c 1 t) (iblk10 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in10 (c : Dev nD) : (Pipeline.ΦA spec10 c : sProp 𝕄) ⊢ (dat10 V c).Φ 0 := .rfl

theorem Phi_out10 (c : Dev nD) : (dat10 V c).Φ (Fin.last cfg10.N) ⊢ (Pipeline.ΦA spec10 c : sProp 𝕄) := .rfl

end Cert.Kernel.Hand

end
-- ==== Proof.K.Mm11Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev scM11 : Memref sig .tc .vmem S2048x512 .f32 := Memref.whole cc11_scratch0

/-- The accumulator after point `n`: the point's product added to zero at the first point of a run, else to what the
    point before left. -/
def sc11 (c : Dev nD) : (n : ℕ) → n < cfg11.N → Vec F S2048x512 .f32
  | 0, hn => k11_pay2 k11_pay1 (iblk11 V c 0 ⟨0, hn⟩) (iblk11 V c 1 ⟨0, hn⟩)
  | n + 1, hn =>
    k11_pay2 (if (n + 1) % 5 = 0 then k11_pay1 else sc11 c n (Nat.lt_of_succ_lt hn)) (iblk11 V c 0 ⟨n + 1, hn⟩) (iblk11 V c 1 ⟨n + 1, hn⟩)

abbrev rest11 (c : Dev nD) : sProp 𝕄 :=
  Pipeline.scopedRestBut (Ix := Unit) (Name := ℕ) (U := UR sig nD τ) (Lvl := ℕ) (Val := Elt F) spec11 c [cc11_scratch0]

/-- Before position `n` the accumulator holds what point `n - 1` left, anything before the first point. -/
def Phi11 (c : Dev nD) (n : ℕ) : sProp 𝕄 :=
  iprop(∃ xs, ⌜∀ m hm, n = m + 1 → xs = sc11 V c m hm⌝ ∗ owns (c : Thread nD τ) scM11 fullShare xs ∗ rest11 c ∗ (∃ r, prngReg c r))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => k11_pay3 (sc11 V c t.val t.isLt)
  Φ t := Phi11 V c t.val
  q _ := fullShare
  owed _ := 0

theorem A_eq11 (c : Dev nD) (w : Fin cfg11.W) : (dat11 V c).A w = V c (Pipeline.arrRef spec11 w) := rfl

end Cert.Kernel.Hand

end
-- ==== Proof.K.MmRun11.lean ====
import proofs.«414074_j90701119357381_1_alg».proof.Proof.Gen.Kernel.Skeleton
import proofs.«414074_j90701119357381_1_alg».proof.Proof.WholeShape
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond11_0 (i : grid11.Coords) : Prop := (Scalar.cmpi .ne (Scalar.extui (Scalar.cmpi .eq (BitVec.ofNat 32 (i 1).val) 0#32)) 0#32) = 1#1
abbrev cond11_2 (i : grid11.Coords) : Prop := k11_cond2 i = 1#1

set_option maxHeartbeats 1000000 in
/-- The accumulator, reset first where the contraction index is the first, gains the product of the two blocks; where the
    index is the last the output block takes the accumulator, narrowed. -/
theorem kernelRun11 (c : Dev nD) (i : grid11.Coords)
    (arg2 : Memref sig .tc .vmem S2048x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S2048x512 .f32) (harg5 : arg5.IsWhole)
    (x_a : Vec F S2048x2048 .bf16) (x_b x_o out : Vec F S2048x512 .bf16) (xs acc : Vec F S2048x512 .f32)
    (hacc : acc = k11_pay2 (if cond11_0 i then k11_pay1 else xs) x_a x_b) (hout : out = if cond11_2 i then k11_pay3 acc else x_o)
    (E : Set ℕ) (K : PUnit → sProp 𝕄) :
    iprop(owns (c : Thread nD τ) arg2 fullShare x_a ∗ owns (c : Thread nD τ) arg3 fullShare x_b
        ∗ owns (c : Thread nD τ) arg4 fullShare x_o ∗ owns (c : Thread nD τ) arg5 fullShare xs
        ∗ (iprop(owns (c : Thread nD τ) arg2 fullShare x_a ∗ owns (c : Thread nD τ) arg3 fullShare x_b
            ∗ owns (c : Thread nD τ) arg4 fullShare out ∗ owns (c : Thread nD τ) arg5 fullShare acc) -∗ K ⟨⟩))
      ⊢ wp frame (wpE (defs₀ (F := F)) Variants.none c none) E (cc11__matmul_kernel i arg2 harg2 arg3 harg3 arg4 harg4 arg5 harg5) K := by
  subst hout hacc
  by_cases hc0 : cond11_0 i <;> by_cases hc2 : cond11_2 i
  all_goals
    first | rw [if_pos hc0] | rw [if_neg hc0]
    first | rw [if_pos hc2] | rw [if_neg hc2]
    simp only [cc11__matmul_kernel_eq_skeleton]; unfold cc11__matmul_kernel_skel owns
    iintro ⟨⟨%f_a, %hf_a, H_a⟩, ⟨%f_b, %hf_b, H_b⟩, ⟨%f_o, %hf_o, H_o⟩, ⟨%f_s, %hf_s, HS⟩, Hk⟩
    obtain rfl := harg2.eq_unread hf_a; obtain rfl := harg3.eq_unread hf_b; obtain rfl := harg4.eq_unread hf_o
    obtain rfl := harg5.eq_unread hf_s
    sl_exec (disch := first | exact hc0 | exact hc2)
    sl_step
    iapply Hk
    isplitl [H_a]
    · iexists _; isplitr; swap; · iexact H_a
      ipureintro; exact harg2.read_unread _
    isplitl [H_b]
    · iexists _; isplitr; swap; · iexact H_b
      ipureintro; exact harg3.read_unread _
    isplitl [H_o]
    · iexists _; isplitr; swap; · iexact H_o
      ipureintro
      first
      | have : ¬cond11_2 i := hc2
        exact harg4.read_unread _
      | sl_unfold_words
        rw [View.read_writes_eq_canon _ _ _ (Whole.cover_unit_zero Whole.hz2 _ _ _), View.canon_cons_unit_zero (S := S2048x512) Whole.hz2]
        repeat rw [Whole.readCov_cons_unit_zero (S := S2048x512) _ Whole.hz2]
        simp only [View.readAt_eq_ld, harg2.read_unread, harg3.read_unread, harg5.read_unread,
          View.ld_unit_zero (S := S2048x2048) Whole.hz2, View.ld_unit_zero (S := S2048x512) Whole.hz2]
    iexists _; isplitr; swap; · iexact HS
    ipureintro
    sl_unfold_words
    rw [View.read_writes_eq_canon _ _ _ (Whole.cover_unit_zero Whole.hz2 _ _ _), View.canon_cons_unit_zero (S := S2048x512) Whole.hz2]
    repeat rw [Whole.readCov_cons_unit_zero (S := S2048x512) _ Whole.hz2]
    simp only [View.readAt_eq_ld, harg2.read_unread, harg3.read_unread, harg5.read_unread,
      View.ld_unit_zero (S := S2048x2048) Whole.hz2, View.ld_unit_zero (S := S2048x512) Whole.hz2]

theorem hcond11_0 : ∀ t : Fin grid11.N, cond11_0 (grid11.coords t) ↔ t.val % 5 = 0 := by decide +kernel
theorem hcond11_2 : ∀ t : Fin grid11.N, cond11_2 (grid11.coords t) ↔ t.val % 5 = 4 := by decide +kernel

end Cert.Kernel.Hand

end
-- ==== Proof.K.Mm11.lean ====
import proofs.«414074_j90701119357381_1_alg».proof.Proof.K.Mm11Def
import proofs.«414074_j90701119357381_1_alg».proof.Proof.K.MmRun11
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle11_2 : ∀ t : Fin cfg11.N, cfg11.idle 2 (grid11.coords t) = !decide (cond11_2 (grid11.coords t)) := by decide +kernel

abbrev ms11_0 (t : Fin cfg11.N) : Memref sig .tc .vmem S2048x2048 .bf16 := win11_0.stage (cfg11.slots t 0)
abbrev ms11_1 (t : Fin cfg11.N) : Memref sig .tc .vmem S2048x512 .bf16 := win11_1.stage (cfg11.slots t 1)
abbrev ms11_2 (t : Fin cfg11.N) : Memref sig .tc .vmem S2048x512 .bf16 := win11_2.stage (cfg11.slots t 2)

theorem PhiA_eq11 (c : Dev nD) :
    (Pipeline.ΦA spec11 c : sProp 𝕄)
      = iprop(iprop((∃ d, owns (c : Thread nD τ) scM11 fullShare d) ∗ rest11 c) ∗ (∃ r, prngReg c r)) := by
  unfold Pipeline.ΦA; rw [scopedRest11_split]; simp only [scM11, owns_whole]; try rfl

/-- One step of the accumulation, from what the point before left. -/
theorem sc_eq11 (c : Dev nD) (t : Fin cfg11.N) (xs : Vec F S2048x512 .f32) (hx : ∀ m hm, t.val = m + 1 → xs = sc11 V c m hm) :
    sc11 V c t.val t.isLt = k11_pay2 (if cond11_0 (grid11.coords t) then k11_pay1 else xs) (iblk11 V c 0 t) (iblk11 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k11_pay2 · _ _) (if_congr (hcond11_0 ⟨n + 1, hn⟩) rfl rfl).symm

theorem before11_0 (c : Dev nD) (t : Fin cfg11.N) (d) : (dat11 V c).before 0 t d = iblk11 V c 0 t :=
  (dat11 V c).before_fetched 0 t (fetch11_0 t) d
theorem before11_1 (c : Dev nD) (t : Fin cfg11.N) (d) : (dat11 V c).before 1 t d = iblk11 V c 1 t :=
  (dat11 V c).before_fetched 1 t (fetch11_1 t) d

theorem leaves11_2 (c : Dev nD) (t : Fin cfg11.N) (d) :
    owns (c : Thread nD τ) (ms11_2 t) fullShare
        (if cond11_2 (grid11.coords t) then k11_pay3 (sc11 V c t.val t.isLt) else (dat11 V c).before 2 t d)
      ⊢ (dat11 V c).leavesExact 2 t := by
  by_cases h : cond11_2 (grid11.coords t)
  · rw [if_pos h]; unfold Dat.leavesExact; rw [idle11_2 t, decide_eq_true h]; exact .rfl
  · rw [if_neg h, Dat.leavesExact_idle _ 2 t (by rw [idle11_2 t, decide_eq_false h]; rfl)
      (Bool.eq_false_iff.mpr fun hf => h ((hcond11_2 t).mpr ((flush11_2 t).mp hf)))]
    iintro H; iexists d; iexact H

theorem sound_body11 (c : Dev nD) (t : Fin cfg11.N) :
    iprop(Phi11 V c t.val ∗ (dat11 V c).owesAt () t.castSucc
        ∗ (∃ d, owns (c : Thread nD τ) (ms11_0 t) fullShare ((dat11 V c).before 0 t d))
        ∗ (∃ d, owns (c : Thread nD τ) (ms11_1 t) fullShare ((dat11 V c).before 1 t d))
        ∗ (∃ d, owns (c : Thread nD τ) (ms11_2 t) fullShare ((dat11 V c).before 2 t d)))
      ⊢ wp frame (wpE (defs₀ (F := F)) Variants.none c none) Set.univ (bodyAt11 t) fun _ =>
        iprop(Phi11 V c (t.val + 1) ∗ (dat11 V c).owesAt () t.castSucc
          ∗ owns (c : Thread nD τ) (ms11_0 t) fullShare (iblk11 V c 0 t)
          ∗ owns (c : Thread nD τ) (ms11_1 t) fullShare (iblk11 V c 1 t) ∗ (dat11 V c).leavesExact 2 t) := by
  simp only [before11_0, before11_1]; unfold Phi11
  iintro ⟨⟨%xs, %hx, HS, Hr, Hg⟩, Ho, ⟨%d_a, H_a⟩, ⟨%d_b, H_b⟩, ⟨%d_o, H_o⟩⟩
  refine BIBase.Entails.trans ?_ (kernelRun11 c (grid11.coords t) (ms11_0 t) (hstage11_0 _) (ms11_1 t) (hstage11_1 _) (ms11_2 t) (hstage11_2 _) scM11 (Memref.isWhole_whole _)
    (iblk11 V c 0 t) (iblk11 V c 1 t) ((dat11 V c).before 2 t d_o)
    (if cond11_2 (grid11.coords t) then k11_pay3 (sc11 V c t.val t.isLt) else (dat11 V c).before 2 t d_o) xs _
    (sc_eq11 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc11 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves11_2 V c t d_o); iexact H_o

theorem body_obligation11 (c : Dev nD) : BodyObligation (dat11 (F := F) V c) (defs₀ (F := F)) Variants.none () Set.univ := fun t => by
  rw [bigSep_W11, bigSep_W11]
  exact sound_body11 V c t

theorem Phi_in11 (c : Dev nD) : (Pipeline.ΦA spec11 c : sProp 𝕄) ⊢ (dat11 V c).Φ 0 := by
  rw [PhiA_eq11]; show _ ⊢ Phi11 V c 0; unfold Phi11
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out11 (c : Dev nD) : (dat11 V c).Φ (Fin.last cfg11.N) ⊢ (Pipeline.ΦA spec11 c : sProp 𝕄) := by
  rw [PhiA_eq11]; show Phi11 V c _ ⊢ _; unfold Phi11
  iintro ⟨%xs, -, HS, Hr, Hg⟩
  isplitl [HS Hr]
  · isplitl [HS]; · iexists _; iexact HS
    iexact Hr
  iexact Hg

end Cert.Kernel.Hand

end
-- ==== Proof.K.Acc12Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The output block after point `t`: the first two blocks' product added to zero, plus the third block. -/
noncomputable def out12 (c : Dev nD) (t : Fin cfg12.N) : Vec F S8192x128 .f32 :=
  k12_pay3 (k12_pay2 (k12_pay1 (F := F)) (iblk12 V c 0 t) (iblk12 V c 1 t)) (iblk12 V c 2 t)

/-- The accumulator is reset at every point, so the invariant keeps nothing of it. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12 V c t
  Φ _ := Pipeline.ΦA spec12 c
  q _ := fullShare
  owed _ := 0

theorem A_eq12 (c : Dev nD) (w : Fin cfg12.W) : (dat12 V c).A w = V c (Pipeline.arrRef spec12 w) := rfl

end Cert.Kernel.Hand

end
-- ==== Proof.K.Acc12.lean ====
import proofs.«414074_j90701119357381_1_alg».proof.Proof.K.Acc12Def
import proofs.«414074_j90701119357381_1_alg».proof.Proof.K.AccRun10

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live12 : ∀ t : Fin cfg12.N, idle12 3 (grid12.coords t) = false := by decide +kernel

theorem hcond12 : ∀ t : Fin cfg12.N, k12_cond2 (grid12.coords t) = 1#1 := by decide +kernel

theorem before12 (c : Dev nD) (t : Fin cfg12.N) :
    (∀ d, (dat12 V c).before 0 t d = iblk12 V c 0 t) ∧ (∀ d, (dat12 V c).before 1 t d = iblk12 V c 1 t)
      ∧ ∀ d, (dat12 V c).before 2 t d = iblk12 V c 2 t := by
  refine ⟨fun d => ?_, fun d => ?_, fun d => ?_⟩ <;>
    exact ((dat12 V c).before_in_eq_fetched _ rfl (fun _ => rfl) (fun _ _ _ => rfl) (fun _ => rfl) t d).trans rfl

/-- The invariant with the accumulator's buffer split off the other scoped buffers. -/
theorem PhiEq12 (c : Dev nD) : ∃ R : sProp 𝕄, ∀ n, (dat12 V c).Φ n
    = iprop(iprop((∃ d, owns (c : Thread nD τ) (Memref.whole cc12_scratch0) fullShare d) ∗ R) ∗ (∃ r, prngReg c r)) :=
  ⟨_, fun _ => by
    show Pipeline.ΦA spec12 c = _
    unfold Pipeline.ΦA; rw [scopedRest12_split]; simp only [owns_whole]; rfl⟩

theorem body_obligation12 (c : Dev nD) : BodyObligation (dat12 (F := F) V c) (defs₀ (F := F)) Variants.none () Set.univ := fun t => by
  obtain ⟨R, hR⟩ := PhiEq12 V c
  rw [bigSep_W12, bigSep_W12, hR, hR]
  simp only [(before12 V c t).1, (before12 V c t).2.1, (before12 V c t).2.2]
  rw [live12 t]
  refine .trans ?_ (kernelRun10 c _ _ (hstage12_0 _) _ (hstage12_1 _) _ (hstage12_2 _) _ (hstage12_3 _) (Memref.whole cc12_scratch0)
    (Memref.isWhole_whole _) (hcond12 t) (iblk12 V c 0 t) (iblk12 V c 1 t) (iblk12 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in12 (c : Dev nD) : (Pipeline.ΦA spec12 c : sProp 𝕄) ⊢ (dat12 V c).Φ 0 := .rfl

theorem Phi_out12 (c : Dev nD) : (dat12 V c).Φ (Fin.last cfg12.N) ⊢ (Pipeline.ΦA spec12 c : sProp 𝕄) := .rfl

end Cert.Kernel.Hand

end
-- ==== Proof.K.Mm13Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev scM13 : Memref sig .tc .vmem S2048x512 .f32 := Memref.whole cc13_scratch0

/-- The accumulator after point `n`: the point's product added to zero at the first point of a run, else to what the
    point before left. -/
def sc13 (c : Dev nD) : (n : ℕ) → n < cfg13.N → Vec F S2048x512 .f32
  | 0, hn => k13_pay2 k13_pay1 (iblk13 V c 0 ⟨0, hn⟩) (iblk13 V c 1 ⟨0, hn⟩)
  | n + 1, hn =>
    k13_pay2 (if (n + 1) % 5 = 0 then k13_pay1 else sc13 c n (Nat.lt_of_succ_lt hn)) (iblk13 V c 0 ⟨n + 1, hn⟩) (iblk13 V c 1 ⟨n + 1, hn⟩)

abbrev rest13 (c : Dev nD) : sProp 𝕄 :=
  Pipeline.scopedRestBut (Ix := Unit) (Name := ℕ) (U := UR sig nD τ) (Lvl := ℕ) (Val := Elt F) spec13 c [cc13_scratch0]

/-- Before position `n` the accumulator holds what point `n - 1` left, anything before the first point. -/
def Phi13 (c : Dev nD) (n : ℕ) : sProp 𝕄 :=
  iprop(∃ xs, ⌜∀ m hm, n = m + 1 → xs = sc13 V c m hm⌝ ∗ owns (c : Thread nD τ) scM13 fullShare xs ∗ rest13 c ∗ (∃ r, prngReg c r))

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay3 (sc13 V c t.val t.isLt)
  Φ t := Phi13 V c t.val
  q _ := fullShare
  owed _ := 0

theorem A_eq13 (c : Dev nD) (w : Fin cfg13.W) : (dat13 V c).A w = V c (Pipeline.arrRef spec13 w) := rfl

end Cert.Kernel.Hand

end
-- ==== Proof.K.Mm13.lean ====
import proofs.«414074_j90701119357381_1_alg».proof.Proof.K.Mm13Def
import proofs.«414074_j90701119357381_1_alg».proof.Proof.K.MmRun11
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle13_2 : ∀ t : Fin cfg13.N, cfg13.idle 2 (grid13.coords t) = !decide (cond11_2 (grid13.coords t)) := by decide +kernel

abbrev ms13_0 (t : Fin cfg13.N) : Memref sig .tc .vmem S2048x2048 .bf16 := win13_0.stage (cfg13.slots t 0)
abbrev ms13_1 (t : Fin cfg13.N) : Memref sig .tc .vmem S2048x512 .bf16 := win13_1.stage (cfg13.slots t 1)
abbrev ms13_2 (t : Fin cfg13.N) : Memref sig .tc .vmem S2048x512 .bf16 := win13_2.stage (cfg13.slots t 2)

theorem PhiA_eq13 (c : Dev nD) :
    (Pipeline.ΦA spec13 c : sProp 𝕄)
      = iprop(iprop((∃ d, owns (c : Thread nD τ) scM13 fullShare d) ∗ rest13 c) ∗ (∃ r, prngReg c r)) := by
  unfold Pipeline.ΦA; rw [scopedRest13_split]; simp only [scM13, owns_whole]; try rfl

/-- One step of the accumulation, from what the point before left. -/
theorem sc_eq13 (c : Dev nD) (t : Fin cfg13.N) (xs : Vec F S2048x512 .f32) (hx : ∀ m hm, t.val = m + 1 → xs = sc13 V c m hm) :
    sc13 V c t.val t.isLt = k13_pay2 (if cond11_0 (grid13.coords t) then k13_pay1 else xs) (iblk13 V c 0 t) (iblk13 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k13_pay2 · _ _) (if_congr (hcond11_0 ⟨n + 1, hn⟩) rfl rfl).symm

theorem before13_0 (c : Dev nD) (t : Fin cfg13.N) (d) : (dat13 V c).before 0 t d = iblk13 V c 0 t :=
  (dat13 V c).before_fetched 0 t (fetch13_0 t) d
theorem before13_1 (c : Dev nD) (t : Fin cfg13.N) (d) : (dat13 V c).before 1 t d = iblk13 V c 1 t :=
  (dat13 V c).before_fetched 1 t (fetch13_1 t) d

theorem leaves13_2 (c : Dev nD) (t : Fin cfg13.N) (d) :
    owns (c : Thread nD τ) (ms13_2 t) fullShare
        (if cond11_2 (grid13.coords t) then k13_pay3 (sc13 V c t.val t.isLt) else (dat13 V c).before 2 t d)
      ⊢ (dat13 V c).leavesExact 2 t := by
  by_cases h : cond11_2 (grid13.coords t)
  · rw [if_pos h]; unfold Dat.leavesExact; rw [idle13_2 t, decide_eq_true h]; exact .rfl
  · rw [if_neg h, Dat.leavesExact_idle _ 2 t (by rw [idle13_2 t, decide_eq_false h]; rfl)
      (Bool.eq_false_iff.mpr fun hf => h ((hcond11_2 t).mpr ((flush13_2 t).mp hf)))]
    iintro H; iexists d; iexact H

theorem sound_body13 (c : Dev nD) (t : Fin cfg13.N) :
    iprop(Phi13 V c t.val ∗ (dat13 V c).owesAt () t.castSucc
        ∗ (∃ d, owns (c : Thread nD τ) (ms13_0 t) fullShare ((dat13 V c).before 0 t d))
        ∗ (∃ d, owns (c : Thread nD τ) (ms13_1 t) fullShare ((dat13 V c).before 1 t d))
        ∗ (∃ d, owns (c : Thread nD τ) (ms13_2 t) fullShare ((dat13 V c).before 2 t d)))
      ⊢ wp frame (wpE (defs₀ (F := F)) Variants.none c none) Set.univ (bodyAt13 t) fun _ =>
        iprop(Phi13 V c (t.val + 1) ∗ (dat13 V c).owesAt () t.castSucc
          ∗ owns (c : Thread nD τ) (ms13_0 t) fullShare (iblk13 V c 0 t)
          ∗ owns (c : Thread nD τ) (ms13_1 t) fullShare (iblk13 V c 1 t) ∗ (dat13 V c).leavesExact 2 t) := by
  simp only [before13_0, before13_1]; unfold Phi13
  iintro ⟨⟨%xs, %hx, HS, Hr, Hg⟩, Ho, ⟨%d_a, H_a⟩, ⟨%d_b, H_b⟩, ⟨%d_o, H_o⟩⟩
  refine BIBase.Entails.trans ?_ (kernelRun11 c (grid13.coords t) (ms13_0 t) (hstage13_0 _) (ms13_1 t) (hstage13_1 _) (ms13_2 t) (hstage13_2 _) scM13 (Memref.isWhole_whole _)
    (iblk13 V c 0 t) (iblk13 V c 1 t) ((dat13 V c).before 2 t d_o)
    (if cond11_2 (grid13.coords t) then k13_pay3 (sc13 V c t.val t.isLt) else (dat13 V c).before 2 t d_o) xs _
    (sc_eq13 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc13 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves13_2 V c t d_o); iexact H_o

theorem body_obligation13 (c : Dev nD) : BodyObligation (dat13 (F := F) V c) (defs₀ (F := F)) Variants.none () Set.univ := fun t => by
  rw [bigSep_W13, bigSep_W13]
  exact sound_body13 V c t

theorem Phi_in13 (c : Dev nD) : (Pipeline.ΦA spec13 c : sProp 𝕄) ⊢ (dat13 V c).Φ 0 := by
  rw [PhiA_eq13]; show _ ⊢ Phi13 V c 0; unfold Phi13
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out13 (c : Dev nD) : (dat13 V c).Φ (Fin.last cfg13.N) ⊢ (Pipeline.ΦA spec13 c : sProp 𝕄) := by
  rw [PhiA_eq13]; show Phi13 V c _ ⊢ _; unfold Phi13
  iintro ⟨%xs, -, HS, Hr, Hg⟩
  isplitl [HS Hr]
  · isplitl [HS]; · iexists _; iexact HS
    iexact Hr
  iexact Hg

end Cert.Kernel.Hand

end
-- ==== Proof.K.Acc14Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The output block after point `t`: the first two blocks' product added to zero, plus the third block. -/
noncomputable def out14 (c : Dev nD) (t : Fin cfg14.N) : Vec F S8192x128 .f32 :=
  k14_pay3 (k14_pay2 (k14_pay1 (F := F)) (iblk14 V c 0 t) (iblk14 V c 1 t)) (iblk14 V c 2 t)

/-- The accumulator is reset at every point, so the invariant keeps nothing of it. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 V c t
  Φ _ := Pipeline.ΦA spec14 c
  q _ := fullShare
  owed _ := 0

theorem A_eq14 (c : Dev nD) (w : Fin cfg14.W) : (dat14 V c).A w = V c (Pipeline.arrRef spec14 w) := rfl

end Cert.Kernel.Hand

end
-- ==== Proof.K.Acc14.lean ====
import proofs.«414074_j90701119357381_1_alg».proof.Proof.K.Acc14Def
import proofs.«414074_j90701119357381_1_alg».proof.Proof.K.AccRun10

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live14 : ∀ t : Fin cfg14.N, idle14 3 (grid14.coords t) = false := by decide +kernel

theorem hcond14 : ∀ t : Fin cfg14.N, k14_cond2 (grid14.coords t) = 1#1 := by decide +kernel

theorem before14 (c : Dev nD) (t : Fin cfg14.N) :
    (∀ d, (dat14 V c).before 0 t d = iblk14 V c 0 t) ∧ (∀ d, (dat14 V c).before 1 t d = iblk14 V c 1 t)
      ∧ ∀ d, (dat14 V c).before 2 t d = iblk14 V c 2 t := by
  refine ⟨fun d => ?_, fun d => ?_, fun d => ?_⟩ <;>
    exact ((dat14 V c).before_in_eq_fetched _ rfl (fun _ => rfl) (fun _ _ _ => rfl) (fun _ => rfl) t d).trans rfl

/-- The invariant with the accumulator's buffer split off the other scoped buffers. -/
theorem PhiEq14 (c : Dev nD) : ∃ R : sProp 𝕄, ∀ n, (dat14 V c).Φ n
    = iprop(iprop((∃ d, owns (c : Thread nD τ) (Memref.whole cc14_scratch0) fullShare d) ∗ R) ∗ (∃ r, prngReg c r)) :=
  ⟨_, fun _ => by
    show Pipeline.ΦA spec14 c = _
    unfold Pipeline.ΦA; rw [scopedRest14_split]; simp only [owns_whole]; rfl⟩

theorem body_obligation14 (c : Dev nD) : BodyObligation (dat14 (F := F) V c) (defs₀ (F := F)) Variants.none () Set.univ := fun t => by
  obtain ⟨R, hR⟩ := PhiEq14 V c
  rw [bigSep_W14, bigSep_W14, hR, hR]
  simp only [(before14 V c t).1, (before14 V c t).2.1, (before14 V c t).2.2]
  rw [live14 t]
  refine .trans ?_ (kernelRun10 c _ _ (hstage14_0 _) _ (hstage14_1 _) _ (hstage14_2 _) _ (hstage14_3 _) (Memref.whole cc14_scratch0)
    (Memref.isWhole_whole _) (hcond14 t) (iblk14 V c 0 t) (iblk14 V c 1 t) (iblk14 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in14 (c : Dev nD) : (Pipeline.ΦA spec14 c : sProp 𝕄) ⊢ (dat14 V c).Φ 0 := .rfl

theorem Phi_out14 (c : Dev nD) : (dat14 V c).Φ (Fin.last cfg14.N) ⊢ (Pipeline.ΦA spec14 c : sProp 𝕄) := .rfl

end Cert.Kernel.Hand

end
-- ==== Proof.K.Acc15Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The output block after point `t`: the first two blocks' product added to zero, plus the third block. -/
noncomputable def out15 (c : Dev nD) (t : Fin cfg15.N) : Vec F S8192x128 .f32 :=
  k15_pay3 (k15_pay2 (k15_pay1 (F := F)) (iblk15 V c 0 t) (iblk15 V c 1 t)) (iblk15 V c 2 t)

/-- The accumulator is reset at every point, so the invariant keeps nothing of it. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15 V c t
  Φ _ := Pipeline.ΦA spec15 c
  q _ := fullShare
  owed _ := 0

theorem A_eq15 (c : Dev nD) (w : Fin cfg15.W) : (dat15 V c).A w = V c (Pipeline.arrRef spec15 w) := rfl

end Cert.Kernel.Hand

end
-- ==== Proof.K.Acc15.lean ====
import proofs.«414074_j90701119357381_1_alg».proof.Proof.K.Acc15Def
import proofs.«414074_j90701119357381_1_alg».proof.Proof.K.AccRun10

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live15 : ∀ t : Fin cfg15.N, idle15 3 (grid15.coords t) = false := by decide +kernel

theorem hcond15 : ∀ t : Fin cfg15.N, k15_cond2 (grid15.coords t) = 1#1 := by decide +kernel

theorem before15 (c : Dev nD) (t : Fin cfg15.N) :
    (∀ d, (dat15 V c).before 0 t d = iblk15 V c 0 t) ∧ (∀ d, (dat15 V c).before 1 t d = iblk15 V c 1 t)
      ∧ ∀ d, (dat15 V c).before 2 t d = iblk15 V c 2 t := by
  refine ⟨fun d => ?_, fun d => ?_, fun d => ?_⟩ <;>
    exact ((dat15 V c).before_in_eq_fetched _ rfl (fun _ => rfl) (fun _ _ _ => rfl) (fun _ => rfl) t d).trans rfl

/-- The invariant with the accumulator's buffer split off the other scoped buffers. -/
theorem PhiEq15 (c : Dev nD) : ∃ R : sProp 𝕄, ∀ n, (dat15 V c).Φ n
    = iprop(iprop((∃ d, owns (c : Thread nD τ) (Memref.whole cc15_scratch0) fullShare d) ∗ R) ∗ (∃ r, prngReg c r)) :=
  ⟨_, fun _ => by
    show Pipeline.ΦA spec15 c = _
    unfold Pipeline.ΦA; rw [scopedRest15_split]; simp only [owns_whole]; rfl⟩

theorem body_obligation15 (c : Dev nD) : BodyObligation (dat15 (F := F) V c) (defs₀ (F := F)) Variants.none () Set.univ := fun t => by
  obtain ⟨R, hR⟩ := PhiEq15 V c
  rw [bigSep_W15, bigSep_W15, hR, hR]
  simp only [(before15 V c t).1, (before15 V c t).2.1, (before15 V c t).2.2]
  rw [live15 t]
  refine .trans ?_ (kernelRun10 c _ _ (hstage15_0 _) _ (hstage15_1 _) _ (hstage15_2 _) _ (hstage15_3 _) (Memref.whole cc15_scratch0)
    (Memref.isWhole_whole _) (hcond15 t) (iblk15 V c 0 t) (iblk15 V c 1 t) (iblk15 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in15 (c : Dev nD) : (Pipeline.ΦA spec15 c : sProp 𝕄) ⊢ (dat15 V c).Φ 0 := .rfl

theorem Phi_out15 (c : Dev nD) : (dat15 V c).Φ (Fin.last cfg15.N) ⊢ (Pipeline.ΦA spec15 c : sProp 𝕄) := .rfl

end Cert.Kernel.Hand

end
-- ==== Proof.K.Mm16Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

abbrev scM16 : Memref sig .tc .vmem S2048x512 .f32 := Memref.whole cc16_scratch0

/-- The accumulator after point `n`: the point's product added to zero at the first point of a run, else to what the
    point before left. -/
def sc16 (c : Dev nD) : (n : ℕ) → n < cfg16.N → Vec F S2048x512 .f32
  | 0, hn => k16_pay2 k16_pay1 (iblk16 V c 0 ⟨0, hn⟩) (iblk16 V c 1 ⟨0, hn⟩)
  | n + 1, hn =>
    k16_pay2 (if (n + 1) % 5 = 0 then k16_pay1 else sc16 c n (Nat.lt_of_succ_lt hn)) (iblk16 V c 0 ⟨n + 1, hn⟩) (iblk16 V c 1 ⟨n + 1, hn⟩)

abbrev rest16 (c : Dev nD) : sProp 𝕄 :=
  Pipeline.scopedRestBut (Ix := Unit) (Name := ℕ) (U := UR sig nD τ) (Lvl := ℕ) (Val := Elt F) spec16 c [cc16_scratch0]

/-- Before position `n` the accumulator holds what point `n - 1` left, anything before the first point. -/
def Phi16 (c : Dev nD) (n : ℕ) : sProp 𝕄 :=
  iprop(∃ xs, ⌜∀ m hm, n = m + 1 → xs = sc16 V c m hm⌝ ∗ owns (c : Thread nD τ) scM16 fullShare xs ∗ rest16 c ∗ (∃ r, prngReg c r))

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => k16_pay3 (sc16 V c t.val t.isLt)
  Φ t := Phi16 V c t.val
  q _ := fullShare
  owed _ := 0

theorem A_eq16 (c : Dev nD) (w : Fin cfg16.W) : (dat16 V c).A w = V c (Pipeline.arrRef spec16 w) := rfl

end Cert.Kernel.Hand

end
-- ==== Proof.K.Mm16.lean ====
import proofs.«414074_j90701119357381_1_alg».proof.Proof.K.Mm16Def
import proofs.«414074_j90701119357381_1_alg».proof.Proof.K.MmRun11
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle16_2 : ∀ t : Fin cfg16.N, cfg16.idle 2 (grid16.coords t) = !decide (cond11_2 (grid16.coords t)) := by decide +kernel

abbrev ms16_0 (t : Fin cfg16.N) : Memref sig .tc .vmem S2048x2048 .bf16 := win16_0.stage (cfg16.slots t 0)
abbrev ms16_1 (t : Fin cfg16.N) : Memref sig .tc .vmem S2048x512 .bf16 := win16_1.stage (cfg16.slots t 1)
abbrev ms16_2 (t : Fin cfg16.N) : Memref sig .tc .vmem S2048x512 .bf16 := win16_2.stage (cfg16.slots t 2)

theorem PhiA_eq16 (c : Dev nD) :
    (Pipeline.ΦA spec16 c : sProp 𝕄)
      = iprop(iprop((∃ d, owns (c : Thread nD τ) scM16 fullShare d) ∗ rest16 c) ∗ (∃ r, prngReg c r)) := by
  unfold Pipeline.ΦA; rw [scopedRest16_split]; simp only [scM16, owns_whole]; try rfl

/-- One step of the accumulation, from what the point before left. -/
theorem sc_eq16 (c : Dev nD) (t : Fin cfg16.N) (xs : Vec F S2048x512 .f32) (hx : ∀ m hm, t.val = m + 1 → xs = sc16 V c m hm) :
    sc16 V c t.val t.isLt = k16_pay2 (if cond11_0 (grid16.coords t) then k16_pay1 else xs) (iblk16 V c 0 t) (iblk16 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k16_pay2 · _ _) (if_congr (hcond11_0 ⟨n + 1, hn⟩) rfl rfl).symm

theorem before16_0 (c : Dev nD) (t : Fin cfg16.N) (d) : (dat16 V c).before 0 t d = iblk16 V c 0 t :=
  (dat16 V c).before_fetched 0 t (fetch16_0 t) d
theorem before16_1 (c : Dev nD) (t : Fin cfg16.N) (d) : (dat16 V c).before 1 t d = iblk16 V c 1 t :=
  (dat16 V c).before_fetched 1 t (fetch16_1 t) d

theorem leaves16_2 (c : Dev nD) (t : Fin cfg16.N) (d) :
    owns (c : Thread nD τ) (ms16_2 t) fullShare
        (if cond11_2 (grid16.coords t) then k16_pay3 (sc16 V c t.val t.isLt) else (dat16 V c).before 2 t d)
      ⊢ (dat16 V c).leavesExact 2 t := by
  by_cases h : cond11_2 (grid16.coords t)
  · rw [if_pos h]; unfold Dat.leavesExact; rw [idle16_2 t, decide_eq_true h]; exact .rfl
  · rw [if_neg h, Dat.leavesExact_idle _ 2 t (by rw [idle16_2 t, decide_eq_false h]; rfl)
      (Bool.eq_false_iff.mpr fun hf => h ((hcond11_2 t).mpr ((flush16_2 t).mp hf)))]
    iintro H; iexists d; iexact H

theorem sound_body16 (c : Dev nD) (t : Fin cfg16.N) :
    iprop(Phi16 V c t.val ∗ (dat16 V c).owesAt () t.castSucc
        ∗ (∃ d, owns (c : Thread nD τ) (ms16_0 t) fullShare ((dat16 V c).before 0 t d))
        ∗ (∃ d, owns (c : Thread nD τ) (ms16_1 t) fullShare ((dat16 V c).before 1 t d))
        ∗ (∃ d, owns (c : Thread nD τ) (ms16_2 t) fullShare ((dat16 V c).before 2 t d)))
      ⊢ wp frame (wpE (defs₀ (F := F)) Variants.none c none) Set.univ (bodyAt16 t) fun _ =>
        iprop(Phi16 V c (t.val + 1) ∗ (dat16 V c).owesAt () t.castSucc
          ∗ owns (c : Thread nD τ) (ms16_0 t) fullShare (iblk16 V c 0 t)
          ∗ owns (c : Thread nD τ) (ms16_1 t) fullShare (iblk16 V c 1 t) ∗ (dat16 V c).leavesExact 2 t) := by
  simp only [before16_0, before16_1]; unfold Phi16
  iintro ⟨⟨%xs, %hx, HS, Hr, Hg⟩, Ho, ⟨%d_a, H_a⟩, ⟨%d_b, H_b⟩, ⟨%d_o, H_o⟩⟩
  refine BIBase.Entails.trans ?_ (kernelRun11 c (grid16.coords t) (ms16_0 t) (hstage16_0 _) (ms16_1 t) (hstage16_1 _) (ms16_2 t) (hstage16_2 _) scM16 (Memref.isWhole_whole _)
    (iblk16 V c 0 t) (iblk16 V c 1 t) ((dat16 V c).before 2 t d_o)
    (if cond11_2 (grid16.coords t) then k16_pay3 (sc16 V c t.val t.isLt) else (dat16 V c).before 2 t d_o) xs _
    (sc_eq16 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc16 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves16_2 V c t d_o); iexact H_o

theorem body_obligation16 (c : Dev nD) : BodyObligation (dat16 (F := F) V c) (defs₀ (F := F)) Variants.none () Set.univ := fun t => by
  rw [bigSep_W16, bigSep_W16]
  exact sound_body16 V c t

theorem Phi_in16 (c : Dev nD) : (Pipeline.ΦA spec16 c : sProp 𝕄) ⊢ (dat16 V c).Φ 0 := by
  rw [PhiA_eq16]; show _ ⊢ Phi16 V c 0; unfold Phi16
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out16 (c : Dev nD) : (dat16 V c).Φ (Fin.last cfg16.N) ⊢ (Pipeline.ΦA spec16 c : sProp 𝕄) := by
  rw [PhiA_eq16]; show Phi16 V c _ ⊢ _; unfold Phi16
  iintro ⟨%xs, -, HS, Hr, Hg⟩
  isplitl [HS Hr]
  · isplitl [HS]; · iexists _; iexact HS
    iexact Hr
  iexact Hg

end Cert.Kernel.Hand

end
-- ==== Proof.K.Acc17Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The output block after point `t`: the first two blocks' product added to zero, plus the third block. -/
noncomputable def out17 (c : Dev nD) (t : Fin cfg17.N) : Vec F S8192x128 .f32 :=
  k17_pay3 (k17_pay2 (k17_pay1 (F := F)) (iblk17 V c 0 t) (iblk17 V c 1 t)) (iblk17 V c 2 t)

/-- The accumulator is reset at every point, so the invariant keeps nothing of it. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17 V c t
  Φ _ := Pipeline.ΦA spec17 c
  q _ := fullShare
  owed _ := 0

theorem A_eq17 (c : Dev nD) (w : Fin cfg17.W) : (dat17 V c).A w = V c (Pipeline.arrRef spec17 w) := rfl

end Cert.Kernel.Hand

end
-- ==== Proof.K.Acc17.lean ====
import proofs.«414074_j90701119357381_1_alg».proof.Proof.K.Acc17Def
import proofs.«414074_j90701119357381_1_alg».proof.Proof.K.AccRun10

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live17 : ∀ t : Fin cfg17.N, idle17 3 (grid17.coords t) = false := by decide +kernel

theorem hcond17 : ∀ t : Fin cfg17.N, k17_cond2 (grid17.coords t) = 1#1 := by decide +kernel

theorem before17 (c : Dev nD) (t : Fin cfg17.N) :
    (∀ d, (dat17 V c).before 0 t d = iblk17 V c 0 t) ∧ (∀ d, (dat17 V c).before 1 t d = iblk17 V c 1 t)
      ∧ ∀ d, (dat17 V c).before 2 t d = iblk17 V c 2 t := by
  refine ⟨fun d => ?_, fun d => ?_, fun d => ?_⟩ <;>
    exact ((dat17 V c).before_in_eq_fetched _ rfl (fun _ => rfl) (fun _ _ _ => rfl) (fun _ => rfl) t d).trans rfl

/-- The invariant with the accumulator's buffer split off the other scoped buffers. -/
theorem PhiEq17 (c : Dev nD) : ∃ R : sProp 𝕄, ∀ n, (dat17 V c).Φ n
    = iprop(iprop((∃ d, owns (c : Thread nD τ) (Memref.whole cc17_scratch0) fullShare d) ∗ R) ∗ (∃ r, prngReg c r)) :=
  ⟨_, fun _ => by
    show Pipeline.ΦA spec17 c = _
    unfold Pipeline.ΦA; rw [scopedRest17_split]; simp only [owns_whole]; rfl⟩

theorem body_obligation17 (c : Dev nD) : BodyObligation (dat17 (F := F) V c) (defs₀ (F := F)) Variants.none () Set.univ := fun t => by
  obtain ⟨R, hR⟩ := PhiEq17 V c
  rw [bigSep_W17, bigSep_W17, hR, hR]
  simp only [(before17 V c t).1, (before17 V c t).2.1, (before17 V c t).2.2]
  rw [live17 t]
  refine .trans ?_ (kernelRun10 c _ _ (hstage17_0 _) _ (hstage17_1 _) _ (hstage17_2 _) _ (hstage17_3 _) (Memref.whole cc17_scratch0)
    (Memref.isWhole_whole _) (hcond17 t) (iblk17 V c 0 t) (iblk17 V c 1 t) (iblk17 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in17 (c : Dev nD) : (Pipeline.ΦA spec17 c : sProp 𝕄) ⊢ (dat17 V c).Φ 0 := .rfl

theorem Phi_out17 (c : Dev nD) : (dat17 V c).Φ (Fin.last cfg17.N) ⊢ (Pipeline.ΦA spec17 c : sProp 𝕄) := .rfl

end Cert.Kernel.Hand

end
-- ==== Proof.K.Mm18Def.lean ====
import proofs.«414074_j90701119357381_1_alg».proof.Proof.Gen.Kernel.Launch
import proofs.«414074_j90701119357381_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

abbrev scM18 : Memref sig .tc .vmem S2048x512 .f32 := Memref.whole cc18_scratch0

/-- The accumulator after point `n`: the point's product added to zero at the first point of a run, else to what the
    point before left. -/
def sc18 (c : Dev nD) : (n : ℕ) → n < cfg18.N → Vec F S2048x512 .f32
  | 0, hn => k18_pay2 k18_pay1 (iblk18 V c 0 ⟨0, hn⟩) (iblk18 V c 1 ⟨0, hn⟩)
  | n + 1, hn =>
    k18_pay2 (if (n + 1) % 5 = 0 then k18_pay1 else sc18 c n (Nat.lt_of_succ_lt hn)) (iblk18 V c 0 ⟨n + 1, hn⟩) (iblk18 V c 1 ⟨n + 1, hn⟩)

abbrev rest18 (c : Dev nD) : sProp 𝕄 :=
  Pipeline.scopedRestBut (Ix := Unit) (Name := ℕ) (U := UR sig nD τ) (Lvl := ℕ) (Val := Elt F) spec18 c [cc18_scratch0]

/-- Before position `n` the accumulator holds what point `n - 1` left, anything before the first point. -/
def Phi18 (c : Dev nD) (n : ℕ) : sProp 𝕄 :=
  iprop(∃ xs, ⌜∀ m hm, n = m + 1 → xs = sc18 V c m hm⌝ ∗ owns (c : Thread nD τ) scM18 fullShare xs ∗ rest18 c ∗ (∃ r, prngReg c r))

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => k18_pay3 (sc18 V c t.val t.isLt)
  Φ t := Phi18 V c t.val
  q _ := fullShare
  owed _ := 0

theorem A_eq18 (c : Dev nD) (w : Fin cfg18.W) : (dat18 V c).A w = V c (Pipeline.arrRef spec18 w) := rfl

end Cert.Kernel.Hand

end
-- ==== Proof.K.Mm18.lean ====
import proofs.«414074_j90701119357381_1_alg».proof.Proof.K.Mm18Def
import proofs.«414074_j90701119357381_1_alg».proof.Proof.K.MmRun11
import proofs.«414074_j90701119357381_1_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle18_2 : ∀ t : Fin cfg18.N, cfg18.idle 2 (grid18.coords t) = !decide (cond11_2 (grid18.coords t)) := by decide +kernel

abbrev ms18_0 (t : Fin cfg18.N) : Memref sig .tc .vmem S2048x2048 .bf16 := win18_0.stage (cfg18.slots t 0)
abbrev ms18_1 (t : Fin cfg18.N) : Memref sig .tc .vmem S2048x512 .bf16 := win18_1.stage (cfg18.slots t 1)
abbrev ms18_2 (t : Fin cfg18.N) : Memref sig .tc .vmem S2048x512 .bf16 := win18_2.stage (cfg18.slots t 2)

theorem PhiA_eq18 (c : Dev nD) :
    (Pipeline.ΦA spec18 c : sProp 𝕄)
      = iprop(iprop((∃ d, owns (c : Thread nD τ) scM18 fullShare d) ∗ rest18 c) ∗ (∃ r, prngReg c r)) := by
  unfold Pipeline.ΦA; rw [scopedRest18_split]; simp only [scM18, owns_whole]; try rfl

/-- One step of the accumulation, from what the point before left. -/
theorem sc_eq18 (c : Dev nD) (t : Fin cfg18.N) (xs : Vec F S2048x512 .f32) (hx : ∀ m hm, t.val = m + 1 → xs = sc18 V c m hm) :
    sc18 V c t.val t.isLt = k18_pay2 (if cond11_0 (grid18.coords t) then k18_pay1 else xs) (iblk18 V c 0 t) (iblk18 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k18_pay2 · _ _) (if_congr (hcond11_0 ⟨n + 1, hn⟩) rfl rfl).symm

theorem before18_0 (c : Dev nD) (t : Fin cfg18.N) (d) : (dat18 V c).before 0 t d = iblk18 V c 0 t :=
  (dat18 V c).before_fetched 0 t (fetch18_0 t) d
theorem before18_1 (c : Dev nD) (t : Fin cfg18.N) (d) : (dat18 V c).before 1 t d = iblk18 V c 1 t :=
  (dat18 V c).before_fetched 1 t (fetch18_1 t) d

theorem leaves18_2 (c : Dev nD) (t : Fin cfg18.N) (d) :
    owns (c : Thread nD τ) (ms18_2 t) fullShare
        (if cond11_2 (grid18.coords t) then k18_pay3 (sc18 V c t.val t.isLt) else (dat18 V c).before 2 t d)
      ⊢ (dat18 V c).leavesExact 2 t := by
  by_cases h : cond11_2 (grid18.coords t)
  · rw [if_pos h]; unfold Dat.leavesExact; rw [idle18_2 t, decide_eq_true h]; exact .rfl
  · rw [if_neg h, Dat.leavesExact_idle _ 2 t (by rw [idle18_2 t, decide_eq_false h]; rfl)
      (Bool.eq_false_iff.mpr fun hf => h ((hcond11_2 t).mpr ((flush18_2 t).mp hf)))]
    iintro H; iexists d; iexact H

theorem sound_body18 (c : Dev nD) (t : Fin cfg18.N) :
    iprop(Phi18 V c t.val ∗ (dat18 V c).owesAt () t.castSucc
        ∗ (∃ d, owns (c : Thread nD τ) (ms18_0 t) fullShare ((dat18 V c).before 0 t d))
        ∗ (∃ d, owns (c : Thread nD τ) (ms18_1 t) fullShare ((dat18 V c).before 1 t d))
        ∗ (∃ d, owns (c : Thread nD τ) (ms18_2 t) fullShare ((dat18 V c).before 2 t d)))
      ⊢ wp frame (wpE (defs₀ (F := F)) Variants.none c none) Set.univ (bodyAt18 t) fun _ =>
        iprop(Phi18 V c (t.val + 1) ∗ (dat18 V c).owesAt () t.castSucc
          ∗ owns (c : Thread nD τ) (ms18_0 t) fullShare (iblk18 V c 0 t)
          ∗ owns (c : Thread nD τ) (ms18_1 t) fullShare (iblk18 V c 1 t) ∗ (dat18 V c).leavesExact 2 t) := by
  simp only [before18_0, before18_1]; unfold Phi18
  iintro ⟨⟨%xs, %hx, HS, Hr, Hg⟩, Ho, ⟨%d_a, H_a⟩, ⟨%d_b, H_b⟩, ⟨%d_o, H_o⟩⟩
  refine BIBase.Entails.trans ?_ (kernelRun11 c (grid18.coords t) (ms18_0 t) (hstage18_0 _) (ms18_1 t) (hstage18_1 _) (ms18_2 t) (hstage18_2 _) scM18 (Memref.isWhole_whole _)
    (iblk18 V c 0 t) (iblk18 V c 1 t) ((dat18 V c).before 2 t d_o)
    (if cond11_2 (grid18.coords t) then k18_pay3 (sc18 V c t.val t.isLt) else (dat18 V c).before 2 t d_o) xs _
    (sc_eq18 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc18 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves18_2 V c t d_o); iexact H_o

theorem body_obligation18 (c : Dev nD) : BodyObligation (dat18 (F := F) V c) (defs₀ (F := F)) Variants.none () Set.univ := fun t => by
  rw [bigSep_W18, bigSep_W18]
  exact sound_body18 V c t

theorem Phi_in18 (c : Dev nD) : (Pipeline.ΦA spec18 c : sProp 𝕄) ⊢ (dat18 V c).Φ 0 := by
  rw [PhiA_eq18]; show _ ⊢ Phi18 V c 0; unfold Phi18
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out18 (c : Dev nD) : (dat18 V c).Φ (Fin.last cfg18.N) ⊢ (Pipeline.ΦA spec18 c : sProp 𝕄) := by
  rw [PhiA_eq18]; show Phi18 V c _ ⊢ _; unfold Phi18
  iintro ⟨%xs, -, HS, Hr, Hg⟩
  isplitl [HS Hr]
  · isplitl [HS]; · iexists _; iexact HS
    iexact Hr
  iexact Hg

end Cert.Kernel.Hand

end
-- ==== Proof.K.Acc19Def.lean ====
import proofs.«414074_j90701119357381_1_alg».proof.Proof.Gen.Kernel.Launch
import proofs.«414074_j90701119357381_1_alg».proof.Proof.Gen.Kernel.Skeleton
import proofs.«414074_j90701119357381_1_alg».proof.Proof.Gen.Kernel.Points
import Idealize.ShloMosaic.Lib.Pipeline.FrameBody
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The output block after point `t`: the first two blocks' product added to zero, plus the third block. -/
noncomputable def out19 (c : Dev nD) (t : Fin cfg19.N) : Vec F S8192x128 .f32 :=
  k19_pay3 (k19_pay2 (k19_pay1 (F := F)) (iblk19 V c 0 t) (iblk19 V c 1 t)) (iblk19 V c 2 t)

/-- The accumulator is reset at every point, so the invariant keeps nothing of it. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19 V c t
  Φ _ := Pipeline.ΦA spec19 c
  q _ := fullShare
  owed _ := 0

theorem A_eq19 (c : Dev nD) (w : Fin cfg19.W) : (dat19 V c).A w = V c (Pipeline.arrRef spec19 w) := rfl

end Cert.Kernel.Hand

end
-- ==== Proof.K.Acc19.lean ====
import proofs.«414074_j90701119357381_1_alg».proof.Proof.K.Acc19Def
import proofs.«414074_j90701119357381_1_alg».proof.Proof.K.AccRun10

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live19 : ∀ t : Fin cfg19.N, idle19 3 (grid19.coords t) = false := by decide +kernel

theorem hcond19 : ∀ t : Fin cfg19.N, k19_cond2 (grid19.coords t) = 1#1 := by decide +kernel

theorem before19 (c : Dev nD) (t : Fin cfg19.N) :
    (∀ d, (dat19 V c).before 0 t d = iblk19 V c 0 t) ∧ (∀ d, (dat19 V c).before 1 t d = iblk19 V c 1 t)
      ∧ ∀ d, (dat19 V c).before 2 t d = iblk19 V c 2 t := by
  refine ⟨fun d => ?_, fun d => ?_, fun d => ?_⟩ <;>
    exact ((dat19 V c).before_in_eq_fetched _ rfl (fun _ => rfl) (fun _ _ _ => rfl) (fun _ => rfl) t d).trans rfl

/-- The invariant with the accumulator's buffer split off the other scoped buffers. -/
theorem PhiEq19 (c : Dev nD) : ∃ R : sProp 𝕄, ∀ n, (dat19 V c).Φ n
    = iprop(iprop((∃ d, owns (c : Thread nD τ) (Memref.whole cc19_scratch0) fullShare d) ∗ R) ∗ (∃ r, prngReg c r)) :=
  ⟨_, fun _ => by
    show Pipeline.ΦA spec19 c = _
    unfold Pipeline.ΦA; rw [scopedRest19_split]; simp only [owns_whole]; rfl⟩

theorem body_obligation19 (c : Dev nD) : BodyObligation (dat19 (F := F) V c) (defs₀ (F := F)) Variants.none () Set.univ := fun t => by
  obtain ⟨R, hR⟩ := PhiEq19 V c
  rw [bigSep_W19, bigSep_W19, hR, hR]
  simp only [(before19 V c t).1, (before19 V c t).2.1, (before19 V c t).2.2]
  rw [live19 t]
  refine .trans ?_ (kernelRun10 c _ _ (hstage19_0 _) _ (hstage19_1 _) _ (hstage19_2 _) _ (hstage19_3 _) (Memref.whole cc19_scratch0)
    (Memref.isWhole_whole _) (hcond19 t) (iblk19 V c 0 t) (iblk19 V c 1 t) (iblk19 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in19 (c : Dev nD) : (Pipeline.ΦA spec19 c : sProp 𝕄) ⊢ (dat19 V c).Φ 0 := .rfl

theorem Phi_out19 (c : Dev nD) : (dat19 V c).Φ (Fin.last cfg19.N) ⊢ (Pipeline.ΦA spec19 c : sProp 𝕄) := .rfl

end Cert.Kernel.Hand

end
-- ==== Proof.K.Asm.lean ====
import proofs.«414074_j90701119357381_1_alg».proof.Proof.RegionsKernel
import proofs.«414074_j90701119357381_1_alg».proof.Proof.K.Acc0
import proofs.«414074_j90701119357381_1_alg».proof.Proof.K.Mm1
import proofs.«414074_j90701119357381_1_alg».proof.Proof.K.Acc2
import proofs.«414074_j90701119357381_1_alg».proof.Proof.K.Mm3
import proofs.«414074_j90701119357381_1_alg».proof.Proof.K.Acc4
import proofs.«414074_j90701119357381_1_alg».proof.Proof.K.Acc5
import proofs.«414074_j90701119357381_1_alg».proof.Proof.K.Mm6
import proofs.«414074_j90701119357381_1_alg».proof.Proof.K.Acc7
import proofs.«414074_j90701119357381_1_alg».proof.Proof.K.Mm8
import proofs.«414074_j90701119357381_1_alg».proof.Proof.K.Acc9
import proofs.«414074_j90701119357381_1_alg».proof.Proof.K.Acc10
import proofs.«414074_j90701119357381_1_alg».proof.Proof.K.Mm11
import proofs.«414074_j90701119357381_1_alg».proof.Proof.K.Acc12
import proofs.«414074_j90701119357381_1_alg».proof.Proof.K.Mm13
import proofs.«414074_j90701119357381_1_alg».proof.Proof.K.Acc14
import proofs.«414074_j90701119357381_1_alg».proof.Proof.K.Acc15
import proofs.«414074_j90701119357381_1_alg».proof.Proof.K.Mm16
import proofs.«414074_j90701119357381_1_alg».proof.Proof.K.Acc17
import proofs.«414074_j90701119357381_1_alg».proof.Proof.K.Mm18
import proofs.«414074_j90701119357381_1_alg».proof.Proof.K.Acc19
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev toU (W : Dev nD → Valuation τ sig (Elt F)) (c : Dev nD) (b : Ref sig .tc) : Buf (Elt F) ((c : Thread nD τ).loc b) := W c b

/-- Replacing one buffer's contents leaves every other buffer's. -/
theorem upd_of_ne (W : Valuation τ sig (Elt F)) {r b : Ref sig .tc} (x : (Proc.devRef (τ := τ) .tc r).ty.Contents (Elt F)) (hb : b ≠ r) :
    Function.update W r x b = W b := Function.update_of_ne (StableHlo.devRef_ne_of_ne hb) _ _

/-- Equal states stay equal when the first's buffer `r` is set to what the second holds there after its own update at `r`. -/
theorem upd_eq {V W : Valuation τ sig (Elt F)} (h : V = W) (r : Ref sig .tc) (x : (Proc.devRef (τ := τ) .tc r).ty.Contents (Elt F)) :
    Function.update V r (Function.update W r x r) = Function.update W r x := by rw [h, Function.update_self]

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A region that changes only its output window `wo`'s array, as a segment from the buffers at `Win` to the buffers at `Wout`. -/
def mkReg (pd : (p : Fin 20) → (c : Dev nD) → Dat τ (Elt F) Unit ℕ (UR sig nD τ) ℕ (cfgs p) c) (p : Fin 20)
    (lf : Pipeline.LaunchFacts (nD := nD) (τ := τ) cfgs p) (Win Wout : Dev nD → Valuation τ sig (Elt F))
    (wo : Fin (cfgs p).W) (hA : ∀ c w, (pd p c).A w = toU Win c (Pipeline.arrRef (cfgs p).spec w))
    (hbody : ∀ c, BodyObligation (pd p c) (defs₀ (F := F)) Variants.none () Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄))
    (hio : ∀ w, w ≠ wo → ((cfgs p).win w).isOut = false := by decide)
    (hW : ∀ c, Wout c = Function.update (Win c) (Pipeline.arrRef (cfgs p).spec wo) ((pd p c).arrAt wo (cfgs p).N) := by exact fun _ => rfl)
    (hd : ∀ c, (pd p c).q = (fun _ => fullShare) ∧ (pd p c).owed = (fun _ => 0) ∧ (pd p c).recorded 0 = Set.univ := by exact fun _ => ⟨rfl, rfl, rfl⟩) :
    Pipeline.RegionSeg (pcfgs (F := F)) GenP.adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => congrFun (hd c).2.1
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (toU Win c)
  hentry c := by
    rw [Pipeline.ownSems0_none]
    have hsplit := Pipeline.arrays_of_unscopedBufs (p := p) (pcfgs (F := F)) GenP.adm pd lf.win lf.arr_whole c
      ((pd p c).share_full (congrFun (hd c).1)) (toU Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(hd c).2.1]
      icases HO with ⟨%W, HO⟩; iexists W; isplitr; · ipureintro; exact fun _ _ => Or.inl ((hd c).2.2 ▸ trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hF : ∀ w, (pd p c).arrAt w (cfgs p).N = toU Wout c (Pipeline.arrRef (cfgs p).spec w) := fun w => by
      refine .trans ?_ (congrFun (hW c) _).symm
      by_cases h : w = wo
      · subst h; exact (Function.update_self _ _ (Win c)).symm
      · exact ((pd p c).arrAt_in w (hio w h) _).trans ((hA c w).trans (upd_of_ne _ _ (lf.win.arr_inj.ne h)).symm)
    have hjoin := Pipeline.unscopedBufs_of_arrays (p := p) (pcfgs (F := F)) GenP.adm (Ix := Unit) (Name := ℕ) (U := UR sig nD τ) (Lvl := ℕ)
      lf.win lf.arr_whole c pd ((pd p c).share_full (congrFun (hd c).1)) (toU Win c) (toU Wout c) ((pd p c).arrAt · (cfgs p).N) hF
      fun b hb => (congrFun (hW c) _).trans (upd_of_ne _ _ fun e => hb (Finset.mem_image.mpr ⟨wo, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev U3 := toU (W3 m)
def W4 (c : Dev nD) : Valuation τ sig (Elt F) := Function.update (W3 m c) main_v53 ((dat0 (U3 m) c).arrAt 3 cfg0.N)
theorem W4_self (c : Dev nD) : W4 m c main_v53 = (dat0 (U3 m) c).arrAt 3 cfg0.N := Function.update_self ..
abbrev U4 := toU (W4 m)
def W5 (c : Dev nD) : Valuation τ sig (Elt F) := Function.update (W4 m c) main_v54 ((dat1 (U4 m) c).arrAt 2 cfg1.N)
theorem W5_self (c : Dev nD) : W5 m c main_v54 = (dat1 (U4 m) c).arrAt 2 cfg1.N := Function.update_self ..
abbrev W6 (c : Dev nD) : Valuation τ sig (Elt F) := StableHlo.after hostOps2 (W5 m c)
abbrev U6 := toU (W6 m)
def W7 (c : Dev nD) : Valuation τ sig (Elt F) := Function.update (W6 m c) main_v59 ((dat2 (U6 m) c).arrAt 3 cfg2.N)
theorem W7_self (c : Dev nD) : W7 m c main_v59 = (dat2 (U6 m) c).arrAt 3 cfg2.N := Function.update_self ..
abbrev U7 := toU (W7 m)
def W8 (c : Dev nD) : Valuation τ sig (Elt F) := Function.update (W7 m c) main_v60 ((dat3 (U7 m) c).arrAt 2 cfg3.N)
theorem W8_self (c : Dev nD) : W8 m c main_v60 = (dat3 (U7 m) c).arrAt 2 cfg3.N := Function.update_self ..
abbrev W9 (c : Dev nD) : Valuation τ sig (Elt F) := StableHlo.after hostOps4 (W8 m c)
abbrev U9 := toU (W9 m)
def W10 (c : Dev nD) : Valuation τ sig (Elt F) := Function.update (W9 m c) main_v65 ((dat4 (U9 m) c).arrAt 3 cfg4.N)
theorem W10_self (c : Dev nD) : W10 m c main_v65 = (dat4 (U9 m) c).arrAt 3 cfg4.N := Function.update_self ..
abbrev W11 (c : Dev nD) : Valuation τ sig (Elt F) := StableHlo.after hostOps5 (W10 m c)
abbrev U11 := toU (W11 m)
def W12 (c : Dev nD) : Valuation τ sig (Elt F) := Function.update (W11 m c) main_v70 ((dat5 (U11 m) c).arrAt 3 cfg5.N)
theorem W12_self (c : Dev nD) : W12 m c main_v70 = (dat5 (U11 m) c).arrAt 3 cfg5.N := Function.update_self ..
abbrev U12 := toU (W12 m)
def W13 (c : Dev nD) : Valuation τ sig (Elt F) := Function.update (W12 m c) main_v71 ((dat6 (U12 m) c).arrAt 2 cfg6.N)
theorem W13_self (c : Dev nD) : W13 m c main_v71 = (dat6 (U12 m) c).arrAt 2 cfg6.N := Function.update_self ..
abbrev W14 (c : Dev nD) : Valuation τ sig (Elt F) := StableHlo.after hostOps7 (W13 m c)
abbrev U14 := toU (W14 m)
def W15 (c : Dev nD) : Valuation τ sig (Elt F) := Function.update (W14 m c) main_v76 ((dat7 (U14 m) c).arrAt 3 cfg7.N)
theorem W15_self (c : Dev nD) : W15 m c main_v76 = (dat7 (U14 m) c).arrAt 3 cfg7.N := Function.update_self ..
abbrev U15 := toU (W15 m)
def W16 (c : Dev nD) : Valuation τ sig (Elt F) := Function.update (W15 m c) main_v77 ((dat8 (U15 m) c).arrAt 2 cfg8.N)
theorem W16_self (c : Dev nD) : W16 m c main_v77 = (dat8 (U15 m) c).arrAt 2 cfg8.N := Function.update_self ..
abbrev W17 (c : Dev nD) : Valuation τ sig (Elt F) := StableHlo.after hostOps9 (W16 m c)
abbrev U17 := toU (W17 m)
def W18 (c : Dev nD) : Valuation τ sig (Elt F) := Function.update (W17 m c) main_v82 ((dat9 (U17 m) c).arrAt 3 cfg9.N)
theorem W18_self (c : Dev nD) : W18 m c main_v82 = (dat9 (U17 m) c).arrAt 3 cfg9.N := Function.update_self ..
abbrev W19 (c : Dev nD) : Valuation τ sig (Elt F) := StableHlo.after hostOps10 (W18 m c)
abbrev U19 := toU (W19 m)
def W20 (c : Dev nD) : Valuation τ sig (Elt F) := Function.update (W19 m c) main_v91 ((dat10 (U19 m) c).arrAt 3 cfg10.N)
theorem W20_self (c : Dev nD) : W20 m c main_v91 = (dat10 (U19 m) c).arrAt 3 cfg10.N := Function.update_self ..
abbrev U20 := toU (W20 m)
def W21 (c : Dev nD) : Valuation τ sig (Elt F) := Function.update (W20 m c) main_v92 ((dat11 (U20 m) c).arrAt 2 cfg11.N)
theorem W21_self (c : Dev nD) : W21 m c main_v92 = (dat11 (U20 m) c).arrAt 2 cfg11.N := Function.update_self ..
abbrev W22 (c : Dev nD) : Valuation τ sig (Elt F) := StableHlo.after hostOps12 (W21 m c)
abbrev U22 := toU (W22 m)
def W23 (c : Dev nD) : Valuation τ sig (Elt F) := Function.update (W22 m c) main_v97 ((dat12 (U22 m) c).arrAt 3 cfg12.N)
theorem W23_self (c : Dev nD) : W23 m c main_v97 = (dat12 (U22 m) c).arrAt 3 cfg12.N := Function.update_self ..
abbrev U23 := toU (W23 m)
def W24 (c : Dev nD) : Valuation τ sig (Elt F) := Function.update (W23 m c) main_v98 ((dat13 (U23 m) c).arrAt 2 cfg13.N)
theorem W24_self (c : Dev nD) : W24 m c main_v98 = (dat13 (U23 m) c).arrAt 2 cfg13.N := Function.update_self ..
abbrev W25 (c : Dev nD) : Valuation τ sig (Elt F) := StableHlo.after hostOps14 (W24 m c)
abbrev U25 := toU (W25 m)
def W26 (c : Dev nD) : Valuation τ sig (Elt F) := Function.update (W25 m c) main_v103 ((dat14 (U25 m) c).arrAt 3 cfg14.N)
theorem W26_self (c : Dev nD) : W26 m c main_v103 = (dat14 (U25 m) c).arrAt 3 cfg14.N := Function.update_self ..
abbrev W27 (c : Dev nD) : Valuation τ sig (Elt F) := StableHlo.after hostOps15 (W26 m c)
abbrev U27 := toU (W27 m)
def W28 (c : Dev nD) : Valuation τ sig (Elt F) := Function.update (W27 m c) main_v108 ((dat15 (U27 m) c).arrAt 3 cfg15.N)
theorem W28_self (c : Dev nD) : W28 m c main_v108 = (dat15 (U27 m) c).arrAt 3 cfg15.N := Function.update_self ..
abbrev U28 := toU (W28 m)
def W29 (c : Dev nD) : Valuation τ sig (Elt F) := Function.update (W28 m c) main_v109 ((dat16 (U28 m) c).arrAt 2 cfg16.N)
theorem W29_self (c : Dev nD) : W29 m c main_v109 = (dat16 (U28 m) c).arrAt 2 cfg16.N := Function.update_self ..
abbrev W30 (c : Dev nD) : Valuation τ sig (Elt F) := StableHlo.after hostOps17 (W29 m c)
abbrev U30 := toU (W30 m)
def W31 (c : Dev nD) : Valuation τ sig (Elt F) := Function.update (W30 m c) main_v114 ((dat17 (U30 m) c).arrAt 3 cfg17.N)
theorem W31_self (c : Dev nD) : W31 m c main_v114 = (dat17 (U30 m) c).arrAt 3 cfg17.N := Function.update_self ..
abbrev U31 := toU (W31 m)
def W32 (c : Dev nD) : Valuation τ sig (Elt F) := Function.update (W31 m c) main_v115 ((dat18 (U31 m) c).arrAt 2 cfg18.N)
theorem W32_self (c : Dev nD) : W32 m c main_v115 = (dat18 (U31 m) c).arrAt 2 cfg18.N := Function.update_self ..
abbrev W33 (c : Dev nD) : Valuation τ sig (Elt F) := StableHlo.after hostOps19 (W32 m c)
abbrev U33 := toU (W33 m)
def W34 (c : Dev nD) : Valuation τ sig (Elt F) := Function.update (W33 m c) main_v120 ((dat19 (U33 m) c).arrAt 3 cfg19.N)
theorem W34_self (c : Dev nD) : W34 m c main_v120 = (dat19 (U33 m) c).arrAt 3 cfg19.N := Function.update_self ..
abbrev W35 (c : Dev nD) : Valuation τ sig (Elt F) := StableHlo.after hostOps20 (W34 m c)

/-- Region `p`'s proof data, over the buffers' contents at its entry. -/
def pdats : (p : Fin 20) → (c : Dev nD) → Dat τ (Elt F) Unit ℕ (UR sig nD τ) ℕ (cfgs p) c
  | ⟨0, _⟩ => dat0 (U3 m)
  | ⟨1, _⟩ => dat1 (U4 m)
  | ⟨2, _⟩ => dat2 (U6 m)
  | ⟨3, _⟩ => dat3 (U7 m)
  | ⟨4, _⟩ => dat4 (U9 m)
  | ⟨5, _⟩ => dat5 (U11 m)
  | ⟨6, _⟩ => dat6 (U12 m)
  | ⟨7, _⟩ => dat7 (U14 m)
  | ⟨8, _⟩ => dat8 (U15 m)
  | ⟨9, _⟩ => dat9 (U17 m)
  | ⟨10, _⟩ => dat10 (U19 m)
  | ⟨11, _⟩ => dat11 (U20 m)
  | ⟨12, _⟩ => dat12 (U22 m)
  | ⟨13, _⟩ => dat13 (U23 m)
  | ⟨14, _⟩ => dat14 (U25 m)
  | ⟨15, _⟩ => dat15 (U27 m)
  | ⟨16, _⟩ => dat16 (U28 m)
  | ⟨17, _⟩ => dat17 (U30 m)
  | ⟨18, _⟩ => dat18 (U31 m)
  | ⟨19, _⟩ => dat19 (U33 m)
  | ⟨_ + 20, h⟩ => absurd h (by omega)

def reg0 := mkReg (pdats m) 0 launch0 (W3 m) (W4 m) 3 (A_eq0 (U3 m)) (body_obligation0 (U3 m)) (Phi_in0 (U3 m)) (Phi_out0 (U3 m))
def reg1 := mkReg (pdats m) 1 launch1 (W4 m) (W5 m) 2 (A_eq1 (U4 m)) (body_obligation1 (U4 m)) (Phi_in1 (U4 m)) (Phi_out1 (U4 m))
def reg2 := mkReg (pdats m) 2 launch2 (W6 m) (W7 m) 3 (A_eq2 (U6 m)) (body_obligation2 (U6 m)) (Phi_in2 (U6 m)) (Phi_out2 (U6 m))
def reg3 := mkReg (pdats m) 3 launch3 (W7 m) (W8 m) 2 (A_eq3 (U7 m)) (body_obligation3 (U7 m)) (Phi_in3 (U7 m)) (Phi_out3 (U7 m))
def reg4 := mkReg (pdats m) 4 launch4 (W9 m) (W10 m) 3 (A_eq4 (U9 m)) (body_obligation4 (U9 m)) (Phi_in4 (U9 m)) (Phi_out4 (U9 m))
def reg5 := mkReg (pdats m) 5 launch5 (W11 m) (W12 m) 3 (A_eq5 (U11 m)) (body_obligation5 (U11 m)) (Phi_in5 (U11 m)) (Phi_out5 (U11 m))
def reg6 := mkReg (pdats m) 6 launch6 (W12 m) (W13 m) 2 (A_eq6 (U12 m)) (body_obligation6 (U12 m)) (Phi_in6 (U12 m)) (Phi_out6 (U12 m))
def reg7 := mkReg (pdats m) 7 launch7 (W14 m) (W15 m) 3 (A_eq7 (U14 m)) (body_obligation7 (U14 m)) (Phi_in7 (U14 m)) (Phi_out7 (U14 m))
def reg8 := mkReg (pdats m) 8 launch8 (W15 m) (W16 m) 2 (A_eq8 (U15 m)) (body_obligation8 (U15 m)) (Phi_in8 (U15 m)) (Phi_out8 (U15 m))
def reg9 := mkReg (pdats m) 9 launch9 (W17 m) (W18 m) 3 (A_eq9 (U17 m)) (body_obligation9 (U17 m)) (Phi_in9 (U17 m)) (Phi_out9 (U17 m))
def reg10 := mkReg (pdats m) 10 launch10 (W19 m) (W20 m) 3 (A_eq10 (U19 m)) (body_obligation10 (U19 m)) (Phi_in10 (U19 m)) (Phi_out10 (U19 m))
def reg11 := mkReg (pdats m) 11 launch11 (W20 m) (W21 m) 2 (A_eq11 (U20 m)) (body_obligation11 (U20 m)) (Phi_in11 (U20 m)) (Phi_out11 (U20 m))
def reg12 := mkReg (pdats m) 12 launch12 (W22 m) (W23 m) 3 (A_eq12 (U22 m)) (body_obligation12 (U22 m)) (Phi_in12 (U22 m)) (Phi_out12 (U22 m))
def reg13 := mkReg (pdats m) 13 launch13 (W23 m) (W24 m) 2 (A_eq13 (U23 m)) (body_obligation13 (U23 m)) (Phi_in13 (U23 m)) (Phi_out13 (U23 m))
def reg14 := mkReg (pdats m) 14 launch14 (W25 m) (W26 m) 3 (A_eq14 (U25 m)) (body_obligation14 (U25 m)) (Phi_in14 (U25 m)) (Phi_out14 (U25 m))
def reg15 := mkReg (pdats m) 15 launch15 (W27 m) (W28 m) 3 (A_eq15 (U27 m)) (body_obligation15 (U27 m)) (Phi_in15 (U27 m)) (Phi_out15 (U27 m))
def reg16 := mkReg (pdats m) 16 launch16 (W28 m) (W29 m) 2 (A_eq16 (U28 m)) (body_obligation16 (U28 m)) (Phi_in16 (U28 m)) (Phi_out16 (U28 m))
def reg17 := mkReg (pdats m) 17 launch17 (W30 m) (W31 m) 3 (A_eq17 (U30 m)) (body_obligation17 (U30 m)) (Phi_in17 (U30 m)) (Phi_out17 (U30 m))
def reg18 := mkReg (pdats m) 18 launch18 (W31 m) (W32 m) 2 (A_eq18 (U31 m)) (body_obligation18 (U31 m)) (Phi_in18 (U31 m)) (Phi_out18 (U31 m))
def reg19 := mkReg (pdats m) 19 launch19 (W33 m) (W34 m) 3 (A_eq19 (U33 m)) (body_obligation19 (U33 m)) (Phi_in19 (U33 m)) (Phi_out19 (U33 m))

/-- At a region's item number, the contents that region leaves; no other number is read. -/
def outs : GenP.Outs (F := F) := fun J r c => (match J with
  | 4 => W4 m
  | 5 => W5 m
  | 7 => W7 m
  | 8 => W8 m
  | 10 => W10 m
  | 12 => W12 m
  | 13 => W13 m
  | 15 => W15 m
  | 16 => W16 m
  | 18 => W18 m
  | 20 => W20 m
  | 21 => W21 m
  | 23 => W23 m
  | 24 => W24 m
  | 26 => W26 m
  | 28 => W28 m
  | 29 => W29 m
  | 31 => W31 m
  | 32 => W32 m
  | 34 => W34 m
  | _ => W0 m) c r

theorem V_eq0 (c : Dev nD) : GenP.V0 m c = W0 m c := rfl
theorem V_eq1 (c : Dev nD) : GenP.V1 m c = W1 m c := congrArg (StableHlo.after hostOps0) (V_eq0 m c)
theorem V_eq2 (c : Dev nD) : GenP.V2 m c = W2 m c := congrArg (StableHlo.after hostOps0_1) (V_eq1 m c)
theorem V_eq3 (c : Dev nD) : GenP.V3 m c = W3 m c := congrArg (StableHlo.after hostOps0_2) (V_eq2 m c)
theorem V_eq4 (c : Dev nD) : GenP.V4 m (outs m) c = W4 m c := upd_eq (V_eq3 m c) ..
theorem V_eq5 (c : Dev nD) : GenP.V5 m (outs m) c = W5 m c := upd_eq (V_eq4 m c) ..
theorem V_eq6 (c : Dev nD) : GenP.V6 m (outs m) c = W6 m c := congrArg (StableHlo.after hostOps2) (V_eq5 m c)
theorem V_eq7 (c : Dev nD) : GenP.V7 m (outs m) c = W7 m c := upd_eq (V_eq6 m c) ..
theorem V_eq8 (c : Dev nD) : GenP.V8 m (outs m) c = W8 m c := upd_eq (V_eq7 m c) ..
theorem V_eq9 (c : Dev nD) : GenP.V9 m (outs m) c = W9 m c := congrArg (StableHlo.after hostOps4) (V_eq8 m c)
theorem V_eq10 (c : Dev nD) : GenP.V10 m (outs m) c = W10 m c := upd_eq (V_eq9 m c) ..
theorem V_eq11 (c : Dev nD) : GenP.V11 m (outs m) c = W11 m c := congrArg (StableHlo.after hostOps5) (V_eq10 m c)
theorem V_eq12 (c : Dev nD) : GenP.V12 m (outs m) c = W12 m c := upd_eq (V_eq11 m c) ..
theorem V_eq13 (c : Dev nD) : GenP.V13 m (outs m) c = W13 m c := upd_eq (V_eq12 m c) ..
theorem V_eq14 (c : Dev nD) : GenP.V14 m (outs m) c = W14 m c := congrArg (StableHlo.after hostOps7) (V_eq13 m c)
theorem V_eq15 (c : Dev nD) : GenP.V15 m (outs m) c = W15 m c := upd_eq (V_eq14 m c) ..
theorem V_eq16 (c : Dev nD) : GenP.V16 m (outs m) c = W16 m c := upd_eq (V_eq15 m c) ..
theorem V_eq17 (c : Dev nD) : GenP.V17 m (outs m) c = W17 m c := congrArg (StableHlo.after hostOps9) (V_eq16 m c)
theorem V_eq18 (c : Dev nD) : GenP.V18 m (outs m) c = W18 m c := upd_eq (V_eq17 m c) ..
theorem V_eq19 (c : Dev nD) : GenP.V19 m (outs m) c = W19 m c := congrArg (StableHlo.after hostOps10) (V_eq18 m c)
theorem V_eq20 (c : Dev nD) : GenP.V20 m (outs m) c = W20 m c := upd_eq (V_eq19 m c) ..
theorem V_eq21 (c : Dev nD) : GenP.V21 m (outs m) c = W21 m c := upd_eq (V_eq20 m c) ..
theorem V_eq22 (c : Dev nD) : GenP.V22 m (outs m) c = W22 m c := congrArg (StableHlo.after hostOps12) (V_eq21 m c)
theorem V_eq23 (c : Dev nD) : GenP.V23 m (outs m) c = W23 m c := upd_eq (V_eq22 m c) ..
theorem V_eq24 (c : Dev nD) : GenP.V24 m (outs m) c = W24 m c := upd_eq (V_eq23 m c) ..
theorem V_eq25 (c : Dev nD) : GenP.V25 m (outs m) c = W25 m c := congrArg (StableHlo.after hostOps14) (V_eq24 m c)
theorem V_eq26 (c : Dev nD) : GenP.V26 m (outs m) c = W26 m c := upd_eq (V_eq25 m c) ..
theorem V_eq27 (c : Dev nD) : GenP.V27 m (outs m) c = W27 m c := congrArg (StableHlo.after hostOps15) (V_eq26 m c)
theorem V_eq28 (c : Dev nD) : GenP.V28 m (outs m) c = W28 m c := upd_eq (V_eq27 m c) ..
theorem V_eq29 (c : Dev nD) : GenP.V29 m (outs m) c = W29 m c := upd_eq (V_eq28 m c) ..
theorem V_eq30 (c : Dev nD) : GenP.V30 m (outs m) c = W30 m c := congrArg (StableHlo.after hostOps17) (V_eq29 m c)
theorem V_eq31 (c : Dev nD) : GenP.V31 m (outs m) c = W31 m c := upd_eq (V_eq30 m c) ..
theorem V_eq32 (c : Dev nD) : GenP.V32 m (outs m) c = W32 m c := upd_eq (V_eq31 m c) ..
theorem V_eq33 (c : Dev nD) : GenP.V33 m (outs m) c = W33 m c := congrArg (StableHlo.after hostOps19) (V_eq32 m c)
theorem V_eq34 (c : Dev nD) : GenP.V34 m (outs m) c = W34 m c := upd_eq (V_eq33 m c) ..
theorem V_eq35 (c : Dev nD) : GenP.V35 m (outs m) c = W35 m c := congrArg (StableHlo.after hostOps20) (V_eq34 m c)

end Cert.Kernel.Hand

end
-- ==== Proof.K.ValueCond.lean ====
import proofs.«414074_j90701119357381_1_alg».proof.Proof.RegionsKernel

set_option maxRecDepth 1692

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in

theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 20) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 21 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE20 : ∀ c : Dev nD, E 20 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V17 m outs c) ∗ E 9 c) ⊢ R9.pre c)
    (hpost9 : ∀ c : Dev nD, R9.post c ⊢ iprop(StableHlo.held (c : Thread nD τ) (Pipeline.ucRefs τ sig) (V18 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V19 m outs c) ∗ E 10 c) ⊢ R10.pre c)
    (hpost10 : ∀ c : Dev nD, R10.post c ⊢ iprop(StableHlo.held (c : Thread nD τ) (Pipeline.ucRefs τ sig) (V20 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V20 m outs c) ∗ E 11 c) ⊢ R11.pre c)
    (hpost11 : ∀ c : Dev nD, R11.post c ⊢ iprop(StableHlo.held (c : Thread nD τ) (Pipeline.ucRefs τ sig) (V21 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V22 m outs c) ∗ E 12 c) ⊢ R12.pre c)
    (hpost12 : ∀ c : Dev nD, R12.post c ⊢ iprop(StableHlo.held (c : Thread nD τ) (Pipeline.ucRefs τ sig) (V23 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V23 m outs c) ∗ E 13 c) ⊢ R13.pre c)
    (hpost13 : ∀ c : Dev nD, R13.post c ⊢ iprop(StableHlo.held (c : Thread nD τ) (Pipeline.ucRefs τ sig) (V24 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V25 m outs c) ∗ E 14 c) ⊢ R14.pre c)
    (hpost14 : ∀ c : Dev nD, R14.post c ⊢ iprop(StableHlo.held (c : Thread nD τ) (Pipeline.ucRefs τ sig) (V26 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V27 m outs c) ∗ E 15 c) ⊢ R15.pre c)
    (hpost15 : ∀ c : Dev nD, R15.post c ⊢ iprop(StableHlo.held (c : Thread nD τ) (Pipeline.ucRefs τ sig) (V28 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V28 m outs c) ∗ E 16 c) ⊢ R16.pre c)
    (hpost16 : ∀ c : Dev nD, R16.post c ⊢ iprop(StableHlo.held (c : Thread nD τ) (Pipeline.ucRefs τ sig) (V29 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V30 m outs c) ∗ E 17 c) ⊢ R17.pre c)
    (hpost17 : ∀ c : Dev nD, R17.post c ⊢ iprop(StableHlo.held (c : Thread nD τ) (Pipeline.ucRefs τ sig) (V31 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V31 m outs c) ∗ E 18 c) ⊢ R18.pre c)
    (hpost18 : ∀ c : Dev nD, R18.post c ⊢ iprop(StableHlo.held (c : Thread nD τ) (Pipeline.ucRefs τ sig) (V32 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V33 m outs c) ∗ E 19 c) ⊢ R19.pre c)
    (hpost19 : ∀ c : Dev nD, R19.post c ⊢ iprop(StableHlo.held (c : Thread nD τ) (Pipeline.ucRefs τ sig) (V34 m outs c) ∗ E 20 c)) :
    θ_run defs (onTc (τ := τ) (main (F := F))) ⟨m, fun _ => 0, ρ⟩ (fun r => ∀ c : Dev nD,
      r.2.mem ((c.tc : Thread nD τ).loc main_v123) = V35 m outs c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19)
    (fun c Q => by
      rewrite [main_chain c, Seg.run_eq_chain,
        show (segs m outs 𝒱₀ L lv E ι pdats R0 R1 R2 R3 R4 R5 R6 R7 R8 R9 R10 R11 R12 R13 R14 R15 R16 R17 R18 R19 c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          Prog.lift (.customCall (Pipeline.entry 13) ()),
          StableHlo.seq hostOps14,
          Prog.lift (.customCall (Pipeline.entry 14) ()),
          StableHlo.seq hostOps15,
          Prog.lift (.customCall (Pipeline.entry 15) ()),
          Prog.lift (.customCall (Pipeline.entry 16) ()),
          StableHlo.seq hostOps17,
          Prog.lift (.customCall (Pipeline.entry 17) ()),
          Prog.lift (.customCall (Pipeline.entry 18) ()),
          StableHlo.seq hostOps19,
          Prog.lift (.customCall (Pipeline.entry 19) ()),
          StableHlo.seq hostOps20 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V35 m outs c))
    (hch := fun c => ⟨.rfl, .rfl, .rfl, hpre0 c, (hpost0 c).trans (hpre1 c), hpost1 c, hpre2 c, (hpost2 c).trans (hpre3 c), hpost3 c, hpre4 c, hpost4 c, hpre5 c, (hpost5 c).trans (hpre6 c), hpost6 c, hpre7 c, (hpost7 c).trans (hpre8 c), hpost8 c, hpre9 c, hpost9 c, hpre10 c, (hpost10 c).trans (hpre11 c), hpost11 c, hpre12 c, (hpost12 c).trans (hpre13 c), hpost13 c, hpre14 c, hpost14 c, hpre15 c, (hpost15 c).trans (hpre16 c), hpost16 c, hpre17 c, (hpost17 c).trans (hpre18 c), hpost18 c, hpre19 c, hpost19 c, sep_mono .rfl (hE20 c)⟩)
    (hinit := ?_) (QY := fun c s => s.mem ((c.tc : Thread nD τ).loc main_v123) = V35 m outs c main_v123 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V35 m outs c) s') $$ [Hh HSI]
    · isplitl [Hh] <;> iassumption
    icases Hr with ⟨%h, HSI⟩
    imodintro
    isplitr
    · ipureintro
      exact ⟨h (Proc.devRef .tc main_v123) (Finset.mem_filter.mpr ⟨StableHlo.devRef_mem_tcRefs main_v123, by decide⟩),
        (h (Proc.devRef .tc main_arg0) (Finset.mem_filter.mpr ⟨StableHlo.devRef_mem_tcRefs main_arg0, by decide⟩)).trans (V35_main_arg0 m outs c),
        (h (Proc.devRef .tc main_arg1) (Finset.mem_filter.mpr ⟨StableHlo.devRef_mem_tcRefs main_arg1, by decide⟩)).trans (V35_main_arg1 m outs c),
        (h (Proc.devRef .tc main_arg2) (Finset.mem_filter.mpr ⟨StableHlo.devRef_mem_tcRefs main_arg2, by decide⟩)).trans (V35_main_arg2 m outs c),
        (h (Proc.devRef .tc main_arg3) (Finset.mem_filter.mpr ⟨StableHlo.devRef_mem_tcRefs main_arg3, by decide⟩)).trans (V35_main_arg3 m outs c),
        (h (Proc.devRef .tc main_arg4) (Finset.mem_filter.mpr ⟨StableHlo.devRef_mem_tcRefs main_arg4, by decide⟩)).trans (V35_main_arg4 m outs c),
        (h (Proc.devRef .tc main_arg5) (Finset.mem_filter.mpr ⟨StableHlo.devRef_mem_tcRefs main_arg5, by decide⟩)).trans (V35_main_arg5 m outs c),
        (h (Proc.devRef .tc main_arg6) (Finset.mem_filter.mpr ⟨StableHlo.devRef_mem_tcRefs main_arg6, by decide⟩)).trans (V35_main_arg6 m outs c)⟩
    · iexact HSI

end Cert.Kernel.Hand

end
-- ==== Proof.K.Run.lean ====
import proofs.«414074_j90701119357381_1_alg».proof.Proof.K.Asm
import proofs.«414074_j90701119357381_1_alg».proof.Proof.K.ValueCond
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem core_rest (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄)
      ⊢ R c := by
  iintro ⟨-, HO, -, Hp, -⟩
  isplitl [Hp]; · iexists _; iexact Hp
  iexists ∅; iexact HO

theorem launch_rest :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv) : sProp 𝕄)
      ⊢ (|={Set.univ}=> bigSep Finset.univ (fun c : Dev nD => R c)) := by
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄)
      ⊢ bigSep Finset.univ (fun c : Dev nD => R c) :=
    bigSep_mono fun c _ => core_rest ρ c
  iintro ⟨H, -⟩
  imodintro
  ihave H' := hm $$ H
  iexact H'

set_option backward.isDefEq.respectTransparency.types false in

theorem run_value : θ_run defs (onTc (τ := τ) (main (F := F))) ⟨m, fun _ => 0, ρ⟩ (fun r => ∀ c : Dev nD,
      r.2.mem ((c.tc : Thread nD τ).loc main_v123) = W35 m c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := value_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := launch_rest (F := F) ρ)
    (hE20 := fun c => by
      iintro ⟨-, H⟩; iexact H)
    (reg0 m) (fun c => by rw [V_eq3 m c]; try exact .rfl) (fun c => by rw [V_eq4 m c]; try exact .rfl)
    (reg1 m) (fun c => by rw [V_eq4 m c]; try exact .rfl) (fun c => by rw [V_eq5 m c]; try exact .rfl)
    (reg2 m) (fun c => by rw [V_eq6 m c]; try exact .rfl) (fun c => by rw [V_eq7 m c]; try exact .rfl)
    (reg3 m) (fun c => by rw [V_eq7 m c]; try exact .rfl) (fun c => by rw [V_eq8 m c]; try exact .rfl)
    (reg4 m) (fun c => by rw [V_eq9 m c]; try exact .rfl) (fun c => by rw [V_eq10 m c]; try exact .rfl)
    (reg5 m) (fun c => by rw [V_eq11 m c]; try exact .rfl) (fun c => by rw [V_eq12 m c]; try exact .rfl)
    (reg6 m) (fun c => by rw [V_eq12 m c]; try exact .rfl) (fun c => by rw [V_eq13 m c]; try exact .rfl)
    (reg7 m) (fun c => by rw [V_eq14 m c]; try exact .rfl) (fun c => by rw [V_eq15 m c]; try exact .rfl)
    (reg8 m) (fun c => by rw [V_eq15 m c]; try exact .rfl) (fun c => by rw [V_eq16 m c]; try exact .rfl)
    (reg9 m) (fun c => by rw [V_eq17 m c]; try exact .rfl) (fun c => by rw [V_eq18 m c]; try exact .rfl)
    (reg10 m) (fun c => by rw [V_eq19 m c]; try exact .rfl) (fun c => by rw [V_eq20 m c]; try exact .rfl)
    (reg11 m) (fun c => by rw [V_eq20 m c]; try exact .rfl) (fun c => by rw [V_eq21 m c]; try exact .rfl)
    (reg12 m) (fun c => by rw [V_eq22 m c]; try exact .rfl) (fun c => by rw [V_eq23 m c]; try exact .rfl)
    (reg13 m) (fun c => by rw [V_eq23 m c]; try exact .rfl) (fun c => by rw [V_eq24 m c]; try exact .rfl)
    (reg14 m) (fun c => by rw [V_eq25 m c]; try exact .rfl) (fun c => by rw [V_eq26 m c]; try exact .rfl)
    (reg15 m) (fun c => by rw [V_eq27 m c]; try exact .rfl) (fun c => by rw [V_eq28 m c]; try exact .rfl)
    (reg16 m) (fun c => by rw [V_eq28 m c]; try exact .rfl) (fun c => by rw [V_eq29 m c]; try exact .rfl)
    (reg17 m) (fun c => by rw [V_eq30 m c]; try exact .rfl) (fun c => by rw [V_eq31 m c]; try exact .rfl)
    (reg18 m) (fun c => by rw [V_eq31 m c]; try exact .rfl) (fun c => by rw [V_eq32 m c]; try exact .rfl)
    (reg19 m) (fun c => by rw [V_eq33 m c]; try exact .rfl) (fun c => by rw [V_eq34 m c]; try exact .rfl)
  exact (θ_run defs _ _).mono (fun _ hr c => ⟨(hr c).1.trans (congrFun (V_eq35 m c) _), (hr c).2⟩) h

end Cert.Kernel.Hand

end
-- ==== Proof.RegionsKernelIdeal.lean ====
import proofs.«414074_j90701119357381_1_alg».proof.Proof.Gen.KernelIdeal.Launch
import Idealize.ShloMosaic.Lib.Pipeline.Frame
import Idealize.ShloMosaic.Lib.Pipeline.Regions

set_option maxRecDepth 1692

noncomputable section

namespace Cert.KernelIdeal.GenP
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

/-- A written reference that is in the list is in the list's image. -/
theorem sub_W {r : Ref sig .tc} {W : List (Ref sig .tc)} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map_of_mem h))

/-- Replacing buffer `b`'s contents leaves every other buffer's. -/
theorem upd_of (V : Valuation τ sig (Elt F)) {b r : Ref sig .tc} (x : (Proc.devRef (τ := τ) .tc b).ty.Contents (Elt F))
    (h : r ∉ ([b] : List (Ref sig .tc))) : Function.update V b x r = V r :=
  Function.update_of_ne (StableHlo.devRef_ne_of_ne (List.ne_of_not_mem_cons h)) _ _

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := Function.update (V3 m c) main_v53 (outs 4 main_v53 c)

abbrev V5 (c : Dev nD) : Valuation τ sig (Elt F) := Function.update (V4 m outs c) main_v54 (outs 5 main_v54 c)

abbrev V6 (c : Dev nD) : Valuation τ sig (Elt F) := StableHlo.after hostOps2 (V5 m outs c)

abbrev V7 (c : Dev nD) : Valuation τ sig (Elt F) := Function.update (V6 m outs c) main_v59 (outs 7 main_v59 c)

abbrev V8 (c : Dev nD) : Valuation τ sig (Elt F) := Function.update (V7 m outs c) main_v60 (outs 8 main_v60 c)

abbrev V9 (c : Dev nD) : Valuation τ sig (Elt F) := StableHlo.after hostOps4 (V8 m outs c)

abbrev V10 (c : Dev nD) : Valuation τ sig (Elt F) := Function.update (V9 m outs c) main_v65 (outs 10 main_v65 c)

abbrev V11 (c : Dev nD) : Valuation τ sig (Elt F) := StableHlo.after hostOps5 (V10 m outs c)

abbrev V12 (c : Dev nD) : Valuation τ sig (Elt F) := Function.update (V11 m outs c) main_v70 (outs 12 main_v70 c)

abbrev V13 (c : Dev nD) : Valuation τ sig (Elt F) := Function.update (V12 m outs c) main_v71 (outs 13 main_v71 c)

abbrev V14 (c : Dev nD) : Valuation τ sig (Elt F) := StableHlo.after hostOps7 (V13 m outs c)

abbrev V15 (c : Dev nD) : Valuation τ sig (Elt F) := Function.update (V14 m outs c) main_v76 (outs 15 main_v76 c)

abbrev V16 (c : Dev nD) : Valuation τ sig (Elt F) := Function.update (V15 m outs c) main_v77 (outs 16 main_v77 c)

abbrev V17 (c : Dev nD) : Valuation τ sig (Elt F) := StableHlo.after hostOps9 (V16 m outs c)

abbrev V18 (c : Dev nD) : Valuation τ sig (Elt F) := Function.update (V17 m outs c) main_v82 (outs 18 main_v82 c)

abbrev V19 (c : Dev nD) : Valuation τ sig (Elt F) := StableHlo.after hostOps10 (V18 m outs c)

abbrev V20 (c : Dev nD) : Valuation τ sig (Elt F) := Function.update (V19 m outs c) main_v91 (outs 20 main_v91 c)

abbrev V21 (c : Dev nD) : Valuation τ sig (Elt F) := Function.update (V20 m outs c) main_v92 (outs 21 main_v92 c)

abbrev V22 (c : Dev nD) : Valuation τ sig (Elt F) := StableHlo.after hostOps12 (V21 m outs c)

abbrev V23 (c : Dev nD) : Valuation τ sig (Elt F) := Function.update (V22 m outs c) main_v97 (outs 23 main_v97 c)

abbrev V24 (c : Dev nD) : Valuation τ sig (Elt F) := Function.update (V23 m outs c) main_v98 (outs 24 main_v98 c)

abbrev V25 (c : Dev nD) : Valuation τ sig (Elt F) := StableHlo.after hostOps14 (V24 m outs c)

abbrev V26 (c : Dev nD) : Valuation τ sig (Elt F) := Function.update (V25 m outs c) main_v103 (outs 26 main_v103 c)

abbrev V27 (c : Dev nD) : Valuation τ sig (Elt F) := StableHlo.after hostOps15 (V26 m outs c)

abbrev V28 (c : Dev nD) : Valuation τ sig (Elt F) := Function.update (V27 m outs c) main_v108 (outs 28 main_v108 c)

abbrev V29 (c : Dev nD) : Valuation τ sig (Elt F) := Function.update (V28 m outs c) main_v109 (outs 29 main_v109 c)

abbrev V30 (c : Dev nD) : Valuation τ sig (Elt F) := StableHlo.after hostOps17 (V29 m outs c)

abbrev V31 (c : Dev nD) : Valuation τ sig (Elt F) := Function.update (V30 m outs c) main_v114 (outs 31 main_v114 c)

abbrev V32 (c : Dev nD) : Valuation τ sig (Elt F) := Function.update (V31 m outs c) main_v115 (outs 32 main_v115 c)

abbrev V33 (c : Dev nD) : Valuation τ sig (Elt F) := StableHlo.after hostOps19 (V32 m outs c)

abbrev V34 (c : Dev nD) : Valuation τ sig (Elt F) := Function.update (V33 m outs c) main_v120 (outs 34 main_v120 c)

abbrev V35 (c : Dev nD) : Valuation τ sig (Elt F) := StableHlo.after hostOps20 (V34 m outs c)

theorem hostOps0_fresh : (hostOps0 : List (HloOp τ sig (Elt F))).Forall fun op => op.fresh = ∅ := by simp only [List.Forall]; repeat' constructor

abbrev hostOps0_W : List (Ref sig .tc) := [main_v0, main_v1, main_v2, main_v3, main_v4, main_v5, main_cst, main_v6, main_c, main_v7, main_v8, main_c_0, main_v9, main_v10, main_v11, main_c_1, main_v12, main_v13, main_c_2, main_v14, main_v15, main_v16, main_v17, main_v18, main_v19, main_v20, main_v21, main_v22, main_v23, main_v24, main_v25, main_v26, main_v27, main_cst_3, main_v28, main_c_4, main_v29, main_v30, main_c_5, main_v31, main_v32, main_v33, main_c_6, main_v34, main_v35, main_c_7, main_v36, main_v37, main_v38, main_v39, main_v40, main_v41, main_v42, main_v43, main_v44, main_c_8]
theorem hostOps0_writes : (hostOps0 : List (HloOp τ sig (Elt F))).Forall fun op => op.writes ⊆ (hostOps0_W.map (Proc.devRef (τ := τ) .tc)).toFinset := by
  simp only [List.Forall]; repeat' apply And.intro
  all_goals exact sub_W (by decide)
theorem hostOps0_1_fresh : (hostOps0_1 : List (HloOp τ sig (Elt F))).Forall fun op => op.fresh = ∅ := by simp only [List.Forall]; repeat' constructor

abbrev hostOps0_1_W : List (Ref sig .tc) := [main_call0_v0, main_v45]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact sub_W (by decide)
theorem hostOps0_2_fresh : (hostOps0_2 : List (HloOp τ sig (Elt F))).Forall fun op => op.fresh = ∅ := by simp only [List.Forall]; repeat' constructor

abbrev hostOps0_2_W : List (Ref sig .tc) := [main_v46, main_v47, main_v48, main_v49, main_v50, main_v51, main_v52, main_v53]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact sub_W (by decide)
theorem hostOps2_fresh : (hostOps2 : List (HloOp τ sig (Elt F))).Forall fun op => op.fresh = ∅ := by simp only [List.Forall]; repeat' constructor

abbrev hostOps2_W : List (Ref sig .tc) := [main_v55, main_v56, main_v57, main_v58, main_v59]
theorem hostOps2_writes : (hostOps2 : List (HloOp τ sig (Elt F))).Forall fun op => op.writes ⊆ (hostOps2_W.map (Proc.devRef (τ := τ) .tc)).toFinset := by
  simp only [List.Forall]; repeat' apply And.intro
  all_goals exact sub_W (by decide)
theorem hostOps4_fresh : (hostOps4 : List (HloOp τ sig (Elt F))).Forall fun op => op.fresh = ∅ := by simp only [List.Forall]; repeat' constructor

abbrev hostOps4_W : List (Ref sig .tc) := [main_v61, main_v62, main_v63, main_v64, main_v65]
theorem hostOps4_writes : (hostOps4 : List (HloOp τ sig (Elt F))).Forall fun op => op.writes ⊆ (hostOps4_W.map (Proc.devRef (τ := τ) .tc)).toFinset := by
  simp only [List.Forall]; repeat' apply And.intro
  all_goals exact sub_W (by decide)
theorem hostOps5_fresh : (hostOps5 : List (HloOp τ sig (Elt F))).Forall fun op => op.fresh = ∅ := by simp only [List.Forall]; repeat' constructor

abbrev hostOps5_W : List (Ref sig .tc) := [main_v66, main_v67, main_v68, main_v69, main_v70]
theorem hostOps5_writes : (hostOps5 : List (HloOp τ sig (Elt F))).Forall fun op => op.writes ⊆ (hostOps5_W.map (Proc.devRef (τ := τ) .tc)).toFinset := by
  simp only [List.Forall]; repeat' apply And.intro
  all_goals exact sub_W (by decide)
theorem hostOps7_fresh : (hostOps7 : List (HloOp τ sig (Elt F))).Forall fun op => op.fresh = ∅ := by simp only [List.Forall]; repeat' constructor

abbrev hostOps7_W : List (Ref sig .tc) := [main_v72, main_v73, main_v74, main_v75, main_v76]
theorem hostOps7_writes : (hostOps7 : List (HloOp τ sig (Elt F))).Forall fun op => op.writes ⊆ (hostOps7_W.map (Proc.devRef (τ := τ) .tc)).toFinset := by
  simp only [List.Forall]; repeat' apply And.intro
  all_goals exact sub_W (by decide)
theorem hostOps9_fresh : (hostOps9 : List (HloOp τ sig (Elt F))).Forall fun op => op.fresh = ∅ := by simp only [List.Forall]; repeat' constructor

abbrev hostOps9_W : List (Ref sig .tc) := [main_v78, main_v79, main_v80, main_v81, main_v82]
theorem hostOps9_writes : (hostOps9 : List (HloOp τ sig (Elt F))).Forall fun op => op.writes ⊆ (hostOps9_W.map (Proc.devRef (τ := τ) .tc)).toFinset := by
  simp only [List.Forall]; repeat' apply And.intro
  all_goals exact sub_W (by decide)
theorem hostOps10_fresh : (hostOps10 : List (HloOp τ sig (Elt F))).Forall fun op => op.fresh = ∅ := by simp only [List.Forall]; repeat' constructor

abbrev hostOps10_W : List (Ref sig .tc) := [main_v83, main_v84, main_v85, main_v86, main_v87, main_v88, main_v89, main_v90, main_v91]
theorem hostOps10_writes : (hostOps10 : List (HloOp τ sig (Elt F))).Forall fun op => op.writes ⊆ (hostOps10_W.map (Proc.devRef (τ := τ) .tc)).toFinset := by
  simp only [List.Forall]; repeat' apply And.intro
  all_goals exact sub_W (by decide)
theorem hostOps12_fresh : (hostOps12 : List (HloOp τ sig (Elt F))).Forall fun op => op.fresh = ∅ := by simp only [List.Forall]; repeat' constructor

abbrev hostOps12_W : List (Ref sig .tc) := [main_v93, main_v94, main_v95, main_v96, main_v97]
theorem hostOps12_writes : (hostOps12 : List (HloOp τ sig (Elt F))).Forall fun op => op.writes ⊆ (hostOps12_W.map (Proc.devRef (τ := τ) .tc)).toFinset := by
  simp only [List.Forall]; repeat' apply And.intro
  all_goals exact sub_W (by decide)
theorem hostOps14_fresh : (hostOps14 : List (HloOp τ sig (Elt F))).Forall fun op => op.fresh = ∅ := by simp only [List.Forall]; repeat' constructor

abbrev hostOps14_W : List (Ref sig .tc) := [main_v99, main_v100, main_v101, main_v102, main_v103]
theorem hostOps14_writes : (hostOps14 : List (HloOp τ sig (Elt F))).Forall fun op => op.writes ⊆ (hostOps14_W.map (Proc.devRef (τ := τ) .tc)).toFinset := by
  simp only [List.Forall]; repeat' apply And.intro
  all_goals exact sub_W (by decide)
theorem hostOps15_fresh : (hostOps15 : List (HloOp τ sig (Elt F))).Forall fun op => op.fresh = ∅ := by simp only [List.Forall]; repeat' constructor

abbrev hostOps15_W : List (Ref sig .tc) := [main_v104, main_v105, main_v106, main_v107, main_v108]
theorem hostOps15_writes : (hostOps15 : List (HloOp τ sig (Elt F))).Forall fun op => op.writes ⊆ (hostOps15_W.map (Proc.devRef (τ := τ) .tc)).toFinset := by
  simp only [List.Forall]; repeat' apply And.intro
  all_goals exact sub_W (by decide)
theorem hostOps17_fresh : (hostOps17 : List (HloOp τ sig (Elt F))).Forall fun op => op.fresh = ∅ := by simp only [List.Forall]; repeat' constructor

abbrev hostOps17_W : List (Ref sig .tc) := [main_v110, main_v111, main_v112, main_v113, main_v114]
theorem hostOps17_writes : (hostOps17 : List (HloOp τ sig (Elt F))).Forall fun op => op.writes ⊆ (hostOps17_W.map (Proc.devRef (τ := τ) .tc)).toFinset := by
  simp only [List.Forall]; repeat' apply And.intro
  all_goals exact sub_W (by decide)
theorem hostOps19_fresh : (hostOps19 : List (HloOp τ sig (Elt F))).Forall fun op => op.fresh = ∅ := by simp only [List.Forall]; repeat' constructor

abbrev hostOps19_W : List (Ref sig .tc) := [main_v116, main_v117, main_v118, main_v119, main_v120]
theorem hostOps19_writes : (hostOps19 : List (HloOp τ sig (Elt F))).Forall fun op => op.writes ⊆ (hostOps19_W.map (Proc.devRef (τ := τ) .tc)).toFinset := by
  simp only [List.Forall]; repeat' apply And.intro
  all_goals exact sub_W (by decide)
theorem hostOps20_fresh : (hostOps20 : List (HloOp τ sig (Elt F))).Forall fun op => op.fresh = ∅ := by simp only [List.Forall]; repeat' constructor

abbrev hostOps20_W : List (Ref sig .tc) := [main_v121, main_v122, main_v123]
theorem hostOps20_writes : (hostOps20 : List (HloOp τ sig (Elt F))).Forall fun op => op.writes ⊆ (hostOps20_W.map (Proc.devRef (τ := τ) .tc)).toFinset := by
  simp only [List.Forall]; repeat' apply And.intro
  all_goals exact sub_W (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ ([main_v53] : List (Ref sig .tc))) : V4 m outs c r = V3 m c r := upd_of _ _ h
theorem V5_of (c : Dev nD) (r : Ref sig .tc) (h : r ∉ ([main_v54] : List (Ref sig .tc))) : V5 m outs c r = V4 m outs c r := upd_of _ _ h
theorem V6_of (c : Dev nD) (r : Ref sig .tc) (h : r ∉ hostOps2_W) : V6 m outs c r = V5 m outs c r :=
  StableHlo.after_of_writes_sub hostOps2 _ hostOps2_writes h
theorem V7_of (c : Dev nD) (r : Ref sig .tc) (h : r ∉ ([main_v59] : List (Ref sig .tc))) : V7 m outs c r = V6 m outs c r := upd_of _ _ h
theorem V8_of (c : Dev nD) (r : Ref sig .tc) (h : r ∉ ([main_v60] : List (Ref sig .tc))) : V8 m outs c r = V7 m outs c r := upd_of _ _ h
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v65] : List (Ref sig .tc))) : V10 m outs c r = V9 m outs c r := upd_of _ _ h
theorem V11_of (c : Dev nD) (r : Ref sig .tc) (h : r ∉ hostOps5_W) : V11 m outs c r = V10 m outs c r :=
  StableHlo.after_of_writes_sub hostOps5 _ hostOps5_writes h
theorem V12_of (c : Dev nD) (r : Ref sig .tc) (h : r ∉ ([main_v70] : List (Ref sig .tc))) : V12 m outs c r = V11 m outs c r := upd_of _ _ h
theorem V13_of (c : Dev nD) (r : Ref sig .tc) (h : r ∉ ([main_v71] : List (Ref sig .tc))) : V13 m outs c r = V12 m outs c r := upd_of _ _ h
theorem V14_of (c : Dev nD) (r : Ref sig .tc) (h : r ∉ hostOps7_W) : V14 m outs c r = V13 m outs c r :=
  StableHlo.after_of_writes_sub hostOps7 _ hostOps7_writes h
theorem V15_of (c : Dev nD) (r : Ref sig .tc) (h : r ∉ ([main_v76] : List (Ref sig .tc))) : V15 m outs c r = V14 m outs c r := upd_of _ _ h
theorem V16_of (c : Dev nD) (r : Ref sig .tc) (h : r ∉ ([main_v77] : List (Ref sig .tc))) : V16 m outs c r = V15 m outs c r := upd_of _ _ h
theorem V17_of (c : Dev nD) (r : Ref sig .tc) (h : r ∉ hostOps9_W) : V17 m outs c r = V16 m outs c r :=
  StableHlo.after_of_writes_sub hostOps9 _ hostOps9_writes h
theorem V18_of (c : Dev nD) (r : Ref sig .tc) (h : r ∉ ([main_v82] : List (Ref sig .tc))) : V18 m outs c r = V17 m outs c r := upd_of _ _ h
theorem V19_of (c : Dev nD) (r : Ref sig .tc) (h : r ∉ hostOps10_W) : V19 m outs c r = V18 m outs c r :=
  StableHlo.after_of_writes_sub hostOps10 _ hostOps10_writes h
theorem V20_of (c : Dev nD) (r : Ref sig .tc) (h : r ∉ ([main_v91] : List (Ref sig .tc))) : V20 m outs c r = V19 m outs c r := upd_of _ _ h
theorem V21_of (c : Dev nD) (r : Ref sig .tc) (h : r ∉ ([main_v92] : List (Ref sig .tc))) : V21 m outs c r = V20 m outs c r := upd_of _ _ h
theorem V22_of (c : Dev nD) (r : Ref sig .tc) (h : r ∉ hostOps12_W) : V22 m outs c r = V21 m outs c r :=
  StableHlo.after_of_writes_sub hostOps12 _ hostOps12_writes h
theorem V23_of (c : Dev nD) (r : Ref sig .tc) (h : r ∉ ([main_v97] : List (Ref sig .tc))) : V23 m outs c r = V22 m outs c r := upd_of _ _ h
theorem V24_of (c : Dev nD) (r : Ref sig .tc) (h : r ∉ ([main_v98] : List (Ref sig .tc))) : V24 m outs c r = V23 m outs c r := upd_of _ _ h
theorem V25_of (c : Dev nD) (r : Ref sig .tc) (h : r ∉ hostOps14_W) : V25 m outs c r = V24 m outs c r :=
  StableHlo.after_of_writes_sub hostOps14 _ hostOps14_writes h
theorem V26_of (c : Dev nD) (r : Ref sig .tc) (h : r ∉ ([main_v103] : List (Ref sig .tc))) : V26 m outs c r = V25 m outs c r := upd_of _ _ h
theorem V27_of (c : Dev nD) (r : Ref sig .tc) (h : r ∉ hostOps15_W) : V27 m outs c r = V26 m outs c r :=
  StableHlo.after_of_writes_sub hostOps15 _ hostOps15_writes h
theorem V28_of (c : Dev nD) (r : Ref sig .tc) (h : r ∉ ([main_v108] : List (Ref sig .tc))) : V28 m outs c r = V27 m outs c r := upd_of _ _ h
theorem V29_of (c : Dev nD) (r : Ref sig .tc) (h : r ∉ ([main_v109] : List (Ref sig .tc))) : V29 m outs c r = V28 m outs c r := upd_of _ _ h
theorem V30_of (c : Dev nD) (r : Ref sig .tc) (h : r ∉ hostOps17_W) : V30 m outs c r = V29 m outs c r :=
  StableHlo.after_of_writes_sub hostOps17 _ hostOps17_writes h
theorem V31_of (c : Dev nD) (r : Ref sig .tc) (h : r ∉ ([main_v114] : List (Ref sig .tc))) : V31 m outs c r = V30 m outs c r := upd_of _ _ h
theorem V32_of (c : Dev nD) (r : Ref sig .tc) (h : r ∉ ([main_v115] : List (Ref sig .tc))) : V32 m outs c r = V31 m outs c r := upd_of _ _ h
theorem V33_of (c : Dev nD) (r : Ref sig .tc) (h : r ∉ hostOps19_W) : V33 m outs c r = V32 m outs c r :=
  StableHlo.after_of_writes_sub hostOps19 _ hostOps19_writes h
theorem V34_of (c : Dev nD) (r : Ref sig .tc) (h : r ∉ ([main_v120] : List (Ref sig .tc))) : V34 m outs c r = V33 m outs c r := upd_of _ _ h
theorem V35_of (c : Dev nD) (r : Ref sig .tc) (h : r ∉ hostOps20_W) : V35 m outs c r = V34 m outs c r :=
  StableHlo.after_of_writes_sub hostOps20 _ hostOps20_writes h

/-- States that agree off `W₁`, then off `W₂`, agree off both lists. -/
theorem off_trans {V₀ V₁ V₂ : Valuation τ sig (Elt F)} {W₁ W₂ : List (Ref sig .tc)}
    (h₁ : ∀ r : Ref sig .tc, r ∉ W₁ → V₁ r = V₀ r) (h₂ : ∀ r : Ref sig .tc, r ∉ W₂ → V₂ r = V₁ r) (r : Ref sig .tc) (h : r ∉ W₁ ++ W₂) :
    V₂ r = V₀ r :=
  (h₂ r fun hm => h (List.mem_append_right _ hm)).trans (h₁ r fun hm => h (List.mem_append_left _ hm))

/-- A reference no item writes holds at the end what it held at launch. -/
theorem V35_off (c : Dev nD) : ∀ r : Ref sig .tc, r ∉ hostOps0_W ++ hostOps0_1_W ++ hostOps0_2_W ++ [main_v53] ++ [main_v54] ++ hostOps2_W ++ [main_v59] ++ [main_v60] ++ hostOps4_W ++ [main_v65] ++ hostOps5_W ++ [main_v70] ++ [main_v71] ++ hostOps7_W ++ [main_v76] ++ [main_v77] ++ hostOps9_W ++ [main_v82] ++ hostOps10_W ++ [main_v91] ++ [main_v92] ++ hostOps12_W ++ [main_v97] ++ [main_v98] ++ hostOps14_W ++ [main_v103] ++ hostOps15_W ++ [main_v108] ++ [main_v109] ++ hostOps17_W ++ [main_v114] ++ [main_v115] ++ hostOps19_W ++ [main_v120] ++ hostOps20_W →
    V35 m outs c r = V0 m c r :=
  off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (off_trans (V1_of m c) (V2_of m c)) (V3_of m c)) (V4_of m outs c)) (V5_of m outs c)) (V6_of m outs c)) (V7_of m outs c)) (V8_of m outs c)) (V9_of m outs c)) (V10_of m outs c)) (V11_of m outs c)) (V12_of m outs c)) (V13_of m outs c)) (V14_of m outs c)) (V15_of m outs c)) (V16_of m outs c)) (V17_of m outs c)) (V18_of m outs c)) (V19_of m outs c)) (V20_of m outs c)) (V21_of m outs c)) (V22_of m outs c)) (V23_of m outs c)) (V24_of m outs c)) (V25_of m outs c)) (V26_of m outs c)) (V27_of m outs c)) (V28_of m outs c)) (V29_of m outs c)) (V30_of m outs c)) (V31_of m outs c)) (V32_of m outs c)) (V33_of m outs c)) (V34_of m outs c)) (V35_of m outs c)

theorem V35_main_arg0 (c : Dev nD) : V35 m outs c main_arg0 = m ((c : Thread nD τ).loc main_arg0) := V35_off m outs c main_arg0 (by decide)
theorem V35_main_arg1 (c : Dev nD) : V35 m outs c main_arg1 = m ((c : Thread nD τ).loc main_arg1) := V35_off m outs c main_arg1 (by decide)
theorem V35_main_arg2 (c : Dev nD) : V35 m outs c main_arg2 = m ((c : Thread nD τ).loc main_arg2) := V35_off m outs c main_arg2 (by decide)
theorem V35_main_arg3 (c : Dev nD) : V35 m outs c main_arg3 = m ((c : Thread nD τ).loc main_arg3) := V35_off m outs c main_arg3 (by decide)
theorem V35_main_arg4 (c : Dev nD) : V35 m outs c main_arg4 = m ((c : Thread nD τ).loc main_arg4) := V35_off m outs c main_arg4 (by decide)
theorem V35_main_arg5 (c : Dev nD) : V35 m outs c main_arg5 = m ((c : Thread nD τ).loc main_arg5) := V35_off m outs c main_arg5 (by decide)
theorem V35_main_arg6 (c : Dev nD) : V35 m outs c main_arg6 = m ((c : Thread nD τ).loc main_arg6) := V35_off m outs c main_arg6 (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 21 → Dev nD → sProp (MT nD τ sig Ix (Elt F) ℕ U Lvl))

/-- A host stretch over the unscoped buffers, entered with the buffers at `V` beside `T`. -/
def hostSeg (ops : List (HloOp τ sig (Elt F))) (hs : ops.Forall fun op => op.bufs ⊆ StableHlo.tcRefs τ sig)
    (hf : ops.Forall fun op => op.fresh = ∅) (V : Dev nD → Valuation τ sig (Elt F)) (T : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op (List.forall_iff_forall_mem.mp hs op h)) (List.forall_iff_forall_mem.mp hf) V T

def seg0 := hostSeg 𝒱₀ L lv hostOps0 hostOps0_sub hostOps0_fresh (V0 m) (E 0)
def seg1 := hostSeg 𝒱₀ L lv hostOps0_1 hostOps0_1_sub hostOps0_1_fresh (V1 m) (E 0)
def seg2 := hostSeg 𝒱₀ L lv hostOps0_2 hostOps0_2_sub hostOps0_2_fresh (V2 m) (E 0)
def seg5 := hostSeg 𝒱₀ L lv hostOps2 hostOps2_sub hostOps2_fresh (V5 m outs) (E 2)
def seg8 := hostSeg 𝒱₀ L lv hostOps4 hostOps4_sub hostOps4_fresh (V8 m outs) (E 4)
def seg10 := hostSeg 𝒱₀ L lv hostOps5 hostOps5_sub hostOps5_fresh (V10 m outs) (E 5)
def seg13 := hostSeg 𝒱₀ L lv hostOps7 hostOps7_sub hostOps7_fresh (V13 m outs) (E 7)
def seg16 := hostSeg 𝒱₀ L lv hostOps9 hostOps9_sub hostOps9_fresh (V16 m outs) (E 9)
def seg18 := hostSeg 𝒱₀ L lv hostOps10 hostOps10_sub hostOps10_fresh (V18 m outs) (E 10)
def seg21 := hostSeg 𝒱₀ L lv hostOps12 hostOps12_sub hostOps12_fresh (V21 m outs) (E 12)
def seg24 := hostSeg 𝒱₀ L lv hostOps14 hostOps14_sub hostOps14_fresh (V24 m outs) (E 14)
def seg26 := hostSeg 𝒱₀ L lv hostOps15 hostOps15_sub hostOps15_fresh (V26 m outs) (E 15)
def seg29 := hostSeg 𝒱₀ L lv hostOps17 hostOps17_sub hostOps17_fresh (V29 m outs) (E 17)
def seg32 := hostSeg 𝒱₀ L lv hostOps19 hostOps19_sub hostOps19_fresh (V32 m outs) (E 19)
def seg34 := hostSeg 𝒱₀ L lv hostOps20 hostOps20_sub hostOps20_fresh (V34 m outs) (E 20)
end Segs

section

variable {Ix : Type} [DecidableEq Ix] {U : Type} [URA U] {Lvl : Type} [Preorder Lvl]

abbrev adm : (p : Fin 20) → (pcfgs (F := F) p).Adm := fun p => (cfgs p).toPCfg_adm

abbrev segs (𝒱₀ : Variants) (L : GSem nD τ sig → Finset Ix) (lv : GSem nD τ sig → Ix → Lvl) (E : Fin 21 → Dev nD → sProp (MT nD τ sig Ix (Elt F) ℕ U Lvl)) (ι : Ix)
    (pdats : (p : Fin 20) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (R18 : RegionSeg (pcfgs (F := F)) adm pdats ι defs₀ 𝒱₀ L lv 18) (R19 : RegionSeg (pcfgs (F := F)) adm pdats ι defs₀ 𝒱₀ L lv 19) (c : Dev nD) :
    List (Seg (pcfgs (F := F)) adm pdats ι defs₀ 𝒱₀ L lv) :=
  [.host (seg0 m 𝒱₀ L lv E), .host (seg1 m 𝒱₀ L lv E), .host (seg2 m 𝒱₀ L lv E), .region R0, .region R1, .host (seg5 m outs 𝒱₀ L lv E), .region R2, .region R3, .host (seg8 m outs 𝒱₀ L lv E), .region R4, .host (seg10 m outs 𝒱₀ L lv E), .region R5, .region R6, .host (seg13 m outs 𝒱₀ L lv E), .region R7, .region R8, .host (seg16 m outs 𝒱₀ L lv E), .region R9, .host (seg18 m outs 𝒱₀ L lv E), .region R10, .region R11, .host (seg21 m outs 𝒱₀ L lv E), .region R12, .region R13, .host (seg24 m outs 𝒱₀ L lv E), .region R14, .host (seg26 m outs 𝒱₀ L lv E), .region R15, .region R16, .host (seg29 m outs 𝒱₀ L lv E), .region R17, .region R18, .host (seg32 m outs 𝒱₀ L lv E), .region R19, .host (seg34 m outs 𝒱₀ L lv E)]

end

end Cert.KernelIdeal.GenP

end
-- ==== Proof.KI.Acc0Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after point `t`: the first two blocks' product added to zero, plus the third block. -/
noncomputable def out0 (c : Dev nD) (t : Fin cfg0.N) : Vec F S8192x128 .f32 :=
  k0_pay3 (k0_pay2 (k0_pay1 (F := F)) (iblk0 V c 0 t) (iblk0 V c 1 t)) (iblk0 V c 2 t)

/-- The accumulator is reset at every point, so the invariant keeps nothing of it. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

theorem A_eq0 (c : Dev nD) (w : Fin cfg0.W) : (dat0 V c).A w = V c (Pipeline.arrRef spec0 w) := rfl

end Cert.KernelIdeal.Hand

end
-- ==== Proof.KI.AccRun0.lean ====
import proofs.«414074_j90701119357381_1_alg».proof.Proof.Gen.KernelIdeal.Skeleton
import proofs.«414074_j90701119357381_1_alg».proof.Proof.WholeShape
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Whole

variable {F : FTy → Type} [FloatOps F]

local notation "𝕄" => MT nD τ sig Unit (Elt F) ℕ (UR sig nD τ) ℕ

set_option maxHeartbeats 1000000 in
/-- The body on whole buffers, both branches taken: the accumulator ends at the product added to zero, the output at that plus the summand. -/
theorem kernelRun0 (c : Dev nD) (i : grid0.Coords)
    (arg2 : Memref sig .tc .vmem S8192x64 .bf16) (harg2 : arg2.IsWhole)
    (arg3 : Memref sig .tc .vmem S64x128 .bf16) (harg3 : arg3.IsWhole)
    (arg4 : Memref sig .tc .vmem S8192x128 .f32) (harg4 : arg4.IsWhole)
    (arg5 : Memref sig .tc .vmem S8192x128 .f32) (harg5 : arg5.IsWhole)
    (arg6 : Memref sig .tc .vmem S8192x128 .f32) (harg6 : arg6.IsWhole)
    (hc : k0_cond2 i = 1#1)
    (x_a : Vec F S8192x64 .bf16) (x_b : Vec F S64x128 .bf16) (x_c : Vec F S8192x128 .f32)
    (E : Set ℕ) (K : PUnit → sProp 𝕄) :
    iprop(owns (c : Thread nD τ) arg2 fullShare x_a ∗ owns (c : Thread nD τ) arg3 fullShare x_b
        ∗ owns (c : Thread nD τ) arg4 fullShare x_c ∗ (∃ d, owns (c : Thread nD τ) arg5 fullShare d)
        ∗ (∃ d, owns (c : Thread nD τ) arg6 fullShare d)
        ∗ (iprop(owns (c : Thread nD τ) arg2 fullShare x_a ∗ owns (c : Thread nD τ) arg3 fullShare x_b
            ∗ owns (c : Thread nD τ) arg4 fullShare x_c
            ∗ owns (c : Thread nD τ) arg5 fullShare (k0_pay3 (k0_pay2 (k0_pay1 (F := F)) x_a x_b) x_c)
            ∗ owns (c : Thread nD τ) arg6 fullShare (k0_pay2 (k0_pay1 (F := F)) x_a x_b)) -∗ K ⟨⟩))
      ⊢ wp frame (wpE (defs₀ (F := F)) Variants.none c none) E
          (cc0__matmul_acc_kernel i arg2 harg2 arg3 harg3 arg4 harg4 arg5 harg5 arg6 harg6) K := by
  simp only [cc0__matmul_acc_kernel_eq_skeleton]; unfold cc0__matmul_acc_kernel_skel
  unfold owns
  iintro ⟨⟨%f_a, %hf_a, HA⟩, ⟨%f_b, %hf_b, HB⟩, ⟨%f_c, %hf_c, HC⟩, ⟨%d_o, %f_o, -, HO⟩, ⟨%d_s, %f_s, -, HS⟩, Hk⟩
  obtain rfl := harg2.eq_unread hf_a; obtain rfl := harg3.eq_unread hf_b; obtain rfl := harg4.eq_unread hf_c
  sl_exec (disch := exact hc)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  isplitl [HO]
  · iexists _; isplitr
    swap; · iexact HO
    ipureintro
    rw [View.read_writes_eq_canon _ _ _ (cover_unit_zero hz2 _ _ _), View.canon_unit_zero hz2]
    sl_unfold_run_names
    simp only [readCov_cons_unit_zero (S := S8192x128) _ hz2, View.readCov_unit_zero (S := S8192x128) _ hz2, View.readAt_eq_ld, harg2.read_unread,
      harg3.read_unread, harg4.read_unread, View.ld_unit_zero (S := S8192x64) hz2, View.ld_unit_zero (S := S64x128) hz2,
      View.ld_unit_zero (S := S8192x128) hz2]
  · iexists _; isplitr
    swap; · iexact HS
    ipureintro
    sl_unfold_run_names
    rw [View.read_writes_eq_canon _ _ _ (cover_unit_zero hz2 _ _ _), View.canon_cons_unit_zero hz2]
    simp only [View.readCov_unit_zero (S := S8192x128) _ hz2, View.readAt_eq_ld, harg2.read_unread,
      harg3.read_unread, View.ld_unit_zero (S := S8192x64) hz2, View.ld_unit_zero (S := S64x128) hz2]

end Cert.KernelIdeal.Hand

end
-- ==== Proof.KI.Acc0.lean ====
import proofs.«414074_j90701119357381_1_alg».proof.Proof.KI.Acc0Def
import proofs.«414074_j90701119357381_1_alg».proof.Proof.KI.AccRun0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live0 : ∀ t : Fin cfg0.N, idle0 3 (grid0.coords t) = false := by decide +kernel

theorem hcond0 : ∀ t : Fin cfg0.N, k0_cond2 (grid0.coords t) = 1#1 := by decide +kernel

theorem before0 (c : Dev nD) (t : Fin cfg0.N) :
    (∀ d, (dat0 V c).before 0 t d = iblk0 V c 0 t) ∧ (∀ d, (dat0 V c).before 1 t d = iblk0 V c 1 t)
      ∧ ∀ d, (dat0 V c).before 2 t d = iblk0 V c 2 t := by
  refine ⟨fun d => ?_, fun d => ?_, fun d => ?_⟩ <;>
    exact ((dat0 V c).before_in_eq_fetched _ rfl (fun _ => rfl) (fun _ _ _ => rfl) (fun _ => rfl) t d).trans rfl

/-- The invariant with the accumulator's buffer split off the other scoped buffers. -/
theorem PhiEq0 (c : Dev nD) : ∃ R : sProp 𝕄, ∀ n, (dat0 V c).Φ n
    = iprop(iprop((∃ d, owns (c : Thread nD τ) (Memref.whole cc0_scratch0) fullShare d) ∗ R) ∗ (∃ r, prngReg c r)) :=
  ⟨_, fun _ => by
    show Pipeline.ΦA spec0 c = _
    unfold Pipeline.ΦA; rw [scopedRest0_split]; simp only [owns_whole]; rfl⟩

theorem body_obligation0 (c : Dev nD) : BodyObligation (dat0 (F := F) V c) (defs₀ (F := F)) Variants.none () Set.univ := fun t => by
  obtain ⟨R, hR⟩ := PhiEq0 V c
  rw [bigSep_W0, bigSep_W0, hR, hR]
  simp only [(before0 V c t).1, (before0 V c t).2.1, (before0 V c t).2.2]
  rw [live0 t]
  refine .trans ?_ (kernelRun0 c _ _ (hstage0_0 _) _ (hstage0_1 _) _ (hstage0_2 _) _ (hstage0_3 _) (Memref.whole cc0_scratch0)
    (Memref.isWhole_whole _) (hcond0 t) (iblk0 V c 0 t) (iblk0 V c 1 t) (iblk0 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in0 (c : Dev nD) : (Pipeline.ΦA spec0 c : sProp 𝕄) ⊢ (dat0 V c).Φ 0 := .rfl

theorem Phi_out0 (c : Dev nD) : (dat0 V c).Φ (Fin.last cfg0.N) ⊢ (Pipeline.ΦA spec0 c : sProp 𝕄) := .rfl

end Cert.KernelIdeal.Hand

end
-- ==== Proof.KI.Mm1Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S2048x256 .f32 := Memref.whole cc1_scratch0

/-- The accumulator after point `n`: the point's product added to zero at the first point of a run, else to what the
    point before left. -/
def sc1 (c : Dev nD) : (n : ℕ) → n < cfg1.N → Vec F S2048x256 .f32
  | 0, hn => k1_pay2 k1_pay1 (iblk1 V c 0 ⟨0, hn⟩) (iblk1 V c 1 ⟨0, hn⟩)
  | n + 1, hn =>
    k1_pay2 (if (n + 1) % 5 = 0 then k1_pay1 else sc1 c n (Nat.lt_of_succ_lt hn)) (iblk1 V c 0 ⟨n + 1, hn⟩) (iblk1 V c 1 ⟨n + 1, hn⟩)

abbrev rest1 (c : Dev nD) : sProp 𝕄 :=
  Pipeline.scopedRestBut (Ix := Unit) (Name := ℕ) (U := UR sig nD τ) (Lvl := ℕ) (Val := Elt F) spec1 c [cc1_scratch0]

/-- Before position `n` the accumulator holds what point `n - 1` left, anything before the first point. -/
def Phi1 (c : Dev nD) (n : ℕ) : sProp 𝕄 :=
  iprop(∃ xs, ⌜∀ m hm, n = m + 1 → xs = sc1 V c m hm⌝ ∗ owns (c : Thread nD τ) scM1 fullShare xs ∗ rest1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (sc1 V c t.val t.isLt)
  Φ t := Phi1 V c t.val
  q _ := fullShare
  owed _ := 0

theorem A_eq1 (c : Dev nD) (w : Fin cfg1.W) : (dat1 V c).A w = V c (Pipeline.arrRef spec1 w) := rfl

end Cert.KernelIdeal.Hand

end
-- ==== Proof.KI.MmRun1.lean ====
import proofs.«414074_j90701119357381_1_alg».proof.Proof.Gen.KernelIdeal.Skeleton
import proofs.«414074_j90701119357381_1_alg».proof.Proof.WholeShape
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_2 (i : grid1.Coords) : Prop := k1_cond2 i = 1#1

set_option maxHeartbeats 1000000 in
/-- The accumulator, reset first where the contraction index is the first, gains the product of the two blocks; where the
    index is the last the output block takes the accumulator, narrowed. -/
theorem kernelRun1 (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S2048x256 .bf16) (harg4 : arg4.IsWhole)
    (arg5 : Memref sig .tc .vmem S2048x256 .f32) (harg5 : arg5.IsWhole)
    (x_a : Vec F S2048x2048 .bf16) (x_b x_o out : Vec F S2048x256 .bf16) (xs acc : Vec F S2048x256 .f32)
    (hacc : acc = k1_pay2 (if cond1_0 i then k1_pay1 else xs) x_a x_b) (hout : out = if cond1_2 i then k1_pay3 acc else x_o)
    (E : Set ℕ) (K : PUnit → sProp 𝕄) :
    iprop(owns (c : Thread nD τ) arg2 fullShare x_a ∗ owns (c : Thread nD τ) arg3 fullShare x_b
        ∗ owns (c : Thread nD τ) arg4 fullShare x_o ∗ owns (c : Thread nD τ) arg5 fullShare xs
        ∗ (iprop(owns (c : Thread nD τ) arg2 fullShare x_a ∗ owns (c : Thread nD τ) arg3 fullShare x_b
            ∗ owns (c : Thread nD τ) arg4 fullShare out ∗ owns (c : Thread nD τ) arg5 fullShare acc) -∗ K ⟨⟩))
      ⊢ wp frame (wpE (defs₀ (F := F)) Variants.none c none) E (cc1__matmul_kernel i arg2 harg2 arg3 harg3 arg4 harg4 arg5 harg5) K := by
  subst hout hacc
  by_cases hc0 : cond1_0 i <;> by_cases hc2 : cond1_2 i
  all_goals
    first | rw [if_pos hc0] | rw [if_neg hc0]
    first | rw [if_pos hc2] | rw [if_neg hc2]
    simp only [cc1__matmul_kernel_eq_skeleton]; unfold cc1__matmul_kernel_skel owns
    iintro ⟨⟨%f_a, %hf_a, H_a⟩, ⟨%f_b, %hf_b, H_b⟩, ⟨%f_o, %hf_o, H_o⟩, ⟨%f_s, %hf_s, HS⟩, Hk⟩
    obtain rfl := harg2.eq_unread hf_a; obtain rfl := harg3.eq_unread hf_b; obtain rfl := harg4.eq_unread hf_o
    obtain rfl := harg5.eq_unread hf_s
    sl_exec (disch := first | exact hc0 | exact hc2)
    sl_step
    iapply Hk
    isplitl [H_a]
    · iexists _; isplitr; swap; · iexact H_a
      ipureintro; exact harg2.read_unread _
    isplitl [H_b]
    · iexists _; isplitr; swap; · iexact H_b
      ipureintro; exact harg3.read_unread _
    isplitl [H_o]
    · iexists _; isplitr; swap; · iexact H_o
      ipureintro
      first
      | have : ¬cond1_2 i := hc2
        exact harg4.read_unread _
      | sl_unfold_words
        rw [View.read_writes_eq_canon _ _ _ (Whole.cover_unit_zero Whole.hz2 _ _ _), View.canon_cons_unit_zero (S := S2048x256) Whole.hz2]
        repeat rw [Whole.readCov_cons_unit_zero (S := S2048x256) _ Whole.hz2]
        simp only [View.readAt_eq_ld, harg2.read_unread, harg3.read_unread, harg5.read_unread,
          View.ld_unit_zero (S := S2048x2048) Whole.hz2, View.ld_unit_zero (S := S2048x256) Whole.hz2]
    iexists _; isplitr; swap; · iexact HS
    ipureintro
    sl_unfold_words
    rw [View.read_writes_eq_canon _ _ _ (Whole.cover_unit_zero Whole.hz2 _ _ _), View.canon_cons_unit_zero (S := S2048x256) Whole.hz2]
    repeat rw [Whole.readCov_cons_unit_zero (S := S2048x256) _ Whole.hz2]
    simp only [View.readAt_eq_ld, harg2.read_unread, harg3.read_unread, harg5.read_unread,
      View.ld_unit_zero (S := S2048x2048) Whole.hz2, View.ld_unit_zero (S := S2048x256) Whole.hz2]

theorem hcond1_0 : ∀ t : Fin grid1.N, cond1_0 (grid1.coords t) ↔ t.val % 5 = 0 := by decide +kernel
theorem hcond1_2 : ∀ t : Fin grid1.N, cond1_2 (grid1.coords t) ↔ t.val % 5 = 4 := by decide +kernel

end Cert.KernelIdeal.Hand

end
-- ==== Proof.KI.Mm1.lean ====
import proofs.«414074_j90701119357381_1_alg».proof.Proof.KI.Mm1Def
import proofs.«414074_j90701119357381_1_alg».proof.Proof.KI.MmRun1
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle1_2 : ∀ t : Fin cfg1.N, cfg1.idle 2 (grid1.coords t) = !decide (cond1_2 (grid1.coords t)) := by decide +kernel

abbrev ms1_0 (t : Fin cfg1.N) : Memref sig .tc .vmem S2048x2048 .bf16 := win1_0.stage (cfg1.slots t 0)
abbrev ms1_1 (t : Fin cfg1.N) : Memref sig .tc .vmem S2048x256 .bf16 := win1_1.stage (cfg1.slots t 1)
abbrev ms1_2 (t : Fin cfg1.N) : Memref sig .tc .vmem S2048x256 .bf16 := win1_2.stage (cfg1.slots t 2)

theorem PhiA_eq1 (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- One step of the accumulation, from what the point before left. -/
theorem sc_eq1 (c : Dev nD) (t : Fin cfg1.N) (xs : Vec F S2048x256 .f32) (hx : ∀ m hm, t.val = m + 1 → xs = sc1 V c m hm) :
    sc1 V c t.val t.isLt = k1_pay2 (if cond1_0 (grid1.coords t) then k1_pay1 else xs) (iblk1 V c 0 t) (iblk1 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k1_pay2 · _ _) (if_congr (hcond1_0 ⟨n + 1, hn⟩) rfl rfl).symm

theorem before1_0 (c : Dev nD) (t : Fin cfg1.N) (d) : (dat1 V c).before 0 t d = iblk1 V c 0 t :=
  (dat1 V c).before_fetched 0 t (fetch1_0 t) d
theorem before1_1 (c : Dev nD) (t : Fin cfg1.N) (d) : (dat1 V c).before 1 t d = iblk1 V c 1 t :=
  (dat1 V c).before_fetched 1 t (fetch1_1 t) d

theorem leaves1_2 (c : Dev nD) (t : Fin cfg1.N) (d) :
    owns (c : Thread nD τ) (ms1_2 t) fullShare
        (if cond1_2 (grid1.coords t) then k1_pay3 (sc1 V c t.val t.isLt) else (dat1 V c).before 2 t d)
      ⊢ (dat1 V c).leavesExact 2 t := by
  by_cases h : cond1_2 (grid1.coords t)
  · rw [if_pos h]; unfold Dat.leavesExact; rw [idle1_2 t, decide_eq_true h]; exact .rfl
  · rw [if_neg h, Dat.leavesExact_idle _ 2 t (by rw [idle1_2 t, decide_eq_false h]; rfl)
      (Bool.eq_false_iff.mpr fun hf => h ((hcond1_2 t).mpr ((flush1_2 t).mp hf)))]
    iintro H; iexists d; iexact H

theorem sound_body1 (c : Dev nD) (t : Fin cfg1.N) :
    iprop(Phi1 V c t.val ∗ (dat1 V c).owesAt () t.castSucc
        ∗ (∃ d, owns (c : Thread nD τ) (ms1_0 t) fullShare ((dat1 V c).before 0 t d))
        ∗ (∃ d, owns (c : Thread nD τ) (ms1_1 t) fullShare ((dat1 V c).before 1 t d))
        ∗ (∃ d, owns (c : Thread nD τ) (ms1_2 t) fullShare ((dat1 V c).before 2 t d)))
      ⊢ wp frame (wpE (defs₀ (F := F)) Variants.none c none) Set.univ (bodyAt1 t) fun _ =>
        iprop(Phi1 V c (t.val + 1) ∗ (dat1 V c).owesAt () t.castSucc
          ∗ owns (c : Thread nD τ) (ms1_0 t) fullShare (iblk1 V c 0 t)
          ∗ owns (c : Thread nD τ) (ms1_1 t) fullShare (iblk1 V c 1 t) ∗ (dat1 V c).leavesExact 2 t) := by
  simp only [before1_0, before1_1]; unfold Phi1
  iintro ⟨⟨%xs, %hx, HS, Hr, Hg⟩, Ho, ⟨%d_a, H_a⟩, ⟨%d_b, H_b⟩, ⟨%d_o, H_o⟩⟩
  refine BIBase.Entails.trans ?_ (kernelRun1 c (grid1.coords t) (ms1_0 t) (hstage1_0 _) (ms1_1 t) (hstage1_1 _) (ms1_2 t) (hstage1_2 _) scM1 (Memref.isWhole_whole _)
    (iblk1 V c 0 t) (iblk1 V c 1 t) ((dat1 V c).before 2 t d_o)
    (if cond1_2 (grid1.coords t) then k1_pay3 (sc1 V c t.val t.isLt) else (dat1 V c).before 2 t d_o) xs _
    (sc_eq1 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc1 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves1_2 V c t d_o); iexact H_o

theorem body_obligation1 (c : Dev nD) : BodyObligation (dat1 (F := F) V c) (defs₀ (F := F)) Variants.none () Set.univ := fun t => by
  rw [bigSep_W1, bigSep_W1]
  exact sound_body1 V c t

theorem Phi_in1 (c : Dev nD) : (Pipeline.ΦA spec1 c : sProp 𝕄) ⊢ (dat1 V c).Φ 0 := by
  rw [PhiA_eq1]; show _ ⊢ Phi1 V c 0; unfold Phi1
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out1 (c : Dev nD) : (dat1 V c).Φ (Fin.last cfg1.N) ⊢ (Pipeline.ΦA spec1 c : sProp 𝕄) := by
  rw [PhiA_eq1]; show Phi1 V c _ ⊢ _; unfold Phi1
  iintro ⟨%xs, -, HS, Hr, Hg⟩
  isplitl [HS Hr]
  · isplitl [HS]; · iexists _; iexact HS
    iexact Hr
  iexact Hg

end Cert.KernelIdeal.Hand

end
-- ==== Proof.KI.Acc2Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block after point `t`: the first two blocks' product added to zero, plus the third block. -/
noncomputable def out2 (c : Dev nD) (t : Fin cfg2.N) : Vec F S8192x128 .f32 :=
  k2_pay3 (k2_pay2 (k2_pay1 (F := F)) (iblk2 V c 0 t) (iblk2 V c 1 t)) (iblk2 V c 2 t)

/-- The accumulator is reset at every point, so the invariant keeps nothing of it. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ _ := Pipeline.ΦA spec2 c
  q _ := fullShare
  owed _ := 0

theorem A_eq2 (c : Dev nD) (w : Fin cfg2.W) : (dat2 V c).A w = V c (Pipeline.arrRef spec2 w) := rfl

end Cert.KernelIdeal.Hand

end
-- ==== Proof.KI.Acc2.lean ====
import proofs.«414074_j90701119357381_1_alg».proof.Proof.KI.Acc2Def
import proofs.«414074_j90701119357381_1_alg».proof.Proof.KI.AccRun0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live2 : ∀ t : Fin cfg2.N, idle2 3 (grid2.coords t) = false := by decide +kernel

theorem hcond2 : ∀ t : Fin cfg2.N, k2_cond2 (grid2.coords t) = 1#1 := by decide +kernel

theorem before2 (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨fun d => ?_, fun d => ?_, fun d => ?_⟩ <;>
    exact ((dat2 V c).before_in_eq_fetched _ rfl (fun _ => rfl) (fun _ _ _ => rfl) (fun _ => rfl) t d).trans rfl

/-- The invariant with the accumulator's buffer split off the other scoped buffers. -/
theorem PhiEq2 (c : Dev nD) : ∃ R : sProp 𝕄, ∀ n, (dat2 V c).Φ n
    = iprop(iprop((∃ d, owns (c : Thread nD τ) (Memref.whole cc2_scratch0) fullShare d) ∗ R) ∗ (∃ r, prngReg c r)) :=
  ⟨_, fun _ => by
    show Pipeline.ΦA spec2 c = _
    unfold Pipeline.ΦA; rw [scopedRest2_split]; simp only [owns_whole]; rfl⟩

theorem body_obligation2 (c : Dev nD) : BodyObligation (dat2 (F := F) V c) (defs₀ (F := F)) Variants.none () Set.univ := fun t => by
  obtain ⟨R, hR⟩ := PhiEq2 V c
  rw [bigSep_W2, bigSep_W2, hR, hR]
  simp only [(before2 V c t).1, (before2 V c t).2.1, (before2 V c t).2.2]
  rw [live2 t]
  refine .trans ?_ (kernelRun0 c _ _ (hstage2_0 _) _ (hstage2_1 _) _ (hstage2_2 _) _ (hstage2_3 _) (Memref.whole cc2_scratch0)
    (Memref.isWhole_whole _) (hcond2 t) (iblk2 V c 0 t) (iblk2 V c 1 t) (iblk2 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in2 (c : Dev nD) : (Pipeline.ΦA spec2 c : sProp 𝕄) ⊢ (dat2 V c).Φ 0 := .rfl

theorem Phi_out2 (c : Dev nD) : (dat2 V c).Φ (Fin.last cfg2.N) ⊢ (Pipeline.ΦA spec2 c : sProp 𝕄) := .rfl

end Cert.KernelIdeal.Hand

end
-- ==== Proof.KI.Mm3Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S2048x256 .f32 := Memref.whole cc3_scratch0

/-- The accumulator after point `n`: the point's product added to zero at the first point of a run, else to what the
    point before left. -/
def sc3 (c : Dev nD) : (n : ℕ) → n < cfg3.N → Vec F S2048x256 .f32
  | 0, hn => k3_pay2 k3_pay1 (iblk3 V c 0 ⟨0, hn⟩) (iblk3 V c 1 ⟨0, hn⟩)
  | n + 1, hn =>
    k3_pay2 (if (n + 1) % 5 = 0 then k3_pay1 else sc3 c n (Nat.lt_of_succ_lt hn)) (iblk3 V c 0 ⟨n + 1, hn⟩) (iblk3 V c 1 ⟨n + 1, hn⟩)

abbrev rest3 (c : Dev nD) : sProp 𝕄 :=
  Pipeline.scopedRestBut (Ix := Unit) (Name := ℕ) (U := UR sig nD τ) (Lvl := ℕ) (Val := Elt F) spec3 c [cc3_scratch0]

/-- Before position `n` the accumulator holds what point `n - 1` left, anything before the first point. -/
def Phi3 (c : Dev nD) (n : ℕ) : sProp 𝕄 :=
  iprop(∃ xs, ⌜∀ m hm, n = m + 1 → xs = sc3 V c m hm⌝ ∗ owns (c : Thread nD τ) scM3 fullShare xs ∗ rest3 c ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (sc3 V c t.val t.isLt)
  Φ t := Phi3 V c t.val
  q _ := fullShare
  owed _ := 0

theorem A_eq3 (c : Dev nD) (w : Fin cfg3.W) : (dat3 V c).A w = V c (Pipeline.arrRef spec3 w) := rfl

end Cert.KernelIdeal.Hand

end
-- ==== Proof.KI.Mm3.lean ====
import proofs.«414074_j90701119357381_1_alg».proof.Proof.KI.Mm3Def
import proofs.«414074_j90701119357381_1_alg».proof.Proof.KI.MmRun1
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle3_2 : ∀ t : Fin cfg3.N, cfg3.idle 2 (grid3.coords t) = !decide (cond1_2 (grid3.coords t)) := by decide +kernel

abbrev ms3_0 (t : Fin cfg3.N) : Memref sig .tc .vmem S2048x2048 .bf16 := win3_0.stage (cfg3.slots t 0)
abbrev ms3_1 (t : Fin cfg3.N) : Memref sig .tc .vmem S2048x256 .bf16 := win3_1.stage (cfg3.slots t 1)
abbrev ms3_2 (t : Fin cfg3.N) : Memref sig .tc .vmem S2048x256 .bf16 := win3_2.stage (cfg3.slots t 2)

theorem PhiA_eq3 (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; try rfl

/-- One step of the accumulation, from what the point before left. -/
theorem sc_eq3 (c : Dev nD) (t : Fin cfg3.N) (xs : Vec F S2048x256 .f32) (hx : ∀ m hm, t.val = m + 1 → xs = sc3 V c m hm) :
    sc3 V c t.val t.isLt = k3_pay2 (if cond1_0 (grid3.coords t) then k3_pay1 else xs) (iblk3 V c 0 t) (iblk3 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k3_pay2 · _ _) (if_congr (hcond1_0 ⟨n + 1, hn⟩) rfl rfl).symm

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

theorem leaves3_2 (c : Dev nD) (t : Fin cfg3.N) (d) :
    owns (c : Thread nD τ) (ms3_2 t) fullShare
        (if cond1_2 (grid3.coords t) then k3_pay3 (sc3 V c t.val t.isLt) else (dat3 V c).before 2 t d)
      ⊢ (dat3 V c).leavesExact 2 t := by
  by_cases h : cond1_2 (grid3.coords t)
  · rw [if_pos h]; unfold Dat.leavesExact; rw [idle3_2 t, decide_eq_true h]; exact .rfl
  · rw [if_neg h, Dat.leavesExact_idle _ 2 t (by rw [idle3_2 t, decide_eq_false h]; rfl)
      (Bool.eq_false_iff.mpr fun hf => h ((hcond1_2 t).mpr ((flush3_2 t).mp hf)))]
    iintro H; iexists d; iexact H

theorem sound_body3 (c : Dev nD) (t : Fin cfg3.N) :
    iprop(Phi3 V c t.val ∗ (dat3 V c).owesAt () t.castSucc
        ∗ (∃ d, owns (c : Thread nD τ) (ms3_0 t) fullShare ((dat3 V c).before 0 t d))
        ∗ (∃ d, owns (c : Thread nD τ) (ms3_1 t) fullShare ((dat3 V c).before 1 t d))
        ∗ (∃ d, owns (c : Thread nD τ) (ms3_2 t) fullShare ((dat3 V c).before 2 t d)))
      ⊢ wp frame (wpE (defs₀ (F := F)) Variants.none c none) Set.univ (bodyAt3 t) fun _ =>
        iprop(Phi3 V c (t.val + 1) ∗ (dat3 V c).owesAt () t.castSucc
          ∗ owns (c : Thread nD τ) (ms3_0 t) fullShare (iblk3 V c 0 t)
          ∗ owns (c : Thread nD τ) (ms3_1 t) fullShare (iblk3 V c 1 t) ∗ (dat3 V c).leavesExact 2 t) := by
  simp only [before3_0, before3_1]; unfold Phi3
  iintro ⟨⟨%xs, %hx, HS, Hr, Hg⟩, Ho, ⟨%d_a, H_a⟩, ⟨%d_b, H_b⟩, ⟨%d_o, H_o⟩⟩
  refine BIBase.Entails.trans ?_ (kernelRun1 c (grid3.coords t) (ms3_0 t) (hstage3_0 _) (ms3_1 t) (hstage3_1 _) (ms3_2 t) (hstage3_2 _) scM3 (Memref.isWhole_whole _)
    (iblk3 V c 0 t) (iblk3 V c 1 t) ((dat3 V c).before 2 t d_o)
    (if cond1_2 (grid3.coords t) then k3_pay3 (sc3 V c t.val t.isLt) else (dat3 V c).before 2 t d_o) xs _
    (sc_eq3 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc3 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves3_2 V c t d_o); iexact H_o

theorem body_obligation3 (c : Dev nD) : BodyObligation (dat3 (F := F) V c) (defs₀ (F := F)) Variants.none () Set.univ := fun t => by
  rw [bigSep_W3, bigSep_W3]
  exact sound_body3 V c t

theorem Phi_in3 (c : Dev nD) : (Pipeline.ΦA spec3 c : sProp 𝕄) ⊢ (dat3 V c).Φ 0 := by
  rw [PhiA_eq3]; show _ ⊢ Phi3 V c 0; unfold Phi3
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out3 (c : Dev nD) : (dat3 V c).Φ (Fin.last cfg3.N) ⊢ (Pipeline.ΦA spec3 c : sProp 𝕄) := by
  rw [PhiA_eq3]; show Phi3 V c _ ⊢ _; unfold Phi3
  iintro ⟨%xs, -, HS, Hr, Hg⟩
  isplitl [HS Hr]
  · isplitl [HS]; · iexists _; iexact HS
    iexact Hr
  iexact Hg

end Cert.KernelIdeal.Hand

end
-- ==== Proof.KI.Acc4Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The output block after point `t`: the first two blocks' product added to zero, plus the third block. -/
noncomputable def out4 (c : Dev nD) (t : Fin cfg4.N) : Vec F S8192x128 .f32 :=
  k4_pay3 (k4_pay2 (k4_pay1 (F := F)) (iblk4 V c 0 t) (iblk4 V c 1 t)) (iblk4 V c 2 t)

/-- The accumulator is reset at every point, so the invariant keeps nothing of it. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ _ := Pipeline.ΦA spec4 c
  q _ := fullShare
  owed _ := 0

theorem A_eq4 (c : Dev nD) (w : Fin cfg4.W) : (dat4 V c).A w = V c (Pipeline.arrRef spec4 w) := rfl

end Cert.KernelIdeal.Hand

end
-- ==== Proof.KI.Acc4.lean ====
import proofs.«414074_j90701119357381_1_alg».proof.Proof.KI.Acc4Def
import proofs.«414074_j90701119357381_1_alg».proof.Proof.KI.AccRun0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live4 : ∀ t : Fin cfg4.N, idle4 3 (grid4.coords t) = false := by decide +kernel

theorem hcond4 : ∀ t : Fin cfg4.N, k4_cond2 (grid4.coords t) = 1#1 := by decide +kernel

theorem before4 (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨fun d => ?_, fun d => ?_, fun d => ?_⟩ <;>
    exact ((dat4 V c).before_in_eq_fetched _ rfl (fun _ => rfl) (fun _ _ _ => rfl) (fun _ => rfl) t d).trans rfl

/-- The invariant with the accumulator's buffer split off the other scoped buffers. -/
theorem PhiEq4 (c : Dev nD) : ∃ R : sProp 𝕄, ∀ n, (dat4 V c).Φ n
    = iprop(iprop((∃ d, owns (c : Thread nD τ) (Memref.whole cc4_scratch0) fullShare d) ∗ R) ∗ (∃ r, prngReg c r)) :=
  ⟨_, fun _ => by
    show Pipeline.ΦA spec4 c = _
    unfold Pipeline.ΦA; rw [scopedRest4_split]; simp only [owns_whole]; rfl⟩

theorem body_obligation4 (c : Dev nD) : BodyObligation (dat4 (F := F) V c) (defs₀ (F := F)) Variants.none () Set.univ := fun t => by
  obtain ⟨R, hR⟩ := PhiEq4 V c
  rw [bigSep_W4, bigSep_W4, hR, hR]
  simp only [(before4 V c t).1, (before4 V c t).2.1, (before4 V c t).2.2]
  rw [live4 t]
  refine .trans ?_ (kernelRun0 c _ _ (hstage4_0 _) _ (hstage4_1 _) _ (hstage4_2 _) _ (hstage4_3 _) (Memref.whole cc4_scratch0)
    (Memref.isWhole_whole _) (hcond4 t) (iblk4 V c 0 t) (iblk4 V c 1 t) (iblk4 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in4 (c : Dev nD) : (Pipeline.ΦA spec4 c : sProp 𝕄) ⊢ (dat4 V c).Φ 0 := .rfl

theorem Phi_out4 (c : Dev nD) : (dat4 V c).Φ (Fin.last cfg4.N) ⊢ (Pipeline.ΦA spec4 c : sProp 𝕄) := .rfl

end Cert.KernelIdeal.Hand

end
-- ==== Proof.KI.Acc5Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The output block after point `t`: the first two blocks' product added to zero, plus the third block. -/
noncomputable def out5 (c : Dev nD) (t : Fin cfg5.N) : Vec F S8192x128 .f32 :=
  k5_pay3 (k5_pay2 (k5_pay1 (F := F)) (iblk5 V c 0 t) (iblk5 V c 1 t)) (iblk5 V c 2 t)

/-- The accumulator is reset at every point, so the invariant keeps nothing of it. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c t
  Φ _ := Pipeline.ΦA spec5 c
  q _ := fullShare
  owed _ := 0

theorem A_eq5 (c : Dev nD) (w : Fin cfg5.W) : (dat5 V c).A w = V c (Pipeline.arrRef spec5 w) := rfl

end Cert.KernelIdeal.Hand

end
-- ==== Proof.KI.Acc5.lean ====
import proofs.«414074_j90701119357381_1_alg».proof.Proof.KI.Acc5Def
import proofs.«414074_j90701119357381_1_alg».proof.Proof.KI.AccRun0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live5 : ∀ t : Fin cfg5.N, idle5 3 (grid5.coords t) = false := by decide +kernel

theorem hcond5 : ∀ t : Fin cfg5.N, k5_cond2 (grid5.coords t) = 1#1 := by decide +kernel

theorem before5 (c : Dev nD) (t : Fin cfg5.N) :
    (∀ d, (dat5 V c).before 0 t d = iblk5 V c 0 t) ∧ (∀ d, (dat5 V c).before 1 t d = iblk5 V c 1 t)
      ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

/-- The invariant with the accumulator's buffer split off the other scoped buffers. -/
theorem PhiEq5 (c : Dev nD) : ∃ R : sProp 𝕄, ∀ n, (dat5 V c).Φ n
    = iprop(iprop((∃ d, owns (c : Thread nD τ) (Memref.whole cc5_scratch0) fullShare d) ∗ R) ∗ (∃ r, prngReg c r)) :=
  ⟨_, fun _ => by
    show Pipeline.ΦA spec5 c = _
    unfold Pipeline.ΦA; rw [scopedRest5_split]; simp only [owns_whole]; rfl⟩

theorem body_obligation5 (c : Dev nD) : BodyObligation (dat5 (F := F) V c) (defs₀ (F := F)) Variants.none () Set.univ := fun t => by
  obtain ⟨R, hR⟩ := PhiEq5 V c
  rw [bigSep_W5, bigSep_W5, hR, hR]
  simp only [(before5 V c t).1, (before5 V c t).2.1, (before5 V c t).2.2]
  rw [live5 t]
  refine .trans ?_ (kernelRun0 c _ _ (hstage5_0 _) _ (hstage5_1 _) _ (hstage5_2 _) _ (hstage5_3 _) (Memref.whole cc5_scratch0)
    (Memref.isWhole_whole _) (hcond5 t) (iblk5 V c 0 t) (iblk5 V c 1 t) (iblk5 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in5 (c : Dev nD) : (Pipeline.ΦA spec5 c : sProp 𝕄) ⊢ (dat5 V c).Φ 0 := .rfl

theorem Phi_out5 (c : Dev nD) : (dat5 V c).Φ (Fin.last cfg5.N) ⊢ (Pipeline.ΦA spec5 c : sProp 𝕄) := .rfl

end Cert.KernelIdeal.Hand

end
-- ==== Proof.KI.Mm6Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev scM6 : Memref sig .tc .vmem S2048x256 .f32 := Memref.whole cc6_scratch0

/-- The accumulator after point `n`: the point's product added to zero at the first point of a run, else to what the
    point before left. -/
def sc6 (c : Dev nD) : (n : ℕ) → n < cfg6.N → Vec F S2048x256 .f32
  | 0, hn => k6_pay2 k6_pay1 (iblk6 V c 0 ⟨0, hn⟩) (iblk6 V c 1 ⟨0, hn⟩)
  | n + 1, hn =>
    k6_pay2 (if (n + 1) % 5 = 0 then k6_pay1 else sc6 c n (Nat.lt_of_succ_lt hn)) (iblk6 V c 0 ⟨n + 1, hn⟩) (iblk6 V c 1 ⟨n + 1, hn⟩)

abbrev rest6 (c : Dev nD) : sProp 𝕄 :=
  Pipeline.scopedRestBut (Ix := Unit) (Name := ℕ) (U := UR sig nD τ) (Lvl := ℕ) (Val := Elt F) spec6 c [cc6_scratch0]

/-- Before position `n` the accumulator holds what point `n - 1` left, anything before the first point. -/
def Phi6 (c : Dev nD) (n : ℕ) : sProp 𝕄 :=
  iprop(∃ xs, ⌜∀ m hm, n = m + 1 → xs = sc6 V c m hm⌝ ∗ owns (c : Thread nD τ) scM6 fullShare xs ∗ rest6 c ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (sc6 V c t.val t.isLt)
  Φ t := Phi6 V c t.val
  q _ := fullShare
  owed _ := 0

theorem A_eq6 (c : Dev nD) (w : Fin cfg6.W) : (dat6 V c).A w = V c (Pipeline.arrRef spec6 w) := rfl

end Cert.KernelIdeal.Hand

end
-- ==== Proof.KI.Mm6.lean ====
import proofs.«414074_j90701119357381_1_alg».proof.Proof.KI.Mm6Def
import proofs.«414074_j90701119357381_1_alg».proof.Proof.KI.MmRun1
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle6_2 : ∀ t : Fin cfg6.N, cfg6.idle 2 (grid6.coords t) = !decide (cond1_2 (grid6.coords t)) := by decide +kernel

abbrev ms6_0 (t : Fin cfg6.N) : Memref sig .tc .vmem S2048x2048 .bf16 := win6_0.stage (cfg6.slots t 0)
abbrev ms6_1 (t : Fin cfg6.N) : Memref sig .tc .vmem S2048x256 .bf16 := win6_1.stage (cfg6.slots t 1)
abbrev ms6_2 (t : Fin cfg6.N) : Memref sig .tc .vmem S2048x256 .bf16 := win6_2.stage (cfg6.slots t 2)

theorem PhiA_eq6 (c : Dev nD) :
    (Pipeline.ΦA spec6 c : sProp 𝕄)
      = iprop(iprop((∃ d, owns (c : Thread nD τ) scM6 fullShare d) ∗ rest6 c) ∗ (∃ r, prngReg c r)) := by
  unfold Pipeline.ΦA; rw [scopedRest6_split]; simp only [scM6, owns_whole]; try rfl

/-- One step of the accumulation, from what the point before left. -/
theorem sc_eq6 (c : Dev nD) (t : Fin cfg6.N) (xs : Vec F S2048x256 .f32) (hx : ∀ m hm, t.val = m + 1 → xs = sc6 V c m hm) :
    sc6 V c t.val t.isLt = k6_pay2 (if cond1_0 (grid6.coords t) then k6_pay1 else xs) (iblk6 V c 0 t) (iblk6 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k6_pay2 · _ _) (if_congr (hcond1_0 ⟨n + 1, hn⟩) rfl rfl).symm

theorem before6_0 (c : Dev nD) (t : Fin cfg6.N) (d) : (dat6 V c).before 0 t d = iblk6 V c 0 t :=
  (dat6 V c).before_fetched 0 t (fetch6_0 t) d
theorem before6_1 (c : Dev nD) (t : Fin cfg6.N) (d) : (dat6 V c).before 1 t d = iblk6 V c 1 t :=
  (dat6 V c).before_fetched 1 t (fetch6_1 t) d

theorem leaves6_2 (c : Dev nD) (t : Fin cfg6.N) (d) :
    owns (c : Thread nD τ) (ms6_2 t) fullShare
        (if cond1_2 (grid6.coords t) then k6_pay3 (sc6 V c t.val t.isLt) else (dat6 V c).before 2 t d)
      ⊢ (dat6 V c).leavesExact 2 t := by
  by_cases h : cond1_2 (grid6.coords t)
  · rw [if_pos h]; unfold Dat.leavesExact; rw [idle6_2 t, decide_eq_true h]; exact .rfl
  · rw [if_neg h, Dat.leavesExact_idle _ 2 t (by rw [idle6_2 t, decide_eq_false h]; rfl)
      (Bool.eq_false_iff.mpr fun hf => h ((hcond1_2 t).mpr ((flush6_2 t).mp hf)))]
    iintro H; iexists d; iexact H

theorem sound_body6 (c : Dev nD) (t : Fin cfg6.N) :
    iprop(Phi6 V c t.val ∗ (dat6 V c).owesAt () t.castSucc
        ∗ (∃ d, owns (c : Thread nD τ) (ms6_0 t) fullShare ((dat6 V c).before 0 t d))
        ∗ (∃ d, owns (c : Thread nD τ) (ms6_1 t) fullShare ((dat6 V c).before 1 t d))
        ∗ (∃ d, owns (c : Thread nD τ) (ms6_2 t) fullShare ((dat6 V c).before 2 t d)))
      ⊢ wp frame (wpE (defs₀ (F := F)) Variants.none c none) Set.univ (bodyAt6 t) fun _ =>
        iprop(Phi6 V c (t.val + 1) ∗ (dat6 V c).owesAt () t.castSucc
          ∗ owns (c : Thread nD τ) (ms6_0 t) fullShare (iblk6 V c 0 t)
          ∗ owns (c : Thread nD τ) (ms6_1 t) fullShare (iblk6 V c 1 t) ∗ (dat6 V c).leavesExact 2 t) := by
  simp only [before6_0, before6_1]; unfold Phi6
  iintro ⟨⟨%xs, %hx, HS, Hr, Hg⟩, Ho, ⟨%d_a, H_a⟩, ⟨%d_b, H_b⟩, ⟨%d_o, H_o⟩⟩
  refine BIBase.Entails.trans ?_ (kernelRun1 c (grid6.coords t) (ms6_0 t) (hstage6_0 _) (ms6_1 t) (hstage6_1 _) (ms6_2 t) (hstage6_2 _) scM6 (Memref.isWhole_whole _)
    (iblk6 V c 0 t) (iblk6 V c 1 t) ((dat6 V c).before 2 t d_o)
    (if cond1_2 (grid6.coords t) then k6_pay3 (sc6 V c t.val t.isLt) else (dat6 V c).before 2 t d_o) xs _
    (sc_eq6 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc6 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves6_2 V c t d_o); iexact H_o

theorem body_obligation6 (c : Dev nD) : BodyObligation (dat6 (F := F) V c) (defs₀ (F := F)) Variants.none () Set.univ := fun t => by
  rw [bigSep_W6, bigSep_W6]
  exact sound_body6 V c t

theorem Phi_in6 (c : Dev nD) : (Pipeline.ΦA spec6 c : sProp 𝕄) ⊢ (dat6 V c).Φ 0 := by
  rw [PhiA_eq6]; show _ ⊢ Phi6 V c 0; unfold Phi6
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out6 (c : Dev nD) : (dat6 V c).Φ (Fin.last cfg6.N) ⊢ (Pipeline.ΦA spec6 c : sProp 𝕄) := by
  rw [PhiA_eq6]; show Phi6 V c _ ⊢ _; unfold Phi6
  iintro ⟨%xs, -, HS, Hr, Hg⟩
  isplitl [HS Hr]
  · isplitl [HS]; · iexists _; iexact HS
    iexact Hr
  iexact Hg

end Cert.KernelIdeal.Hand

end
-- ==== Proof.KI.Acc7Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The output block after point `t`: the first two blocks' product added to zero, plus the third block. -/
noncomputable def out7 (c : Dev nD) (t : Fin cfg7.N) : Vec F S8192x128 .f32 :=
  k7_pay3 (k7_pay2 (k7_pay1 (F := F)) (iblk7 V c 0 t) (iblk7 V c 1 t)) (iblk7 V c 2 t)

/-- The accumulator is reset at every point, so the invariant keeps nothing of it. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 V c t
  Φ _ := Pipeline.ΦA spec7 c
  q _ := fullShare
  owed _ := 0

theorem A_eq7 (c : Dev nD) (w : Fin cfg7.W) : (dat7 V c).A w = V c (Pipeline.arrRef spec7 w) := rfl

end Cert.KernelIdeal.Hand

end
-- ==== Proof.KI.Acc7.lean ====
import proofs.«414074_j90701119357381_1_alg».proof.Proof.KI.Acc7Def
import proofs.«414074_j90701119357381_1_alg».proof.Proof.KI.AccRun0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live7 : ∀ t : Fin cfg7.N, idle7 3 (grid7.coords t) = false := by decide +kernel

theorem hcond7 : ∀ t : Fin cfg7.N, k7_cond2 (grid7.coords t) = 1#1 := by decide +kernel

theorem before7 (c : Dev nD) (t : Fin cfg7.N) :
    (∀ d, (dat7 V c).before 0 t d = iblk7 V c 0 t) ∧ (∀ d, (dat7 V c).before 1 t d = iblk7 V c 1 t)
      ∧ ∀ d, (dat7 V c).before 2 t d = iblk7 V c 2 t := by
  refine ⟨fun d => ?_, fun d => ?_, fun d => ?_⟩ <;>
    exact ((dat7 V c).before_in_eq_fetched _ rfl (fun _ => rfl) (fun _ _ _ => rfl) (fun _ => rfl) t d).trans rfl

/-- The invariant with the accumulator's buffer split off the other scoped buffers. -/
theorem PhiEq7 (c : Dev nD) : ∃ R : sProp 𝕄, ∀ n, (dat7 V c).Φ n
    = iprop(iprop((∃ d, owns (c : Thread nD τ) (Memref.whole cc7_scratch0) fullShare d) ∗ R) ∗ (∃ r, prngReg c r)) :=
  ⟨_, fun _ => by
    show Pipeline.ΦA spec7 c = _
    unfold Pipeline.ΦA; rw [scopedRest7_split]; simp only [owns_whole]; rfl⟩

theorem body_obligation7 (c : Dev nD) : BodyObligation (dat7 (F := F) V c) (defs₀ (F := F)) Variants.none () Set.univ := fun t => by
  obtain ⟨R, hR⟩ := PhiEq7 V c
  rw [bigSep_W7, bigSep_W7, hR, hR]
  simp only [(before7 V c t).1, (before7 V c t).2.1, (before7 V c t).2.2]
  rw [live7 t]
  refine .trans ?_ (kernelRun0 c _ _ (hstage7_0 _) _ (hstage7_1 _) _ (hstage7_2 _) _ (hstage7_3 _) (Memref.whole cc7_scratch0)
    (Memref.isWhole_whole _) (hcond7 t) (iblk7 V c 0 t) (iblk7 V c 1 t) (iblk7 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in7 (c : Dev nD) : (Pipeline.ΦA spec7 c : sProp 𝕄) ⊢ (dat7 V c).Φ 0 := .rfl

theorem Phi_out7 (c : Dev nD) : (dat7 V c).Φ (Fin.last cfg7.N) ⊢ (Pipeline.ΦA spec7 c : sProp 𝕄) := .rfl

end Cert.KernelIdeal.Hand

end
-- ==== Proof.KI.Mm8Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S2048x256 .f32 := Memref.whole cc8_scratch0

/-- The accumulator after point `n`: the point's product added to zero at the first point of a run, else to what the
    point before left. -/
def sc8 (c : Dev nD) : (n : ℕ) → n < cfg8.N → Vec F S2048x256 .f32
  | 0, hn => k8_pay2 k8_pay1 (iblk8 V c 0 ⟨0, hn⟩) (iblk8 V c 1 ⟨0, hn⟩)
  | n + 1, hn =>
    k8_pay2 (if (n + 1) % 5 = 0 then k8_pay1 else sc8 c n (Nat.lt_of_succ_lt hn)) (iblk8 V c 0 ⟨n + 1, hn⟩) (iblk8 V c 1 ⟨n + 1, hn⟩)

abbrev rest8 (c : Dev nD) : sProp 𝕄 :=
  Pipeline.scopedRestBut (Ix := Unit) (Name := ℕ) (U := UR sig nD τ) (Lvl := ℕ) (Val := Elt F) spec8 c [cc8_scratch0]

/-- Before position `n` the accumulator holds what point `n - 1` left, anything before the first point. -/
def Phi8 (c : Dev nD) (n : ℕ) : sProp 𝕄 :=
  iprop(∃ xs, ⌜∀ m hm, n = m + 1 → xs = sc8 V c m hm⌝ ∗ owns (c : Thread nD τ) scM8 fullShare xs ∗ rest8 c ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (sc8 V c t.val t.isLt)
  Φ t := Phi8 V c t.val
  q _ := fullShare
  owed _ := 0

theorem A_eq8 (c : Dev nD) (w : Fin cfg8.W) : (dat8 V c).A w = V c (Pipeline.arrRef spec8 w) := rfl

end Cert.KernelIdeal.Hand

end
-- ==== Proof.KI.Mm8.lean ====
import proofs.«414074_j90701119357381_1_alg».proof.Proof.KI.Mm8Def
import proofs.«414074_j90701119357381_1_alg».proof.Proof.KI.MmRun1
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle8_2 : ∀ t : Fin cfg8.N, cfg8.idle 2 (grid8.coords t) = !decide (cond1_2 (grid8.coords t)) := by decide +kernel

abbrev ms8_0 (t : Fin cfg8.N) : Memref sig .tc .vmem S2048x2048 .bf16 := win8_0.stage (cfg8.slots t 0)
abbrev ms8_1 (t : Fin cfg8.N) : Memref sig .tc .vmem S2048x256 .bf16 := win8_1.stage (cfg8.slots t 1)
abbrev ms8_2 (t : Fin cfg8.N) : Memref sig .tc .vmem S2048x256 .bf16 := win8_2.stage (cfg8.slots t 2)

theorem PhiA_eq8 (c : Dev nD) :
    (Pipeline.ΦA spec8 c : sProp 𝕄)
      = iprop(iprop((∃ d, owns (c : Thread nD τ) scM8 fullShare d) ∗ rest8 c) ∗ (∃ r, prngReg c r)) := by
  unfold Pipeline.ΦA; rw [scopedRest8_split]; simp only [scM8, owns_whole]; try rfl

/-- One step of the accumulation, from what the point before left. -/
theorem sc_eq8 (c : Dev nD) (t : Fin cfg8.N) (xs : Vec F S2048x256 .f32) (hx : ∀ m hm, t.val = m + 1 → xs = sc8 V c m hm) :
    sc8 V c t.val t.isLt = k8_pay2 (if cond1_0 (grid8.coords t) then k8_pay1 else xs) (iblk8 V c 0 t) (iblk8 V c 1 t) := by
  obtain ⟨n, hn⟩ := t
  cases n with
  | zero => rw [if_pos ((hcond1_0 ⟨0, hn⟩).mpr rfl)]; rfl
  | succ n =>
    cases hx n (Nat.lt_of_succ_lt hn) rfl
    exact congrArg (k8_pay2 · _ _) (if_congr (hcond1_0 ⟨n + 1, hn⟩) rfl rfl).symm

theorem before8_0 (c : Dev nD) (t : Fin cfg8.N) (d) : (dat8 V c).before 0 t d = iblk8 V c 0 t :=
  (dat8 V c).before_fetched 0 t (fetch8_0 t) d
theorem before8_1 (c : Dev nD) (t : Fin cfg8.N) (d) : (dat8 V c).before 1 t d = iblk8 V c 1 t :=
  (dat8 V c).before_fetched 1 t (fetch8_1 t) d

theorem leaves8_2 (c : Dev nD) (t : Fin cfg8.N) (d) :
    owns (c : Thread nD τ) (ms8_2 t) fullShare
        (if cond1_2 (grid8.coords t) then k8_pay3 (sc8 V c t.val t.isLt) else (dat8 V c).before 2 t d)
      ⊢ (dat8 V c).leavesExact 2 t := by
  by_cases h : cond1_2 (grid8.coords t)
  · rw [if_pos h]; unfold Dat.leavesExact; rw [idle8_2 t, decide_eq_true h]; exact .rfl
  · rw [if_neg h, Dat.leavesExact_idle _ 2 t (by rw [idle8_2 t, decide_eq_false h]; rfl)
      (Bool.eq_false_iff.mpr fun hf => h ((hcond1_2 t).mpr ((flush8_2 t).mp hf)))]
    iintro H; iexists d; iexact H

theorem sound_body8 (c : Dev nD) (t : Fin cfg8.N) :
    iprop(Phi8 V c t.val ∗ (dat8 V c).owesAt () t.castSucc
        ∗ (∃ d, owns (c : Thread nD τ) (ms8_0 t) fullShare ((dat8 V c).before 0 t d))
        ∗ (∃ d, owns (c : Thread nD τ) (ms8_1 t) fullShare ((dat8 V c).before 1 t d))
        ∗ (∃ d, owns (c : Thread nD τ) (ms8_2 t) fullShare ((dat8 V c).before 2 t d)))
      ⊢ wp frame (wpE (defs₀ (F := F)) Variants.none c none) Set.univ (bodyAt8 t) fun _ =>
        iprop(Phi8 V c (t.val + 1) ∗ (dat8 V c).owesAt () t.castSucc
          ∗ owns (c : Thread nD τ) (ms8_0 t) fullShare (iblk8 V c 0 t)
          ∗ owns (c : Thread nD τ) (ms8_1 t) fullShare (iblk8 V c 1 t) ∗ (dat8 V c).leavesExact 2 t) := by
  simp only [before8_0, before8_1]; unfold Phi8
  iintro ⟨⟨%xs, %hx, HS, Hr, Hg⟩, Ho, ⟨%d_a, H_a⟩, ⟨%d_b, H_b⟩, ⟨%d_o, H_o⟩⟩
  refine BIBase.Entails.trans ?_ (kernelRun1 c (grid8.coords t) (ms8_0 t) (hstage8_0 _) (ms8_1 t) (hstage8_1 _) (ms8_2 t) (hstage8_2 _) scM8 (Memref.isWhole_whole _)
    (iblk8 V c 0 t) (iblk8 V c 1 t) ((dat8 V c).before 2 t d_o)
    (if cond1_2 (grid8.coords t) then k8_pay3 (sc8 V c t.val t.isLt) else (dat8 V c).before 2 t d_o) xs _
    (sc_eq8 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc8 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves8_2 V c t d_o); iexact H_o

theorem body_obligation8 (c : Dev nD) : BodyObligation (dat8 (F := F) V c) (defs₀ (F := F)) Variants.none () Set.univ := fun t => by
  rw [bigSep_W8, bigSep_W8]
  exact sound_body8 V c t

theorem Phi_in8 (c : Dev nD) : (Pipeline.ΦA spec8 c : sProp 𝕄) ⊢ (dat8 V c).Φ 0 := by
  rw [PhiA_eq8]; show _ ⊢ Phi8 V c 0; unfold Phi8
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out8 (c : Dev nD) : (dat8 V c).Φ (Fin.last cfg8.N) ⊢ (Pipeline.ΦA spec8 c : sProp 𝕄) := by
  rw [PhiA_eq8]; show Phi8 V c _ ⊢ _; unfold Phi8
  iintro ⟨%xs, -, HS, Hr, Hg⟩
  isplitl [HS Hr]
  · isplitl [HS]; · iexists _; iexact HS
    iexact Hr
  iexact Hg

end Cert.KernelIdeal.Hand

end
-- ==== Proof.KI.Acc9Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The output block after point `t`: the first two blocks' product added to zero, plus the third block. -/
noncomputable def out9 (c : Dev nD) (t : Fin cfg9.N) : Vec F S8192x128 .f32 :=
  k9_pay3 (k9_pay2 (k9_pay1 (F := F)) (iblk9 V c 0 t) (iblk9 V c 1 t)) (iblk9 V c 2 t)

/-- The accumulator is reset at every point, so the invariant keeps nothing of it. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 V c t
  Φ _ := Pipeline.ΦA spec9 c
  q _ := fullShare
  owed _ := 0

theorem A_eq9 (c : Dev nD) (w : Fin cfg9.W) : (dat9 V c).A w = V c (Pipeline.arrRef spec9 w) := rfl

end Cert.KernelIdeal.Hand

end
-- ==== Proof.KI.Acc9.lean ====
import proofs.«414074_j90701119357381_1_alg».proof.Proof.KI.Acc9Def
import proofs.«414074_j90701119357381_1_alg».proof.Proof.KI.AccRun0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live9 : ∀ t : Fin cfg9.N, idle9 3 (grid9.coords t) = false := by decide +kernel

theorem hcond9 : ∀ t : Fin cfg9.N, k9_cond2 (grid9.coords t) = 1#1 := by decide +kernel

theorem before9 (c : Dev nD) (t : Fin cfg9.N) :
    (∀ d, (dat9 V c).before 0 t d = iblk9 V c 0 t) ∧ (∀ d, (dat9 V c).before 1 t d = iblk9 V c 1 t)
      ∧ ∀ d, (dat9 V c).before 2 t d = iblk9 V c 2 t := by
  refine ⟨fun d => ?_, fun d => ?_, fun d => ?_⟩ <;>
    exact ((dat9 V c).before_in_eq_fetched _ rfl (fun _ => rfl) (fun _ _ _ => rfl) (fun _ => rfl) t d).trans rfl

/-- The invariant with the accumulator's buffer split off the other scoped buffers. -/
theorem PhiEq9 (c : Dev nD) : ∃ R : sProp 𝕄, ∀ n, (dat9 V c).Φ n
    = iprop(iprop((∃ d, owns (c : Thread nD τ) (Memref.whole cc9_scratch0) fullShare d) ∗ R) ∗ (∃ r, prngReg c r)) :=
  ⟨_, fun _ => by
    show Pipeline.ΦA spec9 c = _
    unfold Pipeline.ΦA; rw [scopedRest9_split]; simp only [owns_whole]; rfl⟩

theorem body_obligation9 (c : Dev nD) : BodyObligation (dat9 (F := F) V c) (defs₀ (F := F)) Variants.none () Set.univ := fun t => by
  obtain ⟨R, hR⟩ := PhiEq9 V c
  rw [bigSep_W9, bigSep_W9, hR, hR]
  simp only [(before9 V c t).1, (before9 V c t).2.1, (before9 V c t).2.2]
  rw [live9 t]
  refine .trans ?_ (kernelRun0 c _ _ (hstage9_0 _) _ (hstage9_1 _) _ (hstage9_2 _) _ (hstage9_3 _) (Memref.whole cc9_scratch0)
    (Memref.isWhole_whole _) (hcond9 t) (iblk9 V c 0 t) (iblk9 V c 1 t) (iblk9 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in9 (c : Dev nD) : (Pipeline.ΦA spec9 c : sProp 𝕄) ⊢ (dat9 V c).Φ 0 := .rfl

theorem Phi_out9 (c : Dev nD) : (dat9 V c).Φ (Fin.last cfg9.N) ⊢ (Pipeline.ΦA spec9 c : sProp 𝕄) := .rfl

end Cert.KernelIdeal.Hand

end
-- ==== Proof.KI.Acc10Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The output block after point `t`: the first two blocks' product added to zero, plus the third block. -/
noncomputable def out10 (c : Dev nD) (t : Fin cfg10.N) : Vec F S8192x128 .f32 :=
  k10_pay3 (k10_pay2 (k10_pay1 (F := F)) (iblk10 V c 0 t) (iblk10 V c 1 t)) (iblk10 V c 2 t)

/-- The accumulator is reset at every point, so the invariant keeps nothing of it. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 V c t
  Φ _ := Pipeline.ΦA spec10 c
  q _ := fullShare
  owed _ := 0

theorem A_eq10 (c : Dev nD) (w : Fin cfg10.W) : (dat10 V c).A w = V c (Pipeline.arrRef spec10 w) := rfl

end Cert.KernelIdeal.Hand

end
-- ==== Proof.KI.AccRun10.lean ====
import proofs.«414074_j90701119357381_1_alg».proof.Proof.Gen.KernelIdeal.Skeleton
import proofs.«414074_j90701119357381_1_alg».proof.Proof.WholeShape
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Whole

variable {F : FTy → Type} [FloatOps F]

local notation "𝕄" => MT nD τ sig Unit (Elt F) ℕ (UR sig nD τ) ℕ

set_option maxHeartbeats 1000000 in
/-- The body on whole buffers, both branches taken: the accumulator ends at the product added to zero, the output at that plus the summand. -/
theorem kernelRun10 (c : Dev nD) (i : grid10.Coords)
    (arg2 : Memref sig .tc .vmem S8192x128 .bf16) (harg2 : arg2.IsWhole)
    (arg3 : Memref sig .tc .vmem S128x128 .bf16) (harg3 : arg3.IsWhole)
    (arg4 : Memref sig .tc .vmem S8192x128 .f32) (harg4 : arg4.IsWhole)
    (arg5 : Memref sig .tc .vmem S8192x128 .f32) (harg5 : arg5.IsWhole)
    (arg6 : Memref sig .tc .vmem S8192x128 .f32) (harg6 : arg6.IsWhole)
    (hc : k10_cond2 i = 1#1)
    (x_a : Vec F S8192x128 .bf16) (x_b : Vec F S128x128 .bf16) (x_c : Vec F S8192x128 .f32)
    (E : Set ℕ) (K : PUnit → sProp 𝕄) :
    iprop(owns (c : Thread nD τ) arg2 fullShare x_a ∗ owns (c : Thread nD τ) arg3 fullShare x_b
        ∗ owns (c : Thread nD τ) arg4 fullShare x_c ∗ (∃ d, owns (c : Thread nD τ) arg5 fullShare d)
        ∗ (∃ d, owns (c : Thread nD τ) arg6 fullShare d)
        ∗ (iprop(owns (c : Thread nD τ) arg2 fullShare x_a ∗ owns (c : Thread nD τ) arg3 fullShare x_b
            ∗ owns (c : Thread nD τ) arg4 fullShare x_c
            ∗ owns (c : Thread nD τ) arg5 fullShare (k10_pay3 (k10_pay2 (k10_pay1 (F := F)) x_a x_b) x_c)
            ∗ owns (c : Thread nD τ) arg6 fullShare (k10_pay2 (k10_pay1 (F := F)) x_a x_b)) -∗ K ⟨⟩))
      ⊢ wp frame (wpE (defs₀ (F := F)) Variants.none c none) E
          (cc10__matmul_acc_kernel i arg2 harg2 arg3 harg3 arg4 harg4 arg5 harg5 arg6 harg6) K := by
  simp only [cc10__matmul_acc_kernel_eq_skeleton]; unfold cc10__matmul_acc_kernel_skel
  unfold owns
  iintro ⟨⟨%f_a, %hf_a, HA⟩, ⟨%f_b, %hf_b, HB⟩, ⟨%f_c, %hf_c, HC⟩, ⟨%d_o, %f_o, -, HO⟩, ⟨%d_s, %f_s, -, HS⟩, Hk⟩
  obtain rfl := harg2.eq_unread hf_a; obtain rfl := harg3.eq_unread hf_b; obtain rfl := harg4.eq_unread hf_c
  sl_exec (disch := exact hc)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  isplitl [HO]
  · iexists _; isplitr
    swap; · iexact HO
    ipureintro
    rw [View.read_writes_eq_canon _ _ _ (cover_unit_zero hz2 _ _ _), View.canon_unit_zero hz2]
    sl_unfold_run_names
    simp only [readCov_cons_unit_zero (S := S8192x128) _ hz2, View.readCov_unit_zero (S := S8192x128) _ hz2, View.readAt_eq_ld, harg2.read_unread,
      harg3.read_unread, harg4.read_unread, View.ld_unit_zero (S := S8192x128) hz2, View.ld_unit_zero (S := S128x128) hz2,
      View.ld_unit_zero (S := S8192x128) hz2]
  · iexists _; isplitr
    swap; · iexact HS
    ipureintro
    sl_unfold_run_names
    rw [View.read_writes_eq_canon _ _ _ (cover_unit_zero hz2 _ _ _), View.canon_cons_unit_zero hz2]
    simp only [View.readCov_unit_zero (S := S8192x128) _ hz2, View.readAt_eq_ld, harg2.read_unread,
      harg3.read_unread, View.ld_unit_zero (S := S8192x128) hz2, View.ld_unit_zero (S := S128x128) hz2]

end Cert.KernelIdeal.Hand

end
-- ==== Proof.KI.Acc10.lean ====
import proofs.«414074_j90701119357381_1_alg».proof.Proof.KI.Acc10Def
import proofs.«414074_j90701119357381_1_alg».proof.Proof.KI.AccRun10

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live10 : ∀ t : Fin cfg10.N, idle10 3 (grid10.coords t) = false := by decide +kernel

theorem hcond10 : ∀ t : Fin cfg10.N, k10_cond2 (grid10.coords t) = 1#1 := by decide +kernel

theorem before10 (c : Dev nD) (t : Fin cfg10.N) :
    (∀ d, (dat10 V c).before 0 t d = iblk10 V c 0 t) ∧ (∀ d, (dat10 V c).before 1 t d = iblk10 V c 1 t)
      ∧ ∀ d, (dat10 V c).before 2 t d = iblk10 V c 2 t := by
  refine ⟨fun d => ?_, fun d => ?_, fun d => ?_⟩ <;>
    exact ((dat10 V c).before_in_eq_fetched _ rfl (fun _ => rfl) (fun _ _ _ => rfl) (fun _ => rfl) t d).trans rfl

/-- The invariant with the accumulator's buffer split off the other scoped buffers. -/
theorem PhiEq10 (c : Dev nD) : ∃ R : sProp 𝕄, ∀ n, (dat10 V c).Φ n
    = iprop(iprop((∃ d, owns (c : Thread nD τ) (Memref.whole cc10_scratch0) fullShare d) ∗ R) ∗ (∃ r, prngReg c r)) :=
  ⟨_, fun _ => by
    show Pipeline.ΦA spec10 c = _
    unfold Pipeline.ΦA; rw [scopedRest10_split]; simp only [owns_whole]; rfl⟩

theorem body_obligation10 (c : Dev nD) : BodyObligation (dat10 (F := F) V c) (defs₀ (F := F)) Variants.none () Set.univ := fun t => by
  obtain ⟨R, hR⟩ := PhiEq10 V c
  rw [bigSep_W10, bigSep_W10, hR, hR]
  simp only [(before10 V c t).1, (before10 V c t).2.1, (before10 V c t).2.2]
  rw [live10 t]
  refine .trans ?_ (kernelRun10 c _ _ (hstage10_0 _) _ (hstage10_1 _) _ (hstage10_2 _) _ (hstage10_3 _) (Memref.whole cc10_scratch0)
    (Memref.isWhole_whole _) (hcond10 t) (iblk10 V c 0 t) (iblk10 V c 1 t) (iblk10 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in10 (c : Dev nD) : (Pipeline.ΦA spec10 c : sProp 𝕄) ⊢ (dat10 V c).Φ 0 := .rfl

theorem Phi_out10 (c : Dev nD) : (dat10 V c).Φ (Fin.last cfg10.N) ⊢ (Pipeline.ΦA spec10 c : sProp 𝕄) := .rfl

end Cert.KernelIdeal.Hand

end
-- ==== Proof.KI.Mm11Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev scM11 : Memref sig .tc .vmem S2048x512 .f32 := Memref.whole cc11_scratch0

/-- The accumulator after point `n`: the point's product added to zero at the first point of a run, else to what the
    point before left. -/
def sc11 (c : Dev nD) : (n : ℕ) → n < cfg11.N → Vec F S2048x512 .f32
  | 0, hn => k11_pay2 k11_pay1 (iblk11 V c 0 ⟨0, hn⟩) (iblk11 V c 1 ⟨0, hn⟩)
  | n + 1, hn =>
    k11_pay2 (if (n + 1) % 5 = 0 then k11_pay1 else sc11 c n (Nat.lt_of_succ_lt hn)) (iblk11 V c 0 ⟨n + 1, hn⟩) (iblk11 V c 1 ⟨n + 1, hn⟩)

abbrev rest11 (c : Dev nD) : sProp 𝕄 :=
  Pipeline.scopedRestBut (Ix := Unit) (Name := ℕ) (U := UR sig nD τ) (Lvl := ℕ) (Val := Elt F) spec11 c [cc11_scratch0]

/-- Before position `n` the accumulator holds what point `n - 1` left, anything before the first point. -/
def Phi11 (c : Dev nD) (n : ℕ) : sProp 𝕄 :=
  iprop(∃ xs, ⌜∀ m hm, n = m + 1 → xs = sc11 V c m hm⌝ ∗ owns (c : Thread nD τ) scM11 fullShare xs ∗ rest11 c ∗ (∃ r, prngReg c r))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => k11_pay3 (sc11 V c t.val t.isLt)
  Φ t := Phi11 V c t.val
  q _ := fullShare
  owed _ := 0

theorem A_eq11 (c : Dev nD) (w : Fin cfg11.W) : (dat11 V c).A w = V c (Pipeline.arrRef spec11 w) := rfl

end Cert.KernelIdeal.Hand

end
-- ==== Proof.KI.MmRun11.lean ====
import proofs.«414074_j90701119357381_1_alg».proof.Proof.Gen.KernelIdeal.Skeleton
import proofs.«414074_j90701119357381_1_alg».proof.Proof.WholeShape
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond11_0 (i : grid11.Coords) : Prop := (Scalar.cmpi .ne (Scalar.extui (Scalar.cmpi .eq (BitVec.ofNat 32 (i 1).val) 0#32)) 0#32) = 1#1
abbrev cond11_2 (i : grid11.Coords) : Prop := k11_cond2 i = 1#1

set_option maxHeartbeats 1000000 in
/-- The accumulator, reset first where the contraction index is the first, gains the product of the two blocks; where the
    index is the last the output block takes the accumulator, narrowed. -/
theorem kernelRun11 (c : Dev nD) (i : grid11.Coords)
    (arg2 : Memref sig .tc .vmem S2048x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S2048x512 .f32) (harg5 : arg5.IsWhole)
    (x_a : Vec F S2048x2048 .bf16) (x_b x_o out : Vec F S2048x512 .bf16) (xs acc : Vec F S2048x512 .f32)
    (hacc : acc = k11_pay2 (if cond11_0 i then k11_pay1 else xs) x_a x_b) (hout : out = if cond11_2 i then k11_pay3 acc else x_o)
    (E : Set ℕ) (K : PUnit → sProp 𝕄) :
    iprop(owns (c : Thread nD τ) arg2 fullShare x_a ∗ owns (c : Thread nD τ) arg3 fullShare x_b
        ∗ owns (c : Thread nD τ) arg4 fullShare x_o ∗ owns (c : Thread nD τ) arg5 fullShare xs
        ∗ (iprop(owns (c : Thread nD τ) arg2 fullShare x_a ∗ owns (c : Thread nD τ) arg3 fullShare x_b
            ∗ owns (c : Thread nD τ) arg4 fullShare out ∗ owns (c : Thread nD τ) arg5 fullShare acc) -∗ K ⟨⟩))
      ⊢ wp frame (wpE (defs₀ (F := F)) Variants.none c none) E (cc11__matmul_kernel i arg2 harg2 arg3 harg3 arg4 harg4 arg5 harg5) K := by
  subst hout hacc
  by_cases hc0 : cond11_0 i <;> by_cases hc2 : cond11_2 i
  all_goals
    first | rw [if_pos hc0] | rw [if_neg hc0]
    first | rw [if_pos hc2] | rw [if_neg hc2]
    simp only [cc11__matmul_kernel_eq_skeleton]; unfold cc11__matmul_kernel_skel owns
    iintro ⟨⟨%f_a, %hf_a, H_a⟩, ⟨%f_b, %hf_b, H_b⟩, ⟨%f_o, %hf_o, H_o⟩, ⟨%f_s, %hf_s, HS⟩, Hk⟩
    obtain rfl := harg2.eq_unread hf_a; obtain rfl := harg3.eq_unread hf_b; obtain rfl := harg4.eq_unread hf_o
    obtain rfl := harg5.eq_unread hf_s
    sl_exec (disch := first | exact hc0 | exact hc2)
    sl_step
    iapply Hk
    isplitl [H_a]
    · iexists _; isplitr; swap; · iexact H_a
      ipureintro; exact harg2.read_unread _
    isplitl [H_b]
    · iexists _; isplitr; swap; · iexact H_b
      ipureintro; exact harg3.read_unread _
    isplitl [H_o]
    · iexists _; isplitr; swap; · iexact H_o
      ipureintro
      first
      | have : ¬cond11_2 i := hc2
        exact harg4.read_unread _
      | sl_unfold_words
        rw [View.read_writes_eq_canon _ _ _ (Whole.cover_unit_zero Whole.hz2 _ _ _), View.canon_cons_unit_zero (S := S2048x512) Whole.hz2]
        repeat rw [Whole.readCov_cons_unit_zero (S := S2048x512) _ Whole.hz2]
        simp only [View.readAt_eq_ld, harg2.read_unread, harg3.read_unread, harg5.read_unread,
          View.ld_unit_zero (S := S2048x2048) Whole.hz2, View.ld_unit_zero (S := S2048x512) Whole.hz2]
    iexists _; isplitr; swap; · iexact HS
    ipureintro
    sl_unfold_words
    rw [View.read_writes_eq_canon _ _ _ (Whole.cover_unit_zero Whole.hz2 _ _ _), View.canon_cons_unit_zero (S := S2048x512) Whole.hz2]
    repeat rw [Whole.readCov_cons_unit_zero (S := S2048x512) _ Whole.hz2]
    simp only [View.readAt_eq_ld, harg2.read_unread, harg3.read_unread, harg5.read_unread,
      View.ld_unit_zero (S := S2048x2048) Whole.hz2, View.ld_unit_zero (S := S2048x512) Whole.hz2]

theorem hcond11_0 : ∀ t : Fin grid11.N, cond11_0 (grid11.coords t) ↔ t.val % 5 = 0 := by decide +kernel
theorem hcond11_2 : ∀ t : Fin grid11.N, cond11_2 (grid11.coords t) ↔ t.val % 5 = 4 := by decide +kernel

end Cert.KernelIdeal.Hand

end
-- ==== Proof.KI.Mm11.lean ====
import proofs.«414074_j90701119357381_1_alg».proof.Proof.KI.Mm11Def
import proofs.«414074_j90701119357381_1_alg».proof.Proof.KI.MmRun11
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle11_2 : ∀ t : Fin cfg11.N, cfg11.idle 2 (grid11.coords t) = !decide (cond11_2 (grid11.coords t)) := by decide +kernel

abbrev ms11_0 (t : Fin cfg11.N) : Memref sig .tc .vmem S2048x2048 .bf16 := win11_0.stage (cfg11.slots t 0)
abbrev ms11_1 (t : Fin cfg11.N) : Memref sig .tc .vmem S2048x512 .bf16 := win11_1.stage (cfg11.slots t 1)
abbrev ms11_2 (t : Fin cfg11.N) : Memref sig .tc .vmem S2048x512 .bf16 := win11_2.stage (cfg11.slots t 2)

theorem PhiA_eq11 (c : Dev nD) :
    (Pipeline.ΦA spec11 c : sProp 𝕄)
      = iprop(iprop((∃ d, owns (c : Thread nD τ) scM11 fullShare d) ∗ rest11 c) ∗ (∃ r, prngReg c r)) := by
  unfold Pipeline.ΦA; rw [scopedRest11_split]; simp only [scM11, owns_whole]; try rfl

/-- One step of the accumulation, from what the point before left. -/
theorem sc_eq11 (c : Dev nD) (t : Fin cfg11.N) (xs : Vec F S2048x512 .f32) (hx : ∀ m hm, t.val = m + 1 → xs = sc11 V c m hm) :
    sc11 V c t.val t.isLt = k11_pay2 (if cond11_0 (grid11.coords t) then k11_pay1 else xs) (iblk11 V c 0 t) (iblk11 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k11_pay2 · _ _) (if_congr (hcond11_0 ⟨n + 1, hn⟩) rfl rfl).symm

theorem before11_0 (c : Dev nD) (t : Fin cfg11.N) (d) : (dat11 V c).before 0 t d = iblk11 V c 0 t :=
  (dat11 V c).before_fetched 0 t (fetch11_0 t) d
theorem before11_1 (c : Dev nD) (t : Fin cfg11.N) (d) : (dat11 V c).before 1 t d = iblk11 V c 1 t :=
  (dat11 V c).before_fetched 1 t (fetch11_1 t) d

theorem leaves11_2 (c : Dev nD) (t : Fin cfg11.N) (d) :
    owns (c : Thread nD τ) (ms11_2 t) fullShare
        (if cond11_2 (grid11.coords t) then k11_pay3 (sc11 V c t.val t.isLt) else (dat11 V c).before 2 t d)
      ⊢ (dat11 V c).leavesExact 2 t := by
  by_cases h : cond11_2 (grid11.coords t)
  · rw [if_pos h]; unfold Dat.leavesExact; rw [idle11_2 t, decide_eq_true h]; exact .rfl
  · rw [if_neg h, Dat.leavesExact_idle _ 2 t (by rw [idle11_2 t, decide_eq_false h]; rfl)
      (Bool.eq_false_iff.mpr fun hf => h ((hcond11_2 t).mpr ((flush11_2 t).mp hf)))]
    iintro H; iexists d; iexact H

theorem sound_body11 (c : Dev nD) (t : Fin cfg11.N) :
    iprop(Phi11 V c t.val ∗ (dat11 V c).owesAt () t.castSucc
        ∗ (∃ d, owns (c : Thread nD τ) (ms11_0 t) fullShare ((dat11 V c).before 0 t d))
        ∗ (∃ d, owns (c : Thread nD τ) (ms11_1 t) fullShare ((dat11 V c).before 1 t d))
        ∗ (∃ d, owns (c : Thread nD τ) (ms11_2 t) fullShare ((dat11 V c).before 2 t d)))
      ⊢ wp frame (wpE (defs₀ (F := F)) Variants.none c none) Set.univ (bodyAt11 t) fun _ =>
        iprop(Phi11 V c (t.val + 1) ∗ (dat11 V c).owesAt () t.castSucc
          ∗ owns (c : Thread nD τ) (ms11_0 t) fullShare (iblk11 V c 0 t)
          ∗ owns (c : Thread nD τ) (ms11_1 t) fullShare (iblk11 V c 1 t) ∗ (dat11 V c).leavesExact 2 t) := by
  simp only [before11_0, before11_1]; unfold Phi11
  iintro ⟨⟨%xs, %hx, HS, Hr, Hg⟩, Ho, ⟨%d_a, H_a⟩, ⟨%d_b, H_b⟩, ⟨%d_o, H_o⟩⟩
  refine BIBase.Entails.trans ?_ (kernelRun11 c (grid11.coords t) (ms11_0 t) (hstage11_0 _) (ms11_1 t) (hstage11_1 _) (ms11_2 t) (hstage11_2 _) scM11 (Memref.isWhole_whole _)
    (iblk11 V c 0 t) (iblk11 V c 1 t) ((dat11 V c).before 2 t d_o)
    (if cond11_2 (grid11.coords t) then k11_pay3 (sc11 V c t.val t.isLt) else (dat11 V c).before 2 t d_o) xs _
    (sc_eq11 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc11 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves11_2 V c t d_o); iexact H_o

theorem body_obligation11 (c : Dev nD) : BodyObligation (dat11 (F := F) V c) (defs₀ (F := F)) Variants.none () Set.univ := fun t => by
  rw [bigSep_W11, bigSep_W11]
  exact sound_body11 V c t

theorem Phi_in11 (c : Dev nD) : (Pipeline.ΦA spec11 c : sProp 𝕄) ⊢ (dat11 V c).Φ 0 := by
  rw [PhiA_eq11]; show _ ⊢ Phi11 V c 0; unfold Phi11
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out11 (c : Dev nD) : (dat11 V c).Φ (Fin.last cfg11.N) ⊢ (Pipeline.ΦA spec11 c : sProp 𝕄) := by
  rw [PhiA_eq11]; show Phi11 V c _ ⊢ _; unfold Phi11
  iintro ⟨%xs, -, HS, Hr, Hg⟩
  isplitl [HS Hr]
  · isplitl [HS]; · iexists _; iexact HS
    iexact Hr
  iexact Hg

end Cert.KernelIdeal.Hand

end
-- ==== Proof.KI.Acc12Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The output block after point `t`: the first two blocks' product added to zero, plus the third block. -/
noncomputable def out12 (c : Dev nD) (t : Fin cfg12.N) : Vec F S8192x128 .f32 :=
  k12_pay3 (k12_pay2 (k12_pay1 (F := F)) (iblk12 V c 0 t) (iblk12 V c 1 t)) (iblk12 V c 2 t)

/-- The accumulator is reset at every point, so the invariant keeps nothing of it. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12 V c t
  Φ _ := Pipeline.ΦA spec12 c
  q _ := fullShare
  owed _ := 0

theorem A_eq12 (c : Dev nD) (w : Fin cfg12.W) : (dat12 V c).A w = V c (Pipeline.arrRef spec12 w) := rfl

end Cert.KernelIdeal.Hand

end
-- ==== Proof.KI.Acc12.lean ====
import proofs.«414074_j90701119357381_1_alg».proof.Proof.KI.Acc12Def
import proofs.«414074_j90701119357381_1_alg».proof.Proof.KI.AccRun10

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live12 : ∀ t : Fin cfg12.N, idle12 3 (grid12.coords t) = false := by decide +kernel

theorem hcond12 : ∀ t : Fin cfg12.N, k12_cond2 (grid12.coords t) = 1#1 := by decide +kernel

theorem before12 (c : Dev nD) (t : Fin cfg12.N) :
    (∀ d, (dat12 V c).before 0 t d = iblk12 V c 0 t) ∧ (∀ d, (dat12 V c).before 1 t d = iblk12 V c 1 t)
      ∧ ∀ d, (dat12 V c).before 2 t d = iblk12 V c 2 t := by
  refine ⟨fun d => ?_, fun d => ?_, fun d => ?_⟩ <;>
    exact ((dat12 V c).before_in_eq_fetched _ rfl (fun _ => rfl) (fun _ _ _ => rfl) (fun _ => rfl) t d).trans rfl

/-- The invariant with the accumulator's buffer split off the other scoped buffers. -/
theorem PhiEq12 (c : Dev nD) : ∃ R : sProp 𝕄, ∀ n, (dat12 V c).Φ n
    = iprop(iprop((∃ d, owns (c : Thread nD τ) (Memref.whole cc12_scratch0) fullShare d) ∗ R) ∗ (∃ r, prngReg c r)) :=
  ⟨_, fun _ => by
    show Pipeline.ΦA spec12 c = _
    unfold Pipeline.ΦA; rw [scopedRest12_split]; simp only [owns_whole]; rfl⟩

theorem body_obligation12 (c : Dev nD) : BodyObligation (dat12 (F := F) V c) (defs₀ (F := F)) Variants.none () Set.univ := fun t => by
  obtain ⟨R, hR⟩ := PhiEq12 V c
  rw [bigSep_W12, bigSep_W12, hR, hR]
  simp only [(before12 V c t).1, (before12 V c t).2.1, (before12 V c t).2.2]
  rw [live12 t]
  refine .trans ?_ (kernelRun10 c _ _ (hstage12_0 _) _ (hstage12_1 _) _ (hstage12_2 _) _ (hstage12_3 _) (Memref.whole cc12_scratch0)
    (Memref.isWhole_whole _) (hcond12 t) (iblk12 V c 0 t) (iblk12 V c 1 t) (iblk12 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in12 (c : Dev nD) : (Pipeline.ΦA spec12 c : sProp 𝕄) ⊢ (dat12 V c).Φ 0 := .rfl

theorem Phi_out12 (c : Dev nD) : (dat12 V c).Φ (Fin.last cfg12.N) ⊢ (Pipeline.ΦA spec12 c : sProp 𝕄) := .rfl

end Cert.KernelIdeal.Hand

end
-- ==== Proof.KI.Mm13Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev scM13 : Memref sig .tc .vmem S2048x512 .f32 := Memref.whole cc13_scratch0

/-- The accumulator after point `n`: the point's product added to zero at the first point of a run, else to what the
    point before left. -/
def sc13 (c : Dev nD) : (n : ℕ) → n < cfg13.N → Vec F S2048x512 .f32
  | 0, hn => k13_pay2 k13_pay1 (iblk13 V c 0 ⟨0, hn⟩) (iblk13 V c 1 ⟨0, hn⟩)
  | n + 1, hn =>
    k13_pay2 (if (n + 1) % 5 = 0 then k13_pay1 else sc13 c n (Nat.lt_of_succ_lt hn)) (iblk13 V c 0 ⟨n + 1, hn⟩) (iblk13 V c 1 ⟨n + 1, hn⟩)

abbrev rest13 (c : Dev nD) : sProp 𝕄 :=
  Pipeline.scopedRestBut (Ix := Unit) (Name := ℕ) (U := UR sig nD τ) (Lvl := ℕ) (Val := Elt F) spec13 c [cc13_scratch0]

/-- Before position `n` the accumulator holds what point `n - 1` left, anything before the first point. -/
def Phi13 (c : Dev nD) (n : ℕ) : sProp 𝕄 :=
  iprop(∃ xs, ⌜∀ m hm, n = m + 1 → xs = sc13 V c m hm⌝ ∗ owns (c : Thread nD τ) scM13 fullShare xs ∗ rest13 c ∗ (∃ r, prngReg c r))

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => k13_pay3 (sc13 V c t.val t.isLt)
  Φ t := Phi13 V c t.val
  q _ := fullShare
  owed _ := 0

theorem A_eq13 (c : Dev nD) (w : Fin cfg13.W) : (dat13 V c).A w = V c (Pipeline.arrRef spec13 w) := rfl

end Cert.KernelIdeal.Hand

end
-- ==== Proof.KI.Mm13.lean ====
import proofs.«414074_j90701119357381_1_alg».proof.Proof.KI.Mm13Def
import proofs.«414074_j90701119357381_1_alg».proof.Proof.KI.MmRun11
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle13_2 : ∀ t : Fin cfg13.N, cfg13.idle 2 (grid13.coords t) = !decide (cond11_2 (grid13.coords t)) := by decide +kernel

abbrev ms13_0 (t : Fin cfg13.N) : Memref sig .tc .vmem S2048x2048 .bf16 := win13_0.stage (cfg13.slots t 0)
abbrev ms13_1 (t : Fin cfg13.N) : Memref sig .tc .vmem S2048x512 .bf16 := win13_1.stage (cfg13.slots t 1)
abbrev ms13_2 (t : Fin cfg13.N) : Memref sig .tc .vmem S2048x512 .bf16 := win13_2.stage (cfg13.slots t 2)

theorem PhiA_eq13 (c : Dev nD) :
    (Pipeline.ΦA spec13 c : sProp 𝕄)
      = iprop(iprop((∃ d, owns (c : Thread nD τ) scM13 fullShare d) ∗ rest13 c) ∗ (∃ r, prngReg c r)) := by
  unfold Pipeline.ΦA; rw [scopedRest13_split]; simp only [scM13, owns_whole]; try rfl

/-- One step of the accumulation, from what the point before left. -/
theorem sc_eq13 (c : Dev nD) (t : Fin cfg13.N) (xs : Vec F S2048x512 .f32) (hx : ∀ m hm, t.val = m + 1 → xs = sc13 V c m hm) :
    sc13 V c t.val t.isLt = k13_pay2 (if cond11_0 (grid13.coords t) then k13_pay1 else xs) (iblk13 V c 0 t) (iblk13 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k13_pay2 · _ _) (if_congr (hcond11_0 ⟨n + 1, hn⟩) rfl rfl).symm

theorem before13_0 (c : Dev nD) (t : Fin cfg13.N) (d) : (dat13 V c).before 0 t d = iblk13 V c 0 t :=
  (dat13 V c).before_fetched 0 t (fetch13_0 t) d
theorem before13_1 (c : Dev nD) (t : Fin cfg13.N) (d) : (dat13 V c).before 1 t d = iblk13 V c 1 t :=
  (dat13 V c).before_fetched 1 t (fetch13_1 t) d

theorem leaves13_2 (c : Dev nD) (t : Fin cfg13.N) (d) :
    owns (c : Thread nD τ) (ms13_2 t) fullShare
        (if cond11_2 (grid13.coords t) then k13_pay3 (sc13 V c t.val t.isLt) else (dat13 V c).before 2 t d)
      ⊢ (dat13 V c).leavesExact 2 t := by
  by_cases h : cond11_2 (grid13.coords t)
  · rw [if_pos h]; unfold Dat.leavesExact; rw [idle13_2 t, decide_eq_true h]; exact .rfl
  · rw [if_neg h, Dat.leavesExact_idle _ 2 t (by rw [idle13_2 t, decide_eq_false h]; rfl)
      (Bool.eq_false_iff.mpr fun hf => h ((hcond11_2 t).mpr ((flush13_2 t).mp hf)))]
    iintro H; iexists d; iexact H

theorem sound_body13 (c : Dev nD) (t : Fin cfg13.N) :
    iprop(Phi13 V c t.val ∗ (dat13 V c).owesAt () t.castSucc
        ∗ (∃ d, owns (c : Thread nD τ) (ms13_0 t) fullShare ((dat13 V c).before 0 t d))
        ∗ (∃ d, owns (c : Thread nD τ) (ms13_1 t) fullShare ((dat13 V c).before 1 t d))
        ∗ (∃ d, owns (c : Thread nD τ) (ms13_2 t) fullShare ((dat13 V c).before 2 t d)))
      ⊢ wp frame (wpE (defs₀ (F := F)) Variants.none c none) Set.univ (bodyAt13 t) fun _ =>
        iprop(Phi13 V c (t.val + 1) ∗ (dat13 V c).owesAt () t.castSucc
          ∗ owns (c : Thread nD τ) (ms13_0 t) fullShare (iblk13 V c 0 t)
          ∗ owns (c : Thread nD τ) (ms13_1 t) fullShare (iblk13 V c 1 t) ∗ (dat13 V c).leavesExact 2 t) := by
  simp only [before13_0, before13_1]; unfold Phi13
  iintro ⟨⟨%xs, %hx, HS, Hr, Hg⟩, Ho, ⟨%d_a, H_a⟩, ⟨%d_b, H_b⟩, ⟨%d_o, H_o⟩⟩
  refine BIBase.Entails.trans ?_ (kernelRun11 c (grid13.coords t) (ms13_0 t) (hstage13_0 _) (ms13_1 t) (hstage13_1 _) (ms13_2 t) (hstage13_2 _) scM13 (Memref.isWhole_whole _)
    (iblk13 V c 0 t) (iblk13 V c 1 t) ((dat13 V c).before 2 t d_o)
    (if cond11_2 (grid13.coords t) then k13_pay3 (sc13 V c t.val t.isLt) else (dat13 V c).before 2 t d_o) xs _
    (sc_eq13 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc13 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves13_2 V c t d_o); iexact H_o

theorem body_obligation13 (c : Dev nD) : BodyObligation (dat13 (F := F) V c) (defs₀ (F := F)) Variants.none () Set.univ := fun t => by
  rw [bigSep_W13, bigSep_W13]
  exact sound_body13 V c t

theorem Phi_in13 (c : Dev nD) : (Pipeline.ΦA spec13 c : sProp 𝕄) ⊢ (dat13 V c).Φ 0 := by
  rw [PhiA_eq13]; show _ ⊢ Phi13 V c 0; unfold Phi13
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out13 (c : Dev nD) : (dat13 V c).Φ (Fin.last cfg13.N) ⊢ (Pipeline.ΦA spec13 c : sProp 𝕄) := by
  rw [PhiA_eq13]; show Phi13 V c _ ⊢ _; unfold Phi13
  iintro ⟨%xs, -, HS, Hr, Hg⟩
  isplitl [HS Hr]
  · isplitl [HS]; · iexists _; iexact HS
    iexact Hr
  iexact Hg

end Cert.KernelIdeal.Hand

end
-- ==== Proof.KI.Acc14Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The output block after point `t`: the first two blocks' product added to zero, plus the third block. -/
noncomputable def out14 (c : Dev nD) (t : Fin cfg14.N) : Vec F S8192x128 .f32 :=
  k14_pay3 (k14_pay2 (k14_pay1 (F := F)) (iblk14 V c 0 t) (iblk14 V c 1 t)) (iblk14 V c 2 t)

/-- The accumulator is reset at every point, so the invariant keeps nothing of it. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 V c t
  Φ _ := Pipeline.ΦA spec14 c
  q _ := fullShare
  owed _ := 0

theorem A_eq14 (c : Dev nD) (w : Fin cfg14.W) : (dat14 V c).A w = V c (Pipeline.arrRef spec14 w) := rfl

end Cert.KernelIdeal.Hand

end
-- ==== Proof.KI.Acc14.lean ====
import proofs.«414074_j90701119357381_1_alg».proof.Proof.KI.Acc14Def
import proofs.«414074_j90701119357381_1_alg».proof.Proof.KI.AccRun10

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live14 : ∀ t : Fin cfg14.N, idle14 3 (grid14.coords t) = false := by decide +kernel

theorem hcond14 : ∀ t : Fin cfg14.N, k14_cond2 (grid14.coords t) = 1#1 := by decide +kernel

theorem before14 (c : Dev nD) (t : Fin cfg14.N) :
    (∀ d, (dat14 V c).before 0 t d = iblk14 V c 0 t) ∧ (∀ d, (dat14 V c).before 1 t d = iblk14 V c 1 t)
      ∧ ∀ d, (dat14 V c).before 2 t d = iblk14 V c 2 t := by
  refine ⟨fun d => ?_, fun d => ?_, fun d => ?_⟩ <;>
    exact ((dat14 V c).before_in_eq_fetched _ rfl (fun _ => rfl) (fun _ _ _ => rfl) (fun _ => rfl) t d).trans rfl

/-- The invariant with the accumulator's buffer split off the other scoped buffers. -/
theorem PhiEq14 (c : Dev nD) : ∃ R : sProp 𝕄, ∀ n, (dat14 V c).Φ n
    = iprop(iprop((∃ d, owns (c : Thread nD τ) (Memref.whole cc14_scratch0) fullShare d) ∗ R) ∗ (∃ r, prngReg c r)) :=
  ⟨_, fun _ => by
    show Pipeline.ΦA spec14 c = _
    unfold Pipeline.ΦA; rw [scopedRest14_split]; simp only [owns_whole]; rfl⟩

theorem body_obligation14 (c : Dev nD) : BodyObligation (dat14 (F := F) V c) (defs₀ (F := F)) Variants.none () Set.univ := fun t => by
  obtain ⟨R, hR⟩ := PhiEq14 V c
  rw [bigSep_W14, bigSep_W14, hR, hR]
  simp only [(before14 V c t).1, (before14 V c t).2.1, (before14 V c t).2.2]
  rw [live14 t]
  refine .trans ?_ (kernelRun10 c _ _ (hstage14_0 _) _ (hstage14_1 _) _ (hstage14_2 _) _ (hstage14_3 _) (Memref.whole cc14_scratch0)
    (Memref.isWhole_whole _) (hcond14 t) (iblk14 V c 0 t) (iblk14 V c 1 t) (iblk14 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in14 (c : Dev nD) : (Pipeline.ΦA spec14 c : sProp 𝕄) ⊢ (dat14 V c).Φ 0 := .rfl

theorem Phi_out14 (c : Dev nD) : (dat14 V c).Φ (Fin.last cfg14.N) ⊢ (Pipeline.ΦA spec14 c : sProp 𝕄) := .rfl

end Cert.KernelIdeal.Hand

end
-- ==== Proof.KI.Acc15Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The output block after point `t`: the first two blocks' product added to zero, plus the third block. -/
noncomputable def out15 (c : Dev nD) (t : Fin cfg15.N) : Vec F S8192x128 .f32 :=
  k15_pay3 (k15_pay2 (k15_pay1 (F := F)) (iblk15 V c 0 t) (iblk15 V c 1 t)) (iblk15 V c 2 t)

/-- The accumulator is reset at every point, so the invariant keeps nothing of it. -/
noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15 V c t
  Φ _ := Pipeline.ΦA spec15 c
  q _ := fullShare
  owed _ := 0

theorem A_eq15 (c : Dev nD) (w : Fin cfg15.W) : (dat15 V c).A w = V c (Pipeline.arrRef spec15 w) := rfl

end Cert.KernelIdeal.Hand

end
-- ==== Proof.KI.Acc15.lean ====
import proofs.«414074_j90701119357381_1_alg».proof.Proof.KI.Acc15Def
import proofs.«414074_j90701119357381_1_alg».proof.Proof.KI.AccRun10

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live15 : ∀ t : Fin cfg15.N, idle15 3 (grid15.coords t) = false := by decide +kernel

theorem hcond15 : ∀ t : Fin cfg15.N, k15_cond2 (grid15.coords t) = 1#1 := by decide +kernel

theorem before15 (c : Dev nD) (t : Fin cfg15.N) :
    (∀ d, (dat15 V c).before 0 t d = iblk15 V c 0 t) ∧ (∀ d, (dat15 V c).before 1 t d = iblk15 V c 1 t)
      ∧ ∀ d, (dat15 V c).before 2 t d = iblk15 V c 2 t := by
  refine ⟨fun d => ?_, fun d => ?_, fun d => ?_⟩ <;>
    exact ((dat15 V c).before_in_eq_fetched _ rfl (fun _ => rfl) (fun _ _ _ => rfl) (fun _ => rfl) t d).trans rfl

/-- The invariant with the accumulator's buffer split off the other scoped buffers. -/
theorem PhiEq15 (c : Dev nD) : ∃ R : sProp 𝕄, ∀ n, (dat15 V c).Φ n
    = iprop(iprop((∃ d, owns (c : Thread nD τ) (Memref.whole cc15_scratch0) fullShare d) ∗ R) ∗ (∃ r, prngReg c r)) :=
  ⟨_, fun _ => by
    show Pipeline.ΦA spec15 c = _
    unfold Pipeline.ΦA; rw [scopedRest15_split]; simp only [owns_whole]; rfl⟩

theorem body_obligation15 (c : Dev nD) : BodyObligation (dat15 (F := F) V c) (defs₀ (F := F)) Variants.none () Set.univ := fun t => by
  obtain ⟨R, hR⟩ := PhiEq15 V c
  rw [bigSep_W15, bigSep_W15, hR, hR]
  simp only [(before15 V c t).1, (before15 V c t).2.1, (before15 V c t).2.2]
  rw [live15 t]
  refine .trans ?_ (kernelRun10 c _ _ (hstage15_0 _) _ (hstage15_1 _) _ (hstage15_2 _) _ (hstage15_3 _) (Memref.whole cc15_scratch0)
    (Memref.isWhole_whole _) (hcond15 t) (iblk15 V c 0 t) (iblk15 V c 1 t) (iblk15 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in15 (c : Dev nD) : (Pipeline.ΦA spec15 c : sProp 𝕄) ⊢ (dat15 V c).Φ 0 := .rfl

theorem Phi_out15 (c : Dev nD) : (dat15 V c).Φ (Fin.last cfg15.N) ⊢ (Pipeline.ΦA spec15 c : sProp 𝕄) := .rfl

end Cert.KernelIdeal.Hand

end
-- ==== Proof.KI.Mm16Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

abbrev scM16 : Memref sig .tc .vmem S2048x512 .f32 := Memref.whole cc16_scratch0

/-- The accumulator after point `n`: the point's product added to zero at the first point of a run, else to what the
    point before left. -/
def sc16 (c : Dev nD) : (n : ℕ) → n < cfg16.N → Vec F S2048x512 .f32
  | 0, hn => k16_pay2 k16_pay1 (iblk16 V c 0 ⟨0, hn⟩) (iblk16 V c 1 ⟨0, hn⟩)
  | n + 1, hn =>
    k16_pay2 (if (n + 1) % 5 = 0 then k16_pay1 else sc16 c n (Nat.lt_of_succ_lt hn)) (iblk16 V c 0 ⟨n + 1, hn⟩) (iblk16 V c 1 ⟨n + 1, hn⟩)

abbrev rest16 (c : Dev nD) : sProp 𝕄 :=
  Pipeline.scopedRestBut (Ix := Unit) (Name := ℕ) (U := UR sig nD τ) (Lvl := ℕ) (Val := Elt F) spec16 c [cc16_scratch0]

/-- Before position `n` the accumulator holds what point `n - 1` left, anything before the first point. -/
def Phi16 (c : Dev nD) (n : ℕ) : sProp 𝕄 :=
  iprop(∃ xs, ⌜∀ m hm, n = m + 1 → xs = sc16 V c m hm⌝ ∗ owns (c : Thread nD τ) scM16 fullShare xs ∗ rest16 c ∗ (∃ r, prngReg c r))

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => k16_pay3 (sc16 V c t.val t.isLt)
  Φ t := Phi16 V c t.val
  q _ := fullShare
  owed _ := 0

theorem A_eq16 (c : Dev nD) (w : Fin cfg16.W) : (dat16 V c).A w = V c (Pipeline.arrRef spec16 w) := rfl

end Cert.KernelIdeal.Hand

end
-- ==== Proof.KI.Mm16.lean ====
import proofs.«414074_j90701119357381_1_alg».proof.Proof.KI.Mm16Def
import proofs.«414074_j90701119357381_1_alg».proof.Proof.KI.MmRun11
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle16_2 : ∀ t : Fin cfg16.N, cfg16.idle 2 (grid16.coords t) = !decide (cond11_2 (grid16.coords t)) := by decide +kernel

abbrev ms16_0 (t : Fin cfg16.N) : Memref sig .tc .vmem S2048x2048 .bf16 := win16_0.stage (cfg16.slots t 0)
abbrev ms16_1 (t : Fin cfg16.N) : Memref sig .tc .vmem S2048x512 .bf16 := win16_1.stage (cfg16.slots t 1)
abbrev ms16_2 (t : Fin cfg16.N) : Memref sig .tc .vmem S2048x512 .bf16 := win16_2.stage (cfg16.slots t 2)

theorem PhiA_eq16 (c : Dev nD) :
    (Pipeline.ΦA spec16 c : sProp 𝕄)
      = iprop(iprop((∃ d, owns (c : Thread nD τ) scM16 fullShare d) ∗ rest16 c) ∗ (∃ r, prngReg c r)) := by
  unfold Pipeline.ΦA; rw [scopedRest16_split]; simp only [scM16, owns_whole]; try rfl

/-- One step of the accumulation, from what the point before left. -/
theorem sc_eq16 (c : Dev nD) (t : Fin cfg16.N) (xs : Vec F S2048x512 .f32) (hx : ∀ m hm, t.val = m + 1 → xs = sc16 V c m hm) :
    sc16 V c t.val t.isLt = k16_pay2 (if cond11_0 (grid16.coords t) then k16_pay1 else xs) (iblk16 V c 0 t) (iblk16 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k16_pay2 · _ _) (if_congr (hcond11_0 ⟨n + 1, hn⟩) rfl rfl).symm

theorem before16_0 (c : Dev nD) (t : Fin cfg16.N) (d) : (dat16 V c).before 0 t d = iblk16 V c 0 t :=
  (dat16 V c).before_fetched 0 t (fetch16_0 t) d
theorem before16_1 (c : Dev nD) (t : Fin cfg16.N) (d) : (dat16 V c).before 1 t d = iblk16 V c 1 t :=
  (dat16 V c).before_fetched 1 t (fetch16_1 t) d

theorem leaves16_2 (c : Dev nD) (t : Fin cfg16.N) (d) :
    owns (c : Thread nD τ) (ms16_2 t) fullShare
        (if cond11_2 (grid16.coords t) then k16_pay3 (sc16 V c t.val t.isLt) else (dat16 V c).before 2 t d)
      ⊢ (dat16 V c).leavesExact 2 t := by
  by_cases h : cond11_2 (grid16.coords t)
  · rw [if_pos h]; unfold Dat.leavesExact; rw [idle16_2 t, decide_eq_true h]; exact .rfl
  · rw [if_neg h, Dat.leavesExact_idle _ 2 t (by rw [idle16_2 t, decide_eq_false h]; rfl)
      (Bool.eq_false_iff.mpr fun hf => h ((hcond11_2 t).mpr ((flush16_2 t).mp hf)))]
    iintro H; iexists d; iexact H

theorem sound_body16 (c : Dev nD) (t : Fin cfg16.N) :
    iprop(Phi16 V c t.val ∗ (dat16 V c).owesAt () t.castSucc
        ∗ (∃ d, owns (c : Thread nD τ) (ms16_0 t) fullShare ((dat16 V c).before 0 t d))
        ∗ (∃ d, owns (c : Thread nD τ) (ms16_1 t) fullShare ((dat16 V c).before 1 t d))
        ∗ (∃ d, owns (c : Thread nD τ) (ms16_2 t) fullShare ((dat16 V c).before 2 t d)))
      ⊢ wp frame (wpE (defs₀ (F := F)) Variants.none c none) Set.univ (bodyAt16 t) fun _ =>
        iprop(Phi16 V c (t.val + 1) ∗ (dat16 V c).owesAt () t.castSucc
          ∗ owns (c : Thread nD τ) (ms16_0 t) fullShare (iblk16 V c 0 t)
          ∗ owns (c : Thread nD τ) (ms16_1 t) fullShare (iblk16 V c 1 t) ∗ (dat16 V c).leavesExact 2 t) := by
  simp only [before16_0, before16_1]; unfold Phi16
  iintro ⟨⟨%xs, %hx, HS, Hr, Hg⟩, Ho, ⟨%d_a, H_a⟩, ⟨%d_b, H_b⟩, ⟨%d_o, H_o⟩⟩
  refine BIBase.Entails.trans ?_ (kernelRun11 c (grid16.coords t) (ms16_0 t) (hstage16_0 _) (ms16_1 t) (hstage16_1 _) (ms16_2 t) (hstage16_2 _) scM16 (Memref.isWhole_whole _)
    (iblk16 V c 0 t) (iblk16 V c 1 t) ((dat16 V c).before 2 t d_o)
    (if cond11_2 (grid16.coords t) then k16_pay3 (sc16 V c t.val t.isLt) else (dat16 V c).before 2 t d_o) xs _
    (sc_eq16 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc16 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves16_2 V c t d_o); iexact H_o

theorem body_obligation16 (c : Dev nD) : BodyObligation (dat16 (F := F) V c) (defs₀ (F := F)) Variants.none () Set.univ := fun t => by
  rw [bigSep_W16, bigSep_W16]
  exact sound_body16 V c t

theorem Phi_in16 (c : Dev nD) : (Pipeline.ΦA spec16 c : sProp 𝕄) ⊢ (dat16 V c).Φ 0 := by
  rw [PhiA_eq16]; show _ ⊢ Phi16 V c 0; unfold Phi16
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out16 (c : Dev nD) : (dat16 V c).Φ (Fin.last cfg16.N) ⊢ (Pipeline.ΦA spec16 c : sProp 𝕄) := by
  rw [PhiA_eq16]; show Phi16 V c _ ⊢ _; unfold Phi16
  iintro ⟨%xs, -, HS, Hr, Hg⟩
  isplitl [HS Hr]
  · isplitl [HS]; · iexists _; iexact HS
    iexact Hr
  iexact Hg

end Cert.KernelIdeal.Hand

end
-- ==== Proof.KI.Acc17Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The output block after point `t`: the first two blocks' product added to zero, plus the third block. -/
noncomputable def out17 (c : Dev nD) (t : Fin cfg17.N) : Vec F S8192x128 .f32 :=
  k17_pay3 (k17_pay2 (k17_pay1 (F := F)) (iblk17 V c 0 t) (iblk17 V c 1 t)) (iblk17 V c 2 t)

/-- The accumulator is reset at every point, so the invariant keeps nothing of it. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17 V c t
  Φ _ := Pipeline.ΦA spec17 c
  q _ := fullShare
  owed _ := 0

theorem A_eq17 (c : Dev nD) (w : Fin cfg17.W) : (dat17 V c).A w = V c (Pipeline.arrRef spec17 w) := rfl

end Cert.KernelIdeal.Hand

end
-- ==== Proof.KI.Acc17.lean ====
import proofs.«414074_j90701119357381_1_alg».proof.Proof.KI.Acc17Def
import proofs.«414074_j90701119357381_1_alg».proof.Proof.KI.AccRun10

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live17 : ∀ t : Fin cfg17.N, idle17 3 (grid17.coords t) = false := by decide +kernel

theorem hcond17 : ∀ t : Fin cfg17.N, k17_cond2 (grid17.coords t) = 1#1 := by decide +kernel

theorem before17 (c : Dev nD) (t : Fin cfg17.N) :
    (∀ d, (dat17 V c).before 0 t d = iblk17 V c 0 t) ∧ (∀ d, (dat17 V c).before 1 t d = iblk17 V c 1 t)
      ∧ ∀ d, (dat17 V c).before 2 t d = iblk17 V c 2 t := by
  refine ⟨fun d => ?_, fun d => ?_, fun d => ?_⟩ <;>
    exact ((dat17 V c).before_in_eq_fetched _ rfl (fun _ => rfl) (fun _ _ _ => rfl) (fun _ => rfl) t d).trans rfl

/-- The invariant with the accumulator's buffer split off the other scoped buffers. -/
theorem PhiEq17 (c : Dev nD) : ∃ R : sProp 𝕄, ∀ n, (dat17 V c).Φ n
    = iprop(iprop((∃ d, owns (c : Thread nD τ) (Memref.whole cc17_scratch0) fullShare d) ∗ R) ∗ (∃ r, prngReg c r)) :=
  ⟨_, fun _ => by
    show Pipeline.ΦA spec17 c = _
    unfold Pipeline.ΦA; rw [scopedRest17_split]; simp only [owns_whole]; rfl⟩

theorem body_obligation17 (c : Dev nD) : BodyObligation (dat17 (F := F) V c) (defs₀ (F := F)) Variants.none () Set.univ := fun t => by
  obtain ⟨R, hR⟩ := PhiEq17 V c
  rw [bigSep_W17, bigSep_W17, hR, hR]
  simp only [(before17 V c t).1, (before17 V c t).2.1, (before17 V c t).2.2]
  rw [live17 t]
  refine .trans ?_ (kernelRun10 c _ _ (hstage17_0 _) _ (hstage17_1 _) _ (hstage17_2 _) _ (hstage17_3 _) (Memref.whole cc17_scratch0)
    (Memref.isWhole_whole _) (hcond17 t) (iblk17 V c 0 t) (iblk17 V c 1 t) (iblk17 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in17 (c : Dev nD) : (Pipeline.ΦA spec17 c : sProp 𝕄) ⊢ (dat17 V c).Φ 0 := .rfl

theorem Phi_out17 (c : Dev nD) : (dat17 V c).Φ (Fin.last cfg17.N) ⊢ (Pipeline.ΦA spec17 c : sProp 𝕄) := .rfl

end Cert.KernelIdeal.Hand

end
-- ==== Proof.KI.Mm18Def.lean ====
import proofs.«414074_j90701119357381_1_alg».proof.Proof.Gen.KernelIdeal.Launch
import proofs.«414074_j90701119357381_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

abbrev scM18 : Memref sig .tc .vmem S2048x512 .f32 := Memref.whole cc18_scratch0

/-- The accumulator after point `n`: the point's product added to zero at the first point of a run, else to what the
    point before left. -/
def sc18 (c : Dev nD) : (n : ℕ) → n < cfg18.N → Vec F S2048x512 .f32
  | 0, hn => k18_pay2 k18_pay1 (iblk18 V c 0 ⟨0, hn⟩) (iblk18 V c 1 ⟨0, hn⟩)
  | n + 1, hn =>
    k18_pay2 (if (n + 1) % 5 = 0 then k18_pay1 else sc18 c n (Nat.lt_of_succ_lt hn)) (iblk18 V c 0 ⟨n + 1, hn⟩) (iblk18 V c 1 ⟨n + 1, hn⟩)

abbrev rest18 (c : Dev nD) : sProp 𝕄 :=
  Pipeline.scopedRestBut (Ix := Unit) (Name := ℕ) (U := UR sig nD τ) (Lvl := ℕ) (Val := Elt F) spec18 c [cc18_scratch0]

/-- Before position `n` the accumulator holds what point `n - 1` left, anything before the first point. -/
def Phi18 (c : Dev nD) (n : ℕ) : sProp 𝕄 :=
  iprop(∃ xs, ⌜∀ m hm, n = m + 1 → xs = sc18 V c m hm⌝ ∗ owns (c : Thread nD τ) scM18 fullShare xs ∗ rest18 c ∗ (∃ r, prngReg c r))

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => k18_pay3 (sc18 V c t.val t.isLt)
  Φ t := Phi18 V c t.val
  q _ := fullShare
  owed _ := 0

theorem A_eq18 (c : Dev nD) (w : Fin cfg18.W) : (dat18 V c).A w = V c (Pipeline.arrRef spec18 w) := rfl

end Cert.KernelIdeal.Hand

end
-- ==== Proof.KI.Mm18.lean ====
import proofs.«414074_j90701119357381_1_alg».proof.Proof.KI.Mm18Def
import proofs.«414074_j90701119357381_1_alg».proof.Proof.KI.MmRun11
import proofs.«414074_j90701119357381_1_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idle18_2 : ∀ t : Fin cfg18.N, cfg18.idle 2 (grid18.coords t) = !decide (cond11_2 (grid18.coords t)) := by decide +kernel

abbrev ms18_0 (t : Fin cfg18.N) : Memref sig .tc .vmem S2048x2048 .bf16 := win18_0.stage (cfg18.slots t 0)
abbrev ms18_1 (t : Fin cfg18.N) : Memref sig .tc .vmem S2048x512 .bf16 := win18_1.stage (cfg18.slots t 1)
abbrev ms18_2 (t : Fin cfg18.N) : Memref sig .tc .vmem S2048x512 .bf16 := win18_2.stage (cfg18.slots t 2)

theorem PhiA_eq18 (c : Dev nD) :
    (Pipeline.ΦA spec18 c : sProp 𝕄)
      = iprop(iprop((∃ d, owns (c : Thread nD τ) scM18 fullShare d) ∗ rest18 c) ∗ (∃ r, prngReg c r)) := by
  unfold Pipeline.ΦA; rw [scopedRest18_split]; simp only [scM18, owns_whole]; try rfl

/-- One step of the accumulation, from what the point before left. -/
theorem sc_eq18 (c : Dev nD) (t : Fin cfg18.N) (xs : Vec F S2048x512 .f32) (hx : ∀ m hm, t.val = m + 1 → xs = sc18 V c m hm) :
    sc18 V c t.val t.isLt = k18_pay2 (if cond11_0 (grid18.coords t) then k18_pay1 else xs) (iblk18 V c 0 t) (iblk18 V c 1 t) := by
  obtain ⟨n, hn⟩ := t
  cases n with
  | zero => rw [if_pos ((hcond11_0 ⟨0, hn⟩).mpr rfl)]; rfl
  | succ n =>
    cases hx n (Nat.lt_of_succ_lt hn) rfl
    exact congrArg (k18_pay2 · _ _) (if_congr (hcond11_0 ⟨n + 1, hn⟩) rfl rfl).symm

theorem before18_0 (c : Dev nD) (t : Fin cfg18.N) (d) : (dat18 V c).before 0 t d = iblk18 V c 0 t :=
  (dat18 V c).before_fetched 0 t (fetch18_0 t) d
theorem before18_1 (c : Dev nD) (t : Fin cfg18.N) (d) : (dat18 V c).before 1 t d = iblk18 V c 1 t :=
  (dat18 V c).before_fetched 1 t (fetch18_1 t) d

theorem leaves18_2 (c : Dev nD) (t : Fin cfg18.N) (d) :
    owns (c : Thread nD τ) (ms18_2 t) fullShare
        (if cond11_2 (grid18.coords t) then k18_pay3 (sc18 V c t.val t.isLt) else (dat18 V c).before 2 t d)
      ⊢ (dat18 V c).leavesExact 2 t := by
  by_cases h : cond11_2 (grid18.coords t)
  · rw [if_pos h]; unfold Dat.leavesExact; rw [idle18_2 t, decide_eq_true h]; exact .rfl
  · rw [if_neg h, Dat.leavesExact_idle _ 2 t (by rw [idle18_2 t, decide_eq_false h]; rfl)
      (Bool.eq_false_iff.mpr fun hf => h ((hcond11_2 t).mpr ((flush18_2 t).mp hf)))]
    iintro H; iexists d; iexact H

theorem sound_body18 (c : Dev nD) (t : Fin cfg18.N) :
    iprop(Phi18 V c t.val ∗ (dat18 V c).owesAt () t.castSucc
        ∗ (∃ d, owns (c : Thread nD τ) (ms18_0 t) fullShare ((dat18 V c).before 0 t d))
        ∗ (∃ d, owns (c : Thread nD τ) (ms18_1 t) fullShare ((dat18 V c).before 1 t d))
        ∗ (∃ d, owns (c : Thread nD τ) (ms18_2 t) fullShare ((dat18 V c).before 2 t d)))
      ⊢ wp frame (wpE (defs₀ (F := F)) Variants.none c none) Set.univ (bodyAt18 t) fun _ =>
        iprop(Phi18 V c (t.val + 1) ∗ (dat18 V c).owesAt () t.castSucc
          ∗ owns (c : Thread nD τ) (ms18_0 t) fullShare (iblk18 V c 0 t)
          ∗ owns (c : Thread nD τ) (ms18_1 t) fullShare (iblk18 V c 1 t) ∗ (dat18 V c).leavesExact 2 t) := by
  simp only [before18_0, before18_1]; unfold Phi18
  iintro ⟨⟨%xs, %hx, HS, Hr, Hg⟩, Ho, ⟨%d_a, H_a⟩, ⟨%d_b, H_b⟩, ⟨%d_o, H_o⟩⟩
  refine BIBase.Entails.trans ?_ (kernelRun11 c (grid18.coords t) (ms18_0 t) (hstage18_0 _) (ms18_1 t) (hstage18_1 _) (ms18_2 t) (hstage18_2 _) scM18 (Memref.isWhole_whole _)
    (iblk18 V c 0 t) (iblk18 V c 1 t) ((dat18 V c).before 2 t d_o)
    (if cond11_2 (grid18.coords t) then k18_pay3 (sc18 V c t.val t.isLt) else (dat18 V c).before 2 t d_o) xs _
    (sc_eq18 V c t xs hx) rfl Set.univ _)
  iintro ⟨⟨⟨⟨⟨⟨HS, Hr⟩, Hg⟩, Ho⟩, H_a⟩, H_b⟩, H_o⟩
  isplitl [H_a]; · iexact H_a
  isplitl [H_b]; · iexact H_b
  isplitl [H_o]; · iexact H_o
  isplitl [HS]; · iexact HS
  iintro ⟨H_a, H_b, H_o, HS⟩
  isplitl [HS Hr Hg]
  · iexists sc18 V c t.val t.isLt; isplitr; · ipureintro; exact fun m hm h => by cases h; rfl
    isplitl [HS]; · iexact HS
    isplitl [Hr]; · iexact Hr
    iexact Hg
  isplitl [Ho]; · iexact Ho
  isplitl [H_a]; · iexact H_a
  isplitl [H_b]; · iexact H_b
  iapply (leaves18_2 V c t d_o); iexact H_o

theorem body_obligation18 (c : Dev nD) : BodyObligation (dat18 (F := F) V c) (defs₀ (F := F)) Variants.none () Set.univ := fun t => by
  rw [bigSep_W18, bigSep_W18]
  exact sound_body18 V c t

theorem Phi_in18 (c : Dev nD) : (Pipeline.ΦA spec18 c : sProp 𝕄) ⊢ (dat18 V c).Φ 0 := by
  rw [PhiA_eq18]; show _ ⊢ Phi18 V c 0; unfold Phi18
  iintro ⟨⟨⟨%d, HS⟩, Hr⟩, Hg⟩
  iexists d; isplitr; · ipureintro; exact fun m _ h => absurd h.symm (Nat.succ_ne_zero m)
  isplitl [HS]; · iexact HS
  isplitl [Hr]; · iexact Hr
  iexact Hg

theorem Phi_out18 (c : Dev nD) : (dat18 V c).Φ (Fin.last cfg18.N) ⊢ (Pipeline.ΦA spec18 c : sProp 𝕄) := by
  rw [PhiA_eq18]; show Phi18 V c _ ⊢ _; unfold Phi18
  iintro ⟨%xs, -, HS, Hr, Hg⟩
  isplitl [HS Hr]
  · isplitl [HS]; · iexists _; iexact HS
    iexact Hr
  iexact Hg

end Cert.KernelIdeal.Hand

end
-- ==== Proof.KI.Acc19Def.lean ====
import proofs.«414074_j90701119357381_1_alg».proof.Proof.Gen.KernelIdeal.Launch
import proofs.«414074_j90701119357381_1_alg».proof.Proof.Gen.KernelIdeal.Skeleton
import proofs.«414074_j90701119357381_1_alg».proof.Proof.Gen.KernelIdeal.Points
import Idealize.ShloMosaic.Lib.Pipeline.FrameBody
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The output block after point `t`: the first two blocks' product added to zero, plus the third block. -/
noncomputable def out19 (c : Dev nD) (t : Fin cfg19.N) : Vec F S8192x128 .f32 :=
  k19_pay3 (k19_pay2 (k19_pay1 (F := F)) (iblk19 V c 0 t) (iblk19 V c 1 t)) (iblk19 V c 2 t)

/-- The accumulator is reset at every point, so the invariant keeps nothing of it. -/
noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19 V c t
  Φ _ := Pipeline.ΦA spec19 c
  q _ := fullShare
  owed _ := 0

theorem A_eq19 (c : Dev nD) (w : Fin cfg19.W) : (dat19 V c).A w = V c (Pipeline.arrRef spec19 w) := rfl

end Cert.KernelIdeal.Hand

end
-- ==== Proof.KI.Acc19.lean ====
import proofs.«414074_j90701119357381_1_alg».proof.Proof.KI.Acc19Def
import proofs.«414074_j90701119357381_1_alg».proof.Proof.KI.AccRun10

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live19 : ∀ t : Fin cfg19.N, idle19 3 (grid19.coords t) = false := by decide +kernel

theorem hcond19 : ∀ t : Fin cfg19.N, k19_cond2 (grid19.coords t) = 1#1 := by decide +kernel

theorem before19 (c : Dev nD) (t : Fin cfg19.N) :
    (∀ d, (dat19 V c).before 0 t d = iblk19 V c 0 t) ∧ (∀ d, (dat19 V c).before 1 t d = iblk19 V c 1 t)
      ∧ ∀ d, (dat19 V c).before 2 t d = iblk19 V c 2 t := by
  refine ⟨fun d => ?_, fun d => ?_, fun d => ?_⟩ <;>
    exact ((dat19 V c).before_in_eq_fetched _ rfl (fun _ => rfl) (fun _ _ _ => rfl) (fun _ => rfl) t d).trans rfl

/-- The invariant with the accumulator's buffer split off the other scoped buffers. -/
theorem PhiEq19 (c : Dev nD) : ∃ R : sProp 𝕄, ∀ n, (dat19 V c).Φ n
    = iprop(iprop((∃ d, owns (c : Thread nD τ) (Memref.whole cc19_scratch0) fullShare d) ∗ R) ∗ (∃ r, prngReg c r)) :=
  ⟨_, fun _ => by
    show Pipeline.ΦA spec19 c = _
    unfold Pipeline.ΦA; rw [scopedRest19_split]; simp only [owns_whole]; rfl⟩

theorem body_obligation19 (c : Dev nD) : BodyObligation (dat19 (F := F) V c) (defs₀ (F := F)) Variants.none () Set.univ := fun t => by
  obtain ⟨R, hR⟩ := PhiEq19 V c
  rw [bigSep_W19, bigSep_W19, hR, hR]
  simp only [(before19 V c t).1, (before19 V c t).2.1, (before19 V c t).2.2]
  rw [live19 t]
  refine .trans ?_ (kernelRun10 c _ _ (hstage19_0 _) _ (hstage19_1 _) _ (hstage19_2 _) _ (hstage19_3 _) (Memref.whole cc19_scratch0)
    (Memref.isWhole_whole _) (hcond19 t) (iblk19 V c 0 t) (iblk19 V c 1 t) (iblk19 V c 2 t) Set.univ _)
  iintro ⟨⟨⟨HS, HR⟩, Hg⟩, Hw, ⟨%d_a, HA⟩, ⟨%d_b, HB⟩, ⟨%d_c, HC⟩, ⟨%d_o, HO⟩⟩
  iframe
  isplitl [HO]; · iexists _; iexact HO
  iintro ⟨HA, HB, HC, HO, HS⟩
  isplitl [HS]; · iexists _; iexact HS
  isplitl [Hw]; · iexact Hw
  isplitl [HA]; · iexact HA
  isplitl [HB]; · iexact HB
  isplitl [HC]; · iexact HC
  iexact HO

theorem Phi_in19 (c : Dev nD) : (Pipeline.ΦA spec19 c : sProp 𝕄) ⊢ (dat19 V c).Φ 0 := .rfl

theorem Phi_out19 (c : Dev nD) : (dat19 V c).Φ (Fin.last cfg19.N) ⊢ (Pipeline.ΦA spec19 c : sProp 𝕄) := .rfl

end Cert.KernelIdeal.Hand

end
-- ==== Proof.KI.Asm.lean ====
import proofs.«414074_j90701119357381_1_alg».proof.Proof.RegionsKernelIdeal
import proofs.«414074_j90701119357381_1_alg».proof.Proof.KI.Acc0
import proofs.«414074_j90701119357381_1_alg».proof.Proof.KI.Mm1
import proofs.«414074_j90701119357381_1_alg».proof.Proof.KI.Acc2
import proofs.«414074_j90701119357381_1_alg».proof.Proof.KI.Mm3
import proofs.«414074_j90701119357381_1_alg».proof.Proof.KI.Acc4
import proofs.«414074_j90701119357381_1_alg».proof.Proof.KI.Acc5
import proofs.«414074_j90701119357381_1_alg».proof.Proof.KI.Mm6
import proofs.«414074_j90701119357381_1_alg».proof.Proof.KI.Acc7
import proofs.«414074_j90701119357381_1_alg».proof.Proof.KI.Mm8
import proofs.«414074_j90701119357381_1_alg».proof.Proof.KI.Acc9
import proofs.«414074_j90701119357381_1_alg».proof.Proof.KI.Acc10
import proofs.«414074_j90701119357381_1_alg».proof.Proof.KI.Mm11
import proofs.«414074_j90701119357381_1_alg».proof.Proof.KI.Acc12
import proofs.«414074_j90701119357381_1_alg».proof.Proof.KI.Mm13
import proofs.«414074_j90701119357381_1_alg».proof.Proof.KI.Acc14
import proofs.«414074_j90701119357381_1_alg».proof.Proof.KI.Acc15
import proofs.«414074_j90701119357381_1_alg».proof.Proof.KI.Mm16
import proofs.«414074_j90701119357381_1_alg».proof.Proof.KI.Acc17
import proofs.«414074_j90701119357381_1_alg».proof.Proof.KI.Mm18
import proofs.«414074_j90701119357381_1_alg».proof.Proof.KI.Acc19
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev toU (W : Dev nD → Valuation τ sig (Elt F)) (c : Dev nD) (b : Ref sig .tc) : Buf (Elt F) ((c : Thread nD τ).loc b) := W c b

/-- Replacing one buffer's contents leaves every other buffer's. -/
theorem upd_of_ne (W : Valuation τ sig (Elt F)) {r b : Ref sig .tc} (x : (Proc.devRef (τ := τ) .tc r).ty.Contents (Elt F)) (hb : b ≠ r) :
    Function.update W r x b = W b := Function.update_of_ne (StableHlo.devRef_ne_of_ne hb) _ _

/-- Equal states stay equal when the first's buffer `r` is set to what the second holds there after its own update at `r`. -/
theorem upd_eq {V W : Valuation τ sig (Elt F)} (h : V = W) (r : Ref sig .tc) (x : (Proc.devRef (τ := τ) .tc r).ty.Contents (Elt F)) :
    Function.update V r (Function.update W r x r) = Function.update W r x := by rw [h, Function.update_self]

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A region that changes only its output window `wo`'s array, as a segment from the buffers at `Win` to the buffers at `Wout`. -/
def mkReg (pd : (p : Fin 20) → (c : Dev nD) → Dat τ (Elt F) Unit ℕ (UR sig nD τ) ℕ (cfgs p) c) (p : Fin 20)
    (lf : Pipeline.LaunchFacts (nD := nD) (τ := τ) cfgs p) (Win Wout : Dev nD → Valuation τ sig (Elt F))
    (wo : Fin (cfgs p).W) (hA : ∀ c w, (pd p c).A w = toU Win c (Pipeline.arrRef (cfgs p).spec w))
    (hbody : ∀ c, BodyObligation (pd p c) (defs₀ (F := F)) Variants.none () Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄))
    (hio : ∀ w, w ≠ wo → ((cfgs p).win w).isOut = false := by decide)
    (hW : ∀ c, Wout c = Function.update (Win c) (Pipeline.arrRef (cfgs p).spec wo) ((pd p c).arrAt wo (cfgs p).N) := by exact fun _ => rfl)
    (hd : ∀ c, (pd p c).q = (fun _ => fullShare) ∧ (pd p c).owed = (fun _ => 0) ∧ (pd p c).recorded 0 = Set.univ := by exact fun _ => ⟨rfl, rfl, rfl⟩) :
    Pipeline.RegionSeg (pcfgs (F := F)) GenP.adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => congrFun (hd c).2.1
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (toU Win c)
  hentry c := by
    rw [Pipeline.ownSems0_none]
    have hsplit := Pipeline.arrays_of_unscopedBufs (p := p) (pcfgs (F := F)) GenP.adm pd lf.win lf.arr_whole c
      ((pd p c).share_full (congrFun (hd c).1)) (toU Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(hd c).2.1]
      icases HO with ⟨%W, HO⟩; iexists W; isplitr; · ipureintro; exact fun _ _ => Or.inl ((hd c).2.2 ▸ trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hF : ∀ w, (pd p c).arrAt w (cfgs p).N = toU Wout c (Pipeline.arrRef (cfgs p).spec w) := fun w => by
      refine .trans ?_ (congrFun (hW c) _).symm
      by_cases h : w = wo
      · subst h; exact (Function.update_self _ _ (Win c)).symm
      · exact ((pd p c).arrAt_in w (hio w h) _).trans ((hA c w).trans (upd_of_ne _ _ (lf.win.arr_inj.ne h)).symm)
    have hjoin := Pipeline.unscopedBufs_of_arrays (p := p) (pcfgs (F := F)) GenP.adm (Ix := Unit) (Name := ℕ) (U := UR sig nD τ) (Lvl := ℕ)
      lf.win lf.arr_whole c pd ((pd p c).share_full (congrFun (hd c).1)) (toU Win c) (toU Wout c) ((pd p c).arrAt · (cfgs p).N) hF
      fun b hb => (congrFun (hW c) _).trans (upd_of_ne _ _ fun e => hb (Finset.mem_image.mpr ⟨wo, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(hd c).2.1]
    icases HO with ⟨%W, -, HO⟩; iexists W; iexact HO

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev U3 := toU (W3 m)
def W4 (c : Dev nD) : Valuation τ sig (Elt F) := Function.update (W3 m c) main_v53 ((dat0 (U3 m) c).arrAt 3 cfg0.N)
theorem W4_self (c : Dev nD) : W4 m c main_v53 = (dat0 (U3 m) c).arrAt 3 cfg0.N := Function.update_self ..
abbrev U4 := toU (W4 m)
def W5 (c : Dev nD) : Valuation τ sig (Elt F) := Function.update (W4 m c) main_v54 ((dat1 (U4 m) c).arrAt 2 cfg1.N)
theorem W5_self (c : Dev nD) : W5 m c main_v54 = (dat1 (U4 m) c).arrAt 2 cfg1.N := Function.update_self ..
abbrev W6 (c : Dev nD) : Valuation τ sig (Elt F) := StableHlo.after hostOps2 (W5 m c)
abbrev U6 := toU (W6 m)
def W7 (c : Dev nD) : Valuation τ sig (Elt F) := Function.update (W6 m c) main_v59 ((dat2 (U6 m) c).arrAt 3 cfg2.N)
theorem W7_self (c : Dev nD) : W7 m c main_v59 = (dat2 (U6 m) c).arrAt 3 cfg2.N := Function.update_self ..
abbrev U7 := toU (W7 m)
def W8 (c : Dev nD) : Valuation τ sig (Elt F) := Function.update (W7 m c) main_v60 ((dat3 (U7 m) c).arrAt 2 cfg3.N)
theorem W8_self (c : Dev nD) : W8 m c main_v60 = (dat3 (U7 m) c).arrAt 2 cfg3.N := Function.update_self ..
abbrev W9 (c : Dev nD) : Valuation τ sig (Elt F) := StableHlo.after hostOps4 (W8 m c)
abbrev U9 := toU (W9 m)
def W10 (c : Dev nD) : Valuation τ sig (Elt F) := Function.update (W9 m c) main_v65 ((dat4 (U9 m) c).arrAt 3 cfg4.N)
theorem W10_self (c : Dev nD) : W10 m c main_v65 = (dat4 (U9 m) c).arrAt 3 cfg4.N := Function.update_self ..
abbrev W11 (c : Dev nD) : Valuation τ sig (Elt F) := StableHlo.after hostOps5 (W10 m c)
abbrev U11 := toU (W11 m)
def W12 (c : Dev nD) : Valuation τ sig (Elt F) := Function.update (W11 m c) main_v70 ((dat5 (U11 m) c).arrAt 3 cfg5.N)
theorem W12_self (c : Dev nD) : W12 m c main_v70 = (dat5 (U11 m) c).arrAt 3 cfg5.N := Function.update_self ..
abbrev U12 := toU (W12 m)
def W13 (c : Dev nD) : Valuation τ sig (Elt F) := Function.update (W12 m c) main_v71 ((dat6 (U12 m) c).arrAt 2 cfg6.N)
theorem W13_self (c : Dev nD) : W13 m c main_v71 = (dat6 (U12 m) c).arrAt 2 cfg6.N := Function.update_self ..
abbrev W14 (c : Dev nD) : Valuation τ sig (Elt F) := StableHlo.after hostOps7 (W13 m c)
abbrev U14 := toU (W14 m)
def W15 (c : Dev nD) : Valuation τ sig (Elt F) := Function.update (W14 m c) main_v76 ((dat7 (U14 m) c).arrAt 3 cfg7.N)
theorem W15_self (c : Dev nD) : W15 m c main_v76 = (dat7 (U14 m) c).arrAt 3 cfg7.N := Function.update_self ..
abbrev U15 := toU (W15 m)
def W16 (c : Dev nD) : Valuation τ sig (Elt F) := Function.update (W15 m c) main_v77 ((dat8 (U15 m) c).arrAt 2 cfg8.N)
theorem W16_self (c : Dev nD) : W16 m c main_v77 = (dat8 (U15 m) c).arrAt 2 cfg8.N := Function.update_self ..
abbrev W17 (c : Dev nD) : Valuation τ sig (Elt F) := StableHlo.after hostOps9 (W16 m c)
abbrev U17 := toU (W17 m)
def W18 (c : Dev nD) : Valuation τ sig (Elt F) := Function.update (W17 m c) main_v82 ((dat9 (U17 m) c).arrAt 3 cfg9.N)
theorem W18_self (c : Dev nD) : W18 m c main_v82 = (dat9 (U17 m) c).arrAt 3 cfg9.N := Function.update_self ..
abbrev W19 (c : Dev nD) : Valuation τ sig (Elt F) := StableHlo.after hostOps10 (W18 m c)
abbrev U19 := toU (W19 m)
def W20 (c : Dev nD) : Valuation τ sig (Elt F) := Function.update (W19 m c) main_v91 ((dat10 (U19 m) c).arrAt 3 cfg10.N)
theorem W20_self (c : Dev nD) : W20 m c main_v91 = (dat10 (U19 m) c).arrAt 3 cfg10.N := Function.update_self ..
abbrev U20 := toU (W20 m)
def W21 (c : Dev nD) : Valuation τ sig (Elt F) := Function.update (W20 m c) main_v92 ((dat11 (U20 m) c).arrAt 2 cfg11.N)
theorem W21_self (c : Dev nD) : W21 m c main_v92 = (dat11 (U20 m) c).arrAt 2 cfg11.N := Function.update_self ..
abbrev W22 (c : Dev nD) : Valuation τ sig (Elt F) := StableHlo.after hostOps12 (W21 m c)
abbrev U22 := toU (W22 m)
def W23 (c : Dev nD) : Valuation τ sig (Elt F) := Function.update (W22 m c) main_v97 ((dat12 (U22 m) c).arrAt 3 cfg12.N)
theorem W23_self (c : Dev nD) : W23 m c main_v97 = (dat12 (U22 m) c).arrAt 3 cfg12.N := Function.update_self ..
abbrev U23 := toU (W23 m)
def W24 (c : Dev nD) : Valuation τ sig (Elt F) := Function.update (W23 m c) main_v98 ((dat13 (U23 m) c).arrAt 2 cfg13.N)
theorem W24_self (c : Dev nD) : W24 m c main_v98 = (dat13 (U23 m) c).arrAt 2 cfg13.N := Function.update_self ..
abbrev W25 (c : Dev nD) : Valuation τ sig (Elt F) := StableHlo.after hostOps14 (W24 m c)
abbrev U25 := toU (W25 m)
def W26 (c : Dev nD) : Valuation τ sig (Elt F) := Function.update (W25 m c) main_v103 ((dat14 (U25 m) c).arrAt 3 cfg14.N)
theorem W26_self (c : Dev nD) : W26 m c main_v103 = (dat14 (U25 m) c).arrAt 3 cfg14.N := Function.update_self ..
abbrev W27 (c : Dev nD) : Valuation τ sig (Elt F) := StableHlo.after hostOps15 (W26 m c)
abbrev U27 := toU (W27 m)
def W28 (c : Dev nD) : Valuation τ sig (Elt F) := Function.update (W27 m c) main_v108 ((dat15 (U27 m) c).arrAt 3 cfg15.N)
theorem W28_self (c : Dev nD) : W28 m c main_v108 = (dat15 (U27 m) c).arrAt 3 cfg15.N := Function.update_self ..
abbrev U28 := toU (W28 m)
def W29 (c : Dev nD) : Valuation τ sig (Elt F) := Function.update (W28 m c) main_v109 ((dat16 (U28 m) c).arrAt 2 cfg16.N)
theorem W29_self (c : Dev nD) : W29 m c main_v109 = (dat16 (U28 m) c).arrAt 2 cfg16.N := Function.update_self ..
abbrev W30 (c : Dev nD) : Valuation τ sig (Elt F) := StableHlo.after hostOps17 (W29 m c)
abbrev U30 := toU (W30 m)
def W31 (c : Dev nD) : Valuation τ sig (Elt F) := Function.update (W30 m c) main_v114 ((dat17 (U30 m) c).arrAt 3 cfg17.N)
theorem W31_self (c : Dev nD) : W31 m c main_v114 = (dat17 (U30 m) c).arrAt 3 cfg17.N := Function.update_self ..
abbrev U31 := toU (W31 m)
def W32 (c : Dev nD) : Valuation τ sig (Elt F) := Function.update (W31 m c) main_v115 ((dat18 (U31 m) c).arrAt 2 cfg18.N)
theorem W32_self (c : Dev nD) : W32 m c main_v115 = (dat18 (U31 m) c).arrAt 2 cfg18.N := Function.update_self ..
abbrev W33 (c : Dev nD) : Valuation τ sig (Elt F) := StableHlo.after hostOps19 (W32 m c)
abbrev U33 := toU (W33 m)
def W34 (c : Dev nD) : Valuation τ sig (Elt F) := Function.update (W33 m c) main_v120 ((dat19 (U33 m) c).arrAt 3 cfg19.N)
theorem W34_self (c : Dev nD) : W34 m c main_v120 = (dat19 (U33 m) c).arrAt 3 cfg19.N := Function.update_self ..
abbrev W35 (c : Dev nD) : Valuation τ sig (Elt F) := StableHlo.after hostOps20 (W34 m c)

/-- Region `p`'s proof data, over the buffers' contents at its entry. -/
def pdats : (p : Fin 20) → (c : Dev nD) → Dat τ (Elt F) Unit ℕ (UR sig nD τ) ℕ (cfgs p) c
  | ⟨0, _⟩ => dat0 (U3 m)
  | ⟨1, _⟩ => dat1 (U4 m)
  | ⟨2, _⟩ => dat2 (U6 m)
  | ⟨3, _⟩ => dat3 (U7 m)
  | ⟨4, _⟩ => dat4 (U9 m)
  | ⟨5, _⟩ => dat5 (U11 m)
  | ⟨6, _⟩ => dat6 (U12 m)
  | ⟨7, _⟩ => dat7 (U14 m)
  | ⟨8, _⟩ => dat8 (U15 m)
  | ⟨9, _⟩ => dat9 (U17 m)
  | ⟨10, _⟩ => dat10 (U19 m)
  | ⟨11, _⟩ => dat11 (U20 m)
  | ⟨12, _⟩ => dat12 (U22 m)
  | ⟨13, _⟩ => dat13 (U23 m)
  | ⟨14, _⟩ => dat14 (U25 m)
  | ⟨15, _⟩ => dat15 (U27 m)
  | ⟨16, _⟩ => dat16 (U28 m)
  | ⟨17, _⟩ => dat17 (U30 m)
  | ⟨18, _⟩ => dat18 (U31 m)
  | ⟨19, _⟩ => dat19 (U33 m)
  | ⟨_ + 20, h⟩ => absurd h (by omega)

def reg0 := mkReg (pdats m) 0 launch0 (W3 m) (W4 m) 3 (A_eq0 (U3 m)) (body_obligation0 (U3 m)) (Phi_in0 (U3 m)) (Phi_out0 (U3 m))
def reg1 := mkReg (pdats m) 1 launch1 (W4 m) (W5 m) 2 (A_eq1 (U4 m)) (body_obligation1 (U4 m)) (Phi_in1 (U4 m)) (Phi_out1 (U4 m))
def reg2 := mkReg (pdats m) 2 launch2 (W6 m) (W7 m) 3 (A_eq2 (U6 m)) (body_obligation2 (U6 m)) (Phi_in2 (U6 m)) (Phi_out2 (U6 m))
def reg3 := mkReg (pdats m) 3 launch3 (W7 m) (W8 m) 2 (A_eq3 (U7 m)) (body_obligation3 (U7 m)) (Phi_in3 (U7 m)) (Phi_out3 (U7 m))
def reg4 := mkReg (pdats m) 4 launch4 (W9 m) (W10 m) 3 (A_eq4 (U9 m)) (body_obligation4 (U9 m)) (Phi_in4 (U9 m)) (Phi_out4 (U9 m))
def reg5 := mkReg (pdats m) 5 launch5 (W11 m) (W12 m) 3 (A_eq5 (U11 m)) (body_obligation5 (U11 m)) (Phi_in5 (U11 m)) (Phi_out5 (U11 m))
def reg6 := mkReg (pdats m) 6 launch6 (W12 m) (W13 m) 2 (A_eq6 (U12 m)) (body_obligation6 (U12 m)) (Phi_in6 (U12 m)) (Phi_out6 (U12 m))
def reg7 := mkReg (pdats m) 7 launch7 (W14 m) (W15 m) 3 (A_eq7 (U14 m)) (body_obligation7 (U14 m)) (Phi_in7 (U14 m)) (Phi_out7 (U14 m))
def reg8 := mkReg (pdats m) 8 launch8 (W15 m) (W16 m) 2 (A_eq8 (U15 m)) (body_obligation8 (U15 m)) (Phi_in8 (U15 m)) (Phi_out8 (U15 m))
def reg9 := mkReg (pdats m) 9 launch9 (W17 m) (W18 m) 3 (A_eq9 (U17 m)) (body_obligation9 (U17 m)) (Phi_in9 (U17 m)) (Phi_out9 (U17 m))
def reg10 := mkReg (pdats m) 10 launch10 (W19 m) (W20 m) 3 (A_eq10 (U19 m)) (body_obligation10 (U19 m)) (Phi_in10 (U19 m)) (Phi_out10 (U19 m))
def reg11 := mkReg (pdats m) 11 launch11 (W20 m) (W21 m) 2 (A_eq11 (U20 m)) (body_obligation11 (U20 m)) (Phi_in11 (U20 m)) (Phi_out11 (U20 m))
def reg12 := mkReg (pdats m) 12 launch12 (W22 m) (W23 m) 3 (A_eq12 (U22 m)) (body_obligation12 (U22 m)) (Phi_in12 (U22 m)) (Phi_out12 (U22 m))
def reg13 := mkReg (pdats m) 13 launch13 (W23 m) (W24 m) 2 (A_eq13 (U23 m)) (body_obligation13 (U23 m)) (Phi_in13 (U23 m)) (Phi_out13 (U23 m))
def reg14 := mkReg (pdats m) 14 launch14 (W25 m) (W26 m) 3 (A_eq14 (U25 m)) (body_obligation14 (U25 m)) (Phi_in14 (U25 m)) (Phi_out14 (U25 m))
def reg15 := mkReg (pdats m) 15 launch15 (W27 m) (W28 m) 3 (A_eq15 (U27 m)) (body_obligation15 (U27 m)) (Phi_in15 (U27 m)) (Phi_out15 (U27 m))
def reg16 := mkReg (pdats m) 16 launch16 (W28 m) (W29 m) 2 (A_eq16 (U28 m)) (body_obligation16 (U28 m)) (Phi_in16 (U28 m)) (Phi_out16 (U28 m))
def reg17 := mkReg (pdats m) 17 launch17 (W30 m) (W31 m) 3 (A_eq17 (U30 m)) (body_obligation17 (U30 m)) (Phi_in17 (U30 m)) (Phi_out17 (U30 m))
def reg18 := mkReg (pdats m) 18 launch18 (W31 m) (W32 m) 2 (A_eq18 (U31 m)) (body_obligation18 (U31 m)) (Phi_in18 (U31 m)) (Phi_out18 (U31 m))
def reg19 := mkReg (pdats m) 19 launch19 (W33 m) (W34 m) 3 (A_eq19 (U33 m)) (body_obligation19 (U33 m)) (Phi_in19 (U33 m)) (Phi_out19 (U33 m))

/-- At a region's item number, the contents that region leaves; no other number is read. -/
def outs : GenP.Outs (F := F) := fun J r c => (match J with
  | 4 => W4 m
  | 5 => W5 m
  | 7 => W7 m
  | 8 => W8 m
  | 10 => W10 m
  | 12 => W12 m
  | 13 => W13 m
  | 15 => W15 m
  | 16 => W16 m
  | 18 => W18 m
  | 20 => W20 m
  | 21 => W21 m
  | 23 => W23 m
  | 24 => W24 m
  | 26 => W26 m
  | 28 => W28 m
  | 29 => W29 m
  | 31 => W31 m
  | 32 => W32 m
  | 34 => W34 m
  | _ => W0 m) c r

theorem V_eq0 (c : Dev nD) : GenP.V0 m c = W0 m c := rfl
theorem V_eq1 (c : Dev nD) : GenP.V1 m c = W1 m c := congrArg (StableHlo.after hostOps0) (V_eq0 m c)
theorem V_eq2 (c : Dev nD) : GenP.V2 m c = W2 m c := congrArg (StableHlo.after hostOps0_1) (V_eq1 m c)
theorem V_eq3 (c : Dev nD) : GenP.V3 m c = W3 m c := congrArg (StableHlo.after hostOps0_2) (V_eq2 m c)
theorem V_eq4 (c : Dev nD) : GenP.V4 m (outs m) c = W4 m c := upd_eq (V_eq3 m c) ..
theorem V_eq5 (c : Dev nD) : GenP.V5 m (outs m) c = W5 m c := upd_eq (V_eq4 m c) ..
theorem V_eq6 (c : Dev nD) : GenP.V6 m (outs m) c = W6 m c := congrArg (StableHlo.after hostOps2) (V_eq5 m c)
theorem V_eq7 (c : Dev nD) : GenP.V7 m (outs m) c = W7 m c := upd_eq (V_eq6 m c) ..
theorem V_eq8 (c : Dev nD) : GenP.V8 m (outs m) c = W8 m c := upd_eq (V_eq7 m c) ..
theorem V_eq9 (c : Dev nD) : GenP.V9 m (outs m) c = W9 m c := congrArg (StableHlo.after hostOps4) (V_eq8 m c)
theorem V_eq10 (c : Dev nD) : GenP.V10 m (outs m) c = W10 m c := upd_eq (V_eq9 m c) ..
theorem V_eq11 (c : Dev nD) : GenP.V11 m (outs m) c = W11 m c := congrArg (StableHlo.after hostOps5) (V_eq10 m c)
theorem V_eq12 (c : Dev nD) : GenP.V12 m (outs m) c = W12 m c := upd_eq (V_eq11 m c) ..
theorem V_eq13 (c : Dev nD) : GenP.V13 m (outs m) c = W13 m c := upd_eq (V_eq12 m c) ..
theorem V_eq14 (c : Dev nD) : GenP.V14 m (outs m) c = W14 m c := congrArg (StableHlo.after hostOps7) (V_eq13 m c)
theorem V_eq15 (c : Dev nD) : GenP.V15 m (outs m) c = W15 m c := upd_eq (V_eq14 m c) ..
theorem V_eq16 (c : Dev nD) : GenP.V16 m (outs m) c = W16 m c := upd_eq (V_eq15 m c) ..
theorem V_eq17 (c : Dev nD) : GenP.V17 m (outs m) c = W17 m c := congrArg (StableHlo.after hostOps9) (V_eq16 m c)
theorem V_eq18 (c : Dev nD) : GenP.V18 m (outs m) c = W18 m c := upd_eq (V_eq17 m c) ..
theorem V_eq19 (c : Dev nD) : GenP.V19 m (outs m) c = W19 m c := congrArg (StableHlo.after hostOps10) (V_eq18 m c)
theorem V_eq20 (c : Dev nD) : GenP.V20 m (outs m) c = W20 m c := upd_eq (V_eq19 m c) ..
theorem V_eq21 (c : Dev nD) : GenP.V21 m (outs m) c = W21 m c := upd_eq (V_eq20 m c) ..
theorem V_eq22 (c : Dev nD) : GenP.V22 m (outs m) c = W22 m c := congrArg (StableHlo.after hostOps12) (V_eq21 m c)
theorem V_eq23 (c : Dev nD) : GenP.V23 m (outs m) c = W23 m c := upd_eq (V_eq22 m c) ..
theorem V_eq24 (c : Dev nD) : GenP.V24 m (outs m) c = W24 m c := upd_eq (V_eq23 m c) ..
theorem V_eq25 (c : Dev nD) : GenP.V25 m (outs m) c = W25 m c := congrArg (StableHlo.after hostOps14) (V_eq24 m c)
theorem V_eq26 (c : Dev nD) : GenP.V26 m (outs m) c = W26 m c := upd_eq (V_eq25 m c) ..
theorem V_eq27 (c : Dev nD) : GenP.V27 m (outs m) c = W27 m c := congrArg (StableHlo.after hostOps15) (V_eq26 m c)
theorem V_eq28 (c : Dev nD) : GenP.V28 m (outs m) c = W28 m c := upd_eq (V_eq27 m c) ..
theorem V_eq29 (c : Dev nD) : GenP.V29 m (outs m) c = W29 m c := upd_eq (V_eq28 m c) ..
theorem V_eq30 (c : Dev nD) : GenP.V30 m (outs m) c = W30 m c := congrArg (StableHlo.after hostOps17) (V_eq29 m c)
theorem V_eq31 (c : Dev nD) : GenP.V31 m (outs m) c = W31 m c := upd_eq (V_eq30 m c) ..
theorem V_eq32 (c : Dev nD) : GenP.V32 m (outs m) c = W32 m c := upd_eq (V_eq31 m c) ..
theorem V_eq33 (c : Dev nD) : GenP.V33 m (outs m) c = W33 m c := congrArg (StableHlo.after hostOps19) (V_eq32 m c)
theorem V_eq34 (c : Dev nD) : GenP.V34 m (outs m) c = W34 m c := upd_eq (V_eq33 m c) ..
theorem V_eq35 (c : Dev nD) : GenP.V35 m (outs m) c = W35 m c := congrArg (StableHlo.after hostOps20) (V_eq34 m c)

end Cert.KernelIdeal.Hand

end
-- ==== Proof.KI.ValueCond.lean ====
import proofs.«414074_j90701119357381_1_alg».proof.Proof.RegionsKernelIdeal

set_option maxRecDepth 1692

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in

theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 20) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 21 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE20 : ∀ c : Dev nD, E 20 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V17 m outs c) ∗ E 9 c) ⊢ R9.pre c)
    (hpost9 : ∀ c : Dev nD, R9.post c ⊢ iprop(StableHlo.held (c : Thread nD τ) (Pipeline.ucRefs τ sig) (V18 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V19 m outs c) ∗ E 10 c) ⊢ R10.pre c)
    (hpost10 : ∀ c : Dev nD, R10.post c ⊢ iprop(StableHlo.held (c : Thread nD τ) (Pipeline.ucRefs τ sig) (V20 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V20 m outs c) ∗ E 11 c) ⊢ R11.pre c)
    (hpost11 : ∀ c : Dev nD, R11.post c ⊢ iprop(StableHlo.held (c : Thread nD τ) (Pipeline.ucRefs τ sig) (V21 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V22 m outs c) ∗ E 12 c) ⊢ R12.pre c)
    (hpost12 : ∀ c : Dev nD, R12.post c ⊢ iprop(StableHlo.held (c : Thread nD τ) (Pipeline.ucRefs τ sig) (V23 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V23 m outs c) ∗ E 13 c) ⊢ R13.pre c)
    (hpost13 : ∀ c : Dev nD, R13.post c ⊢ iprop(StableHlo.held (c : Thread nD τ) (Pipeline.ucRefs τ sig) (V24 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V25 m outs c) ∗ E 14 c) ⊢ R14.pre c)
    (hpost14 : ∀ c : Dev nD, R14.post c ⊢ iprop(StableHlo.held (c : Thread nD τ) (Pipeline.ucRefs τ sig) (V26 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V27 m outs c) ∗ E 15 c) ⊢ R15.pre c)
    (hpost15 : ∀ c : Dev nD, R15.post c ⊢ iprop(StableHlo.held (c : Thread nD τ) (Pipeline.ucRefs τ sig) (V28 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V28 m outs c) ∗ E 16 c) ⊢ R16.pre c)
    (hpost16 : ∀ c : Dev nD, R16.post c ⊢ iprop(StableHlo.held (c : Thread nD τ) (Pipeline.ucRefs τ sig) (V29 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V30 m outs c) ∗ E 17 c) ⊢ R17.pre c)
    (hpost17 : ∀ c : Dev nD, R17.post c ⊢ iprop(StableHlo.held (c : Thread nD τ) (Pipeline.ucRefs τ sig) (V31 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V31 m outs c) ∗ E 18 c) ⊢ R18.pre c)
    (hpost18 : ∀ c : Dev nD, R18.post c ⊢ iprop(StableHlo.held (c : Thread nD τ) (Pipeline.ucRefs τ sig) (V32 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V33 m outs c) ∗ E 19 c) ⊢ R19.pre c)
    (hpost19 : ∀ c : Dev nD, R19.post c ⊢ iprop(StableHlo.held (c : Thread nD τ) (Pipeline.ucRefs τ sig) (V34 m outs c) ∗ E 20 c)) :
    θ_run defs (onTc (τ := τ) (main (F := F))) ⟨m, fun _ => 0, ρ⟩ (fun r => ∀ c : Dev nD,
      r.2.mem ((c.tc : Thread nD τ).loc main_v123) = V35 m outs c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19)
    (fun c Q => by
      rewrite [main_chain c, Seg.run_eq_chain,
        show (segs m outs 𝒱₀ L lv E ι pdats R0 R1 R2 R3 R4 R5 R6 R7 R8 R9 R10 R11 R12 R13 R14 R15 R16 R17 R18 R19 c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          Prog.lift (.customCall (Pipeline.entry 13) ()),
          StableHlo.seq hostOps14,
          Prog.lift (.customCall (Pipeline.entry 14) ()),
          StableHlo.seq hostOps15,
          Prog.lift (.customCall (Pipeline.entry 15) ()),
          Prog.lift (.customCall (Pipeline.entry 16) ()),
          StableHlo.seq hostOps17,
          Prog.lift (.customCall (Pipeline.entry 17) ()),
          Prog.lift (.customCall (Pipeline.entry 18) ()),
          StableHlo.seq hostOps19,
          Prog.lift (.customCall (Pipeline.entry 19) ()),
          StableHlo.seq hostOps20 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V35 m outs c))
    (hch := fun c => ⟨.rfl, .rfl, .rfl, hpre0 c, (hpost0 c).trans (hpre1 c), hpost1 c, hpre2 c, (hpost2 c).trans (hpre3 c), hpost3 c, hpre4 c, hpost4 c, hpre5 c, (hpost5 c).trans (hpre6 c), hpost6 c, hpre7 c, (hpost7 c).trans (hpre8 c), hpost8 c, hpre9 c, hpost9 c, hpre10 c, (hpost10 c).trans (hpre11 c), hpost11 c, hpre12 c, (hpost12 c).trans (hpre13 c), hpost13 c, hpre14 c, hpost14 c, hpre15 c, (hpost15 c).trans (hpre16 c), hpost16 c, hpre17 c, (hpost17 c).trans (hpre18 c), hpost18 c, hpre19 c, hpost19 c, sep_mono .rfl (hE20 c)⟩)
    (hinit := ?_) (QY := fun c s => s.mem ((c.tc : Thread nD τ).loc main_v123) = V35 m outs c main_v123 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V35 m outs c) s') $$ [Hh HSI]
    · isplitl [Hh] <;> iassumption
    icases Hr with ⟨%h, HSI⟩
    imodintro
    isplitr
    · ipureintro
      exact ⟨h (Proc.devRef .tc main_v123) (Finset.mem_filter.mpr ⟨StableHlo.devRef_mem_tcRefs main_v123, by decide⟩),
        (h (Proc.devRef .tc main_arg0) (Finset.mem_filter.mpr ⟨StableHlo.devRef_mem_tcRefs main_arg0, by decide⟩)).trans (V35_main_arg0 m outs c),
        (h (Proc.devRef .tc main_arg1) (Finset.mem_filter.mpr ⟨StableHlo.devRef_mem_tcRefs main_arg1, by decide⟩)).trans (V35_main_arg1 m outs c),
        (h (Proc.devRef .tc main_arg2) (Finset.mem_filter.mpr ⟨StableHlo.devRef_mem_tcRefs main_arg2, by decide⟩)).trans (V35_main_arg2 m outs c),
        (h (Proc.devRef .tc main_arg3) (Finset.mem_filter.mpr ⟨StableHlo.devRef_mem_tcRefs main_arg3, by decide⟩)).trans (V35_main_arg3 m outs c),
        (h (Proc.devRef .tc main_arg4) (Finset.mem_filter.mpr ⟨StableHlo.devRef_mem_tcRefs main_arg4, by decide⟩)).trans (V35_main_arg4 m outs c),
        (h (Proc.devRef .tc main_arg5) (Finset.mem_filter.mpr ⟨StableHlo.devRef_mem_tcRefs main_arg5, by decide⟩)).trans (V35_main_arg5 m outs c),
        (h (Proc.devRef .tc main_arg6) (Finset.mem_filter.mpr ⟨StableHlo.devRef_mem_tcRefs main_arg6, by decide⟩)).trans (V35_main_arg6 m outs c)⟩
    · iexact HSI

end Cert.KernelIdeal.Hand

end
-- ==== Proof.KI.Run.lean ====
import proofs.«414074_j90701119357381_1_alg».proof.Proof.KI.Asm
import proofs.«414074_j90701119357381_1_alg».proof.Proof.KI.ValueCond
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem core_rest (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄)
      ⊢ R c := by
  iintro ⟨-, HO, -, Hp, -⟩
  isplitl [Hp]; · iexists _; iexact Hp
  iexists ∅; iexact HO

theorem launch_rest :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv) : sProp 𝕄)
      ⊢ (|={Set.univ}=> bigSep Finset.univ (fun c : Dev nD => R c)) := by
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄)
      ⊢ bigSep Finset.univ (fun c : Dev nD => R c) :=
    bigSep_mono fun c _ => core_rest ρ c
  iintro ⟨H, -⟩
  imodintro
  ihave H' := hm $$ H
  iexact H'

set_option backward.isDefEq.respectTransparency.types false in

theorem run_value : θ_run defs (onTc (τ := τ) (main (F := F))) ⟨m, fun _ => 0, ρ⟩ (fun r => ∀ c : Dev nD,
      r.2.mem ((c.tc : Thread nD τ).loc main_v123) = W35 m c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := value_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := launch_rest (F := F) ρ)
    (hE20 := fun c => by
      iintro ⟨-, H⟩; iexact H)
    (reg0 m) (fun c => by rw [V_eq3 m c]; try exact .rfl) (fun c => by rw [V_eq4 m c]; try exact .rfl)
    (reg1 m) (fun c => by rw [V_eq4 m c]; try exact .rfl) (fun c => by rw [V_eq5 m c]; try exact .rfl)
    (reg2 m) (fun c => by rw [V_eq6 m c]; try exact .rfl) (fun c => by rw [V_eq7 m c]; try exact .rfl)
    (reg3 m) (fun c => by rw [V_eq7 m c]; try exact .rfl) (fun c => by rw [V_eq8 m c]; try exact .rfl)
    (reg4 m) (fun c => by rw [V_eq9 m c]; try exact .rfl) (fun c => by rw [V_eq10 m c]; try exact .rfl)
    (reg5 m) (fun c => by rw [V_eq11 m c]; try exact .rfl) (fun c => by rw [V_eq12 m c]; try exact .rfl)
    (reg6 m) (fun c => by rw [V_eq12 m c]; try exact .rfl) (fun c => by rw [V_eq13 m c]; try exact .rfl)
    (reg7 m) (fun c => by rw [V_eq14 m c]; try exact .rfl) (fun c => by rw [V_eq15 m c]; try exact .rfl)
    (reg8 m) (fun c => by rw [V_eq15 m c]; try exact .rfl) (fun c => by rw [V_eq16 m c]; try exact .rfl)
    (reg9 m) (fun c => by rw [V_eq17 m c]; try exact .rfl) (fun c => by rw [V_eq18 m c]; try exact .rfl)
    (reg10 m) (fun c => by rw [V_eq19 m c]; try exact .rfl) (fun c => by rw [V_eq20 m c]; try exact .rfl)
    (reg11 m) (fun c => by rw [V_eq20 m c]; try exact .rfl) (fun c => by rw [V_eq21 m c]; try exact .rfl)
    (reg12 m) (fun c => by rw [V_eq22 m c]; try exact .rfl) (fun c => by rw [V_eq23 m c]; try exact .rfl)
    (reg13 m) (fun c => by rw [V_eq23 m c]; try exact .rfl) (fun c => by rw [V_eq24 m c]; try exact .rfl)
    (reg14 m) (fun c => by rw [V_eq25 m c]; try exact .rfl) (fun c => by rw [V_eq26 m c]; try exact .rfl)
    (reg15 m) (fun c => by rw [V_eq27 m c]; try exact .rfl) (fun c => by rw [V_eq28 m c]; try exact .rfl)
    (reg16 m) (fun c => by rw [V_eq28 m c]; try exact .rfl) (fun c => by rw [V_eq29 m c]; try exact .rfl)
    (reg17 m) (fun c => by rw [V_eq30 m c]; try exact .rfl) (fun c => by rw [V_eq31 m c]; try exact .rfl)
    (reg18 m) (fun c => by rw [V_eq31 m c]; try exact .rfl) (fun c => by rw [V_eq32 m c]; try exact .rfl)
    (reg19 m) (fun c => by rw [V_eq33 m c]; try exact .rfl) (fun c => by rw [V_eq34 m c]; try exact .rfl)
  exact (θ_run defs _ _).mono (fun _ hr c => ⟨(hr c).1.trans (congrFun (V_eq35 m c) _), (hr c).2⟩) h

end Cert.KernelIdeal.Hand

end
-- ==== Proof.KI.AccShape0.lean ====
import proofs.«414074_j90701119357381_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The product of two blocks into the zero accumulator at an entry: the sum over the contraction axis. -/
theorem mmApply0 (zb : Vec Ideal S8192x64 .bf16) (wb : Vec Ideal S64x128 .bf16) (p : Fin 8192) (q : Fin 128) :
    matmul (F := Ideal) (φ₁ := .bf16) (φ₂ := .bf16) dot_S8192x64_S64x128_S8192x128_1_0_0_1_n_n none zb wb (constant S8192x128 .f32 0x00000000#32) (ix2 p q)
      = ∑ k : Fin 64, zb (ix2 p k) * wb (ix2 k q) := by
  simp only [matmul]
  rw [Ideal.matmul_constant_zero_apply, ← Equiv.sum_comp (contrEquiv1 _ 64 rfl rfl).symm]
  refine Finset.sum_congr rfl fun k _ => ?_
  have hk := contrEquiv1_symm_val dot_S8192x64_S64x128_S8192x128_1_0_0_1_n_n 64 rfl rfl k
  refine congrArg₂ _ (congrArg zb (funext fun a => Fin.ext ?_)) (congrArg wb (funext fun a => Fin.ext ?_)) <;>
    match a with
    | ⟨0, _⟩ | ⟨1, _⟩ =>
      first | exact (DotDims.lhsIdx_val_of_single _ rfl _ _).trans hk | exact (DotDims.rhsIdx_val_of_single _ rfl _ _).trans hk | rfl

/-- What a point leaves in its output block at an entry: the two blocks' product there plus the third block's entry. -/
theorem payApply0 (zb : Vec Ideal S8192x64 .bf16) (wb : Vec Ideal S64x128 .bf16) (cb : Vec Ideal S8192x128 .f32)
    (p : Fin 8192) (q : Fin 128) :
    k0_pay3 (k0_pay2 (k0_pay1 (F := Ideal)) zb wb) cb (ix2 p q)
      = (∑ k : Fin 64, zb (ix2 p k) * wb (ix2 k q)) + cb (ix2 p q) := by
  unfold k0_pay3 k0_pay2 k0_pay1
  simp only [shapeCast_self, addf_apply, broadcast_apply]
  rw [mmApply0]
  show Ideal.ofBits .f32 0x00000000#32 + _ + _ = _
  rw [Ideal.ofBits_zero_f32, zero_add]

end Cert.KernelIdeal.Hand

end
-- ==== Proof.Ops.lean ====
import Idealize.ShloMosaic.PureOps.Ideal
import Idealize.ShloMosaic.Lib.ValueIdx

noncomputable section

open scoped BigOperators

namespace Cert.Spec

open Idealize.ShloMosaic Idealize.ShloMosaic.ValueIdx

def mmOut {M K N : ℕ} (A : (⟨2, ![M, K]⟩ : Shape).Idx → EReal) (B : (⟨2, ![K, N]⟩ : Shape).Idx → EReal) :
    (⟨2, ![M, N]⟩ : Shape).Idx → EReal :=
  fun idx => ∑ k : Fin K, A (ix2 (idx 0 : Fin M) k) * B (ix2 k (idx 1 : Fin N))

def accOut {M K N : ℕ} (A : (⟨2, ![M, K]⟩ : Shape).Idx → EReal) (B : (⟨2, ![K, N]⟩ : Shape).Idx → EReal)
    (C : (⟨2, ![M, N]⟩ : Shape).Idx → EReal) : (⟨2, ![M, N]⟩ : Shape).Idx → EReal :=
  fun idx => mmOut A B idx + C idx

theorem mmOut_apply {M K N : ℕ} (A : (⟨2, ![M, K]⟩ : Shape).Idx → EReal) (B : (⟨2, ![K, N]⟩ : Shape).Idx → EReal)
    (r : Fin M) (g : Fin N) : mmOut A B (ix2 r g) = ∑ k : Fin K, A (ix2 r k) * B (ix2 k g) := rfl

theorem accOut_apply {M K N : ℕ} (A : (⟨2, ![M, K]⟩ : Shape).Idx → EReal) (B : (⟨2, ![K, N]⟩ : Shape).Idx → EReal)
    (C : (⟨2, ![M, N]⟩ : Shape).Idx → EReal) (r : Fin M) (g : Fin N) :
    accOut A B C (ix2 r g) = (∑ k : Fin K, A (ix2 r k) * B (ix2 k g)) + C (ix2 r g) := rfl

def qHi {D C : ℕ} (hC : C = 4 * D) (q : Fin C) : Fin 4 :=
  ⟨q.val / D, by
    have h : q.val < 4 * D := lt_of_lt_of_eq q.isLt hC
    exact Nat.div_lt_of_lt_mul (by omega)⟩

def qLo {D C : ℕ} (hD : 0 < D) (q : Fin C) : Fin D := ⟨q.val % D, Nat.mod_lt _ hD⟩

def rHi (r : Fin 40960) : Fin 10240 := ⟨r.val / 4, by have h := r.isLt; omega⟩

def rLo (r : Fin 40960) : Fin 4 := ⟨r.val % 4, Nat.mod_lt _ (by norm_num)⟩

def flatN {D C : ℕ} (hC : C = 4 * D) (hD : 0 < D) (z : Fin 10240 → Fin 4 → Fin D → EReal) :
    (⟨2, ![10240, C]⟩ : Shape).Idx → EReal :=
  fun idx => z (idx 0 : Fin 10240) (qHi hC (idx 1 : Fin C)) (qLo hD (idx 1 : Fin C))

def flatR {D : ℕ} (z : Fin 10240 → Fin 4 → Fin D → EReal) : (⟨2, ![40960, D]⟩ : Shape).Idx → EReal :=
  fun idx => z (rHi (idx 0 : Fin 40960)) (rLo (idx 0 : Fin 40960)) (idx 1 : Fin D)

theorem qHi_eq {D C : ℕ} (hC : C = 4 * D) (hD : 0 < D) (q : Fin C) (b : Fin 4) (f : Fin D)
    (hq : q.val = b.val * D + f.val) : qHi hC q = b := by
  apply Fin.ext
  show q.val / D = b.val
  rw [hq, Nat.add_comm, Nat.add_mul_div_right _ _ hD, Nat.div_eq_of_lt f.isLt, Nat.zero_add]

theorem qLo_eq {D C : ℕ} (hD : 0 < D) (q : Fin C) (b : Fin 4) (f : Fin D)
    (hq : q.val = b.val * D + f.val) : qLo hD q = f := by
  apply Fin.ext
  show q.val % D = f.val
  rw [hq, Nat.add_comm, Nat.add_mul_mod_self_right, Nat.mod_eq_of_lt f.isLt]

theorem rHi_eq (r : Fin 40960) (n : Fin 10240) (b : Fin 4) (hr : r.val = n.val * 4 + b.val) : rHi r = n := by
  apply Fin.ext
  show r.val / 4 = n.val
  have := b.isLt
  omega

theorem rLo_eq (r : Fin 40960) (n : Fin 10240) (b : Fin 4) (hr : r.val = n.val * 4 + b.val) : rLo r = b := by
  apply Fin.ext
  show r.val % 4 = b.val
  have := b.isLt
  omega

theorem flatN_apply {D C : ℕ} (hC : C = 4 * D) (hD : 0 < D) (z : Fin 10240 → Fin 4 → Fin D → EReal)
    (n : Fin 10240) (b : Fin 4) (f : Fin D) (q : Fin C) (hq : q.val = b.val * D + f.val) :
    flatN hC hD z (ix2 n q) = z n b f := by
  show z n (qHi hC q) (qLo hD q) = z n b f
  rw [qHi_eq hC hD q b f hq, qLo_eq hD q b f hq]

theorem flatR_apply {D : ℕ} (z : Fin 10240 → Fin 4 → Fin D → EReal) (n : Fin 10240) (b : Fin 4) (f : Fin D)
    (r : Fin 40960) (hr : r.val = n.val * 4 + b.val) : flatR z (ix2 r f) = z n b f := by
  show z (rHi r) (rLo r) f = z n b f
  rw [rHi_eq r n b hr, rLo_eq r n b hr]

end Cert.Spec

end
-- ==== Proof.KI.Acc0Val.lean ====
import proofs.«414074_j90701119357381_1_alg».proof.Proof.KI.Acc0Def
import proofs.«414074_j90701119357381_1_alg».proof.Proof.KI.AccShape0
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An entry of a block sits in its array at the block index times the block size plus its own coordinate. -/
theorem outApply0 (c : Dev nD) (t : Fin cfg0.N) (p : Fin 8192) (q : Fin 128) (r : Fin 40960)
    (hr : r.val = t.val * 8192 + p.val) :
    (out0 V c t : Vec Ideal S8192x128 .f32) (ix2 p q) = accOut (M := 40960) (K := 64) (N := 128) (V c main_v49) (V c main_v52) (V c main_v48) (ix2 r q) := by
  obtain ⟨a0, a1, b0, b1, c0, c1, -, -⟩ := idxFacts0 t
  refine (payApply0 _ _ _ p q).trans (congrArg₂ (· + ·) (Finset.sum_congr rfl fun k _ => congrArg₂ (· * ·) ?_ ?_) ?_)
  · show V c main_v49 (((cfg0.win 0).blk t).view.emb (ix2 p k)) = V c main_v49 (ix2 r k)
    refine congrArg _ (Shape.idx_ext₂ ?_ ?_)
    · show win0_0.index t (0 : Fin 2) * 8192 + 1 * p.val = r.val; omega
    · show win0_0.index t (1 : Fin 2) * 64 + 1 * k.val = k.val; omega
  · show V c main_v52 (((cfg0.win 1).blk t).view.emb (ix2 k q)) = V c main_v52 (ix2 k q)
    refine congrArg _ (Shape.idx_ext₂ ?_ ?_)
    · show win0_1.index t (0 : Fin 2) * 64 + 1 * k.val = k.val; omega
    · show win0_1.index t (1 : Fin 2) * 128 + 1 * q.val = q.val; omega
  · show V c main_v48 (((cfg0.win 2).blk t).view.emb (ix2 p q)) = V c main_v48 (ix2 r q)
    refine congrArg _ (Shape.idx_ext₂ ?_ ?_)
    · show win0_2.index t (0 : Fin 2) * 8192 + 1 * p.val = r.val; omega
    · show win0_2.index t (1 : Fin 2) * 128 + 1 * q.val = q.val; omega

/-- What point `t` writes back is block `t` of the whole-array result. -/
theorem flushedEq0 (c : Dev nD) (t : Fin cfg0.N) :
    (dat0 (F := Ideal) V c).flushed 3 t = ((cfg0.win 3).blk t).view.read (Elt Ideal) (accOut (M := 40960) (K := 64) (N := 128) (V c main_v49) (V c main_v52) (V c main_v48)) := by
  obtain ⟨-, -, -, -, -, -, o0, o1⟩ := idxFacts0 t
  have ht : t.val < 5 := N_0 ▸ t.isLt
  funext j
  obtain ⟨p, q, rfl⟩ : ∃ (p : Fin 8192) (q : Fin 128), j = ix2 p q := ⟨j 0, j 1, eq_ix2 j⟩
  refine (outApply0 V c t p q ⟨t.val * 8192 + p.val, by omega⟩ rfl).trans (congrArg _ (Shape.idx_ext₂ ?_ ?_))
  · show t.val * 8192 + p.val = win0_3.index t (0 : Fin 2) * 8192 + 1 * p.val; omega
  · show q.val = win0_3.index t (1 : Fin 2) * 128 + 1 * q.val; omega

/-- An index is in point `t`'s block iff each coordinate is in the block's range on its axis. -/
theorem mem_blk0 (t : Fin cfg0.N) (i : S40960x128.Idx) :
    i ∈ ((cfg0.win 3).blk t).view.set
      ↔ ∀ a : Fin 2, win0_3.index t a * S8192x128.size a ≤ (i a).val
          ∧ (i a).val < win0_3.index t a * S8192x128.size a + S8192x128.size a := by
  show i ∈ ((View.whole main_v53).slice (win0_3.rect t)).set ↔ _
  rw [View.set_slice_whole, Rect.mem_set_unit]
  exact Iff.rfl

/-- Every index of the output array is in the block of the point its row falls in. -/
theorem cover0 (i : S40960x128.Idx) :
    ∃ t : Fin cfg0.N, (cfg0.win 3).flush t = true ∧ i ∈ ((cfg0.win 3).blk t).view.set := by
  have hN : cfg0.N = 5 := N_0
  have hA : (i 0).val < 40960 := (i 0).isLt
  have hB : (i 1).val < 128 := (i 1).isLt
  have ht : (i 0).val / 8192 < cfg0.N := by rw [hN]; omega
  obtain ⟨-, -, -, -, -, -, o0, o1⟩ := idxFacts0 ⟨(i 0).val / 8192, ht⟩
  refine ⟨⟨(i 0).val / 8192, ht⟩, flush0_3 _, (mem_blk0 _ i).2 fun a => ?_⟩
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win0_3.index ⟨(i 0).val / 8192, ht⟩ (1 : Fin 2) * 128 ≤ (i 1).val
      ∧ (i 1).val < win0_3.index ⟨(i 0).val / 8192, ht⟩ (1 : Fin 2) * 128 + 128
    rw [o1]; omega

/-- The output array after the run: the product of the two factor arrays plus the summand array. -/
theorem final0 (c : Dev nD) : (dat0 (F := Ideal) V c).arrAt 3 cfg0.N = accOut (M := 40960) (K := 64) (N := 128) (V c main_v49) (V c main_v52) (V c main_v48) :=
  (dat0 (F := Ideal) V c).arrAt_eq_of_cover 3 _ (fun t _ => flushedEq0 V c t) cover0

end Cert.KernelIdeal.Hand

end
-- ==== Proof.KI.MmShape1.lean ====
import proofs.«414074_j90701119357381_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open scoped BigOperators

/-- The reset value is zero. -/
theorem zero_apply1 (p : Fin 2048) (q : Fin 256) : k1_pay1 (F := Ideal) (ix2 p q) = 0 := by
  unfold k1_pay1
  simp only [shapeCast_self]
  exact Ideal.ofBits_zero_f32

theorem dotL1_0 (i : S2048x256.Idx) (k : dot_S2048x2048_S2048x256_S2048x256_1_0_0_1_n_n.contr.Idx) : (dot_S2048x2048_S2048x256_S2048x256_1_0_0_1_n_n.lhsIdx i k 0).val = (i 0).val := by
  unfold DotDims.lhsIdx
  rw [dif_neg (show ¬(0 : Fin S2048x2048.rank) ∈ dot_S2048x2048_S2048x256_S2048x256_1_0_0_1_n_n.lhsBatch by decide),
    dif_pos (show (0 : Fin S2048x2048.rank) ∈ dot_S2048x2048_S2048x256_S2048x256_1_0_0_1_n_n.lhsNonContracting by decide)]
  rfl

theorem dotR1_1 (i : S2048x256.Idx) (k : dot_S2048x2048_S2048x256_S2048x256_1_0_0_1_n_n.contr.Idx) : (dot_S2048x2048_S2048x256_S2048x256_1_0_0_1_n_n.rhsIdx i k 1).val = (i 1).val := by
  unfold DotDims.rhsIdx
  rw [dif_neg (show ¬(1 : Fin S2048x256.rank) ∈ dot_S2048x2048_S2048x256_S2048x256_1_0_0_1_n_n.rhsBatch by decide),
    dif_pos (show (1 : Fin S2048x256.rank) ∈ dot_S2048x2048_S2048x256_S2048x256_1_0_0_1_n_n.rhsNonContracting by decide)]
  rfl

/-- One step of the accumulation at an entry: what was there plus the sum, over the block's contraction positions, of the
    products of the two blocks' entries. -/
theorem step_apply1 (acc : Vec Ideal S2048x256 .f32) (a : Vec Ideal S2048x2048 .bf16) (b : Vec Ideal S2048x256 .bf16)
    (p : Fin 2048) (q : Fin 256) :
    k1_pay2 acc a b (ix2 p q) = acc (ix2 p q) + ∑ j : Fin 2048, a (ix2 p j) * b (ix2 j q) := by
  unfold k1_pay2
  simp only [shapeCast_self, matmul]
  rw [addf_apply, Ideal.matmul_constant_zero_apply, ← Equiv.sum_comp (contrEquiv1 dot_S2048x2048_S2048x256_S2048x256_1_0_0_1_n_n 2048 rfl rfl).symm]
  refine congrArg (acc (ix2 p q) + ·) (Finset.sum_congr rfl fun j _ => ?_)
  have hj := contrEquiv1_symm_val dot_S2048x2048_S2048x256_S2048x256_1_0_0_1_n_n 2048 rfl rfl j
  rw [show dot_S2048x2048_S2048x256_S2048x256_1_0_0_1_n_n.lhsIdx (ix2 p q) ((contrEquiv1 dot_S2048x2048_S2048x256_S2048x256_1_0_0_1_n_n 2048 rfl rfl).symm j) = ix2 p j from
      funext fun ax => Fin.ext (by
        match ax with
        | ⟨0, _⟩ => exact dotL1_0 _ _
        | ⟨1, _⟩ => exact (dot_S2048x2048_S2048x256_S2048x256_1_0_0_1_n_n.lhsIdx_val_of_single rfl _ _).trans hj),
    show dot_S2048x2048_S2048x256_S2048x256_1_0_0_1_n_n.rhsIdx (ix2 p q) ((contrEquiv1 dot_S2048x2048_S2048x256_S2048x256_1_0_0_1_n_n 2048 rfl rfl).symm j) = ix2 j q from
      funext fun ax => Fin.ext (by
        match ax with
        | ⟨0, _⟩ => exact (dot_S2048x2048_S2048x256_S2048x256_1_0_0_1_n_n.rhsIdx_val_of_single rfl _ _).trans hj
        | ⟨1, _⟩ => exact dotR1_1 _ _)]

/-- Narrowing to the output's format changes no entry. -/
theorem narrow_apply1 (acc : Vec Ideal S2048x256 .f32) (x : S2048x256.Idx) : k1_pay3 acc x = acc x := rfl

end Cert.KernelIdeal.Hand

end
-- ==== Proof.KI.Mm1Val.lean ====
import proofs.«414074_j90701119357381_1_alg».proof.Proof.KI.Mm1Def
import proofs.«414074_j90701119357381_1_alg».proof.Proof.KI.MmShape1
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = t.val / 5 ∧ win1_2.index t (1 : Fin 2) = 0 :=
  (by decide +kernel : ∀ t : Fin grid1.N, _)

abbrev larr1 (c : Dev nD) : Vec Ideal S10240x10240 .bf16 := V c main_v21
abbrev rarr1 (c : Dev nD) : Vec Ideal S10240x256 .bf16 := V c main_v47

theorem lblk_apply1 (c : Dev nD) (t : Fin cfg1.N) (p j : Fin 2048) (r s : Fin 10240)
    (hr : r.val = 2048 * (t.val / 5) + p.val) (hs : s.val = 2048 * (t.val % 5) + j.val) :
    iblk1 V c 0 t (ix2 p j) = larr1 V c (ix2 r s) := by
  obtain ⟨ea, eb, -⟩ := idx_facts1 t
  unfold larr1 iblk1
  rw [View.read_apply]
  show V c main_v21 _ = V c main_v21 _
  congr 1
  funext a
  apply Fin.ext
  match a with
  | ⟨0, _⟩ => show win1_0.index t (0 : Fin 2) * 2048 + 1 * p.val = r.val; rw [ea, hr]; omega
  | ⟨1, _⟩ => show win1_0.index t (1 : Fin 2) * 2048 + 1 * j.val = s.val; rw [eb, hs]; omega

theorem rblk_apply1 (c : Dev nD) (t : Fin cfg1.N) (j : Fin 2048) (q : Fin 256) (s : Fin 10240)
    (hs : s.val = 2048 * (t.val % 5) + j.val) :
    iblk1 V c 1 t (ix2 j q) = rarr1 V c (ix2 s q) := by
  obtain ⟨-, -, ec, ed, -⟩ := idx_facts1 t
  unfold rarr1 iblk1
  rw [View.read_apply]
  show V c main_v47 _ = V c main_v47 _
  congr 1
  funext a
  apply Fin.ext
  match a with
  | ⟨0, _⟩ => show win1_1.index t (0 : Fin 2) * 2048 + 1 * j.val = s.val; rw [ec, hs]; omega
  | ⟨1, _⟩ => show win1_1.index t (1 : Fin 2) * 256 + 1 * q.val = q.val; rw [ed]; omega

/-- The product's term at contraction position `j` for the entry (`r`, `q`); zero past the axis's end. -/
def term1 (c : Dev nD) (r : Fin 10240) (q : Fin 256) (j : ℕ) : EReal :=
  if h : j < 10240 then larr1 V c (ix2 r ⟨j, h⟩) * rarr1 V c (ix2 ⟨j, h⟩ q) else 0

/-- A step from an accumulator holding the terms of the run's earlier contraction blocks adds this block's. -/
theorem acc_step1 (c : Dev nD) (acc : Vec Ideal S2048x256 .f32) (n : ℕ) (hn : n < cfg1.N) (p : Fin 2048) (q : Fin 256)
    (r : Fin 10240) (hr : r.val = 2048 * (n / 5) + p.val)
    (ha : acc (ix2 p q) = ∑ j ∈ Finset.range (2048 * (n % 5)), term1 V c r q j) :
    k1_pay2 acc (iblk1 V c 0 ⟨n, hn⟩) (iblk1 V c 1 ⟨n, hn⟩) (ix2 p q)
      = ∑ j ∈ Finset.range (2048 * (n % 5 + 1)), term1 V c r q j := by
  refine (step_apply1 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term1
  rw [dif_pos hlt, lblk_apply1 V c ⟨n, hn⟩ p j r ⟨_, hlt⟩ hr rfl, rblk_apply1 V c ⟨n, hn⟩ j q ⟨_, hlt⟩ rfl]

/-- After point `n` the accumulator holds the product's terms over the contraction blocks of the run so far. -/
theorem acc_apply1 (c : Dev nD) (n : ℕ) : ∀ (hn : n < cfg1.N) (p : Fin 2048) (q : Fin 256) (r : Fin 10240),
    r.val = 2048 * (n / 5) + p.val →
    sc1 V c n hn (ix2 p q) = ∑ j ∈ Finset.range (2048 * (n % 5 + 1)), term1 V c r q j := by
  have reset : ∀ n hn p q r, r.val = 2048 * (n / 5) + p.val → n % 5 = 0 →
      k1_pay2 k1_pay1 (iblk1 V c 0 ⟨n, hn⟩) (iblk1 V c 1 ⟨n, hn⟩) (ix2 p q)
        = ∑ j ∈ Finset.range (2048 * (n % 5 + 1)), term1 V c r q j :=
    fun n hn p q r hr hz => acc_step1 V c _ n hn p q r hr (by
      rw [hz, Nat.mul_zero, Finset.sum_range_zero]; exact zero_apply1 p q)
  induction n with
  | zero => intro hn p q r hr; exact reset 0 hn p q r hr rfl
  | succ n ih =>
    intro hn p q r hr
    show k1_pay2 (if (n + 1) % 5 = 0 then k1_pay1 else sc1 V c n _) _ _ _ = _
    by_cases hz : (n + 1) % 5 = 0
    · rw [if_pos hz]; exact reset (n + 1) hn p q r hr hz
    · rw [if_neg hz]
      exact acc_step1 V c _ (n + 1) hn p q r hr (by
        rw [show (n + 1) % 5 = n % 5 + 1 by omega]; exact ih _ p q r (by rw [hr]; omega))

/-- At the last point of a run the narrowed accumulator holds the product's entries of the run's row block. -/
theorem out_entry1 (c : Dev nD) (t : Fin cfg1.N) (hl : t.val % 5 = 4) (x : S2048x256.Idx) (i : S10240x256.Idx)
    (hrow : (i 0).val = 2048 * (t.val / 5) + (x 0).val) (hcol : (i 1).val = (x 1).val) :
    k1_pay3 (sc1 V c t.val t.isLt) x
      = mmOut (M := 10240) (K := 10240) (N := 256) (V c main_v21) (V c main_v47) i := by
  obtain ⟨p, q, rfl⟩ : ∃ (p : Fin 2048) (q : Fin 256), x = ix2 p q := ⟨x 0, x 1, eq_ix2 x⟩
  obtain ⟨r, g, rfl⟩ : ∃ (r : Fin 10240) (g : Fin 256), i = ix2 r g := ⟨i 0, i 1, eq_ix2 i⟩
  obtain rfl : g = q := Fin.ext hcol
  refine (narrow_apply1 _ _).trans ?_
  rw [acc_apply1 V c t.val t.isLt p g r hrow, hl, mmOut_apply, Finset.sum_range]
  refine Finset.sum_congr rfl fun j _ => ?_
  unfold term1
  rw [dif_pos j.isLt]

theorem flushed_eq1 (c : Dev nD) (t : Fin cfg1.N) (hf : (cfg1.win 2).flush t = true) :
    (dat1 (F := Ideal) V c).flushed 2 t
      = ((cfg1.win 2).blk t).view.read (Elt Ideal)
          (mmOut (M := 10240) (K := 10240) (N := 256) (V c main_v21) (V c main_v47)) := by
  obtain ⟨-, -, -, -, ee, ef⟩ := idx_facts1 t
  show (cfg1.win 2).cut (grid1.coords t) (k1_pay3 (sc1 V c t.val t.isLt)) = _
  funext y
  refine out_entry1 V c t ((flush1_2 t).mp hf) ((cfg1.win 2).xinj (grid1.coords t) y) (((cfg1.win 2).blk t).view.emb y) ?_ ?_
  · show win1_2.index t (0 : Fin 2) * 2048 + 1 * (y 0).val = 2048 * (t.val / 5) + (y 0).val
    rw [ee]; omega
  · show win1_2.index t (1 : Fin 2) * 256 + 1 * (y 1).val = (y 1).val
    rw [ef]; omega

/-- Every index of the output array lies in the block of its row block's last contraction step. -/
theorem cover1 (i : S10240x256.Idx) :
    ∃ t : Fin cfg1.N, (cfg1.win 2).flush t = true ∧ i ∈ ((cfg1.win 2).blk t).view.set := by
  have hrow : (i 0).val < 10240 := (i 0).isLt
  have hcol : (i 1).val < 256 := (i 1).isLt
  obtain ⟨t, ht⟩ : ∃ t : Fin cfg1.N, t.val = 5 * ((i 0).val / 2048) + 4 :=
    ⟨⟨_, by rw [show cfg1.N = 25 from N_1]; omega⟩, rfl⟩
  obtain ⟨-, -, -, -, ee, ef⟩ := idx_facts1 t
  refine ⟨t, (flush1_2 t).mpr (by omega), ?_⟩
  show i ∈ ((View.whole main_v54).slice (win1_2.rect t)).set
  rw [View.set_slice_whole, Rect.mem_set_unit]
  intro a
  match a with
  | ⟨0, _⟩ =>
    show win1_2.index t (0 : Fin 2) * 2048 ≤ (i 0).val ∧ (i 0).val < win1_2.index t (0 : Fin 2) * 2048 + 2048
    rw [ee]; omega
  | ⟨1, _⟩ =>
    show win1_2.index t (1 : Fin 2) * 256 ≤ (i 1).val ∧ (i 1).val < win1_2.index t (1 : Fin 2) * 256 + 256
    rw [ef]; omega

/-- The output array after the region is the product of the two arrays the region finds. -/
theorem final1 (c : Dev nD) :
    (dat1 (F := Ideal) V c).arrAt 2 cfg1.N
      = mmOut (M := 10240) (K := 10240) (N := 256) (V c main_v21) (V c main_v47) :=
  (dat1 (F := Ideal) V c).arrAt_eq_of_cover 2 _ (fun t hf => flushed_eq1 V c t hf) cover1

end Cert.KernelIdeal.Hand

end
-- ==== Proof.KI.Acc2Val.lean ====
import proofs.«414074_j90701119357381_1_alg».proof.Proof.KI.Acc2Def
import proofs.«414074_j90701119357381_1_alg».proof.Proof.KI.AccShape0
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- An entry of a block sits in its array at the block index times the block size plus its own coordinate. -/
theorem outApply2 (c : Dev nD) (t : Fin cfg2.N) (p : Fin 8192) (q : Fin 128) (r : Fin 40960)
    (hr : r.val = t.val * 8192 + p.val) :
    (out2 V c t : Vec Ideal S8192x128 .f32) (ix2 p q) = accOut (M := 40960) (K := 64) (N := 128) (V c main_v55) (V c main_v58) (V c main_v53) (ix2 r q) := by
  obtain ⟨a0, a1, b0, b1, c0, c1, -, -⟩ := idxFacts2 t
  refine (payApply0 _ _ _ p q).trans (congrArg₂ (· + ·) (Finset.sum_congr rfl fun k _ => congrArg₂ (· * ·) ?_ ?_) ?_)
  · show V c main_v55 (((cfg2.win 0).blk t).view.emb (ix2 p k)) = V c main_v55 (ix2 r k)
    refine congrArg _ (Shape.idx_ext₂ ?_ ?_)
    · show win2_0.index t (0 : Fin 2) * 8192 + 1 * p.val = r.val; omega
    · show win2_0.index t (1 : Fin 2) * 64 + 1 * k.val = k.val; omega
  · show V c main_v58 (((cfg2.win 1).blk t).view.emb (ix2 k q)) = V c main_v58 (ix2 k q)
    refine congrArg _ (Shape.idx_ext₂ ?_ ?_)
    · show win2_1.index t (0 : Fin 2) * 64 + 1 * k.val = k.val; omega
    · show win2_1.index t (1 : Fin 2) * 128 + 1 * q.val = q.val; omega
  · show V c main_v53 (((cfg2.win 2).blk t).view.emb (ix2 p q)) = V c main_v53 (ix2 r q)
    refine congrArg _ (Shape.idx_ext₂ ?_ ?_)
    · show win2_2.index t (0 : Fin 2) * 8192 + 1 * p.val = r.val; omega
    · show win2_2.index t (1 : Fin 2) * 128 + 1 * q.val = q.val; omega

/-- What point `t` writes back is block `t` of the whole-array result. -/
theorem flushedEq2 (c : Dev nD) (t : Fin cfg2.N) :
    (dat2 (F := Ideal) V c).flushed 3 t = ((cfg2.win 3).blk t).view.read (Elt Ideal) (accOut (M := 40960) (K := 64) (N := 128) (V c main_v55) (V c main_v58) (V c main_v53)) := by
  obtain ⟨-, -, -, -, -, -, o0, o1⟩ := idxFacts2 t
  have ht : t.val < 5 := N_2 ▸ t.isLt
  funext j
  obtain ⟨p, q, rfl⟩ : ∃ (p : Fin 8192) (q : Fin 128), j = ix2 p q := ⟨j 0, j 1, eq_ix2 j⟩
  refine (outApply2 V c t p q ⟨t.val * 8192 + p.val, by omega⟩ rfl).trans (congrArg _ (Shape.idx_ext₂ ?_ ?_))
  · show t.val * 8192 + p.val = win2_3.index t (0 : Fin 2) * 8192 + 1 * p.val; omega
  · show q.val = win2_3.index t (1 : Fin 2) * 128 + 1 * q.val; omega

/-- An index is in point `t`'s block iff each coordinate is in the block's range on its axis. -/
theorem mem_blk2 (t : Fin cfg2.N) (i : S40960x128.Idx) :
    i ∈ ((cfg2.win 3).blk t).view.set
      ↔ ∀ a : Fin 2, win2_3.index t a * S8192x128.size a ≤ (i a).val
          ∧ (i a).val < win2_3.index t a * S8192x128.size a + S8192x128.size a := by
  show i ∈ ((View.whole main_v59).slice (win2_3.rect t)).set ↔ _
  rw [View.set_slice_whole, Rect.mem_set_unit]
  exact Iff.rfl

/-- Every index of the output array is in the block of the point its row falls in. -/
theorem cover2 (i : S40960x128.Idx) :
    ∃ t : Fin cfg2.N, (cfg2.win 3).flush t = true ∧ i ∈ ((cfg2.win 3).blk t).view.set := by
  have hN : cfg2.N = 5 := N_2
  have hA : (i 0).val < 40960 := (i 0).isLt
  have hB : (i 1).val < 128 := (i 1).isLt
  have ht : (i 0).val / 8192 < cfg2.N := by rw [hN]; omega
  obtain ⟨-, -, -, -, -, -, o0, o1⟩ := idxFacts2 ⟨(i 0).val / 8192, ht⟩
  refine ⟨⟨(i 0).val / 8192, ht⟩, flush2_3 _, (mem_blk2 _ i).2 fun a => ?_⟩
  match a with
  | ⟨0, _⟩ =>
    show win2_3.index ⟨(i 0).val / 8192, ht⟩ (0 : Fin 2) * 8192 ≤ (i 0).val
      ∧ (i 0).val < win2_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win2_3.index ⟨(i 0).val / 8192, ht⟩ (1 : Fin 2) * 128 ≤ (i 1).val
      ∧ (i 1).val < win2_3.index ⟨(i 0).val / 8192, ht⟩ (1 : Fin 2) * 128 + 128
    rw [o1]; omega

/-- The output array after the run: the product of the two factor arrays plus the summand array. -/
theorem final2 (c : Dev nD) : (dat2 (F := Ideal) V c).arrAt 3 cfg2.N = accOut (M := 40960) (K := 64) (N := 128) (V c main_v55) (V c main_v58) (V c main_v53) :=
  (dat2 (F := Ideal) V c).arrAt_eq_of_cover 3 _ (fun t _ => flushedEq2 V c t) cover2

end Cert.KernelIdeal.Hand

end
-- ==== Proof.KI.Mm3Val.lean ====
import proofs.«414074_j90701119357381_1_alg».proof.Proof.KI.Mm3Def
import proofs.«414074_j90701119357381_1_alg».proof.Proof.KI.MmShape1
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts3 : ∀ t : Fin cfg3.N,
    win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = t.val / 5 ∧ win3_2.index t (1 : Fin 2) = 0 :=
  (by decide +kernel : ∀ t : Fin grid3.N, _)

abbrev larr3 (c : Dev nD) : Vec Ideal S10240x10240 .bf16 := V c main_v21
abbrev rarr3 (c : Dev nD) : Vec Ideal S10240x256 .bf16 := V c main_v54

theorem lblk_apply3 (c : Dev nD) (t : Fin cfg3.N) (p j : Fin 2048) (r s : Fin 10240)
    (hr : r.val = 2048 * (t.val / 5) + p.val) (hs : s.val = 2048 * (t.val % 5) + j.val) :
    iblk3 V c 0 t (ix2 p j) = larr3 V c (ix2 r s) := by
  obtain ⟨ea, eb, -⟩ := idx_facts3 t
  unfold larr3 iblk3
  rw [View.read_apply]
  show V c main_v21 _ = V c main_v21 _
  congr 1
  funext a
  apply Fin.ext
  match a with
  | ⟨0, _⟩ => show win3_0.index t (0 : Fin 2) * 2048 + 1 * p.val = r.val; rw [ea, hr]; omega
  | ⟨1, _⟩ => show win3_0.index t (1 : Fin 2) * 2048 + 1 * j.val = s.val; rw [eb, hs]; omega

theorem rblk_apply3 (c : Dev nD) (t : Fin cfg3.N) (j : Fin 2048) (q : Fin 256) (s : Fin 10240)
    (hs : s.val = 2048 * (t.val % 5) + j.val) :
    iblk3 V c 1 t (ix2 j q) = rarr3 V c (ix2 s q) := by
  obtain ⟨-, -, ec, ed, -⟩ := idx_facts3 t
  unfold rarr3 iblk3
  rw [View.read_apply]
  show V c main_v54 _ = V c main_v54 _
  congr 1
  funext a
  apply Fin.ext
  match a with
  | ⟨0, _⟩ => show win3_1.index t (0 : Fin 2) * 2048 + 1 * j.val = s.val; rw [ec, hs]; omega
  | ⟨1, _⟩ => show win3_1.index t (1 : Fin 2) * 256 + 1 * q.val = q.val; rw [ed]; omega

/-- The product's term at contraction position `j` for the entry (`r`, `q`); zero past the axis's end. -/
def term3 (c : Dev nD) (r : Fin 10240) (q : Fin 256) (j : ℕ) : EReal :=
  if h : j < 10240 then larr3 V c (ix2 r ⟨j, h⟩) * rarr3 V c (ix2 ⟨j, h⟩ q) else 0

/-- A step from an accumulator holding the terms of the run's earlier contraction blocks adds this block's. -/
theorem acc_step3 (c : Dev nD) (acc : Vec Ideal S2048x256 .f32) (n : ℕ) (hn : n < cfg3.N) (p : Fin 2048) (q : Fin 256)
    (r : Fin 10240) (hr : r.val = 2048 * (n / 5) + p.val)
    (ha : acc (ix2 p q) = ∑ j ∈ Finset.range (2048 * (n % 5)), term3 V c r q j) :
    k3_pay2 acc (iblk3 V c 0 ⟨n, hn⟩) (iblk3 V c 1 ⟨n, hn⟩) (ix2 p q)
      = ∑ j ∈ Finset.range (2048 * (n % 5 + 1)), term3 V c r q j := by
  refine (step_apply1 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term3
  rw [dif_pos hlt, lblk_apply3 V c ⟨n, hn⟩ p j r ⟨_, hlt⟩ hr rfl, rblk_apply3 V c ⟨n, hn⟩ j q ⟨_, hlt⟩ rfl]

/-- After point `n` the accumulator holds the product's terms over the contraction blocks of the run so far. -/
theorem acc_apply3 (c : Dev nD) (n : ℕ) : ∀ (hn : n < cfg3.N) (p : Fin 2048) (q : Fin 256) (r : Fin 10240),
    r.val = 2048 * (n / 5) + p.val →
    sc3 V c n hn (ix2 p q) = ∑ j ∈ Finset.range (2048 * (n % 5 + 1)), term3 V c r q j := by
  have reset : ∀ n hn p q r, r.val = 2048 * (n / 5) + p.val → n % 5 = 0 →
      k3_pay2 k3_pay1 (iblk3 V c 0 ⟨n, hn⟩) (iblk3 V c 1 ⟨n, hn⟩) (ix2 p q)
        = ∑ j ∈ Finset.range (2048 * (n % 5 + 1)), term3 V c r q j :=
    fun n hn p q r hr hz => acc_step3 V c _ n hn p q r hr (by
      rw [hz, Nat.mul_zero, Finset.sum_range_zero]; exact zero_apply1 p q)
  induction n with
  | zero => intro hn p q r hr; exact reset 0 hn p q r hr rfl
  | succ n ih =>
    intro hn p q r hr
    show k3_pay2 (if (n + 1) % 5 = 0 then k3_pay1 else sc3 V c n _) _ _ _ = _
    by_cases hz : (n + 1) % 5 = 0
    · rw [if_pos hz]; exact reset (n + 1) hn p q r hr hz
    · rw [if_neg hz]
      exact acc_step3 V c _ (n + 1) hn p q r hr (by
        rw [show (n + 1) % 5 = n % 5 + 1 by omega]; exact ih _ p q r (by rw [hr]; omega))

/-- At the last point of a run the narrowed accumulator holds the product's entries of the run's row block. -/
theorem out_entry3 (c : Dev nD) (t : Fin cfg3.N) (hl : t.val % 5 = 4) (x : S2048x256.Idx) (i : S10240x256.Idx)
    (hrow : (i 0).val = 2048 * (t.val / 5) + (x 0).val) (hcol : (i 1).val = (x 1).val) :
    k3_pay3 (sc3 V c t.val t.isLt) x
      = mmOut (M := 10240) (K := 10240) (N := 256) (V c main_v21) (V c main_v54) i := by
  obtain ⟨p, q, rfl⟩ : ∃ (p : Fin 2048) (q : Fin 256), x = ix2 p q := ⟨x 0, x 1, eq_ix2 x⟩
  obtain ⟨r, g, rfl⟩ : ∃ (r : Fin 10240) (g : Fin 256), i = ix2 r g := ⟨i 0, i 1, eq_ix2 i⟩
  obtain rfl : g = q := Fin.ext hcol
  refine (narrow_apply1 _ _).trans ?_
  rw [acc_apply3 V c t.val t.isLt p g r hrow, hl, mmOut_apply, Finset.sum_range]
  refine Finset.sum_congr rfl fun j _ => ?_
  unfold term3
  rw [dif_pos j.isLt]

theorem flushed_eq3 (c : Dev nD) (t : Fin cfg3.N) (hf : (cfg3.win 2).flush t = true) :
    (dat3 (F := Ideal) V c).flushed 2 t
      = ((cfg3.win 2).blk t).view.read (Elt Ideal)
          (mmOut (M := 10240) (K := 10240) (N := 256) (V c main_v21) (V c main_v54)) := by
  obtain ⟨-, -, -, -, ee, ef⟩ := idx_facts3 t
  show (cfg3.win 2).cut (grid3.coords t) (k3_pay3 (sc3 V c t.val t.isLt)) = _
  funext y
  refine out_entry3 V c t ((flush3_2 t).mp hf) ((cfg3.win 2).xinj (grid3.coords t) y) (((cfg3.win 2).blk t).view.emb y) ?_ ?_
  · show win3_2.index t (0 : Fin 2) * 2048 + 1 * (y 0).val = 2048 * (t.val / 5) + (y 0).val
    rw [ee]; omega
  · show win3_2.index t (1 : Fin 2) * 256 + 1 * (y 1).val = (y 1).val
    rw [ef]; omega

/-- Every index of the output array lies in the block of its row block's last contraction step. -/
theorem cover3 (i : S10240x256.Idx) :
    ∃ t : Fin cfg3.N, (cfg3.win 2).flush t = true ∧ i ∈ ((cfg3.win 2).blk t).view.set := by
  have hrow : (i 0).val < 10240 := (i 0).isLt
  have hcol : (i 1).val < 256 := (i 1).isLt
  obtain ⟨t, ht⟩ : ∃ t : Fin cfg3.N, t.val = 5 * ((i 0).val / 2048) + 4 :=
    ⟨⟨_, by rw [show cfg3.N = 25 from N_3]; omega⟩, rfl⟩
  obtain ⟨-, -, -, -, ee, ef⟩ := idx_facts3 t
  refine ⟨t, (flush3_2 t).mpr (by omega), ?_⟩
  show i ∈ ((View.whole main_v60).slice (win3_2.rect t)).set
  rw [View.set_slice_whole, Rect.mem_set_unit]
  intro a
  match a with
  | ⟨0, _⟩ =>
    show win3_2.index t (0 : Fin 2) * 2048 ≤ (i 0).val ∧ (i 0).val < win3_2.index t (0 : Fin 2) * 2048 + 2048
    rw [ee]; omega
  | ⟨1, _⟩ =>
    show win3_2.index t (1 : Fin 2) * 256 ≤ (i 1).val ∧ (i 1).val < win3_2.index t (1 : Fin 2) * 256 + 256
    rw [ef]; omega

/-- The output array after the region is the product of the two arrays the region finds. -/
theorem final3 (c : Dev nD) :
    (dat3 (F := Ideal) V c).arrAt 2 cfg3.N
      = mmOut (M := 10240) (K := 10240) (N := 256) (V c main_v21) (V c main_v54) :=
  (dat3 (F := Ideal) V c).arrAt_eq_of_cover 2 _ (fun t hf => flushed_eq3 V c t hf) cover3

end Cert.KernelIdeal.Hand

end
-- ==== Proof.KI.Acc4Val.lean ====
import proofs.«414074_j90701119357381_1_alg».proof.Proof.KI.Acc4Def
import proofs.«414074_j90701119357381_1_alg».proof.Proof.KI.AccShape0
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- An entry of a block sits in its array at the block index times the block size plus its own coordinate. -/
theorem outApply4 (c : Dev nD) (t : Fin cfg4.N) (p : Fin 8192) (q : Fin 128) (r : Fin 40960)
    (hr : r.val = t.val * 8192 + p.val) :
    (out4 V c t : Vec Ideal S8192x128 .f32) (ix2 p q) = accOut (M := 40960) (K := 64) (N := 128) (V c main_v61) (V c main_v64) (V c main_v59) (ix2 r q) := by
  obtain ⟨a0, a1, b0, b1, c0, c1, -, -⟩ := idxFacts4 t
  refine (payApply0 _ _ _ p q).trans (congrArg₂ (· + ·) (Finset.sum_congr rfl fun k _ => congrArg₂ (· * ·) ?_ ?_) ?_)
  · show V c main_v61 (((cfg4.win 0).blk t).view.emb (ix2 p k)) = V c main_v61 (ix2 r k)
    refine congrArg _ (Shape.idx_ext₂ ?_ ?_)
    · show win4_0.index t (0 : Fin 2) * 8192 + 1 * p.val = r.val; omega
    · show win4_0.index t (1 : Fin 2) * 64 + 1 * k.val = k.val; omega
  · show V c main_v64 (((cfg4.win 1).blk t).view.emb (ix2 k q)) = V c main_v64 (ix2 k q)
    refine congrArg _ (Shape.idx_ext₂ ?_ ?_)
    · show win4_1.index t (0 : Fin 2) * 64 + 1 * k.val = k.val; omega
    · show win4_1.index t (1 : Fin 2) * 128 + 1 * q.val = q.val; omega
  · show V c main_v59 (((cfg4.win 2).blk t).view.emb (ix2 p q)) = V c main_v59 (ix2 r q)
    refine congrArg _ (Shape.idx_ext₂ ?_ ?_)
    · show win4_2.index t (0 : Fin 2) * 8192 + 1 * p.val = r.val; omega
    · show win4_2.index t (1 : Fin 2) * 128 + 1 * q.val = q.val; omega

/-- What point `t` writes back is block `t` of the whole-array result. -/
theorem flushedEq4 (c : Dev nD) (t : Fin cfg4.N) :
    (dat4 (F := Ideal) V c).flushed 3 t = ((cfg4.win 3).blk t).view.read (Elt Ideal) (accOut (M := 40960) (K := 64) (N := 128) (V c main_v61) (V c main_v64) (V c main_v59)) := by
  obtain ⟨-, -, -, -, -, -, o0, o1⟩ := idxFacts4 t
  have ht : t.val < 5 := N_4 ▸ t.isLt
  funext j
  obtain ⟨p, q, rfl⟩ : ∃ (p : Fin 8192) (q : Fin 128), j = ix2 p q := ⟨j 0, j 1, eq_ix2 j⟩
  refine (outApply4 V c t p q ⟨t.val * 8192 + p.val, by omega⟩ rfl).trans (congrArg _ (Shape.idx_ext₂ ?_ ?_))
  · show t.val * 8192 + p.val = win4_3.index t (0 : Fin 2) * 8192 + 1 * p.val; omega
  · show q.val = win4_3.index t (1 : Fin 2) * 128 + 1 * q.val; omega

/-- An index is in point `t`'s block iff each coordinate is in the block's range on its axis. -/
theorem mem_blk4 (t : Fin cfg4.N) (i : S40960x128.Idx) :
    i ∈ ((cfg4.win 3).blk t).view.set
      ↔ ∀ a : Fin 2, win4_3.index t a * S8192x128.size a ≤ (i a).val
          ∧ (i a).val < win4_3.index t a * S8192x128.size a + S8192x128.size a := by
  show i ∈ ((View.whole main_v65).slice (win4_3.rect t)).set ↔ _
  rw [View.set_slice_whole, Rect.mem_set_unit]
  exact Iff.rfl

/-- Every index of the output array is in the block of the point its row falls in. -/
theorem cover4 (i : S40960x128.Idx) :
    ∃ t : Fin cfg4.N, (cfg4.win 3).flush t = true ∧ i ∈ ((cfg4.win 3).blk t).view.set := by
  have hN : cfg4.N = 5 := N_4
  have hA : (i 0).val < 40960 := (i 0).isLt
  have hB : (i 1).val < 128 := (i 1).isLt
  have ht : (i 0).val / 8192 < cfg4.N := by rw [hN]; omega
  obtain ⟨-, -, -, -, -, -, o0, o1⟩ := idxFacts4 ⟨(i 0).val / 8192, ht⟩
  refine ⟨⟨(i 0).val / 8192, ht⟩, flush4_3 _, (mem_blk4 _ i).2 fun a => ?_⟩
  match a with
  | ⟨0, _⟩ =>
    show win4_3.index ⟨(i 0).val / 8192, ht⟩ (0 : Fin 2) * 8192 ≤ (i 0).val
      ∧ (i 0).val < win4_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win4_3.index ⟨(i 0).val / 8192, ht⟩ (1 : Fin 2) * 128 ≤ (i 1).val
      ∧ (i 1).val < win4_3.index ⟨(i 0).val / 8192, ht⟩ (1 : Fin 2) * 128 + 128
    rw [o1]; omega

/-- The output array after the run: the product of the two factor arrays plus the summand array. -/
theorem final4 (c : Dev nD) : (dat4 (F := Ideal) V c).arrAt 3 cfg4.N = accOut (M := 40960) (K := 64) (N := 128) (V c main_v61) (V c main_v64) (V c main_v59) :=
  (dat4 (F := Ideal) V c).arrAt_eq_of_cover 3 _ (fun t _ => flushedEq4 V c t) cover4

end Cert.KernelIdeal.Hand

end
-- ==== Proof.KI.Acc5Val.lean ====
import proofs.«414074_j90701119357381_1_alg».proof.Proof.KI.Acc5Def
import proofs.«414074_j90701119357381_1_alg».proof.Proof.KI.AccShape0
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- An entry of a block sits in its array at the block index times the block size plus its own coordinate. -/
theorem outApply5 (c : Dev nD) (t : Fin cfg5.N) (p : Fin 8192) (q : Fin 128) (r : Fin 40960)
    (hr : r.val = t.val * 8192 + p.val) :
    (out5 V c t : Vec Ideal S8192x128 .f32) (ix2 p q) = accOut (M := 40960) (K := 64) (N := 128) (V c main_v66) (V c main_v69) (V c main_v65) (ix2 r q) := by
  obtain ⟨a0, a1, b0, b1, c0, c1, -, -⟩ := idxFacts5 t
  refine (payApply0 _ _ _ p q).trans (congrArg₂ (· + ·) (Finset.sum_congr rfl fun k _ => congrArg₂ (· * ·) ?_ ?_) ?_)
  · show V c main_v66 (((cfg5.win 0).blk t).view.emb (ix2 p k)) = V c main_v66 (ix2 r k)
    refine congrArg _ (Shape.idx_ext₂ ?_ ?_)
    · show win5_0.index t (0 : Fin 2) * 8192 + 1 * p.val = r.val; omega
    · show win5_0.index t (1 : Fin 2) * 64 + 1 * k.val = k.val; omega
  · show V c main_v69 (((cfg5.win 1).blk t).view.emb (ix2 k q)) = V c main_v69 (ix2 k q)
    refine congrArg _ (Shape.idx_ext₂ ?_ ?_)
    · show win5_1.index t (0 : Fin 2) * 64 + 1 * k.val = k.val; omega
    · show win5_1.index t (1 : Fin 2) * 128 + 1 * q.val = q.val; omega
  · show V c main_v65 (((cfg5.win 2).blk t).view.emb (ix2 p q)) = V c main_v65 (ix2 r q)
    refine congrArg _ (Shape.idx_ext₂ ?_ ?_)
    · show win5_2.index t (0 : Fin 2) * 8192 + 1 * p.val = r.val; omega
    · show win5_2.index t (1 : Fin 2) * 128 + 1 * q.val = q.val; omega

/-- What point `t` writes back is block `t` of the whole-array result. -/
theorem flushedEq5 (c : Dev nD) (t : Fin cfg5.N) :
    (dat5 (F := Ideal) V c).flushed 3 t = ((cfg5.win 3).blk t).view.read (Elt Ideal) (accOut (M := 40960) (K := 64) (N := 128) (V c main_v66) (V c main_v69) (V c main_v65)) := by
  obtain ⟨-, -, -, -, -, -, o0, o1⟩ := idxFacts5 t
  have ht : t.val < 5 := N_5 ▸ t.isLt
  funext j
  obtain ⟨p, q, rfl⟩ : ∃ (p : Fin 8192) (q : Fin 128), j = ix2 p q := ⟨j 0, j 1, eq_ix2 j⟩
  refine (outApply5 V c t p q ⟨t.val * 8192 + p.val, by omega⟩ rfl).trans (congrArg _ (Shape.idx_ext₂ ?_ ?_))
  · show t.val * 8192 + p.val = win5_3.index t (0 : Fin 2) * 8192 + 1 * p.val; omega
  · show q.val = win5_3.index t (1 : Fin 2) * 128 + 1 * q.val; omega

/-- An index is in point `t`'s block iff each coordinate is in the block's range on its axis. -/
theorem mem_blk5 (t : Fin cfg5.N) (i : S40960x128.Idx) :
    i ∈ ((cfg5.win 3).blk t).view.set
      ↔ ∀ a : Fin 2, win5_3.index t a * S8192x128.size a ≤ (i a).val
          ∧ (i a).val < win5_3.index t a * S8192x128.size a + S8192x128.size a := by
  show i ∈ ((View.whole main_v70).slice (win5_3.rect t)).set ↔ _
  rw [View.set_slice_whole, Rect.mem_set_unit]
  exact Iff.rfl

/-- Every index of the output array is in the block of the point its row falls in. -/
theorem cover5 (i : S40960x128.Idx) :
    ∃ t : Fin cfg5.N, (cfg5.win 3).flush t = true ∧ i ∈ ((cfg5.win 3).blk t).view.set := by
  have hN : cfg5.N = 5 := N_5
  have hA : (i 0).val < 40960 := (i 0).isLt
  have hB : (i 1).val < 128 := (i 1).isLt
  have ht : (i 0).val / 8192 < cfg5.N := by rw [hN]; omega
  obtain ⟨-, -, -, -, -, -, o0, o1⟩ := idxFacts5 ⟨(i 0).val / 8192, ht⟩
  refine ⟨⟨(i 0).val / 8192, ht⟩, flush5_3 _, (mem_blk5 _ i).2 fun a => ?_⟩
  match a with
  | ⟨0, _⟩ =>
    show win5_3.index ⟨(i 0).val / 8192, ht⟩ (0 : Fin 2) * 8192 ≤ (i 0).val
      ∧ (i 0).val < win5_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win5_3.index ⟨(i 0).val / 8192, ht⟩ (1 : Fin 2) * 128 ≤ (i 1).val
      ∧ (i 1).val < win5_3.index ⟨(i 0).val / 8192, ht⟩ (1 : Fin 2) * 128 + 128
    rw [o1]; omega

/-- The output array after the run: the product of the two factor arrays plus the summand array. -/
theorem final5 (c : Dev nD) : (dat5 (F := Ideal) V c).arrAt 3 cfg5.N = accOut (M := 40960) (K := 64) (N := 128) (V c main_v66) (V c main_v69) (V c main_v65) :=
  (dat5 (F := Ideal) V c).arrAt_eq_of_cover 3 _ (fun t _ => flushedEq5 V c t) cover5

end Cert.KernelIdeal.Hand

end
-- ==== Proof.KI.Mm6Val.lean ====
import proofs.«414074_j90701119357381_1_alg».proof.Proof.KI.Mm6Def
import proofs.«414074_j90701119357381_1_alg».proof.Proof.KI.MmShape1
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts6 : ∀ t : Fin cfg6.N,
    win6_0.index t (0 : Fin 2) = t.val / 5 ∧ win6_0.index t (1 : Fin 2) = t.val % 5
    ∧ win6_1.index t (0 : Fin 2) = t.val % 5 ∧ win6_1.index t (1 : Fin 2) = 0
    ∧ win6_2.index t (0 : Fin 2) = t.val / 5 ∧ win6_2.index t (1 : Fin 2) = 0 :=
  (by decide +kernel : ∀ t : Fin grid6.N, _)

abbrev larr6 (c : Dev nD) : Vec Ideal S10240x10240 .bf16 := V c main_v43
abbrev rarr6 (c : Dev nD) : Vec Ideal S10240x256 .bf16 := V c main_v47

theorem lblk_apply6 (c : Dev nD) (t : Fin cfg6.N) (p j : Fin 2048) (r s : Fin 10240)
    (hr : r.val = 2048 * (t.val / 5) + p.val) (hs : s.val = 2048 * (t.val % 5) + j.val) :
    iblk6 V c 0 t (ix2 p j) = larr6 V c (ix2 r s) := by
  obtain ⟨ea, eb, -⟩ := idx_facts6 t
  unfold larr6 iblk6
  rw [View.read_apply]
  show V c main_v43 _ = V c main_v43 _
  congr 1
  funext a
  apply Fin.ext
  match a with
  | ⟨0, _⟩ => show win6_0.index t (0 : Fin 2) * 2048 + 1 * p.val = r.val; rw [ea, hr]; omega
  | ⟨1, _⟩ => show win6_0.index t (1 : Fin 2) * 2048 + 1 * j.val = s.val; rw [eb, hs]; omega

theorem rblk_apply6 (c : Dev nD) (t : Fin cfg6.N) (j : Fin 2048) (q : Fin 256) (s : Fin 10240)
    (hs : s.val = 2048 * (t.val % 5) + j.val) :
    iblk6 V c 1 t (ix2 j q) = rarr6 V c (ix2 s q) := by
  obtain ⟨-, -, ec, ed, -⟩ := idx_facts6 t
  unfold rarr6 iblk6
  rw [View.read_apply]
  show V c main_v47 _ = V c main_v47 _
  congr 1
  funext a
  apply Fin.ext
  match a with
  | ⟨0, _⟩ => show win6_1.index t (0 : Fin 2) * 2048 + 1 * j.val = s.val; rw [ec, hs]; omega
  | ⟨1, _⟩ => show win6_1.index t (1 : Fin 2) * 256 + 1 * q.val = q.val; rw [ed]; omega

/-- The product's term at contraction position `j` for the entry (`r`, `q`); zero past the axis's end. -/
def term6 (c : Dev nD) (r : Fin 10240) (q : Fin 256) (j : ℕ) : EReal :=
  if h : j < 10240 then larr6 V c (ix2 r ⟨j, h⟩) * rarr6 V c (ix2 ⟨j, h⟩ q) else 0

/-- A step from an accumulator holding the terms of the run's earlier contraction blocks adds this block's. -/
theorem acc_step6 (c : Dev nD) (acc : Vec Ideal S2048x256 .f32) (n : ℕ) (hn : n < cfg6.N) (p : Fin 2048) (q : Fin 256)
    (r : Fin 10240) (hr : r.val = 2048 * (n / 5) + p.val)
    (ha : acc (ix2 p q) = ∑ j ∈ Finset.range (2048 * (n % 5)), term6 V c r q j) :
    k6_pay2 acc (iblk6 V c 0 ⟨n, hn⟩) (iblk6 V c 1 ⟨n, hn⟩) (ix2 p q)
      = ∑ j ∈ Finset.range (2048 * (n % 5 + 1)), term6 V c r q j := by
  refine (step_apply1 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term6
  rw [dif_pos hlt, lblk_apply6 V c ⟨n, hn⟩ p j r ⟨_, hlt⟩ hr rfl, rblk_apply6 V c ⟨n, hn⟩ j q ⟨_, hlt⟩ rfl]

/-- After point `n` the accumulator holds the product's terms over the contraction blocks of the run so far. -/
theorem acc_apply6 (c : Dev nD) (n : ℕ) : ∀ (hn : n < cfg6.N) (p : Fin 2048) (q : Fin 256) (r : Fin 10240),
    r.val = 2048 * (n / 5) + p.val →
    sc6 V c n hn (ix2 p q) = ∑ j ∈ Finset.range (2048 * (n % 5 + 1)), term6 V c r q j := by
  have reset : ∀ n hn p q r, r.val = 2048 * (n / 5) + p.val → n % 5 = 0 →
      k6_pay2 k6_pay1 (iblk6 V c 0 ⟨n, hn⟩) (iblk6 V c 1 ⟨n, hn⟩) (ix2 p q)
        = ∑ j ∈ Finset.range (2048 * (n % 5 + 1)), term6 V c r q j :=
    fun n hn p q r hr hz => acc_step6 V c _ n hn p q r hr (by
      rw [hz, Nat.mul_zero, Finset.sum_range_zero]; exact zero_apply1 p q)
  induction n with
  | zero => intro hn p q r hr; exact reset 0 hn p q r hr rfl
  | succ n ih =>
    intro hn p q r hr
    show k6_pay2 (if (n + 1) % 5 = 0 then k6_pay1 else sc6 V c n _) _ _ _ = _
    by_cases hz : (n + 1) % 5 = 0
    · rw [if_pos hz]; exact reset (n + 1) hn p q r hr hz
    · rw [if_neg hz]
      exact acc_step6 V c _ (n + 1) hn p q r hr (by
        rw [show (n + 1) % 5 = n % 5 + 1 by omega]; exact ih _ p q r (by rw [hr]; omega))

/-- At the last point of a run the narrowed accumulator holds the product's entries of the run's row block. -/
theorem out_entry6 (c : Dev nD) (t : Fin cfg6.N) (hl : t.val % 5 = 4) (x : S2048x256.Idx) (i : S10240x256.Idx)
    (hrow : (i 0).val = 2048 * (t.val / 5) + (x 0).val) (hcol : (i 1).val = (x 1).val) :
    k6_pay3 (sc6 V c t.val t.isLt) x
      = mmOut (M := 10240) (K := 10240) (N := 256) (V c main_v43) (V c main_v47) i := by
  obtain ⟨p, q, rfl⟩ : ∃ (p : Fin 2048) (q : Fin 256), x = ix2 p q := ⟨x 0, x 1, eq_ix2 x⟩
  obtain ⟨r, g, rfl⟩ : ∃ (r : Fin 10240) (g : Fin 256), i = ix2 r g := ⟨i 0, i 1, eq_ix2 i⟩
  obtain rfl : g = q := Fin.ext hcol
  refine (narrow_apply1 _ _).trans ?_
  rw [acc_apply6 V c t.val t.isLt p g r hrow, hl, mmOut_apply, Finset.sum_range]
  refine Finset.sum_congr rfl fun j _ => ?_
  unfold term6
  rw [dif_pos j.isLt]

theorem flushed_eq6 (c : Dev nD) (t : Fin cfg6.N) (hf : (cfg6.win 2).flush t = true) :
    (dat6 (F := Ideal) V c).flushed 2 t
      = ((cfg6.win 2).blk t).view.read (Elt Ideal)
          (mmOut (M := 10240) (K := 10240) (N := 256) (V c main_v43) (V c main_v47)) := by
  obtain ⟨-, -, -, -, ee, ef⟩ := idx_facts6 t
  show (cfg6.win 2).cut (grid6.coords t) (k6_pay3 (sc6 V c t.val t.isLt)) = _
  funext y
  refine out_entry6 V c t ((flush6_2 t).mp hf) ((cfg6.win 2).xinj (grid6.coords t) y) (((cfg6.win 2).blk t).view.emb y) ?_ ?_
  · show win6_2.index t (0 : Fin 2) * 2048 + 1 * (y 0).val = 2048 * (t.val / 5) + (y 0).val
    rw [ee]; omega
  · show win6_2.index t (1 : Fin 2) * 256 + 1 * (y 1).val = (y 1).val
    rw [ef]; omega

/-- Every index of the output array lies in the block of its row block's last contraction step. -/
theorem cover6 (i : S10240x256.Idx) :
    ∃ t : Fin cfg6.N, (cfg6.win 2).flush t = true ∧ i ∈ ((cfg6.win 2).blk t).view.set := by
  have hrow : (i 0).val < 10240 := (i 0).isLt
  have hcol : (i 1).val < 256 := (i 1).isLt
  obtain ⟨t, ht⟩ : ∃ t : Fin cfg6.N, t.val = 5 * ((i 0).val / 2048) + 4 :=
    ⟨⟨_, by rw [show cfg6.N = 25 from N_6]; omega⟩, rfl⟩
  obtain ⟨-, -, -, -, ee, ef⟩ := idx_facts6 t
  refine ⟨t, (flush6_2 t).mpr (by omega), ?_⟩
  show i ∈ ((View.whole main_v71).slice (win6_2.rect t)).set
  rw [View.set_slice_whole, Rect.mem_set_unit]
  intro a
  match a with
  | ⟨0, _⟩ =>
    show win6_2.index t (0 : Fin 2) * 2048 ≤ (i 0).val ∧ (i 0).val < win6_2.index t (0 : Fin 2) * 2048 + 2048
    rw [ee]; omega
  | ⟨1, _⟩ =>
    show win6_2.index t (1 : Fin 2) * 256 ≤ (i 1).val ∧ (i 1).val < win6_2.index t (1 : Fin 2) * 256 + 256
    rw [ef]; omega

/-- The output array after the region is the product of the two arrays the region finds. -/
theorem final6 (c : Dev nD) :
    (dat6 (F := Ideal) V c).arrAt 2 cfg6.N
      = mmOut (M := 10240) (K := 10240) (N := 256) (V c main_v43) (V c main_v47) :=
  (dat6 (F := Ideal) V c).arrAt_eq_of_cover 2 _ (fun t hf => flushed_eq6 V c t hf) cover6

end Cert.KernelIdeal.Hand

end
-- ==== Proof.KI.Acc7Val.lean ====
import proofs.«414074_j90701119357381_1_alg».proof.Proof.KI.Acc7Def
import proofs.«414074_j90701119357381_1_alg».proof.Proof.KI.AccShape0
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- An entry of a block sits in its array at the block index times the block size plus its own coordinate. -/
theorem outApply7 (c : Dev nD) (t : Fin cfg7.N) (p : Fin 8192) (q : Fin 128) (r : Fin 40960)
    (hr : r.val = t.val * 8192 + p.val) :
    (out7 V c t : Vec Ideal S8192x128 .f32) (ix2 p q) = accOut (M := 40960) (K := 64) (N := 128) (V c main_v72) (V c main_v75) (V c main_v70) (ix2 r q) := by
  obtain ⟨a0, a1, b0, b1, c0, c1, -, -⟩ := idxFacts7 t
  refine (payApply0 _ _ _ p q).trans (congrArg₂ (· + ·) (Finset.sum_congr rfl fun k _ => congrArg₂ (· * ·) ?_ ?_) ?_)
  · show V c main_v72 (((cfg7.win 0).blk t).view.emb (ix2 p k)) = V c main_v72 (ix2 r k)
    refine congrArg _ (Shape.idx_ext₂ ?_ ?_)
    · show win7_0.index t (0 : Fin 2) * 8192 + 1 * p.val = r.val; omega
    · show win7_0.index t (1 : Fin 2) * 64 + 1 * k.val = k.val; omega
  · show V c main_v75 (((cfg7.win 1).blk t).view.emb (ix2 k q)) = V c main_v75 (ix2 k q)
    refine congrArg _ (Shape.idx_ext₂ ?_ ?_)
    · show win7_1.index t (0 : Fin 2) * 64 + 1 * k.val = k.val; omega
    · show win7_1.index t (1 : Fin 2) * 128 + 1 * q.val = q.val; omega
  · show V c main_v70 (((cfg7.win 2).blk t).view.emb (ix2 p q)) = V c main_v70 (ix2 r q)
    refine congrArg _ (Shape.idx_ext₂ ?_ ?_)
    · show win7_2.index t (0 : Fin 2) * 8192 + 1 * p.val = r.val; omega
    · show win7_2.index t (1 : Fin 2) * 128 + 1 * q.val = q.val; omega

/-- What point `t` writes back is block `t` of the whole-array result. -/
theorem flushedEq7 (c : Dev nD) (t : Fin cfg7.N) :
    (dat7 (F := Ideal) V c).flushed 3 t = ((cfg7.win 3).blk t).view.read (Elt Ideal) (accOut (M := 40960) (K := 64) (N := 128) (V c main_v72) (V c main_v75) (V c main_v70)) := by
  obtain ⟨-, -, -, -, -, -, o0, o1⟩ := idxFacts7 t
  have ht : t.val < 5 := N_7 ▸ t.isLt
  funext j
  obtain ⟨p, q, rfl⟩ : ∃ (p : Fin 8192) (q : Fin 128), j = ix2 p q := ⟨j 0, j 1, eq_ix2 j⟩
  refine (outApply7 V c t p q ⟨t.val * 8192 + p.val, by omega⟩ rfl).trans (congrArg _ (Shape.idx_ext₂ ?_ ?_))
  · show t.val * 8192 + p.val = win7_3.index t (0 : Fin 2) * 8192 + 1 * p.val; omega
  · show q.val = win7_3.index t (1 : Fin 2) * 128 + 1 * q.val; omega

/-- An index is in point `t`'s block iff each coordinate is in the block's range on its axis. -/
theorem mem_blk7 (t : Fin cfg7.N) (i : S40960x128.Idx) :
    i ∈ ((cfg7.win 3).blk t).view.set
      ↔ ∀ a : Fin 2, win7_3.index t a * S8192x128.size a ≤ (i a).val
          ∧ (i a).val < win7_3.index t a * S8192x128.size a + S8192x128.size a := by
  show i ∈ ((View.whole main_v76).slice (win7_3.rect t)).set ↔ _
  rw [View.set_slice_whole, Rect.mem_set_unit]
  exact Iff.rfl

/-- Every index of the output array is in the block of the point its row falls in. -/
theorem cover7 (i : S40960x128.Idx) :
    ∃ t : Fin cfg7.N, (cfg7.win 3).flush t = true ∧ i ∈ ((cfg7.win 3).blk t).view.set := by
  have hN : cfg7.N = 5 := N_7
  have hA : (i 0).val < 40960 := (i 0).isLt
  have hB : (i 1).val < 128 := (i 1).isLt
  have ht : (i 0).val / 8192 < cfg7.N := by rw [hN]; omega
  obtain ⟨-, -, -, -, -, -, o0, o1⟩ := idxFacts7 ⟨(i 0).val / 8192, ht⟩
  refine ⟨⟨(i 0).val / 8192, ht⟩, flush7_3 _, (mem_blk7 _ i).2 fun a => ?_⟩
  match a with
  | ⟨0, _⟩ =>
    show win7_3.index ⟨(i 0).val / 8192, ht⟩ (0 : Fin 2) * 8192 ≤ (i 0).val
      ∧ (i 0).val < win7_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win7_3.index ⟨(i 0).val / 8192, ht⟩ (1 : Fin 2) * 128 ≤ (i 1).val
      ∧ (i 1).val < win7_3.index ⟨(i 0).val / 8192, ht⟩ (1 : Fin 2) * 128 + 128
    rw [o1]; omega

/-- The output array after the run: the product of the two factor arrays plus the summand array. -/
theorem final7 (c : Dev nD) : (dat7 (F := Ideal) V c).arrAt 3 cfg7.N = accOut (M := 40960) (K := 64) (N := 128) (V c main_v72) (V c main_v75) (V c main_v70) :=
  (dat7 (F := Ideal) V c).arrAt_eq_of_cover 3 _ (fun t _ => flushedEq7 V c t) cover7

end Cert.KernelIdeal.Hand

end
-- ==== Proof.KI.Mm8Val.lean ====
import proofs.«414074_j90701119357381_1_alg».proof.Proof.KI.Mm8Def
import proofs.«414074_j90701119357381_1_alg».proof.Proof.KI.MmShape1
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts8 : ∀ t : Fin cfg8.N,
    win8_0.index t (0 : Fin 2) = t.val / 5 ∧ win8_0.index t (1 : Fin 2) = t.val % 5
    ∧ win8_1.index t (0 : Fin 2) = t.val % 5 ∧ win8_1.index t (1 : Fin 2) = 0
    ∧ win8_2.index t (0 : Fin 2) = t.val / 5 ∧ win8_2.index t (1 : Fin 2) = 0 :=
  (by decide +kernel : ∀ t : Fin grid8.N, _)

abbrev larr8 (c : Dev nD) : Vec Ideal S10240x10240 .bf16 := V c main_v43
abbrev rarr8 (c : Dev nD) : Vec Ideal S10240x256 .bf16 := V c main_v71

theorem lblk_apply8 (c : Dev nD) (t : Fin cfg8.N) (p j : Fin 2048) (r s : Fin 10240)
    (hr : r.val = 2048 * (t.val / 5) + p.val) (hs : s.val = 2048 * (t.val % 5) + j.val) :
    iblk8 V c 0 t (ix2 p j) = larr8 V c (ix2 r s) := by
  obtain ⟨ea, eb, -⟩ := idx_facts8 t
  unfold larr8 iblk8
  rw [View.read_apply]
  show V c main_v43 _ = V c main_v43 _
  congr 1
  funext a
  apply Fin.ext
  match a with
  | ⟨0, _⟩ => show win8_0.index t (0 : Fin 2) * 2048 + 1 * p.val = r.val; rw [ea, hr]; omega
  | ⟨1, _⟩ => show win8_0.index t (1 : Fin 2) * 2048 + 1 * j.val = s.val; rw [eb, hs]; omega

theorem rblk_apply8 (c : Dev nD) (t : Fin cfg8.N) (j : Fin 2048) (q : Fin 256) (s : Fin 10240)
    (hs : s.val = 2048 * (t.val % 5) + j.val) :
    iblk8 V c 1 t (ix2 j q) = rarr8 V c (ix2 s q) := by
  obtain ⟨-, -, ec, ed, -⟩ := idx_facts8 t
  unfold rarr8 iblk8
  rw [View.read_apply]
  show V c main_v71 _ = V c main_v71 _
  congr 1
  funext a
  apply Fin.ext
  match a with
  | ⟨0, _⟩ => show win8_1.index t (0 : Fin 2) * 2048 + 1 * j.val = s.val; rw [ec, hs]; omega
  | ⟨1, _⟩ => show win8_1.index t (1 : Fin 2) * 256 + 1 * q.val = q.val; rw [ed]; omega

/-- The product's term at contraction position `j` for the entry (`r`, `q`); zero past the axis's end. -/
def term8 (c : Dev nD) (r : Fin 10240) (q : Fin 256) (j : ℕ) : EReal :=
  if h : j < 10240 then larr8 V c (ix2 r ⟨j, h⟩) * rarr8 V c (ix2 ⟨j, h⟩ q) else 0

/-- A step from an accumulator holding the terms of the run's earlier contraction blocks adds this block's. -/
theorem acc_step8 (c : Dev nD) (acc : Vec Ideal S2048x256 .f32) (n : ℕ) (hn : n < cfg8.N) (p : Fin 2048) (q : Fin 256)
    (r : Fin 10240) (hr : r.val = 2048 * (n / 5) + p.val)
    (ha : acc (ix2 p q) = ∑ j ∈ Finset.range (2048 * (n % 5)), term8 V c r q j) :
    k8_pay2 acc (iblk8 V c 0 ⟨n, hn⟩) (iblk8 V c 1 ⟨n, hn⟩) (ix2 p q)
      = ∑ j ∈ Finset.range (2048 * (n % 5 + 1)), term8 V c r q j := by
  refine (step_apply1 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term8
  rw [dif_pos hlt, lblk_apply8 V c ⟨n, hn⟩ p j r ⟨_, hlt⟩ hr rfl, rblk_apply8 V c ⟨n, hn⟩ j q ⟨_, hlt⟩ rfl]

/-- After point `n` the accumulator holds the product's terms over the contraction blocks of the run so far. -/
theorem acc_apply8 (c : Dev nD) (n : ℕ) : ∀ (hn : n < cfg8.N) (p : Fin 2048) (q : Fin 256) (r : Fin 10240),
    r.val = 2048 * (n / 5) + p.val →
    sc8 V c n hn (ix2 p q) = ∑ j ∈ Finset.range (2048 * (n % 5 + 1)), term8 V c r q j := by
  have reset : ∀ n hn p q r, r.val = 2048 * (n / 5) + p.val → n % 5 = 0 →
      k8_pay2 k8_pay1 (iblk8 V c 0 ⟨n, hn⟩) (iblk8 V c 1 ⟨n, hn⟩) (ix2 p q)
        = ∑ j ∈ Finset.range (2048 * (n % 5 + 1)), term8 V c r q j :=
    fun n hn p q r hr hz => acc_step8 V c _ n hn p q r hr (by
      rw [hz, Nat.mul_zero, Finset.sum_range_zero]; exact zero_apply1 p q)
  induction n with
  | zero => intro hn p q r hr; exact reset 0 hn p q r hr rfl
  | succ n ih =>
    intro hn p q r hr
    show k8_pay2 (if (n + 1) % 5 = 0 then k8_pay1 else sc8 V c n _) _ _ _ = _
    by_cases hz : (n + 1) % 5 = 0
    · rw [if_pos hz]; exact reset (n + 1) hn p q r hr hz
    · rw [if_neg hz]
      exact acc_step8 V c _ (n + 1) hn p q r hr (by
        rw [show (n + 1) % 5 = n % 5 + 1 by omega]; exact ih _ p q r (by rw [hr]; omega))

/-- At the last point of a run the narrowed accumulator holds the product's entries of the run's row block. -/
theorem out_entry8 (c : Dev nD) (t : Fin cfg8.N) (hl : t.val % 5 = 4) (x : S2048x256.Idx) (i : S10240x256.Idx)
    (hrow : (i 0).val = 2048 * (t.val / 5) + (x 0).val) (hcol : (i 1).val = (x 1).val) :
    k8_pay3 (sc8 V c t.val t.isLt) x
      = mmOut (M := 10240) (K := 10240) (N := 256) (V c main_v43) (V c main_v71) i := by
  obtain ⟨p, q, rfl⟩ : ∃ (p : Fin 2048) (q : Fin 256), x = ix2 p q := ⟨x 0, x 1, eq_ix2 x⟩
  obtain ⟨r, g, rfl⟩ : ∃ (r : Fin 10240) (g : Fin 256), i = ix2 r g := ⟨i 0, i 1, eq_ix2 i⟩
  obtain rfl : g = q := Fin.ext hcol
  refine (narrow_apply1 _ _).trans ?_
  rw [acc_apply8 V c t.val t.isLt p g r hrow, hl, mmOut_apply, Finset.sum_range]
  refine Finset.sum_congr rfl fun j _ => ?_
  unfold term8
  rw [dif_pos j.isLt]

theorem flushed_eq8 (c : Dev nD) (t : Fin cfg8.N) (hf : (cfg8.win 2).flush t = true) :
    (dat8 (F := Ideal) V c).flushed 2 t
      = ((cfg8.win 2).blk t).view.read (Elt Ideal)
          (mmOut (M := 10240) (K := 10240) (N := 256) (V c main_v43) (V c main_v71)) := by
  obtain ⟨-, -, -, -, ee, ef⟩ := idx_facts8 t
  show (cfg8.win 2).cut (grid8.coords t) (k8_pay3 (sc8 V c t.val t.isLt)) = _
  funext y
  refine out_entry8 V c t ((flush8_2 t).mp hf) ((cfg8.win 2).xinj (grid8.coords t) y) (((cfg8.win 2).blk t).view.emb y) ?_ ?_
  · show win8_2.index t (0 : Fin 2) * 2048 + 1 * (y 0).val = 2048 * (t.val / 5) + (y 0).val
    rw [ee]; omega
  · show win8_2.index t (1 : Fin 2) * 256 + 1 * (y 1).val = (y 1).val
    rw [ef]; omega

/-- Every index of the output array lies in the block of its row block's last contraction step. -/
theorem cover8 (i : S10240x256.Idx) :
    ∃ t : Fin cfg8.N, (cfg8.win 2).flush t = true ∧ i ∈ ((cfg8.win 2).blk t).view.set := by
  have hrow : (i 0).val < 10240 := (i 0).isLt
  have hcol : (i 1).val < 256 := (i 1).isLt
  obtain ⟨t, ht⟩ : ∃ t : Fin cfg8.N, t.val = 5 * ((i 0).val / 2048) + 4 :=
    ⟨⟨_, by rw [show cfg8.N = 25 from N_8]; omega⟩, rfl⟩
  obtain ⟨-, -, -, -, ee, ef⟩ := idx_facts8 t
  refine ⟨t, (flush8_2 t).mpr (by omega), ?_⟩
  show i ∈ ((View.whole main_v77).slice (win8_2.rect t)).set
  rw [View.set_slice_whole, Rect.mem_set_unit]
  intro a
  match a with
  | ⟨0, _⟩ =>
    show win8_2.index t (0 : Fin 2) * 2048 ≤ (i 0).val ∧ (i 0).val < win8_2.index t (0 : Fin 2) * 2048 + 2048
    rw [ee]; omega
  | ⟨1, _⟩ =>
    show win8_2.index t (1 : Fin 2) * 256 ≤ (i 1).val ∧ (i 1).val < win8_2.index t (1 : Fin 2) * 256 + 256
    rw [ef]; omega

/-- The output array after the region is the product of the two arrays the region finds. -/
theorem final8 (c : Dev nD) :
    (dat8 (F := Ideal) V c).arrAt 2 cfg8.N
      = mmOut (M := 10240) (K := 10240) (N := 256) (V c main_v43) (V c main_v71) :=
  (dat8 (F := Ideal) V c).arrAt_eq_of_cover 2 _ (fun t hf => flushed_eq8 V c t hf) cover8

end Cert.KernelIdeal.Hand

end
-- ==== Proof.KI.Acc9Val.lean ====
import proofs.«414074_j90701119357381_1_alg».proof.Proof.KI.Acc9Def
import proofs.«414074_j90701119357381_1_alg».proof.Proof.KI.AccShape0
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- An entry of a block sits in its array at the block index times the block size plus its own coordinate. -/
theorem outApply9 (c : Dev nD) (t : Fin cfg9.N) (p : Fin 8192) (q : Fin 128) (r : Fin 40960)
    (hr : r.val = t.val * 8192 + p.val) :
    (out9 V c t : Vec Ideal S8192x128 .f32) (ix2 p q) = accOut (M := 40960) (K := 64) (N := 128) (V c main_v78) (V c main_v81) (V c main_v76) (ix2 r q) := by
  obtain ⟨a0, a1, b0, b1, c0, c1, -, -⟩ := idxFacts9 t
  refine (payApply0 _ _ _ p q).trans (congrArg₂ (· + ·) (Finset.sum_congr rfl fun k _ => congrArg₂ (· * ·) ?_ ?_) ?_)
  · show V c main_v78 (((cfg9.win 0).blk t).view.emb (ix2 p k)) = V c main_v78 (ix2 r k)
    refine congrArg _ (Shape.idx_ext₂ ?_ ?_)
    · show win9_0.index t (0 : Fin 2) * 8192 + 1 * p.val = r.val; omega
    · show win9_0.index t (1 : Fin 2) * 64 + 1 * k.val = k.val; omega
  · show V c main_v81 (((cfg9.win 1).blk t).view.emb (ix2 k q)) = V c main_v81 (ix2 k q)
    refine congrArg _ (Shape.idx_ext₂ ?_ ?_)
    · show win9_1.index t (0 : Fin 2) * 64 + 1 * k.val = k.val; omega
    · show win9_1.index t (1 : Fin 2) * 128 + 1 * q.val = q.val; omega
  · show V c main_v76 (((cfg9.win 2).blk t).view.emb (ix2 p q)) = V c main_v76 (ix2 r q)
    refine congrArg _ (Shape.idx_ext₂ ?_ ?_)
    · show win9_2.index t (0 : Fin 2) * 8192 + 1 * p.val = r.val; omega
    · show win9_2.index t (1 : Fin 2) * 128 + 1 * q.val = q.val; omega

/-- What point `t` writes back is block `t` of the whole-array result. -/
theorem flushedEq9 (c : Dev nD) (t : Fin cfg9.N) :
    (dat9 (F := Ideal) V c).flushed 3 t = ((cfg9.win 3).blk t).view.read (Elt Ideal) (accOut (M := 40960) (K := 64) (N := 128) (V c main_v78) (V c main_v81) (V c main_v76)) := by
  obtain ⟨-, -, -, -, -, -, o0, o1⟩ := idxFacts9 t
  have ht : t.val < 5 := N_9 ▸ t.isLt
  funext j
  obtain ⟨p, q, rfl⟩ : ∃ (p : Fin 8192) (q : Fin 128), j = ix2 p q := ⟨j 0, j 1, eq_ix2 j⟩
  refine (outApply9 V c t p q ⟨t.val * 8192 + p.val, by omega⟩ rfl).trans (congrArg _ (Shape.idx_ext₂ ?_ ?_))
  · show t.val * 8192 + p.val = win9_3.index t (0 : Fin 2) * 8192 + 1 * p.val; omega
  · show q.val = win9_3.index t (1 : Fin 2) * 128 + 1 * q.val; omega

/-- An index is in point `t`'s block iff each coordinate is in the block's range on its axis. -/
theorem mem_blk9 (t : Fin cfg9.N) (i : S40960x128.Idx) :
    i ∈ ((cfg9.win 3).blk t).view.set
      ↔ ∀ a : Fin 2, win9_3.index t a * S8192x128.size a ≤ (i a).val
          ∧ (i a).val < win9_3.index t a * S8192x128.size a + S8192x128.size a := by
  show i ∈ ((View.whole main_v82).slice (win9_3.rect t)).set ↔ _
  rw [View.set_slice_whole, Rect.mem_set_unit]
  exact Iff.rfl

/-- Every index of the output array is in the block of the point its row falls in. -/
theorem cover9 (i : S40960x128.Idx) :
    ∃ t : Fin cfg9.N, (cfg9.win 3).flush t = true ∧ i ∈ ((cfg9.win 3).blk t).view.set := by
  have hN : cfg9.N = 5 := N_9
  have hA : (i 0).val < 40960 := (i 0).isLt
  have hB : (i 1).val < 128 := (i 1).isLt
  have ht : (i 0).val / 8192 < cfg9.N := by rw [hN]; omega
  obtain ⟨-, -, -, -, -, -, o0, o1⟩ := idxFacts9 ⟨(i 0).val / 8192, ht⟩
  refine ⟨⟨(i 0).val / 8192, ht⟩, flush9_3 _, (mem_blk9 _ i).2 fun a => ?_⟩
  match a with
  | ⟨0, _⟩ =>
    show win9_3.index ⟨(i 0).val / 8192, ht⟩ (0 : Fin 2) * 8192 ≤ (i 0).val
      ∧ (i 0).val < win9_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win9_3.index ⟨(i 0).val / 8192, ht⟩ (1 : Fin 2) * 128 ≤ (i 1).val
      ∧ (i 1).val < win9_3.index ⟨(i 0).val / 8192, ht⟩ (1 : Fin 2) * 128 + 128
    rw [o1]; omega

/-- The output array after the run: the product of the two factor arrays plus the summand array. -/
theorem final9 (c : Dev nD) : (dat9 (F := Ideal) V c).arrAt 3 cfg9.N = accOut (M := 40960) (K := 64) (N := 128) (V c main_v78) (V c main_v81) (V c main_v76) :=
  (dat9 (F := Ideal) V c).arrAt_eq_of_cover 3 _ (fun t _ => flushedEq9 V c t) cover9

end Cert.KernelIdeal.Hand

end
-- ==== Proof.KI.AccShape10.lean ====
import proofs.«414074_j90701119357381_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The product of two blocks into the zero accumulator at an entry: the sum over the contraction axis. -/
theorem mmApply10 (zb : Vec Ideal S8192x128 .bf16) (wb : Vec Ideal S128x128 .bf16) (p : Fin 8192) (q : Fin 128) :
    matmul (F := Ideal) (φ₁ := .bf16) (φ₂ := .bf16) dot_S8192x128_S128x128_S8192x128_1_0_0_1_n_n none zb wb (constant S8192x128 .f32 0x00000000#32) (ix2 p q)
      = ∑ k : Fin 128, zb (ix2 p k) * wb (ix2 k q) := by
  simp only [matmul]
  rw [Ideal.matmul_constant_zero_apply, ← Equiv.sum_comp (contrEquiv1 _ 128 rfl rfl).symm]
  refine Finset.sum_congr rfl fun k _ => ?_
  have hk := contrEquiv1_symm_val dot_S8192x128_S128x128_S8192x128_1_0_0_1_n_n 128 rfl rfl k
  refine congrArg₂ _ (congrArg zb (funext fun a => Fin.ext ?_)) (congrArg wb (funext fun a => Fin.ext ?_)) <;>
    match a with
    | ⟨0, _⟩ | ⟨1, _⟩ =>
      first | exact (DotDims.lhsIdx_val_of_single _ rfl _ _).trans hk | exact (DotDims.rhsIdx_val_of_single _ rfl _ _).trans hk | rfl

/-- What a point leaves in its output block at an entry: the two blocks' product there plus the third block's entry. -/
theorem payApply10 (zb : Vec Ideal S8192x128 .bf16) (wb : Vec Ideal S128x128 .bf16) (cb : Vec Ideal S8192x128 .f32)
    (p : Fin 8192) (q : Fin 128) :
    k10_pay3 (k10_pay2 (k10_pay1 (F := Ideal)) zb wb) cb (ix2 p q)
      = (∑ k : Fin 128, zb (ix2 p k) * wb (ix2 k q)) + cb (ix2 p q) := by
  unfold k10_pay3 k10_pay2 k10_pay1
  simp only [shapeCast_self, addf_apply, broadcast_apply]
  rw [mmApply10]
  show Ideal.ofBits .f32 0x00000000#32 + _ + _ = _
  rw [Ideal.ofBits_zero_f32, zero_add]

end Cert.KernelIdeal.Hand

end
-- ==== Proof.KI.Acc10Val.lean ====
import proofs.«414074_j90701119357381_1_alg».proof.Proof.KI.Acc10Def
import proofs.«414074_j90701119357381_1_alg».proof.Proof.KI.AccShape10
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

/-- An entry of a block sits in its array at the block index times the block size plus its own coordinate. -/
theorem outApply10 (c : Dev nD) (t : Fin cfg10.N) (p : Fin 8192) (q : Fin 128) (r : Fin 40960)
    (hr : r.val = t.val * 8192 + p.val) :
    (out10 V c t : Vec Ideal S8192x128 .f32) (ix2 p q) = accOut (M := 40960) (K := 128) (N := 128) (V c main_v87) (V c main_v90) (V c main_v86) (ix2 r q) := by
  obtain ⟨a0, a1, b0, b1, c0, c1, -, -⟩ := idxFacts10 t
  refine (payApply10 _ _ _ p q).trans (congrArg₂ (· + ·) (Finset.sum_congr rfl fun k _ => congrArg₂ (· * ·) ?_ ?_) ?_)
  · show V c main_v87 (((cfg10.win 0).blk t).view.emb (ix2 p k)) = V c main_v87 (ix2 r k)
    refine congrArg _ (Shape.idx_ext₂ ?_ ?_)
    · show win10_0.index t (0 : Fin 2) * 8192 + 1 * p.val = r.val; omega
    · show win10_0.index t (1 : Fin 2) * 128 + 1 * k.val = k.val; omega
  · show V c main_v90 (((cfg10.win 1).blk t).view.emb (ix2 k q)) = V c main_v90 (ix2 k q)
    refine congrArg _ (Shape.idx_ext₂ ?_ ?_)
    · show win10_1.index t (0 : Fin 2) * 128 + 1 * k.val = k.val; omega
    · show win10_1.index t (1 : Fin 2) * 128 + 1 * q.val = q.val; omega
  · show V c main_v86 (((cfg10.win 2).blk t).view.emb (ix2 p q)) = V c main_v86 (ix2 r q)
    refine congrArg _ (Shape.idx_ext₂ ?_ ?_)
    · show win10_2.index t (0 : Fin 2) * 8192 + 1 * p.val = r.val; omega
    · show win10_2.index t (1 : Fin 2) * 128 + 1 * q.val = q.val; omega

/-- What point `t` writes back is block `t` of the whole-array result. -/
theorem flushedEq10 (c : Dev nD) (t : Fin cfg10.N) :
    (dat10 (F := Ideal) V c).flushed 3 t = ((cfg10.win 3).blk t).view.read (Elt Ideal) (accOut (M := 40960) (K := 128) (N := 128) (V c main_v87) (V c main_v90) (V c main_v86)) := by
  obtain ⟨-, -, -, -, -, -, o0, o1⟩ := idxFacts10 t
  have ht : t.val < 5 := N_10 ▸ t.isLt
  funext j
  obtain ⟨p, q, rfl⟩ : ∃ (p : Fin 8192) (q : Fin 128), j = ix2 p q := ⟨j 0, j 1, eq_ix2 j⟩
  refine (outApply10 V c t p q ⟨t.val * 8192 + p.val, by omega⟩ rfl).trans (congrArg _ (Shape.idx_ext₂ ?_ ?_))
  · show t.val * 8192 + p.val = win10_3.index t (0 : Fin 2) * 8192 + 1 * p.val; omega
  · show q.val = win10_3.index t (1 : Fin 2) * 128 + 1 * q.val; omega

/-- An index is in point `t`'s block iff each coordinate is in the block's range on its axis. -/
theorem mem_blk10 (t : Fin cfg10.N) (i : S40960x128.Idx) :
    i ∈ ((cfg10.win 3).blk t).view.set
      ↔ ∀ a : Fin 2, win10_3.index t a * S8192x128.size a ≤ (i a).val
          ∧ (i a).val < win10_3.index t a * S8192x128.size a + S8192x128.size a := by
  show i ∈ ((View.whole main_v91).slice (win10_3.rect t)).set ↔ _
  rw [View.set_slice_whole, Rect.mem_set_unit]
  exact Iff.rfl

/-- Every index of the output array is in the block of the point its row falls in. -/
theorem cover10 (i : S40960x128.Idx) :
    ∃ t : Fin cfg10.N, (cfg10.win 3).flush t = true ∧ i ∈ ((cfg10.win 3).blk t).view.set := by
  have hN : cfg10.N = 5 := N_10
  have hA : (i 0).val < 40960 := (i 0).isLt
  have hB : (i 1).val < 128 := (i 1).isLt
  have ht : (i 0).val / 8192 < cfg10.N := by rw [hN]; omega
  obtain ⟨-, -, -, -, -, -, o0, o1⟩ := idxFacts10 ⟨(i 0).val / 8192, ht⟩
  refine ⟨⟨(i 0).val / 8192, ht⟩, flush10_3 _, (mem_blk10 _ i).2 fun a => ?_⟩
  match a with
  | ⟨0, _⟩ =>
    show win10_3.index ⟨(i 0).val / 8192, ht⟩ (0 : Fin 2) * 8192 ≤ (i 0).val
      ∧ (i 0).val < win10_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win10_3.index ⟨(i 0).val / 8192, ht⟩ (1 : Fin 2) * 128 ≤ (i 1).val
      ∧ (i 1).val < win10_3.index ⟨(i 0).val / 8192, ht⟩ (1 : Fin 2) * 128 + 128
    rw [o1]; omega

/-- The output array after the run: the product of the two factor arrays plus the summand array. -/
theorem final10 (c : Dev nD) : (dat10 (F := Ideal) V c).arrAt 3 cfg10.N = accOut (M := 40960) (K := 128) (N := 128) (V c main_v87) (V c main_v90) (V c main_v86) :=
  (dat10 (F := Ideal) V c).arrAt_eq_of_cover 3 _ (fun t _ => flushedEq10 V c t) cover10

end Cert.KernelIdeal.Hand

end
-- ==== Proof.KI.MmShape11.lean ====
import proofs.«414074_j90701119357381_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open scoped BigOperators

/-- The reset value is zero. -/
theorem zero_apply11 (p : Fin 2048) (q : Fin 512) : k11_pay1 (F := Ideal) (ix2 p q) = 0 := by
  unfold k11_pay1
  simp only [shapeCast_self]
  exact Ideal.ofBits_zero_f32

theorem dotL11_0 (i : S2048x512.Idx) (k : dot_S2048x2048_S2048x512_S2048x512_1_0_0_1_n_n.contr.Idx) : (dot_S2048x2048_S2048x512_S2048x512_1_0_0_1_n_n.lhsIdx i k 0).val = (i 0).val := by
  unfold DotDims.lhsIdx
  rw [dif_neg (show ¬(0 : Fin S2048x2048.rank) ∈ dot_S2048x2048_S2048x512_S2048x512_1_0_0_1_n_n.lhsBatch by decide),
    dif_pos (show (0 : Fin S2048x2048.rank) ∈ dot_S2048x2048_S2048x512_S2048x512_1_0_0_1_n_n.lhsNonContracting by decide)]
  rfl

theorem dotR11_1 (i : S2048x512.Idx) (k : dot_S2048x2048_S2048x512_S2048x512_1_0_0_1_n_n.contr.Idx) : (dot_S2048x2048_S2048x512_S2048x512_1_0_0_1_n_n.rhsIdx i k 1).val = (i 1).val := by
  unfold DotDims.rhsIdx
  rw [dif_neg (show ¬(1 : Fin S2048x512.rank) ∈ dot_S2048x2048_S2048x512_S2048x512_1_0_0_1_n_n.rhsBatch by decide),
    dif_pos (show (1 : Fin S2048x512.rank) ∈ dot_S2048x2048_S2048x512_S2048x512_1_0_0_1_n_n.rhsNonContracting by decide)]
  rfl

/-- One step of the accumulation at an entry: what was there plus the sum, over the block's contraction positions, of the
    products of the two blocks' entries. -/
theorem step_apply11 (acc : Vec Ideal S2048x512 .f32) (a : Vec Ideal S2048x2048 .bf16) (b : Vec Ideal S2048x512 .bf16)
    (p : Fin 2048) (q : Fin 512) :
    k11_pay2 acc a b (ix2 p q) = acc (ix2 p q) + ∑ j : Fin 2048, a (ix2 p j) * b (ix2 j q) := by
  unfold k11_pay2
  simp only [shapeCast_self, matmul]
  rw [addf_apply, Ideal.matmul_constant_zero_apply, ← Equiv.sum_comp (contrEquiv1 dot_S2048x2048_S2048x512_S2048x512_1_0_0_1_n_n 2048 rfl rfl).symm]
  refine congrArg (acc (ix2 p q) + ·) (Finset.sum_congr rfl fun j _ => ?_)
  have hj := contrEquiv1_symm_val dot_S2048x2048_S2048x512_S2048x512_1_0_0_1_n_n 2048 rfl rfl j
  rw [show dot_S2048x2048_S2048x512_S2048x512_1_0_0_1_n_n.lhsIdx (ix2 p q) ((contrEquiv1 dot_S2048x2048_S2048x512_S2048x512_1_0_0_1_n_n 2048 rfl rfl).symm j) = ix2 p j from
      funext fun ax => Fin.ext (by
        match ax with
        | ⟨0, _⟩ => exact dotL11_0 _ _
        | ⟨1, _⟩ => exact (dot_S2048x2048_S2048x512_S2048x512_1_0_0_1_n_n.lhsIdx_val_of_single rfl _ _).trans hj),
    show dot_S2048x2048_S2048x512_S2048x512_1_0_0_1_n_n.rhsIdx (ix2 p q) ((contrEquiv1 dot_S2048x2048_S2048x512_S2048x512_1_0_0_1_n_n 2048 rfl rfl).symm j) = ix2 j q from
      funext fun ax => Fin.ext (by
        match ax with
        | ⟨0, _⟩ => exact (dot_S2048x2048_S2048x512_S2048x512_1_0_0_1_n_n.rhsIdx_val_of_single rfl _ _).trans hj
        | ⟨1, _⟩ => exact dotR11_1 _ _)]

/-- Narrowing to the output's format changes no entry. -/
theorem narrow_apply11 (acc : Vec Ideal S2048x512 .f32) (x : S2048x512.Idx) : k11_pay3 acc x = acc x := rfl

end Cert.KernelIdeal.Hand

end
-- ==== Proof.KI.Mm11Val.lean ====
import proofs.«414074_j90701119357381_1_alg».proof.Proof.KI.Mm11Def
import proofs.«414074_j90701119357381_1_alg».proof.Proof.KI.MmShape11
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts11 : ∀ t : Fin cfg11.N,
    win11_0.index t (0 : Fin 2) = t.val / 5 ∧ win11_0.index t (1 : Fin 2) = t.val % 5
    ∧ win11_1.index t (0 : Fin 2) = t.val % 5 ∧ win11_1.index t (1 : Fin 2) = 0
    ∧ win11_2.index t (0 : Fin 2) = t.val / 5 ∧ win11_2.index t (1 : Fin 2) = 0 :=
  (by decide +kernel : ∀ t : Fin grid11.N, _)

abbrev larr11 (c : Dev nD) : Vec Ideal S10240x10240 .bf16 := V c main_v21
abbrev rarr11 (c : Dev nD) : Vec Ideal S10240x512 .bf16 := V c main_v85

theorem lblk_apply11 (c : Dev nD) (t : Fin cfg11.N) (p j : Fin 2048) (r s : Fin 10240)
    (hr : r.val = 2048 * (t.val / 5) + p.val) (hs : s.val = 2048 * (t.val % 5) + j.val) :
    iblk11 V c 0 t (ix2 p j) = larr11 V c (ix2 r s) := by
  obtain ⟨ea, eb, -⟩ := idx_facts11 t
  unfold larr11 iblk11
  rw [View.read_apply]
  show V c main_v21 _ = V c main_v21 _
  congr 1
  funext a
  apply Fin.ext
  match a with
  | ⟨0, _⟩ => show win11_0.index t (0 : Fin 2) * 2048 + 1 * p.val = r.val; rw [ea, hr]; omega
  | ⟨1, _⟩ => show win11_0.index t (1 : Fin 2) * 2048 + 1 * j.val = s.val; rw [eb, hs]; omega

theorem rblk_apply11 (c : Dev nD) (t : Fin cfg11.N) (j : Fin 2048) (q : Fin 512) (s : Fin 10240)
    (hs : s.val = 2048 * (t.val % 5) + j.val) :
    iblk11 V c 1 t (ix2 j q) = rarr11 V c (ix2 s q) := by
  obtain ⟨-, -, ec, ed, -⟩ := idx_facts11 t
  unfold rarr11 iblk11
  rw [View.read_apply]
  show V c main_v85 _ = V c main_v85 _
  congr 1
  funext a
  apply Fin.ext
  match a with
  | ⟨0, _⟩ => show win11_1.index t (0 : Fin 2) * 2048 + 1 * j.val = s.val; rw [ec, hs]; omega
  | ⟨1, _⟩ => show win11_1.index t (1 : Fin 2) * 512 + 1 * q.val = q.val; rw [ed]; omega

/-- The product's term at contraction position `j` for the entry (`r`, `q`); zero past the axis's end. -/
def term11 (c : Dev nD) (r : Fin 10240) (q : Fin 512) (j : ℕ) : EReal :=
  if h : j < 10240 then larr11 V c (ix2 r ⟨j, h⟩) * rarr11 V c (ix2 ⟨j, h⟩ q) else 0

/-- A step from an accumulator holding the terms of the run's earlier contraction blocks adds this block's. -/
theorem acc_step11 (c : Dev nD) (acc : Vec Ideal S2048x512 .f32) (n : ℕ) (hn : n < cfg11.N) (p : Fin 2048) (q : Fin 512)
    (r : Fin 10240) (hr : r.val = 2048 * (n / 5) + p.val)
    (ha : acc (ix2 p q) = ∑ j ∈ Finset.range (2048 * (n % 5)), term11 V c r q j) :
    k11_pay2 acc (iblk11 V c 0 ⟨n, hn⟩) (iblk11 V c 1 ⟨n, hn⟩) (ix2 p q)
      = ∑ j ∈ Finset.range (2048 * (n % 5 + 1)), term11 V c r q j := by
  refine (step_apply11 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term11
  rw [dif_pos hlt, lblk_apply11 V c ⟨n, hn⟩ p j r ⟨_, hlt⟩ hr rfl, rblk_apply11 V c ⟨n, hn⟩ j q ⟨_, hlt⟩ rfl]

/-- After point `n` the accumulator holds the product's terms over the contraction blocks of the run so far. -/
theorem acc_apply11 (c : Dev nD) (n : ℕ) : ∀ (hn : n < cfg11.N) (p : Fin 2048) (q : Fin 512) (r : Fin 10240),
    r.val = 2048 * (n / 5) + p.val →
    sc11 V c n hn (ix2 p q) = ∑ j ∈ Finset.range (2048 * (n % 5 + 1)), term11 V c r q j := by
  have reset : ∀ n hn p q r, r.val = 2048 * (n / 5) + p.val → n % 5 = 0 →
      k11_pay2 k11_pay1 (iblk11 V c 0 ⟨n, hn⟩) (iblk11 V c 1 ⟨n, hn⟩) (ix2 p q)
        = ∑ j ∈ Finset.range (2048 * (n % 5 + 1)), term11 V c r q j :=
    fun n hn p q r hr hz => acc_step11 V c _ n hn p q r hr (by
      rw [hz, Nat.mul_zero, Finset.sum_range_zero]; exact zero_apply11 p q)
  induction n with
  | zero => intro hn p q r hr; exact reset 0 hn p q r hr rfl
  | succ n ih =>
    intro hn p q r hr
    show k11_pay2 (if (n + 1) % 5 = 0 then k11_pay1 else sc11 V c n _) _ _ _ = _
    by_cases hz : (n + 1) % 5 = 0
    · rw [if_pos hz]; exact reset (n + 1) hn p q r hr hz
    · rw [if_neg hz]
      exact acc_step11 V c _ (n + 1) hn p q r hr (by
        rw [show (n + 1) % 5 = n % 5 + 1 by omega]; exact ih _ p q r (by rw [hr]; omega))

/-- At the last point of a run the narrowed accumulator holds the product's entries of the run's row block. -/
theorem out_entry11 (c : Dev nD) (t : Fin cfg11.N) (hl : t.val % 5 = 4) (x : S2048x512.Idx) (i : S10240x512.Idx)
    (hrow : (i 0).val = 2048 * (t.val / 5) + (x 0).val) (hcol : (i 1).val = (x 1).val) :
    k11_pay3 (sc11 V c t.val t.isLt) x
      = mmOut (M := 10240) (K := 10240) (N := 512) (V c main_v21) (V c main_v85) i := by
  obtain ⟨p, q, rfl⟩ : ∃ (p : Fin 2048) (q : Fin 512), x = ix2 p q := ⟨x 0, x 1, eq_ix2 x⟩
  obtain ⟨r, g, rfl⟩ : ∃ (r : Fin 10240) (g : Fin 512), i = ix2 r g := ⟨i 0, i 1, eq_ix2 i⟩
  obtain rfl : g = q := Fin.ext hcol
  refine (narrow_apply11 _ _).trans ?_
  rw [acc_apply11 V c t.val t.isLt p g r hrow, hl, mmOut_apply, Finset.sum_range]
  refine Finset.sum_congr rfl fun j _ => ?_
  unfold term11
  rw [dif_pos j.isLt]

theorem flushed_eq11 (c : Dev nD) (t : Fin cfg11.N) (hf : (cfg11.win 2).flush t = true) :
    (dat11 (F := Ideal) V c).flushed 2 t
      = ((cfg11.win 2).blk t).view.read (Elt Ideal)
          (mmOut (M := 10240) (K := 10240) (N := 512) (V c main_v21) (V c main_v85)) := by
  obtain ⟨-, -, -, -, ee, ef⟩ := idx_facts11 t
  show (cfg11.win 2).cut (grid11.coords t) (k11_pay3 (sc11 V c t.val t.isLt)) = _
  funext y
  refine out_entry11 V c t ((flush11_2 t).mp hf) ((cfg11.win 2).xinj (grid11.coords t) y) (((cfg11.win 2).blk t).view.emb y) ?_ ?_
  · show win11_2.index t (0 : Fin 2) * 2048 + 1 * (y 0).val = 2048 * (t.val / 5) + (y 0).val
    rw [ee]; omega
  · show win11_2.index t (1 : Fin 2) * 512 + 1 * (y 1).val = (y 1).val
    rw [ef]; omega

/-- Every index of the output array lies in the block of its row block's last contraction step. -/
theorem cover11 (i : S10240x512.Idx) :
    ∃ t : Fin cfg11.N, (cfg11.win 2).flush t = true ∧ i ∈ ((cfg11.win 2).blk t).view.set := by
  have hrow : (i 0).val < 10240 := (i 0).isLt
  have hcol : (i 1).val < 512 := (i 1).isLt
  obtain ⟨t, ht⟩ : ∃ t : Fin cfg11.N, t.val = 5 * ((i 0).val / 2048) + 4 :=
    ⟨⟨_, by rw [show cfg11.N = 25 from N_11]; omega⟩, rfl⟩
  obtain ⟨-, -, -, -, ee, ef⟩ := idx_facts11 t
  refine ⟨t, (flush11_2 t).mpr (by omega), ?_⟩
  show i ∈ ((View.whole main_v92).slice (win11_2.rect t)).set
  rw [View.set_slice_whole, Rect.mem_set_unit]
  intro a
  match a with
  | ⟨0, _⟩ =>
    show win11_2.index t (0 : Fin 2) * 2048 ≤ (i 0).val ∧ (i 0).val < win11_2.index t (0 : Fin 2) * 2048 + 2048
    rw [ee]; omega
  | ⟨1, _⟩ =>
    show win11_2.index t (1 : Fin 2) * 512 ≤ (i 1).val ∧ (i 1).val < win11_2.index t (1 : Fin 2) * 512 + 512
    rw [ef]; omega

/-- The output array after the region is the product of the two arrays the region finds. -/
theorem final11 (c : Dev nD) :
    (dat11 (F := Ideal) V c).arrAt 2 cfg11.N
      = mmOut (M := 10240) (K := 10240) (N := 512) (V c main_v21) (V c main_v85) :=
  (dat11 (F := Ideal) V c).arrAt_eq_of_cover 2 _ (fun t hf => flushed_eq11 V c t hf) cover11

end Cert.KernelIdeal.Hand

end
-- ==== Proof.KI.Acc12Val.lean ====
import proofs.«414074_j90701119357381_1_alg».proof.Proof.KI.Acc12Def
import proofs.«414074_j90701119357381_1_alg».proof.Proof.KI.AccShape10
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0 :=
  (by decide +kernel : ∀ t : Fin grid12.N, _)

/-- An entry of a block sits in its array at the block index times the block size plus its own coordinate. -/
theorem outApply12 (c : Dev nD) (t : Fin cfg12.N) (p : Fin 8192) (q : Fin 128) (r : Fin 40960)
    (hr : r.val = t.val * 8192 + p.val) :
    (out12 V c t : Vec Ideal S8192x128 .f32) (ix2 p q) = accOut (M := 40960) (K := 128) (N := 128) (V c main_v93) (V c main_v96) (V c main_v91) (ix2 r q) := by
  obtain ⟨a0, a1, b0, b1, c0, c1, -, -⟩ := idxFacts12 t
  refine (payApply10 _ _ _ p q).trans (congrArg₂ (· + ·) (Finset.sum_congr rfl fun k _ => congrArg₂ (· * ·) ?_ ?_) ?_)
  · show V c main_v93 (((cfg12.win 0).blk t).view.emb (ix2 p k)) = V c main_v93 (ix2 r k)
    refine congrArg _ (Shape.idx_ext₂ ?_ ?_)
    · show win12_0.index t (0 : Fin 2) * 8192 + 1 * p.val = r.val; omega
    · show win12_0.index t (1 : Fin 2) * 128 + 1 * k.val = k.val; omega
  · show V c main_v96 (((cfg12.win 1).blk t).view.emb (ix2 k q)) = V c main_v96 (ix2 k q)
    refine congrArg _ (Shape.idx_ext₂ ?_ ?_)
    · show win12_1.index t (0 : Fin 2) * 128 + 1 * k.val = k.val; omega
    · show win12_1.index t (1 : Fin 2) * 128 + 1 * q.val = q.val; omega
  · show V c main_v91 (((cfg12.win 2).blk t).view.emb (ix2 p q)) = V c main_v91 (ix2 r q)
    refine congrArg _ (Shape.idx_ext₂ ?_ ?_)
    · show win12_2.index t (0 : Fin 2) * 8192 + 1 * p.val = r.val; omega
    · show win12_2.index t (1 : Fin 2) * 128 + 1 * q.val = q.val; omega

/-- What point `t` writes back is block `t` of the whole-array result. -/
theorem flushedEq12 (c : Dev nD) (t : Fin cfg12.N) :
    (dat12 (F := Ideal) V c).flushed 3 t = ((cfg12.win 3).blk t).view.read (Elt Ideal) (accOut (M := 40960) (K := 128) (N := 128) (V c main_v93) (V c main_v96) (V c main_v91)) := by
  obtain ⟨-, -, -, -, -, -, o0, o1⟩ := idxFacts12 t
  have ht : t.val < 5 := N_12 ▸ t.isLt
  funext j
  obtain ⟨p, q, rfl⟩ : ∃ (p : Fin 8192) (q : Fin 128), j = ix2 p q := ⟨j 0, j 1, eq_ix2 j⟩
  refine (outApply12 V c t p q ⟨t.val * 8192 + p.val, by omega⟩ rfl).trans (congrArg _ (Shape.idx_ext₂ ?_ ?_))
  · show t.val * 8192 + p.val = win12_3.index t (0 : Fin 2) * 8192 + 1 * p.val; omega
  · show q.val = win12_3.index t (1 : Fin 2) * 128 + 1 * q.val; omega

/-- An index is in point `t`'s block iff each coordinate is in the block's range on its axis. -/
theorem mem_blk12 (t : Fin cfg12.N) (i : S40960x128.Idx) :
    i ∈ ((cfg12.win 3).blk t).view.set
      ↔ ∀ a : Fin 2, win12_3.index t a * S8192x128.size a ≤ (i a).val
          ∧ (i a).val < win12_3.index t a * S8192x128.size a + S8192x128.size a := by
  show i ∈ ((View.whole main_v97).slice (win12_3.rect t)).set ↔ _
  rw [View.set_slice_whole, Rect.mem_set_unit]
  exact Iff.rfl

/-- Every index of the output array is in the block of the point its row falls in. -/
theorem cover12 (i : S40960x128.Idx) :
    ∃ t : Fin cfg12.N, (cfg12.win 3).flush t = true ∧ i ∈ ((cfg12.win 3).blk t).view.set := by
  have hN : cfg12.N = 5 := N_12
  have hA : (i 0).val < 40960 := (i 0).isLt
  have hB : (i 1).val < 128 := (i 1).isLt
  have ht : (i 0).val / 8192 < cfg12.N := by rw [hN]; omega
  obtain ⟨-, -, -, -, -, -, o0, o1⟩ := idxFacts12 ⟨(i 0).val / 8192, ht⟩
  refine ⟨⟨(i 0).val / 8192, ht⟩, flush12_3 _, (mem_blk12 _ i).2 fun a => ?_⟩
  match a with
  | ⟨0, _⟩ =>
    show win12_3.index ⟨(i 0).val / 8192, ht⟩ (0 : Fin 2) * 8192 ≤ (i 0).val
      ∧ (i 0).val < win12_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win12_3.index ⟨(i 0).val / 8192, ht⟩ (1 : Fin 2) * 128 ≤ (i 1).val
      ∧ (i 1).val < win12_3.index ⟨(i 0).val / 8192, ht⟩ (1 : Fin 2) * 128 + 128
    rw [o1]; omega

/-- The output array after the run: the product of the two factor arrays plus the summand array. -/
theorem final12 (c : Dev nD) : (dat12 (F := Ideal) V c).arrAt 3 cfg12.N = accOut (M := 40960) (K := 128) (N := 128) (V c main_v93) (V c main_v96) (V c main_v91) :=
  (dat12 (F := Ideal) V c).arrAt_eq_of_cover 3 _ (fun t _ => flushedEq12 V c t) cover12

end Cert.KernelIdeal.Hand

end
-- ==== Proof.KI.Mm13Val.lean ====
import proofs.«414074_j90701119357381_1_alg».proof.Proof.KI.Mm13Def
import proofs.«414074_j90701119357381_1_alg».proof.Proof.KI.MmShape11
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts13 : ∀ t : Fin cfg13.N,
    win13_0.index t (0 : Fin 2) = t.val / 5 ∧ win13_0.index t (1 : Fin 2) = t.val % 5
    ∧ win13_1.index t (0 : Fin 2) = t.val % 5 ∧ win13_1.index t (1 : Fin 2) = 0
    ∧ win13_2.index t (0 : Fin 2) = t.val / 5 ∧ win13_2.index t (1 : Fin 2) = 0 :=
  (by decide +kernel : ∀ t : Fin grid13.N, _)

abbrev larr13 (c : Dev nD) : Vec Ideal S10240x10240 .bf16 := V c main_v21
abbrev rarr13 (c : Dev nD) : Vec Ideal S10240x512 .bf16 := V c main_v92

theorem lblk_apply13 (c : Dev nD) (t : Fin cfg13.N) (p j : Fin 2048) (r s : Fin 10240)
    (hr : r.val = 2048 * (t.val / 5) + p.val) (hs : s.val = 2048 * (t.val % 5) + j.val) :
    iblk13 V c 0 t (ix2 p j) = larr13 V c (ix2 r s) := by
  obtain ⟨ea, eb, -⟩ := idx_facts13 t
  unfold larr13 iblk13
  rw [View.read_apply]
  show V c main_v21 _ = V c main_v21 _
  congr 1
  funext a
  apply Fin.ext
  match a with
  | ⟨0, _⟩ => show win13_0.index t (0 : Fin 2) * 2048 + 1 * p.val = r.val; rw [ea, hr]; omega
  | ⟨1, _⟩ => show win13_0.index t (1 : Fin 2) * 2048 + 1 * j.val = s.val; rw [eb, hs]; omega

theorem rblk_apply13 (c : Dev nD) (t : Fin cfg13.N) (j : Fin 2048) (q : Fin 512) (s : Fin 10240)
    (hs : s.val = 2048 * (t.val % 5) + j.val) :
    iblk13 V c 1 t (ix2 j q) = rarr13 V c (ix2 s q) := by
  obtain ⟨-, -, ec, ed, -⟩ := idx_facts13 t
  unfold rarr13 iblk13
  rw [View.read_apply]
  show V c main_v92 _ = V c main_v92 _
  congr 1
  funext a
  apply Fin.ext
  match a with
  | ⟨0, _⟩ => show win13_1.index t (0 : Fin 2) * 2048 + 1 * j.val = s.val; rw [ec, hs]; omega
  | ⟨1, _⟩ => show win13_1.index t (1 : Fin 2) * 512 + 1 * q.val = q.val; rw [ed]; omega

/-- The product's term at contraction position `j` for the entry (`r`, `q`); zero past the axis's end. -/
def term13 (c : Dev nD) (r : Fin 10240) (q : Fin 512) (j : ℕ) : EReal :=
  if h : j < 10240 then larr13 V c (ix2 r ⟨j, h⟩) * rarr13 V c (ix2 ⟨j, h⟩ q) else 0

/-- A step from an accumulator holding the terms of the run's earlier contraction blocks adds this block's. -/
theorem acc_step13 (c : Dev nD) (acc : Vec Ideal S2048x512 .f32) (n : ℕ) (hn : n < cfg13.N) (p : Fin 2048) (q : Fin 512)
    (r : Fin 10240) (hr : r.val = 2048 * (n / 5) + p.val)
    (ha : acc (ix2 p q) = ∑ j ∈ Finset.range (2048 * (n % 5)), term13 V c r q j) :
    k13_pay2 acc (iblk13 V c 0 ⟨n, hn⟩) (iblk13 V c 1 ⟨n, hn⟩) (ix2 p q)
      = ∑ j ∈ Finset.range (2048 * (n % 5 + 1)), term13 V c r q j := by
  refine (step_apply11 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term13
  rw [dif_pos hlt, lblk_apply13 V c ⟨n, hn⟩ p j r ⟨_, hlt⟩ hr rfl, rblk_apply13 V c ⟨n, hn⟩ j q ⟨_, hlt⟩ rfl]

/-- After point `n` the accumulator holds the product's terms over the contraction blocks of the run so far. -/
theorem acc_apply13 (c : Dev nD) (n : ℕ) : ∀ (hn : n < cfg13.N) (p : Fin 2048) (q : Fin 512) (r : Fin 10240),
    r.val = 2048 * (n / 5) + p.val →
    sc13 V c n hn (ix2 p q) = ∑ j ∈ Finset.range (2048 * (n % 5 + 1)), term13 V c r q j := by
  have reset : ∀ n hn p q r, r.val = 2048 * (n / 5) + p.val → n % 5 = 0 →
      k13_pay2 k13_pay1 (iblk13 V c 0 ⟨n, hn⟩) (iblk13 V c 1 ⟨n, hn⟩) (ix2 p q)
        = ∑ j ∈ Finset.range (2048 * (n % 5 + 1)), term13 V c r q j :=
    fun n hn p q r hr hz => acc_step13 V c _ n hn p q r hr (by
      rw [hz, Nat.mul_zero, Finset.sum_range_zero]; exact zero_apply11 p q)
  induction n with
  | zero => intro hn p q r hr; exact reset 0 hn p q r hr rfl
  | succ n ih =>
    intro hn p q r hr
    show k13_pay2 (if (n + 1) % 5 = 0 then k13_pay1 else sc13 V c n _) _ _ _ = _
    by_cases hz : (n + 1) % 5 = 0
    · rw [if_pos hz]; exact reset (n + 1) hn p q r hr hz
    · rw [if_neg hz]
      exact acc_step13 V c _ (n + 1) hn p q r hr (by
        rw [show (n + 1) % 5 = n % 5 + 1 by omega]; exact ih _ p q r (by rw [hr]; omega))

/-- At the last point of a run the narrowed accumulator holds the product's entries of the run's row block. -/
theorem out_entry13 (c : Dev nD) (t : Fin cfg13.N) (hl : t.val % 5 = 4) (x : S2048x512.Idx) (i : S10240x512.Idx)
    (hrow : (i 0).val = 2048 * (t.val / 5) + (x 0).val) (hcol : (i 1).val = (x 1).val) :
    k13_pay3 (sc13 V c t.val t.isLt) x
      = mmOut (M := 10240) (K := 10240) (N := 512) (V c main_v21) (V c main_v92) i := by
  obtain ⟨p, q, rfl⟩ : ∃ (p : Fin 2048) (q : Fin 512), x = ix2 p q := ⟨x 0, x 1, eq_ix2 x⟩
  obtain ⟨r, g, rfl⟩ : ∃ (r : Fin 10240) (g : Fin 512), i = ix2 r g := ⟨i 0, i 1, eq_ix2 i⟩
  obtain rfl : g = q := Fin.ext hcol
  refine (narrow_apply11 _ _).trans ?_
  rw [acc_apply13 V c t.val t.isLt p g r hrow, hl, mmOut_apply, Finset.sum_range]
  refine Finset.sum_congr rfl fun j _ => ?_
  unfold term13
  rw [dif_pos j.isLt]

theorem flushed_eq13 (c : Dev nD) (t : Fin cfg13.N) (hf : (cfg13.win 2).flush t = true) :
    (dat13 (F := Ideal) V c).flushed 2 t
      = ((cfg13.win 2).blk t).view.read (Elt Ideal)
          (mmOut (M := 10240) (K := 10240) (N := 512) (V c main_v21) (V c main_v92)) := by
  obtain ⟨-, -, -, -, ee, ef⟩ := idx_facts13 t
  show (cfg13.win 2).cut (grid13.coords t) (k13_pay3 (sc13 V c t.val t.isLt)) = _
  funext y
  refine out_entry13 V c t ((flush13_2 t).mp hf) ((cfg13.win 2).xinj (grid13.coords t) y) (((cfg13.win 2).blk t).view.emb y) ?_ ?_
  · show win13_2.index t (0 : Fin 2) * 2048 + 1 * (y 0).val = 2048 * (t.val / 5) + (y 0).val
    rw [ee]; omega
  · show win13_2.index t (1 : Fin 2) * 512 + 1 * (y 1).val = (y 1).val
    rw [ef]; omega

/-- Every index of the output array lies in the block of its row block's last contraction step. -/
theorem cover13 (i : S10240x512.Idx) :
    ∃ t : Fin cfg13.N, (cfg13.win 2).flush t = true ∧ i ∈ ((cfg13.win 2).blk t).view.set := by
  have hrow : (i 0).val < 10240 := (i 0).isLt
  have hcol : (i 1).val < 512 := (i 1).isLt
  obtain ⟨t, ht⟩ : ∃ t : Fin cfg13.N, t.val = 5 * ((i 0).val / 2048) + 4 :=
    ⟨⟨_, by rw [show cfg13.N = 25 from N_13]; omega⟩, rfl⟩
  obtain ⟨-, -, -, -, ee, ef⟩ := idx_facts13 t
  refine ⟨t, (flush13_2 t).mpr (by omega), ?_⟩
  show i ∈ ((View.whole main_v98).slice (win13_2.rect t)).set
  rw [View.set_slice_whole, Rect.mem_set_unit]
  intro a
  match a with
  | ⟨0, _⟩ =>
    show win13_2.index t (0 : Fin 2) * 2048 ≤ (i 0).val ∧ (i 0).val < win13_2.index t (0 : Fin 2) * 2048 + 2048
    rw [ee]; omega
  | ⟨1, _⟩ =>
    show win13_2.index t (1 : Fin 2) * 512 ≤ (i 1).val ∧ (i 1).val < win13_2.index t (1 : Fin 2) * 512 + 512
    rw [ef]; omega

/-- The output array after the region is the product of the two arrays the region finds. -/
theorem final13 (c : Dev nD) :
    (dat13 (F := Ideal) V c).arrAt 2 cfg13.N
      = mmOut (M := 10240) (K := 10240) (N := 512) (V c main_v21) (V c main_v92) :=
  (dat13 (F := Ideal) V c).arrAt_eq_of_cover 2 _ (fun t hf => flushed_eq13 V c t hf) cover13

end Cert.KernelIdeal.Hand

end
-- ==== Proof.KI.Acc14Val.lean ====
import proofs.«414074_j90701119357381_1_alg».proof.Proof.KI.Acc14Def
import proofs.«414074_j90701119357381_1_alg».proof.Proof.KI.AccShape10
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0 :=
  (by decide +kernel : ∀ t : Fin grid14.N, _)

/-- An entry of a block sits in its array at the block index times the block size plus its own coordinate. -/
theorem outApply14 (c : Dev nD) (t : Fin cfg14.N) (p : Fin 8192) (q : Fin 128) (r : Fin 40960)
    (hr : r.val = t.val * 8192 + p.val) :
    (out14 V c t : Vec Ideal S8192x128 .f32) (ix2 p q) = accOut (M := 40960) (K := 128) (N := 128) (V c main_v99) (V c main_v102) (V c main_v97) (ix2 r q) := by
  obtain ⟨a0, a1, b0, b1, c0, c1, -, -⟩ := idxFacts14 t
  refine (payApply10 _ _ _ p q).trans (congrArg₂ (· + ·) (Finset.sum_congr rfl fun k _ => congrArg₂ (· * ·) ?_ ?_) ?_)
  · show V c main_v99 (((cfg14.win 0).blk t).view.emb (ix2 p k)) = V c main_v99 (ix2 r k)
    refine congrArg _ (Shape.idx_ext₂ ?_ ?_)
    · show win14_0.index t (0 : Fin 2) * 8192 + 1 * p.val = r.val; omega
    · show win14_0.index t (1 : Fin 2) * 128 + 1 * k.val = k.val; omega
  · show V c main_v102 (((cfg14.win 1).blk t).view.emb (ix2 k q)) = V c main_v102 (ix2 k q)
    refine congrArg _ (Shape.idx_ext₂ ?_ ?_)
    · show win14_1.index t (0 : Fin 2) * 128 + 1 * k.val = k.val; omega
    · show win14_1.index t (1 : Fin 2) * 128 + 1 * q.val = q.val; omega
  · show V c main_v97 (((cfg14.win 2).blk t).view.emb (ix2 p q)) = V c main_v97 (ix2 r q)
    refine congrArg _ (Shape.idx_ext₂ ?_ ?_)
    · show win14_2.index t (0 : Fin 2) * 8192 + 1 * p.val = r.val; omega
    · show win14_2.index t (1 : Fin 2) * 128 + 1 * q.val = q.val; omega

/-- What point `t` writes back is block `t` of the whole-array result. -/
theorem flushedEq14 (c : Dev nD) (t : Fin cfg14.N) :
    (dat14 (F := Ideal) V c).flushed 3 t = ((cfg14.win 3).blk t).view.read (Elt Ideal) (accOut (M := 40960) (K := 128) (N := 128) (V c main_v99) (V c main_v102) (V c main_v97)) := by
  obtain ⟨-, -, -, -, -, -, o0, o1⟩ := idxFacts14 t
  have ht : t.val < 5 := N_14 ▸ t.isLt
  funext j
  obtain ⟨p, q, rfl⟩ : ∃ (p : Fin 8192) (q : Fin 128), j = ix2 p q := ⟨j 0, j 1, eq_ix2 j⟩
  refine (outApply14 V c t p q ⟨t.val * 8192 + p.val, by omega⟩ rfl).trans (congrArg _ (Shape.idx_ext₂ ?_ ?_))
  · show t.val * 8192 + p.val = win14_3.index t (0 : Fin 2) * 8192 + 1 * p.val; omega
  · show q.val = win14_3.index t (1 : Fin 2) * 128 + 1 * q.val; omega

/-- An index is in point `t`'s block iff each coordinate is in the block's range on its axis. -/
theorem mem_blk14 (t : Fin cfg14.N) (i : S40960x128.Idx) :
    i ∈ ((cfg14.win 3).blk t).view.set
      ↔ ∀ a : Fin 2, win14_3.index t a * S8192x128.size a ≤ (i a).val
          ∧ (i a).val < win14_3.index t a * S8192x128.size a + S8192x128.size a := by
  show i ∈ ((View.whole main_v103).slice (win14_3.rect t)).set ↔ _
  rw [View.set_slice_whole, Rect.mem_set_unit]
  exact Iff.rfl

/-- Every index of the output array is in the block of the point its row falls in. -/
theorem cover14 (i : S40960x128.Idx) :
    ∃ t : Fin cfg14.N, (cfg14.win 3).flush t = true ∧ i ∈ ((cfg14.win 3).blk t).view.set := by
  have hN : cfg14.N = 5 := N_14
  have hA : (i 0).val < 40960 := (i 0).isLt
  have hB : (i 1).val < 128 := (i 1).isLt
  have ht : (i 0).val / 8192 < cfg14.N := by rw [hN]; omega
  obtain ⟨-, -, -, -, -, -, o0, o1⟩ := idxFacts14 ⟨(i 0).val / 8192, ht⟩
  refine ⟨⟨(i 0).val / 8192, ht⟩, flush14_3 _, (mem_blk14 _ i).2 fun a => ?_⟩
  match a with
  | ⟨0, _⟩ =>
    show win14_3.index ⟨(i 0).val / 8192, ht⟩ (0 : Fin 2) * 8192 ≤ (i 0).val
      ∧ (i 0).val < win14_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win14_3.index ⟨(i 0).val / 8192, ht⟩ (1 : Fin 2) * 128 ≤ (i 1).val
      ∧ (i 1).val < win14_3.index ⟨(i 0).val / 8192, ht⟩ (1 : Fin 2) * 128 + 128
    rw [o1]; omega

/-- The output array after the run: the product of the two factor arrays plus the summand array. -/
theorem final14 (c : Dev nD) : (dat14 (F := Ideal) V c).arrAt 3 cfg14.N = accOut (M := 40960) (K := 128) (N := 128) (V c main_v99) (V c main_v102) (V c main_v97) :=
  (dat14 (F := Ideal) V c).arrAt_eq_of_cover 3 _ (fun t _ => flushedEq14 V c t) cover14

end Cert.KernelIdeal.Hand

end
-- ==== Proof.KI.Acc15Val.lean ====
import proofs.«414074_j90701119357381_1_alg».proof.Proof.KI.Acc15Def
import proofs.«414074_j90701119357381_1_alg».proof.Proof.KI.AccShape10
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0 :=
  (by decide +kernel : ∀ t : Fin grid15.N, _)

/-- An entry of a block sits in its array at the block index times the block size plus its own coordinate. -/
theorem outApply15 (c : Dev nD) (t : Fin cfg15.N) (p : Fin 8192) (q : Fin 128) (r : Fin 40960)
    (hr : r.val = t.val * 8192 + p.val) :
    (out15 V c t : Vec Ideal S8192x128 .f32) (ix2 p q) = accOut (M := 40960) (K := 128) (N := 128) (V c main_v104) (V c main_v107) (V c main_v103) (ix2 r q) := by
  obtain ⟨a0, a1, b0, b1, c0, c1, -, -⟩ := idxFacts15 t
  refine (payApply10 _ _ _ p q).trans (congrArg₂ (· + ·) (Finset.sum_congr rfl fun k _ => congrArg₂ (· * ·) ?_ ?_) ?_)
  · show V c main_v104 (((cfg15.win 0).blk t).view.emb (ix2 p k)) = V c main_v104 (ix2 r k)
    refine congrArg _ (Shape.idx_ext₂ ?_ ?_)
    · show win15_0.index t (0 : Fin 2) * 8192 + 1 * p.val = r.val; omega
    · show win15_0.index t (1 : Fin 2) * 128 + 1 * k.val = k.val; omega
  · show V c main_v107 (((cfg15.win 1).blk t).view.emb (ix2 k q)) = V c main_v107 (ix2 k q)
    refine congrArg _ (Shape.idx_ext₂ ?_ ?_)
    · show win15_1.index t (0 : Fin 2) * 128 + 1 * k.val = k.val; omega
    · show win15_1.index t (1 : Fin 2) * 128 + 1 * q.val = q.val; omega
  · show V c main_v103 (((cfg15.win 2).blk t).view.emb (ix2 p q)) = V c main_v103 (ix2 r q)
    refine congrArg _ (Shape.idx_ext₂ ?_ ?_)
    · show win15_2.index t (0 : Fin 2) * 8192 + 1 * p.val = r.val; omega
    · show win15_2.index t (1 : Fin 2) * 128 + 1 * q.val = q.val; omega

/-- What point `t` writes back is block `t` of the whole-array result. -/
theorem flushedEq15 (c : Dev nD) (t : Fin cfg15.N) :
    (dat15 (F := Ideal) V c).flushed 3 t = ((cfg15.win 3).blk t).view.read (Elt Ideal) (accOut (M := 40960) (K := 128) (N := 128) (V c main_v104) (V c main_v107) (V c main_v103)) := by
  obtain ⟨-, -, -, -, -, -, o0, o1⟩ := idxFacts15 t
  have ht : t.val < 5 := N_15 ▸ t.isLt
  funext j
  obtain ⟨p, q, rfl⟩ : ∃ (p : Fin 8192) (q : Fin 128), j = ix2 p q := ⟨j 0, j 1, eq_ix2 j⟩
  refine (outApply15 V c t p q ⟨t.val * 8192 + p.val, by omega⟩ rfl).trans (congrArg _ (Shape.idx_ext₂ ?_ ?_))
  · show t.val * 8192 + p.val = win15_3.index t (0 : Fin 2) * 8192 + 1 * p.val; omega
  · show q.val = win15_3.index t (1 : Fin 2) * 128 + 1 * q.val; omega

/-- An index is in point `t`'s block iff each coordinate is in the block's range on its axis. -/
theorem mem_blk15 (t : Fin cfg15.N) (i : S40960x128.Idx) :
    i ∈ ((cfg15.win 3).blk t).view.set
      ↔ ∀ a : Fin 2, win15_3.index t a * S8192x128.size a ≤ (i a).val
          ∧ (i a).val < win15_3.index t a * S8192x128.size a + S8192x128.size a := by
  show i ∈ ((View.whole main_v108).slice (win15_3.rect t)).set ↔ _
  rw [View.set_slice_whole, Rect.mem_set_unit]
  exact Iff.rfl

/-- Every index of the output array is in the block of the point its row falls in. -/
theorem cover15 (i : S40960x128.Idx) :
    ∃ t : Fin cfg15.N, (cfg15.win 3).flush t = true ∧ i ∈ ((cfg15.win 3).blk t).view.set := by
  have hN : cfg15.N = 5 := N_15
  have hA : (i 0).val < 40960 := (i 0).isLt
  have hB : (i 1).val < 128 := (i 1).isLt
  have ht : (i 0).val / 8192 < cfg15.N := by rw [hN]; omega
  obtain ⟨-, -, -, -, -, -, o0, o1⟩ := idxFacts15 ⟨(i 0).val / 8192, ht⟩
  refine ⟨⟨(i 0).val / 8192, ht⟩, flush15_3 _, (mem_blk15 _ i).2 fun a => ?_⟩
  match a with
  | ⟨0, _⟩ =>
    show win15_3.index ⟨(i 0).val / 8192, ht⟩ (0 : Fin 2) * 8192 ≤ (i 0).val
      ∧ (i 0).val < win15_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win15_3.index ⟨(i 0).val / 8192, ht⟩ (1 : Fin 2) * 128 ≤ (i 1).val
      ∧ (i 1).val < win15_3.index ⟨(i 0).val / 8192, ht⟩ (1 : Fin 2) * 128 + 128
    rw [o1]; omega

/-- The output array after the run: the product of the two factor arrays plus the summand array. -/
theorem final15 (c : Dev nD) : (dat15 (F := Ideal) V c).arrAt 3 cfg15.N = accOut (M := 40960) (K := 128) (N := 128) (V c main_v104) (V c main_v107) (V c main_v103) :=
  (dat15 (F := Ideal) V c).arrAt_eq_of_cover 3 _ (fun t _ => flushedEq15 V c t) cover15

end Cert.KernelIdeal.Hand

end
-- ==== Proof.KI.Mm16Val.lean ====
import proofs.«414074_j90701119357381_1_alg».proof.Proof.KI.Mm16Def
import proofs.«414074_j90701119357381_1_alg».proof.Proof.KI.MmShape11
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts16 : ∀ t : Fin cfg16.N,
    win16_0.index t (0 : Fin 2) = t.val / 5 ∧ win16_0.index t (1 : Fin 2) = t.val % 5
    ∧ win16_1.index t (0 : Fin 2) = t.val % 5 ∧ win16_1.index t (1 : Fin 2) = 0
    ∧ win16_2.index t (0 : Fin 2) = t.val / 5 ∧ win16_2.index t (1 : Fin 2) = 0 :=
  (by decide +kernel : ∀ t : Fin grid16.N, _)

abbrev larr16 (c : Dev nD) : Vec Ideal S10240x10240 .bf16 := V c main_v43
abbrev rarr16 (c : Dev nD) : Vec Ideal S10240x512 .bf16 := V c main_v85

theorem lblk_apply16 (c : Dev nD) (t : Fin cfg16.N) (p j : Fin 2048) (r s : Fin 10240)
    (hr : r.val = 2048 * (t.val / 5) + p.val) (hs : s.val = 2048 * (t.val % 5) + j.val) :
    iblk16 V c 0 t (ix2 p j) = larr16 V c (ix2 r s) := by
  obtain ⟨ea, eb, -⟩ := idx_facts16 t
  unfold larr16 iblk16
  rw [View.read_apply]
  show V c main_v43 _ = V c main_v43 _
  congr 1
  funext a
  apply Fin.ext
  match a with
  | ⟨0, _⟩ => show win16_0.index t (0 : Fin 2) * 2048 + 1 * p.val = r.val; rw [ea, hr]; omega
  | ⟨1, _⟩ => show win16_0.index t (1 : Fin 2) * 2048 + 1 * j.val = s.val; rw [eb, hs]; omega

theorem rblk_apply16 (c : Dev nD) (t : Fin cfg16.N) (j : Fin 2048) (q : Fin 512) (s : Fin 10240)
    (hs : s.val = 2048 * (t.val % 5) + j.val) :
    iblk16 V c 1 t (ix2 j q) = rarr16 V c (ix2 s q) := by
  obtain ⟨-, -, ec, ed, -⟩ := idx_facts16 t
  unfold rarr16 iblk16
  rw [View.read_apply]
  show V c main_v85 _ = V c main_v85 _
  congr 1
  funext a
  apply Fin.ext
  match a with
  | ⟨0, _⟩ => show win16_1.index t (0 : Fin 2) * 2048 + 1 * j.val = s.val; rw [ec, hs]; omega
  | ⟨1, _⟩ => show win16_1.index t (1 : Fin 2) * 512 + 1 * q.val = q.val; rw [ed]; omega

/-- The product's term at contraction position `j` for the entry (`r`, `q`); zero past the axis's end. -/
def term16 (c : Dev nD) (r : Fin 10240) (q : Fin 512) (j : ℕ) : EReal :=
  if h : j < 10240 then larr16 V c (ix2 r ⟨j, h⟩) * rarr16 V c (ix2 ⟨j, h⟩ q) else 0

/-- A step from an accumulator holding the terms of the run's earlier contraction blocks adds this block's. -/
theorem acc_step16 (c : Dev nD) (acc : Vec Ideal S2048x512 .f32) (n : ℕ) (hn : n < cfg16.N) (p : Fin 2048) (q : Fin 512)
    (r : Fin 10240) (hr : r.val = 2048 * (n / 5) + p.val)
    (ha : acc (ix2 p q) = ∑ j ∈ Finset.range (2048 * (n % 5)), term16 V c r q j) :
    k16_pay2 acc (iblk16 V c 0 ⟨n, hn⟩) (iblk16 V c 1 ⟨n, hn⟩) (ix2 p q)
      = ∑ j ∈ Finset.range (2048 * (n % 5 + 1)), term16 V c r q j := by
  refine (step_apply11 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term16
  rw [dif_pos hlt, lblk_apply16 V c ⟨n, hn⟩ p j r ⟨_, hlt⟩ hr rfl, rblk_apply16 V c ⟨n, hn⟩ j q ⟨_, hlt⟩ rfl]

/-- After point `n` the accumulator holds the product's terms over the contraction blocks of the run so far. -/
theorem acc_apply16 (c : Dev nD) (n : ℕ) : ∀ (hn : n < cfg16.N) (p : Fin 2048) (q : Fin 512) (r : Fin 10240),
    r.val = 2048 * (n / 5) + p.val →
    sc16 V c n hn (ix2 p q) = ∑ j ∈ Finset.range (2048 * (n % 5 + 1)), term16 V c r q j := by
  have reset : ∀ n hn p q r, r.val = 2048 * (n / 5) + p.val → n % 5 = 0 →
      k16_pay2 k16_pay1 (iblk16 V c 0 ⟨n, hn⟩) (iblk16 V c 1 ⟨n, hn⟩) (ix2 p q)
        = ∑ j ∈ Finset.range (2048 * (n % 5 + 1)), term16 V c r q j :=
    fun n hn p q r hr hz => acc_step16 V c _ n hn p q r hr (by
      rw [hz, Nat.mul_zero, Finset.sum_range_zero]; exact zero_apply11 p q)
  induction n with
  | zero => intro hn p q r hr; exact reset 0 hn p q r hr rfl
  | succ n ih =>
    intro hn p q r hr
    show k16_pay2 (if (n + 1) % 5 = 0 then k16_pay1 else sc16 V c n _) _ _ _ = _
    by_cases hz : (n + 1) % 5 = 0
    · rw [if_pos hz]; exact reset (n + 1) hn p q r hr hz
    · rw [if_neg hz]
      exact acc_step16 V c _ (n + 1) hn p q r hr (by
        rw [show (n + 1) % 5 = n % 5 + 1 by omega]; exact ih _ p q r (by rw [hr]; omega))

/-- At the last point of a run the narrowed accumulator holds the product's entries of the run's row block. -/
theorem out_entry16 (c : Dev nD) (t : Fin cfg16.N) (hl : t.val % 5 = 4) (x : S2048x512.Idx) (i : S10240x512.Idx)
    (hrow : (i 0).val = 2048 * (t.val / 5) + (x 0).val) (hcol : (i 1).val = (x 1).val) :
    k16_pay3 (sc16 V c t.val t.isLt) x
      = mmOut (M := 10240) (K := 10240) (N := 512) (V c main_v43) (V c main_v85) i := by
  obtain ⟨p, q, rfl⟩ : ∃ (p : Fin 2048) (q : Fin 512), x = ix2 p q := ⟨x 0, x 1, eq_ix2 x⟩
  obtain ⟨r, g, rfl⟩ : ∃ (r : Fin 10240) (g : Fin 512), i = ix2 r g := ⟨i 0, i 1, eq_ix2 i⟩
  obtain rfl : g = q := Fin.ext hcol
  refine (narrow_apply11 _ _).trans ?_
  rw [acc_apply16 V c t.val t.isLt p g r hrow, hl, mmOut_apply, Finset.sum_range]
  refine Finset.sum_congr rfl fun j _ => ?_
  unfold term16
  rw [dif_pos j.isLt]

theorem flushed_eq16 (c : Dev nD) (t : Fin cfg16.N) (hf : (cfg16.win 2).flush t = true) :
    (dat16 (F := Ideal) V c).flushed 2 t
      = ((cfg16.win 2).blk t).view.read (Elt Ideal)
          (mmOut (M := 10240) (K := 10240) (N := 512) (V c main_v43) (V c main_v85)) := by
  obtain ⟨-, -, -, -, ee, ef⟩ := idx_facts16 t
  show (cfg16.win 2).cut (grid16.coords t) (k16_pay3 (sc16 V c t.val t.isLt)) = _
  funext y
  refine out_entry16 V c t ((flush16_2 t).mp hf) ((cfg16.win 2).xinj (grid16.coords t) y) (((cfg16.win 2).blk t).view.emb y) ?_ ?_
  · show win16_2.index t (0 : Fin 2) * 2048 + 1 * (y 0).val = 2048 * (t.val / 5) + (y 0).val
    rw [ee]; omega
  · show win16_2.index t (1 : Fin 2) * 512 + 1 * (y 1).val = (y 1).val
    rw [ef]; omega

/-- Every index of the output array lies in the block of its row block's last contraction step. -/
theorem cover16 (i : S10240x512.Idx) :
    ∃ t : Fin cfg16.N, (cfg16.win 2).flush t = true ∧ i ∈ ((cfg16.win 2).blk t).view.set := by
  have hrow : (i 0).val < 10240 := (i 0).isLt
  have hcol : (i 1).val < 512 := (i 1).isLt
  obtain ⟨t, ht⟩ : ∃ t : Fin cfg16.N, t.val = 5 * ((i 0).val / 2048) + 4 :=
    ⟨⟨_, by rw [show cfg16.N = 25 from N_16]; omega⟩, rfl⟩
  obtain ⟨-, -, -, -, ee, ef⟩ := idx_facts16 t
  refine ⟨t, (flush16_2 t).mpr (by omega), ?_⟩
  show i ∈ ((View.whole main_v109).slice (win16_2.rect t)).set
  rw [View.set_slice_whole, Rect.mem_set_unit]
  intro a
  match a with
  | ⟨0, _⟩ =>
    show win16_2.index t (0 : Fin 2) * 2048 ≤ (i 0).val ∧ (i 0).val < win16_2.index t (0 : Fin 2) * 2048 + 2048
    rw [ee]; omega
  | ⟨1, _⟩ =>
    show win16_2.index t (1 : Fin 2) * 512 ≤ (i 1).val ∧ (i 1).val < win16_2.index t (1 : Fin 2) * 512 + 512
    rw [ef]; omega

/-- The output array after the region is the product of the two arrays the region finds. -/
theorem final16 (c : Dev nD) :
    (dat16 (F := Ideal) V c).arrAt 2 cfg16.N
      = mmOut (M := 10240) (K := 10240) (N := 512) (V c main_v43) (V c main_v85) :=
  (dat16 (F := Ideal) V c).arrAt_eq_of_cover 2 _ (fun t hf => flushed_eq16 V c t hf) cover16

end Cert.KernelIdeal.Hand

end
-- ==== Proof.KI.Acc17Val.lean ====
import proofs.«414074_j90701119357381_1_alg».proof.Proof.KI.Acc17Def
import proofs.«414074_j90701119357381_1_alg».proof.Proof.KI.AccShape10
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0 :=
  (by decide +kernel : ∀ t : Fin grid17.N, _)

/-- An entry of a block sits in its array at the block index times the block size plus its own coordinate. -/
theorem outApply17 (c : Dev nD) (t : Fin cfg17.N) (p : Fin 8192) (q : Fin 128) (r : Fin 40960)
    (hr : r.val = t.val * 8192 + p.val) :
    (out17 V c t : Vec Ideal S8192x128 .f32) (ix2 p q) = accOut (M := 40960) (K := 128) (N := 128) (V c main_v110) (V c main_v113) (V c main_v108) (ix2 r q) := by
  obtain ⟨a0, a1, b0, b1, c0, c1, -, -⟩ := idxFacts17 t
  refine (payApply10 _ _ _ p q).trans (congrArg₂ (· + ·) (Finset.sum_congr rfl fun k _ => congrArg₂ (· * ·) ?_ ?_) ?_)
  · show V c main_v110 (((cfg17.win 0).blk t).view.emb (ix2 p k)) = V c main_v110 (ix2 r k)
    refine congrArg _ (Shape.idx_ext₂ ?_ ?_)
    · show win17_0.index t (0 : Fin 2) * 8192 + 1 * p.val = r.val; omega
    · show win17_0.index t (1 : Fin 2) * 128 + 1 * k.val = k.val; omega
  · show V c main_v113 (((cfg17.win 1).blk t).view.emb (ix2 k q)) = V c main_v113 (ix2 k q)
    refine congrArg _ (Shape.idx_ext₂ ?_ ?_)
    · show win17_1.index t (0 : Fin 2) * 128 + 1 * k.val = k.val; omega
    · show win17_1.index t (1 : Fin 2) * 128 + 1 * q.val = q.val; omega
  · show V c main_v108 (((cfg17.win 2).blk t).view.emb (ix2 p q)) = V c main_v108 (ix2 r q)
    refine congrArg _ (Shape.idx_ext₂ ?_ ?_)
    · show win17_2.index t (0 : Fin 2) * 8192 + 1 * p.val = r.val; omega
    · show win17_2.index t (1 : Fin 2) * 128 + 1 * q.val = q.val; omega

/-- What point `t` writes back is block `t` of the whole-array result. -/
theorem flushedEq17 (c : Dev nD) (t : Fin cfg17.N) :
    (dat17 (F := Ideal) V c).flushed 3 t = ((cfg17.win 3).blk t).view.read (Elt Ideal) (accOut (M := 40960) (K := 128) (N := 128) (V c main_v110) (V c main_v113) (V c main_v108)) := by
  obtain ⟨-, -, -, -, -, -, o0, o1⟩ := idxFacts17 t
  have ht : t.val < 5 := N_17 ▸ t.isLt
  funext j
  obtain ⟨p, q, rfl⟩ : ∃ (p : Fin 8192) (q : Fin 128), j = ix2 p q := ⟨j 0, j 1, eq_ix2 j⟩
  refine (outApply17 V c t p q ⟨t.val * 8192 + p.val, by omega⟩ rfl).trans (congrArg _ (Shape.idx_ext₂ ?_ ?_))
  · show t.val * 8192 + p.val = win17_3.index t (0 : Fin 2) * 8192 + 1 * p.val; omega
  · show q.val = win17_3.index t (1 : Fin 2) * 128 + 1 * q.val; omega

/-- An index is in point `t`'s block iff each coordinate is in the block's range on its axis. -/
theorem mem_blk17 (t : Fin cfg17.N) (i : S40960x128.Idx) :
    i ∈ ((cfg17.win 3).blk t).view.set
      ↔ ∀ a : Fin 2, win17_3.index t a * S8192x128.size a ≤ (i a).val
          ∧ (i a).val < win17_3.index t a * S8192x128.size a + S8192x128.size a := by
  show i ∈ ((View.whole main_v114).slice (win17_3.rect t)).set ↔ _
  rw [View.set_slice_whole, Rect.mem_set_unit]
  exact Iff.rfl

/-- Every index of the output array is in the block of the point its row falls in. -/
theorem cover17 (i : S40960x128.Idx) :
    ∃ t : Fin cfg17.N, (cfg17.win 3).flush t = true ∧ i ∈ ((cfg17.win 3).blk t).view.set := by
  have hN : cfg17.N = 5 := N_17
  have hA : (i 0).val < 40960 := (i 0).isLt
  have hB : (i 1).val < 128 := (i 1).isLt
  have ht : (i 0).val / 8192 < cfg17.N := by rw [hN]; omega
  obtain ⟨-, -, -, -, -, -, o0, o1⟩ := idxFacts17 ⟨(i 0).val / 8192, ht⟩
  refine ⟨⟨(i 0).val / 8192, ht⟩, flush17_3 _, (mem_blk17 _ i).2 fun a => ?_⟩
  match a with
  | ⟨0, _⟩ =>
    show win17_3.index ⟨(i 0).val / 8192, ht⟩ (0 : Fin 2) * 8192 ≤ (i 0).val
      ∧ (i 0).val < win17_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win17_3.index ⟨(i 0).val / 8192, ht⟩ (1 : Fin 2) * 128 ≤ (i 1).val
      ∧ (i 1).val < win17_3.index ⟨(i 0).val / 8192, ht⟩ (1 : Fin 2) * 128 + 128
    rw [o1]; omega

/-- The output array after the run: the product of the two factor arrays plus the summand array. -/
theorem final17 (c : Dev nD) : (dat17 (F := Ideal) V c).arrAt 3 cfg17.N = accOut (M := 40960) (K := 128) (N := 128) (V c main_v110) (V c main_v113) (V c main_v108) :=
  (dat17 (F := Ideal) V c).arrAt_eq_of_cover 3 _ (fun t _ => flushedEq17 V c t) cover17

end Cert.KernelIdeal.Hand

end
-- ==== Proof.KI.Mm18Val.lean ====
import proofs.«414074_j90701119357381_1_alg».proof.Proof.KI.Mm18Def
import proofs.«414074_j90701119357381_1_alg».proof.Proof.KI.MmShape11
import proofs.«414074_j90701119357381_1_alg».proof.Proof.Gen.KernelIdeal.Points
import proofs.«414074_j90701119357381_1_alg».proof.Proof.Ops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Cert.Spec
open scoped BigOperators

variable (V : (c : Dev nD) → (b : Ref sig .tc) → Buf (Elt Ideal) ((c : Thread nD τ).loc b))

/-- The windows' block indices at point `t`: row block `t / 5`, contraction block `t % 5`. -/
theorem idx_facts18 : ∀ t : Fin cfg18.N,
    win18_0.index t (0 : Fin 2) = t.val / 5 ∧ win18_0.index t (1 : Fin 2) = t.val % 5
    ∧ win18_1.index t (0 : Fin 2) = t.val % 5 ∧ win18_1.index t (1 : Fin 2) = 0
    ∧ win18_2.index t (0 : Fin 2) = t.val / 5 ∧ win18_2.index t (1 : Fin 2) = 0 :=
  (by decide +kernel : ∀ t : Fin grid18.N, _)

abbrev larr18 (c : Dev nD) : Vec Ideal S10240x10240 .bf16 := V c main_v43
abbrev rarr18 (c : Dev nD) : Vec Ideal S10240x512 .bf16 := V c main_v109

theorem lblk_apply18 (c : Dev nD) (t : Fin cfg18.N) (p j : Fin 2048) (r s : Fin 10240)
    (hr : r.val = 2048 * (t.val / 5) + p.val) (hs : s.val = 2048 * (t.val % 5) + j.val) :
    iblk18 V c 0 t (ix2 p j) = larr18 V c (ix2 r s) := by
  obtain ⟨ea, eb, -⟩ := idx_facts18 t
  unfold larr18 iblk18
  rw [View.read_apply]
  show V c main_v43 _ = V c main_v43 _
  congr 1
  funext a
  apply Fin.ext
  match a with
  | ⟨0, _⟩ => show win18_0.index t (0 : Fin 2) * 2048 + 1 * p.val = r.val; rw [ea, hr]; omega
  | ⟨1, _⟩ => show win18_0.index t (1 : Fin 2) * 2048 + 1 * j.val = s.val; rw [eb, hs]; omega

theorem rblk_apply18 (c : Dev nD) (t : Fin cfg18.N) (j : Fin 2048) (q : Fin 512) (s : Fin 10240)
    (hs : s.val = 2048 * (t.val % 5) + j.val) :
    iblk18 V c 1 t (ix2 j q) = rarr18 V c (ix2 s q) := by
  obtain ⟨-, -, ec, ed, -⟩ := idx_facts18 t
  unfold rarr18 iblk18
  rw [View.read_apply]
  show V c main_v109 _ = V c main_v109 _
  congr 1
  funext a
  apply Fin.ext
  match a with
  | ⟨0, _⟩ => show win18_1.index t (0 : Fin 2) * 2048 + 1 * j.val = s.val; rw [ec, hs]; omega
  | ⟨1, _⟩ => show win18_1.index t (1 : Fin 2) * 512 + 1 * q.val = q.val; rw [ed]; omega

/-- The product's term at contraction position `j` for the entry (`r`, `q`); zero past the axis's end. -/
def term18 (c : Dev nD) (r : Fin 10240) (q : Fin 512) (j : ℕ) : EReal :=
  if h : j < 10240 then larr18 V c (ix2 r ⟨j, h⟩) * rarr18 V c (ix2 ⟨j, h⟩ q) else 0

/-- A step from an accumulator holding the terms of the run's earlier contraction blocks adds this block's. -/
theorem acc_step18 (c : Dev nD) (acc : Vec Ideal S2048x512 .f32) (n : ℕ) (hn : n < cfg18.N) (p : Fin 2048) (q : Fin 512)
    (r : Fin 10240) (hr : r.val = 2048 * (n / 5) + p.val)
    (ha : acc (ix2 p q) = ∑ j ∈ Finset.range (2048 * (n % 5)), term18 V c r q j) :
    k18_pay2 acc (iblk18 V c 0 ⟨n, hn⟩) (iblk18 V c 1 ⟨n, hn⟩) (ix2 p q)
      = ∑ j ∈ Finset.range (2048 * (n % 5 + 1)), term18 V c r q j := by
  refine (step_apply11 acc _ _ p q).trans ?_
  rw [Nat.mul_succ, Finset.sum_range_add, ← ha, Finset.sum_range]
  refine congrArg (acc (ix2 p q) + ·) (Finset.sum_congr rfl fun j _ => ?_)
  have hlt : 2048 * (n % 5) + j.val < 10240 := by have := j.isLt; omega
  unfold term18
  rw [dif_pos hlt, lblk_apply18 V c ⟨n, hn⟩ p j r ⟨_, hlt⟩ hr rfl, rblk_apply18 V c ⟨n, hn⟩ j q ⟨_, hlt⟩ rfl]

/-- After point `n` the accumulator holds the product's terms over the contraction blocks of the run so far. -/
theorem acc_apply18 (c : Dev nD) (n : ℕ) : ∀ (hn : n < cfg18.N) (p : Fin 2048) (q : Fin 512) (r : Fin 10240),
    r.val = 2048 * (n / 5) + p.val →
    sc18 V c n hn (ix2 p q) = ∑ j ∈ Finset.range (2048 * (n % 5 + 1)), term18 V c r q j := by
  have reset : ∀ n hn p q r, r.val = 2048 * (n / 5) + p.val → n % 5 = 0 →
      k18_pay2 k18_pay1 (iblk18 V c 0 ⟨n, hn⟩) (iblk18 V c 1 ⟨n, hn⟩) (ix2 p q)
        = ∑ j ∈ Finset.range (2048 * (n % 5 + 1)), term18 V c r q j :=
    fun n hn p q r hr hz => acc_step18 V c _ n hn p q r hr (by
      rw [hz, Nat.mul_zero, Finset.sum_range_zero]; exact zero_apply11 p q)
  induction n with
  | zero => intro hn p q r hr; exact reset 0 hn p q r hr rfl
  | succ n ih =>
    intro hn p q r hr
    show k18_pay2 (if (n + 1) % 5 = 0 then k18_pay1 else sc18 V c n _) _ _ _ = _
    by_cases hz : (n + 1) % 5 = 0
    · rw [if_pos hz]; exact reset (n + 1) hn p q r hr hz
    · rw [if_neg hz]
      exact acc_step18 V c _ (n + 1) hn p q r hr (by
        rw [show (n + 1) % 5 = n % 5 + 1 by omega]; exact ih _ p q r (by rw [hr]; omega))

/-- At the last point of a run the narrowed accumulator holds the product's entries of the run's row block. -/
theorem out_entry18 (c : Dev nD) (t : Fin cfg18.N) (hl : t.val % 5 = 4) (x : S2048x512.Idx) (i : S10240x512.Idx)
    (hrow : (i 0).val = 2048 * (t.val / 5) + (x 0).val) (hcol : (i 1).val = (x 1).val) :
    k18_pay3 (sc18 V c t.val t.isLt) x
      = mmOut (M := 10240) (K := 10240) (N := 512) (V c main_v43) (V c main_v109) i := by
  obtain ⟨p, q, rfl⟩ : ∃ (p : Fin 2048) (q : Fin 512), x = ix2 p q := ⟨x 0, x 1, eq_ix2 x⟩
  obtain ⟨r, g, rfl⟩ : ∃ (r : Fin 10240) (g : Fin 512), i = ix2 r g := ⟨i 0, i 1, eq_ix2 i⟩
  obtain rfl : g = q := Fin.ext hcol
  refine (narrow_apply11 _ _).trans ?_
  rw [acc_apply18 V c t.val t.isLt p g r hrow, hl, mmOut_apply, Finset.sum_range]
  refine Finset.sum_congr rfl fun j _ => ?_
  unfold term18
  rw [dif_pos j.isLt]

theorem flushed_eq18 (c : Dev nD) (t : Fin cfg18.N) (hf : (cfg18.win 2).flush t = true) :
    (dat18 (F := Ideal) V c).flushed 2 t
      = ((cfg18.win 2).blk t).view.read (Elt Ideal)
          (mmOut (M := 10240) (K := 10240) (N := 512) (V c main_v43) (V c main_v109)) := by
  obtain ⟨-, -, -, -, ee, ef⟩ := idx_facts18 t
  show (cfg18.win 2).cut (grid18.coords t) (k18_pay3 (sc18 V c t.val t.isLt)) = _
  funext y
  refine out_entry18 V c t ((flush18_2 t).mp hf) ((cfg18.win 2).xinj (grid18.coords t) y) (((cfg18.win 2).blk t).view.emb y) ?_ ?_
  · show win18_2.index t (0 : Fin 2) * 2048 + 1 * (y 0).val = 2048 * (t.val / 5) + (y 0).val
    rw [ee]; omega
  · show win18_2.index t (1 : Fin 2) * 512 + 1 * (y 1).val = (y 1).val
    rw [ef]; omega

/-- Every index of the output array lies in the block of its row block's last contraction step. -/
theorem cover18 (i : S10240x512.Idx) :
    ∃ t : Fin cfg18.N, (cfg18.win 2).flush t = true ∧ i ∈ ((cfg18.win 2).blk t).view.set := by
  have hrow : (i 0).val < 10240 := (i 0).isLt
  have hcol : (i 1).val < 512 := (i 1).isLt
  obtain ⟨t, ht⟩ : ∃ t : Fin cfg18.N, t.val = 5 * ((i 0).val / 2048) + 4 :=
    ⟨⟨_, by rw [show cfg18.N = 25 from N_18]; omega⟩, rfl⟩
  obtain ⟨-, -, -, -, ee, ef⟩ := idx_facts18 t
  refine ⟨t, (flush18_2 t).mpr (by omega), ?_⟩
  show i ∈ ((View.whole main_v115).slice (win18_2.rect t)).set
  rw [View.set_slice_whole, Rect.mem_set_unit]
  intro a
  match a with
  | ⟨0, _⟩ =>
    show win18_2.index t (0 : Fin 2) * 2048 ≤ (i 0).val ∧ (i 0).val < win18_2.index t (0 : Fin 2) * 2048 + 2048
    rw [ee]; omega
  | ⟨1, _⟩ =>
    show win18_2.index t (1 : Fin 2) * 512 ≤ (i 1).val ∧ (i 1).val < win18_2.index t (1 : Fin 2) * 512 + 512
    rw [ef]; omega

/-- The output array after the region is the product of the two arrays the region finds. -/
theorem final18 (c : Dev nD) :
    (dat18 (F := Ideal) V c).arrAt 2 cfg18.N
      = mmOut (M := 10240) (K := 10240) (N := 512) (V c main_v43) (V c main_v109) :=
  (dat18 (F := Ideal) V c).arrAt_eq_of_cover 2 _ (fun t hf => flushed_eq18 V c t hf) cover18

end Cert.KernelIdeal.Hand

end
-- ==== Proof.KI.Acc19Val.lean ====
import proofs.«414074_j90701119357381_1_alg».proof.Proof.KI.Acc19Def
import proofs.«414074_j90701119357381_1_alg».proof.Proof.KI.AccShape10
import proofs.«414074_j90701119357381_1_alg».proof.Proof.Ops

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.ValueIdx Cert.Spec
open scoped BigOperators
open Idealize.ShloMosaic.Pipeline (Dat)

variable (V : (c : Dev nD) → (b : Ref sig .tc) → Buf (Elt Ideal) ((c : Thread nD τ).loc b))

theorem idxFacts19 : ∀ t : Fin cfg19.N,
    win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0 :=
  (by decide +kernel : ∀ t : Fin grid19.N, _)

/-- An entry of a block sits in its array at the block index times the block size plus its own coordinate. -/
theorem outApply19 (c : Dev nD) (t : Fin cfg19.N) (p : Fin 8192) (q : Fin 128) (r : Fin 40960)
    (hr : r.val = t.val * 8192 + p.val) :
    (out19 V c t : Vec Ideal S8192x128 .f32) (ix2 p q) = accOut (M := 40960) (K := 128) (N := 128) (V c main_v116) (V c main_v119) (V c main_v114) (ix2 r q) := by
  obtain ⟨a0, a1, b0, b1, c0, c1, -, -⟩ := idxFacts19 t
  refine (payApply10 _ _ _ p q).trans (congrArg₂ (· + ·) (Finset.sum_congr rfl fun k _ => congrArg₂ (· * ·) ?_ ?_) ?_)
  · show V c main_v116 (((cfg19.win 0).blk t).view.emb (ix2 p k)) = V c main_v116 (ix2 r k)
    refine congrArg _ (Shape.idx_ext₂ ?_ ?_)
    · show win19_0.index t (0 : Fin 2) * 8192 + 1 * p.val = r.val; omega
    · show win19_0.index t (1 : Fin 2) * 128 + 1 * k.val = k.val; omega
  · show V c main_v119 (((cfg19.win 1).blk t).view.emb (ix2 k q)) = V c main_v119 (ix2 k q)
    refine congrArg _ (Shape.idx_ext₂ ?_ ?_)
    · show win19_1.index t (0 : Fin 2) * 128 + 1 * k.val = k.val; omega
    · show win19_1.index t (1 : Fin 2) * 128 + 1 * q.val = q.val; omega
  · show V c main_v114 (((cfg19.win 2).blk t).view.emb (ix2 p q)) = V c main_v114 (ix2 r q)
    refine congrArg _ (Shape.idx_ext₂ ?_ ?_)
    · show win19_2.index t (0 : Fin 2) * 8192 + 1 * p.val = r.val; omega
    · show win19_2.index t (1 : Fin 2) * 128 + 1 * q.val = q.val; omega

/-- What point `t` writes back is block `t` of the whole-array result. -/
theorem flushedEq19 (c : Dev nD) (t : Fin cfg19.N) :
    (dat19 (F := Ideal) V c).flushed 3 t = ((cfg19.win 3).blk t).view.read (Elt Ideal) (accOut (M := 40960) (K := 128) (N := 128) (V c main_v116) (V c main_v119) (V c main_v114)) := by
  obtain ⟨-, -, -, -, -, -, o0, o1⟩ := idxFacts19 t
  have ht : t.val < 5 := N_19 ▸ t.isLt
  funext j
  obtain ⟨p, q, rfl⟩ : ∃ (p : Fin 8192) (q : Fin 128), j = ix2 p q := ⟨j 0, j 1, eq_ix2 j⟩
  refine (outApply19 V c t p q ⟨t.val * 8192 + p.val, by omega⟩ rfl).trans (congrArg _ (Shape.idx_ext₂ ?_ ?_))
  · show t.val * 8192 + p.val = win19_3.index t (0 : Fin 2) * 8192 + 1 * p.val; omega
  · show q.val = win19_3.index t (1 : Fin 2) * 128 + 1 * q.val; omega

/-- An index is in point `t`'s block iff each coordinate is in the block's range on its axis. -/
theorem mem_blk19 (t : Fin cfg19.N) (i : S40960x128.Idx) :
    i ∈ ((cfg19.win 3).blk t).view.set
      ↔ ∀ a : Fin 2, win19_3.index t a * S8192x128.size a ≤ (i a).val
          ∧ (i a).val < win19_3.index t a * S8192x128.size a + S8192x128.size a := by
  show i ∈ ((View.whole main_v120).slice (win19_3.rect t)).set ↔ _
  rw [View.set_slice_whole, Rect.mem_set_unit]
  exact Iff.rfl

/-- Every index of the output array is in the block of the point its row falls in. -/
theorem cover19 (i : S40960x128.Idx) :
    ∃ t : Fin cfg19.N, (cfg19.win 3).flush t = true ∧ i ∈ ((cfg19.win 3).blk t).view.set := by
  have hN : cfg19.N = 5 := N_19
  have hA : (i 0).val < 40960 := (i 0).isLt
  have hB : (i 1).val < 128 := (i 1).isLt
  have ht : (i 0).val / 8192 < cfg19.N := by rw [hN]; omega
  obtain ⟨-, -, -, -, -, -, o0, o1⟩ := idxFacts19 ⟨(i 0).val / 8192, ht⟩
  refine ⟨⟨(i 0).val / 8192, ht⟩, flush19_3 _, (mem_blk19 _ i).2 fun a => ?_⟩
  match a with
  | ⟨0, _⟩ =>
    show win19_3.index ⟨(i 0).val / 8192, ht⟩ (0 : Fin 2) * 8192 ≤ (i 0).val
      ∧ (i 0).val < win19_3.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win19_3.index ⟨(i 0).val / 8192, ht⟩ (1 : Fin 2) * 128 ≤ (i 1).val
      ∧ (i 1).val < win19_3.index ⟨(i 0).val / 8192, ht⟩ (1 : Fin 2) * 128 + 128
    rw [o1]; omega

/-- The output array after the run: the product of the two factor arrays plus the summand array. -/
theorem final19 (c : Dev nD) : (dat19 (F := Ideal) V c).arrAt 3 cfg19.N = accOut (M := 40960) (K := 128) (N := 128) (V c main_v116) (V c main_v119) (V c main_v114) :=
  (dat19 (F := Ideal) V c).arrAt_eq_of_cover 3 _ (fun t _ => flushedEq19 V c t) cover19

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 10000, 64]⟩
abbrev SEI : Shape := ⟨3, ![2, 2, 320000]⟩
abbrev SEV : Shape := ⟨2, ![2, 320000]⟩
abbrev SW1 : Shape := ⟨4, ![2, 3, 64, 128]⟩
abbrev SB : Shape := ⟨1, ![128]⟩
abbrev SW2 : Shape := ⟨4, ![2, 3, 128, 128]⟩
abbrev SOut : Shape := ⟨2, ![4, 128]⟩

def row (ei : SEI.Idx → BitVec 32) (e : Fin 2) (j : Fin 320000) : Fin 10000 :=
  ⟨(ei (ix3 e (0 : Fin 2) j)).toNat % 10000, Nat.mod_lt _ (by norm_num)⟩

def col (ei : SEI.Idx → BitVec 32) (e : Fin 2) (j : Fin 320000) : Fin 10000 :=
  ⟨(ei (ix3 e (1 : Fin 2) j)).toNat % 10000, Nat.mod_lt _ (by norm_num)⟩

def val (ev : SEV.Idx → EReal) (e : Fin 2) (j : Fin 320000) : EReal := ev (ix2 e j)

def pad (n : Fin 10000) : Fin 10240 := ⟨n.val, lt_trans n.isLt (by norm_num)⟩

section
variable (ei : SEI.Idx → BitVec 32) (ev : SEV.Idx → EReal)

def spmm {D : ℕ} (e : Fin 2) (z : Fin 10000 → Fin 4 → Fin D → EReal) : Fin 10000 → Fin 4 → Fin D → EReal :=
  fun n b f => ∑ j : Fin 320000, if row ei e j = n then z (col ei e j) b f * val ev e j else 0

def mix {N D : ℕ} (W : Fin 2 → Fin 3 → Fin D → Fin 128 → EReal) (e : Fin 2) (k : Fin 3)
    (z : Fin N → Fin 4 → Fin D → EReal) : Fin N → Fin 4 → Fin 128 → EReal :=
  fun n b g => ∑ f : Fin D, z n b f * W e k f g

def filt {D : ℕ} (W : Fin 2 → Fin 3 → Fin D → Fin 128 → EReal) (bias : Fin 128 → EReal)
    (z : Fin 10000 → Fin 4 → Fin D → EReal) : Fin 10000 → Fin 4 → Fin 128 → EReal :=
  fun n b g =>
    ((((((0 + mix W 0 0 z n b g) + mix W 0 1 (spmm ei ev 0 z) n b g) + mix W 0 2 (spmm ei ev 0 (spmm ei ev 0 z)) n b g)
      + mix W 1 0 z n b g) + mix W 1 1 (spmm ei ev 1 z) n b g) + mix W 1 2 (spmm ei ev 1 (spmm ei ev 1 z)) n b g)
      + bias g

end

def refSpec (x : SX.Idx → EReal) (ei : SEI.Idx → BitVec 32) (ev : SEV.Idx → EReal) (W1 : SW1.Idx → EReal)
    (b1 : SB.Idx → EReal) (W2 : SW2.Idx → EReal) (b2 : SB.Idx → EReal) : SOut.Idx → EReal :=
  fun i =>
    filt ei ev (fun e k f g => W2 (ix4 e k f g)) (fun g => b2 (ix1 g))
      (filt ei ev (fun e k f g => W1 (ix4 e k f g)) (fun g => b1 (ix1 g)) (fun n b f => x (ix3 b n f)))
      ⟨0, by norm_num⟩ (i 0) (i 1)

section
variable (ei : SEI.Idx → BitVec 32) (ev : SEV.Idx → EReal)

def dense (e : Fin 2) (r c : Fin 10240) : EReal :=
  ∑ j : Fin 320000, if pad (row ei e j) = r ∧ pad (col ei e j) = c then val ev e j else 0

def dmul {D : ℕ} (e : Fin 2) (z : Fin 10240 → Fin 4 → Fin D → EReal) : Fin 10240 → Fin 4 → Fin D → EReal :=
  fun r b f => ∑ c : Fin 10240, dense ei ev e r c * z c b f

def filtP {D : ℕ} (W : Fin 2 → Fin 3 → Fin D → Fin 128 → EReal) (bias : Fin 128 → EReal)
    (z : Fin 10240 → Fin 4 → Fin D → EReal) : Fin 10240 → Fin 4 → Fin 128 → EReal :=
  fun n b g =>
    (((((bias g + mix W 0 0 z n b g) + mix W 0 1 (dmul ei ev 0 z) n b g) + mix W 0 2 (dmul ei ev 0 (dmul ei ev 0 z)) n b g)
      + mix W 1 0 z n b g) + mix W 1 1 (dmul ei ev 1 z) n b g) + mix W 1 2 (dmul ei ev 1 (dmul ei ev 1 z)) n b g

end

def zpad (x : SX.Idx → EReal) : Fin 10240 → Fin 4 → Fin 64 → EReal :=
  fun n b f => if h : n.val < 10000 then x (ix3 b (⟨n.val, h⟩ : Fin 10000) f) else 0

def kernelSpec (x : SX.Idx → EReal) (ei : SEI.Idx → BitVec 32) (ev : SEV.Idx → EReal) (W1 : SW1.Idx → EReal)
    (b1 : SB.Idx → EReal) (W2 : SW2.Idx → EReal) (b2 : SB.Idx → EReal) : SOut.Idx → EReal :=
  fun i =>
    filtP ei ev (fun e k f g => W2 (ix4 e k f g)) (fun g => b2 (ix1 g))
      (filtP ei ev (fun e k f g => W1 (ix4 e k f g)) (fun g => b1 (ix1 g)) (zpad x))
      ⟨0, by norm_num⟩ (i 0) (i 1)

def AllReal {s : Shape} (a : s.Idx → EReal) : Prop := ∀ i, ∃ r : ℝ, a i = (r : EReal)

def InRange (ei : SEI.Idx → BitVec 32) : Prop := ∀ i, (ei i).toNat < 10000

end Cert.Spec

end
-- ==== Proof.KI.ChainS.lean ====
import proofs.«414074_j90701119357381_1_alg».proof.Proof.RegionsKernelIdeal
import proofs.«414074_j90701119357381_1_alg».proof.Proof.Ops
import proofs.«414074_j90701119357381_1_alg».proof.Proof.Spec
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.Hand

open Cert.KernelIdeal Cert.KernelIdeal.Gen Cert.KernelIdeal.GenP Cert.Spec
open Idealize.ShloMosaic Idealize.ShloMosaic.TcCoe Idealize.ShloMosaic.ValueIdx Idealize.SL.Sem

variable (m : (ℓ : Loc nD τ sig) → Buf (Elt Ideal) ℓ) (c : Dev nD)

abbrev scD : ScatterDims S10240x10240 S320000x2 S320000 := scatter_S10240x10240_S320000x2_S320000_n_01_01_1

abbrev wrapW (w : IVec S320000 32) : IVec S320000 32 :=
  select (cmpi .slt w (broadcastInDim S320000 ![] bcast_S_S320000 (constantI S_ 32 0#32)))
    (addi w (broadcastInDim S320000 ![] bcast_S_S320000 (constantI S_ 32 10240#32))) w

abbrev idxPair (w1 w3 : IVec S320000 32) : IVec S320000x2 32 :=
  concatenate S320000x2 1
    [⟨S320000x1, broadcastInDim S320000x1 ![0] bcast_S320000_S320000x1_0 (wrapW w1)⟩,
     ⟨S320000x1, broadcastInDim S320000x1 ![0] bcast_S320000_S320000x1_0 (wrapW w3)⟩]
    concatenates_S320000x1_S320000x1_S320000x2_d1

theorem wrapW_apply (w : IVec S320000 32) (j : Fin 320000) (h : 0 ≤ (w (ix1 j)).toInt) :
    wrapW w (ix1 j) = w (ix1 j) := by
  have hlt : (w (ix1 j)).slt 0#32 = false := by
    simp only [BitVec.slt, BitVec.toInt_zero, decide_eq_false_iff_not, Int.not_lt]
    exact h
  show (if BitVec.ofBool ((w (ix1 j)).slt 0#32) = 1 then _ else _) = _
  rw [hlt]
  rfl

theorem idxPair_zero (w1 w3 : IVec S320000 32) (j : Fin 320000) :
    idxPair w1 w3 (ix2 j (0 : Fin 2)) = wrapW w1 (ix1 j) := by
  refine (concatenate_pair_apply_left (t := S320000x2) (s₁ := S320000x1) (s₂ := S320000x1) (1 : Fin 2) _ _
    concatenates_S320000x1_S320000x1_S320000x2_d1
    (ix2 j (0 : Fin 2)) rfl (ix2 j (0 : Fin 1)) (fun b => ?_)).trans ?_
  · match b with
    | ⟨0, _⟩ => rfl
    | ⟨1, _⟩ => rfl
  · exact broadcastInDim_apply _ _ _ _ (ix1 j) (fun a => by
      match a with
      | ⟨0, _⟩ => rfl)

theorem idxPair_one (w1 w3 : IVec S320000 32) (j : Fin 320000) :
    idxPair w1 w3 (ix2 j (1 : Fin 2)) = wrapW w3 (ix1 j) := by
  refine (concatenate_pair_apply_right (t := S320000x2) (s₁ := S320000x1) (s₂ := S320000x1) (1 : Fin 2) _ _
    concatenates_S320000x1_S320000x1_S320000x2_d1
    (ix2 j (1 : Fin 2)) rfl rfl (ix2 j (0 : Fin 1)) (fun b hb => ?_) rfl).trans ?_
  · match b with
    | ⟨0, _⟩ => rfl
    | ⟨1, _⟩ => exact absurd rfl hb
  · exact broadcastInDim_apply _ _ _ _ (ix1 j) (fun a => by
      match a with
      | ⟨0, _⟩ => rfl)

theorem toInt_of_lt (w : BitVec 32) (h : w.toNat < 10000) : w.toInt = (w.toNat : Int) := by
  rw [BitVec.toInt_eq_toNat_cond]
  split <;> omega

theorem scD_start0 (idx : IVec S320000x2 32) (j : Fin 320000) :
    scD.start (ix1 j) idx (0 : Fin 2) = (idx (ix2 j (0 : Fin 2))).toInt := by
  unfold ScatterDims.start
  rw [dif_pos (show (0 : Fin 2) ∈ scD.scatterDimsToOperandDims by decide)]
  refine congrArg (fun k => (idx k).toInt) (funext fun b => Fin.ext ?_)
  match b with
  | ⟨0, _⟩ => rfl
  | ⟨1, _⟩ => rfl

theorem scD_start1 (idx : IVec S320000x2 32) (j : Fin 320000) :
    scD.start (ix1 j) idx (1 : Fin 2) = (idx (ix2 j (1 : Fin 2))).toInt := by
  unfold ScatterDims.start
  rw [dif_pos (show (1 : Fin 2) ∈ scD.scatterDimsToOperandDims by decide)]
  refine congrArg (fun k => (idx k).toInt) (funext fun b => Fin.ext ?_)
  match b with
  | ⟨0, _⟩ => rfl
  | ⟨1, _⟩ => rfl

theorem scD_start (idx : IVec S320000x2 32) (j : Fin 320000) (a : Fin 2) :
    scD.start (ix1 j) idx a = (idx (ix2 j a)).toInt :=
  match a with
  | ⟨0, _⟩ => scD_start0 idx j
  | ⟨1, _⟩ => scD_start1 idx j

theorem scD_window0 (j : S320000.Idx) : scD.window j (0 : Fin 2) = 0 :=
  dif_neg (by decide)
theorem scD_window1 (j : S320000.Idx) : scD.window j (1 : Fin 2) = 0 :=
  dif_neg (by decide)
theorem scD_window (j : S320000.Idx) (a : Fin 2) : scD.window j a = 0 :=
  match a with
  | ⟨0, _⟩ => scD_window0 j
  | ⟨1, _⟩ => scD_window1 j

theorem scD_resultIdx (idx : IVec S320000x2 32) (j : Fin 320000) (p q : Fin 10240)
    (hp : (idx (ix2 j (0 : Fin 2))).toInt = (p.val : Int)) (hq : (idx (ix2 j (1 : Fin 2))).toInt = (q.val : Int)) :
    scD.resultIdx? (ix1 j) idx = some (ix2 p q) := by
  have hst : ∀ a : Fin 2, scD.start (ix1 j) idx a + (scD.window (ix1 j) a : Int)
      = (((ix2 p q : S10240x10240.Idx) a).val : Int) := fun a => by
    rw [scD_start, scD_window]
    match a with
    | ⟨0, _⟩ => simpa using hp
    | ⟨1, _⟩ => simpa using hq
  unfold ScatterDims.resultIdx?
  rw [dif_pos (fun a => by
    rw [hst a]
    have := ((ix2 p q : S10240x10240.Idx) a).isLt
    exact ⟨by omega, by exact_mod_cast this⟩)]
  refine congrArg some (funext fun a => Fin.ext ?_)
  show (scD.start (ix1 j) idx a + (scD.window (ix1 j) a : Int)).toNat = _
  rw [hst a]
  simp

def idxEquiv1 {n : Nat} : (⟨1, ![n]⟩ : Shape).Idx ≃ Fin n where
  toFun j := j 0
  invFun a := ix1 a
  left_inv j := (eq_ix1 j).symm
  right_inv _ := rfl

abbrev scat (w1 w3 : IVec S320000 32) (u : S320000.Idx → EReal) : S10240x10240.Idx → EReal :=
  Host.scatterAdd (F := Ideal) (φ := .f32) scD
    (broadcastInDim S10240x10240 ![] bcast_S_S10240x10240 (constant (F := Ideal) S_ .f32 0x00000000#32))
    (idxPair w1 w3) u

theorem scat_apply (w1 w3 : IVec S320000 32) (u : S320000.Idx → EReal)
    (h1 : ∀ j : Fin 320000, (w1 (ix1 j)).toNat < 10000) (h3 : ∀ j : Fin 320000, (w3 (ix1 j)).toNat < 10000)
    (r c : Fin 10240) :
    scat w1 w3 u (ix2 r c)
      = ∑ j : Fin 320000, if (w1 (ix1 j)).toNat = r.val ∧ (w3 (ix1 j)).toNat = c.val then u (ix1 j) else 0 := by
  have hres : ∀ j : Fin 320000, scD.resultIdx? (ix1 j) (idxPair w1 w3)
      = some (ix2 (⟨(w1 (ix1 j)).toNat, lt_trans (h1 j) (by norm_num)⟩ : Fin 10240)
          (⟨(w3 (ix1 j)).toNat, lt_trans (h3 j) (by norm_num)⟩ : Fin 10240)) := fun j => by
    refine scD_resultIdx _ j _ _ ?_ ?_
    · rw [idxPair_zero, wrapW_apply w1 j (by rw [toInt_of_lt _ (h1 j)]; omega), toInt_of_lt _ (h1 j)]
    · rw [idxPair_one, wrapW_apply w3 j (by rw [toInt_of_lt _ (h3 j)]; omega), toInt_of_lt _ (h3 j)]
  show Ideal.ofBits .f32 0x00000000#32
      + ∑ j ∈ Finset.univ.filter (fun j => scD.resultIdx? j (idxPair w1 w3) = some (ix2 r c)), u j = _
  rw [Ideal.ofBits_zero_f32, zero_add, Finset.sum_filter]
  refine (Equiv.sum_comp (idxEquiv1 (n := 320000)).symm _).symm.trans ?_
  refine Finset.sum_congr rfl fun j _ => ?_
  show (if scD.resultIdx? (ix1 j) (idxPair w1 w3) = some (ix2 r c) then u (ix1 j) else 0) = _
  rw [hres j]
  by_cases h : (w1 (ix1 j)).toNat = r.val ∧ (w3 (ix1 j)).toNat = c.val
  · rw [if_pos h, if_pos]
    obtain ⟨ha, hb⟩ := h
    have e1 : (⟨(w1 (ix1 j)).toNat, lt_trans (h1 j) (by norm_num)⟩ : Fin 10240) = r := Fin.ext ha
    have e2 : (⟨(w3 (ix1 j)).toNat, lt_trans (h3 j) (by norm_num)⟩ : Fin 10240) = c := Fin.ext hb
    rw [e1, e2]
  · rw [if_neg h, if_neg]
    intro he
    have he' := Option.some.inj he
    apply h
    constructor
    · have := congrArg (fun k : S10240x10240.Idx => (k 0).val) he'
      exact this
    · have := congrArg (fun k : S10240x10240.Idx => (k 1).val) he'
      exact this

abbrev wordsOf (ei : S2x2x320000.Idx → BitVec 32) (off : Fin 3 → Nat) (hs : S2x2x320000.Slices off S1x1x320000) :
    IVec S320000 32 :=
  shapeCast S320000 (extractStridedSlice S1x1x320000 off ei hs) shapeCasts_S1x1x320000_S320000

abbrev valsOf (ev : S2x320000.Idx → EReal) (off : Fin 2 → Nat) (hs : S2x320000.Slices off S1x320000) :
    S320000.Idx → EReal :=
  shapeCast S320000 (extractStridedSlice S1x320000 off ev hs) shapeCasts_S1x320000_S320000

theorem wordsOf_apply (ei : S2x2x320000.Idx → BitVec 32) (off : Fin 3 → Nat) (hs : S2x2x320000.Slices off S1x1x320000)
    (e k : Fin 2) (h0 : off 0 = e.val) (h1 : off 1 = k.val) (h2 : off 2 = 0) (j : Fin 320000) :
    wordsOf ei off hs (ix1 j) = ei (ix3 e k j) := by
  refine (shapeCast_apply _ shapeCasts_S1x1x320000_S320000 (ix1 j) (ix3 (0 : Fin 1) (0 : Fin 1) j) ?_).trans ?_
  · rw [Shape.rowMajor_val_three, Shape.rowMajor_val_one]
    show ((0 : Fin 1).val * 1 + (0 : Fin 1).val) * 320000 + j.val = j.val
    simp
  · refine extractStridedSlice_apply off ei hs _ (ix3 e k j) (fun a => ?_)
    match a with
    | ⟨0, _⟩ => show e.val = off 0 + 0; omega
    | ⟨1, _⟩ => show k.val = off 1 + 0; omega
    | ⟨2, _⟩ => show j.val = off 2 + j.val; omega

theorem valsOf_apply (ev : S2x320000.Idx → EReal) (off : Fin 2 → Nat) (hs : S2x320000.Slices off S1x320000)
    (e : Fin 2) (h0 : off 0 = e.val) (h1 : off 1 = 0) (j : Fin 320000) :
    valsOf ev off hs (ix1 j) = ev (ix2 e j) := by
  refine (shapeCast_apply _ shapeCasts_S1x320000_S320000 (ix1 j) (ix2 (0 : Fin 1) j) ?_).trans ?_
  · rw [Shape.rowMajor_val_two, Shape.rowMajor_val_one]
    show (0 : Fin 1).val * 320000 + j.val = j.val
    simp
  · refine extractStridedSlice_apply off ev hs _ (ix2 e j) (fun a => ?_)
    match a with
    | ⟨0, _⟩ => show e.val = off 0 + 0; omega
    | ⟨1, _⟩ => show j.val = off 1 + j.val; omega

theorem scat_dense (ei : S2x2x320000.Idx → BitVec 32) (ev : S2x320000.Idx → EReal) (hidx : InRange ei) (e : Fin 2)
    (o1 o3 : Fin 3 → Nat) (hs1 : S2x2x320000.Slices o1 S1x1x320000) (hs3 : S2x2x320000.Slices o3 S1x1x320000)
    (ov : Fin 2 → Nat) (hsv : S2x320000.Slices ov S1x320000)
    (h10 : o1 0 = e.val) (h11 : o1 1 = (0 : Fin 2).val) (h12 : o1 2 = 0)
    (h30 : o3 0 = e.val) (h31 : o3 1 = (1 : Fin 2).val) (h32 : o3 2 = 0)
    (hv0 : ov 0 = e.val) (hv1 : ov 1 = 0) (r c : Fin 10240) :
    scat (wordsOf ei o1 hs1) (wordsOf ei o3 hs3) (valsOf ev ov hsv) (ix2 r c) = dense ei ev e r c := by
  rw [scat_apply _ _ _ (fun j => by rw [wordsOf_apply ei o1 hs1 e 0 h10 h11 h12 j]; exact hidx _)
    (fun j => by rw [wordsOf_apply ei o3 hs3 e 1 h30 h31 h32 j]; exact hidx _)]
  unfold dense
  refine Finset.sum_congr rfl fun j _ => ?_
  rw [wordsOf_apply ei o1 hs1 e 0 h10 h11 h12 j, wordsOf_apply ei o3 hs3 e 1 h30 h31 h32 j,
    valsOf_apply ev ov hsv e hv0 hv1 j]
  have hr : pad (row ei e j) = r ↔ (ei (ix3 e (0 : Fin 2) j)).toNat = r.val := by
    rw [Fin.ext_iff]
    show (ei (ix3 e (0 : Fin 2) j)).toNat % 10000 = r.val ↔ _
    rw [Nat.mod_eq_of_lt (hidx _)]
  have hc : pad (col ei e j) = c ↔ (ei (ix3 e (1 : Fin 2) j)).toNat = c.val := by
    rw [Fin.ext_iff]
    show (ei (ix3 e (1 : Fin 2) j)).toNat % 10000 = c.val ↔ _
    rw [Nat.mod_eq_of_lt (hidx _)]
  by_cases h : (ei (ix3 e (0 : Fin 2) j)).toNat = r.val ∧ (ei (ix3 e (1 : Fin 2) j)).toNat = c.val
  · rw [if_pos h, if_pos ⟨hr.2 h.1, hc.2 h.2⟩]
    rfl
  · rw [if_neg h, if_neg (fun h' => h ⟨hr.1 h'.1, hc.1 h'.2⟩)]

set_option maxHeartbeats 4000000 in
theorem v21_after : (GenP.V1 m c main_v21 : S10240x10240.Idx → EReal)
    = truncf (F := Ideal) .bf16
        (scat (wordsOf (m ((c : Thread nD τ).loc main_arg1)) ![0, 0, 0] slices_S2x2x320000_S1x1x320000_0_0_0)
          (wordsOf (m ((c : Thread nD τ).loc main_arg1)) ![0, 1, 0] slices_S2x2x320000_S1x1x320000_0_1_0)
          (valsOf (m ((c : Thread nD τ).loc main_arg2)) ![0, 0] slices_S2x320000_S1x320000_0_0))
        bitsLt_bf16_f32 := by
  dsimp only [GenP.V1, GenP.V0, Gen.hostOps0]
  after_results
  rfl

set_option maxHeartbeats 4000000 in
theorem v43_after : (GenP.V1 m c main_v43 : S10240x10240.Idx → EReal)
    = truncf (F := Ideal) .bf16
        (scat (wordsOf (m ((c : Thread nD τ).loc main_arg1)) ![1, 0, 0] slices_S2x2x320000_S1x1x320000_1_0_0)
          (wordsOf (m ((c : Thread nD τ).loc main_arg1)) ![1, 1, 0] slices_S2x2x320000_S1x1x320000_1_1_0)
          (valsOf (m ((c : Thread nD τ).loc main_arg2)) ![1, 0] slices_S2x320000_S1x320000_1_0))
        bitsLt_bf16_f32 := by
  dsimp only [GenP.V1, GenP.V0, Gen.hostOps0]
  after_results
  rfl

theorem v21_at (hidx : Cert.Spec.InRange (m ((c : Thread nD τ).loc main_arg1))) (r c' : Fin 10240) :
    (GenP.V1 m c main_v21 : S10240x10240.Idx → EReal) (ix2 r c')
      = dense (m ((c : Thread nD τ).loc main_arg1)) (m ((c : Thread nD τ).loc main_arg2)) 0 r c' := by
  refine (congrFun (v21_after m c) (ix2 r c')).trans ?_
  refine (truncf_apply _ bitsLt_bf16_f32 (ix2 r c')).trans ?_
  exact scat_dense (m ((c : Thread nD τ).loc main_arg1)) (m ((c : Thread nD τ).loc main_arg2)) hidx 0
    ![0, 0, 0] ![0, 1, 0] slices_S2x2x320000_S1x1x320000_0_0_0 slices_S2x2x320000_S1x1x320000_0_1_0
    ![0, 0] slices_S2x320000_S1x320000_0_0 rfl rfl rfl rfl rfl rfl rfl rfl r c'

theorem v43_at (hidx : Cert.Spec.InRange (m ((c : Thread nD τ).loc main_arg1))) (r c' : Fin 10240) :
    (GenP.V1 m c main_v43 : S10240x10240.Idx → EReal) (ix2 r c')
      = dense (m ((c : Thread nD τ).loc main_arg1)) (m ((c : Thread nD τ).loc main_arg2)) 1 r c' := by
  refine (congrFun (v43_after m c) (ix2 r c')).trans ?_
  refine (truncf_apply _ bitsLt_bf16_f32 (ix2 r c')).trans ?_
  exact scat_dense (m ((c : Thread nD τ).loc main_arg1)) (m ((c : Thread nD τ).loc main_arg2)) hidx 1
    ![1, 0, 0] ![1, 1, 0] slices_S2x2x320000_S1x1x320000_1_0_0 slices_S2x2x320000_S1x1x320000_1_1_0
    ![1, 0] slices_S2x320000_S1x320000_1_0 rfl rfl rfl rfl rfl rfl rfl rfl r c'

theorem v21_dense (hidx : Cert.Spec.InRange (m ((c : Thread nD τ).loc main_arg1))) :
    GenP.V3 m c main_v21 = fun idx => dense (m ((c : Thread nD τ).loc main_arg1)) (m ((c : Thread nD τ).loc main_arg2)) 0 (idx 0) (idx 1) := by
  rw [GenP.V3_of m c main_v21 (by decide), GenP.V2_of m c main_v21 (by decide)]
  funext idx
  exact (congrArg (GenP.V1 m c main_v21 : S10240x10240.Idx → EReal) (eq_ix2 idx)).trans
    (v21_at m c hidx (idx 0) (idx 1))

theorem v43_dense (hidx : Cert.Spec.InRange (m ((c : Thread nD τ).loc main_arg1))) :
    GenP.V3 m c main_v43 = fun idx => dense (m ((c : Thread nD τ).loc main_arg1)) (m ((c : Thread nD τ).loc main_arg2)) 1 (idx 0) (idx 1) := by
  rw [GenP.V3_of m c main_v43 (by decide), GenP.V2_of m c main_v43 (by decide)]
  funext idx
  exact (congrArg (GenP.V1 m c main_v43 : S10240x10240.Idx → EReal) (eq_ix2 idx)).trans
    (v43_at m c hidx (idx 0) (idx 1))

theorem v44_after : (GenP.V1 m c main_v44 : S10000x4x64.Idx → EReal)
    = transpose S10000x4x64 [1, 0, 2] (m ((c : Thread nD τ).loc main_arg0)) transposes_S4x10000x64_S10000x4x64_1_0_2 := by
  dsimp only [GenP.V1, GenP.V0, Gen.hostOps0]
  after_results

theorem c8_after : (GenP.V1 m c main_c_8 : S_.Idx → BitVec 32) = constantI S_ 32 0#32 := by
  dsimp only [GenP.V1, GenP.V0, Gen.hostOps0]
  after_results

theorem v45_after : (GenP.V2 m c main_v45 : S10240x4x64.Idx → EReal)
    = pad S10240x4x64 ![0, 0, 0] ![240, 0, 0] ![0, 0, 0] (GenP.V1 m c main_v44 : S10000x4x64.Idx → EReal)
        (sitofp (F := Ideal) .f32 (GenP.V1 m c main_c_8 : S_.Idx → BitVec 32))
        pads_S10000x4x64_S10240x4x64_02400_000_000 h_S_ := by
  dsimp only [GenP.V2, Gen.hostOps0_1]
  after_results
  rfl

theorem v47_after : (GenP.V3 m c main_v47 : S10240x256.Idx → EReal)
    = truncf (F := Ideal) .bf16
        (shapeCast S10240x256 (GenP.V2 m c main_v45 : S10240x4x64.Idx → EReal) shapeCasts_S10240x4x64_S10240x256)
        bitsLt_bf16_f32 := by
  dsimp only [GenP.V3, Gen.hostOps0_2]
  after_results
  rfl

theorem v45_apply (n : Fin 10240) (b : Fin 4) (f : Fin 64) :
    (GenP.V2 m c main_v45 : S10240x4x64.Idx → EReal) (ix3 n b f)
      = zpad (m ((c : Thread nD τ).loc main_arg0)) n b f := by
  refine (congrFun (v45_after m c) (ix3 n b f)).trans ?_
  unfold zpad
  by_cases h : n.val < 10000
  · rw [dif_pos h]
    refine (pad_apply_of_inside _ _ _ _ _ pads_S10000x4x64_S10240x4x64_02400_000_000 h_S_ (ix3 n b f)
      (ix3 (⟨n.val, h⟩ : Fin 10000) b f) (fun a => ?_)).trans ?_
    · match a with
      | ⟨0, _⟩ => show n.val = 0 + n.val * (0 + 1); omega
      | ⟨1, _⟩ => show b.val = 0 + b.val * (0 + 1); omega
      | ⟨2, _⟩ => show f.val = 0 + f.val * (0 + 1); omega
    · refine (congrFun (v44_after m c) (ix3 (⟨n.val, h⟩ : Fin 10000) b f)).trans ?_
      exact transpose_apply _ _ transposes_S4x10000x64_S10000x4x64_1_0_2 (ix3 (⟨n.val, h⟩ : Fin 10000) b f)
        (ix3 b (⟨n.val, h⟩ : Fin 10000) f) (fun b' => by
          match b' with
          | ⟨0, _⟩ => rfl
          | ⟨1, _⟩ => rfl
          | ⟨2, _⟩ => rfl)
  · rw [dif_neg h]
    refine (pad_apply_of_not_inside _ _ _ _ _ pads_S10000x4x64_S10240x4x64_02400_000_000 h_S_ (ix3 n b f)
      (0 : Fin 3) (fun hh => h ?_)).trans ?_
    · have h3 : (n.val - 0) / (0 + 1) < 10000 := hh.2.2
      simpa using h3
    · show (((GenP.V1 m c main_c_8 : S_.Idx → BitVec 32) (Shape.Idx.first h_S_)).toInt : ℝ) = (0 : EReal)
      rw [c8_after]
      show ((((0#32 : BitVec 32).toInt : ℝ)) : EReal) = 0
      simp

theorem v47_flat : GenP.V3 m c main_v47
    = flatN (D := 64) (C := 256) rfl (by norm_num) (zpad (m ((c : Thread nD τ).loc main_arg0))) := by
  funext idx
  refine (congrArg (GenP.V3 m c main_v47 : S10240x256.Idx → EReal) (eq_ix2 idx)).trans ?_
  refine (congrFun (v47_after m c) (ix2 (idx 0) (idx 1))).trans ?_
  show shapeCast S10240x256 (GenP.V2 m c main_v45 : S10240x4x64.Idx → EReal) shapeCasts_S10240x4x64_S10240x256
      (ix2 (idx 0 : Fin 10240) (idx 1 : Fin 256)) = _
  refine (shapeCast_apply _ shapeCasts_S10240x4x64_S10240x256 (ix2 (idx 0 : Fin 10240) (idx 1 : Fin 256))
    (ix3 (idx 0 : Fin 10240) (qHi (D := 64) (C := 256) rfl (idx 1 : Fin 256)) (qLo (D := 64) (by norm_num) (idx 1 : Fin 256))) ?_).trans ?_
  · rw [Shape.rowMajor_val_three, Shape.rowMajor_val_two]
    show ((idx 0 : Fin 10240).val * 4 + (idx 1 : Fin 256).val / 64) * 64 + (idx 1 : Fin 256).val % 64
      = (idx 0 : Fin 10240).val * 256 + (idx 1 : Fin 256).val
    omega
  · exact v45_apply m c _ _ _

theorem chainS (hidx : Cert.Spec.InRange (m ((c : Thread nD τ).loc main_arg1))) :
    (GenP.V3 m c main_v21 = fun idx => dense (m ((c : Thread nD τ).loc main_arg1)) (m ((c : Thread nD τ).loc main_arg2)) 0 (idx 0) (idx 1))
  ∧ (GenP.V3 m c main_v43 = fun idx => dense (m ((c : Thread nD τ).loc main_arg1)) (m ((c : Thread nD τ).loc main_arg2)) 1 (idx 0) (idx 1))
  ∧ (GenP.V3 m c main_v47 = flatN (D := 64) (C := 256) rfl (by norm_num) (zpad (m ((c : Thread nD τ).loc main_arg0)))) :=
  ⟨v21_dense m c hidx, v43_dense m c hidx, v47_flat m c⟩

end Cert.KernelIdeal.Hand
end
-- ==== Proof.KI.ChainL1.lean ====
import proofs.«414074_j90701119357381_1_alg».proof.Proof.RegionsKernelIdeal
import proofs.«414074_j90701119357381_1_alg».proof.Proof.Ops
import proofs.«414074_j90701119357381_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Cert.KernelIdeal.GenP Cert.Spec
open Idealize.ShloMosaic Idealize.ShloMosaic.TcCoe Idealize.ShloMosaic.ValueIdx Idealize.SL.Sem

namespace L1

theorem mmOut_flatN {D C : ℕ} (hC : C = 4 * D) (hD : 0 < D) (S : (⟨2, ![10240, 10240]⟩ : Shape).Idx → EReal)
    (z : Fin 10240 → Fin 4 → Fin D → EReal) :
    mmOut (M := 10240) (K := 10240) (N := C) S (flatN hC hD z)
      = flatN hC hD (fun r b f => ∑ c : Fin 10240, S (ix2 r c) * z c b f) := rfl

theorem mmOut_dense_flatN {D C : ℕ} (hC : C = 4 * D) (hD : 0 < D) (ei : SEI.Idx → BitVec 32) (ev : SEV.Idx → EReal) (e : Fin 2)
    (z : Fin 10240 → Fin 4 → Fin D → EReal) :
    mmOut (M := 10240) (K := 10240) (N := C) (fun idx => dense ei ev e (idx 0) (idx 1)) (flatN hC hD z)
      = flatN hC hD (dmul ei ev e z) := rfl

theorem shapeCast_flatN {D C : ℕ} (hC : C = 4 * D) (hD : 0 < D) (z : Fin 10240 → Fin 4 → Fin D → EReal)
    (h : (⟨2, ![10240, C]⟩ : Shape).ShapeCasts ⟨2, ![40960, D]⟩) :
    shapeCast ⟨2, ![40960, D]⟩ (flatN hC hD z) h = flatR z := by
  funext j
  obtain ⟨r, f, rfl⟩ : ∃ (r : Fin 40960) (f : Fin D), j = ix2 r f := ⟨j 0, j 1, eq_ix2 j⟩
  have hq : (rLo r).val * D + f.val < C := by
    have h1 := (rLo r).isLt
    have h2 := f.isLt
    rw [hC]
    calc (rLo r).val * D + f.val < (rLo r).val * D + D := by omega
      _ = ((rLo r).val + 1) * D := by ring
      _ ≤ 4 * D := Nat.mul_le_mul_right D (by omega)
  rw [shapeCast_apply (flatN hC hD z) h (ix2 r f) (ix2 (rHi r) (⟨(rLo r).val * D + f.val, hq⟩ : Fin C))]
  · rw [flatN_apply hC hD z (rHi r) (rLo r) f _ rfl]
    rfl
  · rw [Shape.rowMajor_val_two, Shape.rowMajor_val_two]
    show (r.val / 4) * C + (r.val % 4 * D + f.val) = r.val * D + f.val
    have h4 : 4 * (r.val / 4) + r.val % 4 = r.val := Nat.div_add_mod r.val 4
    rw [hC]
    calc r.val / 4 * (4 * D) + (r.val % 4 * D + f.val) = (4 * (r.val / 4) + r.val % 4) * D + f.val := by ring
      _ = r.val * D + f.val := by rw [h4]

theorem accOut_flatR {D : ℕ} (z : Fin 10240 → Fin 4 → Fin D → EReal) (W : (⟨2, ![D, 128]⟩ : Shape).Idx → EReal)
    (Cc : (⟨2, ![40960, 128]⟩ : Shape).Idx → EReal) (r : Fin 40960) (g : Fin 128) :
    accOut (M := 40960) (K := D) (N := 128) (flatR z) W Cc (ix2 r g)
      = (∑ f : Fin D, z (rHi r) (rLo r) f * W (ix2 f g)) + Cc (ix2 r g) := rfl

theorem wslice_apply {Dd : ℕ} (W : (⟨4, ![2, 3, Dd, 128]⟩ : Shape).Idx → EReal) (e k : ℕ) (he : e < 2) (hk : k < 3)
    (hs : (⟨4, ![2, 3, Dd, 128]⟩ : Shape).Slices ![e, k, 0, 0] ⟨4, ![1, 1, Dd, 128]⟩)
    (hc : (⟨4, ![1, 1, Dd, 128]⟩ : Shape).ShapeCasts ⟨2, ![Dd, 128]⟩) (f : Fin Dd) (g : Fin 128) :
    shapeCast ⟨2, ![Dd, 128]⟩ (extractStridedSlice ⟨4, ![1, 1, Dd, 128]⟩ ![e, k, 0, 0] W hs) hc (ix2 f g)
      = W (ix4 (⟨e, he⟩ : Fin 2) (⟨k, hk⟩ : Fin 3) f g) := by
  rw [shapeCast_apply _ hc (ix2 f g) (ix4 (0 : Fin 1) (0 : Fin 1) f g)]
  · refine extractStridedSlice_apply _ W hs _ _ fun a => ?_
    match a with
    | ⟨0, _⟩ => show e = e + 0; rfl
    | ⟨1, _⟩ => show k = k + 0; rfl
    | ⟨2, _⟩ => show f.val = 0 + f.val; omega
    | ⟨3, _⟩ => show g.val = 0 + g.val; omega
  · rw [Shape.rowMajor_val_four, Shape.rowMajor_val_two]
    show ((0 * 1 + 0) * Dd + f.val) * 128 + g.val = f.val * 128 + g.val
    omega

theorem bias_apply (b : (⟨1, ![128]⟩ : Shape).Idx → EReal)
    (h : (⟨1, ![128]⟩ : Shape).BroadcastsInDim ⟨2, ![40960, 128]⟩ ![1]) (r : Fin 40960) (g : Fin 128) :
    broadcastInDim ⟨2, ![40960, 128]⟩ ![1] h b (ix2 r g) = b (ix1 g) := by
  refine broadcastInDim_apply _ h b _ _ fun a => ?_
  match a with
  | ⟨0, _⟩ => rfl

def addTap {D : ℕ} (P : Fin 10240 → Fin 4 → Fin 128 → EReal) (W : Fin 2 → Fin 3 → Fin D → Fin 128 → EReal) (e : Fin 2) (k : Fin 3)
    (z : Fin 10240 → Fin 4 → Fin D → EReal) : Fin 10240 → Fin 4 → Fin 128 → EReal :=
  fun n b g => P n b g + mix W e k z n b g

theorem acc_step {D : ℕ} (z : Fin 10240 → Fin 4 → Fin D → EReal) (Wm : (⟨2, ![D, 128]⟩ : Shape).Idx → EReal)
    (W : Fin 2 → Fin 3 → Fin D → Fin 128 → EReal) (e : Fin 2) (k : Fin 3) (hW : ∀ f g, Wm (ix2 f g) = W e k f g)
    (P : Fin 10240 → Fin 4 → Fin 128 → EReal) :
    accOut (M := 40960) (K := D) (N := 128) (flatR z) Wm (flatR P) = flatR (addTap P W e k z) := by
  funext j
  obtain ⟨r, g, rfl⟩ : ∃ (r : Fin 40960) (g : Fin 128), j = ix2 r g := ⟨j 0, j 1, eq_ix2 j⟩
  show (∑ f : Fin D, z (rHi r) (rLo r) f * Wm (ix2 f g)) + P (rHi r) (rLo r) g
    = P (rHi r) (rLo r) g + ∑ f : Fin D, z (rHi r) (rLo r) f * W e k f g
  refine (add_comm _ _).trans (congrArg (P (rHi r) (rLo r) g + ·) (Finset.sum_congr rfl fun f _ => ?_))
  rw [hW]

theorem wblock_apply (W : S2x3x64x128.Idx → EReal) (e k : ℕ) (he : e < 2) (hk : k < 3)
    (hs : S2x3x64x128.Slices ![e, k, 0, 0] S1x1x64x128) (f : Fin 64) (g : Fin 128) :
    shapeCast S64x128 (extractStridedSlice S1x1x64x128 ![e, k, 0, 0] W hs) shapeCasts_S1x1x64x128_S64x128 (ix2 f g)
      = W (ix4 (⟨e, he⟩ : Fin 2) (⟨k, hk⟩ : Fin 3) f g) :=
  wslice_apply W e k he hk hs shapeCasts_S1x1x64x128_S64x128 f g

section Host
variable (Vin : Valuation τ sig (Elt Ideal))

theorem host0_2_v48 :
    (StableHlo.after hostOps0_2 Vin main_v48 : S40960x128.Idx → EReal)
      = broadcastInDim S40960x128 ![1] bcast_S128_S40960x128_1 (Vin main_arg4 : S128.Idx → EReal) := by
  after_results <;> rfl

theorem host0_2_v49 :
    (StableHlo.after hostOps0_2 Vin main_v49 : S40960x64.Idx → EReal)
      = shapeCast S40960x64 (StableHlo.after hostOps0_2 Vin main_v47 : S10240x256.Idx → EReal) shapeCasts_S10240x256_S40960x64 := by
  after_results <;> rfl

theorem host0_2_v52 :
    (StableHlo.after hostOps0_2 Vin main_v52 : S64x128.Idx → EReal)
      = shapeCast S64x128 (extractStridedSlice S1x1x64x128 ![0, 0, 0, 0] (Vin main_arg3 : S2x3x64x128.Idx → EReal) slices_S2x3x64x128_S1x1x64x128_0_0_0_0) shapeCasts_S1x1x64x128_S64x128 := by
  after_results <;> rfl
theorem host2_v55 :
    (StableHlo.after hostOps2 Vin main_v55 : S40960x64.Idx → EReal)
      = shapeCast S40960x64 (Vin main_v54 : S10240x256.Idx → EReal) shapeCasts_S10240x256_S40960x64 := by
  after_results <;> rfl
theorem host2_v58 :
    (StableHlo.after hostOps2 Vin main_v58 : S64x128.Idx → EReal)
      = shapeCast S64x128 (extractStridedSlice S1x1x64x128 ![0, 1, 0, 0] (Vin main_arg3 : S2x3x64x128.Idx → EReal) slices_S2x3x64x128_S1x1x64x128_0_1_0_0) shapeCasts_S1x1x64x128_S64x128 := by
  after_results <;> rfl
theorem host4_v61 :
    (StableHlo.after hostOps4 Vin main_v61 : S40960x64.Idx → EReal)
      = shapeCast S40960x64 (Vin main_v60 : S10240x256.Idx → EReal) shapeCasts_S10240x256_S40960x64 := by
  after_results <;> rfl
theorem host4_v64 :
    (StableHlo.after hostOps4 Vin main_v64 : S64x128.Idx → EReal)
      = shapeCast S64x128 (extractStridedSlice S1x1x64x128 ![0, 2, 0, 0] (Vin main_arg3 : S2x3x64x128.Idx → EReal) slices_S2x3x64x128_S1x1x64x128_0_2_0_0) shapeCasts_S1x1x64x128_S64x128 := by
  after_results <;> rfl
theorem host5_v66 :
    (StableHlo.after hostOps5 Vin main_v66 : S40960x64.Idx → EReal)
      = shapeCast S40960x64 (Vin main_v47 : S10240x256.Idx → EReal) shapeCasts_S10240x256_S40960x64 := by
  after_results <;> rfl
theorem host5_v69 :
    (StableHlo.after hostOps5 Vin main_v69 : S64x128.Idx → EReal)
      = shapeCast S64x128 (extractStridedSlice S1x1x64x128 ![1, 0, 0, 0] (Vin main_arg3 : S2x3x64x128.Idx → EReal) slices_S2x3x64x128_S1x1x64x128_1_0_0_0) shapeCasts_S1x1x64x128_S64x128 := by
  after_results <;> rfl
theorem host7_v72 :
    (StableHlo.after hostOps7 Vin main_v72 : S40960x64.Idx → EReal)
      = shapeCast S40960x64 (Vin main_v71 : S10240x256.Idx → EReal) shapeCasts_S10240x256_S40960x64 := by
  after_results <;> rfl
theorem host7_v75 :
    (StableHlo.after hostOps7 Vin main_v75 : S64x128.Idx → EReal)
      = shapeCast S64x128 (extractStridedSlice S1x1x64x128 ![1, 1, 0, 0] (Vin main_arg3 : S2x3x64x128.Idx → EReal) slices_S2x3x64x128_S1x1x64x128_1_1_0_0) shapeCasts_S1x1x64x128_S64x128 := by
  after_results <;> rfl
theorem host9_v78 :
    (StableHlo.after hostOps9 Vin main_v78 : S40960x64.Idx → EReal)
      = shapeCast S40960x64 (Vin main_v77 : S10240x256.Idx → EReal) shapeCasts_S10240x256_S40960x64 := by
  after_results <;> rfl
theorem host9_v81 :
    (StableHlo.after hostOps9 Vin main_v81 : S64x128.Idx → EReal)
      = shapeCast S64x128 (extractStridedSlice S1x1x64x128 ![1, 2, 0, 0] (Vin main_arg3 : S2x3x64x128.Idx → EReal) slices_S2x3x64x128_S1x1x64x128_1_2_0_0) shapeCasts_S1x1x64x128_S64x128 := by
  after_results <;> rfl

end Host

end L1

section Chain
variable (m : (ℓ : Loc nD τ sig) → Buf (Elt Ideal) ℓ) (outs : GenP.Outs (F := Ideal)) (c : Dev nD)

set_option quotPrecheck false in
local notation "aX" => (m ((c : Thread nD τ).loc main_arg0))
set_option quotPrecheck false in
local notation "aEI" => (m ((c : Thread nD τ).loc main_arg1))
set_option quotPrecheck false in
local notation "aEV" => (m ((c : Thread nD τ).loc main_arg2))
set_option quotPrecheck false in
local notation "aW" => (m ((c : Thread nD τ).loc main_arg3))
set_option quotPrecheck false in
local notation "aB" => (m ((c : Thread nD τ).loc main_arg4))
set_option quotPrecheck false in
local notation "zp" => (zpad (m ((c : Thread nD τ).loc main_arg0)))
set_option quotPrecheck false in
local notation "WW" => (fun (e : Fin 2) (k : Fin 3) (f : Fin 64) (g : Fin 128) => m ((c : Thread nD τ).loc main_arg3) (ix4 e k f g))
set_option quotPrecheck false in
local notation "P0" => (fun (_ : Fin 10240) (_ : Fin 4) (g : Fin 128) => m ((c : Thread nD τ).loc main_arg4) (ix1 g))

theorem chainL1
    (hS0 : GenP.V3 m c main_v21 = fun idx => dense (m ((c : Thread nD τ).loc main_arg1)) (m ((c : Thread nD τ).loc main_arg2)) 0 (idx 0) (idx 1))
    (hS1 : GenP.V3 m c main_v43 = fun idx => dense (m ((c : Thread nD τ).loc main_arg1)) (m ((c : Thread nD τ).loc main_arg2)) 1 (idx 0) (idx 1))
    (hz : GenP.V3 m c main_v47 = flatN (D := 64) (C := 256) rfl (by norm_num) (zpad (m ((c : Thread nD τ).loc main_arg0))))
    (h4 : outs 4 main_v53 c = accOut (M := 40960) (K := 64) (N := 128) (GenP.V3 m c main_v49) (GenP.V3 m c main_v52) (GenP.V3 m c main_v48))
    (h5 : outs 5 main_v54 c = mmOut (M := 10240) (K := 10240) (N := 256) (GenP.V4 m outs c main_v21) (GenP.V4 m outs c main_v47))
    (h7 : outs 7 main_v59 c = accOut (M := 40960) (K := 64) (N := 128) (GenP.V6 m outs c main_v55) (GenP.V6 m outs c main_v58) (GenP.V6 m outs c main_v53))
    (h8 : outs 8 main_v60 c = mmOut (M := 10240) (K := 10240) (N := 256) (GenP.V7 m outs c main_v21) (GenP.V7 m outs c main_v54))
    (h10 : outs 10 main_v65 c = accOut (M := 40960) (K := 64) (N := 128) (GenP.V9 m outs c main_v61) (GenP.V9 m outs c main_v64) (GenP.V9 m outs c main_v59))
    (h12 : outs 12 main_v70 c = accOut (M := 40960) (K := 64) (N := 128) (GenP.V11 m outs c main_v66) (GenP.V11 m outs c main_v69) (GenP.V11 m outs c main_v65))
    (h13 : outs 13 main_v71 c = mmOut (M := 10240) (K := 10240) (N := 256) (GenP.V12 m outs c main_v43) (GenP.V12 m outs c main_v47))
    (h15 : outs 15 main_v76 c = accOut (M := 40960) (K := 64) (N := 128) (GenP.V14 m outs c main_v72) (GenP.V14 m outs c main_v75) (GenP.V14 m outs c main_v70))
    (h16 : outs 16 main_v77 c = mmOut (M := 10240) (K := 10240) (N := 256) (GenP.V15 m outs c main_v43) (GenP.V15 m outs c main_v71))
    (h18 : outs 18 main_v82 c = accOut (M := 40960) (K := 64) (N := 128) (GenP.V17 m outs c main_v78) (GenP.V17 m outs c main_v81) (GenP.V17 m outs c main_v76)) :
    GenP.V18 m outs c main_v82
      = flatR (filtP (m ((c : Thread nD τ).loc main_arg1)) (m ((c : Thread nD τ).loc main_arg2))
          (fun e k f g => m ((c : Thread nD τ).loc main_arg3) (ix4 e k f g)) (fun g => m ((c : Thread nD τ).loc main_arg4) (ix1 g))
          (zpad (m ((c : Thread nD τ).loc main_arg0)))) := by

  have w2 : GenP.V2 m c main_arg3 = aW := (GenP.V2_of m c main_arg3 (by decide)).trans <| (GenP.V1_of m c main_arg3 (by decide))
  have b2 : GenP.V2 m c main_arg4 = aB := (GenP.V2_of m c main_arg4 (by decide)).trans <| (GenP.V1_of m c main_arg4 (by decide))

  have a4 : (GenP.V3 m c main_v49 : S40960x64.Idx → EReal) = flatR zp := by
    have h1 : (GenP.V3 m c main_v49 : S40960x64.Idx → EReal)
        = shapeCast S40960x64 (GenP.V3 m c main_v47 : S10240x256.Idx → EReal) shapeCasts_S10240x256_S40960x64 :=
      L1.host0_2_v49 (GenP.V2 m c)
    rw [h1, hz]
    exact L1.shapeCast_flatN rfl (by norm_num) _ _
  have c4 : (GenP.V3 m c main_v48 : S40960x128.Idx → EReal) = flatR P0 := by
    have h1 : (GenP.V3 m c main_v48 : S40960x128.Idx → EReal)
        = broadcastInDim S40960x128 ![1] bcast_S128_S40960x128_1 (GenP.V2 m c main_arg4 : S128.Idx → EReal) :=
      L1.host0_2_v48 (GenP.V2 m c)
    rw [h1, b2]
    funext j
    obtain ⟨r, g, rfl⟩ : ∃ (r : Fin 40960) (g : Fin 128), j = ix2 r g := ⟨j 0, j 1, eq_ix2 j⟩
    exact L1.bias_apply _ _ r g
  have b4 : ∀ (f : Fin 64) (g : Fin 128), (GenP.V3 m c main_v52 : S64x128.Idx → EReal) (ix2 f g) = aW (ix4 0 0 f g) := by
    intro f g
    have h1 : (GenP.V3 m c main_v52 : S64x128.Idx → EReal) = _ := L1.host0_2_v52 (GenP.V2 m c)
    rw [h1, w2]
    exact L1.wblock_apply _ 0 0 (by norm_num) (by norm_num) _ f g
  have e4 : outs 4 main_v53 c = flatR (L1.addTap P0 WW 0 0 zp) := by
    rw [h4, a4, c4]
    exact L1.acc_step _ _ WW 0 0 b4 _

  have e5 : outs 5 main_v54 c = flatN (D := 64) (C := 256) rfl (by norm_num) (dmul aEI aEV 0 zp) := by
    have s1 : GenP.V4 m outs c main_v21 = _ := (GenP.V4_of m outs c main_v21 (by decide)).trans <| hS0
    have s2 : GenP.V4 m outs c main_v47 = _ := (GenP.V4_of m outs c main_v47 (by decide)).trans <| hz
    rw [h5, s1, s2] <;> rfl

  have a7 : (GenP.V6 m outs c main_v55 : S40960x64.Idx → EReal) = flatR (dmul aEI aEV 0 zp) := by
    have h1 : (GenP.V6 m outs c main_v55 : S40960x64.Idx → EReal)
        = shapeCast S40960x64 (GenP.V5 m outs c main_v54 : S10240x256.Idx → EReal) shapeCasts_S10240x256_S40960x64 :=
      L1.host2_v55 (GenP.V5 m outs c)
    have h2 : GenP.V5 m outs c main_v54 = _ := Function.update_self _ _ _
    rw [h1, h2, e5]
    exact L1.shapeCast_flatN rfl (by norm_num) _ _
  have b7 : ∀ (f : Fin 64) (g : Fin 128), (GenP.V6 m outs c main_v58 : S64x128.Idx → EReal) (ix2 f g) = aW (ix4 0 1 f g) := by
    intro f g
    have h1 : (GenP.V6 m outs c main_v58 : S64x128.Idx → EReal) = _ := L1.host2_v58 (GenP.V5 m outs c)
    have h2 : GenP.V5 m outs c main_arg3 = aW := (GenP.V5_of m outs c main_arg3 (by decide)).trans <| (GenP.V4_of m outs c main_arg3 (by decide)).trans <| (GenP.V3_of m c main_arg3 (by decide)).trans <| (GenP.V2_of m c main_arg3 (by decide)).trans <| (GenP.V1_of m c main_arg3 (by decide))
    rw [h1, h2]
    exact L1.wblock_apply _ 0 1 (by norm_num) (by norm_num) _ f g
  have c7 : GenP.V6 m outs c main_v53 = outs 4 main_v53 c := (GenP.V6_of m outs c main_v53 (by decide)).trans <| (GenP.V5_of m outs c main_v53 (by decide)).trans <| Function.update_self _ _ _
  have e7 : outs 7 main_v59 c = flatR (L1.addTap (L1.addTap P0 WW 0 0 zp) WW 0 1 (dmul aEI aEV 0 zp)) := by
    rw [h7, a7, c7, e4]
    exact L1.acc_step _ _ WW 0 1 b7 _

  have e8 : outs 8 main_v60 c = flatN (D := 64) (C := 256) rfl (by norm_num) (dmul aEI aEV 0 (dmul aEI aEV 0 zp)) := by
    have s1 : GenP.V7 m outs c main_v21 = _ := (GenP.V7_of m outs c main_v21 (by decide)).trans <| (GenP.V6_of m outs c main_v21 (by decide)).trans <| (GenP.V5_of m outs c main_v21 (by decide)).trans <| (GenP.V4_of m outs c main_v21 (by decide)).trans <| hS0
    have s2 : GenP.V7 m outs c main_v54 = _ := (GenP.V7_of m outs c main_v54 (by decide)).trans <| (GenP.V6_of m outs c main_v54 (by decide)).trans <| (Function.update_self _ _ _ : GenP.V5 m outs c main_v54 = outs 5 main_v54 c).trans e5
    rw [h8, s1, s2] <;> rfl

  have a10 : (GenP.V9 m outs c main_v61 : S40960x64.Idx → EReal) = flatR (dmul aEI aEV 0 (dmul aEI aEV 0 zp)) := by
    have h1 : (GenP.V9 m outs c main_v61 : S40960x64.Idx → EReal)
        = shapeCast S40960x64 (GenP.V8 m outs c main_v60 : S10240x256.Idx → EReal) shapeCasts_S10240x256_S40960x64 :=
      L1.host4_v61 (GenP.V8 m outs c)
    have h2 : GenP.V8 m outs c main_v60 = _ := Function.update_self _ _ _
    rw [h1, h2, e8]
    exact L1.shapeCast_flatN rfl (by norm_num) _ _
  have b10 : ∀ (f : Fin 64) (g : Fin 128), (GenP.V9 m outs c main_v64 : S64x128.Idx → EReal) (ix2 f g) = aW (ix4 0 2 f g) := by
    intro f g
    have h1 : (GenP.V9 m outs c main_v64 : S64x128.Idx → EReal) = _ := L1.host4_v64 (GenP.V8 m outs c)
    have h2 : GenP.V8 m outs c main_arg3 = aW := (GenP.V8_of m outs c main_arg3 (by decide)).trans <| (GenP.V7_of m outs c main_arg3 (by decide)).trans <| (GenP.V6_of m outs c main_arg3 (by decide)).trans <| (GenP.V5_of m outs c main_arg3 (by decide)).trans <| (GenP.V4_of m outs c main_arg3 (by decide)).trans <| (GenP.V3_of m c main_arg3 (by decide)).trans <| (GenP.V2_of m c main_arg3 (by decide)).trans <| (GenP.V1_of m c main_arg3 (by decide))
    rw [h1, h2]
    exact L1.wblock_apply _ 0 2 (by norm_num) (by norm_num) _ f g
  have c10 : GenP.V9 m outs c main_v59 = outs 7 main_v59 c := (GenP.V9_of m outs c main_v59 (by decide)).trans <| (GenP.V8_of m outs c main_v59 (by decide)).trans <| Function.update_self _ _ _
  have e10 : outs 10 main_v65 c = flatR (L1.addTap (L1.addTap (L1.addTap P0 WW 0 0 zp) WW 0 1 (dmul aEI aEV 0 zp)) WW 0 2 (dmul aEI aEV 0 (dmul aEI aEV 0 zp))) := by
    rw [h10, a10, c10, e7]
    exact L1.acc_step _ _ WW 0 2 b10 _

  have a12 : (GenP.V11 m outs c main_v66 : S40960x64.Idx → EReal) = flatR (zp) := by
    have h1 : (GenP.V11 m outs c main_v66 : S40960x64.Idx → EReal)
        = shapeCast S40960x64 (GenP.V10 m outs c main_v47 : S10240x256.Idx → EReal) shapeCasts_S10240x256_S40960x64 :=
      L1.host5_v66 (GenP.V10 m outs c)
    have h2 : GenP.V10 m outs c main_v47 = _ := (GenP.V10_of m outs c main_v47 (by decide)).trans <| (GenP.V9_of m outs c main_v47 (by decide)).trans <| (GenP.V8_of m outs c main_v47 (by decide)).trans <| (GenP.V7_of m outs c main_v47 (by decide)).trans <| (GenP.V6_of m outs c main_v47 (by decide)).trans <| (GenP.V5_of m outs c main_v47 (by decide)).trans <| (GenP.V4_of m outs c main_v47 (by decide)).trans <| hz
    rw [h1, h2]
    exact L1.shapeCast_flatN rfl (by norm_num) _ _
  have b12 : ∀ (f : Fin 64) (g : Fin 128), (GenP.V11 m outs c main_v69 : S64x128.Idx → EReal) (ix2 f g) = aW (ix4 1 0 f g) := by
    intro f g
    have h1 : (GenP.V11 m outs c main_v69 : S64x128.Idx → EReal) = _ := L1.host5_v69 (GenP.V10 m outs c)
    have h2 : GenP.V10 m outs c main_arg3 = aW := (GenP.V10_of m outs c main_arg3 (by decide)).trans <| (GenP.V9_of m outs c main_arg3 (by decide)).trans <| (GenP.V8_of m outs c main_arg3 (by decide)).trans <| (GenP.V7_of m outs c main_arg3 (by decide)).trans <| (GenP.V6_of m outs c main_arg3 (by decide)).trans <| (GenP.V5_of m outs c main_arg3 (by decide)).trans <| (GenP.V4_of m outs c main_arg3 (by decide)).trans <| (GenP.V3_of m c main_arg3 (by decide)).trans <| (GenP.V2_of m c main_arg3 (by decide)).trans <| (GenP.V1_of m c main_arg3 (by decide))
    rw [h1, h2]
    exact L1.wblock_apply _ 1 0 (by norm_num) (by norm_num) _ f g
  have c12 : GenP.V11 m outs c main_v65 = outs 10 main_v65 c := (GenP.V11_of m outs c main_v65 (by decide)).trans <| Function.update_self _ _ _
  have e12 : outs 12 main_v70 c = flatR (L1.addTap (L1.addTap (L1.addTap (L1.addTap P0 WW 0 0 zp) WW 0 1 (dmul aEI aEV 0 zp)) WW 0 2 (dmul aEI aEV 0 (dmul aEI aEV 0 zp))) WW 1 0 zp) := by
    rw [h12, a12, c12, e10]
    exact L1.acc_step _ _ WW 1 0 b12 _

  have e13 : outs 13 main_v71 c = flatN (D := 64) (C := 256) rfl (by norm_num) (dmul aEI aEV 1 zp) := by
    have s1 : GenP.V12 m outs c main_v43 = _ := (GenP.V12_of m outs c main_v43 (by decide)).trans <| (GenP.V11_of m outs c main_v43 (by decide)).trans <| (GenP.V10_of m outs c main_v43 (by decide)).trans <| (GenP.V9_of m outs c main_v43 (by decide)).trans <| (GenP.V8_of m outs c main_v43 (by decide)).trans <| (GenP.V7_of m outs c main_v43 (by decide)).trans <| (GenP.V6_of m outs c main_v43 (by decide)).trans <| (GenP.V5_of m outs c main_v43 (by decide)).trans <| (GenP.V4_of m outs c main_v43 (by decide)).trans <| hS1
    have s2 : GenP.V12 m outs c main_v47 = _ := (GenP.V12_of m outs c main_v47 (by decide)).trans <| (GenP.V11_of m outs c main_v47 (by decide)).trans <| (GenP.V10_of m outs c main_v47 (by decide)).trans <| (GenP.V9_of m outs c main_v47 (by decide)).trans <| (GenP.V8_of m outs c main_v47 (by decide)).trans <| (GenP.V7_of m outs c main_v47 (by decide)).trans <| (GenP.V6_of m outs c main_v47 (by decide)).trans <| (GenP.V5_of m outs c main_v47 (by decide)).trans <| (GenP.V4_of m outs c main_v47 (by decide)).trans <| hz
    rw [h13, s1, s2] <;> rfl

  have a15 : (GenP.V14 m outs c main_v72 : S40960x64.Idx → EReal) = flatR (dmul aEI aEV 1 zp) := by
    have h1 : (GenP.V14 m outs c main_v72 : S40960x64.Idx → EReal)
        = shapeCast S40960x64 (GenP.V13 m outs c main_v71 : S10240x256.Idx → EReal) shapeCasts_S10240x256_S40960x64 :=
      L1.host7_v72 (GenP.V13 m outs c)
    have h2 : GenP.V13 m outs c main_v71 = _ := Function.update_self _ _ _
    rw [h1, h2, e13]
    exact L1.shapeCast_flatN rfl (by norm_num) _ _
  have b15 : ∀ (f : Fin 64) (g : Fin 128), (GenP.V14 m outs c main_v75 : S64x128.Idx → EReal) (ix2 f g) = aW (ix4 1 1 f g) := by
    intro f g
    have h1 : (GenP.V14 m outs c main_v75 : S64x128.Idx → EReal) = _ := L1.host7_v75 (GenP.V13 m outs c)
    have h2 : GenP.V13 m outs c main_arg3 = aW := (GenP.V13_of m outs c main_arg3 (by decide)).trans <| (GenP.V12_of m outs c main_arg3 (by decide)).trans <| (GenP.V11_of m outs c main_arg3 (by decide)).trans <| (GenP.V10_of m outs c main_arg3 (by decide)).trans <| (GenP.V9_of m outs c main_arg3 (by decide)).trans <| (GenP.V8_of m outs c main_arg3 (by decide)).trans <| (GenP.V7_of m outs c main_arg3 (by decide)).trans <| (GenP.V6_of m outs c main_arg3 (by decide)).trans <| (GenP.V5_of m outs c main_arg3 (by decide)).trans <| (GenP.V4_of m outs c main_arg3 (by decide)).trans <| (GenP.V3_of m c main_arg3 (by decide)).trans <| (GenP.V2_of m c main_arg3 (by decide)).trans <| (GenP.V1_of m c main_arg3 (by decide))
    rw [h1, h2]
    exact L1.wblock_apply _ 1 1 (by norm_num) (by norm_num) _ f g
  have c15 : GenP.V14 m outs c main_v70 = outs 12 main_v70 c := (GenP.V14_of m outs c main_v70 (by decide)).trans <| (GenP.V13_of m outs c main_v70 (by decide)).trans <| Function.update_self _ _ _
  have e15 : outs 15 main_v76 c = flatR (L1.addTap (L1.addTap (L1.addTap (L1.addTap (L1.addTap P0 WW 0 0 zp) WW 0 1 (dmul aEI aEV 0 zp)) WW 0 2 (dmul aEI aEV 0 (dmul aEI aEV 0 zp))) WW 1 0 zp) WW 1 1 (dmul aEI aEV 1 zp)) := by
    rw [h15, a15, c15, e12]
    exact L1.acc_step _ _ WW 1 1 b15 _

  have e16 : outs 16 main_v77 c = flatN (D := 64) (C := 256) rfl (by norm_num) (dmul aEI aEV 1 (dmul aEI aEV 1 zp)) := by
    have s1 : GenP.V15 m outs c main_v43 = _ := (GenP.V15_of m outs c main_v43 (by decide)).trans <| (GenP.V14_of m outs c main_v43 (by decide)).trans <| (GenP.V13_of m outs c main_v43 (by decide)).trans <| (GenP.V12_of m outs c main_v43 (by decide)).trans <| (GenP.V11_of m outs c main_v43 (by decide)).trans <| (GenP.V10_of m outs c main_v43 (by decide)).trans <| (GenP.V9_of m outs c main_v43 (by decide)).trans <| (GenP.V8_of m outs c main_v43 (by decide)).trans <| (GenP.V7_of m outs c main_v43 (by decide)).trans <| (GenP.V6_of m outs c main_v43 (by decide)).trans <| (GenP.V5_of m outs c main_v43 (by decide)).trans <| (GenP.V4_of m outs c main_v43 (by decide)).trans <| hS1
    have s2 : GenP.V15 m outs c main_v71 = _ := (GenP.V15_of m outs c main_v71 (by decide)).trans <| (GenP.V14_of m outs c main_v71 (by decide)).trans <| (Function.update_self _ _ _ : GenP.V13 m outs c main_v71 = outs 13 main_v71 c).trans e13
    rw [h16, s1, s2] <;> rfl

  have a18 : (GenP.V17 m outs c main_v78 : S40960x64.Idx → EReal) = flatR (dmul aEI aEV 1 (dmul aEI aEV 1 zp)) := by
    have h1 : (GenP.V17 m outs c main_v78 : S40960x64.Idx → EReal)
        = shapeCast S40960x64 (GenP.V16 m outs c main_v77 : S10240x256.Idx → EReal) shapeCasts_S10240x256_S40960x64 :=
      L1.host9_v78 (GenP.V16 m outs c)
    have h2 : GenP.V16 m outs c main_v77 = _ := Function.update_self _ _ _
    rw [h1, h2, e16]
    exact L1.shapeCast_flatN rfl (by norm_num) _ _
  have b18 : ∀ (f : Fin 64) (g : Fin 128), (GenP.V17 m outs c main_v81 : S64x128.Idx → EReal) (ix2 f g) = aW (ix4 1 2 f g) := by
    intro f g
    have h1 : (GenP.V17 m outs c main_v81 : S64x128.Idx → EReal) = _ := L1.host9_v81 (GenP.V16 m outs c)
    have h2 : GenP.V16 m outs c main_arg3 = aW := (GenP.V16_of m outs c main_arg3 (by decide)).trans <| (GenP.V15_of m outs c main_arg3 (by decide)).trans <| (GenP.V14_of m outs c main_arg3 (by decide)).trans <| (GenP.V13_of m outs c main_arg3 (by decide)).trans <| (GenP.V12_of m outs c main_arg3 (by decide)).trans <| (GenP.V11_of m outs c main_arg3 (by decide)).trans <| (GenP.V10_of m outs c main_arg3 (by decide)).trans <| (GenP.V9_of m outs c main_arg3 (by decide)).trans <| (GenP.V8_of m outs c main_arg3 (by decide)).trans <| (GenP.V7_of m outs c main_arg3 (by decide)).trans <| (GenP.V6_of m outs c main_arg3 (by decide)).trans <| (GenP.V5_of m outs c main_arg3 (by decide)).trans <| (GenP.V4_of m outs c main_arg3 (by decide)).trans <| (GenP.V3_of m c main_arg3 (by decide)).trans <| (GenP.V2_of m c main_arg3 (by decide)).trans <| (GenP.V1_of m c main_arg3 (by decide))
    rw [h1, h2]
    exact L1.wblock_apply _ 1 2 (by norm_num) (by norm_num) _ f g
  have c18 : GenP.V17 m outs c main_v76 = outs 15 main_v76 c := (GenP.V17_of m outs c main_v76 (by decide)).trans <| (GenP.V16_of m outs c main_v76 (by decide)).trans <| Function.update_self _ _ _
  have e18 : outs 18 main_v82 c = flatR (L1.addTap (L1.addTap (L1.addTap (L1.addTap (L1.addTap (L1.addTap P0 WW 0 0 zp) WW 0 1 (dmul aEI aEV 0 zp)) WW 0 2 (dmul aEI aEV 0 (dmul aEI aEV 0 zp))) WW 1 0 zp) WW 1 1 (dmul aEI aEV 1 zp)) WW 1 2 (dmul aEI aEV 1 (dmul aEI aEV 1 zp))) := by
    rw [h18, a18, c18, e15]
    exact L1.acc_step _ _ WW 1 2 b18 _
  exact (Function.update_self _ _ _ : GenP.V18 m outs c main_v82 = outs 18 main_v82 c).trans (e18.trans rfl)

end Chain

end Cert.KernelIdeal.Hand

end
-- ==== Proof.KI.ChainL2.lean ====
import proofs.«414074_j90701119357381_1_alg».proof.Proof.RegionsKernelIdeal
import proofs.«414074_j90701119357381_1_alg».proof.Proof.Ops
import proofs.«414074_j90701119357381_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.KernelIdeal.GenP Cert.Spec
open Idealize.ShloMosaic Idealize.ShloMosaic.TcCoe Idealize.ShloMosaic.ValueIdx Idealize.SL.Sem

namespace L2

theorem mmOut_flatN {D C : ℕ} (hC : C = 4 * D) (hD : 0 < D) (S : (⟨2, ![10240, 10240]⟩ : Shape).Idx → EReal)
    (z : Fin 10240 → Fin 4 → Fin D → EReal) :
    mmOut (M := 10240) (K := 10240) (N := C) S (flatN hC hD z)
      = flatN hC hD (fun r b f => ∑ c : Fin 10240, S (ix2 r c) * z c b f) := rfl

theorem mmOut_dense {D C : ℕ} (hC : C = 4 * D) (hD : 0 < D) (ei : SEI.Idx → BitVec 32) (ev : SEV.Idx → EReal) (e : Fin 2)
    (z : Fin 10240 → Fin 4 → Fin D → EReal) :
    mmOut (M := 10240) (K := 10240) (N := C) (fun idx => dense ei ev e (idx 0) (idx 1)) (flatN hC hD z)
      = flatN hC hD (dmul ei ev e z) := rfl

theorem cast_flatN_flatR (z : Fin 10240 → Fin 4 → Fin 128 → EReal)
    (hc : (⟨2, ![10240, 512]⟩ : Shape).ShapeCasts ⟨2, ![40960, 128]⟩) :
    shapeCast (⟨2, ![40960, 128]⟩ : Shape) (flatN (D := 128) (C := 512) rfl (by norm_num) z) hc = flatR z := by
  funext j
  obtain ⟨r, f, rfl⟩ : ∃ (r : Fin 40960) (f : Fin 128), j = ix2 r f := ⟨j 0, j 1, eq_ix2 j⟩
  have hq : (rLo r).val * 128 + f.val < 512 := by
    have h1 : (rLo r).val < 4 := (rLo r).isLt
    have h2 := f.isLt
    omega
  refine (shapeCast_apply _ hc (ix2 r f) (ix2 (rHi r) (⟨(rLo r).val * 128 + f.val, hq⟩ : Fin 512)) ?_).trans ?_
  · rw [Shape.rowMajor_val_two, Shape.rowMajor_val_two]
    show r.val / 4 * 512 + (r.val % 4 * 128 + f.val) = r.val * 128 + f.val
    omega
  · exact flatN_apply rfl (by norm_num) z (rHi r) (rLo r) f _ rfl

theorem cast_flatR_node (z : Fin 10240 → Fin 4 → Fin 128 → EReal)
    (hc : (⟨2, ![40960, 128]⟩ : Shape).ShapeCasts ⟨3, ![10240, 4, 128]⟩) :
    shapeCast (⟨3, ![10240, 4, 128]⟩ : Shape) (flatR z) hc = fun idx => z (idx 0) (idx 1) (idx 2) := by
  funext j
  obtain ⟨n, b, f, rfl⟩ : ∃ (n : Fin 10240) (b : Fin 4) (f : Fin 128), j = ix3 n b f := ⟨j 0, j 1, j 2, eq_ix3 j⟩
  have hr : n.val * 4 + b.val < 40960 := by
    have h1 := n.isLt
    have h2 := b.isLt
    omega
  refine (shapeCast_apply _ hc (ix3 n b f) (ix2 (⟨n.val * 4 + b.val, hr⟩ : Fin 40960) f) ?_).trans ?_
  · rw [Shape.rowMajor_val_two, Shape.rowMajor_val_three]
    show (n.val * 4 + b.val) * 128 + f.val = (n.val * 4 + b.val) * 128 + f.val
    rfl
  · exact flatR_apply z n b f _ rfl

theorem cast_node_flatN (X : (⟨3, ![10240, 4, 128]⟩ : Shape).Idx → EReal)
    (hc : (⟨3, ![10240, 4, 128]⟩ : Shape).ShapeCasts ⟨2, ![10240, 512]⟩) :
    shapeCast (⟨2, ![10240, 512]⟩ : Shape) X hc = flatN (D := 128) (C := 512) rfl (by norm_num) (fun n b f => X (ix3 n b f)) := by
  funext j
  obtain ⟨n, q, rfl⟩ : ∃ (n : Fin 10240) (q : Fin 512), j = ix2 n q := ⟨j 0, j 1, eq_ix2 j⟩
  refine (shapeCast_apply _ hc (ix2 n q) (ix3 n (qHi (D := 128) (C := 512) rfl q) (qLo (D := 128) (by norm_num) q)) ?_).trans ?_
  · rw [Shape.rowMajor_val_three, Shape.rowMajor_val_two]
    show (n.val * 4 + q.val / 128) * 128 + q.val % 128 = n.val * 512 + q.val
    omega
  · rfl

theorem accOut_flatR (z : Fin 10240 → Fin 4 → Fin 128 → EReal) (Wt : (⟨2, ![128, 128]⟩ : Shape).Idx → EReal)
    (C : (⟨2, ![40960, 128]⟩ : Shape).Idx → EReal) (r : Fin 40960) (g : Fin 128) :
    accOut (M := 40960) (K := 128) (N := 128) (flatR z) Wt C (ix2 r g)
      = (∑ f : Fin 128, z (rHi r) (rLo r) f * Wt (ix2 f g)) + C (ix2 r g) := rfl

theorem wtap_apply (W : (⟨4, ![2, 3, 128, 128]⟩ : Shape).Idx → EReal) (e : Fin 2) (k : Fin 3) (off : Fin 4 → ℕ)
    (h0 : off 0 = e.val) (h1 : off 1 = k.val) (h2 : off 2 = 0) (h3 : off 3 = 0)
    (hs : (⟨4, ![2, 3, 128, 128]⟩ : Shape).Slices off ⟨4, ![1, 1, 128, 128]⟩)
    (hc : (⟨4, ![1, 1, 128, 128]⟩ : Shape).ShapeCasts ⟨2, ![128, 128]⟩) (f g : Fin 128) :
    shapeCast (⟨2, ![128, 128]⟩ : Shape) (extractStridedSlice (⟨4, ![1, 1, 128, 128]⟩ : Shape) off W hs) hc (ix2 f g)
      = W (ix4 e k f g) := by
  refine (shapeCast_apply _ hc (ix2 f g) (ix4 (0 : Fin 1) (0 : Fin 1) f g) ?_).trans ?_
  · rw [Shape.rowMajor_val_four, Shape.rowMajor_val_two]
    show ((0 * 1 + 0) * 128 + f.val) * 128 + g.val = f.val * 128 + g.val
    omega
  · refine extractStridedSlice_apply off W hs _ (ix4 e k f g) fun (a : Fin 4) => ?_
    fin_cases a
    · show e.val = off 0 + 0
      omega
    · show k.val = off 1 + 0
      omega
    · show f.val = off 2 + f.val
      omega
    · show g.val = off 3 + g.val
      omega

theorem bias_apply (b : (⟨1, ![128]⟩ : Shape).Idx → EReal) (dims : Fin 1 → Fin 2) (hd : dims 0 = 1)
    (hb : (⟨1, ![128]⟩ : Shape).BroadcastsInDim ⟨2, ![40960, 128]⟩ dims) (r : Fin 40960) (g : Fin 128) :
    broadcastInDim (⟨2, ![40960, 128]⟩ : Shape) dims hb b (ix2 r g) = b (ix1 g) := by
  refine broadcastInDim_apply dims hb b (ix2 r g) (ix1 g) fun (a : Fin 1) => ?_
  fin_cases a
  show g.val = if (128 : ℕ) = 1 then 0 else (ix2 r g (dims 0)).val
  rw [if_neg (by norm_num), hd]

theorem acc_step (z acc : Fin 10240 → Fin 4 → Fin 128 → EReal) (Wt : (⟨2, ![128, 128]⟩ : Shape).Idx → EReal)
    (W : Fin 2 → Fin 3 → Fin 128 → Fin 128 → EReal) (e : Fin 2) (k : Fin 3)
    (hW : ∀ f g : Fin 128, Wt (ix2 f g) = W e k f g) :
    accOut (M := 40960) (K := 128) (N := 128) (flatR z) Wt (flatR acc)
      = flatR (fun n b g => acc n b g + mix W e k z n b g) := by
  funext j
  obtain ⟨r, g, rfl⟩ : ∃ (r : Fin 40960) (g : Fin 128), j = ix2 r g := ⟨j 0, j 1, eq_ix2 j⟩
  rw [accOut_flatR]
  show (∑ f : Fin 128, z (rHi r) (rLo r) f * Wt (ix2 f g)) + acc (rHi r) (rLo r) g
    = acc (rHi r) (rLo r) g + ∑ f : Fin 128, z (rHi r) (rLo r) f * W e k f g
  rw [add_comm]
  exact congrArg _ (Finset.sum_congr rfl fun f _ => by rw [hW])

macro "l2_frame_step" : tactic => `(tactic| with_reducible (first
  | refine (GenP.V35_of _ _ _ _ (by decide)).trans ?_
  | refine (GenP.V34_of _ _ _ _ (by decide)).trans ?_
  | refine (GenP.V33_of _ _ _ _ (by decide)).trans ?_
  | refine (GenP.V32_of _ _ _ _ (by decide)).trans ?_
  | refine (GenP.V31_of _ _ _ _ (by decide)).trans ?_
  | refine (GenP.V30_of _ _ _ _ (by decide)).trans ?_
  | refine (GenP.V29_of _ _ _ _ (by decide)).trans ?_
  | refine (GenP.V28_of _ _ _ _ (by decide)).trans ?_
  | refine (GenP.V27_of _ _ _ _ (by decide)).trans ?_
  | refine (GenP.V26_of _ _ _ _ (by decide)).trans ?_
  | refine (GenP.V25_of _ _ _ _ (by decide)).trans ?_
  | refine (GenP.V24_of _ _ _ _ (by decide)).trans ?_
  | refine (GenP.V23_of _ _ _ _ (by decide)).trans ?_
  | refine (GenP.V22_of _ _ _ _ (by decide)).trans ?_
  | refine (GenP.V21_of _ _ _ _ (by decide)).trans ?_
  | refine (GenP.V20_of _ _ _ _ (by decide)).trans ?_
  | refine (GenP.V19_of _ _ _ _ (by decide)).trans ?_
  | refine (GenP.V18_of _ _ _ _ (by decide)).trans ?_
  | refine (GenP.V17_of _ _ _ _ (by decide)).trans ?_
  | refine (GenP.V16_of _ _ _ _ (by decide)).trans ?_
  | refine (GenP.V15_of _ _ _ _ (by decide)).trans ?_
  | refine (GenP.V14_of _ _ _ _ (by decide)).trans ?_
  | refine (GenP.V13_of _ _ _ _ (by decide)).trans ?_
  | refine (GenP.V12_of _ _ _ _ (by decide)).trans ?_
  | refine (GenP.V11_of _ _ _ _ (by decide)).trans ?_
  | refine (GenP.V10_of _ _ _ _ (by decide)).trans ?_
  | refine (GenP.V9_of _ _ _ _ (by decide)).trans ?_
  | refine (GenP.V8_of _ _ _ _ (by decide)).trans ?_
  | refine (GenP.V7_of _ _ _ _ (by decide)).trans ?_
  | refine (GenP.V6_of _ _ _ _ (by decide)).trans ?_
  | refine (GenP.V5_of _ _ _ _ (by decide)).trans ?_
  | refine (GenP.V4_of _ _ _ _ (by decide)).trans ?_
  | refine (GenP.V3_of _ _ _ (by decide)).trans ?_
  | refine (GenP.V2_of _ _ _ (by decide)).trans ?_
  | refine (GenP.V1_of _ _ _ (by decide)).trans ?_))

macro "l2_frame_chain" : tactic => `(tactic| repeat (first | (with_reducible exact rfl) | l2_frame_step))

section Chain

variable (m : (ℓ : Loc nD τ sig) → Buf (Elt Ideal) ℓ) (outs : GenP.Outs (F := Ideal)) (c : Dev nD)

theorem arg5_18 : GenP.V18 m outs c main_arg5 = m ((c : Thread nD τ).loc main_arg5) := by
  refine Eq.trans (b := GenP.V0 m c main_arg5) ?_ rfl
  l2_frame_chain
theorem arg6_18 : GenP.V18 m outs c main_arg6 = m ((c : Thread nD τ).loc main_arg6) := by
  refine Eq.trans (b := GenP.V0 m c main_arg6) ?_ rfl
  l2_frame_chain
theorem arg5_21 : GenP.V21 m outs c main_arg5 = m ((c : Thread nD τ).loc main_arg5) := by
  refine Eq.trans (b := GenP.V18 m outs c main_arg5) ?_ (arg5_18 m outs c)
  l2_frame_chain
theorem arg5_24 : GenP.V24 m outs c main_arg5 = m ((c : Thread nD τ).loc main_arg5) := by
  refine Eq.trans (b := GenP.V21 m outs c main_arg5) ?_ (arg5_21 m outs c)
  l2_frame_chain
theorem arg5_26 : GenP.V26 m outs c main_arg5 = m ((c : Thread nD τ).loc main_arg5) := by
  refine Eq.trans (b := GenP.V24 m outs c main_arg5) ?_ (arg5_24 m outs c)
  l2_frame_chain
theorem arg5_29 : GenP.V29 m outs c main_arg5 = m ((c : Thread nD τ).loc main_arg5) := by
  refine Eq.trans (b := GenP.V26 m outs c main_arg5) ?_ (arg5_26 m outs c)
  l2_frame_chain
theorem arg5_32 : GenP.V32 m outs c main_arg5 = m ((c : Thread nD τ).loc main_arg5) := by
  refine Eq.trans (b := GenP.V29 m outs c main_arg5) ?_ (arg5_29 m outs c)
  l2_frame_chain

theorem f20_v21 : GenP.V20 m outs c main_v21 = GenP.V3 m c main_v21 := by l2_frame_chain
theorem f23_v21 : GenP.V23 m outs c main_v21 = GenP.V3 m c main_v21 := by
  refine Eq.trans (b := GenP.V20 m outs c main_v21) ?_ (f20_v21 m outs c)
  l2_frame_chain
theorem f28_v43 : GenP.V28 m outs c main_v43 = GenP.V3 m c main_v43 := by l2_frame_chain
theorem f31_v43 : GenP.V31 m outs c main_v43 = GenP.V3 m c main_v43 := by
  refine Eq.trans (b := GenP.V28 m outs c main_v43) ?_ (f28_v43 m outs c)
  l2_frame_chain
theorem f20_v85 : GenP.V20 m outs c main_v85 = GenP.V19 m outs c main_v85 := by l2_frame_chain
theorem f26_v85 : GenP.V26 m outs c main_v85 = GenP.V19 m outs c main_v85 := by l2_frame_chain
theorem f28_v85 : GenP.V28 m outs c main_v85 = GenP.V19 m outs c main_v85 := by l2_frame_chain

theorem upd20 : GenP.V20 m outs c main_v91 = outs 20 main_v91 c := Function.update_self _ _ _
theorem upd21 : GenP.V21 m outs c main_v92 = outs 21 main_v92 c := Function.update_self _ _ _
theorem upd23 : GenP.V23 m outs c main_v97 = outs 23 main_v97 c := Function.update_self _ _ _
theorem upd24 : GenP.V24 m outs c main_v98 = outs 24 main_v98 c := Function.update_self _ _ _
theorem upd26 : GenP.V26 m outs c main_v103 = outs 26 main_v103 c := Function.update_self _ _ _
theorem upd28 : GenP.V28 m outs c main_v108 = outs 28 main_v108 c := Function.update_self _ _ _
theorem upd29 : GenP.V29 m outs c main_v109 = outs 29 main_v109 c := Function.update_self _ _ _
theorem upd31 : GenP.V31 m outs c main_v114 = outs 31 main_v114 c := Function.update_self _ _ _
theorem upd32 : GenP.V32 m outs c main_v115 = outs 32 main_v115 c := Function.update_self _ _ _
theorem upd34 : GenP.V34 m outs c main_v120 = outs 34 main_v120 c := Function.update_self _ _ _

theorem f22_v91 : GenP.V22 m outs c main_v91 = outs 20 main_v91 c := by
  refine Eq.trans (b := GenP.V20 m outs c main_v91) ?_ (upd20 m outs c)
  l2_frame_chain
theorem f23_v92 : GenP.V23 m outs c main_v92 = outs 21 main_v92 c := by
  refine Eq.trans (b := GenP.V21 m outs c main_v92) ?_ (upd21 m outs c)
  l2_frame_chain
theorem f25_v97 : GenP.V25 m outs c main_v97 = outs 23 main_v97 c := by
  refine Eq.trans (b := GenP.V23 m outs c main_v97) ?_ (upd23 m outs c)
  l2_frame_chain
theorem f27_v103 : GenP.V27 m outs c main_v103 = outs 26 main_v103 c := by
  refine Eq.trans (b := GenP.V26 m outs c main_v103) ?_ (upd26 m outs c)
  l2_frame_chain
theorem f30_v108 : GenP.V30 m outs c main_v108 = outs 28 main_v108 c := by
  refine Eq.trans (b := GenP.V28 m outs c main_v108) ?_ (upd28 m outs c)
  l2_frame_chain
theorem f31_v109 : GenP.V31 m outs c main_v109 = outs 29 main_v109 c := by
  refine Eq.trans (b := GenP.V29 m outs c main_v109) ?_ (upd29 m outs c)
  l2_frame_chain
theorem f33_v114 : GenP.V33 m outs c main_v114 = outs 31 main_v114 c := by
  refine Eq.trans (b := GenP.V31 m outs c main_v114) ?_ (upd31 m outs c)
  l2_frame_chain

theorem s10_v85 (h : Fin 10240 → Fin 4 → Fin 128 → EReal) (hL1 : GenP.V18 m outs c main_v82 = flatR h) :
    GenP.V19 m outs c main_v85 = flatN (D := 128) (C := 512) rfl (by norm_num) h := by
  have e : (GenP.V19 m outs c main_v85 : S10240x512.Idx → EReal)
      = shapeCast S10240x512 (shapeCast S10240x4x128 (GenP.V18 m outs c main_v82 : S40960x128.Idx → EReal)
          shapeCasts_S40960x128_S10240x4x128) shapeCasts_S10240x4x128_S10240x512 := by
    dsimp only [GenP.V19]
    after_results
    rfl
  rw [e, hL1, cast_flatR_node, cast_node_flatN]

theorem s10_v87 (h : Fin 10240 → Fin 4 → Fin 128 → EReal) (hL1 : GenP.V18 m outs c main_v82 = flatR h) :
    GenP.V19 m outs c main_v87 = flatR h := by
  have e : (GenP.V19 m outs c main_v87 : S40960x128.Idx → EReal)
      = shapeCast S40960x128 (shapeCast S10240x512 (shapeCast S10240x4x128 (GenP.V18 m outs c main_v82 : S40960x128.Idx → EReal)
          shapeCasts_S40960x128_S10240x4x128) shapeCasts_S10240x4x128_S10240x512) shapeCasts_S10240x512_S40960x128 := by
    dsimp only [GenP.V19]
    after_results
    rfl
  rw [e, hL1, cast_flatR_node, cast_node_flatN]
  exact cast_flatN_flatR h _

theorem s10_v86 :
    GenP.V19 m outs c main_v86
      = flatR (fun (_ : Fin 10240) (_ : Fin 4) (g : Fin 128) => (m ((c : Thread nD τ).loc main_arg6) : S128.Idx → EReal) (ix1 g)) := by
  have e : (GenP.V19 m outs c main_v86 : S40960x128.Idx → EReal)
      = broadcastInDim S40960x128 ![1] bcast_S128_S40960x128_1 (GenP.V18 m outs c main_arg6 : S128.Idx → EReal) := by
    dsimp only [GenP.V19]
    after_results
  rw [e, arg6_18 m outs c]
  funext j
  obtain ⟨r, g, rfl⟩ : ∃ (r : Fin 40960) (g : Fin 128), j = ix2 r g := ⟨j 0, j 1, eq_ix2 j⟩
  exact bias_apply _ _ rfl _ r g

theorem w10 (f g : Fin 128) :
    (GenP.V19 m outs c main_v90 : S128x128.Idx → EReal) (ix2 f g)
      = (m ((c : Thread nD τ).loc main_arg5) : S2x3x128x128.Idx → EReal) (ix4 0 0 f g) := by
  have e : (GenP.V19 m outs c main_v90 : S128x128.Idx → EReal)
      = shapeCast S128x128 (extractStridedSlice S1x1x128x128 ![0, 0, 0, 0] (GenP.V18 m outs c main_arg5 : S2x3x128x128.Idx → EReal)
          slices_S2x3x128x128_S1x1x128x128_0_0_0_0) shapeCasts_S1x1x128x128_S128x128 := by
    dsimp only [GenP.V19]
    after_results
    rfl
  rw [e, arg5_18 m outs c]
  exact wtap_apply _ 0 0 _ rfl rfl rfl rfl _ _ f g

theorem rows12 (z : Fin 10240 → Fin 4 → Fin 128 → EReal)
    (hz : GenP.V21 m outs c main_v92 = flatN (D := 128) (C := 512) rfl (by norm_num) z) :
    GenP.V22 m outs c main_v93 = flatR z := by
  have e : (GenP.V22 m outs c main_v93 : S40960x128.Idx → EReal)
      = shapeCast S40960x128 (GenP.V21 m outs c main_v92 : S10240x512.Idx → EReal) shapeCasts_S10240x512_S40960x128 := by
    dsimp only [GenP.V22]
    after_results
    rfl
  rw [e, hz]
  exact cast_flatN_flatR z _

theorem w12 (f g : Fin 128) :
    (GenP.V22 m outs c main_v96 : S128x128.Idx → EReal) (ix2 f g)
      = (m ((c : Thread nD τ).loc main_arg5) : S2x3x128x128.Idx → EReal) (ix4 0 1 f g) := by
  have e : (GenP.V22 m outs c main_v96 : S128x128.Idx → EReal)
      = shapeCast S128x128 (extractStridedSlice S1x1x128x128 ![0, 1, 0, 0] (GenP.V21 m outs c main_arg5 : S2x3x128x128.Idx → EReal)
          slices_S2x3x128x128_S1x1x128x128_0_1_0_0) shapeCasts_S1x1x128x128_S128x128 := by
    dsimp only [GenP.V22]
    after_results
    rfl
  rw [e, arg5_21 m outs c]
  exact wtap_apply _ 0 1 _ rfl rfl rfl rfl _ _ f g

theorem rows14 (z : Fin 10240 → Fin 4 → Fin 128 → EReal)
    (hz : GenP.V24 m outs c main_v98 = flatN (D := 128) (C := 512) rfl (by norm_num) z) :
    GenP.V25 m outs c main_v99 = flatR z := by
  have e : (GenP.V25 m outs c main_v99 : S40960x128.Idx → EReal)
      = shapeCast S40960x128 (GenP.V24 m outs c main_v98 : S10240x512.Idx → EReal) shapeCasts_S10240x512_S40960x128 := by
    dsimp only [GenP.V25]
    after_results
    rfl
  rw [e, hz]
  exact cast_flatN_flatR z _

theorem w14 (f g : Fin 128) :
    (GenP.V25 m outs c main_v102 : S128x128.Idx → EReal) (ix2 f g)
      = (m ((c : Thread nD τ).loc main_arg5) : S2x3x128x128.Idx → EReal) (ix4 0 2 f g) := by
  have e : (GenP.V25 m outs c main_v102 : S128x128.Idx → EReal)
      = shapeCast S128x128 (extractStridedSlice S1x1x128x128 ![0, 2, 0, 0] (GenP.V24 m outs c main_arg5 : S2x3x128x128.Idx → EReal)
          slices_S2x3x128x128_S1x1x128x128_0_2_0_0) shapeCasts_S1x1x128x128_S128x128 := by
    dsimp only [GenP.V25]
    after_results
    rfl
  rw [e, arg5_24 m outs c]
  exact wtap_apply _ 0 2 _ rfl rfl rfl rfl _ _ f g

theorem rows15 (z : Fin 10240 → Fin 4 → Fin 128 → EReal)
    (hz : GenP.V26 m outs c main_v85 = flatN (D := 128) (C := 512) rfl (by norm_num) z) :
    GenP.V27 m outs c main_v104 = flatR z := by
  have e : (GenP.V27 m outs c main_v104 : S40960x128.Idx → EReal)
      = shapeCast S40960x128 (GenP.V26 m outs c main_v85 : S10240x512.Idx → EReal) shapeCasts_S10240x512_S40960x128 := by
    dsimp only [GenP.V27]
    after_results
    rfl
  rw [e, hz]
  exact cast_flatN_flatR z _

theorem w15 (f g : Fin 128) :
    (GenP.V27 m outs c main_v107 : S128x128.Idx → EReal) (ix2 f g)
      = (m ((c : Thread nD τ).loc main_arg5) : S2x3x128x128.Idx → EReal) (ix4 1 0 f g) := by
  have e : (GenP.V27 m outs c main_v107 : S128x128.Idx → EReal)
      = shapeCast S128x128 (extractStridedSlice S1x1x128x128 ![1, 0, 0, 0] (GenP.V26 m outs c main_arg5 : S2x3x128x128.Idx → EReal)
          slices_S2x3x128x128_S1x1x128x128_1_0_0_0) shapeCasts_S1x1x128x128_S128x128 := by
    dsimp only [GenP.V27]
    after_results
    rfl
  rw [e, arg5_26 m outs c]
  exact wtap_apply _ 1 0 _ rfl rfl rfl rfl _ _ f g

theorem rows17 (z : Fin 10240 → Fin 4 → Fin 128 → EReal)
    (hz : GenP.V29 m outs c main_v109 = flatN (D := 128) (C := 512) rfl (by norm_num) z) :
    GenP.V30 m outs c main_v110 = flatR z := by
  have e : (GenP.V30 m outs c main_v110 : S40960x128.Idx → EReal)
      = shapeCast S40960x128 (GenP.V29 m outs c main_v109 : S10240x512.Idx → EReal) shapeCasts_S10240x512_S40960x128 := by
    dsimp only [GenP.V30]
    after_results
    rfl
  rw [e, hz]
  exact cast_flatN_flatR z _

theorem w17 (f g : Fin 128) :
    (GenP.V30 m outs c main_v113 : S128x128.Idx → EReal) (ix2 f g)
      = (m ((c : Thread nD τ).loc main_arg5) : S2x3x128x128.Idx → EReal) (ix4 1 1 f g) := by
  have e : (GenP.V30 m outs c main_v113 : S128x128.Idx → EReal)
      = shapeCast S128x128 (extractStridedSlice S1x1x128x128 ![1, 1, 0, 0] (GenP.V29 m outs c main_arg5 : S2x3x128x128.Idx → EReal)
          slices_S2x3x128x128_S1x1x128x128_1_1_0_0) shapeCasts_S1x1x128x128_S128x128 := by
    dsimp only [GenP.V30]
    after_results
    rfl
  rw [e, arg5_29 m outs c]
  exact wtap_apply _ 1 1 _ rfl rfl rfl rfl _ _ f g

theorem rows19 (z : Fin 10240 → Fin 4 → Fin 128 → EReal)
    (hz : GenP.V32 m outs c main_v115 = flatN (D := 128) (C := 512) rfl (by norm_num) z) :
    GenP.V33 m outs c main_v116 = flatR z := by
  have e : (GenP.V33 m outs c main_v116 : S40960x128.Idx → EReal)
      = shapeCast S40960x128 (GenP.V32 m outs c main_v115 : S10240x512.Idx → EReal) shapeCasts_S10240x512_S40960x128 := by
    dsimp only [GenP.V33]
    after_results
    rfl
  rw [e, hz]
  exact cast_flatN_flatR z _

theorem w19 (f g : Fin 128) :
    (GenP.V33 m outs c main_v119 : S128x128.Idx → EReal) (ix2 f g)
      = (m ((c : Thread nD τ).loc main_arg5) : S2x3x128x128.Idx → EReal) (ix4 1 2 f g) := by
  have e : (GenP.V33 m outs c main_v119 : S128x128.Idx → EReal)
      = shapeCast S128x128 (extractStridedSlice S1x1x128x128 ![1, 2, 0, 0] (GenP.V32 m outs c main_arg5 : S2x3x128x128.Idx → EReal)
          slices_S2x3x128x128_S1x1x128x128_1_2_0_0) shapeCasts_S1x1x128x128_S128x128 := by
    dsimp only [GenP.V33]
    after_results
    rfl
  rw [e, arg5_32 m outs c]
  exact wtap_apply _ 1 2 _ rfl rfl rfl rfl _ _ f g

theorem tail20 (z : Fin 10240 → Fin 4 → Fin 128 → EReal) (hz : GenP.V34 m outs c main_v120 = flatR z) :
    GenP.V35 m outs c main_v123 = fun (i : S4x128.Idx) => z ⟨0, by norm_num⟩ (i 0) (i 1) := by
  have e : (GenP.V35 m outs c main_v123 : S4x128.Idx → EReal)
      = shapeCast S4x128 (extractStridedSlice S1x4x128 ![0, 0, 0] (shapeCast S10240x4x128 (GenP.V34 m outs c main_v120 : S40960x128.Idx → EReal)
          shapeCasts_S40960x128_S10240x4x128) slices_S10240x4x128_S1x4x128_0_0_0) shapeCasts_S1x4x128_S4x128 := by
    dsimp only [GenP.V35]
    after_results
    rfl
  rw [e, hz, cast_flatR_node]
  funext j
  obtain ⟨b, g, rfl⟩ : ∃ (b : Fin 4) (g : Fin 128), j = ix2 b g := ⟨j 0, j 1, eq_ix2 j⟩
  refine (shapeCast_apply _ _ (ix2 b g) (ix3 (0 : Fin 1) b g) ?_).trans ?_
  · rw [Shape.rowMajor_val_three, Shape.rowMajor_val_two]
    show (0 * 4 + b.val) * 128 + g.val = b.val * 128 + g.val
    omega
  · refine (extractStridedSlice_apply _ _ _ (ix3 (0 : Fin 1) b g) (ix3 (⟨0, by norm_num⟩ : Fin 10240) b g) fun (a : Fin 3) => ?_).trans rfl
    fin_cases a
    · show 0 = 0 + 0
      rfl
    · show b.val = 0 + b.val
      omega
    · show g.val = 0 + g.val
      omega

def accP (acc : Fin 10240 → Fin 4 → Fin 128 → EReal) (W : Fin 2 → Fin 3 → Fin 128 → Fin 128 → EReal) (e : Fin 2) (k : Fin 3)
    (z : Fin 10240 → Fin 4 → Fin 128 → EReal) : Fin 10240 → Fin 4 → Fin 128 → EReal :=
  fun n b g => acc n b g + mix W e k z n b g

def P1 (W : Fin 2 → Fin 3 → Fin 128 → Fin 128 → EReal) (bias : Fin 128 → EReal) (z : Fin 10240 → Fin 4 → Fin 128 → EReal) :=
  accP (fun _ _ g => bias g) W 0 0 z
def P2 (ei : SEI.Idx → BitVec 32) (ev : SEV.Idx → EReal) (W : Fin 2 → Fin 3 → Fin 128 → Fin 128 → EReal) (bias : Fin 128 → EReal)
    (z : Fin 10240 → Fin 4 → Fin 128 → EReal) := accP (P1 W bias z) W 0 1 (dmul ei ev 0 z)
def P3 (ei : SEI.Idx → BitVec 32) (ev : SEV.Idx → EReal) (W : Fin 2 → Fin 3 → Fin 128 → Fin 128 → EReal) (bias : Fin 128 → EReal)
    (z : Fin 10240 → Fin 4 → Fin 128 → EReal) := accP (P2 ei ev W bias z) W 0 2 (dmul ei ev 0 (dmul ei ev 0 z))
def P4 (ei : SEI.Idx → BitVec 32) (ev : SEV.Idx → EReal) (W : Fin 2 → Fin 3 → Fin 128 → Fin 128 → EReal) (bias : Fin 128 → EReal)
    (z : Fin 10240 → Fin 4 → Fin 128 → EReal) := accP (P3 ei ev W bias z) W 1 0 z
def P5 (ei : SEI.Idx → BitVec 32) (ev : SEV.Idx → EReal) (W : Fin 2 → Fin 3 → Fin 128 → Fin 128 → EReal) (bias : Fin 128 → EReal)
    (z : Fin 10240 → Fin 4 → Fin 128 → EReal) := accP (P4 ei ev W bias z) W 1 1 (dmul ei ev 1 z)
def P6 (ei : SEI.Idx → BitVec 32) (ev : SEV.Idx → EReal) (W : Fin 2 → Fin 3 → Fin 128 → Fin 128 → EReal) (bias : Fin 128 → EReal)
    (z : Fin 10240 → Fin 4 → Fin 128 → EReal) := accP (P5 ei ev W bias z) W 1 2 (dmul ei ev 1 (dmul ei ev 1 z))

theorem filtP_eq_P6 (ei : SEI.Idx → BitVec 32) (ev : SEV.Idx → EReal) (W : Fin 2 → Fin 3 → Fin 128 → Fin 128 → EReal)
    (bias : Fin 128 → EReal) (z : Fin 10240 → Fin 4 → Fin 128 → EReal) : filtP ei ev W bias z = P6 ei ev W bias z := rfl

end Chain

end L2

section Result

variable (m : (ℓ : Loc nD τ sig) → Buf (Elt Ideal) ℓ) (outs : GenP.Outs (F := Ideal)) (c : Dev nD)

open L2 in

theorem chainL2 {ei : SEI.Idx → BitVec 32} {ev : SEV.Idx → EReal} (h : Fin 10240 → Fin 4 → Fin 128 → EReal)
    (hS0 : GenP.V3 m c main_v21 = fun idx => dense ei ev 0 (idx 0) (idx 1))
    (hS1 : GenP.V3 m c main_v43 = fun idx => dense ei ev 1 (idx 0) (idx 1))
    (hL1 : GenP.V18 m outs c main_v82 = flatR h)
    (h20 : outs 20 main_v91 c = accOut (M := 40960) (K := 128) (N := 128) (GenP.V19 m outs c main_v87) (GenP.V19 m outs c main_v90) (GenP.V19 m outs c main_v86))
    (h21 : outs 21 main_v92 c = mmOut (M := 10240) (K := 10240) (N := 512) (GenP.V20 m outs c main_v21) (GenP.V20 m outs c main_v85))
    (h23 : outs 23 main_v97 c = accOut (M := 40960) (K := 128) (N := 128) (GenP.V22 m outs c main_v93) (GenP.V22 m outs c main_v96) (GenP.V22 m outs c main_v91))
    (h24 : outs 24 main_v98 c = mmOut (M := 10240) (K := 10240) (N := 512) (GenP.V23 m outs c main_v21) (GenP.V23 m outs c main_v92))
    (h26 : outs 26 main_v103 c = accOut (M := 40960) (K := 128) (N := 128) (GenP.V25 m outs c main_v99) (GenP.V25 m outs c main_v102) (GenP.V25 m outs c main_v97))
    (h28 : outs 28 main_v108 c = accOut (M := 40960) (K := 128) (N := 128) (GenP.V27 m outs c main_v104) (GenP.V27 m outs c main_v107) (GenP.V27 m outs c main_v103))
    (h29 : outs 29 main_v109 c = mmOut (M := 10240) (K := 10240) (N := 512) (GenP.V28 m outs c main_v43) (GenP.V28 m outs c main_v85))
    (h31 : outs 31 main_v114 c = accOut (M := 40960) (K := 128) (N := 128) (GenP.V30 m outs c main_v110) (GenP.V30 m outs c main_v113) (GenP.V30 m outs c main_v108))
    (h32 : outs 32 main_v115 c = mmOut (M := 10240) (K := 10240) (N := 512) (GenP.V31 m outs c main_v43) (GenP.V31 m outs c main_v109))
    (h34 : outs 34 main_v120 c = accOut (M := 40960) (K := 128) (N := 128) (GenP.V33 m outs c main_v116) (GenP.V33 m outs c main_v119) (GenP.V33 m outs c main_v114)) :
    GenP.V35 m outs c main_v123
      = fun (i : S4x128.Idx) => filtP ei ev (fun e k f g => (m ((c : Thread nD τ).loc main_arg5) : S2x3x128x128.Idx → EReal) (ix4 e k f g))
          (fun g => (m ((c : Thread nD τ).loc main_arg6) : S128.Idx → EReal) (ix1 g)) h ⟨0, by norm_num⟩ (i 0) (i 1) := by

  generalize hW : (fun (e : Fin 2) (k : Fin 3) (f g : Fin 128) => (m ((c : Thread nD τ).loc main_arg5) : S2x3x128x128.Idx → EReal) (ix4 e k f g)) = W
  have hW' : ∀ (e : Fin 2) (k : Fin 3) (f g : Fin 128),
      (m ((c : Thread nD τ).loc main_arg5) : S2x3x128x128.Idx → EReal) (ix4 e k f g) = W e k f g := fun e k f g => by rw [← hW]

  have a85 := s10_v85 m outs c h hL1
  have a87 := s10_v87 m outs c h hL1
  have a86 := s10_v86 m outs c

  have R10 : outs 20 main_v91 c
      = flatR (P1 W (fun g => (m ((c : Thread nD τ).loc main_arg6) : S128.Idx → EReal) (ix1 g)) h) := by
    rw [h20, a87, a86]
    exact acc_step h _ _ W 0 0 fun f g => (w10 m outs c f g).trans (hW' 0 0 f g)

  have R11 : outs 21 main_v92 c = flatN (D := 128) (C := 512) rfl (by norm_num) (dmul ei ev 0 h) := by
    rw [h21, f20_v21 m outs c, hS0, f20_v85 m outs c, a85]
    rfl

  have a93 := rows12 m outs c _ ((upd21 m outs c).trans R11)
  have R12 : outs 23 main_v97 c = flatR (P2 ei ev W (fun g => (m ((c : Thread nD τ).loc main_arg6) : S128.Idx → EReal) (ix1 g)) h) := by
    rw [h23, a93, (f22_v91 m outs c).trans R10]
    exact acc_step _ _ _ W 0 1 fun f g => (w12 m outs c f g).trans (hW' 0 1 f g)

  have R13 : outs 24 main_v98 c = flatN (D := 128) (C := 512) rfl (by norm_num) (dmul ei ev 0 (dmul ei ev 0 h)) := by
    rw [h24, f23_v21 m outs c, hS0, (f23_v92 m outs c).trans R11]
    rfl

  have a99 := rows14 m outs c _ ((upd24 m outs c).trans R13)
  have R14 : outs 26 main_v103 c = flatR (P3 ei ev W (fun g => (m ((c : Thread nD τ).loc main_arg6) : S128.Idx → EReal) (ix1 g)) h) := by
    rw [h26, a99, (f25_v97 m outs c).trans R12]
    exact acc_step _ _ _ W 0 2 fun f g => (w14 m outs c f g).trans (hW' 0 2 f g)

  have a104 := rows15 m outs c _ ((f26_v85 m outs c).trans a85)
  have R15 : outs 28 main_v108 c = flatR (P4 ei ev W (fun g => (m ((c : Thread nD τ).loc main_arg6) : S128.Idx → EReal) (ix1 g)) h) := by
    rw [h28, a104, (f27_v103 m outs c).trans R14]
    exact acc_step _ _ _ W 1 0 fun f g => (w15 m outs c f g).trans (hW' 1 0 f g)

  have R16 : outs 29 main_v109 c = flatN (D := 128) (C := 512) rfl (by norm_num) (dmul ei ev 1 h) := by
    rw [h29, f28_v43 m outs c, hS1, f28_v85 m outs c, a85]
    rfl

  have a110 := rows17 m outs c _ ((upd29 m outs c).trans R16)
  have R17 : outs 31 main_v114 c = flatR (P5 ei ev W (fun g => (m ((c : Thread nD τ).loc main_arg6) : S128.Idx → EReal) (ix1 g)) h) := by
    rw [h31, a110, (f30_v108 m outs c).trans R15]
    exact acc_step _ _ _ W 1 1 fun f g => (w17 m outs c f g).trans (hW' 1 1 f g)

  have R18 : outs 32 main_v115 c = flatN (D := 128) (C := 512) rfl (by norm_num) (dmul ei ev 1 (dmul ei ev 1 h)) := by
    rw [h32, f31_v43 m outs c, hS1, (f31_v109 m outs c).trans R16]
    rfl

  have a116 := rows19 m outs c _ ((upd32 m outs c).trans R18)
  have R19 : outs 34 main_v120 c = flatR (P6 ei ev W (fun g => (m ((c : Thread nD τ).loc main_arg6) : S128.Idx → EReal) (ix1 g)) h) := by
    rw [h34, a116, (f33_v114 m outs c).trans R17]
    exact acc_step _ _ _ W 1 2 fun f g => (w19 m outs c f g).trans (hW' 1 2 f g)

  rw [tail20 m outs c _ ((upd34 m outs c).trans R19), filtP_eq_P6]

end Result

end Cert.KernelIdeal.Hand

end
-- ==== Proof.KI.Value.lean ====
/-
  The result of the kernel program at the ideal values: every region leaves in its output array the product (or the
  product plus the running sum) of the arrays it is entered from; the host stretches between them lay those arrays out
  and slice the weights; composed, the result buffer holds the two padded filters read at node 0.
-/
import proofs.«414074_j90701119357381_1_alg».proof.Proof.KI.Asm
import proofs.«414074_j90701119357381_1_alg».proof.Proof.KI.Acc0Val
import proofs.«414074_j90701119357381_1_alg».proof.Proof.KI.Mm1Val
import proofs.«414074_j90701119357381_1_alg».proof.Proof.KI.Acc2Val
import proofs.«414074_j90701119357381_1_alg».proof.Proof.KI.Mm3Val
import proofs.«414074_j90701119357381_1_alg».proof.Proof.KI.Acc4Val
import proofs.«414074_j90701119357381_1_alg».proof.Proof.KI.Acc5Val
import proofs.«414074_j90701119357381_1_alg».proof.Proof.KI.Mm6Val
import proofs.«414074_j90701119357381_1_alg».proof.Proof.KI.Acc7Val
import proofs.«414074_j90701119357381_1_alg».proof.Proof.KI.Mm8Val
import proofs.«414074_j90701119357381_1_alg».proof.Proof.KI.Acc9Val
import proofs.«414074_j90701119357381_1_alg».proof.Proof.KI.Acc10Val
import proofs.«414074_j90701119357381_1_alg».proof.Proof.KI.Mm11Val
import proofs.«414074_j90701119357381_1_alg».proof.Proof.KI.Acc12Val
import proofs.«414074_j90701119357381_1_alg».proof.Proof.KI.Mm13Val
import proofs.«414074_j90701119357381_1_alg».proof.Proof.KI.Acc14Val
import proofs.«414074_j90701119357381_1_alg».proof.Proof.KI.Acc15Val
import proofs.«414074_j90701119357381_1_alg».proof.Proof.KI.Mm16Val
import proofs.«414074_j90701119357381_1_alg».proof.Proof.KI.Acc17Val
import proofs.«414074_j90701119357381_1_alg».proof.Proof.KI.Mm18Val
import proofs.«414074_j90701119357381_1_alg».proof.Proof.KI.Acc19Val
import proofs.«414074_j90701119357381_1_alg».proof.Proof.KI.ChainS
import proofs.«414074_j90701119357381_1_alg».proof.Proof.KI.ChainL1
import proofs.«414074_j90701119357381_1_alg».proof.Proof.KI.ChainL2

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (c : Dev nD)

/-! ## What each region leaves, over the contents it is entered from -/

theorem leaves4 : outs m 4 main_v53 c = accOut (M := 40960) (K := 64) (N := 128) (GenP.V3 m c main_v49) (GenP.V3 m c main_v52) (GenP.V3 m c main_v48) := by
  show W4 m c main_v53 = _
  rw [W4_self, final0 (U3 m) c, V_eq3]

theorem leaves5 : outs m 5 main_v54 c = mmOut (M := 10240) (K := 10240) (N := 256) (GenP.V4 m (outs m) c main_v21) (GenP.V4 m (outs m) c main_v47) := by
  show W5 m c main_v54 = _
  rw [W5_self, final1 (U4 m) c, V_eq4]

theorem leaves7 : outs m 7 main_v59 c = accOut (M := 40960) (K := 64) (N := 128) (GenP.V6 m (outs m) c main_v55) (GenP.V6 m (outs m) c main_v58) (GenP.V6 m (outs m) c main_v53) := by
  show W7 m c main_v59 = _
  rw [W7_self, final2 (U6 m) c, V_eq6]

theorem leaves8 : outs m 8 main_v60 c = mmOut (M := 10240) (K := 10240) (N := 256) (GenP.V7 m (outs m) c main_v21) (GenP.V7 m (outs m) c main_v54) := by
  show W8 m c main_v60 = _
  rw [W8_self, final3 (U7 m) c, V_eq7]

theorem leaves10 : outs m 10 main_v65 c = accOut (M := 40960) (K := 64) (N := 128) (GenP.V9 m (outs m) c main_v61) (GenP.V9 m (outs m) c main_v64) (GenP.V9 m (outs m) c main_v59) := by
  show W10 m c main_v65 = _
  rw [W10_self, final4 (U9 m) c, V_eq9]

theorem leaves12 : outs m 12 main_v70 c = accOut (M := 40960) (K := 64) (N := 128) (GenP.V11 m (outs m) c main_v66) (GenP.V11 m (outs m) c main_v69) (GenP.V11 m (outs m) c main_v65) := by
  show W12 m c main_v70 = _
  rw [W12_self, final5 (U11 m) c, V_eq11]

theorem leaves13 : outs m 13 main_v71 c = mmOut (M := 10240) (K := 10240) (N := 256) (GenP.V12 m (outs m) c main_v43) (GenP.V12 m (outs m) c main_v47) := by
  show W13 m c main_v71 = _
  rw [W13_self, final6 (U12 m) c, V_eq12]

theorem leaves15 : outs m 15 main_v76 c = accOut (M := 40960) (K := 64) (N := 128) (GenP.V14 m (outs m) c main_v72) (GenP.V14 m (outs m) c main_v75) (GenP.V14 m (outs m) c main_v70) := by
  show W15 m c main_v76 = _
  rw [W15_self, final7 (U14 m) c, V_eq14]

theorem leaves16 : outs m 16 main_v77 c = mmOut (M := 10240) (K := 10240) (N := 256) (GenP.V15 m (outs m) c main_v43) (GenP.V15 m (outs m) c main_v71) := by
  show W16 m c main_v77 = _
  rw [W16_self, final8 (U15 m) c, V_eq15]

theorem leaves18 : outs m 18 main_v82 c = accOut (M := 40960) (K := 64) (N := 128) (GenP.V17 m (outs m) c main_v78) (GenP.V17 m (outs m) c main_v81) (GenP.V17 m (outs m) c main_v76) := by
  show W18 m c main_v82 = _
  rw [W18_self, final9 (U17 m) c, V_eq17]

theorem leaves20 : outs m 20 main_v91 c = accOut (M := 40960) (K := 128) (N := 128) (GenP.V19 m (outs m) c main_v87) (GenP.V19 m (outs m) c main_v90) (GenP.V19 m (outs m) c main_v86) := by
  show W20 m c main_v91 = _
  rw [W20_self, final10 (U19 m) c, V_eq19]

theorem leaves21 : outs m 21 main_v92 c = mmOut (M := 10240) (K := 10240) (N := 512) (GenP.V20 m (outs m) c main_v21) (GenP.V20 m (outs m) c main_v85) := by
  show W21 m c main_v92 = _
  rw [W21_self, final11 (U20 m) c, V_eq20]

theorem leaves23 : outs m 23 main_v97 c = accOut (M := 40960) (K := 128) (N := 128) (GenP.V22 m (outs m) c main_v93) (GenP.V22 m (outs m) c main_v96) (GenP.V22 m (outs m) c main_v91) := by
  show W23 m c main_v97 = _
  rw [W23_self, final12 (U22 m) c, V_eq22]

theorem leaves24 : outs m 24 main_v98 c = mmOut (M := 10240) (K := 10240) (N := 512) (GenP.V23 m (outs m) c main_v21) (GenP.V23 m (outs m) c main_v92) := by
  show W24 m c main_v98 = _
  rw [W24_self, final13 (U23 m) c, V_eq23]

theorem leaves26 : outs m 26 main_v103 c = accOut (M := 40960) (K := 128) (N := 128) (GenP.V25 m (outs m) c main_v99) (GenP.V25 m (outs m) c main_v102) (GenP.V25 m (outs m) c main_v97) := by
  show W26 m c main_v103 = _
  rw [W26_self, final14 (U25 m) c, V_eq25]

theorem leaves28 : outs m 28 main_v108 c = accOut (M := 40960) (K := 128) (N := 128) (GenP.V27 m (outs m) c main_v104) (GenP.V27 m (outs m) c main_v107) (GenP.V27 m (outs m) c main_v103) := by
  show W28 m c main_v108 = _
  rw [W28_self, final15 (U27 m) c, V_eq27]

theorem leaves29 : outs m 29 main_v109 c = mmOut (M := 10240) (K := 10240) (N := 512) (GenP.V28 m (outs m) c main_v43) (GenP.V28 m (outs m) c main_v85) := by
  show W29 m c main_v109 = _
  rw [W29_self, final16 (U28 m) c, V_eq28]

theorem leaves31 : outs m 31 main_v114 c = accOut (M := 40960) (K := 128) (N := 128) (GenP.V30 m (outs m) c main_v110) (GenP.V30 m (outs m) c main_v113) (GenP.V30 m (outs m) c main_v108) := by
  show W31 m c main_v114 = _
  rw [W31_self, final17 (U30 m) c, V_eq30]

theorem leaves32 : outs m 32 main_v115 c = mmOut (M := 10240) (K := 10240) (N := 512) (GenP.V31 m (outs m) c main_v43) (GenP.V31 m (outs m) c main_v109) := by
  show W32 m c main_v115 = _
  rw [W32_self, final18 (U31 m) c, V_eq31]

theorem leaves34 : outs m 34 main_v120 c = accOut (M := 40960) (K := 128) (N := 128) (GenP.V33 m (outs m) c main_v116) (GenP.V33 m (outs m) c main_v119) (GenP.V33 m (outs m) c main_v114) := by
  show W34 m c main_v120 = _
  rw [W34_self, final19 (U33 m) c, V_eq33]

/-! ## The result -/

/-- The result buffer after the run: the kernel form of the specification, of the argument arrays. -/
theorem kval (hidx : InRange (m ((c : Thread nD τ).loc main_arg1))) :
    W35 m c main_v123 = kernelSpec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  obtain ⟨hS0, hS1, hz⟩ := chainS m c hidx
  have hL1 := chainL1 m (outs m) c hS0 hS1 hz (leaves4 m c) (leaves5 m c) (leaves7 m c) (leaves8 m c) (leaves10 m c) (leaves12 m c) (leaves13 m c) (leaves15 m c) (leaves16 m c) (leaves18 m c)
  have hL2 := chainL2 m (outs m) c _ hS0 hS1 hL1 (leaves20 m c) (leaves21 m c) (leaves23 m c) (leaves24 m c) (leaves26 m c) (leaves28 m c) (leaves29 m c) (leaves31 m c) (leaves32 m c) (leaves34 m c)
  rw [← V_eq35 m c]
  exact hL2

end Cert.KernelIdeal.Hand

end
-- ==== Proof.RefL1.lean ====
import proofs.«414074_j90701119357381_1_alg».proof.Proof.Gen.ReferenceIdeal.Run
import proofs.«414074_j90701119357381_1_alg».proof.Proof.Spec
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Value Cert.Spec Idealize.ShloMosaic
  Idealize.ShloMosaic.ValueIdx Idealize.ShloMosaic.StableHlo

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Layout
variable {α : Type}

theorem edgeIdx_apply (off : Fin 3 → ℕ) (X : S2x2x320000.Idx → α) (h : S2x2x320000.Slices off S1x1x320000)
    (e c : Fin 2) (h0 : off 0 = e.val) (h1 : off 1 = c.val) (h2 : off 2 = 0) (j : Fin 320000) :
    shapeCast S320000 (extractStridedSlice S1x1x320000 off X h) shapeCasts_S1x1x320000_S320000 (ix1 j)
      = X (ix3 e c j) := by
  refine (shapeCast_apply _ _ (ix1 j) (ix3 (0 : Fin 1) (0 : Fin 1) j) ?_).trans ?_
  · rw [Shape.rowMajor_val_three, Shape.rowMajor_val_one]
    show (0 * 1 + 0) * 320000 + j.val = j.val
    omega
  · refine extractStridedSlice_apply off X h _ (ix3 e c j) fun a => ?_
    match a with
    | ⟨0, _⟩ => show e.val = off 0 + 0; omega
    | ⟨1, _⟩ => show c.val = off 1 + 0; omega
    | ⟨2, _⟩ => show j.val = off 2 + j.val; omega

theorem edgeVal_apply (off : Fin 2 → ℕ) (X : S2x320000.Idx → α) (h : S2x320000.Slices off S1x320000)
    (e : Fin 2) (h0 : off 0 = e.val) (h1 : off 1 = 0) (j : Fin 320000) :
    shapeCast S320000 (extractStridedSlice S1x320000 off X h) shapeCasts_S1x320000_S320000 (ix1 j)
      = X (ix2 e j) := by
  refine (shapeCast_1a_a_apply _ _ j).trans ?_
  refine extractStridedSlice_apply off X h _ (ix2 e j) fun a => ?_
  match a with
  | ⟨0, _⟩ => show e.val = off 0 + 0; omega
  | ⟨1, _⟩ => show j.val = off 1 + j.val; omega

theorem weight_apply (off : Fin 4 → ℕ) (X : S2x3x64x128.Idx → α) (h : S2x3x64x128.Slices off S1x1x64x128)
    (e : Fin 2) (k : Fin 3) (h0 : off 0 = e.val) (h1 : off 1 = k.val) (h2 : off 2 = 0) (h3 : off 3 = 0)
    (f : Fin 64) (g : Fin 128) :
    shapeCast S64x128 (extractStridedSlice S1x1x64x128 off X h) shapeCasts_S1x1x64x128_S64x128 (ix2 f g)
      = X (ix4 e k f g) := by
  refine (shapeCast_apply _ _ (ix2 f g) (ix4 (0 : Fin 1) (0 : Fin 1) f g) ?_).trans ?_
  · rw [Shape.rowMajor_val_four, Shape.rowMajor_val_two]
    show ((0 * 1 + 0) * 64 + f.val) * 128 + g.val = f.val * 128 + g.val
    omega
  · refine extractStridedSlice_apply off X h _ (ix4 e k f g) fun a => ?_
    match a with
    | ⟨0, _⟩ => show e.val = off 0 + 0; omega
    | ⟨1, _⟩ => show k.val = off 1 + 0; omega
    | ⟨2, _⟩ => show f.val = off 2 + f.val; omega
    | ⟨3, _⟩ => show g.val = off 3 + g.val; omega

theorem col_apply (v : S320000.Idx → α) (j : Fin 320000) (u : Fin 1) :
    broadcastInDim S320000x1 ![0] bcast_S320000_S320000x1_0 v (ix2 j u) = v (ix1 j) :=
  broadcastInDim_apply _ _ v (ix2 j u) (ix1 j) fun a => match a with | ⟨0, _⟩ => rfl

theorem edgeBcast_apply (v : S320000.Idx → α) (j : Fin 320000) (b : Fin 4) (f : Fin 64) :
    broadcastInDim S320000x4x64 ![0, 1, 2] bcast_S320000x1x1_S320000x4x64_0_1_2
      (broadcastInDim S320000x1x1 ![0] bcast_S320000_S320000x1x1_0 v) (ix3 j b f) = v (ix1 j) := by
  refine (broadcastInDim_apply _ _ _ (ix3 j b f) (ix3 j (0 : Fin 1) (0 : Fin 1)) fun a => ?_).trans ?_
  · match a with
    | ⟨0, _⟩ => rfl
    | ⟨1, _⟩ => rfl
    | ⟨2, _⟩ => rfl
  · exact broadcastInDim_apply _ _ v _ (ix1 j) fun a => match a with | ⟨0, _⟩ => rfl

theorem bias_apply (v : S128.Idx → α) (n : Fin 10000) (b : Fin 4) (g : Fin 128) :
    broadcastInDim S10000x4x128 ![0, 1, 2] bcast_S1x1x128_S10000x4x128_0_1_2
      (broadcastInDim S1x1x128 ![2] bcast_S128_S1x1x128_2 v) (ix3 n b g) = v (ix1 g) := by
  refine (broadcastInDim_apply _ _ _ (ix3 n b g) (ix3 (0 : Fin 1) (0 : Fin 1) g) fun a => ?_).trans ?_
  · match a with
    | ⟨0, _⟩ => rfl
    | ⟨1, _⟩ => rfl
    | ⟨2, _⟩ => rfl
  · exact broadcastInDim_apply _ _ v _ (ix1 g) fun a => match a with | ⟨0, _⟩ => rfl

end Layout

theorem zero128_apply (i : S10000x4x128.Idx) :
    broadcastInDim S10000x4x128 ![] bcast_S_S10000x4x128 (constant (F := Ideal) S_ .f32 0x00000000#32) i = (0 : EReal) := by
  rw [broadcastInDim_scalar_apply, constant_apply, Ideal.ofBits_zero_f32]

theorem zero64_apply (i : S10000x4x64.Idx) :
    broadcastInDim S10000x4x64 ![] bcast_S_S10000x4x64 (constant (F := Ideal) S_ .f32 0x00000000#32) i = (0 : EReal) := by
  rw [broadcastInDim_scalar_apply, constant_apply, Ideal.ofBits_zero_f32]

theorem wordBcast_apply (c : BitVec 32) (i : S320000.Idx) :
    broadcastInDim S320000 ![] bcast_S_S320000 (constantI S_ 32 c) i = c := by
  rw [broadcastInDim_scalar_apply, constantI_apply]

theorem lhs_dot64_0 (i : S10000x4x128.Idx) (q : dot_S10000x4x64_S64x128_S10000x4x128_2_0_01_1_n_n.contr.Idx) :
    (dot_S10000x4x64_S64x128_S10000x4x128_2_0_01_1_n_n.lhsIdx i q 0).val = (i 0).val := by
  unfold DotDims.lhsIdx
  rw [dif_neg (show ¬(0 : Fin S10000x4x64.rank) ∈ dot_S10000x4x64_S64x128_S10000x4x128_2_0_01_1_n_n.lhsBatch by decide),
    dif_pos (show (0 : Fin S10000x4x64.rank) ∈ dot_S10000x4x64_S64x128_S10000x4x128_2_0_01_1_n_n.lhsNonContracting by decide)]
  rfl
theorem lhs_dot64_1 (i : S10000x4x128.Idx) (q : dot_S10000x4x64_S64x128_S10000x4x128_2_0_01_1_n_n.contr.Idx) :
    (dot_S10000x4x64_S64x128_S10000x4x128_2_0_01_1_n_n.lhsIdx i q 1).val = (i 1).val := by
  unfold DotDims.lhsIdx
  rw [dif_neg (show ¬(1 : Fin S10000x4x64.rank) ∈ dot_S10000x4x64_S64x128_S10000x4x128_2_0_01_1_n_n.lhsBatch by decide),
    dif_pos (show (1 : Fin S10000x4x64.rank) ∈ dot_S10000x4x64_S64x128_S10000x4x128_2_0_01_1_n_n.lhsNonContracting by decide)]
  rfl
theorem lhs_dot64_2 (i : S10000x4x128.Idx) (q : dot_S10000x4x64_S64x128_S10000x4x128_2_0_01_1_n_n.contr.Idx) :
    (dot_S10000x4x64_S64x128_S10000x4x128_2_0_01_1_n_n.lhsIdx i q 2).val = (q ⟨0, by decide⟩).val :=
  dot_S10000x4x64_S64x128_S10000x4x128_2_0_01_1_n_n.lhsIdx_val_of_single rfl i q
theorem rhs_dot64_0 (i : S10000x4x128.Idx) (q : dot_S10000x4x64_S64x128_S10000x4x128_2_0_01_1_n_n.contr.Idx) :
    (dot_S10000x4x64_S64x128_S10000x4x128_2_0_01_1_n_n.rhsIdx i q 0).val = (q ⟨0, by decide⟩).val :=
  dot_S10000x4x64_S64x128_S10000x4x128_2_0_01_1_n_n.rhsIdx_val_of_single rfl i q
theorem rhs_dot64_1 (i : S10000x4x128.Idx) (q : dot_S10000x4x64_S64x128_S10000x4x128_2_0_01_1_n_n.contr.Idx) :
    (dot_S10000x4x64_S64x128_S10000x4x128_2_0_01_1_n_n.rhsIdx i q 1).val = (i 2).val := by
  unfold DotDims.rhsIdx
  rw [dif_neg (show ¬(1 : Fin S64x128.rank) ∈ dot_S10000x4x64_S64x128_S10000x4x128_2_0_01_1_n_n.rhsBatch by decide),
    dif_pos (show (1 : Fin S64x128.rank) ∈ dot_S10000x4x64_S64x128_S10000x4x128_2_0_01_1_n_n.rhsNonContracting by decide)]
  rfl

theorem dot64_apply (l : FVec Ideal S10000x4x64 .f32) (r : FVec Ideal S64x128 .f32) (n : Fin 10000) (b : Fin 4)
    (g : Fin 128) :
    Host.dotGeneral dot_S10000x4x64_S64x128_S10000x4x128_2_0_01_1_n_n none l r (ix3 n b g)
      = ∑ f : Fin 64, l (ix3 n b f) * r (ix2 f g) := by
  simp only [Host.dotGeneral]
  rw [Ideal.dotGeneral_apply,
    ← Equiv.sum_comp (contrEquiv1 dot_S10000x4x64_S64x128_S10000x4x128_2_0_01_1_n_n 64 rfl rfl).symm]
  refine Finset.sum_congr rfl fun k _ => ?_
  have hk := contrEquiv1_symm_val dot_S10000x4x64_S64x128_S10000x4x128_2_0_01_1_n_n 64 rfl rfl k
  have el : dot_S10000x4x64_S64x128_S10000x4x128_2_0_01_1_n_n.lhsIdx (ix3 n b g)
      ((contrEquiv1 dot_S10000x4x64_S64x128_S10000x4x128_2_0_01_1_n_n 64 rfl rfl).symm k) = ix3 n b k :=
    funext fun a => Fin.ext (by
      match a with
      | ⟨0, _⟩ => exact lhs_dot64_0 _ _
      | ⟨1, _⟩ => exact lhs_dot64_1 _ _
      | ⟨2, _⟩ => exact (lhs_dot64_2 _ _).trans hk)
  have er : dot_S10000x4x64_S64x128_S10000x4x128_2_0_01_1_n_n.rhsIdx (ix3 n b g)
      ((contrEquiv1 dot_S10000x4x64_S64x128_S10000x4x128_2_0_01_1_n_n 64 rfl rfl).symm k) = ix2 k g :=
    funext fun a => Fin.ext (by
      match a with
      | ⟨0, _⟩ => exact (rhs_dot64_0 _ _).trans hk
      | ⟨1, _⟩ => exact rhs_dot64_1 _ _)
  rw [el, er]

theorem dot64_mix (W : Fin 2 → Fin 3 → Fin 64 → Fin 128 → EReal) (e : Fin 2) (k : Fin 3)
    (l : FVec Ideal S10000x4x64 .f32) (r : FVec Ideal S64x128 .f32) (hr : ∀ f g, r (ix2 f g) = W e k f g)
    (n : Fin 10000) (b : Fin 4) (g : Fin 128) :
    Host.dotGeneral dot_S10000x4x64_S64x128_S10000x4x128_2_0_01_1_n_n none l r (ix3 n b g)
      = mix W e k (fun n b f => l (ix3 n b f)) n b g := by
  rw [dot64_apply]
  exact Finset.sum_congr rfl fun f _ => by rw [hr]

theorem toInt_of_lt (w : BitVec 32) (h : w.toNat < 10000) : w.toInt = (w.toNat : ℤ) := by
  rw [BitVec.toInt_eq_toNat_cond]
  split
  · rfl
  · omega

theorem wrap_apply (w : BitVec 32) (h : w.toNat < 10000) :
    Scalar.select (IntOp.cmpi .slt w 0#32) (IntOp.addi w 10000#32) w = w := by
  have hc : IntOp.cmpi .slt w 0#32 = 0#1 := by
    unfold IntOp.cmpi
    have hs : w.slt 0#32 = false := by
      rw [BitVec.slt, toInt_of_lt w h]
      simp
    rw [hs]
    rfl
  rw [hc, select_zero]

theorem coord_congr {s : Shape} (i : s.Idx) (a a' : Fin s.rank) (h : a = a') : (i a).val = (i a').val := by
  subst h
  rfl

theorem gather64_apply (z : FVec Ideal S10000x4x64 .f32) (idx : IVec S320000x1 32) (j : Fin 320000) (b : Fin 4)
    (f : Fin 64) :
    Host.gather gather_S10000x4x64_S320000x1_S320000x4x64_12_0_n_n_0_1_1464 z idx (ix3 j b f)
      = z (ix3 ⟨min (idx (ix2 j (0 : Fin 1))).toInt.toNat (10000 - 1), by omega⟩ b f) := by
  unfold Host.gather
  congr 1
  funext a
  refine Fin.ext ?_
  match a with
  | ⟨0, _⟩ =>
    show gather_S10000x4x64_S320000x1_S320000x4x64_12_0_n_n_0_1_1464.start (ix3 j b f) idx 0
        + gather_S10000x4x64_S320000x1_S320000x4x64_12_0_n_n_0_1_1464.batchCoord (ix3 j b f) 0
        + gather_S10000x4x64_S320000x1_S320000x4x64_12_0_n_n_0_1_1464.offCoord (ix3 j b f) 0 = _
    rw [GatherDims.batchCoord_eq_zero _ _ _ (by decide), GatherDims.offCoord_eq_zero _ _ _ (by decide)]
    simp only [Nat.add_zero]
    unfold GatherDims.start
    rw [dif_pos (show (0 : Fin S10000x4x64.rank)
      ∈ gather_S10000x4x64_S320000x1_S320000x4x64_12_0_n_n_0_1_1464.startIndexMap by decide)]
    have hsi : gather_S10000x4x64_S320000x1_S320000x4x64_12_0_n_n_0_1_1464.siIdx (ix3 j b f)
        ⟨List.idxOf (0 : Fin S10000x4x64.rank) gather_S10000x4x64_S320000x1_S320000x4x64_12_0_n_n_0_1_1464.startIndexMap,
          List.idxOf_lt_length_iff.2 (by decide)⟩ = ix2 j (0 : Fin 1) := by
      funext c
      refine Fin.ext ?_
      match c with
      | ⟨0, _⟩ => rfl
      | ⟨1, _⟩ => rfl
    rw [hsi]
    rfl
  | ⟨1, _⟩ =>
    show gather_S10000x4x64_S320000x1_S320000x4x64_12_0_n_n_0_1_1464.start (ix3 j b f) idx 1
        + gather_S10000x4x64_S320000x1_S320000x4x64_12_0_n_n_0_1_1464.batchCoord (ix3 j b f) 1
        + gather_S10000x4x64_S320000x1_S320000x4x64_12_0_n_n_0_1_1464.offCoord (ix3 j b f) 1 = b.val
    have hs : gather_S10000x4x64_S320000x1_S320000x4x64_12_0_n_n_0_1_1464.start (ix3 j b f) idx 1 = 0 := by
      unfold GatherDims.start
      rw [dif_neg (show ¬(1 : Fin S10000x4x64.rank)
        ∈ gather_S10000x4x64_S320000x1_S320000x4x64_12_0_n_n_0_1_1464.startIndexMap by decide)]
    have ho : gather_S10000x4x64_S320000x1_S320000x4x64_12_0_n_n_0_1_1464.offCoord (ix3 j b f) 1 = b.val := by
      unfold GatherDims.offCoord
      rw [dif_pos (show (1 : Fin S10000x4x64.rank)
        ∈ gather_S10000x4x64_S320000x1_S320000x4x64_12_0_n_n_0_1_1464.sKept by decide)]
      exact coord_congr (ix3 j b f) _ 1 (by decide)
    rw [hs, ho, GatherDims.batchCoord_eq_zero _ _ _ (by decide)]
    omega
  | ⟨2, _⟩ =>
    show gather_S10000x4x64_S320000x1_S320000x4x64_12_0_n_n_0_1_1464.start (ix3 j b f) idx 2
        + gather_S10000x4x64_S320000x1_S320000x4x64_12_0_n_n_0_1_1464.batchCoord (ix3 j b f) 2
        + gather_S10000x4x64_S320000x1_S320000x4x64_12_0_n_n_0_1_1464.offCoord (ix3 j b f) 2 = f.val
    have hs : gather_S10000x4x64_S320000x1_S320000x4x64_12_0_n_n_0_1_1464.start (ix3 j b f) idx 2 = 0 := by
      unfold GatherDims.start
      rw [dif_neg (show ¬(2 : Fin S10000x4x64.rank)
        ∈ gather_S10000x4x64_S320000x1_S320000x4x64_12_0_n_n_0_1_1464.startIndexMap by decide)]
    have ho : gather_S10000x4x64_S320000x1_S320000x4x64_12_0_n_n_0_1_1464.offCoord (ix3 j b f) 2 = f.val := by
      unfold GatherDims.offCoord
      rw [dif_pos (show (2 : Fin S10000x4x64.rank)
        ∈ gather_S10000x4x64_S320000x1_S320000x4x64_12_0_n_n_0_1_1464.sKept by decide)]
      exact coord_congr (ix3 j b f) _ 2 (by decide)
    rw [hs, ho, GatherDims.batchCoord_eq_zero _ _ _ (by decide)]
    omega

section Scatter
variable (idx : IVec S320000x1 32) (j : Fin 320000) (b : Fin 4) (f : Fin 64)

theorem sc64_start0 :
    scatter_S10000x4x64_S320000x1_S320000x4x64_12_0_0_1.start (ix3 j b f) idx 0
      = (idx (ix2 j (0 : Fin 1))).toInt := by
  unfold ScatterDims.start
  rw [dif_pos (show (0 : Fin S10000x4x64.rank)
    ∈ scatter_S10000x4x64_S320000x1_S320000x4x64_12_0_0_1.scatterDimsToOperandDims by decide)]
  have hsi : scatter_S10000x4x64_S320000x1_S320000x4x64_12_0_0_1.siIdx (ix3 j b f)
      ⟨List.idxOf (0 : Fin S10000x4x64.rank) scatter_S10000x4x64_S320000x1_S320000x4x64_12_0_0_1.scatterDimsToOperandDims,
        List.idxOf_lt_length_iff.2 (by decide)⟩ = ix2 j (0 : Fin 1) := by
    funext c
    refine Fin.ext ?_
    match c with
    | ⟨0, _⟩ => rfl
    | ⟨1, _⟩ => rfl
  rw [hsi]

theorem sc64_start1 : scatter_S10000x4x64_S320000x1_S320000x4x64_12_0_0_1.start (ix3 j b f) idx 1 = 0 := by
  unfold ScatterDims.start
  rw [dif_neg (show ¬(1 : Fin S10000x4x64.rank)
    ∈ scatter_S10000x4x64_S320000x1_S320000x4x64_12_0_0_1.scatterDimsToOperandDims by decide)]

theorem sc64_start2 : scatter_S10000x4x64_S320000x1_S320000x4x64_12_0_0_1.start (ix3 j b f) idx 2 = 0 := by
  unfold ScatterDims.start
  rw [dif_neg (show ¬(2 : Fin S10000x4x64.rank)
    ∈ scatter_S10000x4x64_S320000x1_S320000x4x64_12_0_0_1.scatterDimsToOperandDims by decide)]

theorem sc64_window0 : scatter_S10000x4x64_S320000x1_S320000x4x64_12_0_0_1.window (ix3 j b f) 0 = 0 := by
  unfold ScatterDims.window
  rw [dif_neg (show ¬(0 : Fin S10000x4x64.rank)
    ∈ scatter_S10000x4x64_S320000x1_S320000x4x64_12_0_0_1.sKept by decide)]

theorem sc64_window1 : scatter_S10000x4x64_S320000x1_S320000x4x64_12_0_0_1.window (ix3 j b f) 1 = b.val := by
  unfold ScatterDims.window
  rw [dif_pos (show (1 : Fin S10000x4x64.rank)
    ∈ scatter_S10000x4x64_S320000x1_S320000x4x64_12_0_0_1.sKept by decide)]
  exact coord_congr (ix3 j b f) _ 1 (by decide)

theorem sc64_window2 : scatter_S10000x4x64_S320000x1_S320000x4x64_12_0_0_1.window (ix3 j b f) 2 = f.val := by
  unfold ScatterDims.window
  rw [dif_pos (show (2 : Fin S10000x4x64.rank)
    ∈ scatter_S10000x4x64_S320000x1_S320000x4x64_12_0_0_1.sKept by decide)]
  exact coord_congr (ix3 j b f) _ 2 (by decide)

theorem sc64_result (hr : (idx (ix2 j (0 : Fin 1))).toNat < 10000) :
    scatter_S10000x4x64_S320000x1_S320000x4x64_12_0_0_1.resultIdx? (ix3 j b f) idx
      = some (ix3 ⟨(idx (ix2 j (0 : Fin 1))).toNat, hr⟩ b f) := by
  have hi := toInt_of_lt _ hr
  have hb := b.isLt
  have hf := f.isLt
  have H : ∀ a, 0 ≤ scatter_S10000x4x64_S320000x1_S320000x4x64_12_0_0_1.start (ix3 j b f) idx a
        + scatter_S10000x4x64_S320000x1_S320000x4x64_12_0_0_1.window (ix3 j b f) a
      ∧ scatter_S10000x4x64_S320000x1_S320000x4x64_12_0_0_1.start (ix3 j b f) idx a
        + scatter_S10000x4x64_S320000x1_S320000x4x64_12_0_0_1.window (ix3 j b f) a < S10000x4x64.size a := by
    intro a
    match a with
    | ⟨0, _⟩ =>
      show 0 ≤ scatter_S10000x4x64_S320000x1_S320000x4x64_12_0_0_1.start (ix3 j b f) idx 0
          + (scatter_S10000x4x64_S320000x1_S320000x4x64_12_0_0_1.window (ix3 j b f) 0 : ℕ)
        ∧ scatter_S10000x4x64_S320000x1_S320000x4x64_12_0_0_1.start (ix3 j b f) idx 0
          + (scatter_S10000x4x64_S320000x1_S320000x4x64_12_0_0_1.window (ix3 j b f) 0 : ℕ) < ((10000 : ℕ) : ℤ)
      rw [sc64_start0, sc64_window0, hi]
      omega
    | ⟨1, _⟩ =>
      show 0 ≤ scatter_S10000x4x64_S320000x1_S320000x4x64_12_0_0_1.start (ix3 j b f) idx 1
          + (scatter_S10000x4x64_S320000x1_S320000x4x64_12_0_0_1.window (ix3 j b f) 1 : ℕ)
        ∧ scatter_S10000x4x64_S320000x1_S320000x4x64_12_0_0_1.start (ix3 j b f) idx 1
          + (scatter_S10000x4x64_S320000x1_S320000x4x64_12_0_0_1.window (ix3 j b f) 1 : ℕ) < ((4 : ℕ) : ℤ)
      rw [sc64_start1, sc64_window1]
      omega
    | ⟨2, _⟩ =>
      show 0 ≤ scatter_S10000x4x64_S320000x1_S320000x4x64_12_0_0_1.start (ix3 j b f) idx 2
          + (scatter_S10000x4x64_S320000x1_S320000x4x64_12_0_0_1.window (ix3 j b f) 2 : ℕ)
        ∧ scatter_S10000x4x64_S320000x1_S320000x4x64_12_0_0_1.start (ix3 j b f) idx 2
          + (scatter_S10000x4x64_S320000x1_S320000x4x64_12_0_0_1.window (ix3 j b f) 2 : ℕ) < ((64 : ℕ) : ℤ)
      rw [sc64_start2, sc64_window2]
      omega
  unfold ScatterDims.resultIdx?
  rw [dif_pos H]
  congr 1
  funext a
  refine Fin.ext ?_
  match a with
  | ⟨0, _⟩ =>
    show (scatter_S10000x4x64_S320000x1_S320000x4x64_12_0_0_1.start (ix3 j b f) idx 0
      + (scatter_S10000x4x64_S320000x1_S320000x4x64_12_0_0_1.window (ix3 j b f) 0 : ℕ)).toNat
      = (idx (ix2 j (0 : Fin 1))).toNat
    rw [sc64_start0, sc64_window0, hi]
    omega
  | ⟨1, _⟩ =>
    show (scatter_S10000x4x64_S320000x1_S320000x4x64_12_0_0_1.start (ix3 j b f) idx 1
      + (scatter_S10000x4x64_S320000x1_S320000x4x64_12_0_0_1.window (ix3 j b f) 1 : ℕ)).toNat = b.val
    rw [sc64_start1, sc64_window1]
    omega
  | ⟨2, _⟩ =>
    show (scatter_S10000x4x64_S320000x1_S320000x4x64_12_0_0_1.start (ix3 j b f) idx 2
      + (scatter_S10000x4x64_S320000x1_S320000x4x64_12_0_0_1.window (ix3 j b f) 2 : ℕ)).toNat = f.val
    rw [sc64_start2, sc64_window2]
    omega

end Scatter

theorem ix3_inj {n0 n1 n2 : ℕ} (a a' : Fin n0) (b b' : Fin n1) (c c' : Fin n2) :
    (ix3 a b c = ix3 a' b' c') ↔ (a = a' ∧ b = b' ∧ c = c') := by
  constructor
  · intro h
    exact ⟨congrFun h 0, congrFun h 1, congrFun h 2⟩
  · rintro ⟨rfl, rfl, rfl⟩
    rfl

theorem sum_sum_ite_pair {B C : Type*} [Fintype B] [Fintype C] [DecidableEq B] [DecidableEq C] (b : B) (c : C)
    (U : B → C → EReal) : ∑ b' : B, ∑ c' : C, (if b' = b ∧ c' = c then U b' c' else 0) = U b c := by
  rw [Finset.sum_eq_single b, Finset.sum_eq_single c]
  · rw [if_pos ⟨rfl, rfl⟩]
  · intro c' _ h
    rw [if_neg (fun hh => h hh.2)]
  · intro h
    exact absurd (Finset.mem_univ c) h
  · intro b' _ h
    exact Finset.sum_eq_zero fun c' _ => if_neg (fun hh => h hh.1)
  · intro h
    exact absurd (Finset.mem_univ b) h

theorem scatter64_apply (x : FVec Ideal S10000x4x64 .f32) (idx : IVec S320000x1 32)
    (upd : FVec Ideal S320000x4x64 .f32) (hr : ∀ j : Fin 320000, (idx (ix2 j (0 : Fin 1))).toNat < 10000)
    (n : Fin 10000) (b : Fin 4) (f : Fin 64) :
    Host.scatterAdd scatter_S10000x4x64_S320000x1_S320000x4x64_12_0_0_1 x idx upd (ix3 n b f)
      = x (ix3 n b f) + ∑ j : Fin 320000,
          if (⟨(idx (ix2 j (0 : Fin 1))).toNat, hr j⟩ : Fin 10000) = n then upd (ix3 j b f) else 0 := by
  simp only [Host.scatterAdd, Ideal.hostScatterAdd_def, Ideal.hostScatterAdd]
  refine congrArg (fun t => x (ix3 n b f) + t) ?_
  rw [Finset.sum_filter, sum_idx3]
  refine Finset.sum_congr rfl fun j _ => ?_
  have hcond : ∀ (b' : Fin 4) (f' : Fin 64),
      (scatter_S10000x4x64_S320000x1_S320000x4x64_12_0_0_1.resultIdx? (ix3 j b' f') idx = some (ix3 n b f))
        ↔ ((⟨(idx (ix2 j (0 : Fin 1))).toNat, hr j⟩ : Fin 10000) = n ∧ b' = b ∧ f' = f) := by
    intro b' f'
    rw [sc64_result idx j b' f' (hr j), Option.some_inj, ix3_inj]
  simp only [hcond]
  by_cases h : (⟨(idx (ix2 j (0 : Fin 1))).toNat, hr j⟩ : Fin 10000) = n
  · simp only [h, true_and, if_true]
    exact sum_sum_ite_pair b f fun b' f' => upd (ix3 j b' f')
  · simp only [h, false_and, if_false, Finset.sum_const_zero]

section Stage
variable (ei : SEI.Idx → BitVec 32) (ev : SEV.Idx → EReal)

theorem stage64_apply (hidx : InRange ei) (e : Fin 2) (rows cols : IVec S320000 32) (vals : FVec Ideal S320000 .f32)
    (hrows : ∀ j, rows (ix1 j) = ei (ix3 e (0 : Fin 2) j)) (hcols : ∀ j, cols (ix1 j) = ei (ix3 e (1 : Fin 2) j))
    (hvals : ∀ j, vals (ix1 j) = ev (ix2 e j)) (z : FVec Ideal S10000x4x64 .f32)
    (n : Fin 10000) (b : Fin 4) (f : Fin 64) :
    Host.scatterAdd scatter_S10000x4x64_S320000x1_S320000x4x64_12_0_0_1
      (broadcastInDim S10000x4x64 ![] bcast_S_S10000x4x64 (constant S_ .f32 0x00000000#32))
      (broadcastInDim S320000x1 ![0] bcast_S320000_S320000x1_0 rows)
      (mulf (Host.gather gather_S10000x4x64_S320000x1_S320000x4x64_12_0_n_n_0_1_1464 z
          (broadcastInDim S320000x1 ![0] bcast_S320000_S320000x1_0
            (select (cmpi .slt cols (broadcastInDim S320000 ![] bcast_S_S320000 (constantI S_ 32 0#32)))
              (addi cols (broadcastInDim S320000 ![] bcast_S_S320000 (constantI S_ 32 10000#32))) cols)))
        (broadcastInDim S320000x4x64 ![0, 1, 2] bcast_S320000x1x1_S320000x4x64_0_1_2
          (broadcastInDim S320000x1x1 ![0] bcast_S320000_S320000x1x1_0 vals)))
      (ix3 n b f)
    = spmm ei ev e (fun n b f => z (ix3 n b f)) n b f := by
  have hr : ∀ j : Fin 320000,
      (broadcastInDim S320000x1 ![0] bcast_S320000_S320000x1_0 rows (ix2 j (0 : Fin 1))).toNat < 10000 := by
    intro j
    rw [col_apply, hrows]
    exact hidx _
  rw [scatter64_apply _ _ _ hr, zero64_apply, zero_add]
  show _ = ∑ j : Fin 320000, if row ei e j = n then z (ix3 (col ei e j) b f) * ev (ix2 e j) else 0
  refine Finset.sum_congr rfl fun j _ => ?_
  have hrow : (⟨(broadcastInDim S320000x1 ![0] bcast_S320000_S320000x1_0 rows (ix2 j (0 : Fin 1))).toNat, hr j⟩
      : Fin 10000) = row ei e j := by
    refine Fin.ext ?_
    show (broadcastInDim S320000x1 ![0] bcast_S320000_S320000x1_0 rows (ix2 j (0 : Fin 1))).toNat
      = (ei (ix3 e (0 : Fin 2) j)).toNat % 10000
    rw [col_apply, hrows, Nat.mod_eq_of_lt (hidx _)]
  rw [hrow]
  refine if_congr Iff.rfl ?_ rfl
  have hw : broadcastInDim S320000x1 ![0] bcast_S320000_S320000x1_0
      (select (cmpi .slt cols (broadcastInDim S320000 ![] bcast_S_S320000 (constantI S_ 32 0#32)))
        (addi cols (broadcastInDim S320000 ![] bcast_S_S320000 (constantI S_ 32 10000#32))) cols) (ix2 j (0 : Fin 1))
      = ei (ix3 e (1 : Fin 2) j) := by
    rw [col_apply]
    show Scalar.select (IntOp.cmpi .slt (cols (ix1 j))
        (broadcastInDim S320000 ![] bcast_S_S320000 (constantI S_ 32 0#32) (ix1 j)))
      (IntOp.addi (cols (ix1 j)) (broadcastInDim S320000 ![] bcast_S_S320000 (constantI S_ 32 10000#32) (ix1 j)))
      (cols (ix1 j)) = _
    rw [wordBcast_apply, wordBcast_apply, hcols, wrap_apply _ (hidx _)]
  rw [mulf_apply, gather64_apply, edgeBcast_apply, hvals]
  have hcol : ∀ (w : BitVec 32) (hw' : w = ei (ix3 e (1 : Fin 2) j)) (pf : min w.toInt.toNat (10000 - 1) < 10000),
      (⟨min w.toInt.toNat (10000 - 1), pf⟩ : Fin 10000) = col ei e j := by
    intro w hw' pf
    subst hw'
    refine Fin.ext ?_
    show min (ei (ix3 e (1 : Fin 2) j)).toInt.toNat (10000 - 1) = (ei (ix3 e (1 : Fin 2) j)).toNat % 10000
    have := hidx (ix3 e (1 : Fin 2) j)
    rw [toInt_of_lt _ this, Nat.mod_eq_of_lt this]
    omega
  rw [hcol _ hw]

theorem stage64_cur (hidx : InRange ei) (e : Fin 2) (rows cols : IVec S320000 32) (vals : FVec Ideal S320000 .f32)
    (hrows : ∀ j, rows (ix1 j) = ei (ix3 e (0 : Fin 2) j)) (hcols : ∀ j, cols (ix1 j) = ei (ix3 e (1 : Fin 2) j))
    (hvals : ∀ j, vals (ix1 j) = ev (ix2 e j)) (z : FVec Ideal S10000x4x64 .f32) :
    (fun (n : Fin 10000) (b : Fin 4) (f : Fin 64) =>
      Host.scatterAdd scatter_S10000x4x64_S320000x1_S320000x4x64_12_0_0_1
        (broadcastInDim S10000x4x64 ![] bcast_S_S10000x4x64 (constant S_ .f32 0x00000000#32))
        (broadcastInDim S320000x1 ![0] bcast_S320000_S320000x1_0 rows)
        (mulf (Host.gather gather_S10000x4x64_S320000x1_S320000x4x64_12_0_n_n_0_1_1464 z
            (broadcastInDim S320000x1 ![0] bcast_S320000_S320000x1_0
              (select (cmpi .slt cols (broadcastInDim S320000 ![] bcast_S_S320000 (constantI S_ 32 0#32)))
                (addi cols (broadcastInDim S320000 ![] bcast_S_S320000 (constantI S_ 32 10000#32))) cols)))
          (broadcastInDim S320000x4x64 ![0, 1, 2] bcast_S320000x1x1_S320000x4x64_0_1_2
            (broadcastInDim S320000x1x1 ![0] bcast_S320000_S320000x1x1_0 vals)))
        (ix3 n b f))
    = spmm ei ev e (fun n b f => z (ix3 n b f)) := by
  funext n b f
  exact stage64_apply ei ev hidx e rows cols vals hrows hcols hvals z n b f

end Stage

section Assembly
variable (V0 : Valuation τ sig (Elt Ideal))

theorem transpose_102_apply {α : Type} {A B C : ℕ} (x : (⟨3, ![A, B, C]⟩ : Shape).Idx → α)
    (h : (⟨3, ![A, B, C]⟩ : Shape).Transposes [1, 0, 2] ⟨3, ![B, A, C]⟩) (a : Fin B) (b : Fin A) (c : Fin C) :
    transpose ⟨3, ![B, A, C]⟩ [1, 0, 2] x h (ix3 a b c) = x (ix3 b a c) :=
  transpose_apply _ x h _ _ fun d => match d with | ⟨0, _⟩ => rfl | ⟨1, _⟩ => rfl | ⟨2, _⟩ => rfl

theorem v0_cur :
    (fun (n : Fin 10000) (b : Fin 4) (f : Fin 64) => res_main_v0 (F := Ideal) V0 (ix3 n b f))
      = fun n b f => V0 (Proc.devRef .tc main_arg0) (ix3 b n f) := by
  funext n b f
  unfold res_main_v0
  exact transpose_102_apply _ _ n b f

theorem rows0 (j : Fin 320000) :
    res_main_v3 (F := Ideal) V0 (ix1 j) = V0 (Proc.devRef .tc main_arg1) (ix3 (0 : Fin 2) (0 : Fin 2) j) := by
  unfold res_main_v3
  exact edgeIdx_apply ![0, 0, 0] _ _ 0 0 rfl rfl rfl j
theorem cols0 (j : Fin 320000) :
    res_main_v5 (F := Ideal) V0 (ix1 j) = V0 (Proc.devRef .tc main_arg1) (ix3 (0 : Fin 2) (1 : Fin 2) j) := by
  unfold res_main_v5
  exact edgeIdx_apply ![0, 1, 0] _ _ 0 1 rfl rfl rfl j
theorem rows1 (j : Fin 320000) :
    res_main_v49 (F := Ideal) V0 (ix1 j) = V0 (Proc.devRef .tc main_arg1) (ix3 (1 : Fin 2) (0 : Fin 2) j) := by
  unfold res_main_v49
  exact edgeIdx_apply ![1, 0, 0] _ _ 1 0 rfl rfl rfl j
theorem cols1 (j : Fin 320000) :
    res_main_v51 (F := Ideal) V0 (ix1 j) = V0 (Proc.devRef .tc main_arg1) (ix3 (1 : Fin 2) (1 : Fin 2) j) := by
  unfold res_main_v51
  exact edgeIdx_apply ![1, 1, 0] _ _ 1 1 rfl rfl rfl j
theorem vals0 (j : Fin 320000) :
    shapeCast S320000 (extractStridedSlice S1x320000 ![0, 0] (V0 (Proc.devRef .tc main_arg2)) slices_S2x320000_S1x320000_0_0)
      shapeCasts_S1x320000_S320000 (ix1 j) = V0 (Proc.devRef .tc main_arg2) (ix2 (0 : Fin 2) j) :=
  edgeVal_apply ![0, 0] _ _ 0 rfl rfl j
theorem vals1 (j : Fin 320000) :
    shapeCast S320000 (extractStridedSlice S1x320000 ![1, 0] (V0 (Proc.devRef .tc main_arg2)) slices_S2x320000_S1x320000_1_0)
      shapeCasts_S1x320000_S320000 (ix1 j) = V0 (Proc.devRef .tc main_arg2) (ix2 (1 : Fin 2) j) :=
  edgeVal_apply ![1, 0] _ _ 1 rfl rfl j

theorem w00 (f : Fin 64) (g : Fin 128) :
    shapeCast S64x128 (extractStridedSlice S1x1x64x128 ![0, 0, 0, 0] (V0 (Proc.devRef .tc main_arg3))
      slices_S2x3x64x128_S1x1x64x128_0_0_0_0) shapeCasts_S1x1x64x128_S64x128 (ix2 f g)
      = V0 (Proc.devRef .tc main_arg3) (ix4 (0 : Fin 2) (0 : Fin 3) f g) :=
  weight_apply ![0, 0, 0, 0] _ _ 0 0 rfl rfl rfl rfl f g
theorem w01 (f : Fin 64) (g : Fin 128) :
    shapeCast S64x128 (extractStridedSlice S1x1x64x128 ![0, 1, 0, 0] (V0 (Proc.devRef .tc main_arg3))
      slices_S2x3x64x128_S1x1x64x128_0_1_0_0) shapeCasts_S1x1x64x128_S64x128 (ix2 f g)
      = V0 (Proc.devRef .tc main_arg3) (ix4 (0 : Fin 2) (1 : Fin 3) f g) :=
  weight_apply ![0, 1, 0, 0] _ _ 0 1 rfl rfl rfl rfl f g
theorem w02 (f : Fin 64) (g : Fin 128) :
    shapeCast S64x128 (extractStridedSlice S1x1x64x128 ![0, 2, 0, 0] (V0 (Proc.devRef .tc main_arg3))
      slices_S2x3x64x128_S1x1x64x128_0_2_0_0) shapeCasts_S1x1x64x128_S64x128 (ix2 f g)
      = V0 (Proc.devRef .tc main_arg3) (ix4 (0 : Fin 2) (2 : Fin 3) f g) :=
  weight_apply ![0, 2, 0, 0] _ _ 0 2 rfl rfl rfl rfl f g
theorem w10 (f : Fin 64) (g : Fin 128) :
    shapeCast S64x128 (extractStridedSlice S1x1x64x128 ![1, 0, 0, 0] (V0 (Proc.devRef .tc main_arg3))
      slices_S2x3x64x128_S1x1x64x128_1_0_0_0) shapeCasts_S1x1x64x128_S64x128 (ix2 f g)
      = V0 (Proc.devRef .tc main_arg3) (ix4 (1 : Fin 2) (0 : Fin 3) f g) :=
  weight_apply ![1, 0, 0, 0] _ _ 1 0 rfl rfl rfl rfl f g
theorem w11 (f : Fin 64) (g : Fin 128) :
    shapeCast S64x128 (extractStridedSlice S1x1x64x128 ![1, 1, 0, 0] (V0 (Proc.devRef .tc main_arg3))
      slices_S2x3x64x128_S1x1x64x128_1_1_0_0) shapeCasts_S1x1x64x128_S64x128 (ix2 f g)
      = V0 (Proc.devRef .tc main_arg3) (ix4 (1 : Fin 2) (1 : Fin 3) f g) :=
  weight_apply ![1, 1, 0, 0] _ _ 1 1 rfl rfl rfl rfl f g
theorem w12 (f : Fin 64) (g : Fin 128) :
    shapeCast S64x128 (extractStridedSlice S1x1x64x128 ![1, 2, 0, 0] (V0 (Proc.devRef .tc main_arg3))
      slices_S2x3x64x128_S1x1x64x128_1_2_0_0) shapeCasts_S1x1x64x128_S64x128 (ix2 f g)
      = V0 (Proc.devRef .tc main_arg3) (ix4 (1 : Fin 2) (2 : Fin 3) f g) :=
  weight_apply ![1, 2, 0, 0] _ _ 1 2 rfl rfl rfl rfl f g

variable (hidx : InRange (V0 (Proc.devRef .tc main_arg1)))
include hidx

theorem v24_cur :
    (fun (n : Fin 10000) (b : Fin 4) (f : Fin 64) => res_main_v24 (F := Ideal) V0 (ix3 n b f))
      = spmm (V0 (Proc.devRef .tc main_arg1)) (V0 (Proc.devRef .tc main_arg2)) 0
          (fun n b f => V0 (Proc.devRef .tc main_arg0) (ix3 b n f)) := by
  unfold res_main_v24
  rw [stage64_cur (V0 (Proc.devRef .tc main_arg1)) (V0 (Proc.devRef .tc main_arg2)) hidx 0 _ _ _
    (rows0 V0) (cols0 V0) (vals0 V0), v0_cur]

theorem v70_cur :
    (fun (n : Fin 10000) (b : Fin 4) (f : Fin 64) => res_main_v70 (F := Ideal) V0 (ix3 n b f))
      = spmm (V0 (Proc.devRef .tc main_arg1)) (V0 (Proc.devRef .tc main_arg2)) 1
          (fun n b f => V0 (Proc.devRef .tc main_arg0) (ix3 b n f)) := by
  unfold res_main_v70
  rw [stage64_cur (V0 (Proc.devRef .tc main_arg1)) (V0 (Proc.devRef .tc main_arg2)) hidx 1 _ _ _
    (rows1 V0) (cols1 V0) (vals1 V0), v0_cur]

end Assembly

section Final
variable (V0 : Valuation τ sig (Elt Ideal)) (hidx : InRange (V0 (Proc.devRef .tc main_arg1)))
include hidx

theorem res_v98_apply (n : Fin 10000) (b : Fin 4) (g : Fin 128) :
    res_main_v98 (F := Ideal) V0 (ix3 n b g)
      = filt (V0 (Proc.devRef .tc main_arg1)) (V0 (Proc.devRef .tc main_arg2))
          (fun e k f g => V0 (Proc.devRef .tc main_arg3) (ix4 e k f g)) (fun g => V0 (Proc.devRef .tc main_arg4) (ix1 g))
          (fun n b f => V0 (Proc.devRef .tc main_arg0) (ix3 b n f)) n b g := by
  unfold res_main_v98
  refine (transpose_102_apply (A := 4) (B := 10000) (C := 128) _ _ n b g).trans ?_
  refine (transpose_102_apply (A := 10000) (B := 4) (C := 128) _ _ b n g).trans ?_
  simp only [addf_apply]
  rw [zero128_apply, bias_apply,
    dot64_mix (fun e k f g => V0 (Proc.devRef .tc main_arg3) (ix4 e k f g)) 0 0 _ _ (w00 V0),
    dot64_mix (fun e k f g => V0 (Proc.devRef .tc main_arg3) (ix4 e k f g)) 0 1 _ _ (w01 V0),
    dot64_mix (fun e k f g => V0 (Proc.devRef .tc main_arg3) (ix4 e k f g)) 0 2 _ _ (w02 V0),
    dot64_mix (fun e k f g => V0 (Proc.devRef .tc main_arg3) (ix4 e k f g)) 1 0 _ _ (w10 V0),
    dot64_mix (fun e k f g => V0 (Proc.devRef .tc main_arg3) (ix4 e k f g)) 1 1 _ _ (w11 V0),
    dot64_mix (fun e k f g => V0 (Proc.devRef .tc main_arg3) (ix4 e k f g)) 1 2 _ _ (w12 V0)]
  rw [stage64_cur (V0 (Proc.devRef .tc main_arg1)) (V0 (Proc.devRef .tc main_arg2)) hidx 0 _ _ _
      (rows0 V0) (cols0 V0) (vals0 V0) (res_main_v24 V0),
    stage64_cur (V0 (Proc.devRef .tc main_arg1)) (V0 (Proc.devRef .tc main_arg2)) hidx 1 _ _ _
      (rows1 V0) (cols1 V0) (vals1 V0) (res_main_v70 V0),
    v24_cur V0 hidx, v70_cur V0 hidx, v0_cur]
  rfl

theorem res_v98_eq :
    res_main_v98 (F := Ideal) V0 = fun i =>
      Cert.Spec.filt (V0 (Proc.devRef .tc main_arg1)) (V0 (Proc.devRef .tc main_arg2))
        (fun e k f g => V0 (Proc.devRef .tc main_arg3) (ix4 e k f g)) (fun g => V0 (Proc.devRef .tc main_arg4) (ix1 g))
        (fun n b f => V0 (Proc.devRef .tc main_arg0) (ix3 b n f)) (i 0) (i 1) (i 2) := by
  funext i
  obtain ⟨n, b, g, rfl⟩ : ∃ (n : Fin 10000) (b : Fin 4) (g : Fin 128), i = ix3 n b g :=
    ⟨i 0, i 1, i 2, eq_ix3 i⟩
  exact res_v98_apply V0 hidx n b g

end Final

end Cert.ReferenceIdeal.RefValue

end
-- ==== Proof.RefL2.lean ====
import proofs.«414074_j90701119357381_1_alg».proof.Proof.Gen.ReferenceIdeal.Run
import proofs.«414074_j90701119357381_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Value Cert.Spec Idealize.ShloMosaic
  Idealize.ShloMosaic.ValueIdx Idealize.ShloMosaic.StableHlo

namespace L2

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (F : (⟨3, ![n0, n1, n2]⟩ : Shape).Idx → M) :
    ∑ i, F i = ∑ a : Fin n0, ∑ b : Fin n1, ∑ c : Fin n2, F (ix3 a b c) := by
  rw [← Equiv.sum_comp (idxEquiv3 (n0 := n0) (n1 := n1) (n2 := n2)).symm F, Fintype.sum_prod_type]
  refine Finset.sum_congr rfl fun a _ => ?_
  rw [Fintype.sum_prod_type]
  rfl

theorem edge_word (o0 o1 : ℕ) (h0 : o0 < 2) (h1 : o1 < 2) (X : S2x2x320000.Idx → BitVec 32)
    (hs : S2x2x320000.Slices ![o0, o1, 0] S1x1x320000) (hc : S1x1x320000.ShapeCasts S320000) (j : Fin 320000) :
    shapeCast S320000 (extractStridedSlice S1x1x320000 ![o0, o1, 0] X hs) hc (ix1 j)
      = X (ix3 (⟨o0, h0⟩ : Fin 2) (⟨o1, h1⟩ : Fin 2) j) := by
  refine (shapeCast_apply _ hc (ix1 j) (ix3 (0 : Fin 1) (0 : Fin 1) j) ?_).trans ?_
  · rw [Shape.rowMajor_val_three, Shape.rowMajor_val_one]
    show (0 * 1 + 0) * 320000 + j.val = j.val
    omega
  · refine extractStridedSlice_apply _ X hs _ _ fun a => ?_
    match a with
    | ⟨0, _⟩ => exact (Nat.add_zero _).symm
    | ⟨1, _⟩ => exact (Nat.add_zero _).symm
    | ⟨2, _⟩ => exact (Nat.zero_add _).symm

theorem edge_val {α : Type} (o0 : ℕ) (h0 : o0 < 2) (X : S2x320000.Idx → α)
    (hs : S2x320000.Slices ![o0, 0] S1x320000) (hc : S1x320000.ShapeCasts S320000) (j : Fin 320000) :
    shapeCast S320000 (extractStridedSlice S1x320000 ![o0, 0] X hs) hc (ix1 j) = X (ix2 (⟨o0, h0⟩ : Fin 2) j) := by
  refine (shapeCast_apply _ hc (ix1 j) (ix2 (0 : Fin 1) j) ?_).trans ?_
  · rw [Shape.rowMajor_val_two, Shape.rowMajor_val_one]
    show 0 * 320000 + j.val = j.val
    omega
  · refine extractStridedSlice_apply _ X hs _ _ fun a => ?_
    match a with
    | ⟨0, _⟩ => exact (Nat.add_zero _).symm
    | ⟨1, _⟩ => exact (Nat.zero_add _).symm

theorem weight_entry {α : Type} (o0 o1 : ℕ) (h0 : o0 < 2) (h1 : o1 < 3) (X : S2x3x128x128.Idx → α)
    (hs : S2x3x128x128.Slices ![o0, o1, 0, 0] S1x1x128x128) (hc : S1x1x128x128.ShapeCasts S128x128)
    (f g : Fin 128) :
    shapeCast S128x128 (extractStridedSlice S1x1x128x128 ![o0, o1, 0, 0] X hs) hc (ix2 f g)
      = X (ix4 (⟨o0, h0⟩ : Fin 2) (⟨o1, h1⟩ : Fin 3) f g) := by
  refine (shapeCast_apply _ hc (ix2 f g) (ix4 (0 : Fin 1) (0 : Fin 1) f g) ?_).trans ?_
  · rw [Shape.rowMajor_val_four, Shape.rowMajor_val_two]
    show ((0 * 1 + 0) * 128 + f.val) * 128 + g.val = f.val * 128 + g.val
    omega
  · refine extractStridedSlice_apply _ X hs _ _ fun a => ?_
    match a with
    | ⟨0, _⟩ => exact (Nat.add_zero _).symm
    | ⟨1, _⟩ => exact (Nat.add_zero _).symm
    | ⟨2, _⟩ => exact (Nat.zero_add _).symm
    | ⟨3, _⟩ => exact (Nat.zero_add _).symm

theorem sc_siIdx (jj : Fin 320000) (b : Fin 4) (f : Fin 128) :
    scatter_S10000x4x128_S320000x1_S320000x4x128_12_0_0_1.siIdx (ix3 jj b f)
      ⟨List.idxOf (0 : Fin S10000x4x128.rank) scatter_S10000x4x128_S320000x1_S320000x4x128_12_0_0_1.scatterDimsToOperandDims,
        List.idxOf_lt_length_iff.2 (List.mem_singleton.mpr rfl)⟩ = ix2 jj (0 : Fin 1) := by
  funext a; refine Fin.ext ?_
  match a with
  | ⟨0, _⟩ => rfl
  | ⟨1, _⟩ => rfl

theorem sc_start_0 (idx : IVec S320000x1 32) (jj : Fin 320000) (b : Fin 4) (f : Fin 128) :
    scatter_S10000x4x128_S320000x1_S320000x4x128_12_0_0_1.start (ix3 jj b f) idx (0 : Fin S10000x4x128.rank)
      = (idx (ix2 jj (0 : Fin 1))).toInt := by
  unfold ScatterDims.start
  rw [dif_pos (show (0 : Fin S10000x4x128.rank) ∈ scatter_S10000x4x128_S320000x1_S320000x4x128_12_0_0_1.scatterDimsToOperandDims
    from List.mem_singleton.mpr rfl), sc_siIdx]

theorem sc_start_1 (idx : IVec S320000x1 32) (jj : Fin 320000) (b : Fin 4) (f : Fin 128) :
    scatter_S10000x4x128_S320000x1_S320000x4x128_12_0_0_1.start (ix3 jj b f) idx (1 : Fin S10000x4x128.rank) = 0 := by
  unfold ScatterDims.start
  rw [dif_neg (show ¬(1 : Fin S10000x4x128.rank) ∈ scatter_S10000x4x128_S320000x1_S320000x4x128_12_0_0_1.scatterDimsToOperandDims by decide)]

theorem sc_start_2 (idx : IVec S320000x1 32) (jj : Fin 320000) (b : Fin 4) (f : Fin 128) :
    scatter_S10000x4x128_S320000x1_S320000x4x128_12_0_0_1.start (ix3 jj b f) idx (2 : Fin S10000x4x128.rank) = 0 := by
  unfold ScatterDims.start
  rw [dif_neg (show ¬(2 : Fin S10000x4x128.rank) ∈ scatter_S10000x4x128_S320000x1_S320000x4x128_12_0_0_1.scatterDimsToOperandDims by decide)]

theorem sc_window_0 (jj : Fin 320000) (b : Fin 4) (f : Fin 128) :
    scatter_S10000x4x128_S320000x1_S320000x4x128_12_0_0_1.window (ix3 jj b f) (0 : Fin S10000x4x128.rank) = 0 := by
  unfold ScatterDims.window
  rw [dif_neg (show ¬(0 : Fin S10000x4x128.rank) ∈ scatter_S10000x4x128_S320000x1_S320000x4x128_12_0_0_1.sKept by decide)]

theorem sc_window_1 (jj : Fin 320000) (b : Fin 4) (f : Fin 128) :
    scatter_S10000x4x128_S320000x1_S320000x4x128_12_0_0_1.window (ix3 jj b f) (1 : Fin S10000x4x128.rank) = b.val := by
  unfold ScatterDims.window
  rw [dif_pos (show (1 : Fin S10000x4x128.rank) ∈ scatter_S10000x4x128_S320000x1_S320000x4x128_12_0_0_1.sKept by decide)]
  rfl

theorem sc_window_2 (jj : Fin 320000) (b : Fin 4) (f : Fin 128) :
    scatter_S10000x4x128_S320000x1_S320000x4x128_12_0_0_1.window (ix3 jj b f) (2 : Fin S10000x4x128.rank) = f.val := by
  unfold ScatterDims.window
  rw [dif_pos (show (2 : Fin S10000x4x128.rank) ∈ scatter_S10000x4x128_S320000x1_S320000x4x128_12_0_0_1.sKept by decide)]
  rfl

theorem sc_resultIdx (idx : IVec S320000x1 32) (jj : Fin 320000) (b : Fin 4) (f : Fin 128) (r : Fin 10000)
    (hr : (idx (ix2 jj (0 : Fin 1))).toInt = (r.val : Int)) :
    scatter_S10000x4x128_S320000x1_S320000x4x128_12_0_0_1.resultIdx? (ix3 jj b f) idx = some (ix3 r b f) := by
  have e0 : scatter_S10000x4x128_S320000x1_S320000x4x128_12_0_0_1.start (ix3 jj b f) idx (0 : Fin S10000x4x128.rank)
      + scatter_S10000x4x128_S320000x1_S320000x4x128_12_0_0_1.window (ix3 jj b f) (0 : Fin S10000x4x128.rank) = (r.val : Int) := by
    rw [sc_start_0, sc_window_0, hr]; simp
  have e1 : scatter_S10000x4x128_S320000x1_S320000x4x128_12_0_0_1.start (ix3 jj b f) idx (1 : Fin S10000x4x128.rank)
      + scatter_S10000x4x128_S320000x1_S320000x4x128_12_0_0_1.window (ix3 jj b f) (1 : Fin S10000x4x128.rank) = (b.val : Int) := by
    rw [sc_start_1, sc_window_1]; simp
  have e2 : scatter_S10000x4x128_S320000x1_S320000x4x128_12_0_0_1.start (ix3 jj b f) idx (2 : Fin S10000x4x128.rank)
      + scatter_S10000x4x128_S320000x1_S320000x4x128_12_0_0_1.window (ix3 jj b f) (2 : Fin S10000x4x128.rank) = (f.val : Int) := by
    rw [sc_start_2, sc_window_2]; simp
  have key : ∀ (x : Int) (m k : ℕ), x = (k : Int) → k < m → 0 ≤ x ∧ x < (m : Int) := fun x m k h hk => by
    subst h; exact ⟨Int.natCast_nonneg _, by exact_mod_cast hk⟩
  unfold ScatterDims.resultIdx?
  rw [dif_pos (fun a => by
    match a with
    | ⟨0, _⟩ => exact key _ 10000 _ e0 r.isLt
    | ⟨1, _⟩ => exact key _ 4 _ e1 b.isLt
    | ⟨2, _⟩ => exact key _ 128 _ e2 f.isLt)]
  refine congrArg some (funext fun a => Fin.ext ?_)
  match a with
  | ⟨0, _⟩ => exact (congrArg Int.toNat e0).trans (Int.toNat_natCast _)
  | ⟨1, _⟩ => exact (congrArg Int.toNat e1).trans (Int.toNat_natCast _)
  | ⟨2, _⟩ => exact (congrArg Int.toNat e2).trans (Int.toNat_natCast _)

theorem ga_siIdx (jj : Fin 320000) (b : Fin 4) (f : Fin 128) :
    gather_S10000x4x128_S320000x1_S320000x4x128_12_0_n_n_0_1_14128.siIdx (ix3 jj b f)
      ⟨List.idxOf (0 : Fin S10000x4x128.rank) gather_S10000x4x128_S320000x1_S320000x4x128_12_0_n_n_0_1_14128.startIndexMap,
        List.idxOf_lt_length_iff.2 (List.mem_singleton.mpr rfl)⟩ = ix2 jj (0 : Fin 1) := by
  funext a; refine Fin.ext ?_
  match a with
  | ⟨0, _⟩ => rfl
  | ⟨1, _⟩ => rfl

theorem ga_coord_0 (idx : IVec S320000x1 32) (jj : Fin 320000) (b : Fin 4) (f : Fin 128) :
    (gather_S10000x4x128_S320000x1_S320000x4x128_12_0_n_n_0_1_14128.operandIdx (ix3 jj b f) idx (0 : Fin S10000x4x128.rank)).val
      = min (idx (ix2 jj (0 : Fin 1))).toInt.toNat (10000 - 1) := by
  show gather_S10000x4x128_S320000x1_S320000x4x128_12_0_n_n_0_1_14128.start (ix3 jj b f) idx (0 : Fin S10000x4x128.rank)
    + gather_S10000x4x128_S320000x1_S320000x4x128_12_0_n_n_0_1_14128.batchCoord (ix3 jj b f) (0 : Fin S10000x4x128.rank)
    + gather_S10000x4x128_S320000x1_S320000x4x128_12_0_n_n_0_1_14128.offCoord (ix3 jj b f) (0 : Fin S10000x4x128.rank) = _
  rw [GatherDims.batchCoord_eq_zero _ _ _ List.not_mem_nil,
    GatherDims.offCoord_eq_zero _ _ _ (show ¬(0 : Fin S10000x4x128.rank) ∈ gather_S10000x4x128_S320000x1_S320000x4x128_12_0_n_n_0_1_14128.sKept by decide)]
  unfold GatherDims.start
  rw [dif_pos (show (0 : Fin S10000x4x128.rank) ∈ gather_S10000x4x128_S320000x1_S320000x4x128_12_0_n_n_0_1_14128.startIndexMap
    from List.mem_singleton.mpr rfl), ga_siIdx]
  rfl

theorem ga_coord_1 (idx : IVec S320000x1 32) (jj : Fin 320000) (b : Fin 4) (f : Fin 128) :
    (gather_S10000x4x128_S320000x1_S320000x4x128_12_0_n_n_0_1_14128.operandIdx (ix3 jj b f) idx (1 : Fin S10000x4x128.rank)).val = b.val := by
  show gather_S10000x4x128_S320000x1_S320000x4x128_12_0_n_n_0_1_14128.start (ix3 jj b f) idx (1 : Fin S10000x4x128.rank)
    + gather_S10000x4x128_S320000x1_S320000x4x128_12_0_n_n_0_1_14128.batchCoord (ix3 jj b f) (1 : Fin S10000x4x128.rank)
    + gather_S10000x4x128_S320000x1_S320000x4x128_12_0_n_n_0_1_14128.offCoord (ix3 jj b f) (1 : Fin S10000x4x128.rank) = _
  rw [GatherDims.batchCoord_eq_zero _ _ _ List.not_mem_nil]
  unfold GatherDims.start GatherDims.offCoord
  rw [dif_neg (show ¬(1 : Fin S10000x4x128.rank) ∈ gather_S10000x4x128_S320000x1_S320000x4x128_12_0_n_n_0_1_14128.startIndexMap by decide),
    dif_pos (show (1 : Fin S10000x4x128.rank) ∈ gather_S10000x4x128_S320000x1_S320000x4x128_12_0_n_n_0_1_14128.sKept by decide)]
  show 0 + 0 + b.val = b.val
  omega

theorem ga_coord_2 (idx : IVec S320000x1 32) (jj : Fin 320000) (b : Fin 4) (f : Fin 128) :
    (gather_S10000x4x128_S320000x1_S320000x4x128_12_0_n_n_0_1_14128.operandIdx (ix3 jj b f) idx (2 : Fin S10000x4x128.rank)).val = f.val := by
  show gather_S10000x4x128_S320000x1_S320000x4x128_12_0_n_n_0_1_14128.start (ix3 jj b f) idx (2 : Fin S10000x4x128.rank)
    + gather_S10000x4x128_S320000x1_S320000x4x128_12_0_n_n_0_1_14128.batchCoord (ix3 jj b f) (2 : Fin S10000x4x128.rank)
    + gather_S10000x4x128_S320000x1_S320000x4x128_12_0_n_n_0_1_14128.offCoord (ix3 jj b f) (2 : Fin S10000x4x128.rank) = _
  rw [GatherDims.batchCoord_eq_zero _ _ _ List.not_mem_nil]
  unfold GatherDims.start GatherDims.offCoord
  rw [dif_neg (show ¬(2 : Fin S10000x4x128.rank) ∈ gather_S10000x4x128_S320000x1_S320000x4x128_12_0_n_n_0_1_14128.startIndexMap by decide),
    dif_pos (show (2 : Fin S10000x4x128.rank) ∈ gather_S10000x4x128_S320000x1_S320000x4x128_12_0_n_n_0_1_14128.sKept by decide)]
  show 0 + 0 + f.val = f.val
  omega

theorem ga_operandIdx (idx : IVec S320000x1 32) (jj : Fin 320000) (b : Fin 4) (f : Fin 128) (c : Fin 10000)
    (hc : (idx (ix2 jj (0 : Fin 1))).toInt = (c.val : Int)) :
    gather_S10000x4x128_S320000x1_S320000x4x128_12_0_n_n_0_1_14128.operandIdx (ix3 jj b f) idx = ix3 c b f := by
  funext a; refine Fin.ext ?_
  match a with
  | ⟨0, _⟩ =>
    refine (ga_coord_0 idx jj b f).trans ?_
    rw [hc, Int.toNat_natCast]
    have := c.isLt
    show min c.val (10000 - 1) = c.val
    omega
  | ⟨1, _⟩ => exact ga_coord_1 idx jj b f
  | ⟨2, _⟩ => exact ga_coord_2 idx jj b f

theorem lhs_dt_0 (i : S10000x4x128.Idx) (q : dot_S10000x4x128_S128x128_S10000x4x128_2_0_01_1_n_n.contr.Idx) :
    (dot_S10000x4x128_S128x128_S10000x4x128_2_0_01_1_n_n.lhsIdx i q 0).val = (i 0).val := by
  unfold DotDims.lhsIdx
  rw [dif_neg (show ¬(0 : Fin S10000x4x128.rank) ∈ dot_S10000x4x128_S128x128_S10000x4x128_2_0_01_1_n_n.lhsBatch by decide),
    dif_pos (show (0 : Fin S10000x4x128.rank) ∈ dot_S10000x4x128_S128x128_S10000x4x128_2_0_01_1_n_n.lhsNonContracting by decide)]
  rfl

theorem lhs_dt_1 (i : S10000x4x128.Idx) (q : dot_S10000x4x128_S128x128_S10000x4x128_2_0_01_1_n_n.contr.Idx) :
    (dot_S10000x4x128_S128x128_S10000x4x128_2_0_01_1_n_n.lhsIdx i q 1).val = (i 1).val := by
  unfold DotDims.lhsIdx
  rw [dif_neg (show ¬(1 : Fin S10000x4x128.rank) ∈ dot_S10000x4x128_S128x128_S10000x4x128_2_0_01_1_n_n.lhsBatch by decide),
    dif_pos (show (1 : Fin S10000x4x128.rank) ∈ dot_S10000x4x128_S128x128_S10000x4x128_2_0_01_1_n_n.lhsNonContracting by decide)]
  rfl

theorem lhs_dt_2 (i : S10000x4x128.Idx) (q : dot_S10000x4x128_S128x128_S10000x4x128_2_0_01_1_n_n.contr.Idx) :
    (dot_S10000x4x128_S128x128_S10000x4x128_2_0_01_1_n_n.lhsIdx i q 2).val = (q ⟨0, by decide⟩).val :=
  dot_S10000x4x128_S128x128_S10000x4x128_2_0_01_1_n_n.lhsIdx_val_of_single rfl i q

theorem rhs_dt_0 (i : S10000x4x128.Idx) (q : dot_S10000x4x128_S128x128_S10000x4x128_2_0_01_1_n_n.contr.Idx) :
    (dot_S10000x4x128_S128x128_S10000x4x128_2_0_01_1_n_n.rhsIdx i q 0).val = (q ⟨0, by decide⟩).val :=
  dot_S10000x4x128_S128x128_S10000x4x128_2_0_01_1_n_n.rhsIdx_val_of_single rfl i q

theorem rhs_dt_1 (i : S10000x4x128.Idx) (q : dot_S10000x4x128_S128x128_S10000x4x128_2_0_01_1_n_n.contr.Idx) :
    (dot_S10000x4x128_S128x128_S10000x4x128_2_0_01_1_n_n.rhsIdx i q 1).val = (i 2).val := by
  unfold DotDims.rhsIdx
  rw [dif_neg (show ¬(1 : Fin S128x128.rank) ∈ dot_S10000x4x128_S128x128_S10000x4x128_2_0_01_1_n_n.rhsBatch by decide),
    dif_pos (show (1 : Fin S128x128.rank) ∈ dot_S10000x4x128_S128x128_S10000x4x128_2_0_01_1_n_n.rhsNonContracting by decide)]
  rfl

theorem dot_apply (L : FVec Ideal S10000x4x128 .f32) (R : FVec Ideal S128x128 .f32) (n : Fin 10000) (b : Fin 4) (g : Fin 128) :
    Host.dotGeneral (F := Ideal) dot_S10000x4x128_S128x128_S10000x4x128_2_0_01_1_n_n none L R (ix3 n b g)
      = ∑ f : Fin 128, L (ix3 n b f) * R (ix2 f g) := by
  simp only [Host.dotGeneral]
  rw [Ideal.dotGeneral_apply, ← Equiv.sum_comp (ValueIdx.contrEquiv1 dot_S10000x4x128_S128x128_S10000x4x128_2_0_01_1_n_n 128 rfl rfl).symm]
  refine Finset.sum_congr rfl fun k _ => ?_
  have hk := ValueIdx.contrEquiv1_symm_val dot_S10000x4x128_S128x128_S10000x4x128_2_0_01_1_n_n 128 rfl rfl k
  have el : dot_S10000x4x128_S128x128_S10000x4x128_2_0_01_1_n_n.lhsIdx (ix3 n b g)
      ((ValueIdx.contrEquiv1 dot_S10000x4x128_S128x128_S10000x4x128_2_0_01_1_n_n 128 rfl rfl).symm k) = ix3 n b k :=
    funext fun a => Fin.ext (by
      match a with
      | ⟨0, _⟩ => exact lhs_dt_0 _ _
      | ⟨1, _⟩ => exact lhs_dt_1 _ _
      | ⟨2, _⟩ => exact (lhs_dt_2 _ _).trans hk)
  have er : dot_S10000x4x128_S128x128_S10000x4x128_2_0_01_1_n_n.rhsIdx (ix3 n b g)
      ((ValueIdx.contrEquiv1 dot_S10000x4x128_S128x128_S10000x4x128_2_0_01_1_n_n 128 rfl rfl).symm k) = ix2 k g :=
    funext fun a => Fin.ext (by
      match a with
      | ⟨0, _⟩ => exact (rhs_dt_0 _ _).trans hk
      | ⟨1, _⟩ => exact rhs_dt_1 _ _)
  rw [el, er]

theorem toInt_of_lt (w : BitVec 32) (h : w.toNat < 10000) : w.toInt = (w.toNat : Int) := by
  rw [BitVec.toInt_eq_toNat_cond, if_pos (by omega)]

theorem wrap_of_lt (w : BitVec 32) (h : w.toNat < 10000) :
    Scalar.select (IntOp.cmpi .slt w 0#32) (IntOp.addi w 10000#32) w = w := by
  refine if_neg fun h1 => ?_
  have h2 : w.toInt < (0#32 : BitVec 32).toInt := IntOp.cmpi_slt.1 h1
  rw [toInt_of_lt w h] at h2
  have : (0#32 : BitVec 32).toInt = 0 := by decide
  omega

theorem ix3_inj {n0 n1 n2 : Nat} {a a' : Fin n0} {b b' : Fin n1} {c c' : Fin n2} (h : ix3 a b c = ix3 a' b' c') :
    a = a' ∧ b = b' ∧ c = c' :=
  ⟨congrFun h 0, congrFun h 1, congrFun h 2⟩

section Stage
variable (ei : SEI.Idx → BitVec 32) (ev : SEV.Idx → EReal)

theorem row_val (hidx : InRange ei) (e : Fin 2) (j : Fin 320000) :
    (ei (ix3 e (0 : Fin 2) j)).toInt = ((row ei e j).val : Int) := by
  rw [toInt_of_lt _ (hidx _)]
  show _ = (((ei (ix3 e (0 : Fin 2) j)).toNat % 10000 : ℕ) : Int)
  rw [Nat.mod_eq_of_lt (hidx _)]

theorem col_val (hidx : InRange ei) (e : Fin 2) (j : Fin 320000) :
    (ei (ix3 e (1 : Fin 2) j)).toInt = ((col ei e j).val : Int) := by
  rw [toInt_of_lt _ (hidx _)]
  show _ = (((ei (ix3 e (1 : Fin 2) j)).toNat % 10000 : ℕ) : Int)
  rw [Nat.mod_eq_of_lt (hidx _)]

theorem col_of_list (hb : S320000.BroadcastsInDim S320000x1 (![0] : Fin 1 → Fin S320000x1.rank)) (v : IVec S320000 32)
    (j : Fin 320000) : broadcastInDim S320000x1 ![0] hb v (ix2 j (0 : Fin 1)) = v (ix1 j) :=
  broadcastInDim_apply _ hb v _ (ix1 j) (fun a => by
    match a with
    | ⟨0, _⟩ => show j.val = if (320000 : ℕ) = 1 then 0 else j.val; rw [if_neg (by decide)])

theorem vals_spread (hb1 : S320000.BroadcastsInDim S320000x1x1 (![0] : Fin 1 → Fin S320000x1x1.rank))
    (hb2 : S320000x1x1.BroadcastsInDim S320000x4x128 (![0, 1, 2] : Fin 3 → Fin S320000x4x128.rank))
    (v : FVec Ideal S320000 .f32) (j : Fin 320000) (b : Fin 4) (f : Fin 128) :
    broadcastInDim S320000x4x128 ![0, 1, 2] hb2 (broadcastInDim S320000x1x1 ![0] hb1 v) (ix3 j b f) = v (ix1 j) := by
  refine (broadcastInDim_apply _ hb2 _ _ (ix3 j (0 : Fin 1) (0 : Fin 1)) (fun a => by
    match a with
    | ⟨0, _⟩ => show j.val = if (320000 : ℕ) = 1 then 0 else j.val; rw [if_neg (by decide)]
    | ⟨1, _⟩ => show 0 = if (1 : ℕ) = 1 then 0 else b.val; rw [if_pos rfl]
    | ⟨2, _⟩ => show 0 = if (1 : ℕ) = 1 then 0 else f.val; rw [if_pos rfl])).trans ?_
  exact broadcastInDim_apply _ hb1 v _ (ix1 j) (fun a => by
    match a with
    | ⟨0, _⟩ => show j.val = if (320000 : ℕ) = 1 then 0 else j.val; rw [if_neg (by decide)])

theorem stage (hidx : InRange ei) (e : Fin 2) (rows cols : IVec S320000 32) (vals : FVec Ideal S320000 .f32)
    (z : FVec Ideal S10000x4x128 .f32)
    (hr : ∀ j : Fin 320000, rows (ix1 j) = ei (ix3 e (0 : Fin 2) j))
    (hc : ∀ j : Fin 320000, cols (ix1 j) = ei (ix3 e (1 : Fin 2) j))
    (hv : ∀ j : Fin 320000, vals (ix1 j) = ev (ix2 e j))
    (hz : S_.BroadcastsInDim S10000x4x128 (![] : Fin 0 → Fin S10000x4x128.rank))
    (hs : S_.BroadcastsInDim S320000 (![] : Fin 0 → Fin S320000.rank))
    (hb : S320000.BroadcastsInDim S320000x1 (![0] : Fin 1 → Fin S320000x1.rank))
    (hb1 : S320000.BroadcastsInDim S320000x1x1 (![0] : Fin 1 → Fin S320000x1x1.rank))
    (hb2 : S320000x1x1.BroadcastsInDim S320000x4x128 (![0, 1, 2] : Fin 3 → Fin S320000x4x128.rank))
    (n : Fin 10000) (b : Fin 4) (f : Fin 128) :
    Host.scatterAdd (F := Ideal) scatter_S10000x4x128_S320000x1_S320000x4x128_12_0_0_1
      (broadcastInDim S10000x4x128 ![] hz (constant (F := Ideal) S_ .f32 0x00000000#32))
      (broadcastInDim S320000x1 ![0] hb rows)
      (mulf (Host.gather gather_S10000x4x128_S320000x1_S320000x4x128_12_0_n_n_0_1_14128 z
          (broadcastInDim S320000x1 ![0] hb
            (select (cmpi .slt cols (broadcastInDim S320000 ![] hs (constantI S_ 32 0#32)))
              (addi cols (broadcastInDim S320000 ![] hs (constantI S_ 32 10000#32))) cols)))
        (broadcastInDim S320000x4x128 ![0, 1, 2] hb2 (broadcastInDim S320000x1x1 ![0] hb1 vals)))
      (ix3 n b f)
    = spmm ei ev e (fun n b f => z (ix3 n b f)) n b f := by
  unfold Host.scatterAdd
  rw [Ideal.hostScatterAdd_def]
  unfold Ideal.hostScatterAdd
  rw [show broadcastInDim S10000x4x128 ![] hz (constant (F := Ideal) S_ .f32 0x00000000#32) (ix3 n b f) = 0
    from Ideal.ofBits_zero_f32, zero_add, Finset.sum_filter, sum_idx3]
  unfold spmm
  refine Finset.sum_congr rfl fun jj _ => ?_
  have hrT : (broadcastInDim S320000x1 ![0] hb rows (ix2 jj (0 : Fin 1))).toInt = ((row ei e jj).val : Int) := by
    rw [col_of_list, hr, row_val ei hidx]
  have hres : ∀ (b' : Fin 4) (f' : Fin 128),
      scatter_S10000x4x128_S320000x1_S320000x4x128_12_0_0_1.resultIdx? (ix3 jj b' f') (broadcastInDim S320000x1 ![0] hb rows)
        = some (ix3 (row ei e jj) b' f') :=
    fun b' f' => sc_resultIdx _ jj b' f' _ hrT
  have hcT : (broadcastInDim S320000x1 ![0] hb
      (select (cmpi .slt cols (broadcastInDim S320000 ![] hs (constantI S_ 32 0#32)))
        (addi cols (broadcastInDim S320000 ![] hs (constantI S_ 32 10000#32))) cols) (ix2 jj (0 : Fin 1))).toInt
      = ((col ei e jj).val : Int) := by
    rw [col_of_list]
    show (Scalar.select (IntOp.cmpi .slt (cols (ix1 jj)) 0#32) (IntOp.addi (cols (ix1 jj)) 10000#32) (cols (ix1 jj))).toInt = _
    rw [hc, wrap_of_lt _ (hidx _), col_val ei hidx]
  have hupd : mulf (Host.gather gather_S10000x4x128_S320000x1_S320000x4x128_12_0_n_n_0_1_14128 z
          (broadcastInDim S320000x1 ![0] hb
            (select (cmpi .slt cols (broadcastInDim S320000 ![] hs (constantI S_ 32 0#32)))
              (addi cols (broadcastInDim S320000 ![] hs (constantI S_ 32 10000#32))) cols)))
        (broadcastInDim S320000x4x128 ![0, 1, 2] hb2 (broadcastInDim S320000x1x1 ![0] hb1 vals)) (ix3 jj b f)
      = z (ix3 (col ei e jj) b f) * val ev e jj := by
    rw [mulf_apply, vals_spread, hv]
    unfold Host.gather
    rw [ga_operandIdx _ jj b f _ hcT]
    rfl
  by_cases hrow : row ei e jj = n
  · rw [if_pos hrow, Finset.sum_eq_single b, Finset.sum_eq_single f]
    · rw [if_pos (by rw [hres, hrow]), hupd]
    · intro f' _ hf'
      exact if_neg (by rw [hres]; exact fun h => hf' (ix3_inj (Option.some.inj h)).2.2)
    · intro h; exact absurd (Finset.mem_univ _) h
    · intro b' _ hb'
      exact Finset.sum_eq_zero fun f' _ => if_neg (by rw [hres]; exact fun h => hb' (ix3_inj (Option.some.inj h)).2.1)
    · intro h; exact absurd (Finset.mem_univ _) h
  · rw [if_neg hrow]
    exact Finset.sum_eq_zero fun b' _ => Finset.sum_eq_zero fun f' _ =>
      if_neg (by rw [hres]; exact fun h => hrow (ix3_inj (Option.some.inj h)).1)

end Stage

theorem tap (e k : ℕ) (he : e < 2) (hk : k < 3) (L : FVec Ideal S10000x4x128 .f32) (W : FVec Ideal S2x3x128x128 .f32)
    (hs : S2x3x128x128.Slices ![e, k, 0, 0] S1x1x128x128) (hc : S1x1x128x128.ShapeCasts S128x128)
    (n : Fin 10000) (b : Fin 4) (g : Fin 128) :
    Host.dotGeneral (F := Ideal) dot_S10000x4x128_S128x128_S10000x4x128_2_0_01_1_n_n none L
        (shapeCast S128x128 (extractStridedSlice S1x1x128x128 ![e, k, 0, 0] W hs) hc) (ix3 n b g)
      = mix (fun e k f g => W (ix4 e k f g)) (⟨e, he⟩ : Fin 2) (⟨k, hk⟩ : Fin 3) (fun n b f => L (ix3 n b f)) n b g := by
  rw [dot_apply]
  unfold mix
  refine Finset.sum_congr rfl fun f _ => ?_
  rw [weight_entry e k he hk]

theorem bias_spread (h1 : S128.BroadcastsInDim S1x1x128 (![2] : Fin 1 → Fin S1x1x128.rank))
    (h2 : S1x1x128.BroadcastsInDim S10000x4x128 (![0, 1, 2] : Fin 3 → Fin S10000x4x128.rank))
    (B : FVec Ideal S128 .f32) (n : Fin 10000) (b : Fin 4) (g : Fin 128) :
    broadcastInDim S10000x4x128 ![0, 1, 2] h2 (broadcastInDim S1x1x128 ![2] h1 B) (ix3 n b g) = B (ix1 g) := by
  refine (broadcastInDim_apply _ h2 _ _ (ix3 (0 : Fin 1) (0 : Fin 1) g) (fun a => by
    match a with
    | ⟨0, _⟩ => show 0 = if (1 : ℕ) = 1 then 0 else n.val; rw [if_pos rfl]
    | ⟨1, _⟩ => show 0 = if (1 : ℕ) = 1 then 0 else b.val; rw [if_pos rfl]
    | ⟨2, _⟩ => show g.val = if (128 : ℕ) = 1 then 0 else g.val; rw [if_neg (by decide)])).trans ?_
  exact broadcastInDim_apply _ h1 B _ (ix1 g) (fun a => by
    match a with
    | ⟨0, _⟩ => show g.val = if (128 : ℕ) = 1 then 0 else g.val; rw [if_neg (by decide)])

section Second
variable (V0 : Valuation τ sig (Elt Ideal))

theorem v101_at (j : Fin 320000) :
    res_main_v101 (F := Ideal) V0 (ix1 j) = V0 (Proc.devRef .tc main_arg1) (ix3 (0 : Fin 2) (0 : Fin 2) j) := by
  unfold res_main_v101
  exact edge_word 0 0 (by decide) (by decide) _ _ _ j

theorem v103_at (j : Fin 320000) :
    res_main_v103 (F := Ideal) V0 (ix1 j) = V0 (Proc.devRef .tc main_arg1) (ix3 (0 : Fin 2) (1 : Fin 2) j) := by
  unfold res_main_v103
  exact edge_word 0 1 (by decide) (by decide) _ _ _ j

theorem v147_at (j : Fin 320000) :
    res_main_v147 (F := Ideal) V0 (ix1 j) = V0 (Proc.devRef .tc main_arg1) (ix3 (1 : Fin 2) (0 : Fin 2) j) := by
  unfold res_main_v147
  exact edge_word 1 0 (by decide) (by decide) _ _ _ j

theorem v149_at (j : Fin 320000) :
    res_main_v149 (F := Ideal) V0 (ix1 j) = V0 (Proc.devRef .tc main_arg1) (ix3 (1 : Fin 2) (1 : Fin 2) j) := by
  unfold res_main_v149
  exact edge_word 1 1 (by decide) (by decide) _ _ _ j

theorem v122_at (hidx : InRange (V0 (Proc.devRef .tc main_arg1))) (n : Fin 10000) (b : Fin 4) (f : Fin 128) :
    res_main_v122 (F := Ideal) V0 (ix3 n b f)
      = spmm (V0 (Proc.devRef .tc main_arg1)) (V0 (Proc.devRef .tc main_arg2)) 0
          (fun n b f => res_main_v98 (F := Ideal) V0 (ix3 n b f)) n b f := by
  unfold res_main_v122
  exact stage _ _ hidx 0 _ _ _ _ (v101_at V0) (v103_at V0) (fun j => edge_val 0 (by decide) _ _ _ j) _ _ _ _ _ n b f

theorem v168_at (hidx : InRange (V0 (Proc.devRef .tc main_arg1))) (n : Fin 10000) (b : Fin 4) (f : Fin 128) :
    res_main_v168 (F := Ideal) V0 (ix3 n b f)
      = spmm (V0 (Proc.devRef .tc main_arg1)) (V0 (Proc.devRef .tc main_arg2)) 1
          (fun n b f => res_main_v98 (F := Ideal) V0 (ix3 n b f)) n b f := by
  unfold res_main_v168
  exact stage _ _ hidx 1 _ _ _ _ (v147_at V0) (v149_at V0) (fun j => edge_val 1 (by decide) _ _ _ j) _ _ _ _ _ n b f

end Second

section Final
variable (V0 : Valuation τ sig (Elt Ideal))

theorem v197_at (hidx : InRange (V0 (Proc.devRef .tc main_arg1))) (b : Fin 4) (g : Fin 128) :
    val4 (F := Ideal) V0 (Proc.devRef .tc main_v197) (ix2 b g)
      = filt (V0 (Proc.devRef .tc main_arg1)) (V0 (Proc.devRef .tc main_arg2))
          (fun e k f g => V0 (Proc.devRef .tc main_arg5) (ix4 e k f g)) (fun g => V0 (Proc.devRef .tc main_arg6) (ix1 g))
          (fun n b f => res_main_v98 (F := Ideal) V0 (ix3 n b f)) ⟨0, by norm_num⟩ b g := by
  have h122 : (fun (n : Fin 10000) (b : Fin 4) (f : Fin 128) => res_main_v122 (F := Ideal) V0 (ix3 n b f))
      = spmm (V0 (Proc.devRef .tc main_arg1)) (V0 (Proc.devRef .tc main_arg2)) 0
          (fun n b f => res_main_v98 (F := Ideal) V0 (ix3 n b f)) :=
    funext fun n => funext fun b => funext fun f => v122_at V0 hidx n b f
  have h168 : (fun (n : Fin 10000) (b : Fin 4) (f : Fin 128) => res_main_v168 (F := Ideal) V0 (ix3 n b f))
      = spmm (V0 (Proc.devRef .tc main_arg1)) (V0 (Proc.devRef .tc main_arg2)) 1
          (fun n b f => res_main_v98 (F := Ideal) V0 (ix3 n b f)) :=
    funext fun n => funext fun b => funext fun f => v168_at V0 hidx n b f
  rw [val4_main_v197]
  refine (shapeCast_apply _ _ (ix2 b g) (ix3 b (0 : Fin 1) g) ?_).trans ?_
  · rw [Shape.rowMajor_val_three, Shape.rowMajor_val_two]
    show (b.val * 1 + 0) * 128 + g.val = b.val * 128 + g.val
    omega
  refine (extractStridedSlice_apply _ _ _ _ (ix3 b (0 : Fin 10000) g) (fun a => by
    match a with
    | ⟨0, _⟩ => exact (Nat.zero_add _).symm
    | ⟨1, _⟩ => exact (Nat.zero_add _).symm
    | ⟨2, _⟩ => exact (Nat.zero_add _).symm)).trans ?_
  refine (transpose_apply _ _ _ _ (ix3 (0 : Fin 10000) b g) (fun a => by
    match a with
    | ⟨0, _⟩ => rfl
    | ⟨1, _⟩ => rfl
    | ⟨2, _⟩ => rfl)).trans ?_
  simp only [addf_apply]
  unfold filt
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  · exact Ideal.ofBits_zero_f32
  · exact tap 0 0 (by decide) (by decide) _ _ _ _ _ b g
  · refine (tap 0 1 (by decide) (by decide) _ _ _ _ _ b g).trans ?_
    rw [h122]
    rfl
  · refine (tap 0 2 (by decide) (by decide) _ _ _ _ _ b g).trans ?_
    refine congrArg (fun z => mix _ (0 : Fin 2) (2 : Fin 3) z _ b g) ?_
    refine funext fun n => funext fun b => funext fun f => ?_
    refine (stage _ _ hidx 0 _ _ _ _ (v101_at V0) (v103_at V0) (fun j => edge_val 0 (by decide) _ _ _ j) _ _ _ _ _ n b f).trans ?_
    rw [h122]
  · exact tap 1 0 (by decide) (by decide) _ _ _ _ _ b g
  · refine (tap 1 1 (by decide) (by decide) _ _ _ _ _ b g).trans ?_
    rw [h168]
    rfl
  · refine (tap 1 2 (by decide) (by decide) _ _ _ _ _ b g).trans ?_
    refine congrArg (fun z => mix _ (1 : Fin 2) (2 : Fin 3) z _ b g) ?_
    refine funext fun n => funext fun b => funext fun f => ?_
    refine (stage _ _ hidx 1 _ _ _ _ (v147_at V0) (v149_at V0) (fun j => edge_val 1 (by decide) _ _ _ j) _ _ _ _ _ n b f).trans ?_
    rw [h168]
  · exact bias_spread _ _ _ _ b g

end Final

end L2

section Result
variable (V0 : Valuation τ sig (Elt Ideal))

open L2 in

theorem v197_eq (hidx : Cert.Spec.InRange (V0 (Proc.devRef .tc main_arg1))) :
    val4 (F := Ideal) V0 (Proc.devRef .tc main_v197) = fun i =>
      Cert.Spec.filt (V0 (Proc.devRef .tc main_arg1)) (V0 (Proc.devRef .tc main_arg2))
        (fun e k f g => V0 (Proc.devRef .tc main_arg5) (ix4 e k f g)) (fun g => V0 (Proc.devRef .tc main_arg6) (ix1 g))
        (fun n b f => res_main_v98 (F := Ideal) V0 (ix3 n b f)) ⟨0, by norm_num⟩ (i 0) (i 1) := by
  funext i
  exact (congrArg _ (eq_ix2 i)).trans (v197_at V0 hidx (i 0) (i 1))

end Result

end Cert.ReferenceIdeal.RefValue

end
-- ==== Proof.RefValue.lean ====
import proofs.«414074_j90701119357381_1_alg».proof.Proof.RefL1
import proofs.«414074_j90701119357381_1_alg».proof.Proof.RefL2

noncomputable section

namespace Cert.ReferenceIdeal.RefValue

open Cert.ReferenceIdeal Cert.ReferenceIdeal.Gen Cert.ReferenceIdeal.Value Cert.Spec
open Idealize.ShloMosaic Idealize.ShloMosaic.TcCoe Idealize.ShloMosaic.ValueIdx Idealize.ShloMosaic.StableHlo Idealize.SL.Sem

theorem layer1_eq (V0 : Valuation τ sig (Elt Ideal)) (hidx : InRange (V0 (Proc.devRef .tc main_arg1))) :
    (fun (n : Fin 10000) (b : Fin 4) (f : Fin 128) => res_main_v98 (F := Ideal) V0 (ix3 n b f))
      = filt (V0 (Proc.devRef .tc main_arg1)) (V0 (Proc.devRef .tc main_arg2))
          (fun e k f g => V0 (Proc.devRef .tc main_arg3) (ix4 e k f g)) (fun g => V0 (Proc.devRef .tc main_arg4) (ix1 g))
          (fun n b f => V0 (Proc.devRef .tc main_arg0) (ix3 b n f)) := by
  funext n b f
  rw [res_v98_eq V0 hidx]
  rfl

theorem result_eq (V0 : Valuation τ sig (Elt Ideal)) (hidx : InRange (V0 (Proc.devRef .tc main_arg1))) :
    val4 (F := Ideal) V0 (Proc.devRef .tc main_v197)
      = refSpec (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) (V0 (Proc.devRef .tc main_arg6)) := by
  rw [v197_eq V0 hidx, layer1_eq V0 hidx]
  rfl

theorem run_spec (m : (ℓ : Loc nD τ sig) → Buf (Elt Ideal) ℓ) (ρ : Dev nD → PrngReg)
    (hidx : ∀ c : Dev nD, InRange (launchContents m c (Proc.devRef .tc main_arg1))) :
    θ_run defs (onTc (τ := τ) (main (F := Ideal))) ⟨m, fun _ => 0, ρ⟩ fun r => ∀ c : Dev nD,
      r.2.mem ((c.tc : Thread nD τ).loc main_v197)
          = refSpec (launchContents m c (Proc.devRef .tc main_arg0)) (launchContents m c (Proc.devRef .tc main_arg1))
              (launchContents m c (Proc.devRef .tc main_arg2)) (launchContents m c (Proc.devRef .tc main_arg3))
              (launchContents m c (Proc.devRef .tc main_arg4)) (launchContents m c (Proc.devRef .tc main_arg5))
              (launchContents m c (Proc.devRef .tc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val4_main_v197 (launchContents m c)).symm.trans (result_eq (launchContents m c) (hidx c))), (h c).2⟩)
    (Cert.ReferenceIdeal.Value.run (F := Ideal) m ρ)

end Cert.ReferenceIdeal.RefValue

end
-- ==== Proof.Algebra.lean ====
import proofs.«414074_j90701119357381_1_alg».proof.Proof.Spec
import Mathlib.Data.EReal.Basic
import Mathlib.Algebra.BigOperators.Ring.Finset
import Mathlib.Algebra.BigOperators.Group.Finset.Piecewise
import Mathlib.Algebra.BigOperators.Group.Finset.Sigma

noncomputable section

open scoped BigOperators

namespace Cert.Spec

open Idealize.ShloMosaic Idealize.ShloMosaic.ValueIdx

theorem coe_sum_real {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem real_zero : ∃ r : ℝ, (0 : EReal) = (r : EReal) := ⟨0, rfl⟩

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem real_ite {p : Prop} [Decidable p] {a b : EReal} (ha : ∃ r : ℝ, a = (r : EReal))
    (hb : ∃ r : ℝ, b = (r : EReal)) : ∃ r : ℝ, (if p then a else b) = (r : EReal) := by
  split
  · exact ha
  · exact hb

theorem real_sum {ι : Type*} (s : Finset ι) (f : ι → EReal) (h : ∀ i, ∃ r : ℝ, f i = (r : EReal)) :
    ∃ r : ℝ, ∑ i ∈ s, f i = (r : EReal) := by
  choose g hg using h
  refine ⟨∑ i ∈ s, g i, ?_⟩
  rw [coe_sum_real]
  exact Finset.sum_congr rfl (fun i _ => hg i)

theorem regroup_real {J C : Type*} [Fintype J] [Fintype C] [DecidableEq C] (p : J → Prop) [DecidablePred p]
    (cl : J → C) (v : J → ℝ) (w : C → ℝ) :
    ∑ c : C, (∑ j : J, if p j ∧ cl j = c then v j else 0) * w c
      = ∑ j : J, if p j then w (cl j) * v j else 0 := by
  simp_rw [Finset.sum_mul]
  rw [Finset.sum_comm]
  refine Finset.sum_congr rfl (fun j _ => ?_)
  by_cases h : p j
  · simp only [h, true_and, if_true, ite_mul, zero_mul]
    rw [Finset.sum_ite_eq]
    simp [mul_comm]
  · simp [h]

theorem regroup_ereal {J C : Type*} [Fintype J] [Fintype C] [DecidableEq C] (p : J → Prop) [DecidablePred p]
    (cl : J → C) (v : J → EReal) (w : C → EReal)
    (hv : ∀ j, ∃ r : ℝ, v j = (r : EReal)) (hw : ∀ c, ∃ r : ℝ, w c = (r : EReal)) :
    ∑ c : C, (∑ j : J, if p j ∧ cl j = c then v j else 0) * w c
      = ∑ j : J, if p j then w (cl j) * v j else 0 := by
  choose v' hv' using hv
  choose w' hw' using hw
  have e1 : ∀ c : C, (∑ j : J, if p j ∧ cl j = c then v j else 0) * w c
      = (((∑ j : J, if p j ∧ cl j = c then v' j else 0) * w' c : ℝ) : EReal) := by
    intro c
    rw [EReal.coe_mul, coe_sum_real, hw' c]
    congr 1
    refine Finset.sum_congr rfl (fun j _ => ?_)
    split_ifs
    · exact hv' j
    · rfl
  have e2 : ∀ j : J, (if p j then w (cl j) * v j else 0)
      = (((if p j then w' (cl j) * v' j else 0 : ℝ)) : EReal) := by
    intro j
    split_ifs
    · rw [EReal.coe_mul, hw' (cl j), hv' j]
    · rfl
  rw [Finset.sum_congr rfl (fun c _ => e1 c), Finset.sum_congr rfl (fun j _ => e2 j),
    ← coe_sum_real, ← coe_sum_real, regroup_real]

theorem pad_inj {a b : Fin 10000} : pad a = pad b ↔ a = b := by
  constructor
  · intro h
    have hv : (pad a).val = (pad b).val := congrArg Fin.val h
    exact Fin.ext hv
  · intro h
    rw [h]

def Real3 {N D : ℕ} (z : Fin N → Fin 4 → Fin D → EReal) : Prop :=
  ∀ n b f, ∃ r : ℝ, z n b f = (r : EReal)

section
variable (ei : SEI.Idx → BitVec 32) (ev : SEV.Idx → EReal)

theorem val_real (hev : AllReal ev) (e : Fin 2) (j : Fin 320000) : ∃ r : ℝ, val ev e j = (r : EReal) :=
  hev (ix2 e j)

theorem spmm_real {D : ℕ} (hev : AllReal ev) (e : Fin 2) (z : Fin 10000 → Fin 4 → Fin D → EReal)
    (hz : Real3 z) : Real3 (spmm ei ev e z) := by
  intro n b f
  simp only [spmm]
  exact real_sum _ _ (fun j => real_ite (real_mul (hz _ _ _) (val_real ev hev e j)) real_zero)

theorem dense_real (hev : AllReal ev) (e : Fin 2) (r c : Fin 10240) :
    ∃ x : ℝ, dense ei ev e r c = (x : EReal) := by
  simp only [dense]
  exact real_sum _ _ (fun j => real_ite (val_real ev hev e j) real_zero)

theorem dmul_real {D : ℕ} (hev : AllReal ev) (e : Fin 2) (z : Fin 10240 → Fin 4 → Fin D → EReal)
    (hz : Real3 z) : Real3 (dmul ei ev e z) := by
  intro r b f
  simp only [dmul]
  exact real_sum _ _ (fun c => real_mul (dense_real ei ev hev e r c) (hz c b f))

end

theorem mix_real {N D : ℕ} (W : Fin 2 → Fin 3 → Fin D → Fin 128 → EReal)
    (hW : ∀ e k f g, ∃ r : ℝ, W e k f g = (r : EReal)) (e : Fin 2) (k : Fin 3)
    (z : Fin N → Fin 4 → Fin D → EReal) (hz : Real3 z) : Real3 (mix W e k z) := by
  intro n b g
  simp only [mix]
  exact real_sum _ _ (fun f => real_mul (hz n b f) (hW e k f g))

section
variable (ei : SEI.Idx → BitVec 32) (ev : SEV.Idx → EReal)

theorem filtP_real {D : ℕ} (hev : AllReal ev) (W : Fin 2 → Fin 3 → Fin D → Fin 128 → EReal)
    (hW : ∀ e k f g, ∃ r : ℝ, W e k f g = (r : EReal)) (bias : Fin 128 → EReal)
    (hb : ∀ g, ∃ r : ℝ, bias g = (r : EReal)) (z : Fin 10240 → Fin 4 → Fin D → EReal) (hz : Real3 z) :
    Real3 (filtP ei ev W bias z) := by
  intro n b g
  have d0 := dmul_real ei ev hev 0 z hz
  have d1 := dmul_real ei ev hev 1 z hz
  have d00 := dmul_real ei ev hev 0 _ d0
  have d11 := dmul_real ei ev hev 1 _ d1
  simp only [filtP]
  exact real_add (real_add (real_add (real_add (real_add (real_add (hb g)
    (mix_real W hW 0 0 z hz n b g)) (mix_real W hW 0 1 _ d0 n b g)) (mix_real W hW 0 2 _ d00 n b g))
    (mix_real W hW 1 0 z hz n b g)) (mix_real W hW 1 1 _ d1 n b g)) (mix_real W hW 1 2 _ d11 n b g)

theorem dmul_eq_spmm {D : ℕ} (hev : AllReal ev) (e : Fin 2)
    (z' : Fin 10240 → Fin 4 → Fin D → EReal) (z : Fin 10000 → Fin 4 → Fin D → EReal)
    (hz' : Real3 z') (h : ∀ c b f, z' (pad c) b f = z c b f) (n : Fin 10000) (b : Fin 4) (f : Fin D) :
    dmul ei ev e z' (pad n) b f = spmm ei ev e z n b f := by
  have key := regroup_ereal (p := fun j => pad (row ei e j) = pad n) (cl := fun j => pad (col ei e j))
    (v := fun j => val ev e j) (w := fun c => z' c b f) (fun j => val_real ev hev e j) (fun c => hz' c b f)
  simp only [dmul, dense, spmm]
  refine key.trans ?_
  refine Finset.sum_congr rfl (fun j _ => ?_)
  rw [h]
  exact if_congr pad_inj rfl rfl

end

theorem mix_agree {D : ℕ} (W : Fin 2 → Fin 3 → Fin D → Fin 128 → EReal) (e : Fin 2) (k : Fin 3)
    (z' : Fin 10240 → Fin 4 → Fin D → EReal) (z : Fin 10000 → Fin 4 → Fin D → EReal)
    (h : ∀ c b f, z' (pad c) b f = z c b f) (n : Fin 10000) (b : Fin 4) (g : Fin 128) :
    mix W e k z' (pad n) b g = mix W e k z n b g := by
  simp only [mix, h]

section
variable (ei : SEI.Idx → BitVec 32) (ev : SEV.Idx → EReal)

theorem filtP_eq_filt {D : ℕ} (hev : AllReal ev) (W : Fin 2 → Fin 3 → Fin D → Fin 128 → EReal)
    (bias : Fin 128 → EReal) (z' : Fin 10240 → Fin 4 → Fin D → EReal) (z : Fin 10000 → Fin 4 → Fin D → EReal)
    (hz' : Real3 z') (h : ∀ c b f, z' (pad c) b f = z c b f) (n : Fin 10000) (b : Fin 4) (g : Fin 128) :
    filtP ei ev W bias z' (pad n) b g = filt ei ev W bias z n b g := by
  have h0 := dmul_eq_spmm ei ev hev 0 z' z hz' h
  have h1 := dmul_eq_spmm ei ev hev 1 z' z hz' h
  have h00 := dmul_eq_spmm ei ev hev 0 _ _ (dmul_real ei ev hev 0 z' hz') h0
  have h11 := dmul_eq_spmm ei ev hev 1 _ _ (dmul_real ei ev hev 1 z' hz') h1
  simp only [filtP, filt]
  rw [mix_agree W 0 0 z' z h, mix_agree W 0 1 _ _ h0, mix_agree W 0 2 _ _ h00, mix_agree W 1 0 z' z h,
    mix_agree W 1 1 _ _ h1, mix_agree W 1 2 _ _ h11, zero_add]
  ac_rfl

end

theorem zpad_real (x : SX.Idx → EReal) (hx : AllReal x) : Real3 (zpad x) := by
  intro n b f
  simp only [zpad]
  split
  · exact hx _
  · exact real_zero

theorem zpad_pad (x : SX.Idx → EReal) (c : Fin 10000) (b : Fin 4) (f : Fin 64) :
    zpad x (pad c) b f = x (ix3 b c f) := by
  have hc : (pad c).val < 10000 := c.isLt
  show (if h : (pad c).val < 10000 then x (ix3 b (⟨(pad c).val, h⟩ : Fin 10000) f) else 0) = _
  rw [dif_pos hc]
  rfl

theorem kernelSpec_eq_refSpec (x : SX.Idx → EReal) (ei : SEI.Idx → BitVec 32) (ev : SEV.Idx → EReal)
    (W1 : SW1.Idx → EReal) (b1 : SB.Idx → EReal) (W2 : SW2.Idx → EReal) (b2 : SB.Idx → EReal)
    (hx : AllReal x) (hev : AllReal ev) (hW1 : AllReal W1) (hb1 : AllReal b1) (hW2 : AllReal W2)
    (hb2 : AllReal b2) :
    kernelSpec x ei ev W1 b1 W2 b2 = refSpec x ei ev W1 b1 W2 b2 := by
  funext i
  have hW2' : ∀ e k f g, ∃ r : ℝ, W2 (ix4 e k f g) = (r : EReal) := fun e k f g => hW2 (ix4 e k f g)
  have hW1' : ∀ e k f g, ∃ r : ℝ, W1 (ix4 e k f g) = (r : EReal) := fun e k f g => hW1 (ix4 e k f g)
  have hb1' : ∀ g, ∃ r : ℝ, b1 (ix1 g) = (r : EReal) := fun g => hb1 (ix1 g)
  have s1 : ∀ c b f,
      filtP ei ev (fun e k f g => W1 (ix4 e k f g)) (fun g => b1 (ix1 g)) (zpad x) (pad c) b f
        = filt ei ev (fun e k f g => W1 (ix4 e k f g)) (fun g => b1 (ix1 g)) (fun n b f => x (ix3 b n f)) c b f :=
    filtP_eq_filt ei ev hev _ _ (zpad x) _ (zpad_real x hx) (zpad_pad x)
  have r1 : Real3 (filtP ei ev (fun e k f g => W1 (ix4 e k f g)) (fun g => b1 (ix1 g)) (zpad x)) :=
    filtP_real ei ev hev _ hW1' _ hb1' _ (zpad_real x hx)
  exact filtP_eq_filt ei ev hev (fun e k f g => W2 (ix4 e k f g)) (fun g => b2 (ix1 g)) _ _ r1 s1
    ⟨0, by norm_num⟩ (i 0) (i 1)

end Cert.Spec

end
-- ==== Proof.PreFacts.lean ====
import proofs.«414074_j90701119357381_1_alg».proof.Pre_finite_inputs
import proofs.«414074_j90701119357381_1_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.Hand

open Idealize.ShloMosaic

namespace PreFacts

instance subsingleton_S_ : Subsingleton Cert.Pre_finite_inputs.S_.Idx := ⟨fun a b => funext fun d => d.elim0⟩

theorem inf_pattern : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) :
    ∃ r : ℝ, x = (r : EReal) := by
  rw [inf_pattern] at h
  simp only [Ideal.cmp, StableHlo.Predicate.ofBool_eq_one_iff, decide_eq_true_eq] at h
  induction x using EReal.rec with
  | bot => simp at h
  | coe r => exact ⟨r, rfl⟩
  | top => simp at h

theorem toNat_lt_of_signed (w : BitVec 32) (h0 : IntOp.cmpi .sge w 0#32 = 1#1)
    (h1 : IntOp.cmpi .slt w 10000#32 = 1#1) : w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have h32 := w.isLt
  rw [BitVec.toInt_eq_toNat_cond] at h0 h1
  split at h0 <;> omega

theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf a)
            (broadcastInDim s ![] hb (constant (F := Ideal) Cert.Pre_finite_inputs.S_ .f32 0x7F800000#32)))
          init hr h0 ValueIdx.ix0 = 1#1) :
    Cert.Spec.AllReal a := by
  intro i
  have hi := Host.reduce_andi_all _ _ hr h0 _ e i
  exact real_of_abs_lt (a i) hi

theorem inRange_of_all {axes : List (Fin Cert.Pre_finite_inputs.S2x2x320000.rank)}
    (a : IVec Cert.Pre_finite_inputs.S2x2x320000 32)
    (hb : Cert.Pre_finite_inputs.S_.BroadcastsInDim Cert.Pre_finite_inputs.S2x2x320000
      (![] : Fin 0 → Fin Cert.Pre_finite_inputs.S2x2x320000.rank))
    (hr : Cert.Pre_finite_inputs.S2x2x320000.ReducesTo axes Cert.Pre_finite_inputs.S_)
    (h0 : 0 < Cert.Pre_finite_inputs.S_.numel)
    (init : IVec Cert.Pre_finite_inputs.S_ 1)
    (e : Host.reduce IntOp.andi
          (andi
            (cmpi .sge a (broadcastInDim Cert.Pre_finite_inputs.S2x2x320000 ![] hb
              (constantI Cert.Pre_finite_inputs.S_ 32 0#32)))
            (cmpi .slt a (broadcastInDim Cert.Pre_finite_inputs.S2x2x320000 ![] hb
              (constantI Cert.Pre_finite_inputs.S_ 32 10000#32))))
          init hr h0 ValueIdx.ix0 = 1#1) :
    Cert.Spec.InRange a := by
  intro i
  have hi := Host.reduce_andi_all _ _ hr h0 _ e i
  obtain ⟨h1, h2⟩ := IntOp.andi_eq_one.1 hi
  exact toNat_lt_of_signed (a i) h1 h2

end PreFacts

open PreFacts in

theorem facts_of_pre [Cert.Pre_finite_inputs.Facts]
    (a0 : FVec Ideal Cert.Pre_finite_inputs.S4x10000x64 .f32) (a1 : IVec Cert.Pre_finite_inputs.S2x2x320000 32)
    (a2 : FVec Ideal Cert.Pre_finite_inputs.S2x320000 .f32)
    (a3 : FVec Ideal Cert.Pre_finite_inputs.S2x3x64x128 .f32) (a4 : FVec Ideal Cert.Pre_finite_inputs.S128 .f32)
    (a5 : FVec Ideal Cert.Pre_finite_inputs.S2x3x128x128 .f32) (a6 : FVec Ideal Cert.Pre_finite_inputs.S128 .f32)
    (h : Cert.Pre_finite_inputs.fn (F := Ideal) a0 a1 a2 a3 a4 a5 a6 = fun _ => 1#1) :
    Cert.Spec.AllReal a0 ∧ Cert.Spec.InRange a1 ∧ Cert.Spec.AllReal a2 ∧ Cert.Spec.AllReal a3 ∧ Cert.Spec.AllReal a4
      ∧ Cert.Spec.AllReal a5 ∧ Cert.Spec.AllReal a6 := by
  have e := congrFun h ValueIdx.ix0
  dsimp only [Cert.Pre_finite_inputs.fn, Cert.Pre_finite_inputs.fn_part1, Cert.Pre_finite_inputs.fn_part2] at e
  obtain ⟨e, e1⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨allReal_of_all a0 _ _ _ _ e0, inRange_of_all a1 _ _ _ _ e1, allReal_of_all a2 _ _ _ _ e2,
    allReal_of_all a3 _ _ _ _ e3, allReal_of_all a4 _ _ _ _ e4, allReal_of_all a5 _ _ _ _ e5,
    allReal_of_all a6 _ _ _ _ e6⟩

end Cert.Hand

end
-- ==== Proof.lean ====
/- A two-layer graph filter read at node 0: dense padded operators times signals on one side, edge-list gather and
   segment sum on the other; equal over the extended reals for finite inputs and edge indices in range. -/
import proofs.«414074_j90701119357381_1_alg».proof.Defs
import proofs.«414074_j90701119357381_1_alg».proof.Proof.Gen.Kernel
import proofs.«414074_j90701119357381_1_alg».proof.Proof.Gen.KernelIdeal
import proofs.«414074_j90701119357381_1_alg».proof.Proof.Gen.ReferenceIdeal
import proofs.«414074_j90701119357381_1_alg».proof.Proof.Gen.Pre_finite_inputs
import proofs.«414074_j90701119357381_1_alg».proof.Proof.K.Run
import proofs.«414074_j90701119357381_1_alg».proof.Proof.KI.Run
import proofs.«414074_j90701119357381_1_alg».proof.Proof.KI.Value
import proofs.«414074_j90701119357381_1_alg».proof.Proof.RefValue
import proofs.«414074_j90701119357381_1_alg».proof.Proof.Algebra
import proofs.«414074_j90701119357381_1_alg».proof.Proof.PreFacts
import Idealize.ShloMosaic.Adequacy
import Idealize.ShloMosaic.Init

noncomputable section

namespace Cert.Proof

open Idealize.ShloMosaic Idealize.ShloMosaic.TcCoe Idealize.SL.Sem Cert.Spec

theorem frame_p : Cert.frame_Kernel := fun m ρ _ =>
  (θ_run Cert.Kernel.defs _ _).mono (fun _ h c => (h c).2) (Cert.Kernel.Hand.run_value (F := Bits) m ρ)

theorem frame_pi : Cert.frame_KernelIdeal := fun m ρ _ =>
  (θ_run Cert.KernelIdeal.defs _ _).mono (fun _ h c => (h c).2) (Cert.KernelIdeal.Hand.run_value (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hf := fun c : Dev Cert.KernelIdeal.nD => Cert.Hand.facts_of_pre _ _ _ _ _ _ _ (hpre c)
  refine ⟨fun c => kernelSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.kval m c (hf c).2.1), (h c).2⟩)
      (Cert.KernelIdeal.Hand.run_value (F := Ideal) m ρ)
  · have hidx' : ∀ c : Dev Cert.ReferenceIdeal.nD,
        InRange (StableHlo.launchContents m' c (Proc.devRef .tc Cert.ReferenceIdeal.main_arg1)) := fun c => by
      show InRange (m' ((c.tc : Thread Cert.ReferenceIdeal.nD Cert.ReferenceIdeal.τ).loc Cert.ReferenceIdeal.main_arg1))
      rw [(hagree c).2.1]
      exact (hf c).2.1
    refine (θ_run Cert.ReferenceIdeal.defs _ _).mono (fun _ h c => ⟨(h c).1.trans ?_, (h c).2⟩)
      (Cert.ReferenceIdeal.RefValue.run_spec m' ρ' hidx')
    show refSpec
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = _
    rw [(hagree c).1, (hagree c).2.1, (hagree c).2.2.1, (hagree c).2.2.2.1, (hagree c).2.2.2.2.1, (hagree c).2.2.2.2.2.1,
      (hagree c).2.2.2.2.2.2]
    exact (kernelSpec_eq_refSpec _ _ _ _ _ _ _ (hf c).1 (hf c).2.2.1 (hf c).2.2.2.1 (hf c).2.2.2.2.1 (hf c).2.2.2.2.2.1
      (hf c).2.2.2.2.2.2).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
